-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v218)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v218) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v414) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2x50000x128 : Shape := ⟨4, ![2, 2, 50000, 128]⟩
abbrev S800000 : Shape := ⟨1, ![800000]⟩
abbrev S2x50000x3 : Shape := ⟨3, ![2, 50000, 3]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x64 : Shape := ⟨2, ![256, 64]⟩
abbrev S64 : Shape := ⟨1, ![64]⟩
abbrev S2x64x12 : Shape := ⟨3, ![2, 64, 12]⟩
abbrev S2x12 : Shape := ⟨2, ![2, 12]⟩
abbrev S2x64x8 : Shape := ⟨3, ![2, 64, 8]⟩
abbrev S2x8 : Shape := ⟨2, ![2, 8]⟩
abbrev S2x64x5 : Shape := ⟨3, ![2, 64, 5]⟩
abbrev S2x5 : Shape := ⟨2, ![2, 5]⟩
abbrev S_ : Shape := ⟨0, ![]⟩
abbrev S2x50000x1 : Shape := ⟨3, ![2, 50000, 1]⟩

class Facts : Prop where
  bcast_S_S2x2x50000x128 : S_.BroadcastsInDim S2x2x50000x128 (![] : Fin 0 → Fin S2x2x50000x128.rank)
  reducesTo_S2x2x50000x128_S_d0_1_2_3 : S2x2x50000x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S2x64x12 : S_.BroadcastsInDim S2x64x12 (![] : Fin 0 → Fin S2x64x12.rank)
  reducesTo_S2x64x12_S_d0_1_2 : S2x64x12.ReducesTo [0, 1, 2] S_
  bcast_S_S2x12 : S_.BroadcastsInDim S2x12 (![] : Fin 0 → Fin S2x12.rank)
  reducesTo_S2x12_S_d0_1 : S2x12.ReducesTo [0, 1] S_
  bcast_S_S2x64x8 : S_.BroadcastsInDim S2x64x8 (![] : Fin 0 → Fin S2x64x8.rank)
  reducesTo_S2x64x8_S_d0_1_2 : S2x64x8.ReducesTo [0, 1, 2] S_
  bcast_S_S2x8 : S_.BroadcastsInDim S2x8 (![] : Fin 0 → Fin S2x8.rank)
  reducesTo_S2x8_S_d0_1 : S2x8.ReducesTo [0, 1] S_
  bcast_S_S2x64x5 : S_.BroadcastsInDim S2x64x5 (![] : Fin 0 → Fin S2x64x5.rank)
  reducesTo_S2x64x5_S_d0_1_2 : S2x64x5.ReducesTo [0, 1, 2] S_
  bcast_S_S2x5 : S_.BroadcastsInDim S2x5 (![] : Fin 0 → Fin S2x5.rank)
  reducesTo_S2x5_S_d0_1 : S2x5.ReducesTo [0, 1] S_
  slices_S2x50000x3_S2x50000x1_0_0_0 : S2x50000x3.Slices ![0, 0, 0] S2x50000x1
  bcast_S_S2x50000x1 : S_.BroadcastsInDim S2x50000x1 (![] : Fin 0 → Fin S2x50000x1.rank)
  reducesTo_S2x50000x1_S_d0_1_2 : S2x50000x1.ReducesTo [0, 1, 2] S_
  slices_S2x50000x3_S2x50000x1_0_0_1 : S2x50000x3.Slices ![0, 0, 1] S2x50000x1
  slices_S2x50000x3_S2x50000x1_0_0_2 : S2x50000x3.Slices ![0, 0, 2] S2x50000x1

variable [Facts]

def fn_part7 {F : FTy → Type} [FloatOps F] (main_arg3 : IVec S2x50000x3 32) (main_v117 : IVec S_ 1) (main_v118 : IVec S2x50000x1 32) (main_v119 : IVec S2x50000x1 32) : IVec S_ 1 :=
  let main_v120 : IVec S2x50000x1 1 := cmpi .sge main_v118 main_v119
  let main_v121 : IVec S2x50000x1 32 := (extractStridedSlice S2x50000x1 ![0, 0, 1] · slices_S2x50000x3_S2x50000x1_0_0_1) main_arg3
  let main_c_46 : IVec S_ 32 := constantI S_ 32 8#32
  let main_v122 : IVec S2x50000x1 32 := broadcastInDim S2x50000x1 ![] bcast_S_S2x50000x1 main_c_46
  let main_v123 : IVec S2x50000x1 1 := cmpi .slt main_v121 main_v122
  let main_v124 : IVec S2x50000x1 1 := andi main_v120 main_v123
  let main_c_47 : IVec S_ 1 := constantI S_ 1 1#1
  let main_v125 : IVec S_ 1 := (fun x v => Host.reduce IntOp.andi x v reducesTo_S2x50000x1_S_d0_1_2 h_S_) main_v124 main_c_47
  let main_v126 : IVec S_ 1 := andi main_v117 main_v125
  let main_v127 : IVec S2x50000x1 32 := (extractStridedSlice S2x50000x1 ![0, 0, 2] · slices_S2x50000x3_S2x50000x1_0_0_2) main_arg3
  let main_c_48 : IVec S_ 32 := constantI S_ 32 0#32
  let main_v128 : IVec S2x50000x1 32 := broadcastInDim S2x50000x1 ![] bcast_S_S2x50000x1 main_c_48
  let main_v129 : IVec S2x50000x1 1 := cmpi .sge main_v127 main_v128
  let main_v130 : IVec S2x50000x1 32 := (extractStridedSlice S2x50000x1 ![0, 0, 2] · slices_S2x50000x3_S2x50000x1_0_0_2) main_arg3
  let main_c_49 : IVec S_ 32 := constantI S_ 32 5#32
  let main_v131 : IVec S2x50000x1 32 := broadcastInDim S2x50000x1 ![] bcast_S_S2x50000x1 main_c_49
  let main_v132 : IVec S2x50000x1 1 := cmpi .slt main_v130 main_v131
  let main_v133 : IVec S2x50000x1 1 := andi main_v129 main_v132
  let main_c_50 : IVec S_ 1 := constantI S_ 1 1#1
  let main_v134 : IVec S_ 1 := (fun x v => Host.reduce IntOp.andi x v reducesTo_S2x50000x1_S_d0_1_2 h_S_) main_v133 main_c_50
  let main_v135 : IVec S_ 1 := andi main_v126 main_v134
  main_v135

def fn_part6 {F : FTy → Type} [FloatOps F] (main_arg3 : IVec S2x50000x3 32) (main_arg24 : FVec F S2x64x5 .f32) (main_v98 : IVec S_ 1) (main_v101 : IVec S2x5 1) (main_c_39 : IVec S_ 1) : IVec S_ 1 :=
  let main_v102 : IVec S_ 1 := (fun x v => Host.reduce IntOp.andi x v reducesTo_S2x5_S_d0_1 h_S_) main_v101 main_c_39
  let main_v103 : IVec S_ 1 := andi main_v98 main_v102
  let main_v104 : FVec F S2x64x5 .f32 := Host.absf main_arg24
  let main_cst_40 : FVec F S_ .f32 := constant S_ .f32 0x7F800000#32
  let main_v105 : FVec F S2x64x5 .f32 := broadcastInDim S2x64x5 ![] bcast_S_S2x64x5 main_cst_40
  let main_v106 : IVec S2x64x5 1 := cmpf .olt main_v104 main_v105
  let main_c_41 : IVec S_ 1 := constantI S_ 1 1#1
  let main_v107 : IVec S_ 1 := (fun x v => Host.reduce IntOp.andi x v reducesTo_S2x64x5_S_d0_1_2 h_S_) main_v106 main_c_41
  let main_v108 : IVec S_ 1 := andi main_v103 main_v107
  let main_v109 : IVec S2x50000x1 32 := (extractStridedSlice S2x50000x1 ![0, 0, 0] · slices_S2x50000x3_S2x50000x1_0_0_0) main_arg3
  let main_c_42 : IVec S_ 32 := constantI S_ 32 0#32
  let main_v110 : IVec S2x50000x1 32 := broadcastInDim S2x50000x1 ![] bcast_S_S2x50000x1 main_c_42
  let main_v111 : IVec S2x50000x1 1 := cmpi .sge main_v109 main_v110
  let main_v112 : IVec S2x50000x1 32 := (extractStridedSlice S2x50000x1 ![0, 0, 0] · slices_S2x50000x3_S2x50000x1_0_0_0) main_arg3
  let main_c_43 : IVec S_ 32 := constantI S_ 32 12#32
  let main_v113 : IVec S2x50000x1 32 := broadcastInDim S2x50000x1 ![] bcast_S_S2x50000x1 main_c_43
  let main_v114 : IVec S2x50000x1 1 := cmpi .slt main_v112 main_v113
  let main_v115 : IVec S2x50000x1 1 := andi main_v111 main_v114
  let main_c_44 : IVec S_ 1 := constantI S_ 1 1#1
  let main_v116 : IVec S_ 1 := (fun x v => Host.reduce IntOp.andi x v reducesTo_S2x50000x1_S_d0_1_2 h_S_) main_v115 main_c_44
  let main_v117 : IVec S_ 1 := andi main_v108 main_v116
  let main_v118 : IVec S2x50000x1 32 := (extractStridedSlice S2x50000x1 ![0, 0, 1] · slices_S2x50000x3_S2x50000x1_0_0_1) main_arg3
  let main_c_45 : IVec S_ 32 := constantI S_ 32 0#32
  let main_v119 : IVec S2x50000x1 32 := broadcastInDim S2x50000x1 ![] bcast_S_S2x50000x1 main_c_45
  fn_part7 (F := F) main_arg3 main_v117 main_v118 main_v119

def fn_part5 {F : FTy → Type} [FloatOps F] (main_arg3 : IVec S2x50000x3 32) (main_arg21 : FVec F S2x64x8 .f32) (main_arg22 : FVec F S2x64x5 .f32) (main_arg23 : FVec F S2x5 .f32) (main_arg24 : FVec F S2x64x5 .f32) (main_v83 : IVec S_ 1) (main_v84 : FVec F S2x8 .f32) (main_cst_32 : FVec F S_ .f32) : IVec S_ 1 :=
  let main_v85 : FVec F S2x8 .f32 := broadcastInDim S2x8 ![] bcast_S_S2x8 main_cst_32
  let main_v86 : IVec S2x8 1 := cmpf .olt main_v84 main_v85
  let main_c_33 : IVec S_ 1 := constantI S_ 1 1#1
  let main_v87 : IVec S_ 1 := (fun x v => Host.reduce IntOp.andi x v reducesTo_S2x8_S_d0_1 h_S_) main_v86 main_c_33
  let main_v88 : IVec S_ 1 := andi main_v83 main_v87
  let main_v89 : FVec F S2x64x8 .f32 := Host.absf main_arg21
  let main_cst_34 : FVec F S_ .f32 := constant S_ .f32 0x7F800000#32
  let main_v90 : FVec F S2x64x8 .f32 := broadcastInDim S2x64x8 ![] bcast_S_S2x64x8 main_cst_34
  let main_v91 : IVec S2x64x8 1 := cmpf .olt main_v89 main_v90
  let main_c_35 : IVec S_ 1 := constantI S_ 1 1#1
  let main_v92 : IVec S_ 1 := (fun x v => Host.reduce IntOp.andi x v reducesTo_S2x64x8_S_d0_1_2 h_S_) main_v91 main_c_35
  let main_v93 : IVec S_ 1 := andi main_v88 main_v92
  let main_v94 : FVec F S2x64x5 .f32 := Host.absf main_arg22
  let main_cst_36 : FVec F S_ .f32 := constant S_ .f32 0x7F800000#32
  let main_v95 : FVec F S2x64x5 .f32 := broadcastInDim S2x64x5 ![] bcast_S_S2x64x5 main_cst_36
  let main_v96 : IVec S2x64x5 1 := cmpf .olt main_v94 main_v95
  let main_c_37 : IVec S_ 1 := constantI S_ 1 1#1
  let main_v97 : IVec S_ 1 := (fun x v => Host.reduce IntOp.andi x v reducesTo_S2x64x5_S_d0_1_2 h_S_) main_v96 main_c_37
  let main_v98 : IVec S_ 1 := andi main_v93 main_v97
  let main_v99 : FVec F S2x5 .f32 := Host.absf main_arg23
  let main_cst_38 : FVec F S_ .f32 := constant S_ .f32 0x7F800000#32
  let main_v100 : FVec F S2x5 .f32 := broadcastInDim S2x5 ![] bcast_S_S2x5 main_cst_38
  let main_v101 : IVec S2x5 1 := cmpf .olt main_v99 main_v100
  let main_c_39 : IVec S_ 1 := constantI S_ 1 1#1
  fn_part6 (F := F) main_arg3 main_arg24 main_v98 main_v101 main_c_39

def fn_part4 {F : FTy → Type} [FloatOps F] (main_arg3 : IVec S2x50000x3 32) (main_arg17 : FVec F S2x12 .f32) (main_arg18 : FVec F S2x64x12 .f32) (main_arg19 : FVec F S2x64x8 .f32) (main_arg20 : FVec F S2x8 .f32) (main_arg21 : FVec F S2x64x8 .f32) (main_arg22 : FVec F S2x64x5 .f32) (main_arg23 : FVec F S2x5 .f32) (main_arg24 : FVec F S2x64x5 .f32) (main_v63 : IVec S_ 1) (main_v67 : IVec S_ 1) : IVec S_ 1 :=
  let main_v68 : IVec S_ 1 := andi main_v63 main_v67
  let main_v69 : FVec F S2x12 .f32 := Host.absf main_arg17
  let main_cst_26 : FVec F S_ .f32 := constant S_ .f32 0x7F800000#32
  let main_v70 : FVec F S2x12 .f32 := broadcastInDim S2x12 ![] bcast_S_S2x12 main_cst_26
  let main_v71 : IVec S2x12 1 := cmpf .olt main_v69 main_v70
  let main_c_27 : IVec S_ 1 := constantI S_ 1 1#1
  let main_v72 : IVec S_ 1 := (fun x v => Host.reduce IntOp.andi x v reducesTo_S2x12_S_d0_1 h_S_) main_v71 main_c_27
  let main_v73 : IVec S_ 1 := andi main_v68 main_v72
  let main_v74 : FVec F S2x64x12 .f32 := Host.absf main_arg18
  let main_cst_28 : FVec F S_ .f32 := constant S_ .f32 0x7F800000#32
  let main_v75 : FVec F S2x64x12 .f32 := broadcastInDim S2x64x12 ![] bcast_S_S2x64x12 main_cst_28
  let main_v76 : IVec S2x64x12 1 := cmpf .olt main_v74 main_v75
  let main_c_29 : IVec S_ 1 := constantI S_ 1 1#1
  let main_v77 : IVec S_ 1 := (fun x v => Host.reduce IntOp.andi x v reducesTo_S2x64x12_S_d0_1_2 h_S_) main_v76 main_c_29
  let main_v78 : IVec S_ 1 := andi main_v73 main_v77
  let main_v79 : FVec F S2x64x8 .f32 := Host.absf main_arg19
  let main_cst_30 : FVec F S_ .f32 := constant S_ .f32 0x7F800000#32
  let main_v80 : FVec F S2x64x8 .f32 := broadcastInDim S2x64x8 ![] bcast_S_S2x64x8 main_cst_30
  let main_v81 : IVec S2x64x8 1 := cmpf .olt main_v79 main_v80
  let main_c_31 : IVec S_ 1 := constantI S_ 1 1#1
  let main_v82 : IVec S_ 1 := (fun x v => Host.reduce IntOp.andi x v reducesTo_S2x64x8_S_d0_1_2 h_S_) main_v81 main_c_31
  let main_v83 : IVec S_ 1 := andi main_v78 main_v82
  let main_v84 : FVec F S2x8 .f32 := Host.absf main_arg20
  let main_cst_32 : FVec F S_ .f32 := constant S_ .f32 0x7F800000#32
  fn_part5 (F := F) main_arg3 main_arg21 main_arg22 main_arg23 main_arg24 main_v83 main_v84 main_cst_32

def fn_part3 {F : FTy → Type} [FloatOps F] (main_arg3 : IVec S2x50000x3 32) (main_arg14 : FVec F S64 .f32) (main_arg15 : FVec F S256x64 .f32) (main_arg16 : FVec F S2x64x12 .f32) (main_arg17 : FVec F S2x12 .f32) (main_arg18 : FVec F S2x64x12 .f32) (main_arg19 : FVec F S2x64x8 .f32) (main_arg20 : FVec F S2x8 .f32) (main_arg21 : FVec F S2x64x8 .f32) (main_arg22 : FVec F S2x64x5 .f32) (main_arg23 : FVec F S2x5 .f32) (main_arg24 : FVec F S2x64x5 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S256x64 .f32 := Host.absf main_arg15
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S2x64x12 .f32 := Host.absf main_arg16
  let main_cst_24 : FVec F S_ .f32 := constant S_ .f32 0x7F800000#32
  let main_v65 : FVec F S2x64x12 .f32 := broadcastInDim S2x64x12 ![] bcast_S_S2x64x12 main_cst_24
  let main_v66 : IVec S2x64x12 1 := cmpf .olt main_v64 main_v65
  let main_c_25 : IVec S_ 1 := constantI S_ 1 1#1
  let main_v67 : IVec S_ 1 := (fun x v => Host.reduce IntOp.andi x v reducesTo_S2x64x12_S_d0_1_2 h_S_) main_v66 main_c_25
  fn_part4 (F := F) main_arg3 main_arg17 main_arg18 main_arg19 main_arg20 main_arg21 main_arg22 main_arg23 main_arg24 main_v63 main_v67

def fn_part2 {F : FTy → Type} [FloatOps F] (main_arg3 : IVec S2x50000x3 32) (main_arg10 : FVec F S256x256 .f32) (main_arg11 : FVec F S256 .f32) (main_arg12 : FVec F S256x256 .f32) (main_arg13 : FVec F S256x64 .f32) (main_arg14 : FVec F S64 .f32) (main_arg15 : FVec F S256x64 .f32) (main_arg16 : FVec F S2x64x12 .f32) (main_arg17 : FVec F S2x12 .f32) (main_arg18 : FVec F S2x64x12 .f32) (main_arg19 : FVec F S2x64x8 .f32) (main_arg20 : FVec F S2x8 .f32) (main_arg21 : FVec F S2x64x8 .f32) (main_arg22 : FVec F S2x64x5 .f32) (main_arg23 : FVec F S2x5 .f32) (main_arg24 : FVec F S2x64x5 .f32) (main_v33 : IVec S_ 1) : IVec S_ 1 :=
  let main_v34 : FVec F S256x256 .f32 := Host.absf main_arg10
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg12
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x64 .f32 := Host.absf main_arg13
  let main_cst_18 : FVec F S_ .f32 := constant S_ .f32 0x7F800000#32
  let main_v50 : FVec F S256x64 .f32 := broadcastInDim S256x64 ![] bcast_S_S256x64 main_cst_18
  fn_part3 (F := F) main_arg3 main_arg14 main_arg15 main_arg16 main_arg17 main_arg18 main_arg19 main_arg20 main_arg21 main_arg22 main_arg23 main_arg24 main_v48 main_v49 main_v50

def fn_part1 {F : FTy → Type} [FloatOps F] (main_arg3 : IVec S2x50000x3 32) (main_arg7 : FVec F S128x128 .f32) (main_arg8 : FVec F S128 .f32) (main_arg9 : FVec F S128x128 .f32) (main_arg10 : FVec F S256x256 .f32) (main_arg11 : FVec F S256 .f32) (main_arg12 : FVec F S256x256 .f32) (main_arg13 : FVec F S256x64 .f32) (main_arg14 : FVec F S64 .f32) (main_arg15 : FVec F S256x64 .f32) (main_arg16 : FVec F S2x64x12 .f32) (main_arg17 : FVec F S2x12 .f32) (main_arg18 : FVec F S2x64x12 .f32) (main_arg19 : FVec F S2x64x8 .f32) (main_arg20 : FVec F S2x8 .f32) (main_arg21 : FVec F S2x64x8 .f32) (main_arg22 : FVec F S2x64x5 .f32) (main_arg23 : FVec F S2x5 .f32) (main_arg24 : FVec F S2x64x5 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg3 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S2x2x50000x128 .f32) (main_arg1 : IVec S800000 32) (main_arg2 : IVec S800000 32) (main_arg3 : IVec S2x50000x3 32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S256x256 .f32) (main_arg11 : FVec F S256 .f32) (main_arg12 : FVec F S256x256 .f32) (main_arg13 : FVec F S256x64 .f32) (main_arg14 : FVec F S64 .f32) (main_arg15 : FVec F S256x64 .f32) (main_arg16 : FVec F S2x64x12 .f32) (main_arg17 : FVec F S2x12 .f32) (main_arg18 : FVec F S2x64x12 .f32) (main_arg19 : FVec F S2x64x8 .f32) (main_arg20 : FVec F S2x8 .f32) (main_arg21 : FVec F S2x64x8 .f32) (main_arg22 : FVec F S2x64x5 .f32) (main_arg23 : FVec F S2x5 .f32) (main_arg24 : FVec F S2x64x5 .f32) : IVec S_ 1 :=
  let main_v0 : FVec F S2x2x50000x128 .f32 := Host.absf main_arg0
  let main_cst : FVec F S_ .f32 := constant S_ .f32 0x7F800000#32
  let main_v1 : FVec F S2x2x50000x128 .f32 := broadcastInDim S2x2x50000x128 ![] bcast_S_S2x2x50000x128 main_cst
  let main_v2 : IVec S2x2x50000x128 1 := cmpf .olt main_v0 main_v1
  let main_c : IVec S_ 1 := constantI S_ 1 1#1
  let main_v3 : IVec S_ 1 := (fun x v => Host.reduce IntOp.andi x v reducesTo_S2x2x50000x128_S_d0_1_2_3 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S2x2x50000x128 : Shape := ⟨4, ![2, 2, 50000, 128]⟩
abbrev S800000 : Shape := ⟨1, ![800000]⟩
abbrev S2x50000x3 : Shape := ⟨3, ![2, 50000, 3]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x64 : Shape := ⟨2, ![256, 64]⟩
abbrev S64 : Shape := ⟨1, ![64]⟩
abbrev S2x64x12 : Shape := ⟨3, ![2, 64, 12]⟩
abbrev S2x12 : Shape := ⟨2, ![2, 12]⟩
abbrev S2x64x8 : Shape := ⟨3, ![2, 64, 8]⟩
abbrev S2x8 : Shape := ⟨2, ![2, 8]⟩
abbrev S2x64x5 : Shape := ⟨3, ![2, 64, 5]⟩
abbrev S2x5 : Shape := ⟨2, ![2, 5]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x1x50000x128 : Shape := ⟨4, ![1, 1, 50000, 128]⟩
abbrev S50000x128 : Shape := ⟨2, ![50000, 128]⟩
abbrev S800000x128 : Shape := ⟨2, ![800000, 128]⟩
abbrev S2000x128 : Shape := ⟨2, ![2000, 128]⟩
abbrev S1x128 : Shape := ⟨2, ![1, 128]⟩
abbrev S50000x256 : Shape := ⟨2, ![50000, 256]⟩
abbrev S800000x256 : Shape := ⟨2, ![800000, 256]⟩
abbrev S2000x256 : Shape := ⟨2, ![2000, 256]⟩
abbrev S1x256 : Shape := ⟨2, ![1, 256]⟩
abbrev S50000x64 : Shape := ⟨2, ![50000, 64]⟩
abbrev S2000x64 : Shape := ⟨2, ![2000, 64]⟩
abbrev S1x64 : Shape := ⟨2, ![1, 64]⟩
abbrev S800000x64 : Shape := ⟨2, ![800000, 64]⟩
abbrev S1x50000x1 : Shape := ⟨3, ![1, 50000, 1]⟩
abbrev S1x12 : Shape := ⟨2, ![1, 12]⟩
abbrev S50000x12 : Shape := ⟨2, ![50000, 12]⟩
abbrev S1x64x12 : Shape := ⟨3, ![1, 64, 12]⟩
abbrev S64x12 : Shape := ⟨2, ![64, 12]⟩
abbrev S12 : Shape := ⟨1, ![12]⟩
abbrev S1x1 : Shape := ⟨2, ![1, 1]⟩
abbrev S2000x12 : Shape := ⟨2, ![2000, 12]⟩
abbrev S2000 : Shape := ⟨1, ![2000]⟩
abbrev S2000x1 : Shape := ⟨2, ![2000, 1]⟩
abbrev S1 : Shape := ⟨1, ![1]⟩
abbrev S1x8 : Shape := ⟨2, ![1, 8]⟩
abbrev S50000x8 : Shape := ⟨2, ![50000, 8]⟩
abbrev S1x64x8 : Shape := ⟨3, ![1, 64, 8]⟩
abbrev S64x8 : Shape := ⟨2, ![64, 8]⟩
abbrev S8 : Shape := ⟨1, ![8]⟩
abbrev S2000x8 : Shape := ⟨2, ![2000, 8]⟩
abbrev S1x5 : Shape := ⟨2, ![1, 5]⟩
abbrev S50000x5 : Shape := ⟨2, ![50000, 5]⟩
abbrev S1x64x5 : Shape := ⟨3, ![1, 64, 5]⟩
abbrev S64x5 : Shape := ⟨2, ![64, 5]⟩
abbrev S5 : Shape := ⟨1, ![5]⟩
abbrev S2000x5 : Shape := ⟨2, ![2000, 5]⟩

abbrev nBuf : Space → Nat
  | .hbm => 309
  | .vmem => 132
  | .smem => 0
  | _ => 0

abbrev hbmTy0_0 (i : Nat) : BufTy := match i % 128 with
  | 0 => ⟨S2x2x50000x128, .f32⟩
  | 1 => ⟨S800000, .i32⟩
  | 2 => ⟨S800000, .i32⟩
  | 3 => ⟨S2x50000x3, .i32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S256x256, .f32⟩
  | 11 => ⟨S256, .f32⟩
  | 12 => ⟨S256x256, .f32⟩
  | 13 => ⟨S256x64, .f32⟩
  | 14 => ⟨S64, .f32⟩
  | 15 => ⟨S256x64, .f32⟩
  | 16 => ⟨S2x64x12, .f32⟩
  | 17 => ⟨S2x12, .f32⟩
  | 18 => ⟨S2x64x12, .f32⟩
  | 19 => ⟨S2x64x8, .f32⟩
  | 20 => ⟨S2x8, .f32⟩
  | 21 => ⟨S2x64x8, .f32⟩
  | 22 => ⟨S2x64x5, .f32⟩
  | 23 => ⟨S2x5, .f32⟩
  | 24 => ⟨S2x64x5, .f32⟩
  | 25 => ⟨S_, .f32⟩
  | 26 => ⟨S800000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S50000, .f32⟩
  | 33 => ⟨S50000, .f32⟩
  | 34 => ⟨S_, .f32⟩
  | 35 => ⟨S50000, .f32⟩
  | 36 => ⟨S50000, .f32⟩
  | 37 => ⟨S50000x1, .f32⟩
  | 38 => ⟨S1x1x50000x128, .f32⟩
  | 39 => ⟨S50000x128, .f32⟩
  | 40 => ⟨S1x1x50000x128, .f32⟩
  | 41 => ⟨S50000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S50000x128, .f32⟩
  | 56 => ⟨S50000x128, .f32⟩
  | 57 => ⟨S50000x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S50000x128, .f32⟩
  | 72 => ⟨S50000x128, .f32⟩
  | 73 => ⟨S50000x128, .f32⟩
  | 74 => ⟨S50000x256, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x256, .f32⟩
  | 84 => ⟨S_, .f32⟩
  | 85 => ⟨S50000x256, .f32⟩
  | 86 => ⟨S800000x1, .i32⟩
  | 87 => ⟨S50000x256, .f32⟩
  | 88 => ⟨S50000x256, .f32⟩
  | 89 => ⟨S50000x256, .f32⟩
  | 90 => ⟨S50000x256, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x256, .f32⟩
  | 100 => ⟨S_, .f32⟩
  | 101 => ⟨S50000x256, .f32⟩
  | 102 => ⟨S800000x1, .i32⟩
  | 103 => ⟨S50000x256, .f32⟩
  | 104 => ⟨S50000x256, .f32⟩
  | 105 => ⟨S50000x256, .f32⟩
  | 106 => ⟨S50000x64, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x64, .f32⟩
  | 116 => ⟨S_, .f32⟩
  | 117 => ⟨S50000x64, .f32⟩
  | 118 => ⟨S800000x1, .i32⟩
  | 119 => ⟨S50000x64, .f32⟩
  | 120 => ⟨S50000x64, .f32⟩
  | 121 => ⟨S50000x64, .f32⟩
  | 122 => ⟨S1x50000x1, .i32⟩
  | 123 => ⟨S50000, .i32⟩
  | 124 => ⟨S50000x1, .i32⟩
  | 125 => ⟨S1x12, .i32⟩
  | 126 => ⟨S50000x12, .i32⟩
  | 127 => ⟨S50000x12, .i32⟩
  | _ => ⟨S2x2x50000x128, .f32⟩

abbrev hbmTy0_1 (i : Nat) : BufTy := match i % 128 with
  | 0 => ⟨S50000x12, .i1⟩
  | 1 => ⟨S50000x12, .f32⟩
  | 2 => ⟨S1x64x12, .f32⟩
  | 3 => ⟨S64x12, .f32⟩
  | 4 => ⟨S1x64x12, .f32⟩
  | 5 => ⟨S64x12, .f32⟩
  | 6 => ⟨S1x12, .f32⟩
  | 7 => ⟨S12, .f32⟩
  | 8 => ⟨S1x1, .f32⟩
  | 9 => ⟨S_, .f32⟩
  | 10 => ⟨S_, .f32⟩
  | 11 => ⟨S_, .f32⟩
  | 12 => ⟨S1x50000x1, .i32⟩
  | 13 => ⟨S50000, .i32⟩
  | 14 => ⟨S50000x1, .i32⟩
  | 15 => ⟨S1x8, .i32⟩
  | 16 => ⟨S50000x8, .i32⟩
  | 17 => ⟨S50000x8, .i32⟩
  | 18 => ⟨S50000x8, .i1⟩
  | 19 => ⟨S50000x8, .f32⟩
  | 20 => ⟨S1x64x8, .f32⟩
  | 21 => ⟨S64x8, .f32⟩
  | 22 => ⟨S1x64x8, .f32⟩
  | 23 => ⟨S64x8, .f32⟩
  | 24 => ⟨S1x8, .f32⟩
  | 25 => ⟨S8, .f32⟩
  | 26 => ⟨S1x1, .f32⟩
  | 27 => ⟨S_, .f32⟩
  | 28 => ⟨S_, .f32⟩
  | 29 => ⟨S1x50000x1, .i32⟩
  | 30 => ⟨S50000, .i32⟩
  | 31 => ⟨S50000x1, .i32⟩
  | 32 => ⟨S1x5, .i32⟩
  | 33 => ⟨S50000x5, .i32⟩
  | 34 => ⟨S50000x5, .i32⟩
  | 35 => ⟨S50000x5, .i1⟩
  | 36 => ⟨S50000x5, .f32⟩
  | 37 => ⟨S1x64x5, .f32⟩
  | 38 => ⟨S64x5, .f32⟩
  | 39 => ⟨S1x64x5, .f32⟩
  | 40 => ⟨S64x5, .f32⟩
  | 41 => ⟨S1x5, .f32⟩
  | 42 => ⟨S5, .f32⟩
  | 43 => ⟨S1x1, .f32⟩
  | 44 => ⟨S_, .f32⟩
  | 45 => ⟨S_, .f32⟩
  | 46 => ⟨S1x1x50000x128, .f32⟩
  | 47 => ⟨S50000x128, .f32⟩
  | 48 => ⟨S1x1x50000x128, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000x128, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S50000x128, .f32⟩
  | 80 => ⟨S50000x128, .f32⟩
  | 81 => ⟨S50000x128, .f32⟩
  | 82 => ⟨S50000x256, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x256, .f32⟩
  | 92 => ⟨S_, .f32⟩
  | 93 => ⟨S50000x256, .f32⟩
  | 94 => ⟨S800000x1, .i32⟩
  | 95 => ⟨S50000x256, .f32⟩
  | 96 => ⟨S50000x256, .f32⟩
  | 97 => ⟨S50000x256, .f32⟩
  | 98 => ⟨S50000x256, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x256, .f32⟩
  | 108 => ⟨S_, .f32⟩
  | 109 => ⟨S50000x256, .f32⟩
  | 110 => ⟨S800000x1, .i32⟩
  | 111 => ⟨S50000x256, .f32⟩
  | 112 => ⟨S50000x256, .f32⟩
  | 113 => ⟨S50000x256, .f32⟩
  | 114 => ⟨S50000x64, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x64, .f32⟩
  | 124 => ⟨S_, .f32⟩
  | 125 => ⟨S50000x64, .f32⟩
  | 126 => ⟨S800000x1, .i32⟩
  | 127 => ⟨S50000x64, .f32⟩
  | _ => ⟨S2x2x50000x128, .f32⟩

abbrev hbmTy0_2 (i : Nat) : BufTy := match i % 128 with
  | 0 => ⟨S50000x64, .f32⟩
  | 1 => ⟨S50000x64, .f32⟩
  | 2 => ⟨S1x50000x1, .i32⟩
  | 3 => ⟨S50000, .i32⟩
  | 4 => ⟨S50000x1, .i32⟩
  | 5 => ⟨S1x12, .i32⟩
  | 6 => ⟨S50000x12, .i32⟩
  | 7 => ⟨S50000x12, .i32⟩
  | 8 => ⟨S50000x12, .i1⟩
  | 9 => ⟨S50000x12, .f32⟩
  | 10 => ⟨S1x64x12, .f32⟩
  | 11 => ⟨S64x12, .f32⟩
  | 12 => ⟨S1x64x12, .f32⟩
  | 13 => ⟨S64x12, .f32⟩
  | 14 => ⟨S1x12, .f32⟩
  | 15 => ⟨S12, .f32⟩
  | 16 => ⟨S1x1, .f32⟩
  | 17 => ⟨S_, .f32⟩
  | 18 => ⟨S_, .f32⟩
  | 19 => ⟨S1x50000x1, .i32⟩
  | 20 => ⟨S50000, .i32⟩
  | 21 => ⟨S50000x1, .i32⟩
  | 22 => ⟨S1x8, .i32⟩
  | 23 => ⟨S50000x8, .i32⟩
  | 24 => ⟨S50000x8, .i32⟩
  | 25 => ⟨S50000x8, .i1⟩
  | 26 => ⟨S50000x8, .f32⟩
  | 27 => ⟨S1x64x8, .f32⟩
  | 28 => ⟨S64x8, .f32⟩
  | 29 => ⟨S1x64x8, .f32⟩
  | 30 => ⟨S64x8, .f32⟩
  | 31 => ⟨S1x8, .f32⟩
  | 32 => ⟨S8, .f32⟩
  | 33 => ⟨S1x1, .f32⟩
  | 34 => ⟨S_, .f32⟩
  | 35 => ⟨S_, .f32⟩
  | 36 => ⟨S1x50000x1, .i32⟩
  | 37 => ⟨S50000, .i32⟩
  | 38 => ⟨S50000x1, .i32⟩
  | 39 => ⟨S1x5, .i32⟩
  | 40 => ⟨S50000x5, .i32⟩
  | 41 => ⟨S50000x5, .i32⟩
  | 42 => ⟨S50000x5, .i1⟩
  | 43 => ⟨S50000x5, .f32⟩
  | 44 => ⟨S1x64x5, .f32⟩
  | 45 => ⟨S64x5, .f32⟩
  | 46 => ⟨S1x64x5, .f32⟩
  | 47 => ⟨S64x5, .f32⟩
  | 48 => ⟨S1x5, .f32⟩
  | 49 => ⟨S5, .f32⟩
  | 50 => ⟨S1x1, .f32⟩
  | 51 => ⟨S_, .f32⟩
  | 52 => ⟨S_, .f32⟩
  | _ => ⟨S2x2x50000x128, .f32⟩

abbrev hbmTy (i : Nat) : BufTy := match i / 128 with
  | 0 => hbmTy0_0 i
  | 1 => hbmTy0_1 i
  | 2 => hbmTy0_2 i
  | _ => ⟨S2x2x50000x128, .f32⟩

abbrev vmemTy0_0 (i : Nat) : BufTy := match i % 128 with
  | 0 => ⟨S2000x128, .f32⟩
  | 1 => ⟨S2000x128, .f32⟩
  | 2 => ⟨S2000x128, .f32⟩
  | 3 => ⟨S2000x128, .f32⟩
  | 4 => ⟨S128x128, .f32⟩
  | 5 => ⟨S128x128, .f32⟩
  | 6 => ⟨S128, .f32⟩
  | 7 => ⟨S2000x128, .f32⟩
  | 8 => ⟨S2000x128, .f32⟩
  | 9 => ⟨S2000x128, .f32⟩
  | 10 => ⟨S2000x128, .f32⟩
  | 11 => ⟨S2000x128, .f32⟩
  | 12 => ⟨S2000x128, .f32⟩
  | 13 => ⟨S128x128, .f32⟩
  | 14 => ⟨S128x128, .f32⟩
  | 15 => ⟨S128, .f32⟩
  | 16 => ⟨S2000x128, .f32⟩
  | 17 => ⟨S2000x128, .f32⟩
  | 18 => ⟨S2000x256, .f32⟩
  | 19 => ⟨S2000x256, .f32⟩
  | 20 => ⟨S2000x256, .f32⟩
  | 21 => ⟨S2000x256, .f32⟩
  | 22 => ⟨S256x256, .f32⟩
  | 23 => ⟨S256x256, .f32⟩
  | 24 => ⟨S256, .f32⟩
  | 25 => ⟨S2000x256, .f32⟩
  | 26 => ⟨S2000x256, .f32⟩
  | 27 => ⟨S2000x256, .f32⟩
  | 28 => ⟨S2000x256, .f32⟩
  | 29 => ⟨S2000x256, .f32⟩
  | 30 => ⟨S2000x256, .f32⟩
  | 31 => ⟨S256x64, .f32⟩
  | 32 => ⟨S256x64, .f32⟩
  | 33 => ⟨S64, .f32⟩
  | 34 => ⟨S2000x64, .f32⟩
  | 35 => ⟨S2000x64, .f32⟩
  | 36 => ⟨S2000x64, .f32⟩
  | 37 => ⟨S2000x64, .f32⟩
  | 38 => ⟨S2000x64, .f32⟩
  | 39 => ⟨S2000x64, .f32⟩
  | 40 => ⟨S64x12, .f32⟩
  | 41 => ⟨S64x12, .f32⟩
  | 42 => ⟨S12, .f32⟩
  | 43 => ⟨S2000x12, .f32⟩
  | 44 => ⟨S2000x12, .f32⟩
  | 45 => ⟨S1x1, .f32⟩
  | 46 => ⟨S2000x64, .f32⟩
  | 47 => ⟨S2000x64, .f32⟩
  | 48 => ⟨S2000x64, .f32⟩
  | 49 => ⟨S2000x64, .f32⟩
  | 50 => ⟨S64x8, .f32⟩
  | 51 => ⟨S64x8, .f32⟩
  | 52 => ⟨S8, .f32⟩
  | 53 => ⟨S2000x8, .f32⟩
  | 54 => ⟨S2000x8, .f32⟩
  | 55 => ⟨S1x1, .f32⟩
  | 56 => ⟨S2000x64, .f32⟩
  | 57 => ⟨S2000x64, .f32⟩
  | 58 => ⟨S2000x64, .f32⟩
  | 59 => ⟨S2000x64, .f32⟩
  | 60 => ⟨S64x5, .f32⟩
  | 61 => ⟨S64x5, .f32⟩
  | 62 => ⟨S5, .f32⟩
  | 63 => ⟨S2000x5, .f32⟩
  | 64 => ⟨S2000x5, .f32⟩
  | 65 => ⟨S1x1, .f32⟩
  | 66 => ⟨S2000x128, .f32⟩
  | 67 => ⟨S2000x128, .f32⟩
  | 68 => ⟨S2000x128, .f32⟩
  | 69 => ⟨S2000x128, .f32⟩
  | 70 => ⟨S128x128, .f32⟩
  | 71 => ⟨S128x128, .f32⟩
  | 72 => ⟨S128, .f32⟩
  | 73 => ⟨S2000x128, .f32⟩
  | 74 => ⟨S2000x128, .f32⟩
  | 75 => ⟨S2000x128, .f32⟩
  | 76 => ⟨S2000x128, .f32⟩
  | 77 => ⟨S2000x128, .f32⟩
  | 78 => ⟨S2000x128, .f32⟩
  | 79 => ⟨S128x128, .f32⟩
  | 80 => ⟨S128x128, .f32⟩
  | 81 => ⟨S128, .f32⟩
  | 82 => ⟨S2000x128, .f32⟩
  | 83 => ⟨S2000x128, .f32⟩
  | 84 => ⟨S2000x256, .f32⟩
  | 85 => ⟨S2000x256, .f32⟩
  | 86 => ⟨S2000x256, .f32⟩
  | 87 => ⟨S2000x256, .f32⟩
  | 88 => ⟨S256x256, .f32⟩
  | 89 => ⟨S256x256, .f32⟩
  | 90 => ⟨S256, .f32⟩
  | 91 => ⟨S2000x256, .f32⟩
  | 92 => ⟨S2000x256, .f32⟩
  | 93 => ⟨S2000x256, .f32⟩
  | 94 => ⟨S2000x256, .f32⟩
  | 95 => ⟨S2000x256, .f32⟩
  | 96 => ⟨S2000x256, .f32⟩
  | 97 => ⟨S256x64, .f32⟩
  | 98 => ⟨S256x64, .f32⟩
  | 99 => ⟨S64, .f32⟩
  | 100 => ⟨S2000x64, .f32⟩
  | 101 => ⟨S2000x64, .f32⟩
  | 102 => ⟨S2000x64, .f32⟩
  | 103 => ⟨S2000x64, .f32⟩
  | 104 => ⟨S2000x64, .f32⟩
  | 105 => ⟨S2000x64, .f32⟩
  | 106 => ⟨S64x12, .f32⟩
  | 107 => ⟨S64x12, .f32⟩
  | 108 => ⟨S12, .f32⟩
  | 109 => ⟨S2000x12, .f32⟩
  | 110 => ⟨S2000x12, .f32⟩
  | 111 => ⟨S1x1, .f32⟩
  | 112 => ⟨S2000x64, .f32⟩
  | 113 => ⟨S2000x64, .f32⟩
  | 114 => ⟨S2000x64, .f32⟩
  | 115 => ⟨S2000x64, .f32⟩
  | 116 => ⟨S64x8, .f32⟩
  | 117 => ⟨S64x8, .f32⟩
  | 118 => ⟨S8, .f32⟩
  | 119 => ⟨S2000x8, .f32⟩
  | 120 => ⟨S2000x8, .f32⟩
  | 121 => ⟨S1x1, .f32⟩
  | 122 => ⟨S2000x64, .f32⟩
  | 123 => ⟨S2000x64, .f32⟩
  | 124 => ⟨S2000x64, .f32⟩
  | 125 => ⟨S2000x64, .f32⟩
  | 126 => ⟨S64x5, .f32⟩
  | 127 => ⟨S64x5, .f32⟩
  | _ => ⟨S2x2x50000x128, .f32⟩

abbrev vmemTy0_1 (i : Nat) : BufTy := match i % 128 with
  | 0 => ⟨S5, .f32⟩
  | 1 => ⟨S2000x5, .f32⟩
  | 2 => ⟨S2000x5, .f32⟩
  | 3 => ⟨S1x1, .f32⟩
  | _ => ⟨S2x2x50000x128, .f32⟩

abbrev vmemTy (i : Nat) : BufTy := match i / 128 with
  | 0 => vmemTy0_0 i
  | 1 => vmemTy0_1 i
  | _ => ⟨S2x2x50000x128, .f32⟩

abbrev bufTy : (tb : Table) → Fin (tcTables nBuf tb) → BufTy
  | .hbm, ⟨i, _⟩ => hbmTy i
  | .local _ .vmem, ⟨i, _⟩ => vmemTy i
  | _, _ => ⟨S2x2x50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_cst_2 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_5 : Ref sig .tc := ⟨.hbm, 58, rfl⟩
abbrev main_v26 : Ref sig .tc := ⟨.hbm, 59, rfl⟩
abbrev main_v27 : Ref sig .tc := ⟨.hbm, 60, rfl⟩
abbrev main_c_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_7 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c_8 : Ref sig .tc := ⟨.hbm, 75, rfl⟩
abbrev main_v40 : Ref sig .tc := ⟨.hbm, 76, rfl⟩
abbrev main_v41 : Ref sig .tc := ⟨.hbm, 77, rfl⟩
abbrev main_c_9 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_10 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c_11 : Ref sig .tc := ⟨.hbm, 91, rfl⟩
abbrev main_v53 : Ref sig .tc := ⟨.hbm, 92, rfl⟩
abbrev main_v54 : Ref sig .tc := ⟨.hbm, 93, rfl⟩
abbrev main_c_12 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_13 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_14 : Ref sig .tc := ⟨.hbm, 107, rfl⟩
abbrev main_v66 : Ref sig .tc := ⟨.hbm, 108, rfl⟩
abbrev main_v67 : Ref sig .tc := ⟨.hbm, 109, rfl⟩
abbrev main_c_15 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_16 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_call0_v0 : Ref sig .tc := ⟨.hbm, 124, rfl⟩
abbrev main_call0_v1 : Ref sig .tc := ⟨.hbm, 125, rfl⟩
abbrev main_call0_v2 : Ref sig .tc := ⟨.hbm, 126, rfl⟩
abbrev main_call0_v3 : Ref sig .tc := ⟨.hbm, 127, rfl⟩
abbrev main_call0_v4 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_17 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_call1_v0 : Ref sig .tc := ⟨.hbm, 142, rfl⟩
abbrev main_call1_v1 : Ref sig .tc := ⟨.hbm, 143, rfl⟩
abbrev main_call1_v2 : Ref sig .tc := ⟨.hbm, 144, rfl⟩
abbrev main_call1_v3 : Ref sig .tc := ⟨.hbm, 145, rfl⟩
abbrev main_call1_v4 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_c_18 : Ref sig .tc := ⟨.hbm, 178, rfl⟩
abbrev main_v118 : Ref sig .tc := ⟨.hbm, 179, rfl⟩
abbrev main_v119 : Ref sig .tc := ⟨.hbm, 180, rfl⟩
abbrev main_c_19 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_cst_20 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_c_21 : Ref sig .tc := ⟨.hbm, 194, rfl⟩
abbrev main_v131 : Ref sig .tc := ⟨.hbm, 195, rfl⟩
abbrev main_v132 : Ref sig .tc := ⟨.hbm, 196, rfl⟩
abbrev main_c_22 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_cst_23 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_c_24 : Ref sig .tc := ⟨.hbm, 211, rfl⟩
abbrev main_v145 : Ref sig .tc := ⟨.hbm, 212, rfl⟩
abbrev main_v146 : Ref sig .tc := ⟨.hbm, 213, rfl⟩
abbrev main_c_25 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_cst_26 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_c_27 : Ref sig .tc := ⟨.hbm, 227, rfl⟩
abbrev main_v158 : Ref sig .tc := ⟨.hbm, 228, rfl⟩
abbrev main_v159 : Ref sig .tc := ⟨.hbm, 229, rfl⟩
abbrev main_c_28 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_cst_29 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_c_30 : Ref sig .tc := ⟨.hbm, 243, rfl⟩
abbrev main_v171 : Ref sig .tc := ⟨.hbm, 244, rfl⟩
abbrev main_v172 : Ref sig .tc := ⟨.hbm, 245, rfl⟩
abbrev main_c_31 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_cst_32 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_call3_v0 : Ref sig .tc := ⟨.hbm, 260, rfl⟩
abbrev main_call3_v1 : Ref sig .tc := ⟨.hbm, 261, rfl⟩
abbrev main_call3_v2 : Ref sig .tc := ⟨.hbm, 262, rfl⟩
abbrev main_call3_v3 : Ref sig .tc := ⟨.hbm, 263, rfl⟩
abbrev main_call3_v4 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_call4_v0 : Ref sig .tc := ⟨.hbm, 277, rfl⟩
abbrev main_call4_v1 : Ref sig .tc := ⟨.hbm, 278, rfl⟩
abbrev main_call4_v2 : Ref sig .tc := ⟨.hbm, 279, rfl⟩
abbrev main_call4_v3 : Ref sig .tc := ⟨.hbm, 280, rfl⟩
abbrev main_call4_v4 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_call5_v0 : Ref sig .tc := ⟨.hbm, 294, rfl⟩
abbrev main_call5_v1 : Ref sig .tc := ⟨.hbm, 295, rfl⟩
abbrev main_call5_v2 : Ref sig .tc := ⟨.hbm, 296, rfl⟩
abbrev main_call5_v3 : Ref sig .tc := ⟨.hbm, 297, rfl⟩
abbrev main_call5_v4 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc4_stg6_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg5_1 : Ref sig .tc := ⟨.vmem, 54, rfl⟩
abbrev cc5_stg6_0 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg5_0 : Ref sig .tc := ⟨.vmem, 63, rfl⟩
abbrev cc6_stg5_1 : Ref sig .tc := ⟨.vmem, 64, rfl⟩
abbrev cc6_stg6_0 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg1_1 : Ref sig .tc := ⟨.vmem, 69, rfl⟩
abbrev cc7_stg2_0 : Ref sig .tc := ⟨.vmem, 70, rfl⟩
abbrev cc7_stg3_0 : Ref sig .tc := ⟨.vmem, 71, rfl⟩
abbrev cc7_stg4_0 : Ref sig .tc := ⟨.vmem, 72, rfl⟩
abbrev cc7_stg5_0 : Ref sig .tc := ⟨.vmem, 73, rfl⟩
abbrev cc7_stg5_1 : Ref sig .tc := ⟨.vmem, 74, rfl⟩
abbrev cc8_stg0_0 : Ref sig .tc := ⟨.vmem, 75, rfl⟩
abbrev cc8_stg0_1 : Ref sig .tc := ⟨.vmem, 76, rfl⟩
abbrev cc8_stg1_0 : Ref sig .tc := ⟨.vmem, 77, rfl⟩
abbrev cc8_stg1_1 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg4_0 : Ref sig .tc := ⟨.vmem, 81, rfl⟩
abbrev cc8_stg5_0 : Ref sig .tc := ⟨.vmem, 82, rfl⟩
abbrev cc8_stg5_1 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg1_1 : Ref sig .tc := ⟨.vmem, 87, rfl⟩
abbrev cc9_stg2_0 : Ref sig .tc := ⟨.vmem, 88, rfl⟩
abbrev cc9_stg3_0 : Ref sig .tc := ⟨.vmem, 89, rfl⟩
abbrev cc9_stg4_0 : Ref sig .tc := ⟨.vmem, 90, rfl⟩
abbrev cc9_stg5_0 : Ref sig .tc := ⟨.vmem, 91, rfl⟩
abbrev cc9_stg5_1 : Ref sig .tc := ⟨.vmem, 92, rfl⟩
abbrev cc10_stg0_0 : Ref sig .tc := ⟨.vmem, 93, rfl⟩
abbrev cc10_stg0_1 : Ref sig .tc := ⟨.vmem, 94, rfl⟩
abbrev cc10_stg1_0 : Ref sig .tc := ⟨.vmem, 95, rfl⟩
abbrev cc10_stg1_1 : Ref sig .tc := ⟨.vmem, 96, rfl⟩
abbrev cc10_stg2_0 : Ref sig .tc := ⟨.vmem, 97, rfl⟩
abbrev cc10_stg3_0 : Ref sig .tc := ⟨.vmem, 98, rfl⟩
abbrev cc10_stg4_0 : Ref sig .tc := ⟨.vmem, 99, rfl⟩
abbrev cc10_stg5_0 : Ref sig .tc := ⟨.vmem, 100, rfl⟩
abbrev cc10_stg5_1 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg1_1 : Ref sig .tc := ⟨.vmem, 105, rfl⟩
abbrev cc11_stg2_0 : Ref sig .tc := ⟨.vmem, 106, rfl⟩
abbrev cc11_stg3_0 : Ref sig .tc := ⟨.vmem, 107, rfl⟩
abbrev cc11_stg4_0 : Ref sig .tc := ⟨.vmem, 108, rfl⟩
abbrev cc11_stg5_0 : Ref sig .tc := ⟨.vmem, 109, rfl⟩
abbrev cc11_stg5_1 : Ref sig .tc := ⟨.vmem, 110, rfl⟩
abbrev cc11_stg6_0 : Ref sig .tc := ⟨.vmem, 111, rfl⟩
abbrev cc12_stg0_0 : Ref sig .tc := ⟨.vmem, 112, rfl⟩
abbrev cc12_stg0_1 : Ref sig .tc := ⟨.vmem, 113, rfl⟩
abbrev cc12_stg1_0 : Ref sig .tc := ⟨.vmem, 114, rfl⟩
abbrev cc12_stg1_1 : Ref sig .tc := ⟨.vmem, 115, rfl⟩
abbrev cc12_stg2_0 : Ref sig .tc := ⟨.vmem, 116, rfl⟩
abbrev cc12_stg3_0 : Ref sig .tc := ⟨.vmem, 117, rfl⟩
abbrev cc12_stg4_0 : Ref sig .tc := ⟨.vmem, 118, rfl⟩
abbrev cc12_stg5_0 : Ref sig .tc := ⟨.vmem, 119, rfl⟩
abbrev cc12_stg5_1 : Ref sig .tc := ⟨.vmem, 120, rfl⟩
abbrev cc12_stg6_0 : Ref sig .tc := ⟨.vmem, 121, rfl⟩
abbrev cc13_stg0_0 : Ref sig .tc := ⟨.vmem, 122, rfl⟩
abbrev cc13_stg0_1 : Ref sig .tc := ⟨.vmem, 123, rfl⟩
abbrev cc13_stg1_0 : Ref sig .tc := ⟨.vmem, 124, rfl⟩
abbrev cc13_stg1_1 : Ref sig .tc := ⟨.vmem, 125, rfl⟩
abbrev cc13_stg2_0 : Ref sig .tc := ⟨.vmem, 126, rfl⟩
abbrev cc13_stg3_0 : Ref sig .tc := ⟨.vmem, 127, rfl⟩
abbrev cc13_stg4_0 : Ref sig .tc := ⟨.vmem, 128, rfl⟩
abbrev cc13_stg5_0 : Ref sig .tc := ⟨.vmem, 129, rfl⟩
abbrev cc13_stg5_1 : Ref sig .tc := ⟨.vmem, 130, rfl⟩
abbrev cc13_stg6_0 : Ref sig .tc := ⟨.vmem, 131, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc4_sem6_0 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem5_1 : DmaSem sig := 54
abbrev cc5_sem6_0 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem5_1 : DmaSem sig := 64
abbrev cc6_sem6_0 : DmaSem sig := 65
abbrev cc7_sem0_0 : DmaSem sig := 66
abbrev cc7_sem0_1 : DmaSem sig := 67
abbrev cc7_sem1_0 : DmaSem sig := 68
abbrev cc7_sem1_1 : DmaSem sig := 69
abbrev cc7_sem2_0 : DmaSem sig := 70
abbrev cc7_sem3_0 : DmaSem sig := 71
abbrev cc7_sem4_0 : DmaSem sig := 72
abbrev cc7_sem5_0 : DmaSem sig := 73
abbrev cc7_sem5_1 : DmaSem sig := 74
abbrev cc8_sem0_0 : DmaSem sig := 75
abbrev cc8_sem0_1 : DmaSem sig := 76
abbrev cc8_sem1_0 : DmaSem sig := 77
abbrev cc8_sem1_1 : DmaSem sig := 78
abbrev cc8_sem2_0 : DmaSem sig := 79
abbrev cc8_sem3_0 : DmaSem sig := 80
abbrev cc8_sem4_0 : DmaSem sig := 81
abbrev cc8_sem5_0 : DmaSem sig := 82
abbrev cc8_sem5_1 : DmaSem sig := 83
abbrev cc9_sem0_0 : DmaSem sig := 84
abbrev cc9_sem0_1 : DmaSem sig := 85
abbrev cc9_sem1_0 : DmaSem sig := 86
abbrev cc9_sem1_1 : DmaSem sig := 87
abbrev cc9_sem2_0 : DmaSem sig := 88
abbrev cc9_sem3_0 : DmaSem sig := 89
abbrev cc9_sem4_0 : DmaSem sig := 90
abbrev cc9_sem5_0 : DmaSem sig := 91
abbrev cc9_sem5_1 : DmaSem sig := 92
abbrev cc10_sem0_0 : DmaSem sig := 93
abbrev cc10_sem0_1 : DmaSem sig := 94
abbrev cc10_sem1_0 : DmaSem sig := 95
abbrev cc10_sem1_1 : DmaSem sig := 96
abbrev cc10_sem2_0 : DmaSem sig := 97
abbrev cc10_sem3_0 : DmaSem sig := 98
abbrev cc10_sem4_0 : DmaSem sig := 99
abbrev cc10_sem5_0 : DmaSem sig := 100
abbrev cc10_sem5_1 : DmaSem sig := 101
abbrev cc11_sem0_0 : DmaSem sig := 102
abbrev cc11_sem0_1 : DmaSem sig := 103
abbrev cc11_sem1_0 : DmaSem sig := 104
abbrev cc11_sem1_1 : DmaSem sig := 105
abbrev cc11_sem2_0 : DmaSem sig := 106
abbrev cc11_sem3_0 : DmaSem sig := 107
abbrev cc11_sem4_0 : DmaSem sig := 108
abbrev cc11_sem5_0 : DmaSem sig := 109
abbrev cc11_sem5_1 : DmaSem sig := 110
abbrev cc11_sem6_0 : DmaSem sig := 111
abbrev cc12_sem0_0 : DmaSem sig := 112
abbrev cc12_sem0_1 : DmaSem sig := 113
abbrev cc12_sem1_0 : DmaSem sig := 114
abbrev cc12_sem1_1 : DmaSem sig := 115
abbrev cc12_sem2_0 : DmaSem sig := 116
abbrev cc12_sem3_0 : DmaSem sig := 117
abbrev cc12_sem4_0 : DmaSem sig := 118
abbrev cc12_sem5_0 : DmaSem sig := 119
abbrev cc12_sem5_1 : DmaSem sig := 120
abbrev cc12_sem6_0 : DmaSem sig := 121
abbrev cc13_sem0_0 : DmaSem sig := 122
abbrev cc13_sem0_1 : DmaSem sig := 123
abbrev cc13_sem1_0 : DmaSem sig := 124
abbrev cc13_sem1_1 : DmaSem sig := 125
abbrev cc13_sem2_0 : DmaSem sig := 126
abbrev cc13_sem3_0 : DmaSem sig := 127
abbrev cc13_sem4_0 : DmaSem sig := 128
abbrev cc13_sem5_0 : DmaSem sig := 129
abbrev cc13_sem5_1 : DmaSem sig := 130
abbrev cc13_sem6_0 : DmaSem sig := 131

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x12 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x12 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S12 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x12 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x8 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x8 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S8 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x8 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x5 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x5 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S5 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x5 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S256x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x256 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S256x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S256x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S2000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x12 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x12 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S12 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x12 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 1 → Memref sig .tc .vmem S1x1 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S2000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S64x8 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S64x8 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S8 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S2000x8 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 1 → Memref sig .tc .vmem S1x1 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S2000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S64x5 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S64x5 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S5 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S2000x5 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 1 → Memref sig .tc .vmem S1x1 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S2x2x50000x128_S1x1x50000x128_0_0_0_0 : S2x2x50000x128.Slices ![0, 0, 0, 0] S1x1x50000x128
  shapeCasts_S1x1x50000x128_S50000x128 : S1x1x50000x128.ShapeCasts S50000x128
  slices_S2x2x50000x128_S1x1x50000x128_0_1_0_0 : S2x2x50000x128.Slices ![0, 1, 0, 0] S1x1x50000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  concatenates_S50000x128_S50000x128_S50000x256_d1 : Shape.Concatenates [S50000x128, S50000x128] S50000x256 1
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S2x50000x3_S1x50000x1_0_0_0 : S2x50000x3.Slices ![0, 0, 0] S1x50000x1
  shapeCasts_S1x50000x1_S50000 : S1x50000x1.ShapeCasts S50000
  bcast_S50000x1_S50000x12_0_1 : S50000x1.BroadcastsInDim S50000x12 (![0, 1] : Fin 2 → Fin S50000x12.rank)
  bcast_S1x12_S50000x12_0_1 : S1x12.BroadcastsInDim S50000x12 (![0, 1] : Fin 2 → Fin S50000x12.rank)
  slices_S2x64x12_S1x64x12_0_0_0 : S2x64x12.Slices ![0, 0, 0] S1x64x12
  shapeCasts_S1x64x12_S64x12 : S1x64x12.ShapeCasts S64x12
  slices_S2x12_S1x12_0_0 : S2x12.Slices ![0, 0] S1x12
  shapeCasts_S1x12_S12 : S1x12.ShapeCasts S12
  inb_S1x1_S1x1_0_0 : ∀ a, (![0, 0] : Fin 2 → Nat) a + S1x1.size a ≤ S1x1.size a
  h_S1x1 : 0 < S1x1.numel
  shapeCasts_S2000x64_S2000x64 : S2000x64.ShapeCasts S2000x64
  inb_S64x12_S64x12_0_0 : ∀ a, (![0, 0] : Fin 2 → Nat) a + S64x12.size a ≤ S64x12.size a
  h_S64x12 : 0 < S64x12.numel
  shapeCasts_S64x12_S64x12 : S64x12.ShapeCasts S64x12
  inb_S12_S12_0 : ∀ a, (![0] : Fin 1 → Nat) a + S12.size a ≤ S12.size a
  h_S12 : 0 < S12.numel
  shapeCasts_S12_S12 : S12.ShapeCasts S12
  shapeCasts_S12_S1x12 : S12.ShapeCasts S1x12
  broadcasts_S1x12_S2000x12 : S1x12.Broadcasts S2000x12
  reduces_S2000x12_S2000 : S2000x12.Reduces [1] S2000
  shapeCasts_S2000_S2000x1 : S2000.ShapeCasts S2000x1
  broadcasts_S2000x1_S2000x12 : S2000x1.Broadcasts S2000x12
  inb_S2000x12_S2000x12_0_0 : ∀ a, (![0, 0] : Fin 2 → Nat) a + S2000x12.size a ≤ S2000x12.size a
  h_S2000x12 : 0 < S2000x12.numel
  shapeCasts_S2000x12_S2000x12 : S2000x12.ShapeCasts S2000x12
  reduces_S2000x1_S1 : S2000x1.Reduces [0] S1
  shapeCasts_S1_S1x1 : S1.ShapeCasts S1x1
  shapeCasts_S1x1_S1x1 : S1x1.ShapeCasts S1x1
  shapeCasts_S1x1_S_ : S1x1.ShapeCasts S_
  slices_S2x50000x3_S1x50000x1_0_0_1 : S2x50000x3.Slices ![0, 0, 1] S1x50000x1
  bcast_S50000x1_S50000x8_0_1 : S50000x1.BroadcastsInDim S50000x8 (![0, 1] : Fin 2 → Fin S50000x8.rank)
  bcast_S1x8_S50000x8_0_1 : S1x8.BroadcastsInDim S50000x8 (![0, 1] : Fin 2 → Fin S50000x8.rank)
  slices_S2x64x8_S1x64x8_0_0_0 : S2x64x8.Slices ![0, 0, 0] S1x64x8
  shapeCasts_S1x64x8_S64x8 : S1x64x8.ShapeCasts S64x8
  slices_S2x8_S1x8_0_0 : S2x8.Slices ![0, 0] S1x8
  shapeCasts_S1x8_S8 : S1x8.ShapeCasts S8
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S8_S8_0 : ∀ a, (![0] : Fin 1 → Nat) a + S8.size a ≤ S8.size a
  h_S8 : 0 < S8.numel
  shapeCasts_S8_S8 : S8.ShapeCasts S8
  shapeCasts_S8_S1x8 : S8.ShapeCasts S1x8
  broadcasts_S1x8_S2000x8 : S1x8.Broadcasts S2000x8
  reduces_S2000x8_S2000 : S2000x8.Reduces [1] S2000
  broadcasts_S2000x1_S2000x8 : S2000x1.Broadcasts S2000x8
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  slices_S2x50000x3_S1x50000x1_0_0_2 : S2x50000x3.Slices ![0, 0, 2] S1x50000x1
  bcast_S50000x1_S50000x5_0_1 : S50000x1.BroadcastsInDim S50000x5 (![0, 1] : Fin 2 → Fin S50000x5.rank)
  bcast_S1x5_S50000x5_0_1 : S1x5.BroadcastsInDim S50000x5 (![0, 1] : Fin 2 → Fin S50000x5.rank)
  slices_S2x64x5_S1x64x5_0_0_0 : S2x64x5.Slices ![0, 0, 0] S1x64x5
  shapeCasts_S1x64x5_S64x5 : S1x64x5.ShapeCasts S64x5
  slices_S2x5_S1x5_0_0 : S2x5.Slices ![0, 0] S1x5
  shapeCasts_S1x5_S5 : S1x5.ShapeCasts S5
  inb_S64x5_S64x5_0_0 : ∀ a, (![0, 0] : Fin 2 → Nat) a + S64x5.size a ≤ S64x5.size a
  h_S64x5 : 0 < S64x5.numel
  shapeCasts_S64x5_S64x5 : S64x5.ShapeCasts S64x5
  inb_S5_S5_0 : ∀ a, (![0] : Fin 1 → Nat) a + S5.size a ≤ S5.size a
  h_S5 : 0 < S5.numel
  shapeCasts_S5_S5 : S5.ShapeCasts S5
  shapeCasts_S5_S1x5 : S5.ShapeCasts S1x5
  broadcasts_S1x5_S2000x5 : S1x5.Broadcasts S2000x5
  reduces_S2000x5_S2000 : S2000x5.Reduces [1] S2000
  broadcasts_S2000x1_S2000x5 : S2000x1.Broadcasts S2000x5
  inb_S2000x5_S2000x5_0_0 : ∀ a, (![0, 0] : Fin 2 → Nat) a + S2000x5.size a ≤ S2000x5.size a
  h_S2000x5 : 0 < S2000x5.numel
  shapeCasts_S2000x5_S2000x5 : S2000x5.ShapeCasts S2000x5
  slices_S2x2x50000x128_S1x1x50000x128_1_0_0_0 : S2x2x50000x128.Slices ![1, 0, 0, 0] S1x1x50000x128
  slices_S2x2x50000x128_S1x1x50000x128_1_1_0_0 : S2x2x50000x128.Slices ![1, 1, 0, 0] S1x1x50000x128
  slices_S2x50000x3_S1x50000x1_1_0_0 : S2x50000x3.Slices ![1, 0, 0] S1x50000x1
  slices_S2x64x12_S1x64x12_1_0_0 : S2x64x12.Slices ![1, 0, 0] S1x64x12
  slices_S2x12_S1x12_1_0 : S2x12.Slices ![1, 0] S1x12
  slices_S2x50000x3_S1x50000x1_1_0_1 : S2x50000x3.Slices ![1, 0, 1] S1x50000x1
  slices_S2x64x8_S1x64x8_1_0_0 : S2x64x8.Slices ![1, 0, 0] S1x64x8
  slices_S2x8_S1x8_1_0 : S2x8.Slices ![1, 0] S1x8
  slices_S2x50000x3_S1x50000x1_1_0_2 : S2x50000x3.Slices ![1, 0, 2] S1x50000x1
  slices_S2x64x5_S1x64x5_1_0_0 : S2x64x5.Slices ![1, 0, 0] S1x64x5
  slices_S2x5_S1x5_1_0 : S2x5.Slices ![1, 0] S1x5
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x12_S2000x12_1_0_0_1_n_n_wf : DotDims.WF S2000x64 S64x12 S2000x12 [1] [0] [0] [1] [] []
  dot_S2000x64_S64x8_S2000x8_1_0_0_1_n_n_wf : DotDims.WF S2000x64 S64x8 S2000x8 [1] [0] [0] [1] [] []
  dot_S2000x64_S64x5_S2000x5_1_0_0_1_n_n_wf : DotDims.WF S2000x64 S64x5 S2000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x64.size a ≤ S256x64.size a
  hwx3_2 : ∀ i : grid3.Coords, EltTy.bits .f32 = 32 ∨ (Rect.block (s := S256x64) S256x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x64.size a ≤ S256x64.size a
  hwx3_3 : ∀ i : grid3.Coords, EltTy.bits .f32 = 32 ∨ (Rect.block (s := S256x64) S256x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S50000x64.size a
  hwx3_5 : ∀ i : grid3.Coords, EltTy.bits .f32 = 32 ∨ (Rect.block (s := S50000x64) S2000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x12.size a ≤ S64x12.size a
  hwx4_2 : ∀ i : grid4.Coords, EltTy.bits .f32 = 32 ∨ (Rect.block (s := S64x12) S64x12.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x12.size a ≤ S64x12.size a
  hwx4_3 : ∀ i : grid4.Coords, EltTy.bits .f32 = 32 ∨ (Rect.block (s := S64x12) S64x12.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S12.size a ≤ S12.size a
  hwx4_4 : ∀ i : grid4.Coords, EltTy.bits .f32 = 32 ∨ (Rect.block (s := S12) S12.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x12.size a ≤ S50000x12.size a
  hwx4_5 : ∀ i : grid4.Coords, EltTy.bits .f32 = 32 ∨ (Rect.block (s := S50000x12) S2000x12.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x8.size a ≤ S64x8.size a
  hwx5_2 : ∀ i : grid5.Coords, EltTy.bits .f32 = 32 ∨ (Rect.block (s := S64x8) S64x8.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x8.size a ≤ S64x8.size a
  hwx5_3 : ∀ i : grid5.Coords, EltTy.bits .f32 = 32 ∨ (Rect.block (s := S64x8) S64x8.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S8.size a ≤ S8.size a
  hwx5_4 : ∀ i : grid5.Coords, EltTy.bits .f32 = 32 ∨ (Rect.block (s := S8) S8.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x8.size a ≤ S50000x8.size a
  hwx5_5 : ∀ i : grid5.Coords, EltTy.bits .f32 = 32 ∨ (Rect.block (s := S50000x8) S2000x8.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1.size a ≤ S1x1.size a
  hwx5_6 : ∀ i : grid5.Coords, EltTy.bits .f32 = 32 ∨ (Rect.block (s := S1x1) S1x1.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S50000x64.size a
  hwx6_1 : ∀ i : grid6.Coords, EltTy.bits .f32 = 32 ∨ (Rect.block (s := S50000x64) S2000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x5.size a ≤ S64x5.size a
  hwx6_2 : ∀ i : grid6.Coords, EltTy.bits .f32 = 32 ∨ (Rect.block (s := S64x5) S64x5.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x5.size a ≤ S64x5.size a
  hwx6_3 : ∀ i : grid6.Coords, EltTy.bits .f32 = 32 ∨ (Rect.block (s := S64x5) S64x5.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S5.size a ≤ S5.size a
  hwx6_4 : ∀ i : grid6.Coords, EltTy.bits .f32 = 32 ∨ (Rect.block (s := S5) S5.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x5.size a ≤ S50000x5.size a
  hwx6_5 : ∀ i : grid6.Coords, EltTy.bits .f32 = 32 ∨ (Rect.block (s := S50000x5) S2000x5.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x128.size a ≤ S50000x128.size a
  hwx7_5 : ∀ i : grid7.Coords, EltTy.bits .f32 = 32 ∨ (Rect.block (s := S50000x128) S2000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128.size a ≤ S128.size a
  hwx8_4 : ∀ i : grid8.Coords, EltTy.bits .f32 = 32 ∨ (Rect.block (s := S128) S128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S50000x128.size a
  hwx8_5 : ∀ i : grid8.Coords, EltTy.bits .f32 = 32 ∨ (Rect.block (s := S50000x128) S2000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x256.size a ≤ S50000x256.size a
  hwx9_0 : ∀ i : grid9.Coords, EltTy.bits .f32 = 32 ∨ (Rect.block (s := S50000x256) S2000x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x256.size a ≤ S50000x256.size a
  hwx9_1 : ∀ i : grid9.Coords, EltTy.bits .f32 = 32 ∨ (Rect.block (s := S50000x256) S2000x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x256.size a ≤ S256x256.size a
  hwx9_2 : ∀ i : grid9.Coords, EltTy.bits .f32 = 32 ∨ (Rect.block (s := S256x256) S256x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x256.size a ≤ S256x256.size a
  hwx9_3 : ∀ i : grid9.Coords, EltTy.bits .f32 = 32 ∨ (Rect.block (s := S256x256) S256x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S256.size a ≤ S256.size a
  hwx9_4 : ∀ i : grid9.Coords, EltTy.bits .f32 = 32 ∨ (Rect.block (s := S256) S256.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x256.size a ≤ S50000x256.size a
  hwx9_5 : ∀ i : grid9.Coords, EltTy.bits .f32 = 32 ∨ (Rect.block (s := S50000x256) S2000x256.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x256.size a ≤ S50000x256.size a
  hwx10_0 : ∀ i : grid10.Coords, EltTy.bits .f32 = 32 ∨ (Rect.block (s := S50000x256) S2000x256.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x256.size a ≤ S50000x256.size a
  hwx10_1 : ∀ i : grid10.Coords, EltTy.bits .f32 = 32 ∨ (Rect.block (s := S50000x256) S2000x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S256x64.size a ≤ S256x64.size a
  hwx10_2 : ∀ i : grid10.Coords, EltTy.bits .f32 = 32 ∨ (Rect.block (s := S256x64) S256x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S256x64.size a ≤ S256x64.size a
  hwx10_3 : ∀ i : grid10.Coords, EltTy.bits .f32 = 32 ∨ (Rect.block (s := S256x64) S256x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S64.size a ≤ S64.size a
  hwx10_4 : ∀ i : grid10.Coords, EltTy.bits .f32 = 32 ∨ (Rect.block (s := S64) S64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x64.size a ≤ S50000x64.size a
  hwx10_5 : ∀ i : grid10.Coords, EltTy.bits .f32 = 32 ∨ (Rect.block (s := S50000x64) S2000x64.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x64.size a ≤ S50000x64.size a
  hwx11_0 : ∀ i : grid11.Coords, EltTy.bits .f32 = 32 ∨ (Rect.block (s := S50000x64) S2000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x64.size a ≤ S50000x64.size a
  hwx11_1 : ∀ i : grid11.Coords, EltTy.bits .f32 = 32 ∨ (Rect.block (s := S50000x64) S2000x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x12.size a ≤ S64x12.size a
  hwx11_2 : ∀ i : grid11.Coords, EltTy.bits .f32 = 32 ∨ (Rect.block (s := S64x12) S64x12.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x12.size a ≤ S64x12.size a
  hwx11_3 : ∀ i : grid11.Coords, EltTy.bits .f32 = 32 ∨ (Rect.block (s := S64x12) S64x12.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S12.size a ≤ S12.size a
  hwx11_4 : ∀ i : grid11.Coords, EltTy.bits .f32 = 32 ∨ (Rect.block (s := S12) S12.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x12.size a ≤ S50000x12.size a
  hwx11_5 : ∀ i : grid11.Coords, EltTy.bits .f32 = 32 ∨ (Rect.block (s := S50000x12) S2000x12.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x1.size a ≤ S1x1.size a
  hwx11_6 : ∀ i : grid11.Coords, EltTy.bits .f32 = 32 ∨ (Rect.block (s := S1x1) S1x1.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x64.size a ≤ S50000x64.size a
  hwx12_0 : ∀ i : grid12.Coords, EltTy.bits .f32 = 32 ∨ (Rect.block (s := S50000x64) S2000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x64.size a ≤ S50000x64.size a
  hwx12_1 : ∀ i : grid12.Coords, EltTy.bits .f32 = 32 ∨ (Rect.block (s := S50000x64) S2000x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S64x8.size a ≤ S64x8.size a
  hwx12_2 : ∀ i : grid12.Coords, EltTy.bits .f32 = 32 ∨ (Rect.block (s := S64x8) S64x8.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S64x8.size a ≤ S64x8.size a
  hwx12_3 : ∀ i : grid12.Coords, EltTy.bits .f32 = 32 ∨ (Rect.block (s := S64x8) S64x8.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S8.size a ≤ S8.size a
  hwx12_4 : ∀ i : grid12.Coords, EltTy.bits .f32 = 32 ∨ (Rect.block (s := S8) S8.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x8.size a ≤ S50000x8.size a
  hwx12_5 : ∀ i : grid12.Coords, EltTy.bits .f32 = 32 ∨ (Rect.block (s := S50000x8) S2000x8.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x1.size a ≤ S1x1.size a
  hwx12_6 : ∀ i : grid12.Coords, EltTy.bits .f32 = 32 ∨ (Rect.block (s := S1x1) S1x1.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x64.size a ≤ S50000x64.size a
  hwx13_0 : ∀ i : grid13.Coords, EltTy.bits .f32 = 32 ∨ (Rect.block (s := S50000x64) S2000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x64.size a ≤ S50000x64.size a
  hwx13_1 : ∀ i : grid13.Coords, EltTy.bits .f32 = 32 ∨ (Rect.block (s := S50000x64) S2000x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S64x5.size a ≤ S64x5.size a
  hwx13_2 : ∀ i : grid13.Coords, EltTy.bits .f32 = 32 ∨ (Rect.block (s := S64x5) S64x5.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S64x5.size a ≤ S64x5.size a
  hwx13_3 : ∀ i : grid13.Coords, EltTy.bits .f32 = 32 ∨ (Rect.block (s := S64x5) S64x5.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S5.size a ≤ S5.size a
  hwx13_4 : ∀ i : grid13.Coords, EltTy.bits .f32 = 32 ∨ (Rect.block (s := S5) S5.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S2000x5.size a ≤ S50000x5.size a
  hwx13_5 : ∀ i : grid13.Coords, EltTy.bits .f32 = 32 ∨ (Rect.block (s := S50000x5) S2000x5.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x1.size a ≤ S1x1.size a
  hwx13_6 : ∀ i : grid13.Coords, EltTy.bits .f32 = 32 ∨ (Rect.block (s := S1x1) S1x1.size (cc13_transform_6 i) (hinb13_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x12_S2000x12_1_0_0_1_n_n : DotDims S2000x64 S64x12 S2000x12 where
  lhsContracting := [1]
  rhsContracting := [0]
  lhsNonContracting := [0]
  rhsNonContracting := [1]
  lhsBatch := []
  rhsBatch := []
  wf := dot_S2000x64_S64x12_S2000x12_1_0_0_1_n_n_wf
def dot_S2000x64_S64x8_S2000x8_1_0_0_1_n_n : DotDims S2000x64 S64x8 S2000x8 where
  lhsContracting := [1]
  rhsContracting := [0]
  lhsNonContracting := [0]
  rhsNonContracting := [1]
  lhsBatch := []
  rhsBatch := []
  wf := dot_S2000x64_S64x8_S2000x8_1_0_0_1_n_n_wf
def dot_S2000x64_S64x5_S2000x5_1_0_0_1_n_n : DotDims S2000x64 S64x5 S2000x5 where
  lhsContracting := [1]
  rhsContracting := [0]
  lhsNonContracting := [0]
  rhsNonContracting := [1]
  lhsBatch := []
  rhsBatch := []
  wf := dot_S2000x64_S64x5_S2000x5_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v64) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S256x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S256x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v77) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v82) S64x12.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S64x12.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S12.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v80) S2000x12.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v87) S1x1.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v77) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v94) S64x8.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S64x8.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v98) S8.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v92) S2000x8.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v99) S1x1.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v77) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v65) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v106) S64x5.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v108) S64x5.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v110) S5.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v104) S2000x5.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v111) S1x1.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v129) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v115) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg4) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg6) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg5) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v130) S2000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v142) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v117) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg7) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg9) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg8) S128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v143) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v156) S2000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v144) S2000x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg10) S256x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg12) S256x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg11) S256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v157) S2000x256.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v169) S2000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v157) S2000x256.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg13) S256x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg15) S256x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_arg14) S64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v170) S2000x64.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v182) S2000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v170) S2000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v187) S64x12.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v189) S64x12.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v191) S12.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v185) S2000x12.size cc11_transform_5 reads11_5 false false 2 stage11_5 sem11_5
    hrank11 hreads11_5 hinb11_5 nbuf11_5 (Memref.isWhole_whole _) hwx11_5 hstage11_5

abbrev win11_6 : Pipeline.Window sig grid11 :=
  Pipeline.Window.ofSpec (Memref.whole main_v192) S1x1.size cc11_transform_6 reads11_6 true true 1 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v182) S2000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v170) S2000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v199) S64x8.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v201) S64x8.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v203) S8.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v197) S2000x8.size cc12_transform_5 reads12_5 false false 2 stage12_5 sem12_5
    hrank12 hreads12_5 hinb12_5 nbuf12_5 (Memref.isWhole_whole _) hwx12_5 hstage12_5

abbrev win12_6 : Pipeline.Window sig grid12 :=
  Pipeline.Window.ofSpec (Memref.whole main_v204) S1x1.size cc12_transform_6 reads12_6 true true 1 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v182) S2000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v170) S2000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v211) S64x5.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v213) S64x5.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v215) S5.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v209) S2000x5.size cc13_transform_5 reads13_5 false false 2 stage13_5 sem13_5
    hrank13 hreads13_5 hinb13_5 nbuf13_5 (Memref.isWhole_whole _) hwx13_5 hstage13_5

abbrev win13_6 : Pipeline.Window sig grid13 :=
  Pipeline.Window.ofSpec (Memref.whole main_v216) S1x1.size cc13_transform_6 reads13_6 true true 1 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

class Facts : Prop extends Facts₀ where

variable [Facts]
-- ==== ReferenceIdeal.lean ====
abbrev S2x2x50000x128 : Shape := ⟨4, ![2, 2, 50000, 128]⟩
abbrev S800000 : Shape := ⟨1, ![800000]⟩
abbrev S2x50000x3 : Shape := ⟨3, ![2, 50000, 3]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x64 : Shape := ⟨2, ![256, 64]⟩
abbrev S64 : Shape := ⟨1, ![64]⟩
abbrev S2x64x12 : Shape := ⟨3, ![2, 64, 12]⟩
abbrev S2x12 : Shape := ⟨2, ![2, 12]⟩
abbrev S2x64x8 : Shape := ⟨3, ![2, 64, 8]⟩
abbrev S2x8 : Shape := ⟨2, ![2, 8]⟩
abbrev S2x64x5 : Shape := ⟨3, ![2, 64, 5]⟩
abbrev S2x5 : Shape := ⟨2, ![2, 5]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x1x50000x128 : Shape := ⟨4, ![1, 1, 50000, 128]⟩
abbrev S50000x128 : Shape := ⟨2, ![50000, 128]⟩
abbrev S800000x128 : Shape := ⟨2, ![800000, 128]⟩
abbrev S1x128 : Shape := ⟨2, ![1, 128]⟩
abbrev S50000x256 : Shape := ⟨2, ![50000, 256]⟩
abbrev S800000x256 : Shape := ⟨2, ![800000, 256]⟩
abbrev S1x256 : Shape := ⟨2, ![1, 256]⟩
abbrev S50000x64 : Shape := ⟨2, ![50000, 64]⟩
abbrev S1x64 : Shape := ⟨2, ![1, 64]⟩
abbrev S1x64x12 : Shape := ⟨3, ![1, 64, 12]⟩
abbrev S64x12 : Shape := ⟨2, ![64, 12]⟩
abbrev S1x12 : Shape := ⟨2, ![1, 12]⟩
abbrev S12 : Shape := ⟨1, ![12]⟩
abbrev S800000x64 : Shape := ⟨2, ![800000, 64]⟩
abbrev S50000x12 : Shape := ⟨2, ![50000, 12]⟩
abbrev S1x64x8 : Shape := ⟨3, ![1, 64, 8]⟩
abbrev S64x8 : Shape := ⟨2, ![64, 8]⟩
abbrev S1x8 : Shape := ⟨2, ![1, 8]⟩
abbrev S8 : Shape := ⟨1, ![8]⟩
abbrev S50000x8 : Shape := ⟨2, ![50000, 8]⟩
abbrev S1x64x5 : Shape := ⟨3, ![1, 64, 5]⟩
abbrev S64x5 : Shape := ⟨2, ![64, 5]⟩
abbrev S1x5 : Shape := ⟨2, ![1, 5]⟩
abbrev S5 : Shape := ⟨1, ![5]⟩
abbrev S50000x5 : Shape := ⟨2, ![50000, 5]⟩
abbrev S1x50000x1 : Shape := ⟨3, ![1, 50000, 1]⟩
abbrev S50000x1x1 : Shape := ⟨3, ![50000, 1, 1]⟩
abbrev S1 : Shape := ⟨1, ![1]⟩
abbrev S1x1x1 : Shape := ⟨3, ![1, 1, 1]⟩

abbrev nBuf : Space → Nat
  | .hbm => 737
  | .vmem => 0
  | .smem => 0
  | _ => 0

abbrev hbmTy0_0 (i : Nat) : BufTy := match i % 128 with
  | 0 => ⟨S2x2x50000x128, .f32⟩
  | 1 => ⟨S800000, .i32⟩
  | 2 => ⟨S800000, .i32⟩
  | 3 => ⟨S2x50000x3, .i32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S256x256, .f32⟩
  | 11 => ⟨S256, .f32⟩
  | 12 => ⟨S256x256, .f32⟩
  | 13 => ⟨S256x64, .f32⟩
  | 14 => ⟨S64, .f32⟩
  | 15 => ⟨S256x64, .f32⟩
  | 16 => ⟨S2x64x12, .f32⟩
  | 17 => ⟨S2x12, .f32⟩
  | 18 => ⟨S2x64x12, .f32⟩
  | 19 => ⟨S2x64x8, .f32⟩
  | 20 => ⟨S2x8, .f32⟩
  | 21 => ⟨S2x64x8, .f32⟩
  | 22 => ⟨S2x64x5, .f32⟩
  | 23 => ⟨S2x5, .f32⟩
  | 24 => ⟨S2x64x5, .f32⟩
  | 25 => ⟨S_, .f32⟩
  | 26 => ⟨S800000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S50000, .f32⟩
  | 33 => ⟨S50000, .f32⟩
  | 34 => ⟨S_, .f32⟩
  | 35 => ⟨S50000, .f32⟩
  | 36 => ⟨S50000, .f32⟩
  | 37 => ⟨S50000x1, .f32⟩
  | 38 => ⟨S1x1x50000x128, .f32⟩
  | 39 => ⟨S50000x128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S50000x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S1x1x50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x256, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x256, .f32⟩
  | 100 => ⟨S_, .f32⟩
  | 101 => ⟨S50000x256, .f32⟩
  | 102 => ⟨S800000x1, .i32⟩
  | 103 => ⟨S50000x256, .f32⟩
  | 104 => ⟨S50000x256, .f32⟩
  | 105 => ⟨S50000x256, .f32⟩
  | 106 => ⟨S50000x256, .f32⟩
  | 107 => ⟨S1x256, .f32⟩
  | 108 => ⟨S50000x256, .f32⟩
  | 109 => ⟨S50000x256, .f32⟩
  | 110 => ⟨S50000x256, .f32⟩
  | 111 => ⟨S50000x256, .f32⟩
  | 112 => ⟨S_, .f32⟩
  | 113 => ⟨S50000x256, .f32⟩
  | 114 => ⟨S50000x256, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x256, .f32⟩
  | 124 => ⟨S_, .f32⟩
  | 125 => ⟨S50000x256, .f32⟩
  | 126 => ⟨S800000x1, .i32⟩
  | 127 => ⟨S50000x256, .f32⟩
  | _ => ⟨S2x2x50000x128, .f32⟩

abbrev hbmTy0_1 (i : Nat) : BufTy := match i % 128 with
  | 0 => ⟨S50000x256, .f32⟩
  | 1 => ⟨S50000x256, .f32⟩
  | 2 => ⟨S50000x64, .f32⟩
  | 3 => ⟨S1x64, .f32⟩
  | 4 => ⟨S50000x64, .f32⟩
  | 5 => ⟨S50000x64, .f32⟩
  | 6 => ⟨S50000x64, .f32⟩
  | 7 => ⟨S50000x64, .f32⟩
  | 8 => ⟨S50000x64, .f32⟩
  | 9 => ⟨S50000x64, .f32⟩
  | 10 => ⟨S_, .f32⟩
  | 11 => ⟨S50000x64, .f32⟩
  | 12 => ⟨S50000x64, .f32⟩
  | 13 => ⟨S_, .f32⟩
  | 14 => ⟨S50000x64, .f32⟩
  | 15 => ⟨S50000x64, .f32⟩
  | 16 => ⟨S1x64x12, .f32⟩
  | 17 => ⟨S64x12, .f32⟩
  | 18 => ⟨S1x12, .f32⟩
  | 19 => ⟨S12, .f32⟩
  | 20 => ⟨S1x64x12, .f32⟩
  | 21 => ⟨S64x12, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S50000x64, .f32⟩
  | 36 => ⟨S50000x64, .f32⟩
  | 37 => ⟨S50000x12, .f32⟩
  | 38 => ⟨S1x12, .f32⟩
  | 39 => ⟨S50000x12, .f32⟩
  | 40 => ⟨S50000x12, .f32⟩
  | 41 => ⟨S50000x12, .f32⟩
  | 42 => ⟨S50000x12, .f32⟩
  | 43 => ⟨S50000x12, .f32⟩
  | 44 => ⟨S50000x12, .f32⟩
  | 45 => ⟨S_, .f32⟩
  | 46 => ⟨S50000x12, .f32⟩
  | 47 => ⟨S50000x12, .f32⟩
  | 48 => ⟨S_, .f32⟩
  | 49 => ⟨S50000x12, .f32⟩
  | 50 => ⟨S50000x12, .f32⟩
  | 51 => ⟨S1x64x8, .f32⟩
  | 52 => ⟨S64x8, .f32⟩
  | 53 => ⟨S1x8, .f32⟩
  | 54 => ⟨S8, .f32⟩
  | 55 => ⟨S1x64x8, .f32⟩
  | 56 => ⟨S64x8, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S_, .f32⟩
  | 67 => ⟨S50000x64, .f32⟩
  | 68 => ⟨S800000x1, .i32⟩
  | 69 => ⟨S50000x64, .f32⟩
  | 70 => ⟨S50000x64, .f32⟩
  | 71 => ⟨S50000x64, .f32⟩
  | 72 => ⟨S50000x8, .f32⟩
  | 73 => ⟨S1x8, .f32⟩
  | 74 => ⟨S50000x8, .f32⟩
  | 75 => ⟨S50000x8, .f32⟩
  | 76 => ⟨S50000x8, .f32⟩
  | 77 => ⟨S50000x8, .f32⟩
  | 78 => ⟨S50000x8, .f32⟩
  | 79 => ⟨S50000x8, .f32⟩
  | 80 => ⟨S_, .f32⟩
  | 81 => ⟨S50000x8, .f32⟩
  | 82 => ⟨S50000x8, .f32⟩
  | 83 => ⟨S_, .f32⟩
  | 84 => ⟨S50000x8, .f32⟩
  | 85 => ⟨S50000x8, .f32⟩
  | 86 => ⟨S1x64x5, .f32⟩
  | 87 => ⟨S64x5, .f32⟩
  | 88 => ⟨S1x5, .f32⟩
  | 89 => ⟨S5, .f32⟩
  | 90 => ⟨S1x64x5, .f32⟩
  | 91 => ⟨S64x5, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S_, .f32⟩
  | 102 => ⟨S50000x64, .f32⟩
  | 103 => ⟨S800000x1, .i32⟩
  | 104 => ⟨S50000x64, .f32⟩
  | 105 => ⟨S50000x64, .f32⟩
  | 106 => ⟨S50000x64, .f32⟩
  | 107 => ⟨S50000x5, .f32⟩
  | 108 => ⟨S1x5, .f32⟩
  | 109 => ⟨S50000x5, .f32⟩
  | 110 => ⟨S50000x5, .f32⟩
  | 111 => ⟨S50000x5, .f32⟩
  | 112 => ⟨S50000x5, .f32⟩
  | 113 => ⟨S50000x5, .f32⟩
  | 114 => ⟨S50000x5, .f32⟩
  | 115 => ⟨S_, .f32⟩
  | 116 => ⟨S50000x5, .f32⟩
  | 117 => ⟨S50000x5, .f32⟩
  | 118 => ⟨S_, .f32⟩
  | 119 => ⟨S50000x5, .f32⟩
  | 120 => ⟨S50000x5, .f32⟩
  | 121 => ⟨S1x50000x1, .i32⟩
  | 122 => ⟨S50000, .i32⟩
  | 123 => ⟨S_, .f32⟩
  | 124 => ⟨S50000, .f32⟩
  | 125 => ⟨S_, .f32⟩
  | 126 => ⟨S50000, .f32⟩
  | 127 => ⟨S50000, .f32⟩
  | _ => ⟨S2x2x50000x128, .f32⟩

abbrev hbmTy0_2 (i : Nat) : BufTy := match i % 128 with
  | 0 => ⟨S50000x1, .f32⟩
  | 1 => ⟨S50000x12, .f32⟩
  | 2 => ⟨S50000x12, .f32⟩
  | 3 => ⟨S50000x12, .f32⟩
  | 4 => ⟨S_, .f32⟩
  | 5 => ⟨S50000, .f32⟩
  | 6 => ⟨S50000x1, .f32⟩
  | 7 => ⟨S50000x1, .f32⟩
  | 8 => ⟨S50000x12, .f32⟩
  | 9 => ⟨S50000x12, .f32⟩
  | 10 => ⟨S50000x1, .i32⟩
  | 11 => ⟨S_, .i32⟩
  | 12 => ⟨S50000x1, .i32⟩
  | 13 => ⟨S50000x1, .i1⟩
  | 14 => ⟨S_, .i32⟩
  | 15 => ⟨S50000x1, .i32⟩
  | 16 => ⟨S50000x1, .i32⟩
  | 17 => ⟨S50000x1, .i32⟩
  | 18 => ⟨S50000x1x1, .i32⟩
  | 19 => ⟨S1, .i32⟩
  | 20 => ⟨S_, .i32⟩
  | 21 => ⟨S50000x1x1, .i32⟩
  | 22 => ⟨S50000x1x1, .i1⟩
  | 23 => ⟨S1x1x1, .i32⟩
  | 24 => ⟨S50000x1x1, .i32⟩
  | 25 => ⟨S50000x1x1, .i1⟩
  | 26 => ⟨S50000x1x1, .i1⟩
  | 27 => ⟨S_, .i1⟩
  | 28 => ⟨S50000x1, .i1⟩
  | 29 => ⟨S50000x1, .f32⟩
  | 30 => ⟨S_, .f32⟩
  | 31 => ⟨S50000x1, .f32⟩
  | 32 => ⟨S50000x1, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S1x50000x1, .i32⟩
  | 41 => ⟨S50000, .i32⟩
  | 42 => ⟨S_, .f32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x8, .f32⟩
  | 49 => ⟨S50000x8, .f32⟩
  | 50 => ⟨S50000x8, .f32⟩
  | 51 => ⟨S_, .f32⟩
  | 52 => ⟨S50000, .f32⟩
  | 53 => ⟨S50000x1, .f32⟩
  | 54 => ⟨S50000x1, .f32⟩
  | 55 => ⟨S50000x8, .f32⟩
  | 56 => ⟨S50000x8, .f32⟩
  | 57 => ⟨S50000x1, .i32⟩
  | 58 => ⟨S_, .i32⟩
  | 59 => ⟨S50000x1, .i32⟩
  | 60 => ⟨S50000x1, .i1⟩
  | 61 => ⟨S_, .i32⟩
  | 62 => ⟨S50000x1, .i32⟩
  | 63 => ⟨S50000x1, .i32⟩
  | 64 => ⟨S50000x1, .i32⟩
  | 65 => ⟨S50000x1x1, .i32⟩
  | 66 => ⟨S1, .i32⟩
  | 67 => ⟨S_, .i32⟩
  | 68 => ⟨S50000x1x1, .i32⟩
  | 69 => ⟨S50000x1x1, .i1⟩
  | 70 => ⟨S1x1x1, .i32⟩
  | 71 => ⟨S50000x1x1, .i32⟩
  | 72 => ⟨S50000x1x1, .i1⟩
  | 73 => ⟨S50000x1x1, .i1⟩
  | 74 => ⟨S_, .i1⟩
  | 75 => ⟨S50000x1, .i1⟩
  | 76 => ⟨S50000x1, .f32⟩
  | 77 => ⟨S_, .f32⟩
  | 78 => ⟨S50000x1, .f32⟩
  | 79 => ⟨S50000x1, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S1x50000x1, .i32⟩
  | 87 => ⟨S50000, .i32⟩
  | 88 => ⟨S_, .f32⟩
  | 89 => ⟨S50000, .f32⟩
  | 90 => ⟨S_, .f32⟩
  | 91 => ⟨S50000, .f32⟩
  | 92 => ⟨S50000, .f32⟩
  | 93 => ⟨S50000x1, .f32⟩
  | 94 => ⟨S50000x5, .f32⟩
  | 95 => ⟨S50000x5, .f32⟩
  | 96 => ⟨S50000x5, .f32⟩
  | 97 => ⟨S_, .f32⟩
  | 98 => ⟨S50000, .f32⟩
  | 99 => ⟨S50000x1, .f32⟩
  | 100 => ⟨S50000x1, .f32⟩
  | 101 => ⟨S50000x5, .f32⟩
  | 102 => ⟨S50000x5, .f32⟩
  | 103 => ⟨S50000x1, .i32⟩
  | 104 => ⟨S_, .i32⟩
  | 105 => ⟨S50000x1, .i32⟩
  | 106 => ⟨S50000x1, .i1⟩
  | 107 => ⟨S_, .i32⟩
  | 108 => ⟨S50000x1, .i32⟩
  | 109 => ⟨S50000x1, .i32⟩
  | 110 => ⟨S50000x1, .i32⟩
  | 111 => ⟨S50000x1x1, .i32⟩
  | 112 => ⟨S1, .i32⟩
  | 113 => ⟨S_, .i32⟩
  | 114 => ⟨S50000x1x1, .i32⟩
  | 115 => ⟨S50000x1x1, .i1⟩
  | 116 => ⟨S1x1x1, .i32⟩
  | 117 => ⟨S50000x1x1, .i32⟩
  | 118 => ⟨S50000x1x1, .i1⟩
  | 119 => ⟨S50000x1x1, .i1⟩
  | 120 => ⟨S_, .i1⟩
  | 121 => ⟨S50000x1, .i1⟩
  | 122 => ⟨S50000x1, .f32⟩
  | 123 => ⟨S_, .f32⟩
  | 124 => ⟨S50000x1, .f32⟩
  | 125 => ⟨S50000x1, .f32⟩
  | 126 => ⟨S_, .f32⟩
  | 127 => ⟨S_, .f32⟩
  | _ => ⟨S2x2x50000x128, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S1x1x50000x128, .f32⟩
  | 5 => ⟨S50000x128, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x128, .f32⟩
  | 15 => ⟨S_, .f32⟩
  | 16 => ⟨S50000x128, .f32⟩
  | 17 => ⟨S800000x1, .i32⟩
  | 18 => ⟨S50000x128, .f32⟩
  | 19 => ⟨S50000x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S1x1x50000x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x256, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x256, .f32⟩
  | 66 => ⟨S_, .f32⟩
  | 67 => ⟨S50000x256, .f32⟩
  | 68 => ⟨S800000x1, .i32⟩
  | 69 => ⟨S50000x256, .f32⟩
  | 70 => ⟨S50000x256, .f32⟩
  | 71 => ⟨S50000x256, .f32⟩
  | 72 => ⟨S50000x256, .f32⟩
  | 73 => ⟨S1x256, .f32⟩
  | 74 => ⟨S50000x256, .f32⟩
  | 75 => ⟨S50000x256, .f32⟩
  | 76 => ⟨S50000x256, .f32⟩
  | 77 => ⟨S50000x256, .f32⟩
  | 78 => ⟨S_, .f32⟩
  | 79 => ⟨S50000x256, .f32⟩
  | 80 => ⟨S50000x256, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x256, .f32⟩
  | 90 => ⟨S_, .f32⟩
  | 91 => ⟨S50000x256, .f32⟩
  | 92 => ⟨S800000x1, .i32⟩
  | 93 => ⟨S50000x256, .f32⟩
  | 94 => ⟨S50000x256, .f32⟩
  | 95 => ⟨S50000x256, .f32⟩
  | 96 => ⟨S50000x64, .f32⟩
  | 97 => ⟨S1x64, .f32⟩
  | 98 => ⟨S50000x64, .f32⟩
  | 99 => ⟨S50000x64, .f32⟩
  | 100 => ⟨S50000x64, .f32⟩
  | 101 => ⟨S50000x64, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S1x64x12, .f32⟩
  | 111 => ⟨S64x12, .f32⟩
  | 112 => ⟨S1x12, .f32⟩
  | 113 => ⟨S12, .f32⟩
  | 114 => ⟨S1x64x12, .f32⟩
  | 115 => ⟨S64x12, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x64, .f32⟩
  | 125 => ⟨S_, .f32⟩
  | 126 => ⟨S50000x64, .f32⟩
  | 127 => ⟨S800000x1, .i32⟩
  | _ => ⟨S2x2x50000x128, .f32⟩

abbrev hbmTy0_4 (i : Nat) : BufTy := match i % 128 with
  | 0 => ⟨S50000x64, .f32⟩
  | 1 => ⟨S50000x64, .f32⟩
  | 2 => ⟨S50000x64, .f32⟩
  | 3 => ⟨S50000x12, .f32⟩
  | 4 => ⟨S1x12, .f32⟩
  | 5 => ⟨S50000x12, .f32⟩
  | 6 => ⟨S50000x12, .f32⟩
  | 7 => ⟨S50000x12, .f32⟩
  | 8 => ⟨S50000x12, .f32⟩
  | 9 => ⟨S50000x12, .f32⟩
  | 10 => ⟨S50000x12, .f32⟩
  | 11 => ⟨S_, .f32⟩
  | 12 => ⟨S50000x12, .f32⟩
  | 13 => ⟨S50000x12, .f32⟩
  | 14 => ⟨S_, .f32⟩
  | 15 => ⟨S50000x12, .f32⟩
  | 16 => ⟨S50000x12, .f32⟩
  | 17 => ⟨S1x64x8, .f32⟩
  | 18 => ⟨S64x8, .f32⟩
  | 19 => ⟨S1x8, .f32⟩
  | 20 => ⟨S8, .f32⟩
  | 21 => ⟨S1x64x8, .f32⟩
  | 22 => ⟨S64x8, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S_, .f32⟩
  | 33 => ⟨S50000x64, .f32⟩
  | 34 => ⟨S800000x1, .i32⟩
  | 35 => ⟨S50000x64, .f32⟩
  | 36 => ⟨S50000x64, .f32⟩
  | 37 => ⟨S50000x64, .f32⟩
  | 38 => ⟨S50000x8, .f32⟩
  | 39 => ⟨S1x8, .f32⟩
  | 40 => ⟨S50000x8, .f32⟩
  | 41 => ⟨S50000x8, .f32⟩
  | 42 => ⟨S50000x8, .f32⟩
  | 43 => ⟨S50000x8, .f32⟩
  | 44 => ⟨S50000x8, .f32⟩
  | 45 => ⟨S50000x8, .f32⟩
  | 46 => ⟨S_, .f32⟩
  | 47 => ⟨S50000x8, .f32⟩
  | 48 => ⟨S50000x8, .f32⟩
  | 49 => ⟨S_, .f32⟩
  | 50 => ⟨S50000x8, .f32⟩
  | 51 => ⟨S50000x8, .f32⟩
  | 52 => ⟨S1x64x5, .f32⟩
  | 53 => ⟨S64x5, .f32⟩
  | 54 => ⟨S1x5, .f32⟩
  | 55 => ⟨S5, .f32⟩
  | 56 => ⟨S1x64x5, .f32⟩
  | 57 => ⟨S64x5, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S50000x64, .f32⟩
  | 72 => ⟨S50000x64, .f32⟩
  | 73 => ⟨S50000x5, .f32⟩
  | 74 => ⟨S1x5, .f32⟩
  | 75 => ⟨S50000x5, .f32⟩
  | 76 => ⟨S50000x5, .f32⟩
  | 77 => ⟨S50000x5, .f32⟩
  | 78 => ⟨S50000x5, .f32⟩
  | 79 => ⟨S50000x5, .f32⟩
  | 80 => ⟨S50000x5, .f32⟩
  | 81 => ⟨S_, .f32⟩
  | 82 => ⟨S50000x5, .f32⟩
  | 83 => ⟨S50000x5, .f32⟩
  | 84 => ⟨S_, .f32⟩
  | 85 => ⟨S50000x5, .f32⟩
  | 86 => ⟨S50000x5, .f32⟩
  | 87 => ⟨S1x50000x1, .i32⟩
  | 88 => ⟨S50000, .i32⟩
  | 89 => ⟨S_, .f32⟩
  | 90 => ⟨S50000, .f32⟩
  | 91 => ⟨S_, .f32⟩
  | 92 => ⟨S50000, .f32⟩
  | 93 => ⟨S50000, .f32⟩
  | 94 => ⟨S50000x1, .f32⟩
  | 95 => ⟨S50000x12, .f32⟩
  | 96 => ⟨S50000x12, .f32⟩
  | 97 => ⟨S50000x12, .f32⟩
  | 98 => ⟨S_, .f32⟩
  | 99 => ⟨S50000, .f32⟩
  | 100 => ⟨S50000x1, .f32⟩
  | 101 => ⟨S50000x1, .f32⟩
  | 102 => ⟨S50000x12, .f32⟩
  | 103 => ⟨S50000x12, .f32⟩
  | 104 => ⟨S50000x1, .i32⟩
  | 105 => ⟨S_, .i32⟩
  | 106 => ⟨S50000x1, .i32⟩
  | 107 => ⟨S50000x1, .i1⟩
  | 108 => ⟨S_, .i32⟩
  | 109 => ⟨S50000x1, .i32⟩
  | 110 => ⟨S50000x1, .i32⟩
  | 111 => ⟨S50000x1, .i32⟩
  | 112 => ⟨S50000x1x1, .i32⟩
  | 113 => ⟨S1, .i32⟩
  | 114 => ⟨S_, .i32⟩
  | 115 => ⟨S50000x1x1, .i32⟩
  | 116 => ⟨S50000x1x1, .i1⟩
  | 117 => ⟨S1x1x1, .i32⟩
  | 118 => ⟨S50000x1x1, .i32⟩
  | 119 => ⟨S50000x1x1, .i1⟩
  | 120 => ⟨S50000x1x1, .i1⟩
  | 121 => ⟨S_, .i1⟩
  | 122 => ⟨S50000x1, .i1⟩
  | 123 => ⟨S50000x1, .f32⟩
  | 124 => ⟨S_, .f32⟩
  | 125 => ⟨S50000x1, .f32⟩
  | 126 => ⟨S50000x1, .f32⟩
  | 127 => ⟨S_, .f32⟩
  | _ => ⟨S2x2x50000x128, .f32⟩

abbrev hbmTy0_5 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S1x50000x1, .i32⟩
  | 6 => ⟨S50000, .i32⟩
  | 7 => ⟨S_, .f32⟩
  | 8 => ⟨S50000, .f32⟩
  | 9 => ⟨S_, .f32⟩
  | 10 => ⟨S50000, .f32⟩
  | 11 => ⟨S50000, .f32⟩
  | 12 => ⟨S50000x1, .f32⟩
  | 13 => ⟨S50000x8, .f32⟩
  | 14 => ⟨S50000x8, .f32⟩
  | 15 => ⟨S50000x8, .f32⟩
  | 16 => ⟨S_, .f32⟩
  | 17 => ⟨S50000, .f32⟩
  | 18 => ⟨S50000x1, .f32⟩
  | 19 => ⟨S50000x1, .f32⟩
  | 20 => ⟨S50000x8, .f32⟩
  | 21 => ⟨S50000x8, .f32⟩
  | 22 => ⟨S50000x1, .i32⟩
  | 23 => ⟨S_, .i32⟩
  | 24 => ⟨S50000x1, .i32⟩
  | 25 => ⟨S50000x1, .i1⟩
  | 26 => ⟨S_, .i32⟩
  | 27 => ⟨S50000x1, .i32⟩
  | 28 => ⟨S50000x1, .i32⟩
  | 29 => ⟨S50000x1, .i32⟩
  | 30 => ⟨S50000x1x1, .i32⟩
  | 31 => ⟨S1, .i32⟩
  | 32 => ⟨S_, .i32⟩
  | 33 => ⟨S50000x1x1, .i32⟩
  | 34 => ⟨S50000x1x1, .i1⟩
  | 35 => ⟨S1x1x1, .i32⟩
  | 36 => ⟨S50000x1x1, .i32⟩
  | 37 => ⟨S50000x1x1, .i1⟩
  | 38 => ⟨S50000x1x1, .i1⟩
  | 39 => ⟨S_, .i1⟩
  | 40 => ⟨S50000x1, .i1⟩
  | 41 => ⟨S50000x1, .f32⟩
  | 42 => ⟨S_, .f32⟩
  | 43 => ⟨S50000x1, .f32⟩
  | 44 => ⟨S50000x1, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S1x50000x1, .i32⟩
  | 52 => ⟨S50000, .i32⟩
  | 53 => ⟨S_, .f32⟩
  | 54 => ⟨S50000, .f32⟩
  | 55 => ⟨S_, .f32⟩
  | 56 => ⟨S50000, .f32⟩
  | 57 => ⟨S50000, .f32⟩
  | 58 => ⟨S50000x1, .f32⟩
  | 59 => ⟨S50000x5, .f32⟩
  | 60 => ⟨S50000x5, .f32⟩
  | 61 => ⟨S50000x5, .f32⟩
  | 62 => ⟨S_, .f32⟩
  | 63 => ⟨S50000, .f32⟩
  | 64 => ⟨S50000x1, .f32⟩
  | 65 => ⟨S50000x1, .f32⟩
  | 66 => ⟨S50000x5, .f32⟩
  | 67 => ⟨S50000x5, .f32⟩
  | 68 => ⟨S50000x1, .i32⟩
  | 69 => ⟨S_, .i32⟩
  | 70 => ⟨S50000x1, .i32⟩
  | 71 => ⟨S50000x1, .i1⟩
  | 72 => ⟨S_, .i32⟩
  | 73 => ⟨S50000x1, .i32⟩
  | 74 => ⟨S50000x1, .i32⟩
  | 75 => ⟨S50000x1, .i32⟩
  | 76 => ⟨S50000x1x1, .i32⟩
  | 77 => ⟨S1, .i32⟩
  | 78 => ⟨S_, .i32⟩
  | 79 => ⟨S50000x1x1, .i32⟩
  | 80 => ⟨S50000x1x1, .i1⟩
  | 81 => ⟨S1x1x1, .i32⟩
  | 82 => ⟨S50000x1x1, .i32⟩
  | 83 => ⟨S50000x1x1, .i1⟩
  | 84 => ⟨S50000x1x1, .i1⟩
  | 85 => ⟨S_, .i1⟩
  | 86 => ⟨S50000x1, .i1⟩
  | 87 => ⟨S50000x1, .f32⟩
  | 88 => ⟨S_, .f32⟩
  | 89 => ⟨S50000x1, .f32⟩
  | 90 => ⟨S50000x1, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | _ => ⟨S2x2x50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x2x50000x128, .f32⟩

abbrev bufTy : (tb : Table) → Fin (tcTables nBuf tb) → BufTy
  | .hbm, ⟨i, _⟩ => hbmTy i
  | _, _ => ⟨S2x2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_cst_2 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c : Ref sig .tc := ⟨.hbm, 40, rfl⟩
abbrev main_v11 : Ref sig .tc := ⟨.hbm, 41, rfl⟩
abbrev main_v12 : Ref sig .tc := ⟨.hbm, 42, rfl⟩
abbrev main_c_3 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_4 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_call0_cst : Ref sig .tc := ⟨.hbm, 61, rfl⟩
abbrev main_call0_v0 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_5 : Ref sig .tc := ⟨.hbm, 66, rfl⟩
abbrev main_v32 : Ref sig .tc := ⟨.hbm, 67, rfl⟩
abbrev main_v33 : Ref sig .tc := ⟨.hbm, 68, rfl⟩
abbrev main_c_6 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_7 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_call1_cst : Ref sig .tc := ⟨.hbm, 87, rfl⟩
abbrev main_call1_v0 : Ref sig .tc := ⟨.hbm, 88, rfl⟩
abbrev main_v50 : Ref sig .tc := ⟨.hbm, 89, rfl⟩
abbrev main_v51 : Ref sig .tc := ⟨.hbm, 90, rfl⟩
abbrev main_c_8 : Ref sig .tc := ⟨.hbm, 91, rfl⟩
abbrev main_v52 : Ref sig .tc := ⟨.hbm, 92, rfl⟩
abbrev main_v53 : Ref sig .tc := ⟨.hbm, 93, rfl⟩
abbrev main_c_9 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_10 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_call2_cst : Ref sig .tc := ⟨.hbm, 112, rfl⟩
abbrev main_call2_v0 : Ref sig .tc := ⟨.hbm, 113, rfl⟩
abbrev main_v70 : Ref sig .tc := ⟨.hbm, 114, rfl⟩
abbrev main_c_11 : Ref sig .tc := ⟨.hbm, 115, rfl⟩
abbrev main_v71 : Ref sig .tc := ⟨.hbm, 116, rfl⟩
abbrev main_v72 : Ref sig .tc := ⟨.hbm, 117, rfl⟩
abbrev main_c_12 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_13 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_14 : Ref sig .tc := ⟨.hbm, 138, rfl⟩
abbrev main_v91 : Ref sig .tc := ⟨.hbm, 139, rfl⟩
abbrev main_v92 : Ref sig .tc := ⟨.hbm, 140, rfl⟩
abbrev main_cst_15 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_c_16 : Ref sig .tc := ⟨.hbm, 150, rfl⟩
abbrev main_v101 : Ref sig .tc := ⟨.hbm, 151, rfl⟩
abbrev main_v102 : Ref sig .tc := ⟨.hbm, 152, rfl⟩
abbrev main_c_17 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_18 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_19 : Ref sig .tc := ⟨.hbm, 173, rfl⟩
abbrev main_v121 : Ref sig .tc := ⟨.hbm, 174, rfl⟩
abbrev main_v122 : Ref sig .tc := ⟨.hbm, 175, rfl⟩
abbrev main_cst_20 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_c_21 : Ref sig .tc := ⟨.hbm, 185, rfl⟩
abbrev main_v131 : Ref sig .tc := ⟨.hbm, 186, rfl⟩
abbrev main_v132 : Ref sig .tc := ⟨.hbm, 187, rfl⟩
abbrev main_c_22 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_23 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_24 : Ref sig .tc := ⟨.hbm, 208, rfl⟩
abbrev main_v151 : Ref sig .tc := ⟨.hbm, 209, rfl⟩
abbrev main_v152 : Ref sig .tc := ⟨.hbm, 210, rfl⟩
abbrev main_cst_25 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_c_26 : Ref sig .tc := ⟨.hbm, 220, rfl⟩
abbrev main_v161 : Ref sig .tc := ⟨.hbm, 221, rfl⟩
abbrev main_v162 : Ref sig .tc := ⟨.hbm, 222, rfl⟩
abbrev main_c_27 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_28 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_cst_29 : Ref sig .tc := ⟨.hbm, 243, rfl⟩
abbrev main_v181 : Ref sig .tc := ⟨.hbm, 244, rfl⟩
abbrev main_v182 : Ref sig .tc := ⟨.hbm, 245, rfl⟩
abbrev main_cst_30 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_call3_cst : Ref sig .tc := ⟨.hbm, 251, rfl⟩
abbrev main_call3_v0 : Ref sig .tc := ⟨.hbm, 252, rfl⟩
abbrev main_call3_cst_0 : Ref sig .tc := ⟨.hbm, 253, rfl⟩
abbrev main_call3_v1 : Ref sig .tc := ⟨.hbm, 254, rfl⟩
abbrev main_call3_v2 : Ref sig .tc := ⟨.hbm, 255, rfl⟩
abbrev main_call3_v3 : Ref sig .tc := ⟨.hbm, 256, rfl⟩
abbrev main_call3_v4 : Ref sig .tc := ⟨.hbm, 257, rfl⟩
abbrev main_call3_v5 : Ref sig .tc := ⟨.hbm, 258, rfl⟩
abbrev main_call3_v6 : Ref sig .tc := ⟨.hbm, 259, rfl⟩
abbrev main_call3_cst_1 : Ref sig .tc := ⟨.hbm, 260, rfl⟩
abbrev main_call3_v7 : Ref sig .tc := ⟨.hbm, 261, rfl⟩
abbrev main_call3_v8 : Ref sig .tc := ⟨.hbm, 262, rfl⟩
abbrev main_call3_v9 : Ref sig .tc := ⟨.hbm, 263, rfl⟩
abbrev main_call3_v10 : Ref sig .tc := ⟨.hbm, 264, rfl⟩
abbrev main_v187 : Ref sig .tc := ⟨.hbm, 265, rfl⟩
abbrev main_v188 : Ref sig .tc := ⟨.hbm, 266, rfl⟩
abbrev main_call4_c : Ref sig .tc := ⟨.hbm, 267, rfl⟩
abbrev main_call4_v0 : Ref sig .tc := ⟨.hbm, 268, rfl⟩
abbrev main_call4_v1 : Ref sig .tc := ⟨.hbm, 269, rfl⟩
abbrev main_call4_c_0 : Ref sig .tc := ⟨.hbm, 270, rfl⟩
abbrev main_call4_v2 : Ref sig .tc := ⟨.hbm, 271, rfl⟩
abbrev main_call4_v3 : Ref sig .tc := ⟨.hbm, 272, rfl⟩
abbrev main_call4_v4 : Ref sig .tc := ⟨.hbm, 273, rfl⟩
abbrev main_call4_v5 : Ref sig .tc := ⟨.hbm, 274, rfl⟩
abbrev main_call4_c_1 : Ref sig .tc := ⟨.hbm, 275, rfl⟩
abbrev main_call4_c_2 : Ref sig .tc := ⟨.hbm, 276, rfl⟩
abbrev main_call4_v6 : Ref sig .tc := ⟨.hbm, 277, rfl⟩
abbrev main_call4_v7 : Ref sig .tc := ⟨.hbm, 278, rfl⟩
abbrev main_call4_v8 : Ref sig .tc := ⟨.hbm, 279, rfl⟩
abbrev main_call4_v9 : Ref sig .tc := ⟨.hbm, 280, rfl⟩
abbrev main_call4_v10 : Ref sig .tc := ⟨.hbm, 281, rfl⟩
abbrev main_call4_v11 : Ref sig .tc := ⟨.hbm, 282, rfl⟩
abbrev main_call4_c_3 : Ref sig .tc := ⟨.hbm, 283, rfl⟩
abbrev main_call4_v12 : Ref sig .tc := ⟨.hbm, 284, rfl⟩
abbrev main_call4_v13 : Ref sig .tc := ⟨.hbm, 285, rfl⟩
abbrev main_call4_cst : Ref sig .tc := ⟨.hbm, 286, rfl⟩
abbrev main_call4_v14 : Ref sig .tc := ⟨.hbm, 287, rfl⟩
abbrev main_v189 : Ref sig .tc := ⟨.hbm, 288, rfl⟩
abbrev main_cst_31 : Ref sig .tc := ⟨.hbm, 289, rfl⟩
abbrev main_v190 : Ref sig .tc := ⟨.hbm, 290, rfl⟩
abbrev main_cst_32 : Ref sig .tc := ⟨.hbm, 291, rfl⟩
abbrev main_v191 : Ref sig .tc := ⟨.hbm, 292, rfl⟩
abbrev main_v192 : Ref sig .tc := ⟨.hbm, 293, rfl⟩
abbrev main_cst_33 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_call5_cst : Ref sig .tc := ⟨.hbm, 298, rfl⟩
abbrev main_call5_v0 : Ref sig .tc := ⟨.hbm, 299, rfl⟩
abbrev main_call5_cst_0 : Ref sig .tc := ⟨.hbm, 300, rfl⟩
abbrev main_call5_v1 : Ref sig .tc := ⟨.hbm, 301, rfl⟩
abbrev main_call5_v2 : Ref sig .tc := ⟨.hbm, 302, rfl⟩
abbrev main_call5_v3 : Ref sig .tc := ⟨.hbm, 303, rfl⟩
abbrev main_call5_v4 : Ref sig .tc := ⟨.hbm, 304, rfl⟩
abbrev main_call5_v5 : Ref sig .tc := ⟨.hbm, 305, rfl⟩
abbrev main_call5_v6 : Ref sig .tc := ⟨.hbm, 306, rfl⟩
abbrev main_call5_cst_1 : Ref sig .tc := ⟨.hbm, 307, rfl⟩
abbrev main_call5_v7 : Ref sig .tc := ⟨.hbm, 308, rfl⟩
abbrev main_call5_v8 : Ref sig .tc := ⟨.hbm, 309, rfl⟩
abbrev main_call5_v9 : Ref sig .tc := ⟨.hbm, 310, rfl⟩
abbrev main_call5_v10 : Ref sig .tc := ⟨.hbm, 311, rfl⟩
abbrev main_v196 : Ref sig .tc := ⟨.hbm, 312, rfl⟩
abbrev main_v197 : Ref sig .tc := ⟨.hbm, 313, rfl⟩
abbrev main_call6_c : Ref sig .tc := ⟨.hbm, 314, rfl⟩
abbrev main_call6_v0 : Ref sig .tc := ⟨.hbm, 315, rfl⟩
abbrev main_call6_v1 : Ref sig .tc := ⟨.hbm, 316, rfl⟩
abbrev main_call6_c_0 : Ref sig .tc := ⟨.hbm, 317, rfl⟩
abbrev main_call6_v2 : Ref sig .tc := ⟨.hbm, 318, rfl⟩
abbrev main_call6_v3 : Ref sig .tc := ⟨.hbm, 319, rfl⟩
abbrev main_call6_v4 : Ref sig .tc := ⟨.hbm, 320, rfl⟩
abbrev main_call6_v5 : Ref sig .tc := ⟨.hbm, 321, rfl⟩
abbrev main_call6_c_1 : Ref sig .tc := ⟨.hbm, 322, rfl⟩
abbrev main_call6_c_2 : Ref sig .tc := ⟨.hbm, 323, rfl⟩
abbrev main_call6_v6 : Ref sig .tc := ⟨.hbm, 324, rfl⟩
abbrev main_call6_v7 : Ref sig .tc := ⟨.hbm, 325, rfl⟩
abbrev main_call6_v8 : Ref sig .tc := ⟨.hbm, 326, rfl⟩
abbrev main_call6_v9 : Ref sig .tc := ⟨.hbm, 327, rfl⟩
abbrev main_call6_v10 : Ref sig .tc := ⟨.hbm, 328, rfl⟩
abbrev main_call6_v11 : Ref sig .tc := ⟨.hbm, 329, rfl⟩
abbrev main_call6_c_3 : Ref sig .tc := ⟨.hbm, 330, rfl⟩
abbrev main_call6_v12 : Ref sig .tc := ⟨.hbm, 331, rfl⟩
abbrev main_call6_v13 : Ref sig .tc := ⟨.hbm, 332, rfl⟩
abbrev main_call6_cst : Ref sig .tc := ⟨.hbm, 333, rfl⟩
abbrev main_call6_v14 : Ref sig .tc := ⟨.hbm, 334, rfl⟩
abbrev main_v198 : Ref sig .tc := ⟨.hbm, 335, rfl⟩
abbrev main_cst_34 : Ref sig .tc := ⟨.hbm, 336, rfl⟩
abbrev main_v199 : Ref sig .tc := ⟨.hbm, 337, rfl⟩
abbrev main_cst_35 : Ref sig .tc := ⟨.hbm, 338, rfl⟩
abbrev main_v200 : Ref sig .tc := ⟨.hbm, 339, rfl⟩
abbrev main_v201 : Ref sig .tc := ⟨.hbm, 340, rfl⟩
abbrev main_v202 : Ref sig .tc := ⟨.hbm, 341, rfl⟩
abbrev main_v203 : Ref sig .tc := ⟨.hbm, 342, rfl⟩
abbrev main_v204 : Ref sig .tc := ⟨.hbm, 343, rfl⟩
abbrev main_call7_cst : Ref sig .tc := ⟨.hbm, 344, rfl⟩
abbrev main_call7_v0 : Ref sig .tc := ⟨.hbm, 345, rfl⟩
abbrev main_call7_cst_0 : Ref sig .tc := ⟨.hbm, 346, rfl⟩
abbrev main_call7_v1 : Ref sig .tc := ⟨.hbm, 347, rfl⟩
abbrev main_call7_v2 : Ref sig .tc := ⟨.hbm, 348, rfl⟩
abbrev main_call7_v3 : Ref sig .tc := ⟨.hbm, 349, rfl⟩
abbrev main_call7_v4 : Ref sig .tc := ⟨.hbm, 350, rfl⟩
abbrev main_call7_v5 : Ref sig .tc := ⟨.hbm, 351, rfl⟩
abbrev main_call7_v6 : Ref sig .tc := ⟨.hbm, 352, rfl⟩
abbrev main_call7_cst_1 : Ref sig .tc := ⟨.hbm, 353, rfl⟩
abbrev main_call7_v7 : Ref sig .tc := ⟨.hbm, 354, rfl⟩
abbrev main_call7_v8 : Ref sig .tc := ⟨.hbm, 355, rfl⟩
abbrev main_call7_v9 : Ref sig .tc := ⟨.hbm, 356, rfl⟩
abbrev main_call7_v10 : Ref sig .tc := ⟨.hbm, 357, rfl⟩
abbrev main_v205 : Ref sig .tc := ⟨.hbm, 358, rfl⟩
abbrev main_v206 : Ref sig .tc := ⟨.hbm, 359, rfl⟩
abbrev main_call8_c : Ref sig .tc := ⟨.hbm, 360, rfl⟩
abbrev main_call8_v0 : Ref sig .tc := ⟨.hbm, 361, rfl⟩
abbrev main_call8_v1 : Ref sig .tc := ⟨.hbm, 362, rfl⟩
abbrev main_call8_c_0 : Ref sig .tc := ⟨.hbm, 363, rfl⟩
abbrev main_call8_v2 : Ref sig .tc := ⟨.hbm, 364, rfl⟩
abbrev main_call8_v3 : Ref sig .tc := ⟨.hbm, 365, rfl⟩
abbrev main_call8_v4 : Ref sig .tc := ⟨.hbm, 366, rfl⟩
abbrev main_call8_v5 : Ref sig .tc := ⟨.hbm, 367, rfl⟩
abbrev main_call8_c_1 : Ref sig .tc := ⟨.hbm, 368, rfl⟩
abbrev main_call8_c_2 : Ref sig .tc := ⟨.hbm, 369, rfl⟩
abbrev main_call8_v6 : Ref sig .tc := ⟨.hbm, 370, rfl⟩
abbrev main_call8_v7 : Ref sig .tc := ⟨.hbm, 371, rfl⟩
abbrev main_call8_v8 : Ref sig .tc := ⟨.hbm, 372, rfl⟩
abbrev main_call8_v9 : Ref sig .tc := ⟨.hbm, 373, rfl⟩
abbrev main_call8_v10 : Ref sig .tc := ⟨.hbm, 374, rfl⟩
abbrev main_call8_v11 : Ref sig .tc := ⟨.hbm, 375, rfl⟩
abbrev main_call8_c_3 : Ref sig .tc := ⟨.hbm, 376, rfl⟩
abbrev main_call8_v12 : Ref sig .tc := ⟨.hbm, 377, rfl⟩
abbrev main_call8_v13 : Ref sig .tc := ⟨.hbm, 378, rfl⟩
abbrev main_call8_cst : Ref sig .tc := ⟨.hbm, 379, rfl⟩
abbrev main_call8_v14 : Ref sig .tc := ⟨.hbm, 380, rfl⟩
abbrev main_v207 : Ref sig .tc := ⟨.hbm, 381, rfl⟩
abbrev main_cst_36 : Ref sig .tc := ⟨.hbm, 382, rfl⟩
abbrev main_v208 : Ref sig .tc := ⟨.hbm, 383, rfl⟩
abbrev main_cst_37 : Ref sig .tc := ⟨.hbm, 384, rfl⟩
abbrev main_v209 : Ref sig .tc := ⟨.hbm, 385, rfl⟩
abbrev main_v210 : Ref sig .tc := ⟨.hbm, 386, rfl⟩
abbrev main_v211 : Ref sig .tc := ⟨.hbm, 387, rfl⟩
abbrev main_v212 : Ref sig .tc := ⟨.hbm, 388, rfl⟩
abbrev main_v213 : Ref sig .tc := ⟨.hbm, 389, rfl⟩
abbrev main_c_38 : Ref sig .tc := ⟨.hbm, 390, rfl⟩
abbrev main_v214 : Ref sig .tc := ⟨.hbm, 391, rfl⟩
abbrev main_v215 : Ref sig .tc := ⟨.hbm, 392, rfl⟩
abbrev main_c_39 : Ref sig .tc := ⟨.hbm, 393, rfl⟩
abbrev main_v216 : Ref sig .tc := ⟨.hbm, 394, rfl⟩
abbrev main_v217 : Ref sig .tc := ⟨.hbm, 395, rfl⟩
abbrev main_v218 : Ref sig .tc := ⟨.hbm, 396, rfl⟩
abbrev main_v219 : Ref sig .tc := ⟨.hbm, 397, rfl⟩
abbrev main_v220 : Ref sig .tc := ⟨.hbm, 398, rfl⟩
abbrev main_cst_40 : Ref sig .tc := ⟨.hbm, 399, rfl⟩
abbrev main_v221 : Ref sig .tc := ⟨.hbm, 400, rfl⟩
abbrev main_v222 : Ref sig .tc := ⟨.hbm, 401, rfl⟩
abbrev main_v223 : Ref sig .tc := ⟨.hbm, 402, rfl⟩
abbrev main_v224 : Ref sig .tc := ⟨.hbm, 403, rfl⟩
abbrev main_v225 : Ref sig .tc := ⟨.hbm, 404, rfl⟩
abbrev main_v226 : Ref sig .tc := ⟨.hbm, 405, rfl⟩
abbrev main_v227 : Ref sig .tc := ⟨.hbm, 406, rfl⟩
abbrev main_v228 : Ref sig .tc := ⟨.hbm, 407, rfl⟩
abbrev main_v229 : Ref sig .tc := ⟨.hbm, 408, rfl⟩
abbrev main_v230 : Ref sig .tc := ⟨.hbm, 409, rfl⟩
abbrev main_v231 : Ref sig .tc := ⟨.hbm, 410, rfl⟩
abbrev main_call9_cst : Ref sig .tc := ⟨.hbm, 411, rfl⟩
abbrev main_call9_v0 : Ref sig .tc := ⟨.hbm, 412, rfl⟩
abbrev main_v232 : Ref sig .tc := ⟨.hbm, 413, rfl⟩
abbrev main_v233 : Ref sig .tc := ⟨.hbm, 414, rfl⟩
abbrev main_v234 : Ref sig .tc := ⟨.hbm, 415, rfl⟩
abbrev main_c_41 : Ref sig .tc := ⟨.hbm, 416, rfl⟩
abbrev main_v235 : Ref sig .tc := ⟨.hbm, 417, rfl⟩
abbrev main_v236 : Ref sig .tc := ⟨.hbm, 418, rfl⟩
abbrev main_c_42 : Ref sig .tc := ⟨.hbm, 419, rfl⟩
abbrev main_v237 : Ref sig .tc := ⟨.hbm, 420, rfl⟩
abbrev main_v238 : Ref sig .tc := ⟨.hbm, 421, rfl⟩
abbrev main_v239 : Ref sig .tc := ⟨.hbm, 422, rfl⟩
abbrev main_v240 : Ref sig .tc := ⟨.hbm, 423, rfl⟩
abbrev main_v241 : Ref sig .tc := ⟨.hbm, 424, rfl⟩
abbrev main_cst_43 : Ref sig .tc := ⟨.hbm, 425, rfl⟩
abbrev main_v242 : Ref sig .tc := ⟨.hbm, 426, rfl⟩
abbrev main_v243 : Ref sig .tc := ⟨.hbm, 427, rfl⟩
abbrev main_v244 : Ref sig .tc := ⟨.hbm, 428, rfl⟩
abbrev main_v245 : Ref sig .tc := ⟨.hbm, 429, rfl⟩
abbrev main_v246 : Ref sig .tc := ⟨.hbm, 430, rfl⟩
abbrev main_v247 : Ref sig .tc := ⟨.hbm, 431, rfl⟩
abbrev main_v248 : Ref sig .tc := ⟨.hbm, 432, rfl⟩
abbrev main_v249 : Ref sig .tc := ⟨.hbm, 433, rfl⟩
abbrev main_v250 : Ref sig .tc := ⟨.hbm, 434, rfl⟩
abbrev main_v251 : Ref sig .tc := ⟨.hbm, 435, rfl⟩
abbrev main_v252 : Ref sig .tc := ⟨.hbm, 436, rfl⟩
abbrev main_call10_cst : Ref sig .tc := ⟨.hbm, 437, rfl⟩
abbrev main_call10_v0 : Ref sig .tc := ⟨.hbm, 438, rfl⟩
abbrev main_v253 : Ref sig .tc := ⟨.hbm, 439, rfl⟩
abbrev main_v254 : Ref sig .tc := ⟨.hbm, 440, rfl⟩
abbrev main_c_44 : Ref sig .tc := ⟨.hbm, 441, rfl⟩
abbrev main_v255 : Ref sig .tc := ⟨.hbm, 442, rfl⟩
abbrev main_v256 : Ref sig .tc := ⟨.hbm, 443, rfl⟩
abbrev main_c_45 : Ref sig .tc := ⟨.hbm, 444, rfl⟩
abbrev main_v257 : Ref sig .tc := ⟨.hbm, 445, rfl⟩
abbrev main_v258 : Ref sig .tc := ⟨.hbm, 446, rfl⟩
abbrev main_v259 : Ref sig .tc := ⟨.hbm, 447, rfl⟩
abbrev main_v260 : Ref sig .tc := ⟨.hbm, 448, rfl⟩
abbrev main_v261 : Ref sig .tc := ⟨.hbm, 449, rfl⟩
abbrev main_cst_46 : Ref sig .tc := ⟨.hbm, 450, rfl⟩
abbrev main_v262 : Ref sig .tc := ⟨.hbm, 451, rfl⟩
abbrev main_v263 : Ref sig .tc := ⟨.hbm, 452, rfl⟩
abbrev main_v264 : Ref sig .tc := ⟨.hbm, 453, rfl⟩
abbrev main_v265 : Ref sig .tc := ⟨.hbm, 454, rfl⟩
abbrev main_v266 : Ref sig .tc := ⟨.hbm, 455, rfl⟩
abbrev main_v267 : Ref sig .tc := ⟨.hbm, 456, rfl⟩
abbrev main_v268 : Ref sig .tc := ⟨.hbm, 457, rfl⟩
abbrev main_v269 : Ref sig .tc := ⟨.hbm, 458, rfl⟩
abbrev main_v270 : Ref sig .tc := ⟨.hbm, 459, rfl⟩
abbrev main_v271 : Ref sig .tc := ⟨.hbm, 460, rfl⟩
abbrev main_v272 : Ref sig .tc := ⟨.hbm, 461, rfl⟩
abbrev main_call11_cst : Ref sig .tc := ⟨.hbm, 462, rfl⟩
abbrev main_call11_v0 : Ref sig .tc := ⟨.hbm, 463, rfl⟩
abbrev main_v273 : Ref sig .tc := ⟨.hbm, 464, rfl⟩
abbrev main_c_47 : Ref sig .tc := ⟨.hbm, 465, rfl⟩
abbrev main_v274 : Ref sig .tc := ⟨.hbm, 466, rfl⟩
abbrev main_v275 : Ref sig .tc := ⟨.hbm, 467, rfl⟩
abbrev main_c_48 : Ref sig .tc := ⟨.hbm, 468, rfl⟩
abbrev main_v276 : Ref sig .tc := ⟨.hbm, 469, rfl⟩
abbrev main_v277 : Ref sig .tc := ⟨.hbm, 470, rfl⟩
abbrev main_v278 : Ref sig .tc := ⟨.hbm, 471, rfl⟩
abbrev main_v279 : Ref sig .tc := ⟨.hbm, 472, rfl⟩
abbrev main_v280 : Ref sig .tc := ⟨.hbm, 473, rfl⟩
abbrev main_cst_49 : Ref sig .tc := ⟨.hbm, 474, rfl⟩
abbrev main_v281 : Ref sig .tc := ⟨.hbm, 475, rfl⟩
abbrev main_v282 : Ref sig .tc := ⟨.hbm, 476, rfl⟩
abbrev main_v283 : Ref sig .tc := ⟨.hbm, 477, rfl⟩
abbrev main_v284 : Ref sig .tc := ⟨.hbm, 478, rfl⟩
abbrev main_v285 : Ref sig .tc := ⟨.hbm, 479, rfl⟩
abbrev main_v286 : Ref sig .tc := ⟨.hbm, 480, rfl⟩
abbrev main_v287 : Ref sig .tc := ⟨.hbm, 481, rfl⟩
abbrev main_v288 : Ref sig .tc := ⟨.hbm, 482, rfl⟩
abbrev main_v289 : Ref sig .tc := ⟨.hbm, 483, rfl⟩
abbrev main_v290 : Ref sig .tc := ⟨.hbm, 484, rfl⟩
abbrev main_v291 : Ref sig .tc := ⟨.hbm, 485, rfl⟩
abbrev main_v292 : Ref sig .tc := ⟨.hbm, 486, rfl⟩
abbrev main_v293 : Ref sig .tc := ⟨.hbm, 487, rfl⟩
abbrev main_cst_50 : Ref sig .tc := ⟨.hbm, 488, rfl⟩
abbrev main_v294 : Ref sig .tc := ⟨.hbm, 489, rfl⟩
abbrev main_v295 : Ref sig .tc := ⟨.hbm, 490, rfl⟩
abbrev main_cst_51 : Ref sig .tc := ⟨.hbm, 491, rfl⟩
abbrev main_v296 : Ref sig .tc := ⟨.hbm, 492, rfl⟩
abbrev main_v297 : Ref sig .tc := ⟨.hbm, 493, rfl⟩
abbrev main_v298 : Ref sig .tc := ⟨.hbm, 494, rfl⟩
abbrev main_v299 : Ref sig .tc := ⟨.hbm, 495, rfl⟩
abbrev main_v300 : Ref sig .tc := ⟨.hbm, 496, rfl⟩
abbrev main_v301 : Ref sig .tc := ⟨.hbm, 497, rfl⟩
abbrev main_v302 : Ref sig .tc := ⟨.hbm, 498, rfl⟩
abbrev main_v303 : Ref sig .tc := ⟨.hbm, 499, rfl⟩
abbrev main_c_52 : Ref sig .tc := ⟨.hbm, 500, rfl⟩
abbrev main_v304 : Ref sig .tc := ⟨.hbm, 501, rfl⟩
abbrev main_v305 : Ref sig .tc := ⟨.hbm, 502, rfl⟩
abbrev main_c_53 : Ref sig .tc := ⟨.hbm, 503, rfl⟩
abbrev main_v306 : Ref sig .tc := ⟨.hbm, 504, rfl⟩
abbrev main_v307 : Ref sig .tc := ⟨.hbm, 505, rfl⟩
abbrev main_v308 : Ref sig .tc := ⟨.hbm, 506, rfl⟩
abbrev main_v309 : Ref sig .tc := ⟨.hbm, 507, rfl⟩
abbrev main_v310 : Ref sig .tc := ⟨.hbm, 508, rfl⟩
abbrev main_cst_54 : Ref sig .tc := ⟨.hbm, 509, rfl⟩
abbrev main_v311 : Ref sig .tc := ⟨.hbm, 510, rfl⟩
abbrev main_v312 : Ref sig .tc := ⟨.hbm, 511, rfl⟩
abbrev main_v313 : Ref sig .tc := ⟨.hbm, 512, rfl⟩
abbrev main_v314 : Ref sig .tc := ⟨.hbm, 513, rfl⟩
abbrev main_v315 : Ref sig .tc := ⟨.hbm, 514, rfl⟩
abbrev main_v316 : Ref sig .tc := ⟨.hbm, 515, rfl⟩
abbrev main_v317 : Ref sig .tc := ⟨.hbm, 516, rfl⟩
abbrev main_v318 : Ref sig .tc := ⟨.hbm, 517, rfl⟩
abbrev main_v319 : Ref sig .tc := ⟨.hbm, 518, rfl⟩
abbrev main_v320 : Ref sig .tc := ⟨.hbm, 519, rfl⟩
abbrev main_v321 : Ref sig .tc := ⟨.hbm, 520, rfl⟩
abbrev main_v322 : Ref sig .tc := ⟨.hbm, 521, rfl⟩
abbrev main_v323 : Ref sig .tc := ⟨.hbm, 522, rfl⟩
abbrev main_cst_55 : Ref sig .tc := ⟨.hbm, 523, rfl⟩
abbrev main_v324 : Ref sig .tc := ⟨.hbm, 524, rfl⟩
abbrev main_v325 : Ref sig .tc := ⟨.hbm, 525, rfl⟩
abbrev main_cst_56 : Ref sig .tc := ⟨.hbm, 526, rfl⟩
abbrev main_v326 : Ref sig .tc := ⟨.hbm, 527, rfl⟩
abbrev main_v327 : Ref sig .tc := ⟨.hbm, 528, rfl⟩
abbrev main_v328 : Ref sig .tc := ⟨.hbm, 529, rfl⟩
abbrev main_v329 : Ref sig .tc := ⟨.hbm, 530, rfl⟩
abbrev main_v330 : Ref sig .tc := ⟨.hbm, 531, rfl⟩
abbrev main_v331 : Ref sig .tc := ⟨.hbm, 532, rfl⟩
abbrev main_v332 : Ref sig .tc := ⟨.hbm, 533, rfl⟩
abbrev main_v333 : Ref sig .tc := ⟨.hbm, 534, rfl⟩
abbrev main_c_57 : Ref sig .tc := ⟨.hbm, 535, rfl⟩
abbrev main_v334 : Ref sig .tc := ⟨.hbm, 536, rfl⟩
abbrev main_v335 : Ref sig .tc := ⟨.hbm, 537, rfl⟩
abbrev main_c_58 : Ref sig .tc := ⟨.hbm, 538, rfl⟩
abbrev main_v336 : Ref sig .tc := ⟨.hbm, 539, rfl⟩
abbrev main_v337 : Ref sig .tc := ⟨.hbm, 540, rfl⟩
abbrev main_v338 : Ref sig .tc := ⟨.hbm, 541, rfl⟩
abbrev main_v339 : Ref sig .tc := ⟨.hbm, 542, rfl⟩
abbrev main_v340 : Ref sig .tc := ⟨.hbm, 543, rfl⟩
abbrev main_cst_59 : Ref sig .tc := ⟨.hbm, 544, rfl⟩
abbrev main_v341 : Ref sig .tc := ⟨.hbm, 545, rfl⟩
abbrev main_v342 : Ref sig .tc := ⟨.hbm, 546, rfl⟩
abbrev main_v343 : Ref sig .tc := ⟨.hbm, 547, rfl⟩
abbrev main_v344 : Ref sig .tc := ⟨.hbm, 548, rfl⟩
abbrev main_v345 : Ref sig .tc := ⟨.hbm, 549, rfl⟩
abbrev main_v346 : Ref sig .tc := ⟨.hbm, 550, rfl⟩
abbrev main_v347 : Ref sig .tc := ⟨.hbm, 551, rfl⟩
abbrev main_v348 : Ref sig .tc := ⟨.hbm, 552, rfl⟩
abbrev main_v349 : Ref sig .tc := ⟨.hbm, 553, rfl⟩
abbrev main_v350 : Ref sig .tc := ⟨.hbm, 554, rfl⟩
abbrev main_v351 : Ref sig .tc := ⟨.hbm, 555, rfl⟩
abbrev main_v352 : Ref sig .tc := ⟨.hbm, 556, rfl⟩
abbrev main_v353 : Ref sig .tc := ⟨.hbm, 557, rfl⟩
abbrev main_cst_60 : Ref sig .tc := ⟨.hbm, 558, rfl⟩
abbrev main_v354 : Ref sig .tc := ⟨.hbm, 559, rfl⟩
abbrev main_v355 : Ref sig .tc := ⟨.hbm, 560, rfl⟩
abbrev main_cst_61 : Ref sig .tc := ⟨.hbm, 561, rfl⟩
abbrev main_v356 : Ref sig .tc := ⟨.hbm, 562, rfl⟩
abbrev main_v357 : Ref sig .tc := ⟨.hbm, 563, rfl⟩
abbrev main_v358 : Ref sig .tc := ⟨.hbm, 564, rfl⟩
abbrev main_v359 : Ref sig .tc := ⟨.hbm, 565, rfl⟩
abbrev main_v360 : Ref sig .tc := ⟨.hbm, 566, rfl⟩
abbrev main_v361 : Ref sig .tc := ⟨.hbm, 567, rfl⟩
abbrev main_v362 : Ref sig .tc := ⟨.hbm, 568, rfl⟩
abbrev main_v363 : Ref sig .tc := ⟨.hbm, 569, rfl⟩
abbrev main_c_62 : Ref sig .tc := ⟨.hbm, 570, rfl⟩
abbrev main_v364 : Ref sig .tc := ⟨.hbm, 571, rfl⟩
abbrev main_v365 : Ref sig .tc := ⟨.hbm, 572, rfl⟩
abbrev main_c_63 : Ref sig .tc := ⟨.hbm, 573, rfl⟩
abbrev main_v366 : Ref sig .tc := ⟨.hbm, 574, rfl⟩
abbrev main_v367 : Ref sig .tc := ⟨.hbm, 575, rfl⟩
abbrev main_v368 : Ref sig .tc := ⟨.hbm, 576, rfl⟩
abbrev main_v369 : Ref sig .tc := ⟨.hbm, 577, rfl⟩
abbrev main_v370 : Ref sig .tc := ⟨.hbm, 578, rfl⟩
abbrev main_cst_64 : Ref sig .tc := ⟨.hbm, 579, rfl⟩
abbrev main_v371 : Ref sig .tc := ⟨.hbm, 580, rfl⟩
abbrev main_v372 : Ref sig .tc := ⟨.hbm, 581, rfl⟩
abbrev main_v373 : Ref sig .tc := ⟨.hbm, 582, rfl⟩
abbrev main_v374 : Ref sig .tc := ⟨.hbm, 583, rfl⟩
abbrev main_v375 : Ref sig .tc := ⟨.hbm, 584, rfl⟩
abbrev main_v376 : Ref sig .tc := ⟨.hbm, 585, rfl⟩
abbrev main_v377 : Ref sig .tc := ⟨.hbm, 586, rfl⟩
abbrev main_v378 : Ref sig .tc := ⟨.hbm, 587, rfl⟩
abbrev main_v379 : Ref sig .tc := ⟨.hbm, 588, rfl⟩
abbrev main_v380 : Ref sig .tc := ⟨.hbm, 589, rfl⟩
abbrev main_v381 : Ref sig .tc := ⟨.hbm, 590, rfl⟩
abbrev main_v382 : Ref sig .tc := ⟨.hbm, 591, rfl⟩
abbrev main_v383 : Ref sig .tc := ⟨.hbm, 592, rfl⟩
abbrev main_cst_65 : Ref sig .tc := ⟨.hbm, 593, rfl⟩
abbrev main_v384 : Ref sig .tc := ⟨.hbm, 594, rfl⟩
abbrev main_v385 : Ref sig .tc := ⟨.hbm, 595, rfl⟩
abbrev main_cst_66 : Ref sig .tc := ⟨.hbm, 596, rfl⟩
abbrev main_v386 : Ref sig .tc := ⟨.hbm, 597, rfl⟩
abbrev main_v387 : Ref sig .tc := ⟨.hbm, 598, rfl⟩
abbrev main_v388 : Ref sig .tc := ⟨.hbm, 599, rfl⟩
abbrev main_v389 : Ref sig .tc := ⟨.hbm, 600, rfl⟩
abbrev main_call12_cst : Ref sig .tc := ⟨.hbm, 601, rfl⟩
abbrev main_call12_v0 : Ref sig .tc := ⟨.hbm, 602, rfl⟩
abbrev main_call12_cst_0 : Ref sig .tc := ⟨.hbm, 603, rfl⟩
abbrev main_call12_v1 : Ref sig .tc := ⟨.hbm, 604, rfl⟩
abbrev main_call12_v2 : Ref sig .tc := ⟨.hbm, 605, rfl⟩
abbrev main_call12_v3 : Ref sig .tc := ⟨.hbm, 606, rfl⟩
abbrev main_call12_v4 : Ref sig .tc := ⟨.hbm, 607, rfl⟩
abbrev main_call12_v5 : Ref sig .tc := ⟨.hbm, 608, rfl⟩
abbrev main_call12_v6 : Ref sig .tc := ⟨.hbm, 609, rfl⟩
abbrev main_call12_cst_1 : Ref sig .tc := ⟨.hbm, 610, rfl⟩
abbrev main_call12_v7 : Ref sig .tc := ⟨.hbm, 611, rfl⟩
abbrev main_call12_v8 : Ref sig .tc := ⟨.hbm, 612, rfl⟩
abbrev main_call12_v9 : Ref sig .tc := ⟨.hbm, 613, rfl⟩
abbrev main_call12_v10 : Ref sig .tc := ⟨.hbm, 614, rfl⟩
abbrev main_v390 : Ref sig .tc := ⟨.hbm, 615, rfl⟩
abbrev main_v391 : Ref sig .tc := ⟨.hbm, 616, rfl⟩
abbrev main_call13_c : Ref sig .tc := ⟨.hbm, 617, rfl⟩
abbrev main_call13_v0 : Ref sig .tc := ⟨.hbm, 618, rfl⟩
abbrev main_call13_v1 : Ref sig .tc := ⟨.hbm, 619, rfl⟩
abbrev main_call13_c_0 : Ref sig .tc := ⟨.hbm, 620, rfl⟩
abbrev main_call13_v2 : Ref sig .tc := ⟨.hbm, 621, rfl⟩
abbrev main_call13_v3 : Ref sig .tc := ⟨.hbm, 622, rfl⟩
abbrev main_call13_v4 : Ref sig .tc := ⟨.hbm, 623, rfl⟩
abbrev main_call13_v5 : Ref sig .tc := ⟨.hbm, 624, rfl⟩
abbrev main_call13_c_1 : Ref sig .tc := ⟨.hbm, 625, rfl⟩
abbrev main_call13_c_2 : Ref sig .tc := ⟨.hbm, 626, rfl⟩
abbrev main_call13_v6 : Ref sig .tc := ⟨.hbm, 627, rfl⟩
abbrev main_call13_v7 : Ref sig .tc := ⟨.hbm, 628, rfl⟩
abbrev main_call13_v8 : Ref sig .tc := ⟨.hbm, 629, rfl⟩
abbrev main_call13_v9 : Ref sig .tc := ⟨.hbm, 630, rfl⟩
abbrev main_call13_v10 : Ref sig .tc := ⟨.hbm, 631, rfl⟩
abbrev main_call13_v11 : Ref sig .tc := ⟨.hbm, 632, rfl⟩
abbrev main_call13_c_3 : Ref sig .tc := ⟨.hbm, 633, rfl⟩
abbrev main_call13_v12 : Ref sig .tc := ⟨.hbm, 634, rfl⟩
abbrev main_call13_v13 : Ref sig .tc := ⟨.hbm, 635, rfl⟩
abbrev main_call13_cst : Ref sig .tc := ⟨.hbm, 636, rfl⟩
abbrev main_call13_v14 : Ref sig .tc := ⟨.hbm, 637, rfl⟩
abbrev main_v392 : Ref sig .tc := ⟨.hbm, 638, rfl⟩
abbrev main_cst_67 : Ref sig .tc := ⟨.hbm, 639, rfl⟩
abbrev main_v393 : Ref sig .tc := ⟨.hbm, 640, rfl⟩
abbrev main_cst_68 : Ref sig .tc := ⟨.hbm, 641, rfl⟩
abbrev main_v394 : Ref sig .tc := ⟨.hbm, 642, rfl⟩
abbrev main_v395 : Ref sig .tc := ⟨.hbm, 643, rfl⟩
abbrev main_v396 : Ref sig .tc := ⟨.hbm, 644, rfl⟩
abbrev main_v397 : Ref sig .tc := ⟨.hbm, 645, rfl⟩
abbrev main_v398 : Ref sig .tc := ⟨.hbm, 646, rfl⟩
abbrev main_call14_cst : Ref sig .tc := ⟨.hbm, 647, rfl⟩
abbrev main_call14_v0 : Ref sig .tc := ⟨.hbm, 648, rfl⟩
abbrev main_call14_cst_0 : Ref sig .tc := ⟨.hbm, 649, rfl⟩
abbrev main_call14_v1 : Ref sig .tc := ⟨.hbm, 650, rfl⟩
abbrev main_call14_v2 : Ref sig .tc := ⟨.hbm, 651, rfl⟩
abbrev main_call14_v3 : Ref sig .tc := ⟨.hbm, 652, rfl⟩
abbrev main_call14_v4 : Ref sig .tc := ⟨.hbm, 653, rfl⟩
abbrev main_call14_v5 : Ref sig .tc := ⟨.hbm, 654, rfl⟩
abbrev main_call14_v6 : Ref sig .tc := ⟨.hbm, 655, rfl⟩
abbrev main_call14_cst_1 : Ref sig .tc := ⟨.hbm, 656, rfl⟩
abbrev main_call14_v7 : Ref sig .tc := ⟨.hbm, 657, rfl⟩
abbrev main_call14_v8 : Ref sig .tc := ⟨.hbm, 658, rfl⟩
abbrev main_call14_v9 : Ref sig .tc := ⟨.hbm, 659, rfl⟩
abbrev main_call14_v10 : Ref sig .tc := ⟨.hbm, 660, rfl⟩
abbrev main_v399 : Ref sig .tc := ⟨.hbm, 661, rfl⟩
abbrev main_v400 : Ref sig .tc := ⟨.hbm, 662, rfl⟩
abbrev main_call15_c : Ref sig .tc := ⟨.hbm, 663, rfl⟩
abbrev main_call15_v0 : Ref sig .tc := ⟨.hbm, 664, rfl⟩
abbrev main_call15_v1 : Ref sig .tc := ⟨.hbm, 665, rfl⟩
abbrev main_call15_c_0 : Ref sig .tc := ⟨.hbm, 666, rfl⟩
abbrev main_call15_v2 : Ref sig .tc := ⟨.hbm, 667, rfl⟩
abbrev main_call15_v3 : Ref sig .tc := ⟨.hbm, 668, rfl⟩
abbrev main_call15_v4 : Ref sig .tc := ⟨.hbm, 669, rfl⟩
abbrev main_call15_v5 : Ref sig .tc := ⟨.hbm, 670, rfl⟩
abbrev main_call15_c_1 : Ref sig .tc := ⟨.hbm, 671, rfl⟩
abbrev main_call15_c_2 : Ref sig .tc := ⟨.hbm, 672, rfl⟩
abbrev main_call15_v6 : Ref sig .tc := ⟨.hbm, 673, rfl⟩
abbrev main_call15_v7 : Ref sig .tc := ⟨.hbm, 674, rfl⟩
abbrev main_call15_v8 : Ref sig .tc := ⟨.hbm, 675, rfl⟩
abbrev main_call15_v9 : Ref sig .tc := ⟨.hbm, 676, rfl⟩
abbrev main_call15_v10 : Ref sig .tc := ⟨.hbm, 677, rfl⟩
abbrev main_call15_v11 : Ref sig .tc := ⟨.hbm, 678, rfl⟩
abbrev main_call15_c_3 : Ref sig .tc := ⟨.hbm, 679, rfl⟩
abbrev main_call15_v12 : Ref sig .tc := ⟨.hbm, 680, rfl⟩
abbrev main_call15_v13 : Ref sig .tc := ⟨.hbm, 681, rfl⟩
abbrev main_call15_cst : Ref sig .tc := ⟨.hbm, 682, rfl⟩
abbrev main_call15_v14 : Ref sig .tc := ⟨.hbm, 683, rfl⟩
abbrev main_v401 : Ref sig .tc := ⟨.hbm, 684, rfl⟩
abbrev main_cst_69 : Ref sig .tc := ⟨.hbm, 685, rfl⟩
abbrev main_v402 : Ref sig .tc := ⟨.hbm, 686, rfl⟩
abbrev main_cst_70 : Ref sig .tc := ⟨.hbm, 687, rfl⟩
abbrev main_v403 : Ref sig .tc := ⟨.hbm, 688, rfl⟩
abbrev main_v404 : Ref sig .tc := ⟨.hbm, 689, rfl⟩
abbrev main_v405 : Ref sig .tc := ⟨.hbm, 690, rfl⟩
abbrev main_v406 : Ref sig .tc := ⟨.hbm, 691, rfl⟩
abbrev main_v407 : Ref sig .tc := ⟨.hbm, 692, rfl⟩
abbrev main_call16_cst : Ref sig .tc := ⟨.hbm, 693, rfl⟩
abbrev main_call16_v0 : Ref sig .tc := ⟨.hbm, 694, rfl⟩
abbrev main_call16_cst_0 : Ref sig .tc := ⟨.hbm, 695, rfl⟩
abbrev main_call16_v1 : Ref sig .tc := ⟨.hbm, 696, rfl⟩
abbrev main_call16_v2 : Ref sig .tc := ⟨.hbm, 697, rfl⟩
abbrev main_call16_v3 : Ref sig .tc := ⟨.hbm, 698, rfl⟩
abbrev main_call16_v4 : Ref sig .tc := ⟨.hbm, 699, rfl⟩
abbrev main_call16_v5 : Ref sig .tc := ⟨.hbm, 700, rfl⟩
abbrev main_call16_v6 : Ref sig .tc := ⟨.hbm, 701, rfl⟩
abbrev main_call16_cst_1 : Ref sig .tc := ⟨.hbm, 702, rfl⟩
abbrev main_call16_v7 : Ref sig .tc := ⟨.hbm, 703, rfl⟩
abbrev main_call16_v8 : Ref sig .tc := ⟨.hbm, 704, rfl⟩
abbrev main_call16_v9 : Ref sig .tc := ⟨.hbm, 705, rfl⟩
abbrev main_call16_v10 : Ref sig .tc := ⟨.hbm, 706, rfl⟩
abbrev main_v408 : Ref sig .tc := ⟨.hbm, 707, rfl⟩
abbrev main_v409 : Ref sig .tc := ⟨.hbm, 708, rfl⟩
abbrev main_call17_c : Ref sig .tc := ⟨.hbm, 709, rfl⟩
abbrev main_call17_v0 : Ref sig .tc := ⟨.hbm, 710, rfl⟩
abbrev main_call17_v1 : Ref sig .tc := ⟨.hbm, 711, rfl⟩
abbrev main_call17_c_0 : Ref sig .tc := ⟨.hbm, 712, rfl⟩
abbrev main_call17_v2 : Ref sig .tc := ⟨.hbm, 713, rfl⟩
abbrev main_call17_v3 : Ref sig .tc := ⟨.hbm, 714, rfl⟩
abbrev main_call17_v4 : Ref sig .tc := ⟨.hbm, 715, rfl⟩
abbrev main_call17_v5 : Ref sig .tc := ⟨.hbm, 716, rfl⟩
abbrev main_call17_c_1 : Ref sig .tc := ⟨.hbm, 717, rfl⟩
abbrev main_call17_c_2 : Ref sig .tc := ⟨.hbm, 718, rfl⟩
abbrev main_call17_v6 : Ref sig .tc := ⟨.hbm, 719, rfl⟩
abbrev main_call17_v7 : Ref sig .tc := ⟨.hbm, 720, rfl⟩
abbrev main_call17_v8 : Ref sig .tc := ⟨.hbm, 721, rfl⟩
abbrev main_call17_v9 : Ref sig .tc := ⟨.hbm, 722, rfl⟩
abbrev main_call17_v10 : Ref sig .tc := ⟨.hbm, 723, rfl⟩
abbrev main_call17_v11 : Ref sig .tc := ⟨.hbm, 724, rfl⟩
abbrev main_call17_c_3 : Ref sig .tc := ⟨.hbm, 725, rfl⟩
abbrev main_call17_v12 : Ref sig .tc := ⟨.hbm, 726, rfl⟩
abbrev main_call17_v13 : Ref sig .tc := ⟨.hbm, 727, rfl⟩
abbrev main_call17_cst : Ref sig .tc := ⟨.hbm, 728, rfl⟩
abbrev main_call17_v14 : Ref sig .tc := ⟨.hbm, 729, rfl⟩
abbrev main_v410 : Ref sig .tc := ⟨.hbm, 730, rfl⟩
abbrev main_cst_71 : Ref sig .tc := ⟨.hbm, 731, rfl⟩
abbrev main_v411 : Ref sig .tc := ⟨.hbm, 732, rfl⟩
abbrev main_cst_72 : Ref sig .tc := ⟨.hbm, 733, rfl⟩
abbrev main_v412 : Ref sig .tc := ⟨.hbm, 734, rfl⟩
abbrev main_v413 : Ref sig .tc := ⟨.hbm, 735, rfl⟩
abbrev main_v414 : Ref sig .tc := ⟨.hbm, 736, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S2x2x50000x128_S1x1x50000x128_0_0_0_0 : S2x2x50000x128.Slices ![0, 0, 0, 0] S1x1x50000x128
  shapeCasts_S1x1x50000x128_S50000x128 : S1x1x50000x128.ShapeCasts S50000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x2x50000x128_S1x1x50000x128_0_1_0_0 : S2x2x50000x128.Slices ![0, 1, 0, 0] S1x1x50000x128
  concatenates_S50000x128_S50000x128_S50000x256_d1 : Shape.Concatenates [S50000x128, S50000x128] S50000x256 1
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x64x12_S1x64x12_0_0_0 : S2x64x12.Slices ![0, 0, 0] S1x64x12
  shapeCasts_S1x64x12_S64x12 : S1x64x12.ShapeCasts S64x12
  slices_S2x12_S1x12_0_0 : S2x12.Slices ![0, 0] S1x12
  shapeCasts_S1x12_S12 : S1x12.ShapeCasts S12
  bcast_S50000x1_S50000x64_0_1 : S50000x1.BroadcastsInDim S50000x64 (![0, 1] : Fin 2 → Fin S50000x64.rank)
  bcast_S12_S1x12_1 : S12.BroadcastsInDim S1x12 (![1] : Fin 1 → Fin S1x12.rank)
  bcast_S1x12_S50000x12_0_1 : S1x12.BroadcastsInDim S50000x12 (![0, 1] : Fin 2 → Fin S50000x12.rank)
  bcast_S_S50000x12 : S_.BroadcastsInDim S50000x12 (![] : Fin 0 → Fin S50000x12.rank)
  slices_S2x64x8_S1x64x8_0_0_0 : S2x64x8.Slices ![0, 0, 0] S1x64x8
  shapeCasts_S1x64x8_S64x8 : S1x64x8.ShapeCasts S64x8
  slices_S2x8_S1x8_0_0 : S2x8.Slices ![0, 0] S1x8
  shapeCasts_S1x8_S8 : S1x8.ShapeCasts S8
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  bcast_S_S50000x8 : S_.BroadcastsInDim S50000x8 (![] : Fin 0 → Fin S50000x8.rank)
  slices_S2x64x5_S1x64x5_0_0_0 : S2x64x5.Slices ![0, 0, 0] S1x64x5
  shapeCasts_S1x64x5_S64x5 : S1x64x5.ShapeCasts S64x5
  slices_S2x5_S1x5_0_0 : S2x5.Slices ![0, 0] S1x5
  shapeCasts_S1x5_S5 : S1x5.ShapeCasts S5
  bcast_S5_S1x5_1 : S5.BroadcastsInDim S1x5 (![1] : Fin 1 → Fin S1x5.rank)
  bcast_S1x5_S50000x5_0_1 : S1x5.BroadcastsInDim S50000x5 (![0, 1] : Fin 2 → Fin S50000x5.rank)
  bcast_S_S50000x5 : S_.BroadcastsInDim S50000x5 (![] : Fin 0 → Fin S50000x5.rank)
  slices_S2x50000x3_S1x50000x1_0_0_0 : S2x50000x3.Slices ![0, 0, 0] S1x50000x1
  shapeCasts_S1x50000x1_S50000 : S1x50000x1.ShapeCasts S50000
  reducesTo_S50000x12_S50000_d1 : S50000x12.ReducesTo [1] S50000
  h_S_ : 0 < S_.numel
  bcast_S50000x1_S50000x12_0_1 : S50000x1.BroadcastsInDim S50000x12 (![0, 1] : Fin 2 → Fin S50000x12.rank)
  bcast_S_S50000x1 : S_.BroadcastsInDim S50000x1 (![] : Fin 0 → Fin S50000x1.rank)
  shapeCasts_S50000x1_S50000x1x1 : S50000x1.ShapeCasts S50000x1x1
  bcast_S_S50000x1x1 : S_.BroadcastsInDim S50000x1x1 (![] : Fin 0 → Fin S50000x1x1.rank)
  bcast_S1_S1x1x1_2 : S1.BroadcastsInDim S1x1x1 (![2] : Fin 1 → Fin S1x1x1.rank)
  bcast_S1x1x1_S50000x1x1_0_1_2 : S1x1x1.BroadcastsInDim S50000x1x1 (![0, 1, 2] : Fin 3 → Fin S50000x1x1.rank)
  reducesTo_S50000x1x1_S50000x1_d2 : S50000x1x1.ReducesTo [2] S50000x1
  reducesTo_S50000x1_S_d0_1 : S50000x1.ReducesTo [0, 1] S_
  slices_S2x50000x3_S1x50000x1_0_0_1 : S2x50000x3.Slices ![0, 0, 1] S1x50000x1
  reducesTo_S50000x8_S50000_d1 : S50000x8.ReducesTo [1] S50000
  bcast_S50000x1_S50000x8_0_1 : S50000x1.BroadcastsInDim S50000x8 (![0, 1] : Fin 2 → Fin S50000x8.rank)
  slices_S2x50000x3_S1x50000x1_0_0_2 : S2x50000x3.Slices ![0, 0, 2] S1x50000x1
  reducesTo_S50000x5_S50000_d1 : S50000x5.ReducesTo [1] S50000
  bcast_S50000x1_S50000x5_0_1 : S50000x1.BroadcastsInDim S50000x5 (![0, 1] : Fin 2 → Fin S50000x5.rank)
  slices_S2x2x50000x128_S1x1x50000x128_1_0_0_0 : S2x2x50000x128.Slices ![1, 0, 0, 0] S1x1x50000x128
  slices_S2x2x50000x128_S1x1x50000x128_1_1_0_0 : S2x2x50000x128.Slices ![1, 1, 0, 0] S1x1x50000x128
  slices_S2x64x12_S1x64x12_1_0_0 : S2x64x12.Slices ![1, 0, 0] S1x64x12
  slices_S2x12_S1x12_1_0 : S2x12.Slices ![1, 0] S1x12
  slices_S2x64x8_S1x64x8_1_0_0 : S2x64x8.Slices ![1, 0, 0] S1x64x8
  slices_S2x8_S1x8_1_0 : S2x8.Slices ![1, 0] S1x8
  slices_S2x64x5_S1x64x5_1_0_0 : S2x64x5.Slices ![1, 0, 0] S1x64x5
  slices_S2x5_S1x5_1_0 : S2x5.Slices ![1, 0] S1x5
  slices_S2x50000x3_S1x50000x1_1_0_0 : S2x50000x3.Slices ![1, 0, 0] S1x50000x1
  slices_S2x50000x3_S1x50000x1_1_0_1 : S2x50000x3.Slices ![1, 0, 1] S1x50000x1
  slices_S2x50000x3_S1x50000x1_1_0_2 : S2x50000x3.Slices ![1, 0, 2] S1x50000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x12_S50000x12_1_0_0_1_n_n_wf : DotDims.WF S50000x64 S64x12 S50000x12 [1] [0] [0] [1] [] []
  dot_S50000x64_S64x8_S50000x8_1_0_0_1_n_n_wf : DotDims.WF S50000x64 S64x8 S50000x8 [1] [0] [0] [1] [] []
  dot_S50000x64_S64x5_S50000x5_1_0_0_1_n_n_wf : DotDims.WF S50000x64 S64x5 S50000x5 [1] [0] [0] [1] [] []
  gather_S50000x12_S50000x1x1_S50000x1_n_1_0_0_1_2_11_wf : GatherDims.WF S50000x12 S50000x1x1 S50000x1 [] [1] [0] [1] [0] 2 ![1, 1]
  gather_S50000x8_S50000x1x1_S50000x1_n_1_0_0_1_2_11_wf : GatherDims.WF S50000x8 S50000x1x1 S50000x1 [] [1] [0] [1] [0] 2 ![1, 1]
  gather_S50000x5_S50000x1x1_S50000x1_n_1_0_0_1_2_11_wf : GatherDims.WF S50000x5 S50000x1x1 S50000x1 [] [1] [0] [1] [0] 2 ![1, 1]

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x12_S50000x12_1_0_0_1_n_n : DotDims S50000x64 S64x12 S50000x12 where
  lhsContracting := [1]
  rhsContracting := [0]
  lhsNonContracting := [0]
  rhsNonContracting := [1]
  lhsBatch := []
  rhsBatch := []
  wf := dot_S50000x64_S64x12_S50000x12_1_0_0_1_n_n_wf
def dot_S50000x64_S64x8_S50000x8_1_0_0_1_n_n : DotDims S50000x64 S64x8 S50000x8 where
  lhsContracting := [1]
  rhsContracting := [0]
  lhsNonContracting := [0]
  rhsNonContracting := [1]
  lhsBatch := []
  rhsBatch := []
  wf := dot_S50000x64_S64x8_S50000x8_1_0_0_1_n_n_wf
def dot_S50000x64_S64x5_S50000x5_1_0_0_1_n_n : DotDims S50000x64 S64x5 S50000x5 where
  lhsContracting := [1]
  rhsContracting := [0]
  lhsNonContracting := [0]
  rhsNonContracting := [1]
  lhsBatch := []
  rhsBatch := []
  wf := dot_S50000x64_S64x5_S50000x5_1_0_0_1_n_n_wf
def gather_S50000x12_S50000x1x1_S50000x1_n_1_0_0_1_2_11 : GatherDims S50000x12 S50000x1x1 S50000x1 where
  offsetDims := []
  collapsedSliceDims := [1]
  operandBatchingDims := [0]
  startIndicesBatchingDims := [0]
  startIndexMap := [1]
  indexVectorDim := 2
  sliceSizes := ![1, 1]
  wf := gather_S50000x12_S50000x1x1_S50000x1_n_1_0_0_1_2_11_wf
def gather_S50000x8_S50000x1x1_S50000x1_n_1_0_0_1_2_11 : GatherDims S50000x8 S50000x1x1 S50000x1 where
  offsetDims := []
  collapsedSliceDims := [1]
  operandBatchingDims := [0]
  startIndicesBatchingDims := [0]
  startIndexMap := [1]
  indexVectorDim := 2
  sliceSizes := ![1, 1]
  wf := gather_S50000x8_S50000x1x1_S50000x1_n_1_0_0_1_2_11_wf
def gather_S50000x5_S50000x1x1_S50000x1_n_1_0_0_1_2_11 : GatherDims S50000x5 S50000x1x1 S50000x1 where
  offsetDims := []
  collapsedSliceDims := [1]
  operandBatchingDims := [0]
  startIndicesBatchingDims := [0]
  startIndexMap := [1]
  indexVectorDim := 2
  sliceSizes := ![1, 1]
  wf := gather_S50000x5_S50000x1x1_S50000x1_n_1_0_0_1_2_11_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev Mat (R C : Nat) : Type := (⟨2, ![R, C]⟩ : Shape).Idx → EReal

abbrev Vc (C : Nat) : Type := (⟨1, ![C]⟩ : Shape).Idx → EReal

def dense {R K C : Nat} (agg x : Mat R K) (wl wr : Mat K C) (bl : Vc C) (r : Fin R) (q : Fin C) : EReal :=
  (∑ k : Fin K, agg (ix2 r k) * wl (ix2 k q)) + (∑ k : Fin K, x (ix2 r k) * wr (ix2 k q)) + bl (ix1 q)

theorem dense_comm {R K C : Nat} (agg x : Mat R K) (wl wr : Mat K C) (bl : Vc C) (r : Fin R) (q : Fin C) :
    (∑ k : Fin K, agg (ix2 r k) * wl (ix2 k q)) + bl (ix1 q) + (∑ k : Fin K, x (ix2 r k) * wr (ix2 k q))
      = dense agg x wl wr bl r q := by
  unfold dense; exact add_right_comm _ _ _

def reluLayer {R K C : Nat} (agg x : Mat R K) (wl wr : Mat K C) (bl : Vc C) : Mat R C :=
  fun i => max (dense agg x wl wr bl ⟨(i 0).val, (i 0).isLt⟩ ⟨(i 1).val, (i 1).isLt⟩) 0

def sigLayer {R K C : Nat} (agg x : Mat R K) (wl wr : Mat K C) (bl : Vc C) : Mat R C :=
  fun i => Ideal.logistic (dense agg x wl wr bl ⟨(i 0).val, (i 0).isLt⟩ ⟨(i 1).val, (i 1).isLt⟩)

theorem reluLayer_apply {R K C : Nat} (agg x : Mat R K) (wl wr : Mat K C) (bl : Vc C) (r : Fin R) (q : Fin C) :
    reluLayer agg x wl wr bl (ix2 r q) = max (dense agg x wl wr bl r q) 0 := rfl

theorem sigLayer_apply {R K C : Nat} (agg x : Mat R K) (wl wr : Mat K C) (bl : Vc C) (r : Fin R) (q : Fin C) :
    sigLayer agg x wl wr bl (ix2 r q) = Ideal.logistic (dense agg x wl wr bl r q) := rfl

def rowMax {R C : Nat} (o : Mat R C) (r : Fin R) : EReal :=
  (Finset.univ : Finset (Fin C)).fold max ⊥ (fun q => o (ix2 r q))

def logp {R C : Nat} (o : Mat R C) (r : Fin R) (q : Fin C) : EReal :=
  (o (ix2 r q) - rowMax o r) - Ideal.log (∑ q' : Fin C, Ideal.exp (o (ix2 r q') - rowMax o r))

end Cert.Spec

end
-- ==== Proof.HeadMath.lean ====
import Idealize.ShloMosaic.PureOps.Ideal
import Idealize.ShloMosaic.PureOps.Ideal.Laws
import Idealize.ShloMosaic.Lib.ValueIdx
import proofs.«181152_j39822936769202_1_alg».proof.Proof.Spec

noncomputable section

open scoped BigOperators

namespace Cert.Spec

open Idealize.ShloMosaic Idealize.ShloMosaic.ValueIdx

theorem coe_sum' {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem logistic_real (x : EReal) : ∃ s : ℝ, Ideal.logistic x = (s : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

theorem fold_max_coe {ι : Type*} (s : Finset ι) (f : ι → ℝ) (hs : s.Nonempty) :
    ∃ M : ℝ, s.fold max (⊥ : EReal) (fun q => (f q : EReal)) = (M : EReal) := by
  classical
  induction s using Finset.induction_on with
  | empty => exact absurd hs (by simp)
  | insert a s ha ih =>
    rw [Finset.fold_insert ha]
    by_cases hs' : s.Nonempty
    · obtain ⟨M, hM⟩ := ih hs'
      exact ⟨max (f a) M, by rw [hM]; exact (EReal.coe_strictMono.monotone.map_max).symm⟩
    · rw [Finset.not_nonempty_iff_eq_empty.mp hs', Finset.fold_empty]
      exact ⟨f a, max_eq_left bot_le⟩

theorem logp_real {R C : Nat} (hC : 0 < C) (o : Mat R C) (ho : ∀ r q, ∃ s : ℝ, o (ix2 r q) = (s : EReal))
    (r : Fin R) (q : Fin C) : ∃ l : ℝ, logp o r q = (l : EReal) := by
  choose f hf using ho
  obtain ⟨M, hM⟩ := fold_max_coe (Finset.univ : Finset (Fin C)) (fun q => f r q) ⟨⟨0, hC⟩, Finset.mem_univ _⟩
  have hmax : rowMax o r = (M : EReal) := by
    unfold rowMax
    have : (fun q : Fin C => o (ix2 r q)) = fun q => (f r q : EReal) := funext fun q => hf r q
    rw [this]; exact hM
  have hexp : ∀ q' : Fin C, Ideal.exp (o (ix2 r q') - rowMax o r) = ((Real.exp (f r q' - M) : ℝ) : EReal) := fun q' => by
    rw [hmax, hf, ← EReal.coe_sub]; rfl
  have hpos : 0 < ∑ q' : Fin C, Real.exp (f r q' - M) :=
    Finset.sum_pos (fun _ _ => Real.exp_pos _) ⟨⟨0, hC⟩, Finset.mem_univ _⟩
  unfold logp
  simp only [hexp]
  rw [coe_sum', hmax, hf, Ideal.log_coe, if_neg (not_le.mpr hpos), ← EReal.coe_sub, ← EReal.coe_sub]
  exact ⟨_, rfl⟩

def rowPick {C : Nat} (oh o : Mat 50000 C) (r : Fin 50000) : EReal := ∑ q : Fin C, oh (ix2 r q) * logp o r q

def rowOf (t : ℕ) (r' : Fin 2000) : Fin 50000 := ⟨(2000 * t + r'.val) % 50000, Nat.mod_lt _ (by norm_num)⟩

def tile {C : Nat} (oh o : Mat 50000 C) (t : ℕ) : EReal :=
  (∑ r' : Fin 2000, (0 - rowPick oh o (rowOf t r'))) * (((1 : ℝ) / 50000 : ℝ) : EReal)

def acc (f : ℕ → EReal) : ℕ → EReal
  | 0 => 0 + f 0
  | n + 1 => acc f n + f (n + 1)

def headKernel {C : Nat} (oh o : Mat 50000 C) : EReal := acc (tile oh o) 24

def headRef {C : Nat} (o : Mat 50000 C) (lab : Fin 50000 → Fin C) : EReal :=
  -(Ideal.div (0 + ∑ r : Fin 50000, logp o r (lab r)) ((50000 : ℝ) : EReal))

theorem sum_rows (g : Fin 50000 → ℝ) :
    ∑ r : Fin 50000, g r = ∑ t ∈ Finset.range 25, ∑ r' : Fin 2000, g (rowOf t r') := by
  rw [← Fin.sum_univ_eq_sum_range (fun t => ∑ r' : Fin 2000, g (rowOf t r')) 25]
  rw [← Fintype.sum_prod_type' (f := fun (t : Fin 25) (r' : Fin 2000) => g (rowOf t.val r'))]
  let e : Fin 25 × Fin 2000 ≃ Fin 50000 := finProdFinEquiv.trans (finCongr (by norm_num))
  rw [← Equiv.sum_comp e g]
  refine Finset.sum_congr rfl fun p _ => congrArg g (Fin.ext ?_)
  show (e p).val = (2000 * p.1.val + p.2.val) % 50000
  have h1 := p.1.isLt
  have h2 := p.2.isLt
  have h3 : (e p).val = p.2.val + 2000 * p.1.val := rfl
  rw [h3]; omega

theorem head_eq {C : Nat} (hC : 0 < C) (oh o : Mat 50000 C) (lab : Fin 50000 → Fin C)
    (hoh : ∀ r q, oh (ix2 r q) = if q = lab r then 1 else 0)
    (ho : ∀ r q, ∃ s : ℝ, o (ix2 r q) = (s : EReal)) : headKernel oh o = headRef o lab := by
  have hl : ∀ r, ∃ l : ℝ, logp o r (lab r) = (l : EReal) := fun r => logp_real hC o ho r (lab r)
  choose lam hlam using hl
  have hpick : ∀ r, rowPick oh o r = (lam r : EReal) := by
    intro r
    unfold rowPick
    rw [Finset.sum_eq_single (lab r)]
    · rw [hoh, if_pos rfl, one_mul, hlam]
    · intro q _ hq
      rw [hoh, if_neg hq, zero_mul]
    · intro h; exact absurd (Finset.mem_univ _) h
  have htile : ∀ t, tile oh o t = (((-(∑ r' : Fin 2000, lam (rowOf t r'))) / 50000 : ℝ) : EReal) := by
    intro t
    unfold tile
    have h0 : ∀ r' : Fin 2000, (0 : EReal) - rowPick oh o (rowOf t r') = ((-(lam (rowOf t r')) : ℝ) : EReal) := fun r' => by
      rw [hpick, zero_sub, EReal.coe_neg]
    simp only [h0]
    rw [coe_sum', ← EReal.coe_mul]
    congr 1
    rw [Finset.sum_neg_distrib]; ring
  have hacc : ∀ n, acc (tile oh o) n
      = ((∑ t ∈ Finset.range (n + 1), ((-(∑ r' : Fin 2000, lam (rowOf t r'))) / 50000) : ℝ) : EReal) := by
    intro n
    induction n with
    | zero => simp only [acc]; rw [htile, zero_add]; simp
    | succ n ih => simp only [acc]; rw [ih, htile, ← EReal.coe_add, ← Finset.sum_range_succ]
  unfold headKernel headRef
  rw [hacc]
  simp only [hlam]
  rw [coe_sum', zero_add, Ideal.div_coe (by norm_num : (50000 : ℝ) ≠ 0), ← EReal.coe_mul, ← EReal.coe_neg]
  congr 1
  rw [sum_rows lam, ← Finset.sum_div, Finset.sum_neg_distrib]
  ring

end Cert.Spec

end
-- ==== Proof.Vals.lean ====
import proofs.«181152_j39822936769202_1_alg».proof.KernelIdeal
import proofs.«181152_j39822936769202_1_alg».proof.Proof.Spec

noncomputable section

namespace Cert.Vals

open Idealize.ShloMosaic Cert.KernelIdeal
open Cert.KernelIdeal.Facts₀ Cert.KernelIdeal.Facts

variable [Cert.KernelIdeal.Facts]

def invdeg (ed : IVec S800000 32) : FVec Ideal S50000x1 .f32 :=
  broadcastInDim S50000x1 ![0] bcast_S50000_S50000x1_0
    (Host.divf (broadcastInDim S50000 ![] bcast_S_S50000 (constant (F := Ideal) S_ .f32 0x3F800000#32))
      (maximumf
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 ed)
          (broadcastInDim S800000 ![] bcast_S_S800000 (constant (F := Ideal) S_ .f32 0x3F800000#32)))
        (broadcastInDim S50000 ![] bcast_S_S50000 (constant (F := Ideal) S_ .f32 0x3F800000#32))))

def srcIdx (es : IVec S800000 32) : IVec S800000x1 32 :=
  broadcastInDim S800000x1 ![0] bcast_S800000_S800000x1_0
    (select (cmpi .slt es (broadcastInDim S800000 ![] bcast_S_S800000 (constantI S_ 32 0#32)))
      (addi es (broadcastInDim S800000 ![] bcast_S_S800000 (constantI S_ 32 50000#32))) es)

def agg128 (es ed : IVec S800000 32) (x : FVec Ideal S50000x128 .f32) : FVec Ideal S50000x128 .f32 :=
  mulf (Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 ed)
        (Host.gather gather_S50000x128_S800000x1_S800000x128_1_0_n_n_0_1_1128 x (srcIdx es)))
    (broadcastInDim S50000x128 ![0, 1] bcast_S50000x1_S50000x128_0_1 (invdeg ed))

def agg256 (es ed : IVec S800000 32) (x : FVec Ideal S50000x256 .f32) : FVec Ideal S50000x256 .f32 :=
  mulf (Host.scatterAdd scatter_S50000x256_S800000x1_S800000x256_1_0_0_1
        (broadcastInDim S50000x256 ![] bcast_S_S50000x256 (constant (F := Ideal) S_ .f32 0x00000000#32))
        (broadcastInDim S800000x1 ![0] bcast_S800000_S800000x1_0 ed)
        (Host.gather gather_S50000x256_S800000x1_S800000x256_1_0_n_n_0_1_1256 x (srcIdx es)))
    (broadcastInDim S50000x256 ![0, 1] bcast_S50000x1_S50000x256_0_1 (invdeg ed))

def agg64 (es ed : IVec S800000 32) (x : FVec Ideal S50000x64 .f32) : FVec Ideal S50000x64 .f32 :=
  mulf (Host.scatterAdd scatter_S50000x64_S800000x1_S800000x64_1_0_0_1
        (broadcastInDim S50000x64 ![] bcast_S_S50000x64 (constant (F := Ideal) S_ .f32 0x00000000#32))
        (broadcastInDim S800000x1 ![0] bcast_S800000_S800000x1_0 ed)
        (Host.gather gather_S50000x64_S800000x1_S800000x64_1_0_n_n_0_1_164 x (srcIdx es)))
    (broadcastInDim S50000x64 ![0, 1] bcast_S50000x1_S50000x64_0_1 (invdeg ed))

def cat (a b : FVec Ideal S50000x128 .f32) : FVec Ideal S50000x256 .f32 :=
  concatenate S50000x256 1 [⟨S50000x128, a⟩, ⟨S50000x128, b⟩] concatenates_S50000x128_S50000x128_S50000x256_d1

end Cert.Vals

end
-- ==== Proof.KVals.lean ====
import proofs.«181152_j39822936769202_1_alg».proof.KernelIdeal
import proofs.«181152_j39822936769202_1_alg».proof.Proof.Spec
import proofs.«181152_j39822936769202_1_alg».proof.Proof.HeadMath
import proofs.«181152_j39822936769202_1_alg».proof.Proof.Vals

noncomputable section

namespace Cert.KVals

open Idealize.ShloMosaic Idealize.ShloMosaic.ValueIdx Cert.KernelIdeal
open Cert.KernelIdeal.Facts₀ Cert.KernelIdeal.Facts

variable [Cert.KernelIdeal.Facts]

structure Args where
  X : FVec Ideal S2x2x50000x128 .f32
  es : IVec S800000 32
  ed : IVec S800000 32
  y : IVec S2x50000x3 32
  Wl_i0 : FVec Ideal S128x128 .f32
  bl_i0 : FVec Ideal S128 .f32
  Wr_i0 : FVec Ideal S128x128 .f32
  Wl_i1 : FVec Ideal S128x128 .f32
  bl_i1 : FVec Ideal S128 .f32
  Wr_i1 : FVec Ideal S128x128 .f32
  Wl_m : FVec Ideal S256x256 .f32
  bl_m : FVec Ideal S256 .f32
  Wr_m : FVec Ideal S256x256 .f32
  Wl_o : FVec Ideal S256x64 .f32
  bl_o : FVec Ideal S64 .f32
  Wr_o : FVec Ideal S256x64 .f32
  Wl_mt : FVec Ideal S2x64x12 .f32
  bl_mt : FVec Ideal S2x12 .f32
  Wr_mt : FVec Ideal S2x64x12 .f32
  Wl_mt2 : FVec Ideal S2x64x8 .f32
  bl_mt2 : FVec Ideal S2x8 .f32
  Wr_mt2 : FVec Ideal S2x64x8 .f32
  Wl_mt3 : FVec Ideal S2x64x5 .f32
  bl_mt3 : FVec Ideal S2x5 .f32
  Wr_mt3 : FVec Ideal S2x64x5 .f32

noncomputable def hkOf (a : Args) (x0 x1 : FVec Ideal S50000x128 .f32) : FVec Ideal S50000x64 .f32 :=
  let h0 : FVec Ideal S50000x128 .f32 := Spec.reluLayer (Vals.agg128 a.es a.ed x0) x0 a.Wl_i0 a.Wr_i0 a.bl_i0
  let h1 : FVec Ideal S50000x128 .f32 := Spec.reluLayer (Vals.agg128 a.es a.ed x1) x1 a.Wl_i1 a.Wr_i1 a.bl_i1
  let xk : FVec Ideal S50000x256 .f32 := Vals.cat h0 h1
  let xk2 : FVec Ideal S50000x256 .f32 := Spec.reluLayer (Vals.agg256 a.es a.ed xk) xk a.Wl_m a.Wr_m a.bl_m
  Spec.sigLayer (Vals.agg256 a.es a.ed xk2) xk2 a.Wl_o a.Wr_o a.bl_o

noncomputable def labOf (lab : IVec S50000 32) (C : Nat) (hC : 0 < C) : Fin 50000 → Fin C :=
  fun r => ⟨(lab (ix1 r)).toInt.toNat % C, Nat.mod_lt _ hC⟩

noncomputable def x00 (a : Args) : FVec Ideal S50000x128 .f32 :=
  shapeCast S50000x128 (extractStridedSlice S1x1x50000x128 ![0, 0, 0, 0] a.X slices_S2x2x50000x128_S1x1x50000x128_0_0_0_0) shapeCasts_S1x1x50000x128_S50000x128

noncomputable def x01 (a : Args) : FVec Ideal S50000x128 .f32 :=
  shapeCast S50000x128 (extractStridedSlice S1x1x50000x128 ![0, 1, 0, 0] a.X slices_S2x2x50000x128_S1x1x50000x128_0_1_0_0) shapeCasts_S1x1x50000x128_S50000x128

noncomputable def hk0 (a : Args) : FVec Ideal S50000x64 .f32 := hkOf a (x00 a) (x01 a)

noncomputable def lab00 (a : Args) : IVec S50000 32 :=
  shapeCast S50000 (extractStridedSlice S1x50000x1 ![0, 0, 0] a.y slices_S2x50000x3_S1x50000x1_0_0_0) shapeCasts_S1x50000x1_S50000

noncomputable def oh00 (a : Args) : FVec Ideal S50000x12 .f32 :=
  uitofp .f32 (cmpi .eq
    (broadcastInDim S50000x12 ![0, 1] bcast_S50000x1_S50000x12_0_1 (broadcastInDim S50000x1 ![0] bcast_S50000_S50000x1_0 (lab00 a)))
    (broadcastInDim S50000x12 ![0, 1] bcast_S1x12_S50000x12_0_1 (iotaInDim S1x12 32 1)))

noncomputable def wl00 (a : Args) : FVec Ideal S64x12 .f32 :=
  shapeCast S64x12 (extractStridedSlice S1x64x12 ![0, 0, 0] a.Wl_mt slices_S2x64x12_S1x64x12_0_0_0) shapeCasts_S1x64x12_S64x12
noncomputable def wr00 (a : Args) : FVec Ideal S64x12 .f32 :=
  shapeCast S64x12 (extractStridedSlice S1x64x12 ![0, 0, 0] a.Wr_mt slices_S2x64x12_S1x64x12_0_0_0) shapeCasts_S1x64x12_S64x12
noncomputable def bl00 (a : Args) : FVec Ideal S12 .f32 :=
  shapeCast S12 (extractStridedSlice S1x12 ![0, 0] a.bl_mt slices_S2x12_S1x12_0_0) shapeCasts_S1x12_S12

noncomputable def o00 (a : Args) : FVec Ideal S50000x12 .f32 :=
  Spec.sigLayer (Vals.agg64 a.es a.ed (hk0 a)) (hk0 a) (wl00 a) (wr00 a) (bl00 a)

noncomputable def HK00 (a : Args) : FVec Ideal S1x1 .f32 := fun _ => Spec.headKernel (oh00 a) (o00 a)

noncomputable def HR00 (a : Args) : FVec Ideal S_ .f32 := fun _ => Spec.headRef (o00 a) (labOf (lab00 a) 12 (by norm_num))

noncomputable def lab01 (a : Args) : IVec S50000 32 :=
  shapeCast S50000 (extractStridedSlice S1x50000x1 ![0, 0, 1] a.y slices_S2x50000x3_S1x50000x1_0_0_1) shapeCasts_S1x50000x1_S50000

noncomputable def oh01 (a : Args) : FVec Ideal S50000x8 .f32 :=
  uitofp .f32 (cmpi .eq
    (broadcastInDim S50000x8 ![0, 1] bcast_S50000x1_S50000x8_0_1 (broadcastInDim S50000x1 ![0] bcast_S50000_S50000x1_0 (lab01 a)))
    (broadcastInDim S50000x8 ![0, 1] bcast_S1x8_S50000x8_0_1 (iotaInDim S1x8 32 1)))

noncomputable def wl01 (a : Args) : FVec Ideal S64x8 .f32 :=
  shapeCast S64x8 (extractStridedSlice S1x64x8 ![0, 0, 0] a.Wl_mt2 slices_S2x64x8_S1x64x8_0_0_0) shapeCasts_S1x64x8_S64x8
noncomputable def wr01 (a : Args) : FVec Ideal S64x8 .f32 :=
  shapeCast S64x8 (extractStridedSlice S1x64x8 ![0, 0, 0] a.Wr_mt2 slices_S2x64x8_S1x64x8_0_0_0) shapeCasts_S1x64x8_S64x8
noncomputable def bl01 (a : Args) : FVec Ideal S8 .f32 :=
  shapeCast S8 (extractStridedSlice S1x8 ![0, 0] a.bl_mt2 slices_S2x8_S1x8_0_0) shapeCasts_S1x8_S8

noncomputable def o01 (a : Args) : FVec Ideal S50000x8 .f32 :=
  Spec.sigLayer (Vals.agg64 a.es a.ed (hk0 a)) (hk0 a) (wl01 a) (wr01 a) (bl01 a)

noncomputable def HK01 (a : Args) : FVec Ideal S1x1 .f32 := fun _ => Spec.headKernel (oh01 a) (o01 a)

noncomputable def HR01 (a : Args) : FVec Ideal S_ .f32 := fun _ => Spec.headRef (o01 a) (labOf (lab01 a) 8 (by norm_num))

noncomputable def lab02 (a : Args) : IVec S50000 32 :=
  shapeCast S50000 (extractStridedSlice S1x50000x1 ![0, 0, 2] a.y slices_S2x50000x3_S1x50000x1_0_0_2) shapeCasts_S1x50000x1_S50000

noncomputable def oh02 (a : Args) : FVec Ideal S50000x5 .f32 :=
  uitofp .f32 (cmpi .eq
    (broadcastInDim S50000x5 ![0, 1] bcast_S50000x1_S50000x5_0_1 (broadcastInDim S50000x1 ![0] bcast_S50000_S50000x1_0 (lab02 a)))
    (broadcastInDim S50000x5 ![0, 1] bcast_S1x5_S50000x5_0_1 (iotaInDim S1x5 32 1)))

noncomputable def wl02 (a : Args) : FVec Ideal S64x5 .f32 :=
  shapeCast S64x5 (extractStridedSlice S1x64x5 ![0, 0, 0] a.Wl_mt3 slices_S2x64x5_S1x64x5_0_0_0) shapeCasts_S1x64x5_S64x5
noncomputable def wr02 (a : Args) : FVec Ideal S64x5 .f32 :=
  shapeCast S64x5 (extractStridedSlice S1x64x5 ![0, 0, 0] a.Wr_mt3 slices_S2x64x5_S1x64x5_0_0_0) shapeCasts_S1x64x5_S64x5
noncomputable def bl02 (a : Args) : FVec Ideal S5 .f32 :=
  shapeCast S5 (extractStridedSlice S1x5 ![0, 0] a.bl_mt3 slices_S2x5_S1x5_0_0) shapeCasts_S1x5_S5

noncomputable def o02 (a : Args) : FVec Ideal S50000x5 .f32 :=
  Spec.sigLayer (Vals.agg64 a.es a.ed (hk0 a)) (hk0 a) (wl02 a) (wr02 a) (bl02 a)

noncomputable def HK02 (a : Args) : FVec Ideal S1x1 .f32 := fun _ => Spec.headKernel (oh02 a) (o02 a)

noncomputable def HR02 (a : Args) : FVec Ideal S_ .f32 := fun _ => Spec.headRef (o02 a) (labOf (lab02 a) 5 (by norm_num))

noncomputable def x10 (a : Args) : FVec Ideal S50000x128 .f32 :=
  shapeCast S50000x128 (extractStridedSlice S1x1x50000x128 ![1, 0, 0, 0] a.X slices_S2x2x50000x128_S1x1x50000x128_1_0_0_0) shapeCasts_S1x1x50000x128_S50000x128

noncomputable def x11 (a : Args) : FVec Ideal S50000x128 .f32 :=
  shapeCast S50000x128 (extractStridedSlice S1x1x50000x128 ![1, 1, 0, 0] a.X slices_S2x2x50000x128_S1x1x50000x128_1_1_0_0) shapeCasts_S1x1x50000x128_S50000x128

noncomputable def hk1 (a : Args) : FVec Ideal S50000x64 .f32 := hkOf a (x10 a) (x11 a)

noncomputable def lab10 (a : Args) : IVec S50000 32 :=
  shapeCast S50000 (extractStridedSlice S1x50000x1 ![1, 0, 0] a.y slices_S2x50000x3_S1x50000x1_1_0_0) shapeCasts_S1x50000x1_S50000

noncomputable def oh10 (a : Args) : FVec Ideal S50000x12 .f32 :=
  uitofp .f32 (cmpi .eq
    (broadcastInDim S50000x12 ![0, 1] bcast_S50000x1_S50000x12_0_1 (broadcastInDim S50000x1 ![0] bcast_S50000_S50000x1_0 (lab10 a)))
    (broadcastInDim S50000x12 ![0, 1] bcast_S1x12_S50000x12_0_1 (iotaInDim S1x12 32 1)))

noncomputable def wl10 (a : Args) : FVec Ideal S64x12 .f32 :=
  shapeCast S64x12 (extractStridedSlice S1x64x12 ![1, 0, 0] a.Wl_mt slices_S2x64x12_S1x64x12_1_0_0) shapeCasts_S1x64x12_S64x12
noncomputable def wr10 (a : Args) : FVec Ideal S64x12 .f32 :=
  shapeCast S64x12 (extractStridedSlice S1x64x12 ![1, 0, 0] a.Wr_mt slices_S2x64x12_S1x64x12_1_0_0) shapeCasts_S1x64x12_S64x12
noncomputable def bl10 (a : Args) : FVec Ideal S12 .f32 :=
  shapeCast S12 (extractStridedSlice S1x12 ![1, 0] a.bl_mt slices_S2x12_S1x12_1_0) shapeCasts_S1x12_S12

noncomputable def o10 (a : Args) : FVec Ideal S50000x12 .f32 :=
  Spec.sigLayer (Vals.agg64 a.es a.ed (hk1 a)) (hk1 a) (wl10 a) (wr10 a) (bl10 a)

noncomputable def HK10 (a : Args) : FVec Ideal S1x1 .f32 := fun _ => Spec.headKernel (oh10 a) (o10 a)

noncomputable def HR10 (a : Args) : FVec Ideal S_ .f32 := fun _ => Spec.headRef (o10 a) (labOf (lab10 a) 12 (by norm_num))

noncomputable def lab11 (a : Args) : IVec S50000 32 :=
  shapeCast S50000 (extractStridedSlice S1x50000x1 ![1, 0, 1] a.y slices_S2x50000x3_S1x50000x1_1_0_1) shapeCasts_S1x50000x1_S50000

noncomputable def oh11 (a : Args) : FVec Ideal S50000x8 .f32 :=
  uitofp .f32 (cmpi .eq
    (broadcastInDim S50000x8 ![0, 1] bcast_S50000x1_S50000x8_0_1 (broadcastInDim S50000x1 ![0] bcast_S50000_S50000x1_0 (lab11 a)))
    (broadcastInDim S50000x8 ![0, 1] bcast_S1x8_S50000x8_0_1 (iotaInDim S1x8 32 1)))

noncomputable def wl11 (a : Args) : FVec Ideal S64x8 .f32 :=
  shapeCast S64x8 (extractStridedSlice S1x64x8 ![1, 0, 0] a.Wl_mt2 slices_S2x64x8_S1x64x8_1_0_0) shapeCasts_S1x64x8_S64x8
noncomputable def wr11 (a : Args) : FVec Ideal S64x8 .f32 :=
  shapeCast S64x8 (extractStridedSlice S1x64x8 ![1, 0, 0] a.Wr_mt2 slices_S2x64x8_S1x64x8_1_0_0) shapeCasts_S1x64x8_S64x8
noncomputable def bl11 (a : Args) : FVec Ideal S8 .f32 :=
  shapeCast S8 (extractStridedSlice S1x8 ![1, 0] a.bl_mt2 slices_S2x8_S1x8_1_0) shapeCasts_S1x8_S8

noncomputable def o11 (a : Args) : FVec Ideal S50000x8 .f32 :=
  Spec.sigLayer (Vals.agg64 a.es a.ed (hk1 a)) (hk1 a) (wl11 a) (wr11 a) (bl11 a)

noncomputable def HK11 (a : Args) : FVec Ideal S1x1 .f32 := fun _ => Spec.headKernel (oh11 a) (o11 a)

noncomputable def HR11 (a : Args) : FVec Ideal S_ .f32 := fun _ => Spec.headRef (o11 a) (labOf (lab11 a) 8 (by norm_num))

noncomputable def lab12 (a : Args) : IVec S50000 32 :=
  shapeCast S50000 (extractStridedSlice S1x50000x1 ![1, 0, 2] a.y slices_S2x50000x3_S1x50000x1_1_0_2) shapeCasts_S1x50000x1_S50000

noncomputable def oh12 (a : Args) : FVec Ideal S50000x5 .f32 :=
  uitofp .f32 (cmpi .eq
    (broadcastInDim S50000x5 ![0, 1] bcast_S50000x1_S50000x5_0_1 (broadcastInDim S50000x1 ![0] bcast_S50000_S50000x1_0 (lab12 a)))
    (broadcastInDim S50000x5 ![0, 1] bcast_S1x5_S50000x5_0_1 (iotaInDim S1x5 32 1)))

noncomputable def wl12 (a : Args) : FVec Ideal S64x5 .f32 :=
  shapeCast S64x5 (extractStridedSlice S1x64x5 ![1, 0, 0] a.Wl_mt3 slices_S2x64x5_S1x64x5_1_0_0) shapeCasts_S1x64x5_S64x5
noncomputable def wr12 (a : Args) : FVec Ideal S64x5 .f32 :=
  shapeCast S64x5 (extractStridedSlice S1x64x5 ![1, 0, 0] a.Wr_mt3 slices_S2x64x5_S1x64x5_1_0_0) shapeCasts_S1x64x5_S64x5
noncomputable def bl12 (a : Args) : FVec Ideal S5 .f32 :=
  shapeCast S5 (extractStridedSlice S1x5 ![1, 0] a.bl_mt3 slices_S2x5_S1x5_1_0) shapeCasts_S1x5_S5

noncomputable def o12 (a : Args) : FVec Ideal S50000x5 .f32 :=
  Spec.sigLayer (Vals.agg64 a.es a.ed (hk1 a)) (hk1 a) (wl12 a) (wr12 a) (bl12 a)

noncomputable def HK12 (a : Args) : FVec Ideal S1x1 .f32 := fun _ => Spec.headKernel (oh12 a) (o12 a)

noncomputable def HR12 (a : Args) : FVec Ideal S_ .f32 := fun _ => Spec.headRef (o12 a) (labOf (lab12 a) 5 (by norm_num))

noncomputable def lossK (a : Args) : FVec Ideal S_ .f32 :=
  addf (addf (addf (addf (addf (addf (constant (F := Ideal) S_ .f32 0x00000000#32)
    (shapeCast S_ (HK00 a) shapeCasts_S1x1_S_)) (shapeCast S_ (HK01 a) shapeCasts_S1x1_S_)) (shapeCast S_ (HK02 a) shapeCasts_S1x1_S_))
    (shapeCast S_ (HK10 a) shapeCasts_S1x1_S_)) (shapeCast S_ (HK11 a) shapeCasts_S1x1_S_)) (shapeCast S_ (HK12 a) shapeCasts_S1x1_S_)

noncomputable def lossR (a : Args) : FVec Ideal S_ .f32 :=
  addf (addf (addf (addf (addf (addf (constant (F := Ideal) S_ .f32 0x00000000#32) (HR00 a)) (HR01 a)) (HR02 a)) (HR10 a)) (HR11 a)) (HR12 a)

noncomputable def argsK (m : (ℓ : Loc Cert.KernelIdeal.nD Cert.KernelIdeal.τ Cert.KernelIdeal.sig) → Buf (Elt Ideal) ℓ) (c : Dev Cert.KernelIdeal.nD) : Args where
    X := m ((c.tc : Thread Cert.KernelIdeal.nD Cert.KernelIdeal.τ).loc Cert.KernelIdeal.main_arg0)
    es := m ((c.tc : Thread Cert.KernelIdeal.nD Cert.KernelIdeal.τ).loc Cert.KernelIdeal.main_arg1)
    ed := m ((c.tc : Thread Cert.KernelIdeal.nD Cert.KernelIdeal.τ).loc Cert.KernelIdeal.main_arg2)
    y := m ((c.tc : Thread Cert.KernelIdeal.nD Cert.KernelIdeal.τ).loc Cert.KernelIdeal.main_arg3)
    Wl_i0 := m ((c.tc : Thread Cert.KernelIdeal.nD Cert.KernelIdeal.τ).loc Cert.KernelIdeal.main_arg4)
    bl_i0 := m ((c.tc : Thread Cert.KernelIdeal.nD Cert.KernelIdeal.τ).loc Cert.KernelIdeal.main_arg5)
    Wr_i0 := m ((c.tc : Thread Cert.KernelIdeal.nD Cert.KernelIdeal.τ).loc Cert.KernelIdeal.main_arg6)
    Wl_i1 := m ((c.tc : Thread Cert.KernelIdeal.nD Cert.KernelIdeal.τ).loc Cert.KernelIdeal.main_arg7)
    bl_i1 := m ((c.tc : Thread Cert.KernelIdeal.nD Cert.KernelIdeal.τ).loc Cert.KernelIdeal.main_arg8)
    Wr_i1 := m ((c.tc : Thread Cert.KernelIdeal.nD Cert.KernelIdeal.τ).loc Cert.KernelIdeal.main_arg9)
    Wl_m := m ((c.tc : Thread Cert.KernelIdeal.nD Cert.KernelIdeal.τ).loc Cert.KernelIdeal.main_arg10)
    bl_m := m ((c.tc : Thread Cert.KernelIdeal.nD Cert.KernelIdeal.τ).loc Cert.KernelIdeal.main_arg11)
    Wr_m := m ((c.tc : Thread Cert.KernelIdeal.nD Cert.KernelIdeal.τ).loc Cert.KernelIdeal.main_arg12)
    Wl_o := m ((c.tc : Thread Cert.KernelIdeal.nD Cert.KernelIdeal.τ).loc Cert.KernelIdeal.main_arg13)
    bl_o := m ((c.tc : Thread Cert.KernelIdeal.nD Cert.KernelIdeal.τ).loc Cert.KernelIdeal.main_arg14)
    Wr_o := m ((c.tc : Thread Cert.KernelIdeal.nD Cert.KernelIdeal.τ).loc Cert.KernelIdeal.main_arg15)
    Wl_mt := m ((c.tc : Thread Cert.KernelIdeal.nD Cert.KernelIdeal.τ).loc Cert.KernelIdeal.main_arg16)
    bl_mt := m ((c.tc : Thread Cert.KernelIdeal.nD Cert.KernelIdeal.τ).loc Cert.KernelIdeal.main_arg17)
    Wr_mt := m ((c.tc : Thread Cert.KernelIdeal.nD Cert.KernelIdeal.τ).loc Cert.KernelIdeal.main_arg18)
    Wl_mt2 := m ((c.tc : Thread Cert.KernelIdeal.nD Cert.KernelIdeal.τ).loc Cert.KernelIdeal.main_arg19)
    bl_mt2 := m ((c.tc : Thread Cert.KernelIdeal.nD Cert.KernelIdeal.τ).loc Cert.KernelIdeal.main_arg20)
    Wr_mt2 := m ((c.tc : Thread Cert.KernelIdeal.nD Cert.KernelIdeal.τ).loc Cert.KernelIdeal.main_arg21)
    Wl_mt3 := m ((c.tc : Thread Cert.KernelIdeal.nD Cert.KernelIdeal.τ).loc Cert.KernelIdeal.main_arg22)
    bl_mt3 := m ((c.tc : Thread Cert.KernelIdeal.nD Cert.KernelIdeal.τ).loc Cert.KernelIdeal.main_arg23)
    Wr_mt3 := m ((c.tc : Thread Cert.KernelIdeal.nD Cert.KernelIdeal.τ).loc Cert.KernelIdeal.main_arg24)

end Cert.KVals

end
-- ==== Proof.PreDecode.lean ====
import proofs.«181152_j39822936769202_1_alg».proof.Defs
import proofs.«181152_j39822936769202_1_alg».proof.Proof.KVals
import Idealize.ShloMosaic.Lib.ReduceAll
import Idealize.ShloMosaic.Lib.StableHlo.Predicate
import Idealize.ShloMosaic.Lib.Pipeline.Value
import Idealize.ShloMosaic.Lib.ValueIdx

noncomputable section

namespace Cert.PreDecode

open Idealize.ShloMosaic Idealize.ShloMosaic.ValueIdx Idealize.SL.Sem

variable [Cert.Pre_finite_inputs.Facts] [Cert.KernelIdeal.Facts]

abbrev Y : Shape := ⟨3, ![2, 50000, 3]⟩
abbrev Y1 : Shape := ⟨3, ![2, 50000, 1]⟩
abbrev Yc : Shape := ⟨3, ![1, 50000, 1]⟩
abbrev L : Shape := ⟨1, ![50000]⟩
abbrev S0 : Shape := ⟨0, ![]⟩

theorem subsingleton_scalar : Subsingleton S0.Idx := ⟨fun a b => funext fun d => d.elim0⟩

theorem andi_split {A B : IVec S0 1} (h : andi A B ix0 = 1#1) : A ix0 = 1#1 ∧ B ix0 = 1#1 :=
  IntOp.andi_eq_one.1 h

theorem slice_read (y : IVec Y 32) (off : Fin 3 → Nat) (j : Fin 3) (h0 : off 0 = 0) (h1 : off 1 = 0) (h2 : off 2 = j.val)
    (hs : Y.Slices off Y1) (k : Fin 2) (r : Fin 50000) :
    extractStridedSlice Y1 off y hs (ix3 k r (0 : Fin 1)) = y (ix3 k r j) := by
  refine extractStridedSlice_apply off y hs (ix3 k r (0 : Fin 1)) (ix3 k r j) fun a => ?_
  match a with
  | ⟨0, _⟩ => show k.val = off 0 + k.val; omega
  | ⟨1, _⟩ => show r.val = off 1 + r.val; omega
  | ⟨2, _⟩ => show j.val = off 2 + 0; omega

theorem lab_read (y : IVec Y 32) (off : Fin 3 → Nat) (k : Fin 2) (j : Fin 3) (h0 : off 0 = k.val) (h1 : off 1 = 0) (h2 : off 2 = j.val)
    (hs : Y.Slices off Yc) (hc : Yc.ShapeCasts L) (r : Fin 50000) :
    shapeCast L (extractStridedSlice Yc off y hs) hc (ix1 r) = y (ix3 k r j) := by
  refine (shapeCast_apply _ hc (ix1 r) (ix3 (0 : Fin 1) r (0 : Fin 1)) ?_).trans ?_
  · rw [Shape.rowMajor_val_three, Shape.rowMajor_val_one]
    show (0 * 50000 + r.val) * 1 + 0 = r.val
    omega
  · refine extractStridedSlice_apply off y hs _ (ix3 k r j) fun a => ?_
    match a with
    | ⟨0, _⟩ => show k.val = off 0 + 0; omega
    | ⟨1, _⟩ => show r.val = off 1 + r.val; omega
    | ⟨2, _⟩ => show j.val = off 2 + 0; omega

theorem head_all (x : IVec Y1 32) (lo hi : BitVec 32)
    (hb : S0.BroadcastsInDim Y1 (![] : Fin 0 → Fin Y1.rank)) (hr : Y1.ReducesTo [0, 1, 2] S0) (hu : 0 < S0.numel)
    (init : IVec S0 1)
    (h : Host.reduce IntOp.andi
          (andi (cmpi .sge x (broadcastInDim Y1 ![] hb (constantI S0 32 lo)))
                (cmpi .slt x (broadcastInDim Y1 ![] hb (constantI S0 32 hi)))) init hr hu ix0 = 1#1)
    (i : Y1.Idx) : lo.toInt ≤ (x i).toInt ∧ (x i).toInt < hi.toInt := by
  haveI := subsingleton_scalar
  have e := Host.reduce_andi_all _ init hr hu ix0 h i
  obtain ⟨e1, e2⟩ := IntOp.andi_eq_one.1 e
  exact ⟨IntOp.cmpi_sge.1 e1, IntOp.cmpi_slt.1 e2⟩

theorem toInt_0 : (0#32 : BitVec 32).toInt = 0 := by decide
theorem toInt_12 : (12#32 : BitVec 32).toInt = 12 := by decide
theorem toInt_8 : (8#32 : BitVec 32).toInt = 8 := by decide
theorem toInt_5 : (5#32 : BitVec 32).toInt = 5 := by decide

theorem y_range (m : (ℓ : Loc Cert.KernelIdeal.nD Cert.KernelIdeal.τ Cert.KernelIdeal.sig) → Buf (Elt Ideal) ℓ)
    (hpre : Cert.Pre_KernelIdeal m) (c : Dev Cert.KernelIdeal.nD) (k : Fin 2) (r : Fin 50000) :
    (0 ≤ ((m ((c.tc : Thread Cert.KernelIdeal.nD Cert.KernelIdeal.τ).loc Cert.KernelIdeal.main_arg3) : IVec Y 32) (ix3 k r (0 : Fin 3))).toInt
      ∧ ((m ((c.tc : Thread Cert.KernelIdeal.nD Cert.KernelIdeal.τ).loc Cert.KernelIdeal.main_arg3) : IVec Y 32) (ix3 k r (0 : Fin 3))).toInt < 12)
    ∧ (0 ≤ ((m ((c.tc : Thread Cert.KernelIdeal.nD Cert.KernelIdeal.τ).loc Cert.KernelIdeal.main_arg3) : IVec Y 32) (ix3 k r (1 : Fin 3))).toInt
      ∧ ((m ((c.tc : Thread Cert.KernelIdeal.nD Cert.KernelIdeal.τ).loc Cert.KernelIdeal.main_arg3) : IVec Y 32) (ix3 k r (1 : Fin 3))).toInt < 8)
    ∧ (0 ≤ ((m ((c.tc : Thread Cert.KernelIdeal.nD Cert.KernelIdeal.τ).loc Cert.KernelIdeal.main_arg3) : IVec Y 32) (ix3 k r (2 : Fin 3))).toInt
      ∧ ((m ((c.tc : Thread Cert.KernelIdeal.nD Cert.KernelIdeal.τ).loc Cert.KernelIdeal.main_arg3) : IVec Y 32) (ix3 k r (2 : Fin 3))).toInt < 5) := by
  have e := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7] at e
  obtain ⟨e1, e134⟩ := andi_split e
  obtain ⟨e2, e125⟩ := andi_split e1
  obtain ⟨-, e116⟩ := andi_split e2
  have h0 := head_all _ _ _ _ _ _ _ e116 (ix3 k r (0 : Fin 1))
  have h1 := head_all _ _ _ _ _ _ _ e125 (ix3 k r (0 : Fin 1))
  have h2 := head_all _ _ _ _ _ _ _ e134 (ix3 k r (0 : Fin 1))
  rw [slice_read _ ![0, 0, 0] 0 rfl rfl rfl, toInt_0, toInt_12] at h0
  rw [slice_read _ ![0, 0, 1] 1 rfl rfl rfl, toInt_0, toInt_8] at h1
  rw [slice_read _ ![0, 0, 2] 2 rfl rfl rfl, toInt_0, toInt_5] at h2
  exact ⟨h0, h1, h2⟩

theorem lab00_eq (a : KVals.Args) (r : Fin 50000) : KVals.lab00 a (ix1 r) = a.y (ix3 (0 : Fin 2) r (0 : Fin 3)) :=
  lab_read a.y ![0, 0, 0] 0 0 rfl rfl rfl _ _ r
theorem lab01_eq (a : KVals.Args) (r : Fin 50000) : KVals.lab01 a (ix1 r) = a.y (ix3 (0 : Fin 2) r (1 : Fin 3)) :=
  lab_read a.y ![0, 0, 1] 0 1 rfl rfl rfl _ _ r
theorem lab02_eq (a : KVals.Args) (r : Fin 50000) : KVals.lab02 a (ix1 r) = a.y (ix3 (0 : Fin 2) r (2 : Fin 3)) :=
  lab_read a.y ![0, 0, 2] 0 2 rfl rfl rfl _ _ r
theorem lab10_eq (a : KVals.Args) (r : Fin 50000) : KVals.lab10 a (ix1 r) = a.y (ix3 (1 : Fin 2) r (0 : Fin 3)) :=
  lab_read a.y ![1, 0, 0] 1 0 rfl rfl rfl _ _ r
theorem lab11_eq (a : KVals.Args) (r : Fin 50000) : KVals.lab11 a (ix1 r) = a.y (ix3 (1 : Fin 2) r (1 : Fin 3)) :=
  lab_read a.y ![1, 0, 1] 1 1 rfl rfl rfl _ _ r
theorem lab12_eq (a : KVals.Args) (r : Fin 50000) : KVals.lab12 a (ix1 r) = a.y (ix3 (1 : Fin 2) r (2 : Fin 3)) :=
  lab_read a.y ![1, 0, 2] 1 2 rfl rfl rfl _ _ r

theorem lab_range (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 50000) :
    (0 ≤ (KVals.lab00 (KVals.argsK m c) (ix1 r)).toInt ∧ (KVals.lab00 (KVals.argsK m c) (ix1 r)).toInt < 12)
    ∧ (0 ≤ (KVals.lab01 (KVals.argsK m c) (ix1 r)).toInt ∧ (KVals.lab01 (KVals.argsK m c) (ix1 r)).toInt < 8)
    ∧ (0 ≤ (KVals.lab02 (KVals.argsK m c) (ix1 r)).toInt ∧ (KVals.lab02 (KVals.argsK m c) (ix1 r)).toInt < 5)
    ∧ (0 ≤ (KVals.lab10 (KVals.argsK m c) (ix1 r)).toInt ∧ (KVals.lab10 (KVals.argsK m c) (ix1 r)).toInt < 12)
    ∧ (0 ≤ (KVals.lab11 (KVals.argsK m c) (ix1 r)).toInt ∧ (KVals.lab11 (KVals.argsK m c) (ix1 r)).toInt < 8)
    ∧ (0 ≤ (KVals.lab12 (KVals.argsK m c) (ix1 r)).toInt ∧ (KVals.lab12 (KVals.argsK m c) (ix1 r)).toInt < 5) := by
  obtain ⟨a0, a1, a2⟩ := y_range m hpre c 0 r
  obtain ⟨b0, b1, b2⟩ := y_range m hpre c 1 r
  rw [lab00_eq, lab01_eq, lab02_eq, lab10_eq, lab11_eq, lab12_eq]
  exact ⟨a0, a1, a2, b0, b1, b2⟩

end Cert.PreDecode

end
-- ==== Proof.LibLabels.lean ====
import Idealize.ShloMosaic.PureOps.Ideal
import Idealize.ShloMosaic.PureOps.ShapeOps
import Idealize.ShloMosaic.PureOps.Dims
import Idealize.ShloMosaic.Lib.ValueIdx
import Idealize.ShloMosaic.Lib.Pipeline.Value
import Idealize.ShloMosaic.Lib.StableHlo.Predicate

noncomputable section

namespace Cert.LibLabels

open Idealize.ShloMosaic Idealize.ShloMosaic.ValueIdx

theorem bcast_col_apply {α : Type} {N C : Nat}
    (h : (⟨2, ![N, 1]⟩ : Shape).BroadcastsInDim (⟨2, ![N, C]⟩ : Shape) ![0, 1])
    (w : (⟨2, ![N, 1]⟩ : Shape).Idx → α) (r : Fin N) (q : Fin C) :
    broadcastInDim (⟨2, ![N, C]⟩ : Shape) ![0, 1] h w (ix2 r q) = w (ix2 r (0 : Fin 1)) := by
  refine broadcastInDim_apply _ h w _ (ix2 r (0 : Fin 1)) fun a => ?_
  match a with
  | ⟨0, _⟩ =>
    show r.val = if N = 1 then 0 else r.val
    split
    · have := r.isLt; omega
    · rfl
  | ⟨1, _⟩ => rfl

theorem bcast_vec_col_apply {α : Type} {N : Nat}
    (h : (⟨1, ![N]⟩ : Shape).BroadcastsInDim (⟨2, ![N, 1]⟩ : Shape) ![0])
    (v : (⟨1, ![N]⟩ : Shape).Idx → α) (r : Fin N) (z : Fin 1) :
    broadcastInDim (⟨2, ![N, 1]⟩ : Shape) ![0] h v (ix2 r z) = v (ix1 r) := by
  refine broadcastInDim_apply _ h v _ (ix1 r) fun a => ?_
  match a with
  | ⟨0, _⟩ =>
    show r.val = if N = 1 then 0 else r.val
    split
    · have := r.isLt; omega
    · rfl

theorem bcast_row_apply {α : Type} {N C : Nat}
    (h : (⟨2, ![1, C]⟩ : Shape).BroadcastsInDim (⟨2, ![N, C]⟩ : Shape) ![0, 1])
    (w : (⟨2, ![1, C]⟩ : Shape).Idx → α) (r : Fin N) (q : Fin C) :
    broadcastInDim (⟨2, ![N, C]⟩ : Shape) ![0, 1] h w (ix2 r q) = w (ix2 (0 : Fin 1) q) := by
  refine broadcastInDim_apply _ h w _ (ix2 (0 : Fin 1) q) fun a => ?_
  match a with
  | ⟨0, _⟩ => rfl
  | ⟨1, _⟩ =>
    show q.val = if C = 1 then 0 else q.val
    split
    · have := q.isLt; omega
    · rfl

theorem uitofp_bit (b : BitVec 1) :
    (FloatOps.uitofp (F := Ideal) .f32 b : EReal) = if b = 1#1 then (1 : EReal) else 0 := by
  rcases BitVec.eq_zero_or_eq_one b with rfl | rfl
  · show (((0#1 : BitVec 1).toNat : ℝ) : EReal) = _
    simp
  · show (((1#1 : BitVec 1).toNat : ℝ) : EReal) = _
    simp

theorem one_hot_apply {N C : Nat}
    (h0 : (⟨1, ![N]⟩ : Shape).BroadcastsInDim (⟨2, ![N, 1]⟩ : Shape) ![0])
    (h2 : (⟨2, ![N, 1]⟩ : Shape).BroadcastsInDim (⟨2, ![N, C]⟩ : Shape) ![0, 1])
    (h3 : (⟨2, ![1, C]⟩ : Shape).BroadcastsInDim (⟨2, ![N, C]⟩ : Shape) ![0, 1])
    (y : IVec (⟨1, ![N]⟩ : Shape) 32) (r : Fin N) (q : Fin C) :
    (uitofp (F := Ideal) .f32
      (cmpi .eq
        (broadcastInDim (⟨2, ![N, C]⟩ : Shape) ![0, 1] h2 (broadcastInDim (⟨2, ![N, 1]⟩ : Shape) ![0] h0 y))
        (broadcastInDim (⟨2, ![N, C]⟩ : Shape) ![0, 1] h3 (iotaInDim (⟨2, ![1, C]⟩ : Shape) 32 1)))) (ix2 r q)
      = if y (ix1 r) = BitVec.ofNat 32 q.val then (1 : EReal) else 0 := by
  show FloatOps.uitofp (F := Ideal) .f32 (IntOp.cmpi .eq _ _) = _
  rw [bcast_col_apply h2 _ r q, bcast_vec_col_apply h0 y r 0, bcast_row_apply h3 _ r q, uitofp_bit]
  show (if IntOp.cmpi .eq (y (ix1 r)) (BitVec.ofNat 32 q.val) = 1#1 then (1 : EReal) else 0) = _
  simp only [StableHlo.Predicate.cmpi_eq_iff]

theorem take_gather_apply {α : Type} {N C w : Nat} (hC : 0 < C)
    (d : GatherDims (⟨2, ![N, C]⟩ : Shape) (⟨3, ![N, 1, 1]⟩ : Shape) (⟨2, ![N, 1]⟩ : Shape))
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec (⟨3, ![N, 1, 1]⟩ : Shape) w) (r : Fin N) :
    Host.gather d x idx (ix2 r (0 : Fin 1))
      = x (ix2 r (⟨min (idx (ix3 r (0 : Fin 1) (0 : Fin 1))).toInt.toNat (C - 1), by omega⟩ : Fin C)) := by
  obtain ⟨od, cd, ob, sb, sm, iv, ss, wf⟩ := d
  simp only at hoff hcoll hob hsb hsim hivd
  subst hoff hcoll hob hsb hsim hivd
  unfold Host.gather
  refine congrArg x (funext fun a => Fin.ext ?_)
  match a with
  | ⟨0, _⟩ =>
    set d : GatherDims (⟨2, ![N, C]⟩ : Shape) (⟨3, ![N, 1, 1]⟩ : Shape) (⟨2, ![N, 1]⟩ : Shape) := ⟨[], [1], [0], [0], [1], 2, ss, wf⟩ with hd
    show d.start (ix2 r (0 : Fin 1)) idx 0 + d.batchCoord (ix2 r (0 : Fin 1)) 0 + d.offCoord (ix2 r (0 : Fin 1)) 0 = r.val
    have hmem : (0 : Fin 2) ∈ d.operandBatchingDims := List.mem_singleton.mpr rfl
    rw [d.start_batching _ idx 0 hmem, d.offCoord_eq_zero _ 0 (fun h => ((d.mem_sKept 0).1 h).2 hmem), Nat.zero_add, Nat.add_zero]
    unfold GatherDims.batchCoord
    rw [dif_pos hmem]
    rfl
  | ⟨1, _⟩ =>
    set d : GatherDims (⟨2, ![N, C]⟩ : Shape) (⟨3, ![N, 1, 1]⟩ : Shape) (⟨2, ![N, 1]⟩ : Shape) := ⟨[], [1], [0], [0], [1], 2, ss, wf⟩ with hd
    show d.start (ix2 r (0 : Fin 1)) idx 1 + d.batchCoord (ix2 r (0 : Fin 1)) 1 + d.offCoord (ix2 r (0 : Fin 1)) 1
      = min (idx (ix3 r (0 : Fin 1) (0 : Fin 1))).toInt.toNat (C - 1)
    have hnb : (1 : Fin 2) ∉ d.operandBatchingDims := fun h =>
      absurd (congrArg Fin.val (List.mem_singleton.mp h)) Nat.one_ne_zero
    have hc : (1 : Fin 2) ∈ d.collapsedSliceDims := List.mem_singleton.mpr rfl
    have hm : (1 : Fin 2) ∈ d.startIndexMap := List.mem_singleton.mpr rfl
    have hsl : ss 1 = 1 := d.slice_collapsed 1 hc
    rw [d.batchCoord_eq_zero _ 1 hnb, d.offCoord_eq_zero _ 1 (fun h => ((d.mem_sKept 1).1 h).1 hc)]
    simp only [Nat.add_zero]
    unfold GatherDims.start
    rw [dif_pos hm]
    have hsi : d.siIdx (ix2 r (0 : Fin 1)) ⟨List.idxOf (1 : Fin 2) d.startIndexMap, List.idxOf_lt_length_iff.2 hm⟩
        = ix3 r (0 : Fin 1) (0 : Fin 1) := by
      funext b; refine Fin.ext ?_
      match b with
      | ⟨0, _⟩ => rfl
      | ⟨1, _⟩ => rfl
      | ⟨2, _⟩ => rfl
    rw [hsi]
    show min _ (C - ss 1) = _
    rw [hsl]

theorem fold_andi_ones {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih fun i hi => h i (Finset.mem_cons_of_mem hi)]
    rfl

theorem shapeCast_col_apply {α : Type} {N : Nat} (hsc : (⟨2, ![N, 1]⟩ : Shape).ShapeCasts (⟨3, ![N, 1, 1]⟩ : Shape))
    (v : (⟨2, ![N, 1]⟩ : Shape).Idx → α) (r : Fin N) :
    shapeCast (⟨3, ![N, 1, 1]⟩ : Shape) v hsc (ix3 r (0 : Fin 1) (0 : Fin 1)) = v (ix2 r (0 : Fin 1)) := by
  refine shapeCast_apply v hsc _ (ix2 r (0 : Fin 1)) ?_
  rw [Shape.rowMajor_val_two, Shape.rowMajor_val_three]
  show r.val * 1 + 0 = (r.val * 1 + 0) * 1 + 0
  omega

theorem take_index_apply {N : Nat} (hb2 : (⟨0, ![]⟩ : Shape).BroadcastsInDim (⟨2, ![N, 1]⟩ : Shape) ![])
    (ycol : IVec (⟨2, ![N, 1]⟩ : Shape) 32) (c : BitVec 32) (j : (⟨2, ![N, 1]⟩ : Shape).Idx) (hy : 0 ≤ (ycol j).toInt) :
    (select (cmpi .slt ycol (broadcastInDim (⟨2, ![N, 1]⟩ : Shape) ![] hb2 (constantI (⟨0, ![]⟩ : Shape) 32 0#32)))
            (addi ycol (broadcastInDim (⟨2, ![N, 1]⟩ : Shape) ![] hb2 (constantI (⟨0, ![]⟩ : Shape) 32 c))) ycol) j = ycol j := by
  show Scalar.select (IntOp.cmpi .slt (ycol j) 0#32) _ (ycol j) = ycol j
  have h0 : IntOp.cmpi .slt (ycol j) 0#32 = 0#1 := by
    show BitVec.ofBool ((ycol j).slt 0#32) = 0#1
    have : (ycol j).slt 0#32 = false := by
      simp only [BitVec.slt, BitVec.toInt_zero, decide_eq_false_iff_not]; omega
    rw [this]; rfl
  rw [h0]; exact select_zero _ _

theorem take_ok_apply {N C : Nat}
    (hb3 : (⟨0, ![]⟩ : Shape).BroadcastsInDim (⟨3, ![N, 1, 1]⟩ : Shape) ![])
    (hb1 : (⟨1, ![1]⟩ : Shape).BroadcastsInDim (⟨3, ![1, 1, 1]⟩ : Shape) ![2])
    (hb111 : (⟨3, ![1, 1, 1]⟩ : Shape).BroadcastsInDim (⟨3, ![N, 1, 1]⟩ : Shape) ![0, 1, 2])
    (hred : (⟨3, ![N, 1, 1]⟩ : Shape).ReducesTo [2] (⟨2, ![N, 1]⟩ : Shape)) (hu : 0 < (⟨0, ![]⟩ : Shape).numel)
    (cm1 : BitVec 32) (hcm1 : cm1.toInt = (C : Int) - 1)
    (idx3 : IVec (⟨3, ![N, 1, 1]⟩ : Shape) 32) (r : Fin N)
    (hi : 0 ≤ (idx3 (ix3 r (0 : Fin 1) (0 : Fin 1))).toInt ∧ (idx3 (ix3 r (0 : Fin 1) (0 : Fin 1))).toInt < C) :
    (Host.reduce IntOp.andi
        (andi
          (cmpi .sge idx3 (broadcastInDim (⟨3, ![N, 1, 1]⟩ : Shape) ![] hb3 (constantI (⟨0, ![]⟩ : Shape) 32 0#32)))
          (cmpi .sle idx3
            (broadcastInDim (⟨3, ![N, 1, 1]⟩ : Shape) ![0, 1, 2] hb111 (broadcastInDim (⟨3, ![1, 1, 1]⟩ : Shape) ![2] hb1 (constantI (⟨1, ![1]⟩ : Shape) 32 cm1)))))
        (constantI (⟨0, ![]⟩ : Shape) 1 1#1) hred hu) (ix2 r (0 : Fin 1)) = 1#1 := by
  rw [Host.reduce_eq_fold]
  refine fold_andi_ones _ _ fun i hi' => ?_
  have hdrop : hred.drop i = ix2 r (0 : Fin 1) := (Finset.mem_filter.1 hi').2
  have hv : (hred.drop i 0 : Nat) = i 0 := Shape.ReducesTo.drop_apply_val hred i 0
  have hi0 : i = ix3 r (0 : Fin 1) (0 : Fin 1) := by
    funext b; refine Fin.ext ?_
    match b with
    | ⟨0, _⟩ => rw [hdrop] at hv; exact hv.symm
    | ⟨1, _⟩ => exact Nat.lt_one_iff.mp (i 1).isLt
    | ⟨2, _⟩ => exact Nat.lt_one_iff.mp (i 2).isLt
  subst hi0
  show IntOp.andi (IntOp.cmpi .sge (idx3 _) 0#32) (IntOp.cmpi .sle (idx3 _) cm1) = 1#1
  have h1 : IntOp.cmpi .sge (idx3 (ix3 r (0 : Fin 1) (0 : Fin 1))) 0#32 = 1#1 := by
    show BitVec.ofBool ((0#32 : BitVec 32).sle _) = 1#1
    have : (0#32 : BitVec 32).sle (idx3 (ix3 r (0 : Fin 1) (0 : Fin 1))) = true := by
      simp only [BitVec.sle, BitVec.toInt_zero, decide_eq_true_eq]; exact hi.1
    rw [this]; rfl
  have h2 : IntOp.cmpi .sle (idx3 (ix3 r (0 : Fin 1) (0 : Fin 1))) cm1 = 1#1 := by
    show BitVec.ofBool ((idx3 _).sle cm1) = 1#1
    have : (idx3 (ix3 r (0 : Fin 1) (0 : Fin 1))).sle cm1 = true := by
      simp only [BitVec.sle, hcm1, decide_eq_true_eq]; omega
    rw [this]; rfl
  rw [h1, h2]; rfl

theorem take_along_core {N C : Nat} (hC : 0 < C)
    (hb2 : (⟨0, ![]⟩ : Shape).BroadcastsInDim (⟨2, ![N, 1]⟩ : Shape) ![])
    (hb3 : (⟨0, ![]⟩ : Shape).BroadcastsInDim (⟨3, ![N, 1, 1]⟩ : Shape) ![])
    (hb1 : (⟨1, ![1]⟩ : Shape).BroadcastsInDim (⟨3, ![1, 1, 1]⟩ : Shape) ![2])
    (hb111 : (⟨3, ![1, 1, 1]⟩ : Shape).BroadcastsInDim (⟨3, ![N, 1, 1]⟩ : Shape) ![0, 1, 2])
    (hred : (⟨3, ![N, 1, 1]⟩ : Shape).ReducesTo [2] (⟨2, ![N, 1]⟩ : Shape)) (hu : 0 < (⟨0, ![]⟩ : Shape).numel)
    (d : GatherDims (⟨2, ![N, C]⟩ : Shape) (⟨3, ![N, 1, 1]⟩ : Shape) (⟨2, ![N, 1]⟩ : Shape))
    (hoff : d.offsetDims = []) (hcoll : d.collapsedSliceDims = [1]) (hob : d.operandBatchingDims = [0])
    (hsb : d.startIndicesBatchingDims = [0]) (hsim : d.startIndexMap = [1]) (hivd : d.indexVectorDim = 2)
    (cm1 : BitVec 32) (hcm1 : cm1.toInt = (C : Int) - 1)
    (x : FVec Ideal (⟨2, ![N, C]⟩ : Shape) .f32) (idx3 : IVec (⟨3, ![N, 1, 1]⟩ : Shape) 32) (r : Fin N)
    (hi : 0 ≤ (idx3 (ix3 r (0 : Fin 1) (0 : Fin 1))).toInt ∧ (idx3 (ix3 r (0 : Fin 1) (0 : Fin 1))).toInt < C) :
    select (Host.reduce IntOp.andi
        (andi
          (cmpi .sge idx3 (broadcastInDim (⟨3, ![N, 1, 1]⟩ : Shape) ![] hb3 (constantI (⟨0, ![]⟩ : Shape) 32 0#32)))
          (cmpi .sle idx3
            (broadcastInDim (⟨3, ![N, 1, 1]⟩ : Shape) ![0, 1, 2] hb111 (broadcastInDim (⟨3, ![1, 1, 1]⟩ : Shape) ![2] hb1 (constantI (⟨1, ![1]⟩ : Shape) 32 cm1)))))
        (constantI (⟨0, ![]⟩ : Shape) 1 1#1) hred hu)
      (Host.gather d x idx3)
      (broadcastInDim (⟨2, ![N, 1]⟩ : Shape) ![] hb2 (constant (F := Ideal) (⟨0, ![]⟩ : Shape) .f32 0x7FC00000#32)) (ix2 r (0 : Fin 1))
      = x (ix2 r (⟨(idx3 (ix3 r (0 : Fin 1) (0 : Fin 1))).toInt.toNat, by omega⟩ : Fin C)) := by
  rw [select_apply, take_ok_apply hb3 hb1 hb111 hred hu cm1 hcm1 idx3 r hi, select_one,
    take_gather_apply hC d hoff hcoll hob hsb hsim hivd x idx3 r]
  refine congrArg x (congrArg (ix2 r) (Fin.ext ?_))
  show min (idx3 (ix3 r (0 : Fin 1) (0 : Fin 1))).toInt.toNat (C - 1) = (idx3 (ix3 r (0 : Fin 1) (0 : Fin 1))).toInt.toNat
  omega

theorem take_along_apply {N C : Nat} (hC : 0 < C)
    (hb2 : (⟨0, ![]⟩ : Shape).BroadcastsInDim (⟨2, ![N, 1]⟩ : Shape) ![])
    (hsc : (⟨2, ![N, 1]⟩ : Shape).ShapeCasts (⟨3, ![N, 1, 1]⟩ : Shape))
    (hb3 : (⟨0, ![]⟩ : Shape).BroadcastsInDim (⟨3, ![N, 1, 1]⟩ : Shape) ![])
    (hb1 : (⟨1, ![1]⟩ : Shape).BroadcastsInDim (⟨3, ![1, 1, 1]⟩ : Shape) ![2])
    (hb111 : (⟨3, ![1, 1, 1]⟩ : Shape).BroadcastsInDim (⟨3, ![N, 1, 1]⟩ : Shape) ![0, 1, 2])
    (hred : (⟨3, ![N, 1, 1]⟩ : Shape).ReducesTo [2] (⟨2, ![N, 1]⟩ : Shape)) (hu : 0 < (⟨0, ![]⟩ : Shape).numel)
    (d : GatherDims (⟨2, ![N, C]⟩ : Shape) (⟨3, ![N, 1, 1]⟩ : Shape) (⟨2, ![N, 1]⟩ : Shape))
    (hoff : d.offsetDims = []) (hcoll : d.collapsedSliceDims = [1]) (hob : d.operandBatchingDims = [0])
    (hsb : d.startIndicesBatchingDims = [0]) (hsim : d.startIndexMap = [1]) (hivd : d.indexVectorDim = 2)
    (c cm1 : BitVec 32) (hcm1 : cm1.toInt = (C : Int) - 1)
    (x : FVec Ideal (⟨2, ![N, C]⟩ : Shape) .f32) (ycol : IVec (⟨2, ![N, 1]⟩ : Shape) 32) (r : Fin N)
    (hy : 0 ≤ (ycol (ix2 r (0 : Fin 1))).toInt ∧ (ycol (ix2 r (0 : Fin 1))).toInt < C) :
    select (Host.reduce IntOp.andi
        (andi
          (cmpi .sge (shapeCast (⟨3, ![N, 1, 1]⟩ : Shape) (select (cmpi .slt ycol (broadcastInDim (⟨2, ![N, 1]⟩ : Shape) ![] hb2 (constantI (⟨0, ![]⟩ : Shape) 32 0#32)))
            (addi ycol (broadcastInDim (⟨2, ![N, 1]⟩ : Shape) ![] hb2 (constantI (⟨0, ![]⟩ : Shape) 32 c))) ycol) hsc) (broadcastInDim (⟨3, ![N, 1, 1]⟩ : Shape) ![] hb3 (constantI (⟨0, ![]⟩ : Shape) 32 0#32)))
          (cmpi .sle (shapeCast (⟨3, ![N, 1, 1]⟩ : Shape) (select (cmpi .slt ycol (broadcastInDim (⟨2, ![N, 1]⟩ : Shape) ![] hb2 (constantI (⟨0, ![]⟩ : Shape) 32 0#32)))
            (addi ycol (broadcastInDim (⟨2, ![N, 1]⟩ : Shape) ![] hb2 (constantI (⟨0, ![]⟩ : Shape) 32 c))) ycol) hsc)
            (broadcastInDim (⟨3, ![N, 1, 1]⟩ : Shape) ![0, 1, 2] hb111 (broadcastInDim (⟨3, ![1, 1, 1]⟩ : Shape) ![2] hb1 (constantI (⟨1, ![1]⟩ : Shape) 32 cm1)))))
        (constantI (⟨0, ![]⟩ : Shape) 1 1#1) hred hu)
      (Host.gather d x (shapeCast (⟨3, ![N, 1, 1]⟩ : Shape) (select (cmpi .slt ycol (broadcastInDim (⟨2, ![N, 1]⟩ : Shape) ![] hb2 (constantI (⟨0, ![]⟩ : Shape) 32 0#32)))
            (addi ycol (broadcastInDim (⟨2, ![N, 1]⟩ : Shape) ![] hb2 (constantI (⟨0, ![]⟩ : Shape) 32 c))) ycol) hsc))
      (broadcastInDim (⟨2, ![N, 1]⟩ : Shape) ![] hb2 (constant (F := Ideal) (⟨0, ![]⟩ : Shape) .f32 0x7FC00000#32)) (ix2 r (0 : Fin 1))
      = x (ix2 r (⟨(ycol (ix2 r (0 : Fin 1))).toInt.toNat, by omega⟩ : Fin C)) := by
  have hidx : (shapeCast (⟨3, ![N, 1, 1]⟩ : Shape) (select (cmpi .slt ycol (broadcastInDim (⟨2, ![N, 1]⟩ : Shape) ![] hb2 (constantI (⟨0, ![]⟩ : Shape) 32 0#32)))
            (addi ycol (broadcastInDim (⟨2, ![N, 1]⟩ : Shape) ![] hb2 (constantI (⟨0, ![]⟩ : Shape) 32 c))) ycol) hsc) (ix3 r (0 : Fin 1) (0 : Fin 1)) = ycol (ix2 r (0 : Fin 1)) :=
    (shapeCast_col_apply hsc _ r).trans (take_index_apply hb2 ycol c _ hy.1)
  rw [take_along_core hC hb2 hb3 hb1 hb111 hred hu d hoff hcoll hob hsb hsim hivd cm1 hcm1 x _ r (by rw [hidx]; exact hy)]
  exact congrArg x (congrArg (ix2 r) (Fin.ext (congrArg (fun b : BitVec 32 => b.toInt.toNat) hidx)))

end Cert.LibLabels

end
-- ==== Proof.Bridge.lean ====
import proofs.«181152_j39822936769202_1_alg».proof.Proof.KVals
import proofs.«181152_j39822936769202_1_alg».proof.Proof.LibLabels
import Idealize.ShloMosaic.Lib.Pipeline.Value

noncomputable section

namespace Cert.Bridge

open Idealize.ShloMosaic Idealize.ShloMosaic.ValueIdx Cert.KernelIdeal Cert.KVals
open Cert.KernelIdeal.Facts₀ Cert.KernelIdeal.Facts

variable [Cert.KernelIdeal.Facts]

theorem word_eq_iff {C : Nat} (hC : 0 < C) (hC' : C < 2 ^ 31) (w : BitVec 32) (h0 : 0 ≤ w.toInt) (h1 : w.toInt < C) (q : Fin C) :
    w = BitVec.ofNat 32 q.val ↔ q = (⟨w.toInt.toNat % C, Nat.mod_lt _ hC⟩ : Fin C) := by
  have hq := q.isLt
  have hn : w.toInt.toNat < C := by omega
  have hw : w.toNat = w.toInt.toNat := by
    have := BitVec.toInt_eq_toNat_cond w
    split at this <;> omega
  constructor
  · intro h
    apply Fin.ext
    show q.val = w.toInt.toNat % C
    rw [Nat.mod_eq_of_lt hn, ← hw, h, BitVec.toNat_ofNat]
    exact (Nat.mod_eq_of_lt (by omega)).symm
  · intro h
    have hq' : q.val = w.toInt.toNat := by rw [h]; exact Nat.mod_eq_of_lt hn
    apply BitVec.eq_of_toNat_eq
    rw [BitVec.toNat_ofNat, Nat.mod_eq_of_lt (by omega), hq', hw]

theorem sigLayer_real {R K C : Nat} (agg x : Spec.Mat R K) (wl wr : Spec.Mat K C) (bl : Spec.Vc C) (r : Fin R) (q : Fin C) :
    ∃ s : ℝ, Spec.sigLayer agg x wl wr bl (ix2 r q) = (s : EReal) := by
  rw [Spec.sigLayer_apply]; exact Spec.logistic_real _

theorem head00 (a : Args) (hr : ∀ r : Fin 50000, 0 ≤ (lab00 a (ix1 r)).toInt ∧ (lab00 a (ix1 r)).toInt < 12) :
    shapeCast S_ (HK00 a) shapeCasts_S1x1_S_ = HR00 a := by
  funext i
  have hK : shapeCast S_ (HK00 a) shapeCasts_S1x1_S_ i = Spec.headKernel (oh00 a) (o00 a) := rfl
  rw [hK]
  show _ = Spec.headRef (o00 a) (labOf (lab00 a) 12 (by norm_num))
  refine Spec.head_eq (by norm_num) _ _ _ (fun r q => ?_) (fun r q => sigLayer_real _ _ _ _ _ r q)
  unfold oh00
  rw [Cert.LibLabels.one_hot_apply]
  have hw := word_eq_iff (C := 12) (by norm_num) (by norm_num) (lab00 a (ix1 r)) (hr r).1 (hr r).2 q
  by_cases hq : q = labOf (lab00 a) 12 (by norm_num) r
  · rw [if_pos (hw.mpr hq), if_pos hq]
  · rw [if_neg (fun e => hq (hw.mp e)), if_neg hq]

theorem head01 (a : Args) (hr : ∀ r : Fin 50000, 0 ≤ (lab01 a (ix1 r)).toInt ∧ (lab01 a (ix1 r)).toInt < 8) :
    shapeCast S_ (HK01 a) shapeCasts_S1x1_S_ = HR01 a := by
  funext i
  have hK : shapeCast S_ (HK01 a) shapeCasts_S1x1_S_ i = Spec.headKernel (oh01 a) (o01 a) := rfl
  rw [hK]
  show _ = Spec.headRef (o01 a) (labOf (lab01 a) 8 (by norm_num))
  refine Spec.head_eq (by norm_num) _ _ _ (fun r q => ?_) (fun r q => sigLayer_real _ _ _ _ _ r q)
  unfold oh01
  rw [Cert.LibLabels.one_hot_apply]
  have hw := word_eq_iff (C := 8) (by norm_num) (by norm_num) (lab01 a (ix1 r)) (hr r).1 (hr r).2 q
  by_cases hq : q = labOf (lab01 a) 8 (by norm_num) r
  · rw [if_pos (hw.mpr hq), if_pos hq]
  · rw [if_neg (fun e => hq (hw.mp e)), if_neg hq]

theorem head02 (a : Args) (hr : ∀ r : Fin 50000, 0 ≤ (lab02 a (ix1 r)).toInt ∧ (lab02 a (ix1 r)).toInt < 5) :
    shapeCast S_ (HK02 a) shapeCasts_S1x1_S_ = HR02 a := by
  funext i
  have hK : shapeCast S_ (HK02 a) shapeCasts_S1x1_S_ i = Spec.headKernel (oh02 a) (o02 a) := rfl
  rw [hK]
  show _ = Spec.headRef (o02 a) (labOf (lab02 a) 5 (by norm_num))
  refine Spec.head_eq (by norm_num) _ _ _ (fun r q => ?_) (fun r q => sigLayer_real _ _ _ _ _ r q)
  unfold oh02
  rw [Cert.LibLabels.one_hot_apply]
  have hw := word_eq_iff (C := 5) (by norm_num) (by norm_num) (lab02 a (ix1 r)) (hr r).1 (hr r).2 q
  by_cases hq : q = labOf (lab02 a) 5 (by norm_num) r
  · rw [if_pos (hw.mpr hq), if_pos hq]
  · rw [if_neg (fun e => hq (hw.mp e)), if_neg hq]

theorem head10 (a : Args) (hr : ∀ r : Fin 50000, 0 ≤ (lab10 a (ix1 r)).toInt ∧ (lab10 a (ix1 r)).toInt < 12) :
    shapeCast S_ (HK10 a) shapeCasts_S1x1_S_ = HR10 a := by
  funext i
  have hK : shapeCast S_ (HK10 a) shapeCasts_S1x1_S_ i = Spec.headKernel (oh10 a) (o10 a) := rfl
  rw [hK]
  show _ = Spec.headRef (o10 a) (labOf (lab10 a) 12 (by norm_num))
  refine Spec.head_eq (by norm_num) _ _ _ (fun r q => ?_) (fun r q => sigLayer_real _ _ _ _ _ r q)
  unfold oh10
  rw [Cert.LibLabels.one_hot_apply]
  have hw := word_eq_iff (C := 12) (by norm_num) (by norm_num) (lab10 a (ix1 r)) (hr r).1 (hr r).2 q
  by_cases hq : q = labOf (lab10 a) 12 (by norm_num) r
  · rw [if_pos (hw.mpr hq), if_pos hq]
  · rw [if_neg (fun e => hq (hw.mp e)), if_neg hq]

theorem head11 (a : Args) (hr : ∀ r : Fin 50000, 0 ≤ (lab11 a (ix1 r)).toInt ∧ (lab11 a (ix1 r)).toInt < 8) :
    shapeCast S_ (HK11 a) shapeCasts_S1x1_S_ = HR11 a := by
  funext i
  have hK : shapeCast S_ (HK11 a) shapeCasts_S1x1_S_ i = Spec.headKernel (oh11 a) (o11 a) := rfl
  rw [hK]
  show _ = Spec.headRef (o11 a) (labOf (lab11 a) 8 (by norm_num))
  refine Spec.head_eq (by norm_num) _ _ _ (fun r q => ?_) (fun r q => sigLayer_real _ _ _ _ _ r q)
  unfold oh11
  rw [Cert.LibLabels.one_hot_apply]
  have hw := word_eq_iff (C := 8) (by norm_num) (by norm_num) (lab11 a (ix1 r)) (hr r).1 (hr r).2 q
  by_cases hq : q = labOf (lab11 a) 8 (by norm_num) r
  · rw [if_pos (hw.mpr hq), if_pos hq]
  · rw [if_neg (fun e => hq (hw.mp e)), if_neg hq]

theorem head12 (a : Args) (hr : ∀ r : Fin 50000, 0 ≤ (lab12 a (ix1 r)).toInt ∧ (lab12 a (ix1 r)).toInt < 5) :
    shapeCast S_ (HK12 a) shapeCasts_S1x1_S_ = HR12 a := by
  funext i
  have hK : shapeCast S_ (HK12 a) shapeCasts_S1x1_S_ i = Spec.headKernel (oh12 a) (o12 a) := rfl
  rw [hK]
  show _ = Spec.headRef (o12 a) (labOf (lab12 a) 5 (by norm_num))
  refine Spec.head_eq (by norm_num) _ _ _ (fun r q => ?_) (fun r q => sigLayer_real _ _ _ _ _ r q)
  unfold oh12
  rw [Cert.LibLabels.one_hot_apply]
  have hw := word_eq_iff (C := 5) (by norm_num) (by norm_num) (lab12 a (ix1 r)) (hr r).1 (hr r).2 q
  by_cases hq : q = labOf (lab12 a) 5 (by norm_num) r
  · rw [if_pos (hw.mpr hq), if_pos hq]
  · rw [if_neg (fun e => hq (hw.mp e)), if_neg hq]

theorem loss_eq (a : Args)
    (h00 : ∀ r : Fin 50000, 0 ≤ (lab00 a (ix1 r)).toInt ∧ (lab00 a (ix1 r)).toInt < 12)
    (h01 : ∀ r : Fin 50000, 0 ≤ (lab01 a (ix1 r)).toInt ∧ (lab01 a (ix1 r)).toInt < 8)
    (h02 : ∀ r : Fin 50000, 0 ≤ (lab02 a (ix1 r)).toInt ∧ (lab02 a (ix1 r)).toInt < 5)
    (h10 : ∀ r : Fin 50000, 0 ≤ (lab10 a (ix1 r)).toInt ∧ (lab10 a (ix1 r)).toInt < 12)
    (h11 : ∀ r : Fin 50000, 0 ≤ (lab11 a (ix1 r)).toInt ∧ (lab11 a (ix1 r)).toInt < 8)
    (h12 : ∀ r : Fin 50000, 0 ≤ (lab12 a (ix1 r)).toInt ∧ (lab12 a (ix1 r)).toInt < 5) :
    lossK a = lossR a := by
  unfold lossK lossR
  rw [head00 a h00, head01 a h01, head02 a h02, head10 a h10, head11 a h11, head12 a h12]

end Cert.Bridge

end
-- ==== Proof.RefBase.lean ====
/- The reference program's 25 argument arrays as one record, what it means for buffer contents to hold them, and:
   operations that write only later buffers leave them in place. -/
import proofs.«181152_j39822936769202_1_alg».proof.Proof.Gen.ReferenceIdeal
import proofs.«181152_j39822936769202_1_alg».proof.Proof.KVals
import Idealize.ShloMosaic.Lib.StableHlo.Run

noncomputable section

namespace Cert.RefSide

open Idealize.ShloMosaic Idealize.ShloMosaic.TcCoe Idealize.SL.Sem Idealize.ShloMosaic.StableHlo

variable [Cert.KernelIdeal.Facts]

noncomputable def argsR (m : (ℓ : Loc Cert.ReferenceIdeal.nD Cert.ReferenceIdeal.τ Cert.ReferenceIdeal.sig) → Buf (Elt Ideal) ℓ) (c : Dev Cert.ReferenceIdeal.nD) : KVals.Args where
    X := m ((c.tc : Thread Cert.ReferenceIdeal.nD Cert.ReferenceIdeal.τ).loc Cert.ReferenceIdeal.main_arg0)
    es := m ((c.tc : Thread Cert.ReferenceIdeal.nD Cert.ReferenceIdeal.τ).loc Cert.ReferenceIdeal.main_arg1)
    ed := m ((c.tc : Thread Cert.ReferenceIdeal.nD Cert.ReferenceIdeal.τ).loc Cert.ReferenceIdeal.main_arg2)
    y := m ((c.tc : Thread Cert.ReferenceIdeal.nD Cert.ReferenceIdeal.τ).loc Cert.ReferenceIdeal.main_arg3)
    Wl_i0 := m ((c.tc : Thread Cert.ReferenceIdeal.nD Cert.ReferenceIdeal.τ).loc Cert.ReferenceIdeal.main_arg4)
    bl_i0 := m ((c.tc : Thread Cert.ReferenceIdeal.nD Cert.ReferenceIdeal.τ).loc Cert.ReferenceIdeal.main_arg5)
    Wr_i0 := m ((c.tc : Thread Cert.ReferenceIdeal.nD Cert.ReferenceIdeal.τ).loc Cert.ReferenceIdeal.main_arg6)
    Wl_i1 := m ((c.tc : Thread Cert.ReferenceIdeal.nD Cert.ReferenceIdeal.τ).loc Cert.ReferenceIdeal.main_arg7)
    bl_i1 := m ((c.tc : Thread Cert.ReferenceIdeal.nD Cert.ReferenceIdeal.τ).loc Cert.ReferenceIdeal.main_arg8)
    Wr_i1 := m ((c.tc : Thread Cert.ReferenceIdeal.nD Cert.ReferenceIdeal.τ).loc Cert.ReferenceIdeal.main_arg9)
    Wl_m := m ((c.tc : Thread Cert.ReferenceIdeal.nD Cert.ReferenceIdeal.τ).loc Cert.ReferenceIdeal.main_arg10)
    bl_m := m ((c.tc : Thread Cert.ReferenceIdeal.nD Cert.ReferenceIdeal.τ).loc Cert.ReferenceIdeal.main_arg11)
    Wr_m := m ((c.tc : Thread Cert.ReferenceIdeal.nD Cert.ReferenceIdeal.τ).loc Cert.ReferenceIdeal.main_arg12)
    Wl_o := m ((c.tc : Thread Cert.ReferenceIdeal.nD Cert.ReferenceIdeal.τ).loc Cert.ReferenceIdeal.main_arg13)
    bl_o := m ((c.tc : Thread Cert.ReferenceIdeal.nD Cert.ReferenceIdeal.τ).loc Cert.ReferenceIdeal.main_arg14)
    Wr_o := m ((c.tc : Thread Cert.ReferenceIdeal.nD Cert.ReferenceIdeal.τ).loc Cert.ReferenceIdeal.main_arg15)
    Wl_mt := m ((c.tc : Thread Cert.ReferenceIdeal.nD Cert.ReferenceIdeal.τ).loc Cert.ReferenceIdeal.main_arg16)
    bl_mt := m ((c.tc : Thread Cert.ReferenceIdeal.nD Cert.ReferenceIdeal.τ).loc Cert.ReferenceIdeal.main_arg17)
    Wr_mt := m ((c.tc : Thread Cert.ReferenceIdeal.nD Cert.ReferenceIdeal.τ).loc Cert.ReferenceIdeal.main_arg18)
    Wl_mt2 := m ((c.tc : Thread Cert.ReferenceIdeal.nD Cert.ReferenceIdeal.τ).loc Cert.ReferenceIdeal.main_arg19)
    bl_mt2 := m ((c.tc : Thread Cert.ReferenceIdeal.nD Cert.ReferenceIdeal.τ).loc Cert.ReferenceIdeal.main_arg20)
    Wr_mt2 := m ((c.tc : Thread Cert.ReferenceIdeal.nD Cert.ReferenceIdeal.τ).loc Cert.ReferenceIdeal.main_arg21)
    Wl_mt3 := m ((c.tc : Thread Cert.ReferenceIdeal.nD Cert.ReferenceIdeal.τ).loc Cert.ReferenceIdeal.main_arg22)
    bl_mt3 := m ((c.tc : Thread Cert.ReferenceIdeal.nD Cert.ReferenceIdeal.τ).loc Cert.ReferenceIdeal.main_arg23)
    Wr_mt3 := m ((c.tc : Thread Cert.ReferenceIdeal.nD Cert.ReferenceIdeal.τ).loc Cert.ReferenceIdeal.main_arg24)

abbrev RVal : Type := Valuation Cert.ReferenceIdeal.τ Cert.ReferenceIdeal.sig (Elt Ideal)

structure ArgsAt (a : KVals.Args) (V : RVal) : Prop where
  h0 : V (Proc.devRef .tc Cert.ReferenceIdeal.main_arg0) = a.X
  h1 : V (Proc.devRef .tc Cert.ReferenceIdeal.main_arg1) = a.es
  h2 : V (Proc.devRef .tc Cert.ReferenceIdeal.main_arg2) = a.ed
  h3 : V (Proc.devRef .tc Cert.ReferenceIdeal.main_arg3) = a.y
  h4 : V (Proc.devRef .tc Cert.ReferenceIdeal.main_arg4) = a.Wl_i0
  h5 : V (Proc.devRef .tc Cert.ReferenceIdeal.main_arg5) = a.bl_i0
  h6 : V (Proc.devRef .tc Cert.ReferenceIdeal.main_arg6) = a.Wr_i0
  h7 : V (Proc.devRef .tc Cert.ReferenceIdeal.main_arg7) = a.Wl_i1
  h8 : V (Proc.devRef .tc Cert.ReferenceIdeal.main_arg8) = a.bl_i1
  h9 : V (Proc.devRef .tc Cert.ReferenceIdeal.main_arg9) = a.Wr_i1
  h10 : V (Proc.devRef .tc Cert.ReferenceIdeal.main_arg10) = a.Wl_m
  h11 : V (Proc.devRef .tc Cert.ReferenceIdeal.main_arg11) = a.bl_m
  h12 : V (Proc.devRef .tc Cert.ReferenceIdeal.main_arg12) = a.Wr_m
  h13 : V (Proc.devRef .tc Cert.ReferenceIdeal.main_arg13) = a.Wl_o
  h14 : V (Proc.devRef .tc Cert.ReferenceIdeal.main_arg14) = a.bl_o
  h15 : V (Proc.devRef .tc Cert.ReferenceIdeal.main_arg15) = a.Wr_o
  h16 : V (Proc.devRef .tc Cert.ReferenceIdeal.main_arg16) = a.Wl_mt
  h17 : V (Proc.devRef .tc Cert.ReferenceIdeal.main_arg17) = a.bl_mt
  h18 : V (Proc.devRef .tc Cert.ReferenceIdeal.main_arg18) = a.Wr_mt
  h19 : V (Proc.devRef .tc Cert.ReferenceIdeal.main_arg19) = a.Wl_mt2
  h20 : V (Proc.devRef .tc Cert.ReferenceIdeal.main_arg20) = a.bl_mt2
  h21 : V (Proc.devRef .tc Cert.ReferenceIdeal.main_arg21) = a.Wr_mt2
  h22 : V (Proc.devRef .tc Cert.ReferenceIdeal.main_arg22) = a.Wl_mt3
  h23 : V (Proc.devRef .tc Cert.ReferenceIdeal.main_arg23) = a.bl_mt3
  h24 : V (Proc.devRef .tc Cert.ReferenceIdeal.main_arg24) = a.Wr_mt3

theorem argsAt_launch (m : (ℓ : Loc Cert.ReferenceIdeal.nD Cert.ReferenceIdeal.τ Cert.ReferenceIdeal.sig) → Buf (Elt Ideal) ℓ) (c : Dev Cert.ReferenceIdeal.nD) :
    ArgsAt (argsR m c) (launchContents m c) :=
  ⟨rfl, rfl, rfl, rfl, rfl, rfl, rfl, rfl, rfl, rfl, rfl, rfl, rfl, rfl, rfl, rfl, rfl, rfl, rfl, rfl, rfl, rfl, rfl, rfl, rfl⟩

open Cert.ReferenceIdeal in
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

open Cert.ReferenceIdeal in
/-- The argument buffers are the first 25; operations that write only later buffers leave the argument arrays in place. -/
theorem args_keep {a : KVals.Args} {V : RVal} (h : ArgsAt a V)
    (s : List (HloOp τ sig (Elt Ideal))) (W : List (Ref sig .tc))
    (hW : s.Forall fun op => op.writes ⊆ (W.map (Proc.devRef (τ := τ) .tc)).toFinset)
    (hd : (W.all fun y => decide (25 ≤ y.idx.val)) = true) : ArgsAt a (after s V) := by
  have k : ∀ r : Ref sig .tc, r.idx.val < 25 → after s V (Proc.devRef .tc r) = V (Proc.devRef .tc r) :=
    fun r hr => after_of_writes_sub s V hW fun hm =>
      absurd (of_decide_eq_true (List.all_eq_true.mp hd r hm)) (Nat.not_le.mpr hr)
  exact ⟨(k main_arg0 (by decide)).trans h.h0, (k main_arg1 (by decide)).trans h.h1, (k main_arg2 (by decide)).trans h.h2,
    (k main_arg3 (by decide)).trans h.h3, (k main_arg4 (by decide)).trans h.h4, (k main_arg5 (by decide)).trans h.h5,
    (k main_arg6 (by decide)).trans h.h6, (k main_arg7 (by decide)).trans h.h7, (k main_arg8 (by decide)).trans h.h8,
    (k main_arg9 (by decide)).trans h.h9, (k main_arg10 (by decide)).trans h.h10, (k main_arg11 (by decide)).trans h.h11,
    (k main_arg12 (by decide)).trans h.h12, (k main_arg13 (by decide)).trans h.h13, (k main_arg14 (by decide)).trans h.h14,
    (k main_arg15 (by decide)).trans h.h15, (k main_arg16 (by decide)).trans h.h16, (k main_arg17 (by decide)).trans h.h17,
    (k main_arg18 (by decide)).trans h.h18, (k main_arg19 (by decide)).trans h.h19, (k main_arg20 (by decide)).trans h.h20,
    (k main_arg21 (by decide)).trans h.h21, (k main_arg22 (by decide)).trans h.h22, (k main_arg23 (by decide)).trans h.h23,
    (k main_arg24 (by decide)).trans h.h24⟩

end Cert.RefSide

end
-- ==== Proof.RefPart0.lean ====
import proofs.«181152_j39822936769202_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

abbrev p0 : List (HloOp τ sig (Elt F)) :=
  [
    nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v6 (broadcastInDim S50000 ![] bcast_S_S50000 : (⟨S_, .f32⟩ : BufTy).Contents (Elt F) → (⟨S50000, .f32⟩ : BufTy).Contents (Elt F)),
    binary main_v6 main_v5 main_v7 (Host.divf : (⟨S50000, .f32⟩ : BufTy).Contents (Elt F) → (⟨S50000, .f32⟩ : BufTy).Contents (Elt F) → (⟨S50000, .f32⟩ : BufTy).Contents (Elt F)),
    unary main_v7 main_v8 (broadcastInDim S50000x1 ![0] bcast_S50000_S50000x1_0 : (⟨S50000, .f32⟩ : BufTy).Contents (Elt F) → (⟨S50000x1, .f32⟩ : BufTy).Contents (Elt F)),
    unary main_arg0 main_v9 ((extractStridedSlice S1x1x50000x128 ![0, 0, 0, 0] · slices_S2x2x50000x128_S1x1x50000x128_0_0_0_0) : (⟨S2x2x50000x128, .f32⟩ : BufTy).Contents (Elt F) → (⟨S1x1x50000x128, .f32⟩ : BufTy).Contents (Elt F)),
    reshape main_v9 main_v10 rfl shapeCasts_S1x1x50000x128_S50000x128,
    nullary main_c (constantI S_ 32 0#32),
    unary main_c main_v11 (broadcastInDim S800000 ![] bcast_S_S800000 : (⟨S_, .i32⟩ : BufTy).Contents (Elt F) → (⟨S800000, .i32⟩ : BufTy).Contents (Elt F)),
    binary main_arg1 main_v11 main_v12 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v13 (broadcastInDim S800000 ![] bcast_S_S800000 : (⟨S_, .i32⟩ : BufTy).Contents (Elt F) → (⟨S800000, .i32⟩ : BufTy).Contents (Elt F)),
    binary main_arg1 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_arg1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_v10 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_4 (constant S_ .f32 0x00000000#32),
    unary main_cst_4 main_v18 (broadcastInDim S50000x128 ![] bcast_S_S50000x128 : (⟨S_, .f32⟩ : BufTy).Contents (Elt F) → (⟨S50000x128, .f32⟩ : BufTy).Contents (Elt F)),
    unary main_arg2 main_v19 (broadcastInDim S800000x1 ![0] bcast_S800000_S800000x1_0 : (⟨S800000, .i32⟩ : BufTy).Contents (Elt F) → (⟨S800000x1, .i32⟩ : BufTy).Contents (Elt F)),
    ternary main_v18 main_v19 main_v17 main_v20 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v8 main_v21 (broadcastInDim S50000x128 ![0, 1] bcast_S50000x1_S50000x128_0_1 : (⟨S50000x1, .f32⟩ : BufTy).Contents (Elt F) → (⟨S50000x128, .f32⟩ : BufTy).Contents (Elt F)),
    binary main_v20 main_v21 main_v22 (mulf : (⟨S50000x128, .f32⟩ : BufTy).Contents (Elt F) → (⟨S50000x128, .f32⟩ : BufTy).Contents (Elt F) → (⟨S50000x128, .f32⟩ : BufTy).Contents (Elt F)),
    binary main_v22 main_arg4 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v24 (broadcastInDim S1x128 ![1] bcast_S128_S1x128_1 : (⟨S128, .f32⟩ : BufTy).Contents (Elt F) → (⟨S1x128, .f32⟩ : BufTy).Contents (Elt F)),
    unary main_v24 main_v25 (broadcastInDim S50000x128 ![0, 1] bcast_S1x128_S50000x128_0_1 : (⟨S1x128, .f32⟩ : BufTy).Contents (Elt F) → (⟨S50000x128, .f32⟩ : BufTy).Contents (Elt F)),
    binary main_v23 main_v25 main_v26 (addf : (⟨S50000x128, .f32⟩ : BufTy).Contents (Elt F) → (⟨S50000x128, .f32⟩ : BufTy).Contents (Elt F) → (⟨S50000x128, .f32⟩ : BufTy).Contents (Elt F)),
    binary main_v10 main_arg6 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v26 main_v27 main_v28 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v28) (TRef.of (T := ⟨S50000x128, .f32⟩) main_call0_v0) (TRef.of (T := ⟨S50000x128, .f32⟩) main_v29) maximumf,
    unary main_arg0 main_v30 ((extractStridedSlice S1x1x50000x128 ![0, 1, 0, 0] · slices_S2x2x50000x128_S1x1x50000x128_0_1_0_0) : (⟨S2x2x50000x128, .f32⟩ : BufTy).Contents (Elt F) → (⟨S1x1x50000x128, .f32⟩ : BufTy).Contents (Elt F)),
    reshape main_v30 main_v31 rfl shapeCasts_S1x1x50000x128_S50000x128,
    nullary main_c_5 (constantI S_ 32 0#32),
    unary main_c_5 main_v32 (broadcastInDim S800000 ![] bcast_S_S800000 : (⟨S_, .i32⟩ : BufTy).Contents (Elt F) → (⟨S800000, .i32⟩ : BufTy).Contents (Elt F)),
    binary main_arg1 main_v32 main_v33 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v34 (broadcastInDim S800000 ![] bcast_S_S800000 : (⟨S_, .i32⟩ : BufTy).Contents (Elt F) → (⟨S800000, .i32⟩ : BufTy).Contents (Elt F)),
    binary main_arg1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_arg1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_7 (constant S_ .f32 0x00000000#32),
    unary main_cst_7 main_v39 (broadcastInDim S50000x128 ![] bcast_S_S50000x128 : (⟨S_, .f32⟩ : BufTy).Contents (Elt F) → (⟨S50000x128, .f32⟩ : BufTy).Contents (Elt F)),
    unary main_arg2 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v8 main_v42 (broadcastInDim S50000x128 ![0, 1] bcast_S50000x1_S50000x128_0_1 : (⟨S50000x1, .f32⟩ : BufTy).Contents (Elt F) → (⟨S50000x128, .f32⟩ : BufTy).Contents (Elt F)),
    binary main_v41 main_v42 main_v43 (mulf : (⟨S50000x128, .f32⟩ : BufTy).Contents (Elt F) → (⟨S50000x128, .f32⟩ : BufTy).Contents (Elt F) → (⟨S50000x128, .f32⟩ : BufTy).Contents (Elt F)),
    binary main_v43 main_arg7 main_v44 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    binary main_v31 main_arg9 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v47 main_v48 main_v49 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in

theorem p0_eq (c : Dev nD) : main_part0 (F := F) c = seq p0 := by
  simp only [main_part0, fn_relu.body, seq, bind_assoc, pure_bind]
  all_goals rfl

end Cert.ReferenceIdeal.Ops

end
-- ==== Proof.RefPart1.lean ====
import proofs.«181152_j39822936769202_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

abbrev p1 : List (HloOp τ sig (Elt F)) :=
  [
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v49) (TRef.of (T := ⟨S50000x128, .f32⟩) main_call1_v0) (TRef.of (T := ⟨S50000x128, .f32⟩) main_v50) maximumf,
    binary main_v29 main_v50 main_v51 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    nullary main_c_8 (constantI S_ 32 0#32),
    unary main_c_8 main_v52 (broadcastInDim S800000 ![] bcast_S_S800000 : (⟨S_, .i32⟩ : BufTy).Contents (Elt F) → (⟨S800000, .i32⟩ : BufTy).Contents (Elt F)),
    binary main_arg1 main_v52 main_v53 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v54 (broadcastInDim S800000 ![] bcast_S_S800000 : (⟨S_, .i32⟩ : BufTy).Contents (Elt F) → (⟨S800000, .i32⟩ : BufTy).Contents (Elt F)),
    binary main_arg1 main_v54 main_v55 (addi : (⟨S800000, .i32⟩ : BufTy).Contents (Elt F) → (⟨S800000, .i32⟩ : BufTy).Contents (Elt F) → (⟨S800000, .i32⟩ : BufTy).Contents (Elt F)),
    ternary main_v53 main_v55 main_arg1 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v56 main_v57 (broadcastInDim S800000x1 ![0] bcast_S800000_S800000x1_0 : (⟨S800000, .i32⟩ : BufTy).Contents (Elt F) → (⟨S800000x1, .i32⟩ : BufTy).Contents (Elt F)),
    binary main_v51 main_v57 main_v58 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_10 (constant S_ .f32 0x00000000#32),
    unary main_cst_10 main_v59 (broadcastInDim S50000x256 ![] bcast_S_S50000x256 : (⟨S_, .f32⟩ : BufTy).Contents (Elt F) → (⟨S50000x256, .f32⟩ : BufTy).Contents (Elt F)),
    unary main_arg2 main_v60 (broadcastInDim S800000x1 ![0] bcast_S800000_S800000x1_0 : (⟨S800000, .i32⟩ : BufTy).Contents (Elt F) → (⟨S800000x1, .i32⟩ : BufTy).Contents (Elt F)),
    ternary main_v59 main_v60 main_v58 main_v61 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v8 main_v62 (broadcastInDim S50000x256 ![0, 1] bcast_S50000x1_S50000x256_0_1 : (⟨S50000x1, .f32⟩ : BufTy).Contents (Elt F) → (⟨S50000x256, .f32⟩ : BufTy).Contents (Elt F)),
    binary main_v61 main_v62 main_v63 (mulf : (⟨S50000x256, .f32⟩ : BufTy).Contents (Elt F) → (⟨S50000x256, .f32⟩ : BufTy).Contents (Elt F) → (⟨S50000x256, .f32⟩ : BufTy).Contents (Elt F)),
    binary main_v63 main_arg10 main_v64 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg11 main_v65 (broadcastInDim S1x256 ![1] bcast_S256_S1x256_1 : (⟨S256, .f32⟩ : BufTy).Contents (Elt F) → (⟨S1x256, .f32⟩ : BufTy).Contents (Elt F)),
    unary main_v65 main_v66 (broadcastInDim S50000x256 ![0, 1] bcast_S1x256_S50000x256_0_1 : (⟨S1x256, .f32⟩ : BufTy).Contents (Elt F) → (⟨S50000x256, .f32⟩ : BufTy).Contents (Elt F)),
    binary main_v64 main_v66 main_v67 (addf : (⟨S50000x256, .f32⟩ : BufTy).Contents (Elt F) → (⟨S50000x256, .f32⟩ : BufTy).Contents (Elt F) → (⟨S50000x256, .f32⟩ : BufTy).Contents (Elt F)),
    binary main_v51 main_arg12 main_v68 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v67 main_v68 main_v69 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v69) (TRef.of (T := ⟨S50000x256, .f32⟩) main_call2_v0) (TRef.of (T := ⟨S50000x256, .f32⟩) main_v70) maximumf,
    nullary main_c_11 (constantI S_ 32 0#32),
    unary main_c_11 main_v71 (broadcastInDim S800000 ![] bcast_S_S800000 : (⟨S_, .i32⟩ : BufTy).Contents (Elt F) → (⟨S800000, .i32⟩ : BufTy).Contents (Elt F)),
    binary main_arg1 main_v71 main_v72 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v73 (broadcastInDim S800000 ![] bcast_S_S800000 : (⟨S_, .i32⟩ : BufTy).Contents (Elt F) → (⟨S800000, .i32⟩ : BufTy).Contents (Elt F)),
    binary main_arg1 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_arg1 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v70 main_v76 main_v77 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_13 (constant S_ .f32 0x00000000#32),
    unary main_cst_13 main_v78 (broadcastInDim S50000x256 ![] bcast_S_S50000x256 : (⟨S_, .f32⟩ : BufTy).Contents (Elt F) → (⟨S50000x256, .f32⟩ : BufTy).Contents (Elt F)),
    unary main_arg2 main_v79 (broadcastInDim S800000x1 ![0] bcast_S800000_S800000x1_0 : (⟨S800000, .i32⟩ : BufTy).Contents (Elt F) → (⟨S800000x1, .i32⟩ : BufTy).Contents (Elt F)),
    ternary main_v78 main_v79 main_v77 main_v80 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v8 main_v81 (broadcastInDim S50000x256 ![0, 1] bcast_S50000x1_S50000x256_0_1 : (⟨S50000x1, .f32⟩ : BufTy).Contents (Elt F) → (⟨S50000x256, .f32⟩ : BufTy).Contents (Elt F)),
    binary main_v80 main_v81 main_v82 (mulf : (⟨S50000x256, .f32⟩ : BufTy).Contents (Elt F) → (⟨S50000x256, .f32⟩ : BufTy).Contents (Elt F) → (⟨S50000x256, .f32⟩ : BufTy).Contents (Elt F)),
    binary main_v82 main_arg13 main_v83 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg14 main_v84 (broadcastInDim S1x64 ![1] bcast_S64_S1x64_1 : (⟨S64, .f32⟩ : BufTy).Contents (Elt F) → (⟨S1x64, .f32⟩ : BufTy).Contents (Elt F)),
    unary main_v84 main_v85 (broadcastInDim S50000x64 ![0, 1] bcast_S1x64_S50000x64_0_1 : (⟨S1x64, .f32⟩ : BufTy).Contents (Elt F) → (⟨S50000x64, .f32⟩ : BufTy).Contents (Elt F)),
    binary main_v83 main_v85 main_v86 (addf : (⟨S50000x64, .f32⟩ : BufTy).Contents (Elt F) → (⟨S50000x64, .f32⟩ : BufTy).Contents (Elt F) → (⟨S50000x64, .f32⟩ : BufTy).Contents (Elt F)),
    binary main_v70 main_arg15 main_v87 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    binary main_v86 main_v87 main_v88 (addf : (⟨S50000x64, .f32⟩ : BufTy).Contents (Elt F) → (⟨S50000x64, .f32⟩ : BufTy).Contents (Elt F) → (⟨S50000x64, .f32⟩ : BufTy).Contents (Elt F)),
    unary main_v88 main_v89 (Host.negf : (⟨S50000x64, .f32⟩ : BufTy).Contents (Elt F) → (⟨S50000x64, .f32⟩ : BufTy).Contents (Elt F)),
    unary main_v89 main_v90 (Host.exp : (⟨S50000x64, .f32⟩ : BufTy).Contents (Elt F) → (⟨S50000x64, .f32⟩ : BufTy).Contents (Elt F)),
    nullary main_cst_14 (constant S_ .f32 0x3F800000#32),
    unary main_cst_14 main_v91 (broadcastInDim S50000x64 ![] bcast_S_S50000x64 : (⟨S_, .f32⟩ : BufTy).Contents (Elt F) → (⟨S50000x64, .f32⟩ : BufTy).Contents (Elt F)),
    binary main_v91 main_v90 main_v92 (addf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x3F800000#32),
    unary main_cst_15 main_v93 (broadcastInDim S50000x64 ![] bcast_S_S50000x64 : (⟨S_, .f32⟩ : BufTy).Contents (Elt F) → (⟨S50000x64, .f32⟩ : BufTy).Contents (Elt F)),
    binary main_v93 main_v92 main_v94 (Host.divf : (⟨S50000x64, .f32⟩ : BufTy).Contents (Elt F) → (⟨S50000x64, .f32⟩ : BufTy).Contents (Elt F) → (⟨S50000x64, .f32⟩ : BufTy).Contents (Elt F)),
    unary main_arg16 main_v95 ((extractStridedSlice S1x64x12 ![0, 0, 0] · slices_S2x64x12_S1x64x12_0_0_0) : (⟨S2x64x12, .f32⟩ : BufTy).Contents (Elt F) → (⟨S1x64x12, .f32⟩ : BufTy).Contents (Elt F)),
    reshape main_v95 main_v96 rfl shapeCasts_S1x64x12_S64x12,
    unary main_arg17 main_v97 ((extractStridedSlice S1x12 ![0, 0] · slices_S2x12_S1x12_0_0) : (⟨S2x12, .f32⟩ : BufTy).Contents (Elt F) → (⟨S1x12, .f32⟩ : BufTy).Contents (Elt F)),
    reshape main_v97 main_v98 rfl shapeCasts_S1x12_S12,
    unary main_arg18 main_v99 ((extractStridedSlice S1x64x12 ![0, 0, 0] · slices_S2x64x12_S1x64x12_0_0_0) : (⟨S2x64x12, .f32⟩ : BufTy).Contents (Elt F) → (⟨S1x64x12, .f32⟩ : BufTy).Contents (Elt F)),
    reshape main_v99 main_v100 rfl shapeCasts_S1x64x12_S64x12,
    nullary main_c_16 (constantI S_ 32 0#32) ]

set_option maxRecDepth 8192 in
set_option maxHeartbeats 4000000 in

theorem p1_eq (c : Dev nD) : main_part1 (F := F) c = seq p1 := by
  simp only [main_part1, fn_relu.body, fn_relu_0.body, seq, bind_assoc, pure_bind]
  all_goals rfl

end Cert.ReferenceIdeal.Ops

end
-- ==== Proof.RefPart2.lean ====
import proofs.«181152_j39822936769202_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

abbrev p2 : List (HloOp τ sig (Elt F)) :=
  [ unary main_c_16 main_v101 (broadcastInDim S800000 ![] bcast_S_S800000 : (⟨S_, .i32⟩ : BufTy).Contents (Elt F) → (⟨S800000, .i32⟩ : BufTy).Contents (Elt F)),
    binary main_arg1 main_v101 main_v102 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v103 (broadcastInDim S800000 ![] bcast_S_S800000 : (⟨S_, .i32⟩ : BufTy).Contents (Elt F) → (⟨S800000, .i32⟩ : BufTy).Contents (Elt F)),
    binary main_arg1 main_v103 main_v104 (addi : (⟨S800000, .i32⟩ : BufTy).Contents (Elt F) → (⟨S800000, .i32⟩ : BufTy).Contents (Elt F) → (⟨S800000, .i32⟩ : BufTy).Contents (Elt F)),
    ternary main_v102 main_v104 main_arg1 main_v105 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v105 main_v106 (broadcastInDim S800000x1 ![0] bcast_S800000_S800000x1_0 : (⟨S800000, .i32⟩ : BufTy).Contents (Elt F) → (⟨S800000x1, .i32⟩ : BufTy).Contents (Elt F)),
    binary main_v94 main_v106 main_v107 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_18 (constant S_ .f32 0x00000000#32),
    unary main_cst_18 main_v108 (broadcastInDim S50000x64 ![] bcast_S_S50000x64 : (⟨S_, .f32⟩ : BufTy).Contents (Elt F) → (⟨S50000x64, .f32⟩ : BufTy).Contents (Elt F)),
    unary main_arg2 main_v109 (broadcastInDim S800000x1 ![0] bcast_S800000_S800000x1_0 : (⟨S800000, .i32⟩ : BufTy).Contents (Elt F) → (⟨S800000x1, .i32⟩ : BufTy).Contents (Elt F)),
    ternary main_v108 main_v109 main_v107 main_v110 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v111 (broadcastInDim S50000x64 ![0, 1] bcast_S50000x1_S50000x64_0_1 : (⟨S50000x1, .f32⟩ : BufTy).Contents (Elt F) → (⟨S50000x64, .f32⟩ : BufTy).Contents (Elt F)),
    binary main_v110 main_v111 main_v112 (mulf : (⟨S50000x64, .f32⟩ : BufTy).Contents (Elt F) → (⟨S50000x64, .f32⟩ : BufTy).Contents (Elt F) → (⟨S50000x64, .f32⟩ : BufTy).Contents (Elt F)),
    binary main_v112 main_v96 main_v113 ((fun l r => Host.dotGeneral dot_S50000x64_S64x12_S50000x12_1_0_0_1_n_n none l r) : (⟨S50000x64, .f32⟩ : BufTy).Contents (Elt F) → (⟨S64x12, .f32⟩ : BufTy).Contents (Elt F) → (⟨S50000x12, .f32⟩ : BufTy).Contents (Elt F)),
    unary main_v98 main_v114 (broadcastInDim S1x12 ![1] bcast_S12_S1x12_1 : (⟨S12, .f32⟩ : BufTy).Contents (Elt F) → (⟨S1x12, .f32⟩ : BufTy).Contents (Elt F)),
    unary main_v114 main_v115 (broadcastInDim S50000x12 ![0, 1] bcast_S1x12_S50000x12_0_1 : (⟨S1x12, .f32⟩ : BufTy).Contents (Elt F) → (⟨S50000x12, .f32⟩ : BufTy).Contents (Elt F)),
    binary main_v113 main_v115 main_v116 (addf : (⟨S50000x12, .f32⟩ : BufTy).Contents (Elt F) → (⟨S50000x12, .f32⟩ : BufTy).Contents (Elt F) → (⟨S50000x12, .f32⟩ : BufTy).Contents (Elt F)),
    binary main_v94 main_v100 main_v117 ((fun l r => Host.dotGeneral dot_S50000x64_S64x12_S50000x12_1_0_0_1_n_n none l r) : (⟨S50000x64, .f32⟩ : BufTy).Contents (Elt F) → (⟨S64x12, .f32⟩ : BufTy).Contents (Elt F) → (⟨S50000x12, .f32⟩ : BufTy).Contents (Elt F)),
    binary main_v116 main_v117 main_v118 (addf : (⟨S50000x12, .f32⟩ : BufTy).Contents (Elt F) → (⟨S50000x12, .f32⟩ : BufTy).Contents (Elt F) → (⟨S50000x12, .f32⟩ : BufTy).Contents (Elt F)),
    unary main_v118 main_v119 (Host.negf : (⟨S50000x12, .f32⟩ : BufTy).Contents (Elt F) → (⟨S50000x12, .f32⟩ : BufTy).Contents (Elt F)),
    unary main_v119 main_v120 (Host.exp : (⟨S50000x12, .f32⟩ : BufTy).Contents (Elt F) → (⟨S50000x12, .f32⟩ : BufTy).Contents (Elt F)),
    nullary main_cst_19 (constant S_ .f32 0x3F800000#32),
    unary main_cst_19 main_v121 (broadcastInDim S50000x12 ![] bcast_S_S50000x12 : (⟨S_, .f32⟩ : BufTy).Contents (Elt F) → (⟨S50000x12, .f32⟩ : BufTy).Contents (Elt F)),
    binary main_v121 main_v120 main_v122 (addf : (⟨S50000x12, .f32⟩ : BufTy).Contents (Elt F) → (⟨S50000x12, .f32⟩ : BufTy).Contents (Elt F) → (⟨S50000x12, .f32⟩ : BufTy).Contents (Elt F)),
    nullary main_cst_20 (constant S_ .f32 0x3F800000#32),
    unary main_cst_20 main_v123 (broadcastInDim S50000x12 ![] bcast_S_S50000x12 : (⟨S_, .f32⟩ : BufTy).Contents (Elt F) → (⟨S50000x12, .f32⟩ : BufTy).Contents (Elt F)),
    binary main_v123 main_v122 main_v124 (Host.divf : (⟨S50000x12, .f32⟩ : BufTy).Contents (Elt F) → (⟨S50000x12, .f32⟩ : BufTy).Contents (Elt F) → (⟨S50000x12, .f32⟩ : BufTy).Contents (Elt F)),
    unary main_arg19 main_v125 ((extractStridedSlice S1x64x8 ![0, 0, 0] · slices_S2x64x8_S1x64x8_0_0_0) : (⟨S2x64x8, .f32⟩ : BufTy).Contents (Elt F) → (⟨S1x64x8, .f32⟩ : BufTy).Contents (Elt F)),
    reshape main_v125 main_v126 rfl shapeCasts_S1x64x8_S64x8,
    unary main_arg20 main_v127 ((extractStridedSlice S1x8 ![0, 0] · slices_S2x8_S1x8_0_0) : (⟨S2x8, .f32⟩ : BufTy).Contents (Elt F) → (⟨S1x8, .f32⟩ : BufTy).Contents (Elt F)),
    reshape main_v127 main_v128 rfl shapeCasts_S1x8_S8,
    unary main_arg21 main_v129 ((extractStridedSlice S1x64x8 ![0, 0, 0] · slices_S2x64x8_S1x64x8_0_0_0) : (⟨S2x64x8, .f32⟩ : BufTy).Contents (Elt F) → (⟨S1x64x8, .f32⟩ : BufTy).Contents (Elt F)),
    reshape main_v129 main_v130 rfl shapeCasts_S1x64x8_S64x8,
    nullary main_c_21 (constantI S_ 32 0#32),
    unary main_c_21 main_v131 (broadcastInDim S800000 ![] bcast_S_S800000 : (⟨S_, .i32⟩ : BufTy).Contents (Elt F) → (⟨S800000, .i32⟩ : BufTy).Contents (Elt F)),
    binary main_arg1 main_v131 main_v132 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v133 (broadcastInDim S800000 ![] bcast_S_S800000 : (⟨S_, .i32⟩ : BufTy).Contents (Elt F) → (⟨S800000, .i32⟩ : BufTy).Contents (Elt F)),
    binary main_arg1 main_v133 main_v134 (addi : (⟨S800000, .i32⟩ : BufTy).Contents (Elt F) → (⟨S800000, .i32⟩ : BufTy).Contents (Elt F) → (⟨S800000, .i32⟩ : BufTy).Contents (Elt F)),
    ternary main_v132 main_v134 main_arg1 main_v135 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v135 main_v136 (broadcastInDim S800000x1 ![0] bcast_S800000_S800000x1_0 : (⟨S800000, .i32⟩ : BufTy).Contents (Elt F) → (⟨S800000x1, .i32⟩ : BufTy).Contents (Elt F)),
    binary main_v94 main_v136 main_v137 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_23 (constant S_ .f32 0x00000000#32),
    unary main_cst_23 main_v138 (broadcastInDim S50000x64 ![] bcast_S_S50000x64 : (⟨S_, .f32⟩ : BufTy).Contents (Elt F) → (⟨S50000x64, .f32⟩ : BufTy).Contents (Elt F)),
    unary main_arg2 main_v139 (broadcastInDim S800000x1 ![0] bcast_S800000_S800000x1_0 : (⟨S800000, .i32⟩ : BufTy).Contents (Elt F) → (⟨S800000x1, .i32⟩ : BufTy).Contents (Elt F)),
    ternary main_v138 main_v139 main_v137 main_v140 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v141 (broadcastInDim S50000x64 ![0, 1] bcast_S50000x1_S50000x64_0_1 : (⟨S50000x1, .f32⟩ : BufTy).Contents (Elt F) → (⟨S50000x64, .f32⟩ : BufTy).Contents (Elt F)),
    binary main_v140 main_v141 main_v142 (mulf : (⟨S50000x64, .f32⟩ : BufTy).Contents (Elt F) → (⟨S50000x64, .f32⟩ : BufTy).Contents (Elt F) → (⟨S50000x64, .f32⟩ : BufTy).Contents (Elt F)),
    binary main_v142 main_v126 main_v143 ((fun l r => Host.dotGeneral dot_S50000x64_S64x8_S50000x8_1_0_0_1_n_n none l r) : (⟨S50000x64, .f32⟩ : BufTy).Contents (Elt F) → (⟨S64x8, .f32⟩ : BufTy).Contents (Elt F) → (⟨S50000x8, .f32⟩ : BufTy).Contents (Elt F)),
    unary main_v128 main_v144 (broadcastInDim S1x8 ![1] bcast_S8_S1x8_1 : (⟨S8, .f32⟩ : BufTy).Contents (Elt F) → (⟨S1x8, .f32⟩ : BufTy).Contents (Elt F)),
    unary main_v144 main_v145 (broadcastInDim S50000x8 ![0, 1] bcast_S1x8_S50000x8_0_1 : (⟨S1x8, .f32⟩ : BufTy).Contents (Elt F) → (⟨S50000x8, .f32⟩ : BufTy).Contents (Elt F)),
    binary main_v143 main_v145 main_v146 (addf : (⟨S50000x8, .f32⟩ : BufTy).Contents (Elt F) → (⟨S50000x8, .f32⟩ : BufTy).Contents (Elt F) → (⟨S50000x8, .f32⟩ : BufTy).Contents (Elt F)),
    binary main_v94 main_v130 main_v147 ((fun l r => Host.dotGeneral dot_S50000x64_S64x8_S50000x8_1_0_0_1_n_n none l r) : (⟨S50000x64, .f32⟩ : BufTy).Contents (Elt F) → (⟨S64x8, .f32⟩ : BufTy).Contents (Elt F) → (⟨S50000x8, .f32⟩ : BufTy).Contents (Elt F)),
    binary main_v146 main_v147 main_v148 (addf : (⟨S50000x8, .f32⟩ : BufTy).Contents (Elt F) → (⟨S50000x8, .f32⟩ : BufTy).Contents (Elt F) → (⟨S50000x8, .f32⟩ : BufTy).Contents (Elt F)),
    unary main_v148 main_v149 (Host.negf : (⟨S50000x8, .f32⟩ : BufTy).Contents (Elt F) → (⟨S50000x8, .f32⟩ : BufTy).Contents (Elt F)),
    unary main_v149 main_v150 (Host.exp : (⟨S50000x8, .f32⟩ : BufTy).Contents (Elt F) → (⟨S50000x8, .f32⟩ : BufTy).Contents (Elt F)),
    nullary main_cst_24 (constant S_ .f32 0x3F800000#32),
    unary main_cst_24 main_v151 (broadcastInDim S50000x8 ![] bcast_S_S50000x8 : (⟨S_, .f32⟩ : BufTy).Contents (Elt F) → (⟨S50000x8, .f32⟩ : BufTy).Contents (Elt F)),
    binary main_v151 main_v150 main_v152 (addf : (⟨S50000x8, .f32⟩ : BufTy).Contents (Elt F) → (⟨S50000x8, .f32⟩ : BufTy).Contents (Elt F) → (⟨S50000x8, .f32⟩ : BufTy).Contents (Elt F)) ]

set_option maxRecDepth 8192 in
set_option maxHeartbeats 4000000 in

theorem p2_eq (c : Dev nD) : main_part2 (F := F) c = seq p2 := rfl

end Cert.ReferenceIdeal.Ops

end
-- ==== Proof.RefPart3.lean ====
import proofs.«181152_j39822936769202_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

abbrev p3 : List (HloOp τ sig (Elt F)) :=
  [
    nullary main_cst_25 (constant S_ .f32 0x3F800000#32),
    unary main_cst_25 main_v153 (broadcastInDim S50000x8 ![] bcast_S_S50000x8 : (⟨S_, .f32⟩ : BufTy).Contents (Elt F) → (⟨S50000x8, .f32⟩ : BufTy).Contents (Elt F)),
    binary main_v153 main_v152 main_v154 (Host.divf : (⟨S50000x8, .f32⟩ : BufTy).Contents (Elt F) → (⟨S50000x8, .f32⟩ : BufTy).Contents (Elt F) → (⟨S50000x8, .f32⟩ : BufTy).Contents (Elt F)),
    unary main_arg22 main_v155 ((extractStridedSlice S1x64x5 ![0, 0, 0] · slices_S2x64x5_S1x64x5_0_0_0) : (⟨S2x64x5, .f32⟩ : BufTy).Contents (Elt F) → (⟨S1x64x5, .f32⟩ : BufTy).Contents (Elt F)),
    reshape main_v155 main_v156 rfl shapeCasts_S1x64x5_S64x5,
    unary main_arg23 main_v157 ((extractStridedSlice S1x5 ![0, 0] · slices_S2x5_S1x5_0_0) : (⟨S2x5, .f32⟩ : BufTy).Contents (Elt F) → (⟨S1x5, .f32⟩ : BufTy).Contents (Elt F)),
    reshape main_v157 main_v158 rfl shapeCasts_S1x5_S5,
    unary main_arg24 main_v159 ((extractStridedSlice S1x64x5 ![0, 0, 0] · slices_S2x64x5_S1x64x5_0_0_0) : (⟨S2x64x5, .f32⟩ : BufTy).Contents (Elt F) → (⟨S1x64x5, .f32⟩ : BufTy).Contents (Elt F)),
    reshape main_v159 main_v160 rfl shapeCasts_S1x64x5_S64x5,
    nullary main_c_26 (constantI S_ 32 0#32),
    unary main_c_26 main_v161 (broadcastInDim S800000 ![] bcast_S_S800000 : (⟨S_, .i32⟩ : BufTy).Contents (Elt F) → (⟨S800000, .i32⟩ : BufTy).Contents (Elt F)),
    binary main_arg1 main_v161 main_v162 (cmpi .slt : (⟨S800000, .i32⟩ : BufTy).Contents (Elt F) → (⟨S800000, .i32⟩ : BufTy).Contents (Elt F) → (⟨S800000, .i1⟩ : BufTy).Contents (Elt F)),
    nullary main_c_27 (constantI S_ 32 50000#32),
    unary main_c_27 main_v163 (broadcastInDim S800000 ![] bcast_S_S800000 : (⟨S_, .i32⟩ : BufTy).Contents (Elt F) → (⟨S800000, .i32⟩ : BufTy).Contents (Elt F)),
    binary main_arg1 main_v163 main_v164 (addi : (⟨S800000, .i32⟩ : BufTy).Contents (Elt F) → (⟨S800000, .i32⟩ : BufTy).Contents (Elt F) → (⟨S800000, .i32⟩ : BufTy).Contents (Elt F)),
    ternary main_v162 main_v164 main_arg1 main_v165 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v165 main_v166 (broadcastInDim S800000x1 ![0] bcast_S800000_S800000x1_0 : (⟨S800000, .i32⟩ : BufTy).Contents (Elt F) → (⟨S800000x1, .i32⟩ : BufTy).Contents (Elt F)),
    binary main_v94 main_v166 main_v167 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_28 (constant S_ .f32 0x00000000#32),
    unary main_cst_28 main_v168 (broadcastInDim S50000x64 ![] bcast_S_S50000x64 : (⟨S_, .f32⟩ : BufTy).Contents (Elt F) → (⟨S50000x64, .f32⟩ : BufTy).Contents (Elt F)),
    unary main_arg2 main_v169 (broadcastInDim S800000x1 ![0] bcast_S800000_S800000x1_0 : (⟨S800000, .i32⟩ : BufTy).Contents (Elt F) → (⟨S800000x1, .i32⟩ : BufTy).Contents (Elt F)),
    ternary main_v168 main_v169 main_v167 main_v170 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v171 (broadcastInDim S50000x64 ![0, 1] bcast_S50000x1_S50000x64_0_1 : (⟨S50000x1, .f32⟩ : BufTy).Contents (Elt F) → (⟨S50000x64, .f32⟩ : BufTy).Contents (Elt F)),
    binary main_v170 main_v171 main_v172 (mulf : (⟨S50000x64, .f32⟩ : BufTy).Contents (Elt F) → (⟨S50000x64, .f32⟩ : BufTy).Contents (Elt F) → (⟨S50000x64, .f32⟩ : BufTy).Contents (Elt F)),
    binary main_v172 main_v156 main_v173 ((fun l r => Host.dotGeneral dot_S50000x64_S64x5_S50000x5_1_0_0_1_n_n none l r) : (⟨S50000x64, .f32⟩ : BufTy).Contents (Elt F) → (⟨S64x5, .f32⟩ : BufTy).Contents (Elt F) → (⟨S50000x5, .f32⟩ : BufTy).Contents (Elt F)),
    unary main_v158 main_v174 (broadcastInDim S1x5 ![1] bcast_S5_S1x5_1 : (⟨S5, .f32⟩ : BufTy).Contents (Elt F) → (⟨S1x5, .f32⟩ : BufTy).Contents (Elt F)),
    unary main_v174 main_v175 (broadcastInDim S50000x5 ![0, 1] bcast_S1x5_S50000x5_0_1 : (⟨S1x5, .f32⟩ : BufTy).Contents (Elt F) → (⟨S50000x5, .f32⟩ : BufTy).Contents (Elt F)),
    binary main_v173 main_v175 main_v176 (addf : (⟨S50000x5, .f32⟩ : BufTy).Contents (Elt F) → (⟨S50000x5, .f32⟩ : BufTy).Contents (Elt F) → (⟨S50000x5, .f32⟩ : BufTy).Contents (Elt F)),
    binary main_v94 main_v160 main_v177 ((fun l r => Host.dotGeneral dot_S50000x64_S64x5_S50000x5_1_0_0_1_n_n none l r) : (⟨S50000x64, .f32⟩ : BufTy).Contents (Elt F) → (⟨S64x5, .f32⟩ : BufTy).Contents (Elt F) → (⟨S50000x5, .f32⟩ : BufTy).Contents (Elt F)),
    binary main_v176 main_v177 main_v178 (addf : (⟨S50000x5, .f32⟩ : BufTy).Contents (Elt F) → (⟨S50000x5, .f32⟩ : BufTy).Contents (Elt F) → (⟨S50000x5, .f32⟩ : BufTy).Contents (Elt F)),
    unary main_v178 main_v179 (Host.negf : (⟨S50000x5, .f32⟩ : BufTy).Contents (Elt F) → (⟨S50000x5, .f32⟩ : BufTy).Contents (Elt F)),
    unary main_v179 main_v180 (Host.exp : (⟨S50000x5, .f32⟩ : BufTy).Contents (Elt F) → (⟨S50000x5, .f32⟩ : BufTy).Contents (Elt F)),
    nullary main_cst_29 (constant S_ .f32 0x3F800000#32),
    unary main_cst_29 main_v181 (broadcastInDim S50000x5 ![] bcast_S_S50000x5 : (⟨S_, .f32⟩ : BufTy).Contents (Elt F) → (⟨S50000x5, .f32⟩ : BufTy).Contents (Elt F)),
    binary main_v181 main_v180 main_v182 (addf : (⟨S50000x5, .f32⟩ : BufTy).Contents (Elt F) → (⟨S50000x5, .f32⟩ : BufTy).Contents (Elt F) → (⟨S50000x5, .f32⟩ : BufTy).Contents (Elt F)),
    nullary main_cst_30 (constant S_ .f32 0x3F800000#32),
    unary main_cst_30 main_v183 (broadcastInDim S50000x5 ![] bcast_S_S50000x5 : (⟨S_, .f32⟩ : BufTy).Contents (Elt F) → (⟨S50000x5, .f32⟩ : BufTy).Contents (Elt F)),
    binary main_v183 main_v182 main_v184 (Host.divf : (⟨S50000x5, .f32⟩ : BufTy).Contents (Elt F) → (⟨S50000x5, .f32⟩ : BufTy).Contents (Elt F) → (⟨S50000x5, .f32⟩ : BufTy).Contents (Elt F)),
    unary main_arg3 main_v185 ((extractStridedSlice S1x50000x1 ![0, 0, 0] · slices_S2x50000x3_S1x50000x1_0_0_0) : (⟨S2x50000x3, .i32⟩ : BufTy).Contents (Elt F) → (⟨S1x50000x1, .i32⟩ : BufTy).Contents (Elt F)),
    reshape main_v185 main_v186 rfl shapeCasts_S1x50000x1_S50000,
    TRef.nullary (TRef.of (T := ⟨S_, .f32⟩) main_call3_cst) (constant S_ .f32 0xFF800000#32),
    TRef.binary (TRef.of (T := ⟨S50000x12, .f32⟩) main_v124) (TRef.of (T := ⟨S_, .f32⟩) main_call3_cst) (TRef.of (T := ⟨S50000, .f32⟩) main_call3_v0) (fun x v => Host.reduce FloatOps.maximumf x v reducesTo_S50000x12_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x12, .f32⟩) main_call3_v4) (broadcastInDim S50000x12 ![0, 1] bcast_S50000x1_S50000x12_0_1),
    TRef.binary (TRef.of (T := ⟨S50000x12, .f32⟩) main_v124) (TRef.of (T := ⟨S50000x12, .f32⟩) main_call3_v4) (TRef.of (T := ⟨S50000x12, .f32⟩) main_call3_v5) subf,
    TRef.unary (TRef.of (T := ⟨S50000x12, .f32⟩) main_call3_v5) (TRef.of (T := ⟨S50000x12, .f32⟩) main_call3_v6) Host.exp,
    TRef.nullary (TRef.of (T := ⟨S_, .f32⟩) main_call3_cst_1) (constant S_ .f32 0x00000000#32),
    TRef.binary (TRef.of (T := ⟨S50000x12, .f32⟩) main_call3_v6) (TRef.of (T := ⟨S_, .f32⟩) main_call3_cst_1) (TRef.of (T := ⟨S50000, .f32⟩) main_call3_v7) (fun x v => Host.reduceAdd x v reducesTo_S50000x12_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x12, .f32⟩) main_call3_v10) (broadcastInDim S50000x12 ![0, 1] bcast_S50000x1_S50000x12_0_1),
    TRef.binary (TRef.of (T := ⟨S50000x12, .f32⟩) main_call3_v5) (TRef.of (T := ⟨S50000x12, .f32⟩) main_call3_v10) (TRef.of (T := ⟨S50000x12, .f32⟩) main_v187) subf,
    unary main_v186 main_v188 (broadcastInDim S50000x1 ![0] bcast_S50000_S50000x1_0 : (⟨S50000, .i32⟩ : BufTy).Contents (Elt F) → (⟨S50000x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S50000x1, .i32⟩) main_call4_v0) (broadcastInDim S50000x1 ![] bcast_S_S50000x1),
    TRef.binary (TRef.of (T := ⟨S50000x1, .i32⟩) main_v188) (TRef.of (T := ⟨S50000x1, .i32⟩) main_call4_v0) (TRef.of (T := ⟨S50000x1, .i1⟩) main_call4_v1) (cmpi .slt),
    TRef.nullary (TRef.of (T := ⟨S_, .i32⟩) main_call4_c_0) (constantI S_ 32 12#32),
    TRef.unary (TRef.of (T := ⟨S_, .i32⟩) main_call4_c_0) (TRef.of (T := ⟨S50000x1, .i32⟩) main_call4_v2) (broadcastInDim S50000x1 ![] bcast_S_S50000x1),
    TRef.binary (TRef.of (T := ⟨S50000x1, .i32⟩) main_v188) (TRef.of (T := ⟨S50000x1, .i32⟩) main_call4_v2) (TRef.of (T := ⟨S50000x1, .i32⟩) main_call4_v3) addi,
    TRef.ternary (TRef.of (T := ⟨S50000x1, .i1⟩) main_call4_v1) (TRef.of (T := ⟨S50000x1, .i32⟩) main_call4_v3) (TRef.of (T := ⟨S50000x1, .i32⟩) main_v188) (TRef.of (T := ⟨S50000x1, .i32⟩) main_call4_v4) select,
    TRef.reshape (TRef.of (T := ⟨S50000x1, .i32⟩) main_call4_v4) (TRef.of (T := ⟨S50000x1x1, .i32⟩) main_call4_v5) rfl shapeCasts_S50000x1_S50000x1x1,
    TRef.nullary (TRef.of (T := ⟨S1, .i32⟩) main_call4_c_1) (constantI S1 32 11#32),
    TRef.nullary (TRef.of (T := ⟨S_, .i32⟩) main_call4_c_2) (constantI S_ 32 0#32),
    TRef.unary (TRef.of (T := ⟨S_, .i32⟩) main_call4_c_2) (TRef.of (T := ⟨S50000x1x1, .i32⟩) main_call4_v6) (broadcastInDim S50000x1x1 ![] bcast_S_S50000x1x1),
    TRef.binary (TRef.of (T := ⟨S50000x1x1, .i32⟩) main_call4_v5) (TRef.of (T := ⟨S50000x1x1, .i32⟩) main_call4_v6) (TRef.of (T := ⟨S50000x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S50000x1x1, .i32⟩) main_call4_v9) (broadcastInDim S50000x1x1 ![0, 1, 2] bcast_S1x1x1_S50000x1x1_0_1_2),
    TRef.binary (TRef.of (T := ⟨S50000x1x1, .i32⟩) main_call4_v5) (TRef.of (T := ⟨S50000x1x1, .i32⟩) main_call4_v9) (TRef.of (T := ⟨S50000x1x1, .i1⟩) main_call4_v10) (cmpi .sle),
    TRef.binary (TRef.of (T := ⟨S50000x1x1, .i1⟩) main_call4_v7) (TRef.of (T := ⟨S50000x1x1, .i1⟩) main_call4_v10) (TRef.of (T := ⟨S50000x1x1, .i1⟩) main_call4_v11) andi,
    TRef.nullary (TRef.of (T := ⟨S_, .i1⟩) main_call4_c_3) (constantI S_ 1 1#1),
    TRef.binary (TRef.of (T := ⟨S50000x1x1, .i1⟩) main_call4_v11) (TRef.of (T := ⟨S_, .i1⟩) main_call4_c_3) (TRef.of (T := ⟨S50000x1, .i1⟩) main_call4_v12) (fun x v => Host.reduce IntOp.andi x v reducesTo_S50000x1x1_S50000x1_d2 h_S_),
    TRef.binary (TRef.of (T := ⟨S50000x12, .f32⟩) main_v187) (TRef.of (T := ⟨S50000x1x1, .i32⟩) main_call4_v5) (TRef.of (T := ⟨S50000x1, .f32⟩) main_call4_v13) (fun x i => Host.gather gather_S50000x12_S50000x1x1_S50000x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S50000x1, .f32⟩) main_call4_v14) (broadcastInDim S50000x1 ![] bcast_S_S50000x1),
    TRef.ternary (TRef.of (T := ⟨S50000x1, .i1⟩) main_call4_v12) (TRef.of (T := ⟨S50000x1, .f32⟩) main_call4_v13) (TRef.of (T := ⟨S50000x1, .f32⟩) main_call4_v14) (TRef.of (T := ⟨S50000x1, .f32⟩) main_v189) select,
    nullary main_cst_31 (constant S_ .f32 0x00000000#32),
    binary main_v189 main_cst_31 main_v190 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    nullary main_cst_32 (constant S_ .f32 0x47435000#32),
    binary main_v190 main_cst_32 main_v191 (Host.divf : (⟨S_, .f32⟩ : BufTy).Contents (Elt F) → (⟨S_, .f32⟩ : BufTy).Contents (Elt F) → (⟨S_, .f32⟩ : BufTy).Contents (Elt F)),
    unary main_v191 main_v192 (Host.negf : (⟨S_, .f32⟩ : BufTy).Contents (Elt F) → (⟨S_, .f32⟩ : BufTy).Contents (Elt F)),
    nullary main_cst_33 (constant S_ .f32 0x00000000#32),
    binary main_cst_33 main_v192 main_v193 (addf : (⟨S_, .f32⟩ : BufTy).Contents (Elt F) → (⟨S_, .f32⟩ : BufTy).Contents (Elt F) → (⟨S_, .f32⟩ : BufTy).Contents (Elt F)),
    unary main_arg3 main_v194 ((extractStridedSlice S1x50000x1 ![0, 0, 1] · slices_S2x50000x3_S1x50000x1_0_0_1) : (⟨S2x50000x3, .i32⟩ : BufTy).Contents (Elt F) → (⟨S1x50000x1, .i32⟩ : BufTy).Contents (Elt F)),
    reshape main_v194 main_v195 rfl shapeCasts_S1x50000x1_S50000,
    TRef.nullary (TRef.of (T := ⟨S_, .f32⟩) main_call5_cst) (constant S_ .f32 0xFF800000#32),
    TRef.binary (TRef.of (T := ⟨S50000x8, .f32⟩) main_v154) (TRef.of (T := ⟨S_, .f32⟩) main_call5_cst) (TRef.of (T := ⟨S50000, .f32⟩) main_call5_v0) (fun x v => Host.reduce FloatOps.maximumf x v reducesTo_S50000x8_S50000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S50000, .f32⟩) main_call5_v1) (broadcastInDim S50000 ![] bcast_S_S50000),
    TRef.binary (TRef.of (T := ⟨S50000, .f32⟩) main_call5_v1) (TRef.of (T := ⟨S50000, .f32⟩) main_call5_v0) (TRef.of (T := ⟨S50000, .f32⟩) main_call5_v2) maximumf,
    TRef.unary (TRef.of (T := ⟨S50000, .f32⟩) main_call5_v2) (TRef.of (T := ⟨S50000x1, .f32⟩) main_call5_v3) (broadcastInDim S50000x1 ![0] bcast_S50000_S50000x1_0),
    TRef.unary (TRef.of (T := ⟨S50000x1, .f32⟩) main_call5_v3) (TRef.of (T := ⟨S50000x8, .f32⟩) main_call5_v4) (broadcastInDim S50000x8 ![0, 1] bcast_S50000x1_S50000x8_0_1),
    TRef.binary (TRef.of (T := ⟨S50000x8, .f32⟩) main_v154) (TRef.of (T := ⟨S50000x8, .f32⟩) main_call5_v4) (TRef.of (T := ⟨S50000x8, .f32⟩) main_call5_v5) subf,
    TRef.unary (TRef.of (T := ⟨S50000x8, .f32⟩) main_call5_v5) (TRef.of (T := ⟨S50000x8, .f32⟩) main_call5_v6) Host.exp,
    TRef.nullary (TRef.of (T := ⟨S_, .f32⟩) main_call5_cst_1) (constant S_ .f32 0x00000000#32),
    TRef.binary (TRef.of (T := ⟨S50000x8, .f32⟩) main_call5_v6) (TRef.of (T := ⟨S_, .f32⟩) main_call5_cst_1) (TRef.of (T := ⟨S50000, .f32⟩) main_call5_v7) (fun x v => Host.reduceAdd x v reducesTo_S50000x8_S50000_d1 h_S_),
    TRef.unary (TRef.of (T := ⟨S50000, .f32⟩) main_call5_v7) (TRef.of (T := ⟨S50000x1, .f32⟩) main_call5_v8) (broadcastInDim S50000x1 ![0] bcast_S50000_S50000x1_0),
    TRef.unary (TRef.of (T := ⟨S50000x1, .f32⟩) main_call5_v8) (TRef.of (T := ⟨S50000x1, .f32⟩) main_call5_v9) Host.log,
    TRef.unary (TRef.of (T := ⟨S50000x1, .f32⟩) main_call5_v9) (TRef.of (T := ⟨S50000x8, .f32⟩) main_call5_v10) (broadcastInDim S50000x8 ![0, 1] bcast_S50000x1_S50000x8_0_1),
    TRef.binary (TRef.of (T := ⟨S50000x8, .f32⟩) main_call5_v5) (TRef.of (T := ⟨S50000x8, .f32⟩) main_call5_v10) (TRef.of (T := ⟨S50000x8, .f32⟩) main_v196) subf,
    unary main_v195 main_v197 (broadcastInDim S50000x1 ![0] bcast_S50000_S50000x1_0 : (⟨S50000, .i32⟩ : BufTy).Contents (Elt F) → (⟨S50000x1, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S50000x1, .i32⟩) main_call6_v0) (broadcastInDim S50000x1 ![] bcast_S_S50000x1),
    TRef.binary (TRef.of (T := ⟨S50000x1, .i32⟩) main_v197) (TRef.of (T := ⟨S50000x1, .i32⟩) main_call6_v0) (TRef.of (T := ⟨S50000x1, .i1⟩) main_call6_v1) (cmpi .slt),
    TRef.nullary (TRef.of (T := ⟨S_, .i32⟩) main_call6_c_0) (constantI S_ 32 8#32),
    TRef.unary (TRef.of (T := ⟨S_, .i32⟩) main_call6_c_0) (TRef.of (T := ⟨S50000x1, .i32⟩) main_call6_v2) (broadcastInDim S50000x1 ![] bcast_S_S50000x1),
    TRef.binary (TRef.of (T := ⟨S50000x1, .i32⟩) main_v197) (TRef.of (T := ⟨S50000x1, .i32⟩) main_call6_v2) (TRef.of (T := ⟨S50000x1, .i32⟩) main_call6_v3) addi,
    TRef.ternary (TRef.of (T := ⟨S50000x1, .i1⟩) main_call6_v1) (TRef.of (T := ⟨S50000x1, .i32⟩) main_call6_v3) (TRef.of (T := ⟨S50000x1, .i32⟩) main_v197) (TRef.of (T := ⟨S50000x1, .i32⟩) main_call6_v4) select,
    TRef.reshape (TRef.of (T := ⟨S50000x1, .i32⟩) main_call6_v4) (TRef.of (T := ⟨S50000x1x1, .i32⟩) main_call6_v5) rfl shapeCasts_S50000x1_S50000x1x1,
    TRef.nullary (TRef.of (T := ⟨S1, .i32⟩) main_call6_c_1) (constantI S1 32 7#32),
    TRef.nullary (TRef.of (T := ⟨S_, .i32⟩) main_call6_c_2) (constantI S_ 32 0#32),
    TRef.unary (TRef.of (T := ⟨S_, .i32⟩) main_call6_c_2) (TRef.of (T := ⟨S50000x1x1, .i32⟩) main_call6_v6) (broadcastInDim S50000x1x1 ![] bcast_S_S50000x1x1),
    TRef.binary (TRef.of (T := ⟨S50000x1x1, .i32⟩) main_call6_v5) (TRef.of (T := ⟨S50000x1x1, .i32⟩) main_call6_v6) (TRef.of (T := ⟨S50000x1x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S50000x1x1, .i32⟩) main_call6_v9) (broadcastInDim S50000x1x1 ![0, 1, 2] bcast_S1x1x1_S50000x1x1_0_1_2),
    TRef.binary (TRef.of (T := ⟨S50000x1x1, .i32⟩) main_call6_v5) (TRef.of (T := ⟨S50000x1x1, .i32⟩) main_call6_v9) (TRef.of (T := ⟨S50000x1x1, .i1⟩) main_call6_v10) (cmpi .sle),
    TRef.binary (TRef.of (T := ⟨S50000x1x1, .i1⟩) main_call6_v7) (TRef.of (T := ⟨S50000x1x1, .i1⟩) main_call6_v10) (TRef.of (T := ⟨S50000x1x1, .i1⟩) main_call6_v11) andi,
    TRef.nullary (TRef.of (T := ⟨S_, .i1⟩) main_call6_c_3) (constantI S_ 1 1#1),
    TRef.binary (TRef.of (T := ⟨S50000x1x1, .i1⟩) main_call6_v11) (TRef.of (T := ⟨S_, .i1⟩) main_call6_c_3) (TRef.of (T := ⟨S50000x1, .i1⟩) main_call6_v12) (fun x v => Host.reduce IntOp.andi x v reducesTo_S50000x1x1_S50000x1_d2 h_S_),
    TRef.binary (TRef.of (T := ⟨S50000x8, .f32⟩) main_v196) (TRef.of (T := ⟨S50000x1x1, .i32⟩) main_call6_v5) (TRef.of (T := ⟨S50000x1, .f32⟩) main_call6_v13) (fun x i => Host.gather gather_S50000x8_S50000x1x1_S50000x1_n_1_0_0_1_2_11 x i),
    TRef.nullary (TRef.of (T := ⟨S_, .f32⟩) main_call6_cst) (constant S_ .f32 0x7FC00000#32),
    TRef.unary (TRef.of (T := ⟨S_, .f32⟩) main_call6_cst) (TRef.of (T := ⟨S50000x1, .f32⟩) main_call6_v14) (broadcastInDim S50000x1 ![] bcast_S_S50000x1),
    TRef.ternary (TRef.of (T := ⟨S50000x1, .i1⟩) main_call6_v12) (TRef.of (T := ⟨S50000x1, .f32⟩) main_call6_v13) (TRef.of (T := ⟨S50000x1, .f32⟩) main_call6_v14) (TRef.of (T := ⟨S50000x1, .f32⟩) main_v198) select,
    nullary main_cst_34 (constant S_ .f32 0x00000000#32),
    binary main_v198 main_cst_34 main_v199 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    nullary main_cst_35 (constant S_ .f32 0x47435000#32),
    binary main_v199 main_cst_35 main_v200 (Host.divf : (⟨S_, .f32⟩ : BufTy).Contents (Elt F) → (⟨S_, .f32⟩ : BufTy).Contents (Elt F) → (⟨S_, .f32⟩ : BufTy).Contents (Elt F)),
    unary main_v200 main_v201 (Host.negf : (⟨S_, .f32⟩ : BufTy).Contents (Elt F) → (⟨S_, .f32⟩ : BufTy).Contents (Elt F)) ]

set_option maxRecDepth 8192 in
set_option maxHeartbeats 4000000 in

theorem p3_eq (c : Dev nD) : main_part3 (F := F) c = seq p3 := by
  simp only [main_part3, fn_log_softmax.body, fn_take_along_axis.body, fn_log_softmax_1.body, fn_take_along_axis_2.body, seq, bind_assoc, pure_bind]
  all_goals rfl

end Cert.ReferenceIdeal.Ops

end
-- ==== Proof.RefPart4.lean ====
import proofs.«181152_j39822936769202_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

abbrev p4 : List (HloOp τ sig (Elt F)) :=
  [
    binary main_v193 main_v201 main_v202 (addf : (⟨S_, .f32⟩ : BufTy).Contents (Elt F) → (⟨S_, .f32⟩ : BufTy).Contents (Elt F) → (⟨S_, .f32⟩ : BufTy).Contents (Elt F)),
    unary main_arg3 main_v203 ((extractStridedSlice S1x50000x1 ![0, 0, 2] · slices_S2x50000x3_S1x50000x1_0_0_2) : (⟨S2x50000x3, .i32⟩ : BufTy).Contents (Elt F) → (⟨S1x50000x1, .i32⟩ : BufTy).Contents (Elt F)),
    reshape main_v203 main_v204 rfl shapeCasts_S1x50000x1_S50000,
    TRef.nullary (TRef.of (T := ⟨S_, .f32⟩) main_call7_cst) (constant S_ .f32 0xFF800000#32),
    TRef.binary (TRef.of (T := ⟨S50000x5, .f32⟩) main_v184) (TRef.of (T := ⟨S_, .f32⟩) main_call7_cst) (TRef.of (T := ⟨S50000, .f32⟩) main_call7_v0) (fun x v => Host.reduce FloatOps.maximumf x v reducesTo_S50000x5_S50000_d1 h_S_),
    TRef.nullary (TRef.of (T := ⟨S_, .f32⟩) main_call7_cst_0) (constant S_ .f32 0xFF800000#32),
    TRef.unary (TRef.of (T := ⟨S_, .f32⟩) main_call7_cst_0) (TRef.of (T := ⟨S50000, .f32⟩) main_call7_v1) (broadcastInDim S50000 ![] bcast_S_S50000),
    TRef.binary (TRef.of (T := ⟨S50000, .f32⟩) main_call7_v1) (TRef.of (T := ⟨S50000, .f32⟩) main_call7_v0) (TRef.of (T := ⟨S50000, .f32⟩) main_call7_v2) maximumf,
    TRef.unary (TRef.of (T := ⟨S50000, .f32⟩) main_call7_v2) (TRef.of (T := ⟨S50000x1, .f32⟩) main_call7_v3) (broadcastInDim S50000x1 ![0] bcast_S50000_S50000x1_0),
    TRef.unary (TRef.of (T := ⟨S50000x1, .f32⟩) main_call7_v3) (TRef.of (T := ⟨S50000x5, .f32⟩) main_call7_v4) (broadcastInDim S50000x5 ![0, 1] bcast_S50000x1_S50000x5_0_1),
    TRef.binary (TRef.of (T := ⟨S50000x5, .f32⟩) main_v184) (TRef.of (T := ⟨S50000x5, .f32⟩) main_call7_v4) (TRef.of (T := ⟨S50000x5, .f32⟩) main_call7_v5) subf,
    TRef.unary (TRef.of (T := ⟨S50000x5, .f32⟩) main_call7_v5) (TRef.of (T := ⟨S50000x5, .f32⟩) main_call7_v6) Host.exp,
    TRef.nullary (TRef.of (T := ⟨S_, .f32⟩) main_call7_cst_1) (constant S_ .f32 0x00000000#32),
    TRef.binary (TRef.of (T := ⟨S50000x5, .f32⟩) main_call7_v6) (TRef.of (T := ⟨S_, .f32⟩) main_call7_cst_1) (TRef.of (T := ⟨S50000, .f32⟩) main_call7_v7) (fun x v => Host.reduceAdd x v reducesTo_S50000x5_S50000_d1 h_S_),
    TRef.unary (TRef.of (T := ⟨S50000, .f32⟩) main_call7_v7) (TRef.of (T := ⟨S50000x1, .f32⟩) main_call7_v8) (broadcastInDim S50000x1 ![0] bcast_S50000_S50000x1_0),
    TRef.unary (TRef.of (T := ⟨S50000x1, .f32⟩) main_call7_v8) (TRef.of (T := ⟨S50000x1, .f32⟩) main_call7_v9) Host.log,
    TRef.unary (TRef.of (T := ⟨S50000x1, .f32⟩) main_call7_v9) (TRef.of (T := ⟨S50000x5, .f32⟩) main_call7_v10) (broadcastInDim S50000x5 ![0, 1] bcast_S50000x1_S50000x5_0_1),
    TRef.binary (TRef.of (T := ⟨S50000x5, .f32⟩) main_call7_v5) (TRef.of (T := ⟨S50000x5, .f32⟩) main_call7_v10) (TRef.of (T := ⟨S50000x5, .f32⟩) main_v205) subf,
    unary main_v204 main_v206 (broadcastInDim S50000x1 ![0] bcast_S50000_S50000x1_0 : (⟨S50000, .i32⟩ : BufTy).Contents (Elt F) → (⟨S50000x1, .i32⟩ : BufTy).Contents (Elt F)),
    TRef.nullary (TRef.of (T := ⟨S_, .i32⟩) main_call8_c) (constantI S_ 32 0#32),
    TRef.unary (TRef.of (T := ⟨S_, .i32⟩) main_call8_c) (TRef.of (T := ⟨S50000x1, .i32⟩) main_call8_v0) (broadcastInDim S50000x1 ![] bcast_S_S50000x1),
    TRef.binary (TRef.of (T := ⟨S50000x1, .i32⟩) main_v206) (TRef.of (T := ⟨S50000x1, .i32⟩) main_call8_v0) (TRef.of (T := ⟨S50000x1, .i1⟩) main_call8_v1) (cmpi .slt),
    TRef.nullary (TRef.of (T := ⟨S_, .i32⟩) main_call8_c_0) (constantI S_ 32 5#32),
    TRef.unary (TRef.of (T := ⟨S_, .i32⟩) main_call8_c_0) (TRef.of (T := ⟨S50000x1, .i32⟩) main_call8_v2) (broadcastInDim S50000x1 ![] bcast_S_S50000x1),
    TRef.binary (TRef.of (T := ⟨S50000x1, .i32⟩) main_v206) (TRef.of (T := ⟨S50000x1, .i32⟩) main_call8_v2) (TRef.of (T := ⟨S50000x1, .i32⟩) main_call8_v3) addi,
    TRef.ternary (TRef.of (T := ⟨S50000x1, .i1⟩) main_call8_v1) (TRef.of (T := ⟨S50000x1, .i32⟩) main_call8_v3) (TRef.of (T := ⟨S50000x1, .i32⟩) main_v206) (TRef.of (T := ⟨S50000x1, .i32⟩) main_call8_v4) select,
    TRef.reshape (TRef.of (T := ⟨S50000x1, .i32⟩) main_call8_v4) (TRef.of (T := ⟨S50000x1x1, .i32⟩) main_call8_v5) rfl shapeCasts_S50000x1_S50000x1x1,
    TRef.nullary (TRef.of (T := ⟨S1, .i32⟩) main_call8_c_1) (constantI S1 32 4#32),
    TRef.nullary (TRef.of (T := ⟨S_, .i32⟩) main_call8_c_2) (constantI S_ 32 0#32),
    TRef.unary (TRef.of (T := ⟨S_, .i32⟩) main_call8_c_2) (TRef.of (T := ⟨S50000x1x1, .i32⟩) main_call8_v6) (broadcastInDim S50000x1x1 ![] bcast_S_S50000x1x1),
    TRef.binary (TRef.of (T := ⟨S50000x1x1, .i32⟩) main_call8_v5) (TRef.of (T := ⟨S50000x1x1, .i32⟩) main_call8_v6) (TRef.of (T := ⟨S50000x1x1, .i1⟩) main_call8_v7) (cmpi .sge),
    TRef.unary (TRef.of (T := ⟨S1, .i32⟩) main_call8_c_1) (TRef.of (T := ⟨S1x1x1, .i32⟩) main_call8_v8) (broadcastInDim S1x1x1 ![2] bcast_S1_S1x1x1_2),
    TRef.unary (TRef.of (T := ⟨S1x1x1, .i32⟩) main_call8_v8) (TRef.of (T := ⟨S50000x1x1, .i32⟩) main_call8_v9) (broadcastInDim S50000x1x1 ![0, 1, 2] bcast_S1x1x1_S50000x1x1_0_1_2),
    TRef.binary (TRef.of (T := ⟨S50000x1x1, .i32⟩) main_call8_v5) (TRef.of (T := ⟨S50000x1x1, .i32⟩) main_call8_v9) (TRef.of (T := ⟨S50000x1x1, .i1⟩) main_call8_v10) (cmpi .sle),
    TRef.binary (TRef.of (T := ⟨S50000x1x1, .i1⟩) main_call8_v7) (TRef.of (T := ⟨S50000x1x1, .i1⟩) main_call8_v10) (TRef.of (T := ⟨S50000x1x1, .i1⟩) main_call8_v11) andi,
    TRef.nullary (TRef.of (T := ⟨S_, .i1⟩) main_call8_c_3) (constantI S_ 1 1#1),
    TRef.binary (TRef.of (T := ⟨S50000x1x1, .i1⟩) main_call8_v11) (TRef.of (T := ⟨S_, .i1⟩) main_call8_c_3) (TRef.of (T := ⟨S50000x1, .i1⟩) main_call8_v12) (fun x v => Host.reduce IntOp.andi x v reducesTo_S50000x1x1_S50000x1_d2 h_S_),
    TRef.binary (TRef.of (T := ⟨S50000x5, .f32⟩) main_v205) (TRef.of (T := ⟨S50000x1x1, .i32⟩) main_call8_v5) (TRef.of (T := ⟨S50000x1, .f32⟩) main_call8_v13) (fun x i => Host.gather gather_S50000x5_S50000x1x1_S50000x1_n_1_0_0_1_2_11 x i),
    TRef.nullary (TRef.of (T := ⟨S_, .f32⟩) main_call8_cst) (constant S_ .f32 0x7FC00000#32),
    TRef.unary (TRef.of (T := ⟨S_, .f32⟩) main_call8_cst) (TRef.of (T := ⟨S50000x1, .f32⟩) main_call8_v14) (broadcastInDim S50000x1 ![] bcast_S_S50000x1),
    TRef.ternary (TRef.of (T := ⟨S50000x1, .i1⟩) main_call8_v12) (TRef.of (T := ⟨S50000x1, .f32⟩) main_call8_v13) (TRef.of (T := ⟨S50000x1, .f32⟩) main_call8_v14) (TRef.of (T := ⟨S50000x1, .f32⟩) main_v207) select,
    nullary main_cst_36 (constant S_ .f32 0x00000000#32),
    binary main_v207 main_cst_36 main_v208 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    nullary main_cst_37 (constant S_ .f32 0x47435000#32),
    binary main_v208 main_cst_37 main_v209 (Host.divf : (⟨S_, .f32⟩ : BufTy).Contents (Elt F) → (⟨S_, .f32⟩ : BufTy).Contents (Elt F) → (⟨S_, .f32⟩ : BufTy).Contents (Elt F)),
    unary main_v209 main_v210 (Host.negf : (⟨S_, .f32⟩ : BufTy).Contents (Elt F) → (⟨S_, .f32⟩ : BufTy).Contents (Elt F)),
    binary main_v202 main_v210 main_v211 (addf : (⟨S_, .f32⟩ : BufTy).Contents (Elt F) → (⟨S_, .f32⟩ : BufTy).Contents (Elt F) → (⟨S_, .f32⟩ : BufTy).Contents (Elt F)),
    unary main_arg0 main_v212 ((extractStridedSlice S1x1x50000x128 ![1, 0, 0, 0] · slices_S2x2x50000x128_S1x1x50000x128_1_0_0_0) : (⟨S2x2x50000x128, .f32⟩ : BufTy).Contents (Elt F) → (⟨S1x1x50000x128, .f32⟩ : BufTy).Contents (Elt F)),
    reshape main_v212 main_v213 rfl shapeCasts_S1x1x50000x128_S50000x128,
    nullary main_c_38 (constantI S_ 32 0#32),
    unary main_c_38 main_v214 (broadcastInDim S800000 ![] bcast_S_S800000 : (⟨S_, .i32⟩ : BufTy).Contents (Elt F) → (⟨S800000, .i32⟩ : BufTy).Contents (Elt F)),
    binary main_arg1 main_v214 main_v215 (cmpi .slt : (⟨S800000, .i32⟩ : BufTy).Contents (Elt F) → (⟨S800000, .i32⟩ : BufTy).Contents (Elt F) → (⟨S800000, .i1⟩ : BufTy).Contents (Elt F)),
    nullary main_c_39 (constantI S_ 32 50000#32),
    unary main_c_39 main_v216 (broadcastInDim S800000 ![] bcast_S_S800000 : (⟨S_, .i32⟩ : BufTy).Contents (Elt F) → (⟨S800000, .i32⟩ : BufTy).Contents (Elt F)),
    binary main_arg1 main_v216 main_v217 (addi : (⟨S800000, .i32⟩ : BufTy).Contents (Elt F) → (⟨S800000, .i32⟩ : BufTy).Contents (Elt F) → (⟨S800000, .i32⟩ : BufTy).Contents (Elt F)),
    ternary main_v215 main_v217 main_arg1 main_v218 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v218 main_v219 (broadcastInDim S800000x1 ![0] bcast_S800000_S800000x1_0 : (⟨S800000, .i32⟩ : BufTy).Contents (Elt F) → (⟨S800000x1, .i32⟩ : BufTy).Contents (Elt F)),
    binary main_v213 main_v219 main_v220 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_40 (constant S_ .f32 0x00000000#32),
    unary main_cst_40 main_v221 (broadcastInDim S50000x128 ![] bcast_S_S50000x128 : (⟨S_, .f32⟩ : BufTy).Contents (Elt F) → (⟨S50000x128, .f32⟩ : BufTy).Contents (Elt F)),
    unary main_arg2 main_v222 (broadcastInDim S800000x1 ![0] bcast_S800000_S800000x1_0 : (⟨S800000, .i32⟩ : BufTy).Contents (Elt F) → (⟨S800000x1, .i32⟩ : BufTy).Contents (Elt F)),
    ternary main_v221 main_v222 main_v220 main_v223 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v8 main_v224 (broadcastInDim S50000x128 ![0, 1] bcast_S50000x1_S50000x128_0_1 : (⟨S50000x1, .f32⟩ : BufTy).Contents (Elt F) → (⟨S50000x128, .f32⟩ : BufTy).Contents (Elt F)),
    binary main_v223 main_v224 main_v225 (mulf : (⟨S50000x128, .f32⟩ : BufTy).Contents (Elt F) → (⟨S50000x128, .f32⟩ : BufTy).Contents (Elt F) → (⟨S50000x128, .f32⟩ : BufTy).Contents (Elt F)),
    binary main_v225 main_arg4 main_v226 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v227 (broadcastInDim S1x128 ![1] bcast_S128_S1x128_1 : (⟨S128, .f32⟩ : BufTy).Contents (Elt F) → (⟨S1x128, .f32⟩ : BufTy).Contents (Elt F)),
    unary main_v227 main_v228 (broadcastInDim S50000x128 ![0, 1] bcast_S1x128_S50000x128_0_1 : (⟨S1x128, .f32⟩ : BufTy).Contents (Elt F) → (⟨S50000x128, .f32⟩ : BufTy).Contents (Elt F)),
    binary main_v226 main_v228 main_v229 (addf : (⟨S50000x128, .f32⟩ : BufTy).Contents (Elt F) → (⟨S50000x128, .f32⟩ : BufTy).Contents (Elt F) → (⟨S50000x128, .f32⟩ : BufTy).Contents (Elt F)),
    binary main_v213 main_arg6 main_v230 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v229 main_v230 main_v231 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S50000x128, .f32⟩) main_call9_v0) (broadcastInDim S50000x128 ![] bcast_S_S50000x128),
    TRef.binary (TRef.of (T := ⟨S50000x128, .f32⟩) main_v231) (TRef.of (T := ⟨S50000x128, .f32⟩) main_call9_v0) (TRef.of (T := ⟨S50000x128, .f32⟩) main_v232) maximumf,
    unary main_arg0 main_v233 ((extractStridedSlice S1x1x50000x128 ![1, 1, 0, 0] · slices_S2x2x50000x128_S1x1x50000x128_1_1_0_0) : (⟨S2x2x50000x128, .f32⟩ : BufTy).Contents (Elt F) → (⟨S1x1x50000x128, .f32⟩ : BufTy).Contents (Elt F)),
    reshape main_v233 main_v234 rfl shapeCasts_S1x1x50000x128_S50000x128,
    nullary main_c_41 (constantI S_ 32 0#32),
    unary main_c_41 main_v235 (broadcastInDim S800000 ![] bcast_S_S800000 : (⟨S_, .i32⟩ : BufTy).Contents (Elt F) → (⟨S800000, .i32⟩ : BufTy).Contents (Elt F)),
    binary main_arg1 main_v235 main_v236 (cmpi .slt : (⟨S800000, .i32⟩ : BufTy).Contents (Elt F) → (⟨S800000, .i32⟩ : BufTy).Contents (Elt F) → (⟨S800000, .i1⟩ : BufTy).Contents (Elt F)),
    nullary main_c_42 (constantI S_ 32 50000#32),
    unary main_c_42 main_v237 (broadcastInDim S800000 ![] bcast_S_S800000 : (⟨S_, .i32⟩ : BufTy).Contents (Elt F) → (⟨S800000, .i32⟩ : BufTy).Contents (Elt F)),
    binary main_arg1 main_v237 main_v238 (addi : (⟨S800000, .i32⟩ : BufTy).Contents (Elt F) → (⟨S800000, .i32⟩ : BufTy).Contents (Elt F) → (⟨S800000, .i32⟩ : BufTy).Contents (Elt F)),
    ternary main_v236 main_v238 main_arg1 main_v239 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v239 main_v240 (broadcastInDim S800000x1 ![0] bcast_S800000_S800000x1_0 : (⟨S800000, .i32⟩ : BufTy).Contents (Elt F) → (⟨S800000x1, .i32⟩ : BufTy).Contents (Elt F)),
    binary main_v234 main_v240 main_v241 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_43 (constant S_ .f32 0x00000000#32),
    unary main_cst_43 main_v242 (broadcastInDim S50000x128 ![] bcast_S_S50000x128 : (⟨S_, .f32⟩ : BufTy).Contents (Elt F) → (⟨S50000x128, .f32⟩ : BufTy).Contents (Elt F)),
    unary main_arg2 main_v243 (broadcastInDim S800000x1 ![0] bcast_S800000_S800000x1_0 : (⟨S800000, .i32⟩ : BufTy).Contents (Elt F) → (⟨S800000x1, .i32⟩ : BufTy).Contents (Elt F)),
    ternary main_v242 main_v243 main_v241 main_v244 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v8 main_v245 (broadcastInDim S50000x128 ![0, 1] bcast_S50000x1_S50000x128_0_1 : (⟨S50000x1, .f32⟩ : BufTy).Contents (Elt F) → (⟨S50000x128, .f32⟩ : BufTy).Contents (Elt F)),
    binary main_v244 main_v245 main_v246 (mulf : (⟨S50000x128, .f32⟩ : BufTy).Contents (Elt F) → (⟨S50000x128, .f32⟩ : BufTy).Contents (Elt F) → (⟨S50000x128, .f32⟩ : BufTy).Contents (Elt F)),
    binary main_v246 main_arg7 main_v247 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v248 (broadcastInDim S1x128 ![1] bcast_S128_S1x128_1 : (⟨S128, .f32⟩ : BufTy).Contents (Elt F) → (⟨S1x128, .f32⟩ : BufTy).Contents (Elt F)),
    unary main_v248 main_v249 (broadcastInDim S50000x128 ![0, 1] bcast_S1x128_S50000x128_0_1 : (⟨S1x128, .f32⟩ : BufTy).Contents (Elt F) → (⟨S50000x128, .f32⟩ : BufTy).Contents (Elt F)),
    binary main_v247 main_v249 main_v250 (addf : (⟨S50000x128, .f32⟩ : BufTy).Contents (Elt F) → (⟨S50000x128, .f32⟩ : BufTy).Contents (Elt F) → (⟨S50000x128, .f32⟩ : BufTy).Contents (Elt F)),
    binary main_v234 main_arg9 main_v251 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v250 main_v251 main_v252 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S50000x128, .f32⟩) main_call10_v0) (broadcastInDim S50000x128 ![] bcast_S_S50000x128),
    TRef.binary (TRef.of (T := ⟨S50000x128, .f32⟩) main_v252) (TRef.of (T := ⟨S50000x128, .f32⟩) main_call10_v0) (TRef.of (T := ⟨S50000x128, .f32⟩) main_v253) maximumf ]

set_option maxRecDepth 8192 in
set_option maxHeartbeats 4000000 in

theorem p4_eq (c : Dev nD) : main_part4 (F := F) c = seq p4 := by
  simp only [main_part4, fn_log_softmax_3.body, fn_take_along_axis_4.body, fn_relu.body, seq, bind_assoc, pure_bind]
  all_goals rfl

end Cert.ReferenceIdeal.Ops

end
-- ==== Proof.RefPart5.lean ====
import proofs.«181152_j39822936769202_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

abbrev p5 : List (HloOp τ sig (Elt F)) :=
  [
    binary main_v232 main_v253 main_v254 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    nullary main_c_44 (constantI S_ 32 0#32),
    unary main_c_44 main_v255 (broadcastInDim S800000 ![] bcast_S_S800000 : (⟨S_, .i32⟩ : BufTy).Contents (Elt F) → (⟨S800000, .i32⟩ : BufTy).Contents (Elt F)),
    binary main_arg1 main_v255 main_v256 (cmpi .slt : (⟨S800000, .i32⟩ : BufTy).Contents (Elt F) → (⟨S800000, .i32⟩ : BufTy).Contents (Elt F) → (⟨S800000, .i1⟩ : BufTy).Contents (Elt F)),
    nullary main_c_45 (constantI S_ 32 50000#32),
    unary main_c_45 main_v257 (broadcastInDim S800000 ![] bcast_S_S800000 : (⟨S_, .i32⟩ : BufTy).Contents (Elt F) → (⟨S800000, .i32⟩ : BufTy).Contents (Elt F)),
    binary main_arg1 main_v257 main_v258 (addi : (⟨S800000, .i32⟩ : BufTy).Contents (Elt F) → (⟨S800000, .i32⟩ : BufTy).Contents (Elt F) → (⟨S800000, .i32⟩ : BufTy).Contents (Elt F)),
    ternary main_v256 main_v258 main_arg1 main_v259 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v259 main_v260 (broadcastInDim S800000x1 ![0] bcast_S800000_S800000x1_0 : (⟨S800000, .i32⟩ : BufTy).Contents (Elt F) → (⟨S800000x1, .i32⟩ : BufTy).Contents (Elt F)),
    binary main_v254 main_v260 main_v261 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_46 (constant S_ .f32 0x00000000#32),
    unary main_cst_46 main_v262 (broadcastInDim S50000x256 ![] bcast_S_S50000x256 : (⟨S_, .f32⟩ : BufTy).Contents (Elt F) → (⟨S50000x256, .f32⟩ : BufTy).Contents (Elt F)),
    unary main_arg2 main_v263 (broadcastInDim S800000x1 ![0] bcast_S800000_S800000x1_0 : (⟨S800000, .i32⟩ : BufTy).Contents (Elt F) → (⟨S800000x1, .i32⟩ : BufTy).Contents (Elt F)),
    ternary main_v262 main_v263 main_v261 main_v264 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v8 main_v265 (broadcastInDim S50000x256 ![0, 1] bcast_S50000x1_S50000x256_0_1 : (⟨S50000x1, .f32⟩ : BufTy).Contents (Elt F) → (⟨S50000x256, .f32⟩ : BufTy).Contents (Elt F)),
    binary main_v264 main_v265 main_v266 (mulf : (⟨S50000x256, .f32⟩ : BufTy).Contents (Elt F) → (⟨S50000x256, .f32⟩ : BufTy).Contents (Elt F) → (⟨S50000x256, .f32⟩ : BufTy).Contents (Elt F)),
    binary main_v266 main_arg10 main_v267 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg11 main_v268 (broadcastInDim S1x256 ![1] bcast_S256_S1x256_1 : (⟨S256, .f32⟩ : BufTy).Contents (Elt F) → (⟨S1x256, .f32⟩ : BufTy).Contents (Elt F)),
    unary main_v268 main_v269 (broadcastInDim S50000x256 ![0, 1] bcast_S1x256_S50000x256_0_1 : (⟨S1x256, .f32⟩ : BufTy).Contents (Elt F) → (⟨S50000x256, .f32⟩ : BufTy).Contents (Elt F)),
    binary main_v267 main_v269 main_v270 (addf : (⟨S50000x256, .f32⟩ : BufTy).Contents (Elt F) → (⟨S50000x256, .f32⟩ : BufTy).Contents (Elt F) → (⟨S50000x256, .f32⟩ : BufTy).Contents (Elt F)),
    binary main_v254 main_arg12 main_v271 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v270 main_v271 main_v272 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x256, .f32⟩) main_call11_v0) (broadcastInDim S50000x256 ![] bcast_S_S50000x256),
    TRef.binary (TRef.of (T := ⟨S50000x256, .f32⟩) main_v272) (TRef.of (T := ⟨S50000x256, .f32⟩) main_call11_v0) (TRef.of (T := ⟨S50000x256, .f32⟩) main_v273) maximumf,
    nullary main_c_47 (constantI S_ 32 0#32),
    unary main_c_47 main_v274 (broadcastInDim S800000 ![] bcast_S_S800000 : (⟨S_, .i32⟩ : BufTy).Contents (Elt F) → (⟨S800000, .i32⟩ : BufTy).Contents (Elt F)),
    binary main_arg1 main_v274 main_v275 (cmpi .slt : (⟨S800000, .i32⟩ : BufTy).Contents (Elt F) → (⟨S800000, .i32⟩ : BufTy).Contents (Elt F) → (⟨S800000, .i1⟩ : BufTy).Contents (Elt F)),
    nullary main_c_48 (constantI S_ 32 50000#32),
    unary main_c_48 main_v276 (broadcastInDim S800000 ![] bcast_S_S800000 : (⟨S_, .i32⟩ : BufTy).Contents (Elt F) → (⟨S800000, .i32⟩ : BufTy).Contents (Elt F)),
    binary main_arg1 main_v276 main_v277 (addi : (⟨S800000, .i32⟩ : BufTy).Contents (Elt F) → (⟨S800000, .i32⟩ : BufTy).Contents (Elt F) → (⟨S800000, .i32⟩ : BufTy).Contents (Elt F)),
    ternary main_v275 main_v277 main_arg1 main_v278 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v278 main_v279 (broadcastInDim S800000x1 ![0] bcast_S800000_S800000x1_0 : (⟨S800000, .i32⟩ : BufTy).Contents (Elt F) → (⟨S800000x1, .i32⟩ : BufTy).Contents (Elt F)),
    binary main_v273 main_v279 main_v280 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_49 (constant S_ .f32 0x00000000#32),
    unary main_cst_49 main_v281 (broadcastInDim S50000x256 ![] bcast_S_S50000x256 : (⟨S_, .f32⟩ : BufTy).Contents (Elt F) → (⟨S50000x256, .f32⟩ : BufTy).Contents (Elt F)),
    unary main_arg2 main_v282 (broadcastInDim S800000x1 ![0] bcast_S800000_S800000x1_0 : (⟨S800000, .i32⟩ : BufTy).Contents (Elt F) → (⟨S800000x1, .i32⟩ : BufTy).Contents (Elt F)),
    ternary main_v281 main_v282 main_v280 main_v283 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v8 main_v284 (broadcastInDim S50000x256 ![0, 1] bcast_S50000x1_S50000x256_0_1 : (⟨S50000x1, .f32⟩ : BufTy).Contents (Elt F) → (⟨S50000x256, .f32⟩ : BufTy).Contents (Elt F)),
    binary main_v283 main_v284 main_v285 (mulf : (⟨S50000x256, .f32⟩ : BufTy).Contents (Elt F) → (⟨S50000x256, .f32⟩ : BufTy).Contents (Elt F) → (⟨S50000x256, .f32⟩ : BufTy).Contents (Elt F)),
    binary main_v285 main_arg13 main_v286 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg14 main_v287 (broadcastInDim S1x64 ![1] bcast_S64_S1x64_1 : (⟨S64, .f32⟩ : BufTy).Contents (Elt F) → (⟨S1x64, .f32⟩ : BufTy).Contents (Elt F)),
    unary main_v287 main_v288 (broadcastInDim S50000x64 ![0, 1] bcast_S1x64_S50000x64_0_1 : (⟨S1x64, .f32⟩ : BufTy).Contents (Elt F) → (⟨S50000x64, .f32⟩ : BufTy).Contents (Elt F)),
    binary main_v286 main_v288 main_v289 (addf : (⟨S50000x64, .f32⟩ : BufTy).Contents (Elt F) → (⟨S50000x64, .f32⟩ : BufTy).Contents (Elt F) → (⟨S50000x64, .f32⟩ : BufTy).Contents (Elt F)),
    binary main_v273 main_arg15 main_v290 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    binary main_v289 main_v290 main_v291 (addf : (⟨S50000x64, .f32⟩ : BufTy).Contents (Elt F) → (⟨S50000x64, .f32⟩ : BufTy).Contents (Elt F) → (⟨S50000x64, .f32⟩ : BufTy).Contents (Elt F)),
    unary main_v291 main_v292 (Host.negf : (⟨S50000x64, .f32⟩ : BufTy).Contents (Elt F) → (⟨S50000x64, .f32⟩ : BufTy).Contents (Elt F)),
    unary main_v292 main_v293 (Host.exp : (⟨S50000x64, .f32⟩ : BufTy).Contents (Elt F) → (⟨S50000x64, .f32⟩ : BufTy).Contents (Elt F)),
    nullary main_cst_50 (constant S_ .f32 0x3F800000#32),
    unary main_cst_50 main_v294 (broadcastInDim S50000x64 ![] bcast_S_S50000x64 : (⟨S_, .f32⟩ : BufTy).Contents (Elt F) → (⟨S50000x64, .f32⟩ : BufTy).Contents (Elt F)),
    binary main_v294 main_v293 main_v295 (addf : (⟨S50000x64, .f32⟩ : BufTy).Contents (Elt F) → (⟨S50000x64, .f32⟩ : BufTy).Contents (Elt F) → (⟨S50000x64, .f32⟩ : BufTy).Contents (Elt F)),
    nullary main_cst_51 (constant S_ .f32 0x3F800000#32),
    unary main_cst_51 main_v296 (broadcastInDim S50000x64 ![] bcast_S_S50000x64 : (⟨S_, .f32⟩ : BufTy).Contents (Elt F) → (⟨S50000x64, .f32⟩ : BufTy).Contents (Elt F)),
    binary main_v296 main_v295 main_v297 (Host.divf : (⟨S50000x64, .f32⟩ : BufTy).Contents (Elt F) → (⟨S50000x64, .f32⟩ : BufTy).Contents (Elt F) → (⟨S50000x64, .f32⟩ : BufTy).Contents (Elt F)),
    unary main_arg16 main_v298 ((extractStridedSlice S1x64x12 ![1, 0, 0] · slices_S2x64x12_S1x64x12_1_0_0) : (⟨S2x64x12, .f32⟩ : BufTy).Contents (Elt F) → (⟨S1x64x12, .f32⟩ : BufTy).Contents (Elt F)),
    reshape main_v298 main_v299 rfl shapeCasts_S1x64x12_S64x12,
    unary main_arg17 main_v300 ((extractStridedSlice S1x12 ![1, 0] · slices_S2x12_S1x12_1_0) : (⟨S2x12, .f32⟩ : BufTy).Contents (Elt F) → (⟨S1x12, .f32⟩ : BufTy).Contents (Elt F)),
    reshape main_v300 main_v301 rfl shapeCasts_S1x12_S12,
    unary main_arg18 main_v302 ((extractStridedSlice S1x64x12 ![1, 0, 0] · slices_S2x64x12_S1x64x12_1_0_0) : (⟨S2x64x12, .f32⟩ : BufTy).Contents (Elt F) → (⟨S1x64x12, .f32⟩ : BufTy).Contents (Elt F)),
    reshape main_v302 main_v303 rfl shapeCasts_S1x64x12_S64x12,
    nullary main_c_52 (constantI S_ 32 0#32),
    unary main_c_52 main_v304 (broadcastInDim S800000 ![] bcast_S_S800000 : (⟨S_, .i32⟩ : BufTy).Contents (Elt F) → (⟨S800000, .i32⟩ : BufTy).Contents (Elt F)) ]

set_option maxRecDepth 8192 in
set_option maxHeartbeats 4000000 in

theorem p5_eq (c : Dev nD) : main_part5 (F := F) c = seq p5 := by
  simp only [main_part5, fn_relu_0.body, seq, bind_assoc, pure_bind]
  all_goals rfl

end Cert.ReferenceIdeal.Ops

end
-- ==== Proof.RefPart6.lean ====
import proofs.«181152_j39822936769202_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

abbrev p6 : List (HloOp τ sig (Elt F)) :=
  [ binary main_arg1 main_v304 main_v305 (cmpi .slt : (⟨S800000, .i32⟩ : BufTy).Contents (Elt F) → (⟨S800000, .i32⟩ : BufTy).Contents (Elt F) → (⟨S800000, .i1⟩ : BufTy).Contents (Elt F)),
    nullary main_c_53 (constantI S_ 32 50000#32),
    unary main_c_53 main_v306 (broadcastInDim S800000 ![] bcast_S_S800000 : (⟨S_, .i32⟩ : BufTy).Contents (Elt F) → (⟨S800000, .i32⟩ : BufTy).Contents (Elt F)),
    binary main_arg1 main_v306 main_v307 (addi : (⟨S800000, .i32⟩ : BufTy).Contents (Elt F) → (⟨S800000, .i32⟩ : BufTy).Contents (Elt F) → (⟨S800000, .i32⟩ : BufTy).Contents (Elt F)),
    ternary main_v305 main_v307 main_arg1 main_v308 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v308 main_v309 (broadcastInDim S800000x1 ![0] bcast_S800000_S800000x1_0 : (⟨S800000, .i32⟩ : BufTy).Contents (Elt F) → (⟨S800000x1, .i32⟩ : BufTy).Contents (Elt F)),
    binary main_v297 main_v309 main_v310 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_54 (constant S_ .f32 0x00000000#32),
    unary main_cst_54 main_v311 (broadcastInDim S50000x64 ![] bcast_S_S50000x64 : (⟨S_, .f32⟩ : BufTy).Contents (Elt F) → (⟨S50000x64, .f32⟩ : BufTy).Contents (Elt F)),
    unary main_arg2 main_v312 (broadcastInDim S800000x1 ![0] bcast_S800000_S800000x1_0 : (⟨S800000, .i32⟩ : BufTy).Contents (Elt F) → (⟨S800000x1, .i32⟩ : BufTy).Contents (Elt F)),
    ternary main_v311 main_v312 main_v310 main_v313 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v314 (broadcastInDim S50000x64 ![0, 1] bcast_S50000x1_S50000x64_0_1 : (⟨S50000x1, .f32⟩ : BufTy).Contents (Elt F) → (⟨S50000x64, .f32⟩ : BufTy).Contents (Elt F)),
    binary main_v313 main_v314 main_v315 (mulf : (⟨S50000x64, .f32⟩ : BufTy).Contents (Elt F) → (⟨S50000x64, .f32⟩ : BufTy).Contents (Elt F) → (⟨S50000x64, .f32⟩ : BufTy).Contents (Elt F)),
    binary main_v315 main_v299 main_v316 ((fun l r => Host.dotGeneral dot_S50000x64_S64x12_S50000x12_1_0_0_1_n_n none l r) : (⟨S50000x64, .f32⟩ : BufTy).Contents (Elt F) → (⟨S64x12, .f32⟩ : BufTy).Contents (Elt F) → (⟨S50000x12, .f32⟩ : BufTy).Contents (Elt F)),
    unary main_v301 main_v317 (broadcastInDim S1x12 ![1] bcast_S12_S1x12_1 : (⟨S12, .f32⟩ : BufTy).Contents (Elt F) → (⟨S1x12, .f32⟩ : BufTy).Contents (Elt F)),
    unary main_v317 main_v318 (broadcastInDim S50000x12 ![0, 1] bcast_S1x12_S50000x12_0_1 : (⟨S1x12, .f32⟩ : BufTy).Contents (Elt F) → (⟨S50000x12, .f32⟩ : BufTy).Contents (Elt F)),
    binary main_v316 main_v318 main_v319 (addf : (⟨S50000x12, .f32⟩ : BufTy).Contents (Elt F) → (⟨S50000x12, .f32⟩ : BufTy).Contents (Elt F) → (⟨S50000x12, .f32⟩ : BufTy).Contents (Elt F)),
    binary main_v297 main_v303 main_v320 ((fun l r => Host.dotGeneral dot_S50000x64_S64x12_S50000x12_1_0_0_1_n_n none l r) : (⟨S50000x64, .f32⟩ : BufTy).Contents (Elt F) → (⟨S64x12, .f32⟩ : BufTy).Contents (Elt F) → (⟨S50000x12, .f32⟩ : BufTy).Contents (Elt F)),
    binary main_v319 main_v320 main_v321 (addf : (⟨S50000x12, .f32⟩ : BufTy).Contents (Elt F) → (⟨S50000x12, .f32⟩ : BufTy).Contents (Elt F) → (⟨S50000x12, .f32⟩ : BufTy).Contents (Elt F)),
    unary main_v321 main_v322 (Host.negf : (⟨S50000x12, .f32⟩ : BufTy).Contents (Elt F) → (⟨S50000x12, .f32⟩ : BufTy).Contents (Elt F)),
    unary main_v322 main_v323 (Host.exp : (⟨S50000x12, .f32⟩ : BufTy).Contents (Elt F) → (⟨S50000x12, .f32⟩ : BufTy).Contents (Elt F)),
    nullary main_cst_55 (constant S_ .f32 0x3F800000#32),
    unary main_cst_55 main_v324 (broadcastInDim S50000x12 ![] bcast_S_S50000x12 : (⟨S_, .f32⟩ : BufTy).Contents (Elt F) → (⟨S50000x12, .f32⟩ : BufTy).Contents (Elt F)),
    binary main_v324 main_v323 main_v325 (addf : (⟨S50000x12, .f32⟩ : BufTy).Contents (Elt F) → (⟨S50000x12, .f32⟩ : BufTy).Contents (Elt F) → (⟨S50000x12, .f32⟩ : BufTy).Contents (Elt F)),
    nullary main_cst_56 (constant S_ .f32 0x3F800000#32),
    unary main_cst_56 main_v326 (broadcastInDim S50000x12 ![] bcast_S_S50000x12 : (⟨S_, .f32⟩ : BufTy).Contents (Elt F) → (⟨S50000x12, .f32⟩ : BufTy).Contents (Elt F)),
    binary main_v326 main_v325 main_v327 (Host.divf : (⟨S50000x12, .f32⟩ : BufTy).Contents (Elt F) → (⟨S50000x12, .f32⟩ : BufTy).Contents (Elt F) → (⟨S50000x12, .f32⟩ : BufTy).Contents (Elt F)),
    unary main_arg19 main_v328 ((extractStridedSlice S1x64x8 ![1, 0, 0] · slices_S2x64x8_S1x64x8_1_0_0) : (⟨S2x64x8, .f32⟩ : BufTy).Contents (Elt F) → (⟨S1x64x8, .f32⟩ : BufTy).Contents (Elt F)),
    reshape main_v328 main_v329 rfl shapeCasts_S1x64x8_S64x8,
    unary main_arg20 main_v330 ((extractStridedSlice S1x8 ![1, 0] · slices_S2x8_S1x8_1_0) : (⟨S2x8, .f32⟩ : BufTy).Contents (Elt F) → (⟨S1x8, .f32⟩ : BufTy).Contents (Elt F)),
    reshape main_v330 main_v331 rfl shapeCasts_S1x8_S8,
    unary main_arg21 main_v332 ((extractStridedSlice S1x64x8 ![1, 0, 0] · slices_S2x64x8_S1x64x8_1_0_0) : (⟨S2x64x8, .f32⟩ : BufTy).Contents (Elt F) → (⟨S1x64x8, .f32⟩ : BufTy).Contents (Elt F)),
    reshape main_v332 main_v333 rfl shapeCasts_S1x64x8_S64x8,
    nullary main_c_57 (constantI S_ 32 0#32),
    unary main_c_57 main_v334 (broadcastInDim S800000 ![] bcast_S_S800000 : (⟨S_, .i32⟩ : BufTy).Contents (Elt F) → (⟨S800000, .i32⟩ : BufTy).Contents (Elt F)),
    binary main_arg1 main_v334 main_v335 (cmpi .slt : (⟨S800000, .i32⟩ : BufTy).Contents (Elt F) → (⟨S800000, .i32⟩ : BufTy).Contents (Elt F) → (⟨S800000, .i1⟩ : BufTy).Contents (Elt F)),
    nullary main_c_58 (constantI S_ 32 50000#32),
    unary main_c_58 main_v336 (broadcastInDim S800000 ![] bcast_S_S800000 : (⟨S_, .i32⟩ : BufTy).Contents (Elt F) → (⟨S800000, .i32⟩ : BufTy).Contents (Elt F)),
    binary main_arg1 main_v336 main_v337 (addi : (⟨S800000, .i32⟩ : BufTy).Contents (Elt F) → (⟨S800000, .i32⟩ : BufTy).Contents (Elt F) → (⟨S800000, .i32⟩ : BufTy).Contents (Elt F)),
    ternary main_v335 main_v337 main_arg1 main_v338 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v338 main_v339 (broadcastInDim S800000x1 ![0] bcast_S800000_S800000x1_0 : (⟨S800000, .i32⟩ : BufTy).Contents (Elt F) → (⟨S800000x1, .i32⟩ : BufTy).Contents (Elt F)),
    binary main_v297 main_v339 main_v340 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_59 (constant S_ .f32 0x00000000#32),
    unary main_cst_59 main_v341 (broadcastInDim S50000x64 ![] bcast_S_S50000x64 : (⟨S_, .f32⟩ : BufTy).Contents (Elt F) → (⟨S50000x64, .f32⟩ : BufTy).Contents (Elt F)),
    unary main_arg2 main_v342 (broadcastInDim S800000x1 ![0] bcast_S800000_S800000x1_0 : (⟨S800000, .i32⟩ : BufTy).Contents (Elt F) → (⟨S800000x1, .i32⟩ : BufTy).Contents (Elt F)),
    ternary main_v341 main_v342 main_v340 main_v343 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v344 (broadcastInDim S50000x64 ![0, 1] bcast_S50000x1_S50000x64_0_1 : (⟨S50000x1, .f32⟩ : BufTy).Contents (Elt F) → (⟨S50000x64, .f32⟩ : BufTy).Contents (Elt F)),
    binary main_v343 main_v344 main_v345 (mulf : (⟨S50000x64, .f32⟩ : BufTy).Contents (Elt F) → (⟨S50000x64, .f32⟩ : BufTy).Contents (Elt F) → (⟨S50000x64, .f32⟩ : BufTy).Contents (Elt F)),
    binary main_v345 main_v329 main_v346 ((fun l r => Host.dotGeneral dot_S50000x64_S64x8_S50000x8_1_0_0_1_n_n none l r) : (⟨S50000x64, .f32⟩ : BufTy).Contents (Elt F) → (⟨S64x8, .f32⟩ : BufTy).Contents (Elt F) → (⟨S50000x8, .f32⟩ : BufTy).Contents (Elt F)),
    unary main_v331 main_v347 (broadcastInDim S1x8 ![1] bcast_S8_S1x8_1 : (⟨S8, .f32⟩ : BufTy).Contents (Elt F) → (⟨S1x8, .f32⟩ : BufTy).Contents (Elt F)),
    unary main_v347 main_v348 (broadcastInDim S50000x8 ![0, 1] bcast_S1x8_S50000x8_0_1 : (⟨S1x8, .f32⟩ : BufTy).Contents (Elt F) → (⟨S50000x8, .f32⟩ : BufTy).Contents (Elt F)),
    binary main_v346 main_v348 main_v349 (addf : (⟨S50000x8, .f32⟩ : BufTy).Contents (Elt F) → (⟨S50000x8, .f32⟩ : BufTy).Contents (Elt F) → (⟨S50000x8, .f32⟩ : BufTy).Contents (Elt F)),
    binary main_v297 main_v333 main_v350 ((fun l r => Host.dotGeneral dot_S50000x64_S64x8_S50000x8_1_0_0_1_n_n none l r) : (⟨S50000x64, .f32⟩ : BufTy).Contents (Elt F) → (⟨S64x8, .f32⟩ : BufTy).Contents (Elt F) → (⟨S50000x8, .f32⟩ : BufTy).Contents (Elt F)),
    binary main_v349 main_v350 main_v351 (addf : (⟨S50000x8, .f32⟩ : BufTy).Contents (Elt F) → (⟨S50000x8, .f32⟩ : BufTy).Contents (Elt F) → (⟨S50000x8, .f32⟩ : BufTy).Contents (Elt F)),
    unary main_v351 main_v352 (Host.negf : (⟨S50000x8, .f32⟩ : BufTy).Contents (Elt F) → (⟨S50000x8, .f32⟩ : BufTy).Contents (Elt F)),
    unary main_v352 main_v353 (Host.exp : (⟨S50000x8, .f32⟩ : BufTy).Contents (Elt F) → (⟨S50000x8, .f32⟩ : BufTy).Contents (Elt F)),
    nullary main_cst_60 (constant S_ .f32 0x3F800000#32),
    unary main_cst_60 main_v354 (broadcastInDim S50000x8 ![] bcast_S_S50000x8 : (⟨S_, .f32⟩ : BufTy).Contents (Elt F) → (⟨S50000x8, .f32⟩ : BufTy).Contents (Elt F)),
    binary main_v354 main_v353 main_v355 (addf : (⟨S50000x8, .f32⟩ : BufTy).Contents (Elt F) → (⟨S50000x8, .f32⟩ : BufTy).Contents (Elt F) → (⟨S50000x8, .f32⟩ : BufTy).Contents (Elt F)),
    nullary main_cst_61 (constant S_ .f32 0x3F800000#32) ]

set_option maxRecDepth 8192 in
set_option maxHeartbeats 4000000 in

theorem p6_eq (c : Dev nD) : main_part6 (F := F) c = seq p6 := rfl

end Cert.ReferenceIdeal.Ops

end
-- ==== Proof.RefPart7.lean ====
import proofs.«181152_j39822936769202_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

abbrev p7 : List (HloOp τ sig (Elt F)) :=
  [
    unary main_cst_61 main_v356 (broadcastInDim S50000x8 ![] bcast_S_S50000x8 : (⟨S_, .f32⟩ : BufTy).Contents (Elt F) → (⟨S50000x8, .f32⟩ : BufTy).Contents (Elt F)),
    binary main_v356 main_v355 main_v357 (Host.divf : (⟨S50000x8, .f32⟩ : BufTy).Contents (Elt F) → (⟨S50000x8, .f32⟩ : BufTy).Contents (Elt F) → (⟨S50000x8, .f32⟩ : BufTy).Contents (Elt F)),
    unary main_arg22 main_v358 ((extractStridedSlice S1x64x5 ![1, 0, 0] · slices_S2x64x5_S1x64x5_1_0_0) : (⟨S2x64x5, .f32⟩ : BufTy).Contents (Elt F) → (⟨S1x64x5, .f32⟩ : BufTy).Contents (Elt F)),
    reshape main_v358 main_v359 rfl shapeCasts_S1x64x5_S64x5,
    unary main_arg23 main_v360 ((extractStridedSlice S1x5 ![1, 0] · slices_S2x5_S1x5_1_0) : (⟨S2x5, .f32⟩ : BufTy).Contents (Elt F) → (⟨S1x5, .f32⟩ : BufTy).Contents (Elt F)),
    reshape main_v360 main_v361 rfl shapeCasts_S1x5_S5,
    unary main_arg24 main_v362 ((extractStridedSlice S1x64x5 ![1, 0, 0] · slices_S2x64x5_S1x64x5_1_0_0) : (⟨S2x64x5, .f32⟩ : BufTy).Contents (Elt F) → (⟨S1x64x5, .f32⟩ : BufTy).Contents (Elt F)),
    reshape main_v362 main_v363 rfl shapeCasts_S1x64x5_S64x5,
    nullary main_c_62 (constantI S_ 32 0#32),
    unary main_c_62 main_v364 (broadcastInDim S800000 ![] bcast_S_S800000 : (⟨S_, .i32⟩ : BufTy).Contents (Elt F) → (⟨S800000, .i32⟩ : BufTy).Contents (Elt F)),
    binary main_arg1 main_v364 main_v365 (cmpi .slt : (⟨S800000, .i32⟩ : BufTy).Contents (Elt F) → (⟨S800000, .i32⟩ : BufTy).Contents (Elt F) → (⟨S800000, .i1⟩ : BufTy).Contents (Elt F)),
    nullary main_c_63 (constantI S_ 32 50000#32),
    unary main_c_63 main_v366 (broadcastInDim S800000 ![] bcast_S_S800000 : (⟨S_, .i32⟩ : BufTy).Contents (Elt F) → (⟨S800000, .i32⟩ : BufTy).Contents (Elt F)),
    binary main_arg1 main_v366 main_v367 (addi : (⟨S800000, .i32⟩ : BufTy).Contents (Elt F) → (⟨S800000, .i32⟩ : BufTy).Contents (Elt F) → (⟨S800000, .i32⟩ : BufTy).Contents (Elt F)),
    ternary main_v365 main_v367 main_arg1 main_v368 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v368 main_v369 (broadcastInDim S800000x1 ![0] bcast_S800000_S800000x1_0 : (⟨S800000, .i32⟩ : BufTy).Contents (Elt F) → (⟨S800000x1, .i32⟩ : BufTy).Contents (Elt F)),
    binary main_v297 main_v369 main_v370 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_64 (constant S_ .f32 0x00000000#32),
    unary main_cst_64 main_v371 (broadcastInDim S50000x64 ![] bcast_S_S50000x64 : (⟨S_, .f32⟩ : BufTy).Contents (Elt F) → (⟨S50000x64, .f32⟩ : BufTy).Contents (Elt F)),
    unary main_arg2 main_v372 (broadcastInDim S800000x1 ![0] bcast_S800000_S800000x1_0 : (⟨S800000, .i32⟩ : BufTy).Contents (Elt F) → (⟨S800000x1, .i32⟩ : BufTy).Contents (Elt F)),
    ternary main_v371 main_v372 main_v370 main_v373 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v374 (broadcastInDim S50000x64 ![0, 1] bcast_S50000x1_S50000x64_0_1 : (⟨S50000x1, .f32⟩ : BufTy).Contents (Elt F) → (⟨S50000x64, .f32⟩ : BufTy).Contents (Elt F)),
    binary main_v373 main_v374 main_v375 (mulf : (⟨S50000x64, .f32⟩ : BufTy).Contents (Elt F) → (⟨S50000x64, .f32⟩ : BufTy).Contents (Elt F) → (⟨S50000x64, .f32⟩ : BufTy).Contents (Elt F)),
    binary main_v375 main_v359 main_v376 ((fun l r => Host.dotGeneral dot_S50000x64_S64x5_S50000x5_1_0_0_1_n_n none l r) : (⟨S50000x64, .f32⟩ : BufTy).Contents (Elt F) → (⟨S64x5, .f32⟩ : BufTy).Contents (Elt F) → (⟨S50000x5, .f32⟩ : BufTy).Contents (Elt F)),
    unary main_v361 main_v377 (broadcastInDim S1x5 ![1] bcast_S5_S1x5_1 : (⟨S5, .f32⟩ : BufTy).Contents (Elt F) → (⟨S1x5, .f32⟩ : BufTy).Contents (Elt F)),
    unary main_v377 main_v378 (broadcastInDim S50000x5 ![0, 1] bcast_S1x5_S50000x5_0_1 : (⟨S1x5, .f32⟩ : BufTy).Contents (Elt F) → (⟨S50000x5, .f32⟩ : BufTy).Contents (Elt F)),
    binary main_v376 main_v378 main_v379 (addf : (⟨S50000x5, .f32⟩ : BufTy).Contents (Elt F) → (⟨S50000x5, .f32⟩ : BufTy).Contents (Elt F) → (⟨S50000x5, .f32⟩ : BufTy).Contents (Elt F)),
    binary main_v297 main_v363 main_v380 ((fun l r => Host.dotGeneral dot_S50000x64_S64x5_S50000x5_1_0_0_1_n_n none l r) : (⟨S50000x64, .f32⟩ : BufTy).Contents (Elt F) → (⟨S64x5, .f32⟩ : BufTy).Contents (Elt F) → (⟨S50000x5, .f32⟩ : BufTy).Contents (Elt F)),
    binary main_v379 main_v380 main_v381 (addf : (⟨S50000x5, .f32⟩ : BufTy).Contents (Elt F) → (⟨S50000x5, .f32⟩ : BufTy).Contents (Elt F) → (⟨S50000x5, .f32⟩ : BufTy).Contents (Elt F)),
    unary main_v381 main_v382 (Host.negf : (⟨S50000x5, .f32⟩ : BufTy).Contents (Elt F) → (⟨S50000x5, .f32⟩ : BufTy).Contents (Elt F)),
    unary main_v382 main_v383 (Host.exp : (⟨S50000x5, .f32⟩ : BufTy).Contents (Elt F) → (⟨S50000x5, .f32⟩ : BufTy).Contents (Elt F)),
    nullary main_cst_65 (constant S_ .f32 0x3F800000#32),
    unary main_cst_65 main_v384 (broadcastInDim S50000x5 ![] bcast_S_S50000x5 : (⟨S_, .f32⟩ : BufTy).Contents (Elt F) → (⟨S50000x5, .f32⟩ : BufTy).Contents (Elt F)),
    binary main_v384 main_v383 main_v385 (addf : (⟨S50000x5, .f32⟩ : BufTy).Contents (Elt F) → (⟨S50000x5, .f32⟩ : BufTy).Contents (Elt F) → (⟨S50000x5, .f32⟩ : BufTy).Contents (Elt F)),
    nullary main_cst_66 (constant S_ .f32 0x3F800000#32),
    unary main_cst_66 main_v386 (broadcastInDim S50000x5 ![] bcast_S_S50000x5 : (⟨S_, .f32⟩ : BufTy).Contents (Elt F) → (⟨S50000x5, .f32⟩ : BufTy).Contents (Elt F)),
    binary main_v386 main_v385 main_v387 (Host.divf : (⟨S50000x5, .f32⟩ : BufTy).Contents (Elt F) → (⟨S50000x5, .f32⟩ : BufTy).Contents (Elt F) → (⟨S50000x5, .f32⟩ : BufTy).Contents (Elt F)),
    unary main_arg3 main_v388 ((extractStridedSlice S1x50000x1 ![1, 0, 0] · slices_S2x50000x3_S1x50000x1_1_0_0) : (⟨S2x50000x3, .i32⟩ : BufTy).Contents (Elt F) → (⟨S1x50000x1, .i32⟩ : BufTy).Contents (Elt F)),
    reshape main_v388 main_v389 rfl shapeCasts_S1x50000x1_S50000,
    TRef.nullary (TRef.of (T := ⟨S_, .f32⟩) main_call12_cst) (constant S_ .f32 0xFF800000#32),
    TRef.binary (TRef.of (T := ⟨S50000x12, .f32⟩) main_v327) (TRef.of (T := ⟨S_, .f32⟩) main_call12_cst) (TRef.of (T := ⟨S50000, .f32⟩) main_call12_v0) (fun x v => Host.reduce FloatOps.maximumf x v reducesTo_S50000x12_S50000_d1 h_S_),
    TRef.nullary (TRef.of (T := ⟨S_, .f32⟩) main_call12_cst_0) (constant S_ .f32 0xFF800000#32),
    TRef.unary (TRef.of (T := ⟨S_, .f32⟩) main_call12_cst_0) (TRef.of (T := ⟨S50000, .f32⟩) main_call12_v1) (broadcastInDim S50000 ![] bcast_S_S50000),
    TRef.binary (TRef.of (T := ⟨S50000, .f32⟩) main_call12_v1) (TRef.of (T := ⟨S50000, .f32⟩) main_call12_v0) (TRef.of (T := ⟨S50000, .f32⟩) main_call12_v2) maximumf,
    TRef.unary (TRef.of (T := ⟨S50000, .f32⟩) main_call12_v2) (TRef.of (T := ⟨S50000x1, .f32⟩) main_call12_v3) (broadcastInDim S50000x1 ![0] bcast_S50000_S50000x1_0),
    TRef.unary (TRef.of (T := ⟨S50000x1, .f32⟩) main_call12_v3) (TRef.of (T := ⟨S50000x12, .f32⟩) main_call12_v4) (broadcastInDim S50000x12 ![0, 1] bcast_S50000x1_S50000x12_0_1),
    TRef.binary (TRef.of (T := ⟨S50000x12, .f32⟩) main_v327) (TRef.of (T := ⟨S50000x12, .f32⟩) main_call12_v4) (TRef.of (T := ⟨S50000x12, .f32⟩) main_call12_v5) subf,
    TRef.unary (TRef.of (T := ⟨S50000x12, .f32⟩) main_call12_v5) (TRef.of (T := ⟨S50000x12, .f32⟩) main_call12_v6) Host.exp,
    TRef.nullary (TRef.of (T := ⟨S_, .f32⟩) main_call12_cst_1) (constant S_ .f32 0x00000000#32),
    TRef.binary (TRef.of (T := ⟨S50000x12, .f32⟩) main_call12_v6) (TRef.of (T := ⟨S_, .f32⟩) main_call12_cst_1) (TRef.of (T := ⟨S50000, .f32⟩) main_call12_v7) (fun x v => Host.reduceAdd x v reducesTo_S50000x12_S50000_d1 h_S_),
    TRef.unary (TRef.of (T := ⟨S50000, .f32⟩) main_call12_v7) (TRef.of (T := ⟨S50000x1, .f32⟩) main_call12_v8) (broadcastInDim S50000x1 ![0] bcast_S50000_S50000x1_0),
    TRef.unary (TRef.of (T := ⟨S50000x1, .f32⟩) main_call12_v8) (TRef.of (T := ⟨S50000x1, .f32⟩) main_call12_v9) Host.log,
    TRef.unary (TRef.of (T := ⟨S50000x1, .f32⟩) main_call12_v9) (TRef.of (T := ⟨S50000x12, .f32⟩) main_call12_v10) (broadcastInDim S50000x12 ![0, 1] bcast_S50000x1_S50000x12_0_1),
    TRef.binary (TRef.of (T := ⟨S50000x12, .f32⟩) main_call12_v5) (TRef.of (T := ⟨S50000x12, .f32⟩) main_call12_v10) (TRef.of (T := ⟨S50000x12, .f32⟩) main_v390) subf,
    unary main_v389 main_v391 (broadcastInDim S50000x1 ![0] bcast_S50000_S50000x1_0 : (⟨S50000, .i32⟩ : BufTy).Contents (Elt F) → (⟨S50000x1, .i32⟩ : BufTy).Contents (Elt F)),
    TRef.nullary (TRef.of (T := ⟨S_, .i32⟩) main_call13_c) (constantI S_ 32 0#32),
    TRef.unary (TRef.of (T := ⟨S_, .i32⟩) main_call13_c) (TRef.of (T := ⟨S50000x1, .i32⟩) main_call13_v0) (broadcastInDim S50000x1 ![] bcast_S_S50000x1),
    TRef.binary (TRef.of (T := ⟨S50000x1, .i32⟩) main_v391) (TRef.of (T := ⟨S50000x1, .i32⟩) main_call13_v0) (TRef.of (T := ⟨S50000x1, .i1⟩) main_call13_v1) (cmpi .slt),
    TRef.nullary (TRef.of (T := ⟨S_, .i32⟩) main_call13_c_0) (constantI S_ 32 12#32),
    TRef.unary (TRef.of (T := ⟨S_, .i32⟩) main_call13_c_0) (TRef.of (T := ⟨S50000x1, .i32⟩) main_call13_v2) (broadcastInDim S50000x1 ![] bcast_S_S50000x1),
    TRef.binary (TRef.of (T := ⟨S50000x1, .i32⟩) main_v391) (TRef.of (T := ⟨S50000x1, .i32⟩) main_call13_v2) (TRef.of (T := ⟨S50000x1, .i32⟩) main_call13_v3) addi,
    TRef.ternary (TRef.of (T := ⟨S50000x1, .i1⟩) main_call13_v1) (TRef.of (T := ⟨S50000x1, .i32⟩) main_call13_v3) (TRef.of (T := ⟨S50000x1, .i32⟩) main_v391) (TRef.of (T := ⟨S50000x1, .i32⟩) main_call13_v4) select,
    TRef.reshape (TRef.of (T := ⟨S50000x1, .i32⟩) main_call13_v4) (TRef.of (T := ⟨S50000x1x1, .i32⟩) main_call13_v5) rfl shapeCasts_S50000x1_S50000x1x1,
    TRef.nullary (TRef.of (T := ⟨S1, .i32⟩) main_call13_c_1) (constantI S1 32 11#32),
    TRef.nullary (TRef.of (T := ⟨S_, .i32⟩) main_call13_c_2) (constantI S_ 32 0#32),
    TRef.unary (TRef.of (T := ⟨S_, .i32⟩) main_call13_c_2) (TRef.of (T := ⟨S50000x1x1, .i32⟩) main_call13_v6) (broadcastInDim S50000x1x1 ![] bcast_S_S50000x1x1),
    TRef.binary (TRef.of (T := ⟨S50000x1x1, .i32⟩) main_call13_v5) (TRef.of (T := ⟨S50000x1x1, .i32⟩) main_call13_v6) (TRef.of (T := ⟨S50000x1x1, .i1⟩) main_call13_v7) (cmpi .sge),
    TRef.unary (TRef.of (T := ⟨S1, .i32⟩) main_call13_c_1) (TRef.of (T := ⟨S1x1x1, .i32⟩) main_call13_v8) (broadcastInDim S1x1x1 ![2] bcast_S1_S1x1x1_2),
    TRef.unary (TRef.of (T := ⟨S1x1x1, .i32⟩) main_call13_v8) (TRef.of (T := ⟨S50000x1x1, .i32⟩) main_call13_v9) (broadcastInDim S50000x1x1 ![0, 1, 2] bcast_S1x1x1_S50000x1x1_0_1_2),
    TRef.binary (TRef.of (T := ⟨S50000x1x1, .i32⟩) main_call13_v5) (TRef.of (T := ⟨S50000x1x1, .i32⟩) main_call13_v9) (TRef.of (T := ⟨S50000x1x1, .i1⟩) main_call13_v10) (cmpi .sle),
    TRef.binary (TRef.of (T := ⟨S50000x1x1, .i1⟩) main_call13_v7) (TRef.of (T := ⟨S50000x1x1, .i1⟩) main_call13_v10) (TRef.of (T := ⟨S50000x1x1, .i1⟩) main_call13_v11) andi,
    TRef.nullary (TRef.of (T := ⟨S_, .i1⟩) main_call13_c_3) (constantI S_ 1 1#1),
    TRef.binary (TRef.of (T := ⟨S50000x1x1, .i1⟩) main_call13_v11) (TRef.of (T := ⟨S_, .i1⟩) main_call13_c_3) (TRef.of (T := ⟨S50000x1, .i1⟩) main_call13_v12) (fun x v => Host.reduce IntOp.andi x v reducesTo_S50000x1x1_S50000x1_d2 h_S_),
    TRef.binary (TRef.of (T := ⟨S50000x12, .f32⟩) main_v390) (TRef.of (T := ⟨S50000x1x1, .i32⟩) main_call13_v5) (TRef.of (T := ⟨S50000x1, .f32⟩) main_call13_v13) (fun x i => Host.gather gather_S50000x12_S50000x1x1_S50000x1_n_1_0_0_1_2_11 x i),
    TRef.nullary (TRef.of (T := ⟨S_, .f32⟩) main_call13_cst) (constant S_ .f32 0x7FC00000#32),
    TRef.unary (TRef.of (T := ⟨S_, .f32⟩) main_call13_cst) (TRef.of (T := ⟨S50000x1, .f32⟩) main_call13_v14) (broadcastInDim S50000x1 ![] bcast_S_S50000x1),
    TRef.ternary (TRef.of (T := ⟨S50000x1, .i1⟩) main_call13_v12) (TRef.of (T := ⟨S50000x1, .f32⟩) main_call13_v13) (TRef.of (T := ⟨S50000x1, .f32⟩) main_call13_v14) (TRef.of (T := ⟨S50000x1, .f32⟩) main_v392) select,
    nullary main_cst_67 (constant S_ .f32 0x00000000#32),
    binary main_v392 main_cst_67 main_v393 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    nullary main_cst_68 (constant S_ .f32 0x47435000#32),
    binary main_v393 main_cst_68 main_v394 (Host.divf : (⟨S_, .f32⟩ : BufTy).Contents (Elt F) → (⟨S_, .f32⟩ : BufTy).Contents (Elt F) → (⟨S_, .f32⟩ : BufTy).Contents (Elt F)),
    unary main_v394 main_v395 (Host.negf : (⟨S_, .f32⟩ : BufTy).Contents (Elt F) → (⟨S_, .f32⟩ : BufTy).Contents (Elt F)),
    binary main_v211 main_v395 main_v396 (addf : (⟨S_, .f32⟩ : BufTy).Contents (Elt F) → (⟨S_, .f32⟩ : BufTy).Contents (Elt F) → (⟨S_, .f32⟩ : BufTy).Contents (Elt F)),
    unary main_arg3 main_v397 ((extractStridedSlice S1x50000x1 ![1, 0, 1] · slices_S2x50000x3_S1x50000x1_1_0_1) : (⟨S2x50000x3, .i32⟩ : BufTy).Contents (Elt F) → (⟨S1x50000x1, .i32⟩ : BufTy).Contents (Elt F)),
    reshape main_v397 main_v398 rfl shapeCasts_S1x50000x1_S50000,
    TRef.nullary (TRef.of (T := ⟨S_, .f32⟩) main_call14_cst) (constant S_ .f32 0xFF800000#32),
    TRef.binary (TRef.of (T := ⟨S50000x8, .f32⟩) main_v357) (TRef.of (T := ⟨S_, .f32⟩) main_call14_cst) (TRef.of (T := ⟨S50000, .f32⟩) main_call14_v0) (fun x v => Host.reduce FloatOps.maximumf x v reducesTo_S50000x8_S50000_d1 h_S_),
    TRef.nullary (TRef.of (T := ⟨S_, .f32⟩) main_call14_cst_0) (constant S_ .f32 0xFF800000#32),
    TRef.unary (TRef.of (T := ⟨S_, .f32⟩) main_call14_cst_0) (TRef.of (T := ⟨S50000, .f32⟩) main_call14_v1) (broadcastInDim S50000 ![] bcast_S_S50000),
    TRef.binary (TRef.of (T := ⟨S50000, .f32⟩) main_call14_v1) (TRef.of (T := ⟨S50000, .f32⟩) main_call14_v0) (TRef.of (T := ⟨S50000, .f32⟩) main_call14_v2) maximumf,
    TRef.unary (TRef.of (T := ⟨S50000, .f32⟩) main_call14_v2) (TRef.of (T := ⟨S50000x1, .f32⟩) main_call14_v3) (broadcastInDim S50000x1 ![0] bcast_S50000_S50000x1_0),
    TRef.unary (TRef.of (T := ⟨S50000x1, .f32⟩) main_call14_v3) (TRef.of (T := ⟨S50000x8, .f32⟩) main_call14_v4) (broadcastInDim S50000x8 ![0, 1] bcast_S50000x1_S50000x8_0_1),
    TRef.binary (TRef.of (T := ⟨S50000x8, .f32⟩) main_v357) (TRef.of (T := ⟨S50000x8, .f32⟩) main_call14_v4) (TRef.of (T := ⟨S50000x8, .f32⟩) main_call14_v5) subf,
    TRef.unary (TRef.of (T := ⟨S50000x8, .f32⟩) main_call14_v5) (TRef.of (T := ⟨S50000x8, .f32⟩) main_call14_v6) Host.exp,
    TRef.nullary (TRef.of (T := ⟨S_, .f32⟩) main_call14_cst_1) (constant S_ .f32 0x00000000#32),
    TRef.binary (TRef.of (T := ⟨S50000x8, .f32⟩) main_call14_v6) (TRef.of (T := ⟨S_, .f32⟩) main_call14_cst_1) (TRef.of (T := ⟨S50000, .f32⟩) main_call14_v7) (fun x v => Host.reduceAdd x v reducesTo_S50000x8_S50000_d1 h_S_),
    TRef.unary (TRef.of (T := ⟨S50000, .f32⟩) main_call14_v7) (TRef.of (T := ⟨S50000x1, .f32⟩) main_call14_v8) (broadcastInDim S50000x1 ![0] bcast_S50000_S50000x1_0),
    TRef.unary (TRef.of (T := ⟨S50000x1, .f32⟩) main_call14_v8) (TRef.of (T := ⟨S50000x1, .f32⟩) main_call14_v9) Host.log,
    TRef.unary (TRef.of (T := ⟨S50000x1, .f32⟩) main_call14_v9) (TRef.of (T := ⟨S50000x8, .f32⟩) main_call14_v10) (broadcastInDim S50000x8 ![0, 1] bcast_S50000x1_S50000x8_0_1),
    TRef.binary (TRef.of (T := ⟨S50000x8, .f32⟩) main_call14_v5) (TRef.of (T := ⟨S50000x8, .f32⟩) main_call14_v10) (TRef.of (T := ⟨S50000x8, .f32⟩) main_v399) subf,
    unary main_v398 main_v400 (broadcastInDim S50000x1 ![0] bcast_S50000_S50000x1_0 : (⟨S50000, .i32⟩ : BufTy).Contents (Elt F) → (⟨S50000x1, .i32⟩ : BufTy).Contents (Elt F)),
    TRef.nullary (TRef.of (T := ⟨S_, .i32⟩) main_call15_c) (constantI S_ 32 0#32),
    TRef.unary (TRef.of (T := ⟨S_, .i32⟩) main_call15_c) (TRef.of (T := ⟨S50000x1, .i32⟩) main_call15_v0) (broadcastInDim S50000x1 ![] bcast_S_S50000x1),
    TRef.binary (TRef.of (T := ⟨S50000x1, .i32⟩) main_v400) (TRef.of (T := ⟨S50000x1, .i32⟩) main_call15_v0) (TRef.of (T := ⟨S50000x1, .i1⟩) main_call15_v1) (cmpi .slt),
    TRef.nullary (TRef.of (T := ⟨S_, .i32⟩) main_call15_c_0) (constantI S_ 32 8#32),
    TRef.unary (TRef.of (T := ⟨S_, .i32⟩) main_call15_c_0) (TRef.of (T := ⟨S50000x1, .i32⟩) main_call15_v2) (broadcastInDim S50000x1 ![] bcast_S_S50000x1),
    TRef.binary (TRef.of (T := ⟨S50000x1, .i32⟩) main_v400) (TRef.of (T := ⟨S50000x1, .i32⟩) main_call15_v2) (TRef.of (T := ⟨S50000x1, .i32⟩) main_call15_v3) addi,
    TRef.ternary (TRef.of (T := ⟨S50000x1, .i1⟩) main_call15_v1) (TRef.of (T := ⟨S50000x1, .i32⟩) main_call15_v3) (TRef.of (T := ⟨S50000x1, .i32⟩) main_v400) (TRef.of (T := ⟨S50000x1, .i32⟩) main_call15_v4) select,
    TRef.reshape (TRef.of (T := ⟨S50000x1, .i32⟩) main_call15_v4) (TRef.of (T := ⟨S50000x1x1, .i32⟩) main_call15_v5) rfl shapeCasts_S50000x1_S50000x1x1,
    TRef.nullary (TRef.of (T := ⟨S1, .i32⟩) main_call15_c_1) (constantI S1 32 7#32),
    TRef.nullary (TRef.of (T := ⟨S_, .i32⟩) main_call15_c_2) (constantI S_ 32 0#32),
    TRef.unary (TRef.of (T := ⟨S_, .i32⟩) main_call15_c_2) (TRef.of (T := ⟨S50000x1x1, .i32⟩) main_call15_v6) (broadcastInDim S50000x1x1 ![] bcast_S_S50000x1x1),
    TRef.binary (TRef.of (T := ⟨S50000x1x1, .i32⟩) main_call15_v5) (TRef.of (T := ⟨S50000x1x1, .i32⟩) main_call15_v6) (TRef.of (T := ⟨S50000x1x1, .i1⟩) main_call15_v7) (cmpi .sge),
    TRef.unary (TRef.of (T := ⟨S1, .i32⟩) main_call15_c_1) (TRef.of (T := ⟨S1x1x1, .i32⟩) main_call15_v8) (broadcastInDim S1x1x1 ![2] bcast_S1_S1x1x1_2),
    TRef.unary (TRef.of (T := ⟨S1x1x1, .i32⟩) main_call15_v8) (TRef.of (T := ⟨S50000x1x1, .i32⟩) main_call15_v9) (broadcastInDim S50000x1x1 ![0, 1, 2] bcast_S1x1x1_S50000x1x1_0_1_2),
    TRef.binary (TRef.of (T := ⟨S50000x1x1, .i32⟩) main_call15_v5) (TRef.of (T := ⟨S50000x1x1, .i32⟩) main_call15_v9) (TRef.of (T := ⟨S50000x1x1, .i1⟩) main_call15_v10) (cmpi .sle),
    TRef.binary (TRef.of (T := ⟨S50000x1x1, .i1⟩) main_call15_v7) (TRef.of (T := ⟨S50000x1x1, .i1⟩) main_call15_v10) (TRef.of (T := ⟨S50000x1x1, .i1⟩) main_call15_v11) andi,
    TRef.nullary (TRef.of (T := ⟨S_, .i1⟩) main_call15_c_3) (constantI S_ 1 1#1),
    TRef.binary (TRef.of (T := ⟨S50000x1x1, .i1⟩) main_call15_v11) (TRef.of (T := ⟨S_, .i1⟩) main_call15_c_3) (TRef.of (T := ⟨S50000x1, .i1⟩) main_call15_v12) (fun x v => Host.reduce IntOp.andi x v reducesTo_S50000x1x1_S50000x1_d2 h_S_),
    TRef.binary (TRef.of (T := ⟨S50000x8, .f32⟩) main_v399) (TRef.of (T := ⟨S50000x1x1, .i32⟩) main_call15_v5) (TRef.of (T := ⟨S50000x1, .f32⟩) main_call15_v13) (fun x i => Host.gather gather_S50000x8_S50000x1x1_S50000x1_n_1_0_0_1_2_11 x i),
    TRef.nullary (TRef.of (T := ⟨S_, .f32⟩) main_call15_cst) (constant S_ .f32 0x7FC00000#32),
    TRef.unary (TRef.of (T := ⟨S_, .f32⟩) main_call15_cst) (TRef.of (T := ⟨S50000x1, .f32⟩) main_call15_v14) (broadcastInDim S50000x1 ![] bcast_S_S50000x1),
    TRef.ternary (TRef.of (T := ⟨S50000x1, .i1⟩) main_call15_v12) (TRef.of (T := ⟨S50000x1, .f32⟩) main_call15_v13) (TRef.of (T := ⟨S50000x1, .f32⟩) main_call15_v14) (TRef.of (T := ⟨S50000x1, .f32⟩) main_v401) select,
    nullary main_cst_69 (constant S_ .f32 0x00000000#32),
    binary main_v401 main_cst_69 main_v402 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    nullary main_cst_70 (constant S_ .f32 0x47435000#32),
    binary main_v402 main_cst_70 main_v403 (Host.divf : (⟨S_, .f32⟩ : BufTy).Contents (Elt F) → (⟨S_, .f32⟩ : BufTy).Contents (Elt F) → (⟨S_, .f32⟩ : BufTy).Contents (Elt F)),
    unary main_v403 main_v404 (Host.negf : (⟨S_, .f32⟩ : BufTy).Contents (Elt F) → (⟨S_, .f32⟩ : BufTy).Contents (Elt F)),
    binary main_v396 main_v404 main_v405 (addf : (⟨S_, .f32⟩ : BufTy).Contents (Elt F) → (⟨S_, .f32⟩ : BufTy).Contents (Elt F) → (⟨S_, .f32⟩ : BufTy).Contents (Elt F)),
    unary main_arg3 main_v406 ((extractStridedSlice S1x50000x1 ![1, 0, 2] · slices_S2x50000x3_S1x50000x1_1_0_2) : (⟨S2x50000x3, .i32⟩ : BufTy).Contents (Elt F) → (⟨S1x50000x1, .i32⟩ : BufTy).Contents (Elt F)) ]

set_option maxRecDepth 8192 in
set_option maxHeartbeats 4000000 in

theorem p7_eq (c : Dev nD) : main_part7 (F := F) c = seq p7 := by
  simp only [main_part7, fn_log_softmax.body, fn_take_along_axis.body, fn_log_softmax_1.body, fn_take_along_axis_2.body, seq, bind_assoc, pure_bind]
  all_goals rfl

end Cert.ReferenceIdeal.Ops

end
-- ==== Proof.RefPart8.lean ====
import proofs.«181152_j39822936769202_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

abbrev p8 : List (HloOp τ sig (Elt F)) :=
  [
    reshape main_v406 main_v407 rfl shapeCasts_S1x50000x1_S50000,
    TRef.nullary (TRef.of (T := ⟨S_, .f32⟩) main_call16_cst) (constant S_ .f32 0xFF800000#32),
    TRef.binary (TRef.of (T := ⟨S50000x5, .f32⟩) main_v387) (TRef.of (T := ⟨S_, .f32⟩) main_call16_cst) (TRef.of (T := ⟨S50000, .f32⟩) main_call16_v0) (fun x v => Host.reduce FloatOps.maximumf x v reducesTo_S50000x5_S50000_d1 h_S_),
    TRef.nullary (TRef.of (T := ⟨S_, .f32⟩) main_call16_cst_0) (constant S_ .f32 0xFF800000#32),
    TRef.unary (TRef.of (T := ⟨S_, .f32⟩) main_call16_cst_0) (TRef.of (T := ⟨S50000, .f32⟩) main_call16_v1) (broadcastInDim S50000 ![] bcast_S_S50000),
    TRef.binary (TRef.of (T := ⟨S50000, .f32⟩) main_call16_v1) (TRef.of (T := ⟨S50000, .f32⟩) main_call16_v0) (TRef.of (T := ⟨S50000, .f32⟩) main_call16_v2) maximumf,
    TRef.unary (TRef.of (T := ⟨S50000, .f32⟩) main_call16_v2) (TRef.of (T := ⟨S50000x1, .f32⟩) main_call16_v3) (broadcastInDim S50000x1 ![0] bcast_S50000_S50000x1_0),
    TRef.unary (TRef.of (T := ⟨S50000x1, .f32⟩) main_call16_v3) (TRef.of (T := ⟨S50000x5, .f32⟩) main_call16_v4) (broadcastInDim S50000x5 ![0, 1] bcast_S50000x1_S50000x5_0_1),
    TRef.binary (TRef.of (T := ⟨S50000x5, .f32⟩) main_v387) (TRef.of (T := ⟨S50000x5, .f32⟩) main_call16_v4) (TRef.of (T := ⟨S50000x5, .f32⟩) main_call16_v5) subf,
    TRef.unary (TRef.of (T := ⟨S50000x5, .f32⟩) main_call16_v5) (TRef.of (T := ⟨S50000x5, .f32⟩) main_call16_v6) Host.exp,
    TRef.nullary (TRef.of (T := ⟨S_, .f32⟩) main_call16_cst_1) (constant S_ .f32 0x00000000#32),
    TRef.binary (TRef.of (T := ⟨S50000x5, .f32⟩) main_call16_v6) (TRef.of (T := ⟨S_, .f32⟩) main_call16_cst_1) (TRef.of (T := ⟨S50000, .f32⟩) main_call16_v7) (fun x v => Host.reduceAdd x v reducesTo_S50000x5_S50000_d1 h_S_),
    TRef.unary (TRef.of (T := ⟨S50000, .f32⟩) main_call16_v7) (TRef.of (T := ⟨S50000x1, .f32⟩) main_call16_v8) (broadcastInDim S50000x1 ![0] bcast_S50000_S50000x1_0),
    TRef.unary (TRef.of (T := ⟨S50000x1, .f32⟩) main_call16_v8) (TRef.of (T := ⟨S50000x1, .f32⟩) main_call16_v9) Host.log,
    TRef.unary (TRef.of (T := ⟨S50000x1, .f32⟩) main_call16_v9) (TRef.of (T := ⟨S50000x5, .f32⟩) main_call16_v10) (broadcastInDim S50000x5 ![0, 1] bcast_S50000x1_S50000x5_0_1),
    TRef.binary (TRef.of (T := ⟨S50000x5, .f32⟩) main_call16_v5) (TRef.of (T := ⟨S50000x5, .f32⟩) main_call16_v10) (TRef.of (T := ⟨S50000x5, .f32⟩) main_v408) subf,
    unary main_v407 main_v409 (broadcastInDim S50000x1 ![0] bcast_S50000_S50000x1_0 : (⟨S50000, .i32⟩ : BufTy).Contents (Elt F) → (⟨S50000x1, .i32⟩ : BufTy).Contents (Elt F)),
    TRef.nullary (TRef.of (T := ⟨S_, .i32⟩) main_call17_c) (constantI S_ 32 0#32),
    TRef.unary (TRef.of (T := ⟨S_, .i32⟩) main_call17_c) (TRef.of (T := ⟨S50000x1, .i32⟩) main_call17_v0) (broadcastInDim S50000x1 ![] bcast_S_S50000x1),
    TRef.binary (TRef.of (T := ⟨S50000x1, .i32⟩) main_v409) (TRef.of (T := ⟨S50000x1, .i32⟩) main_call17_v0) (TRef.of (T := ⟨S50000x1, .i1⟩) main_call17_v1) (cmpi .slt),
    TRef.nullary (TRef.of (T := ⟨S_, .i32⟩) main_call17_c_0) (constantI S_ 32 5#32),
    TRef.unary (TRef.of (T := ⟨S_, .i32⟩) main_call17_c_0) (TRef.of (T := ⟨S50000x1, .i32⟩) main_call17_v2) (broadcastInDim S50000x1 ![] bcast_S_S50000x1),
    TRef.binary (TRef.of (T := ⟨S50000x1, .i32⟩) main_v409) (TRef.of (T := ⟨S50000x1, .i32⟩) main_call17_v2) (TRef.of (T := ⟨S50000x1, .i32⟩) main_call17_v3) addi,
    TRef.ternary (TRef.of (T := ⟨S50000x1, .i1⟩) main_call17_v1) (TRef.of (T := ⟨S50000x1, .i32⟩) main_call17_v3) (TRef.of (T := ⟨S50000x1, .i32⟩) main_v409) (TRef.of (T := ⟨S50000x1, .i32⟩) main_call17_v4) select,
    TRef.reshape (TRef.of (T := ⟨S50000x1, .i32⟩) main_call17_v4) (TRef.of (T := ⟨S50000x1x1, .i32⟩) main_call17_v5) rfl shapeCasts_S50000x1_S50000x1x1,
    TRef.nullary (TRef.of (T := ⟨S1, .i32⟩) main_call17_c_1) (constantI S1 32 4#32),
    TRef.nullary (TRef.of (T := ⟨S_, .i32⟩) main_call17_c_2) (constantI S_ 32 0#32),
    TRef.unary (TRef.of (T := ⟨S_, .i32⟩) main_call17_c_2) (TRef.of (T := ⟨S50000x1x1, .i32⟩) main_call17_v6) (broadcastInDim S50000x1x1 ![] bcast_S_S50000x1x1),
    TRef.binary (TRef.of (T := ⟨S50000x1x1, .i32⟩) main_call17_v5) (TRef.of (T := ⟨S50000x1x1, .i32⟩) main_call17_v6) (TRef.of (T := ⟨S50000x1x1, .i1⟩) main_call17_v7) (cmpi .sge),
    TRef.unary (TRef.of (T := ⟨S1, .i32⟩) main_call17_c_1) (TRef.of (T := ⟨S1x1x1, .i32⟩) main_call17_v8) (broadcastInDim S1x1x1 ![2] bcast_S1_S1x1x1_2),
    TRef.unary (TRef.of (T := ⟨S1x1x1, .i32⟩) main_call17_v8) (TRef.of (T := ⟨S50000x1x1, .i32⟩) main_call17_v9) (broadcastInDim S50000x1x1 ![0, 1, 2] bcast_S1x1x1_S50000x1x1_0_1_2),
    TRef.binary (TRef.of (T := ⟨S50000x1x1, .i32⟩) main_call17_v5) (TRef.of (T := ⟨S50000x1x1, .i32⟩) main_call17_v9) (TRef.of (T := ⟨S50000x1x1, .i1⟩) main_call17_v10) (cmpi .sle),
    TRef.binary (TRef.of (T := ⟨S50000x1x1, .i1⟩) main_call17_v7) (TRef.of (T := ⟨S50000x1x1, .i1⟩) main_call17_v10) (TRef.of (T := ⟨S50000x1x1, .i1⟩) main_call17_v11) andi,
    TRef.nullary (TRef.of (T := ⟨S_, .i1⟩) main_call17_c_3) (constantI S_ 1 1#1),
    TRef.binary (TRef.of (T := ⟨S50000x1x1, .i1⟩) main_call17_v11) (TRef.of (T := ⟨S_, .i1⟩) main_call17_c_3) (TRef.of (T := ⟨S50000x1, .i1⟩) main_call17_v12) (fun x v => Host.reduce IntOp.andi x v reducesTo_S50000x1x1_S50000x1_d2 h_S_),
    TRef.binary (TRef.of (T := ⟨S50000x5, .f32⟩) main_v408) (TRef.of (T := ⟨S50000x1x1, .i32⟩) main_call17_v5) (TRef.of (T := ⟨S50000x1, .f32⟩) main_call17_v13) (fun x i => Host.gather gather_S50000x5_S50000x1x1_S50000x1_n_1_0_0_1_2_11 x i),
    TRef.nullary (TRef.of (T := ⟨S_, .f32⟩) main_call17_cst) (constant S_ .f32 0x7FC00000#32),
    TRef.unary (TRef.of (T := ⟨S_, .f32⟩) main_call17_cst) (TRef.of (T := ⟨S50000x1, .f32⟩) main_call17_v14) (broadcastInDim S50000x1 ![] bcast_S_S50000x1),
    TRef.ternary (TRef.of (T := ⟨S50000x1, .i1⟩) main_call17_v12) (TRef.of (T := ⟨S50000x1, .f32⟩) main_call17_v13) (TRef.of (T := ⟨S50000x1, .f32⟩) main_call17_v14) (TRef.of (T := ⟨S50000x1, .f32⟩) main_v410) select,
    nullary main_cst_71 (constant S_ .f32 0x00000000#32),
    binary main_v410 main_cst_71 main_v411 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    nullary main_cst_72 (constant S_ .f32 0x47435000#32),
    binary main_v411 main_cst_72 main_v412 (Host.divf : (⟨S_, .f32⟩ : BufTy).Contents (Elt F) → (⟨S_, .f32⟩ : BufTy).Contents (Elt F) → (⟨S_, .f32⟩ : BufTy).Contents (Elt F)),
    unary main_v412 main_v413 (Host.negf : (⟨S_, .f32⟩ : BufTy).Contents (Elt F) → (⟨S_, .f32⟩ : BufTy).Contents (Elt F)),
    binary main_v405 main_v413 main_v414 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in

theorem p8_eq (c : Dev nD) : main_part8 (F := F) c = seq p8 := by
  simp only [main_part8, fn_log_softmax_3.body, fn_take_along_axis_4.body, seq, bind_assoc, pure_bind]
  all_goals rfl

end Cert.ReferenceIdeal.Ops

end
-- ==== Proof.RefJoin.lean ====
/- Nine lists of operations run in turn are the run of the nine lists joined; a property of each entry of each list is
   one of each entry of the join. -/
import proofs.«181152_j39822936769202_1_alg».proof.Proof.Gen.ReferenceIdeal
import Idealize.ShloMosaic.Lib.StableHlo.Run
import Idealize.ShloMosaic.Lib.Pipeline.Frame
import Mathlib.Data.List.Basic

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

theorem seq_cat {Λ : Labels} (l₁ l₂ : List (HloOp τ sig (Elt F))) (P Q : Prog (TpuEff nD τ sig (Elt F) Λ .tc) PUnit)
    (hP : P = seq l₁) (hQ : Q = seq l₂) : (P >>= fun _ => Q) = seq (l₁ ++ l₂) := by
  subst hP hQ
  exact (seq_append _ _).symm

theorem main_eq_of (c : Dev nD) (q0 q1 q2 q3 q4 q5 q6 q7 q8 : List (HloOp τ sig (Elt F)))
    (h0 : main_part0 (F := F) c = seq q0) (h1 : main_part1 (F := F) c = seq q1) (h2 : main_part2 (F := F) c = seq q2)
    (h3 : main_part3 (F := F) c = seq q3) (h4 : main_part4 (F := F) c = seq q4) (h5 : main_part5 (F := F) c = seq q5)
    (h6 : main_part6 (F := F) c = seq q6) (h7 : main_part7 (F := F) c = seq q7) (h8 : main_part8 (F := F) c = seq q8) :
    main (F := F) c = seq (q0 ++ (q1 ++ (q2 ++ (q3 ++ (q4 ++ (q5 ++ (q6 ++ (q7 ++ q8)))))))) := by
  unfold main
  exact seq_cat _ _ _ _ h0 (seq_cat _ _ _ _ h1 (seq_cat _ _ _ _ h2 (seq_cat _ _ _ _ h3 (seq_cat _ _ _ _ h4
    (seq_cat _ _ _ _ h5 (seq_cat _ _ _ _ h6 (seq_cat _ _ _ _ h7 h8)))))))

theorem forall_join9 {α : Type} (p : α → Prop) (q0 q1 q2 q3 q4 q5 q6 q7 q8 : List α)
    (h0 : q0.Forall p) (h1 : q1.Forall p) (h2 : q2.Forall p) (h3 : q3.Forall p) (h4 : q4.Forall p) (h5 : q5.Forall p)
    (h6 : q6.Forall p) (h7 : q7.Forall p) (h8 : q8.Forall p) :
    (q0 ++ (q1 ++ (q2 ++ (q3 ++ (q4 ++ (q5 ++ (q6 ++ (q7 ++ q8)))))))).Forall p :=
  List.forall_append.mpr ⟨h0, List.forall_append.mpr ⟨h1, List.forall_append.mpr ⟨h2, List.forall_append.mpr ⟨h3,
    List.forall_append.mpr ⟨h4, List.forall_append.mpr ⟨h5, List.forall_append.mpr ⟨h6, List.forall_append.mpr ⟨h7, h8⟩⟩⟩⟩⟩⟩⟩⟩

theorem mem_join9 {α : Type} (p : α → Prop) (q0 q1 q2 q3 q4 q5 q6 q7 q8 : List α)
    (h0 : q0.Forall p) (h1 : q1.Forall p) (h2 : q2.Forall p) (h3 : q3.Forall p) (h4 : q4.Forall p) (h5 : q5.Forall p)
    (h6 : q6.Forall p) (h7 : q7.Forall p) (h8 : q8.Forall p) :
    ∀ x ∈ q0 ++ (q1 ++ (q2 ++ (q3 ++ (q4 ++ (q5 ++ (q6 ++ (q7 ++ q8))))))), p x :=
  List.forall_iff_forall_mem.mp (forall_join9 p q0 q1 q2 q3 q4 q5 q6 q7 q8 h0 h1 h2 h3 h4 h5 h6 h7 h8)

theorem after_join9 (q0 q1 q2 q3 q4 q5 q6 q7 q8 : List (HloOp τ sig (Elt F))) (V : Valuation τ sig (Elt F)) :
    after (q0 ++ (q1 ++ (q2 ++ (q3 ++ (q4 ++ (q5 ++ (q6 ++ (q7 ++ q8)))))))) V
      = after q8 (after q7 (after q6 (after q5 (after q4 (after q3 (after q2 (after q1 (after q0 V)))))))) := by
  simp only [StableHlo.after_append]

end Cert.ReferenceIdeal.Ops

end
-- ==== Proof.LibDot.lean ====
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

section Axes

variable {R K C : Nat} (d : DotDims ⟨2, ![R, K]⟩ ⟨2, ![K, C]⟩ ⟨2, ![R, C]⟩)

theorem rank_contr_one (hl : d.lhsContracting = [1]) : d.contr.rank = 1 := by
  rw [d.rank_contr, hl]; rfl

theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibRowRead.lean ====
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.LibRowRead

open Idealize.ShloMosaic Idealize.ShloMosaic.ValueIdx

theorem lift_row {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  match c with
  | ⟨0, _⟩ => rfl
  | ⟨1, _⟩ => rfl

theorem hostReduceMax_row {R C : Nat} (x : FVec Ideal ⟨2, ![R, C]⟩ .f32) (b : BitVec 32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x (constant (F := Ideal) (⟨0, ![]⟩ : Shape) .f32 b) h' hu (ix1 r)
      = (Finset.univ : Finset (Fin C)).fold max (Ideal.ofBits .f32 b) (fun c => x (ix2 r c)) := by
  rw [Host.reduce_eq_fold_single FloatOps.maximumf x _ h' h hu]
  have hf : (x ∘ h.lift (ix1 r)) = fun k : Fin C => x (ix2 r k) := funext fun k => congrArg x (lift_row h r k)
  exact congrArg (fun f => Finset.fold max (Ideal.ofBits .f32 b) f (Finset.univ : Finset (Fin C))) hf

theorem hostReduceAdd_row {R C : Nat} {φ : FTy} (x : FVec Ideal ⟨2, ![R, C]⟩ φ) (init : (⟨0, ![]⟩ : Shape).Idx → Ideal φ)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd x init h' hu (ix1 r) = init (Shape.Idx.first hu) + ∑ c : Fin C, x (ix2 r c) := by
  rw [hostReduceAdd_apply, Ideal.hostReduceAdd_single h' h]
  refine congrArg (fun s => init (Shape.Idx.first hu) + s) ?_
  exact Finset.sum_congr rfl fun k _ => congrArg x (lift_row h r k)

theorem bcast_column_apply {α : Type} {n : Nat} (h : (⟨1, ![n]⟩ : Shape).BroadcastsInDim (⟨2, ![n, 1]⟩ : Shape) ![0])
    (v : (⟨1, ![n]⟩ : Shape).Idx → α) (e : Fin n) (z : Fin 1) :
    broadcastInDim (⟨2, ![n, 1]⟩ : Shape) ![0] h v (ix2 e z) = v (ix1 e) := by
  refine broadcastInDim_apply _ h v _ (ix1 e) fun a => ?_
  match a with
  | ⟨0, _⟩ =>
    show e.val = if n = 1 then 0 else e.val
    split
    · have := e.isLt; omega
    · rfl

theorem bcast_alongRows_apply {α : Type} {R C : Nat} (h2 : (⟨2, ![R, 1]⟩ : Shape).BroadcastsInDim (⟨2, ![R, C]⟩ : Shape) ![0, 1])
    (w : (⟨2, ![R, 1]⟩ : Shape).Idx → α) (r : Fin R) (c : Fin C) :
    broadcastInDim (⟨2, ![R, C]⟩ : Shape) ![0, 1] h2 w (ix2 r c) = w (ix2 r (0 : Fin 1)) := by
  refine broadcastInDim_apply _ h2 w _ (ix2 r (0 : Fin 1)) fun a => ?_
  match a with
  | ⟨0, _⟩ =>
    show r.val = if R = 1 then 0 else r.val
    split
    · have := r.isLt; omega
    · rfl
  | ⟨1, _⟩ => rfl

theorem bcast_perRow_apply {α : Type} {R C : Nat} (h1 : (⟨1, ![R]⟩ : Shape).BroadcastsInDim (⟨2, ![R, 1]⟩ : Shape) ![0])
    (h2 : (⟨2, ![R, 1]⟩ : Shape).BroadcastsInDim (⟨2, ![R, C]⟩ : Shape) ![0, 1])
    (v : (⟨1, ![R]⟩ : Shape).Idx → α) (r : Fin R) (c : Fin C) :
    broadcastInDim (⟨2, ![R, C]⟩ : Shape) ![0, 1] h2 (broadcastInDim (⟨2, ![R, 1]⟩ : Shape) ![0] h1 v) (ix2 r c) = v (ix1 r) := by
  exact (bcast_alongRows_apply h2 _ r c).trans (bcast_column_apply h1 v r 0)

theorem bcast_perCol_apply {α : Type} {R C : Nat} (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (v : (⟨1, ![C]⟩ : Shape).Idx → α) (r : Fin R) (c : Fin C) :
    broadcastInDim (⟨2, ![R, C]⟩ : Shape) ![0, 1] h2 (broadcastInDim (⟨2, ![1, C]⟩ : Shape) ![1] h1 v) (ix2 r c) = v (ix1 c) := by
  have hc : ∀ m : Nat, ∀ c : Fin C, c.val = if C = 1 then 0 else c.val := fun _ c => by
    split
    · have := c.isLt; omega
    · rfl
  refine (broadcastInDim_apply _ h2 _ _ (ix2 (0 : Fin 1) c) fun a => ?_).trans
    (broadcastInDim_apply _ h1 v _ (ix1 c) fun a => ?_)
  · match a with
    | ⟨0, _⟩ => rfl
    | ⟨1, _⟩ => exact hc 0 c
  · match a with
    | ⟨0, _⟩ => exact hc 0 c

end Cert.LibRowRead

end
-- ==== Proof.RefLayers.lean ====
import Idealize.ShloMosaic.PureOps.Reduce
import Idealize.ShloMosaic.PureOps.Ideal
import Idealize.ShloMosaic.PureOps.Ideal.Laws
import Idealize.ShloMosaic.PureOps.ShapeOps
import Idealize.ShloMosaic.PureOps.Dims
import Idealize.ShloMosaic.Lib.ValueIdx
import Idealize.ShloMosaic.Lib.IdealHost
import Idealize.ShloMosaic.Lib.Pipeline.Value
import proofs.«181152_j39822936769202_1_alg».proof.Proof.Spec
import proofs.«181152_j39822936769202_1_alg».proof.Proof.HeadMath
import proofs.«181152_j39822936769202_1_alg».proof.Proof.LibDot
import proofs.«181152_j39822936769202_1_alg».proof.Proof.LibRowRead
import proofs.«181152_j39822936769202_1_alg».proof.Proof.LibLabels

noncomputable section

open scoped BigOperators

namespace Cert.RefLayers

open Idealize.ShloMosaic Idealize.ShloMosaic.ValueIdx

theorem ofBits_neg_inf_f32 : Ideal.ofBits .f32 0xFF800000#32 = ⊥ := by simp [Ideal.ofBits, Ideal.ieee]

theorem hostExp_apply {s : Shape} {φ : FTy} (a : FVec Ideal s φ) (i : s.Idx) : Host.exp a i = Ideal.exp (a i) := rfl

theorem hostLog_apply {s : Shape} {φ : FTy} (a : FVec Ideal s φ) (i : s.Idx) : Host.log a i = Ideal.log (a i) := rfl

theorem hostNegf_apply {s : Shape} {φ : FTy} (a : FVec Ideal s φ) (i : s.Idx) : Host.negf a i = -(a i) := rfl

section Layers

variable {R K C : Nat}

theorem preact_apply (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision)
    (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (agg x : FVec Ideal ⟨2, ![R, K]⟩ .f32) (wl wr : FVec Ideal ⟨2, ![K, C]⟩ .f32) (bl : FVec Ideal ⟨1, ![C]⟩ .f32)
    (r : Fin R) (q : Fin C) :
    addf (addf (Host.dotGeneral d prec agg wl)
        (broadcastInDim ⟨2, ![R, C]⟩ ![0, 1] h2 (broadcastInDim ⟨2, ![1, C]⟩ ![1] h1 bl))) (Host.dotGeneral d prec x wr) (ix2 r q)
      = Spec.dense agg x wl wr bl r q := by
  rw [← Spec.dense_comm, addf_apply, addf_apply, LibRowRead.bcast_perCol_apply h1 h2 bl r q]
  show FloatOps.dotGeneral d prec .single agg wl (ix2 r q) + bl (ix1 q) + FloatOps.dotGeneral d prec .single x wr (ix2 r q) = _
  rw [LibDot.dotGeneral_at d hl hr hln hrn hlb hrb, LibDot.dotGeneral_at d hl hr hln hrn hlb hrb]

theorem relu_layer_eq (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision)
    (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (h0 : (⟨0, ![]⟩ : Shape).BroadcastsInDim (⟨2, ![R, C]⟩ : Shape) ![])
    (agg x : FVec Ideal ⟨2, ![R, K]⟩ .f32) (wl wr : FVec Ideal ⟨2, ![K, C]⟩ .f32) (bl : FVec Ideal ⟨1, ![C]⟩ .f32) :
    maximumf (addf (addf (Host.dotGeneral d prec agg wl)
        (broadcastInDim ⟨2, ![R, C]⟩ ![0, 1] h2 (broadcastInDim ⟨2, ![1, C]⟩ ![1] h1 bl))) (Host.dotGeneral d prec x wr))
      (broadcastInDim ⟨2, ![R, C]⟩ ![] h0 (constant (F := Ideal) ⟨0, ![]⟩ .f32 0x00000000#32))
      = Spec.reluLayer agg x wl wr bl := by
  funext j
  obtain ⟨r, q, rfl⟩ : ∃ (r : Fin R) (q : Fin C), j = ix2 r q := ⟨j 0, j 1, eq_ix2 j⟩
  rw [Spec.reluLayer_apply, maximumf_apply, preact_apply d hl hr hln hrn hlb hrb prec h1 h2,
    broadcastInDim_scalar_apply, constant_apply, Ideal.ofBits_zero_f32]

theorem sig_layer_eq (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision)
    (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (h0 : (⟨0, ![]⟩ : Shape).BroadcastsInDim (⟨2, ![R, C]⟩ : Shape) ![])
    (agg x : FVec Ideal ⟨2, ![R, K]⟩ .f32) (wl wr : FVec Ideal ⟨2, ![K, C]⟩ .f32) (bl : FVec Ideal ⟨1, ![C]⟩ .f32) :
    Host.divf (broadcastInDim ⟨2, ![R, C]⟩ ![] h0 (constant (F := Ideal) ⟨0, ![]⟩ .f32 0x3F800000#32))
      (addf (broadcastInDim ⟨2, ![R, C]⟩ ![] h0 (constant (F := Ideal) ⟨0, ![]⟩ .f32 0x3F800000#32))
        (Host.exp (Host.negf (addf (addf (Host.dotGeneral d prec agg wl)
          (broadcastInDim ⟨2, ![R, C]⟩ ![0, 1] h2 (broadcastInDim ⟨2, ![1, C]⟩ ![1] h1 bl))) (Host.dotGeneral d prec x wr)))))
      = Spec.sigLayer agg x wl wr bl := by
  funext j
  obtain ⟨r, q, rfl⟩ : ∃ (r : Fin R) (q : Fin C), j = ix2 r q := ⟨j 0, j 1, eq_ix2 j⟩
  rw [Spec.sigLayer_apply, hostDivf_apply, addf_apply, broadcastInDim_scalar_apply, constant_apply,
    Ideal.ofBits_one_f32]
  rw [hostExp_apply, hostNegf_apply, preact_apply d hl hr hln hrn hlb hrb prec h1 h2]
  rfl

theorem sigLayer_real (agg x : Spec.Mat R K) (wl wr : Spec.Mat K C) (bl : Spec.Vc C) (r : Fin R) (q : Fin C) :
    ∃ s : ℝ, Spec.sigLayer agg x wl wr bl (ix2 r q) = (s : EReal) := by
  rw [Spec.sigLayer_apply]; exact Spec.logistic_real _

end Layers

section LogSoftmax

variable {R C : Nat}

abbrev hostRowMax (h' : (⟨2, ![R, C]⟩ : Shape).ReducesTo [1] (⟨1, ![R]⟩ : Shape)) (hu : 0 < (⟨0, ![]⟩ : Shape).numel)
    (h0 : (⟨0, ![]⟩ : Shape).BroadcastsInDim (⟨1, ![R]⟩ : Shape) ![]) (o : FVec Ideal ⟨2, ![R, C]⟩ .f32) :
    FVec Ideal ⟨1, ![R]⟩ .f32 :=
  maximumf (broadcastInDim ⟨1, ![R]⟩ ![] h0 (constant (F := Ideal) ⟨0, ![]⟩ .f32 0xFF800000#32))
    (Host.reduce FloatOps.maximumf o (constant (F := Ideal) ⟨0, ![]⟩ .f32 0xFF800000#32) h' hu)

abbrev hostShifted (h' : (⟨2, ![R, C]⟩ : Shape).ReducesTo [1] (⟨1, ![R]⟩ : Shape)) (hu : 0 < (⟨0, ![]⟩ : Shape).numel)
    (h0 : (⟨0, ![]⟩ : Shape).BroadcastsInDim (⟨1, ![R]⟩ : Shape) ![])
    (h1 : (⟨1, ![R]⟩ : Shape).BroadcastsInDim (⟨2, ![R, 1]⟩ : Shape) ![0])
    (h2 : (⟨2, ![R, 1]⟩ : Shape).BroadcastsInDim (⟨2, ![R, C]⟩ : Shape) ![0, 1]) (o : FVec Ideal ⟨2, ![R, C]⟩ .f32) :
    FVec Ideal ⟨2, ![R, C]⟩ .f32 :=
  subf o (broadcastInDim ⟨2, ![R, C]⟩ ![0, 1] h2 (broadcastInDim ⟨2, ![R, 1]⟩ ![0] h1 (hostRowMax h' hu h0 o)))

abbrev hostLogSoftmax (h' : (⟨2, ![R, C]⟩ : Shape).ReducesTo [1] (⟨1, ![R]⟩ : Shape)) (hu : 0 < (⟨0, ![]⟩ : Shape).numel)
    (h0 : (⟨0, ![]⟩ : Shape).BroadcastsInDim (⟨1, ![R]⟩ : Shape) ![])
    (h1 : (⟨1, ![R]⟩ : Shape).BroadcastsInDim (⟨2, ![R, 1]⟩ : Shape) ![0])
    (h2 : (⟨2, ![R, 1]⟩ : Shape).BroadcastsInDim (⟨2, ![R, C]⟩ : Shape) ![0, 1]) (o : FVec Ideal ⟨2, ![R, C]⟩ .f32) :
    FVec Ideal ⟨2, ![R, C]⟩ .f32 :=
  subf (hostShifted h' hu h0 h1 h2 o)
    (broadcastInDim ⟨2, ![R, C]⟩ ![0, 1] h2 (Host.log (broadcastInDim ⟨2, ![R, 1]⟩ ![0] h1
      (Host.reduceAdd (Host.exp (hostShifted h' hu h0 h1 h2 o)) (constant (F := Ideal) ⟨0, ![]⟩ .f32 0x00000000#32) h' hu))))

def logpMat (o : Spec.Mat R C) : Spec.Mat R C :=
  fun i => Spec.logp o ⟨(i 0).val, (i 0).isLt⟩ ⟨(i 1).val, (i 1).isLt⟩

theorem logpMat_apply (o : Spec.Mat R C) (r : Fin R) (q : Fin C) : logpMat o (ix2 r q) = Spec.logp o r q := rfl

theorem reduces_of_reducesTo (h' : (⟨2, ![R, C]⟩ : Shape).ReducesTo [1] (⟨1, ![R]⟩ : Shape)) :
    (⟨2, ![R, C]⟩ : Shape).Reduces [1] (⟨1, ![R]⟩ : Shape) := by
  obtain ⟨e, he⟩ := h'
  exact ⟨e, Nat.one_pos, he⟩

theorem hostRowMax_apply (h' : (⟨2, ![R, C]⟩ : Shape).ReducesTo [1] (⟨1, ![R]⟩ : Shape)) (hu : 0 < (⟨0, ![]⟩ : Shape).numel)
    (h0 : (⟨0, ![]⟩ : Shape).BroadcastsInDim (⟨1, ![R]⟩ : Shape) ![]) (o : FVec Ideal ⟨2, ![R, C]⟩ .f32) (r : Fin R) :
    hostRowMax h' hu h0 o (ix1 r) = Spec.rowMax o r := by
  unfold Spec.rowMax hostRowMax
  rw [maximumf_apply, broadcastInDim_scalar_apply, constant_apply, ofBits_neg_inf_f32,
    LibRowRead.hostReduceMax_row o _ h' (reduces_of_reducesTo h') hu r, ofBits_neg_inf_f32]
  exact max_eq_right bot_le

theorem hostShifted_apply (h' : (⟨2, ![R, C]⟩ : Shape).ReducesTo [1] (⟨1, ![R]⟩ : Shape)) (hu : 0 < (⟨0, ![]⟩ : Shape).numel)
    (h0 : (⟨0, ![]⟩ : Shape).BroadcastsInDim (⟨1, ![R]⟩ : Shape) ![])
    (h1 : (⟨1, ![R]⟩ : Shape).BroadcastsInDim (⟨2, ![R, 1]⟩ : Shape) ![0])
    (h2 : (⟨2, ![R, 1]⟩ : Shape).BroadcastsInDim (⟨2, ![R, C]⟩ : Shape) ![0, 1]) (o : FVec Ideal ⟨2, ![R, C]⟩ .f32)
    (r : Fin R) (q : Fin C) :
    hostShifted h' hu h0 h1 h2 o (ix2 r q) = o (ix2 r q) - Spec.rowMax o r := by
  unfold hostShifted
  rw [subf_apply, LibRowRead.bcast_perRow_apply h1 h2 _ r q, hostRowMax_apply]

theorem log_softmax_apply (h' : (⟨2, ![R, C]⟩ : Shape).ReducesTo [1] (⟨1, ![R]⟩ : Shape)) (hu : 0 < (⟨0, ![]⟩ : Shape).numel)
    (h0 : (⟨0, ![]⟩ : Shape).BroadcastsInDim (⟨1, ![R]⟩ : Shape) ![])
    (h1 : (⟨1, ![R]⟩ : Shape).BroadcastsInDim (⟨2, ![R, 1]⟩ : Shape) ![0])
    (h2 : (⟨2, ![R, 1]⟩ : Shape).BroadcastsInDim (⟨2, ![R, C]⟩ : Shape) ![0, 1]) (o : FVec Ideal ⟨2, ![R, C]⟩ .f32)
    (r : Fin R) (q : Fin C) :
    hostLogSoftmax h' hu h0 h1 h2 o (ix2 r q) = Spec.logp o r q := by
  unfold Spec.logp hostLogSoftmax
  rw [subf_apply, hostShifted_apply, LibRowRead.bcast_alongRows_apply h2 _ r q]
  rw [hostLog_apply, LibRowRead.bcast_column_apply h1 _ r 0, LibRowRead.hostReduceAdd_row _ _ h' (reduces_of_reducesTo h') hu r,
    constant_apply, Ideal.ofBits_zero_f32, zero_add]
  refine congrArg (fun s => _ - Ideal.log s) (Finset.sum_congr rfl fun c _ => ?_)
  rw [hostExp_apply, hostShifted_apply]

theorem log_softmax_eq (h' : (⟨2, ![R, C]⟩ : Shape).ReducesTo [1] (⟨1, ![R]⟩ : Shape)) (hu : 0 < (⟨0, ![]⟩ : Shape).numel)
    (h0 : (⟨0, ![]⟩ : Shape).BroadcastsInDim (⟨1, ![R]⟩ : Shape) ![])
    (h1 : (⟨1, ![R]⟩ : Shape).BroadcastsInDim (⟨2, ![R, 1]⟩ : Shape) ![0])
    (h2 : (⟨2, ![R, 1]⟩ : Shape).BroadcastsInDim (⟨2, ![R, C]⟩ : Shape) ![0, 1]) (o : FVec Ideal ⟨2, ![R, C]⟩ .f32) :
    hostLogSoftmax h' hu h0 h1 h2 o = logpMat o := by
  funext j
  obtain ⟨r, q, rfl⟩ : ∃ (r : Fin R) (q : Fin C), j = ix2 r q := ⟨j 0, j 1, eq_ix2 j⟩
  rw [logpMat_apply, log_softmax_apply]

end LogSoftmax

section Head

theorem ofBits_50000_f32 : Ideal.ofBits .f32 0x47435000#32 = ((50000 : ℝ) : EReal) := by
  simp [Ideal.ofBits, Ideal.ieee, -EReal.coe_mul]; norm_num

theorem head_ref_eq {C : Nat} (hred : (⟨2, ![50000, 1]⟩ : Shape).ReducesTo [0, 1] (⟨0, ![]⟩ : Shape))
    (hu : 0 < (⟨0, ![]⟩ : Shape).numel) (o : Spec.Mat 50000 C) (lab : Fin 50000 → Fin C)
    (col : FVec Ideal ⟨2, ![50000, 1]⟩ .f32)
    (hcol : ∀ r : Fin 50000, col (ix2 r (0 : Fin 1)) = Spec.logp o r (lab r)) :
    Host.negf (Host.divf (Host.reduceAdd col (constant (F := Ideal) ⟨0, ![]⟩ .f32 0x00000000#32) hred hu)
      (constant (F := Ideal) ⟨0, ![]⟩ .f32 0x47435000#32)) = fun _ => Spec.headRef o lab := by
  funext j
  rw [hostNegf_apply, hostDivf_apply, hostReduceAdd_apply, Ideal.hostReduceAdd_total hred (fun b => b.elim0),
    constant_apply, constant_apply, Ideal.ofBits_zero_f32, ofBits_50000_f32, sum_idx2]
  unfold Spec.headRef
  refine congrArg (fun s => -(Ideal.div (0 + s) ((50000 : ℝ) : EReal))) (Finset.sum_congr rfl fun r _ => ?_)
  rw [Fin.sum_univ_one, hcol]

end Head

section HeadTake

abbrev hostTakeAlong {N C : Nat}
    (hb2 : (⟨0, ![]⟩ : Shape).BroadcastsInDim (⟨2, ![N, 1]⟩ : Shape) ![])
    (hsc : (⟨2, ![N, 1]⟩ : Shape).ShapeCasts (⟨3, ![N, 1, 1]⟩ : Shape))
    (hb3 : (⟨0, ![]⟩ : Shape).BroadcastsInDim (⟨3, ![N, 1, 1]⟩ : Shape) ![])
    (hb1 : (⟨1, ![1]⟩ : Shape).BroadcastsInDim (⟨3, ![1, 1, 1]⟩ : Shape) ![2])
    (hb111 : (⟨3, ![1, 1, 1]⟩ : Shape).BroadcastsInDim (⟨3, ![N, 1, 1]⟩ : Shape) ![0, 1, 2])
    (hred : (⟨3, ![N, 1, 1]⟩ : Shape).ReducesTo [2] (⟨2, ![N, 1]⟩ : Shape)) (hu : 0 < (⟨0, ![]⟩ : Shape).numel)
    (d : GatherDims (⟨2, ![N, C]⟩ : Shape) (⟨3, ![N, 1, 1]⟩ : Shape) (⟨2, ![N, 1]⟩ : Shape))
    (c cm1 : BitVec 32) (x : FVec Ideal (⟨2, ![N, C]⟩ : Shape) .f32) (ycol : IVec (⟨2, ![N, 1]⟩ : Shape) 32) :
    FVec Ideal (⟨2, ![N, 1]⟩ : Shape) .f32 :=
  select (Host.reduce IntOp.andi
      (andi
        (cmpi .sge (shapeCast (⟨3, ![N, 1, 1]⟩ : Shape) (select (cmpi .slt ycol (broadcastInDim (⟨2, ![N, 1]⟩ : Shape) ![] hb2 (constantI (⟨0, ![]⟩ : Shape) 32 0#32)))
          (addi ycol (broadcastInDim (⟨2, ![N, 1]⟩ : Shape) ![] hb2 (constantI (⟨0, ![]⟩ : Shape) 32 c))) ycol) hsc) (broadcastInDim (⟨3, ![N, 1, 1]⟩ : Shape) ![] hb3 (constantI (⟨0, ![]⟩ : Shape) 32 0#32)))
        (cmpi .sle (shapeCast (⟨3, ![N, 1, 1]⟩ : Shape) (select (cmpi .slt ycol (broadcastInDim (⟨2, ![N, 1]⟩ : Shape) ![] hb2 (constantI (⟨0, ![]⟩ : Shape) 32 0#32)))
          (addi ycol (broadcastInDim (⟨2, ![N, 1]⟩ : Shape) ![] hb2 (constantI (⟨0, ![]⟩ : Shape) 32 c))) ycol) hsc)
          (broadcastInDim (⟨3, ![N, 1, 1]⟩ : Shape) ![0, 1, 2] hb111 (broadcastInDim (⟨3, ![1, 1, 1]⟩ : Shape) ![2] hb1 (constantI (⟨1, ![1]⟩ : Shape) 32 cm1)))))
      (constantI (⟨0, ![]⟩ : Shape) 1 1#1) hred hu)
    (Host.gather d x (shapeCast (⟨3, ![N, 1, 1]⟩ : Shape) (select (cmpi .slt ycol (broadcastInDim (⟨2, ![N, 1]⟩ : Shape) ![] hb2 (constantI (⟨0, ![]⟩ : Shape) 32 0#32)))
          (addi ycol (broadcastInDim (⟨2, ![N, 1]⟩ : Shape) ![] hb2 (constantI (⟨0, ![]⟩ : Shape) 32 c))) ycol) hsc))
    (broadcastInDim (⟨2, ![N, 1]⟩ : Shape) ![] hb2 (constant (F := Ideal) (⟨0, ![]⟩ : Shape) .f32 0x7FC00000#32))

theorem take_along_logp_apply {N C : Nat} (hC : 0 < C)
    (hb2 : (⟨0, ![]⟩ : Shape).BroadcastsInDim (⟨2, ![N, 1]⟩ : Shape) ![])
    (hsc : (⟨2, ![N, 1]⟩ : Shape).ShapeCasts (⟨3, ![N, 1, 1]⟩ : Shape))
    (hb3 : (⟨0, ![]⟩ : Shape).BroadcastsInDim (⟨3, ![N, 1, 1]⟩ : Shape) ![])
    (hb1 : (⟨1, ![1]⟩ : Shape).BroadcastsInDim (⟨3, ![1, 1, 1]⟩ : Shape) ![2])
    (hb111 : (⟨3, ![1, 1, 1]⟩ : Shape).BroadcastsInDim (⟨3, ![N, 1, 1]⟩ : Shape) ![0, 1, 2])
    (hred : (⟨3, ![N, 1, 1]⟩ : Shape).ReducesTo [2] (⟨2, ![N, 1]⟩ : Shape)) (hu : 0 < (⟨0, ![]⟩ : Shape).numel)
    (d : GatherDims (⟨2, ![N, C]⟩ : Shape) (⟨3, ![N, 1, 1]⟩ : Shape) (⟨2, ![N, 1]⟩ : Shape))
    (hoff : d.offsetDims = []) (hcoll : d.collapsedSliceDims = [1]) (hob : d.operandBatchingDims = [0])
    (hsb : d.startIndicesBatchingDims = [0]) (hsim : d.startIndexMap = [1]) (hivd : d.indexVectorDim = 2)
    (c cm1 : BitVec 32) (hcm1 : cm1.toInt = (C : Int) - 1)
    (o : Spec.Mat N C) (ycol : IVec (⟨2, ![N, 1]⟩ : Shape) 32) (lab : Fin N → Fin C)
    (hy : ∀ r : Fin N, (ycol (ix2 r (0 : Fin 1))).toInt = ((lab r).val : Int)) (r : Fin N) :
    hostTakeAlong hb2 hsc hb3 hb1 hb111 hred hu d c cm1 (logpMat o) ycol (ix2 r (0 : Fin 1)) = Spec.logp o r (lab r) := by
  have hr : 0 ≤ (ycol (ix2 r (0 : Fin 1))).toInt ∧ (ycol (ix2 r (0 : Fin 1))).toInt < C := by
    rw [hy r]; exact ⟨Int.natCast_nonneg _, Int.ofNat_lt.mpr (lab r).isLt⟩
  unfold hostTakeAlong
  rw [LibLabels.take_along_apply hC hb2 hsc hb3 hb1 hb111 hred hu d hoff hcoll hob hsb hsim hivd c cm1 hcm1 (logpMat o) ycol r hr,
    logpMat_apply]
  refine congrArg (Spec.logp o r) (Fin.ext ?_)
  show (ycol (ix2 r (0 : Fin 1))).toInt.toNat = (lab r).val
  rw [hy r]; exact Int.toNat_natCast _

theorem head_take_along_eq {C : Nat} (hC : 0 < C)
    (hb2 : (⟨0, ![]⟩ : Shape).BroadcastsInDim (⟨2, ![50000, 1]⟩ : Shape) ![])
    (hsc : (⟨2, ![50000, 1]⟩ : Shape).ShapeCasts (⟨3, ![50000, 1, 1]⟩ : Shape))
    (hb3 : (⟨0, ![]⟩ : Shape).BroadcastsInDim (⟨3, ![50000, 1, 1]⟩ : Shape) ![])
    (hb1 : (⟨1, ![1]⟩ : Shape).BroadcastsInDim (⟨3, ![1, 1, 1]⟩ : Shape) ![2])
    (hb111 : (⟨3, ![1, 1, 1]⟩ : Shape).BroadcastsInDim (⟨3, ![50000, 1, 1]⟩ : Shape) ![0, 1, 2])
    (hred : (⟨3, ![50000, 1, 1]⟩ : Shape).ReducesTo [2] (⟨2, ![50000, 1]⟩ : Shape)) (hu : 0 < (⟨0, ![]⟩ : Shape).numel)
    (d : GatherDims (⟨2, ![50000, C]⟩ : Shape) (⟨3, ![50000, 1, 1]⟩ : Shape) (⟨2, ![50000, 1]⟩ : Shape))
    (hoff : d.offsetDims = []) (hcoll : d.collapsedSliceDims = [1]) (hob : d.operandBatchingDims = [0])
    (hsb : d.startIndicesBatchingDims = [0]) (hsim : d.startIndexMap = [1]) (hivd : d.indexVectorDim = 2)
    (c cm1 : BitVec 32) (hcm1 : cm1.toInt = (C : Int) - 1)
    (hredH : (⟨2, ![50000, 1]⟩ : Shape).ReducesTo [0, 1] (⟨0, ![]⟩ : Shape))
    (o : Spec.Mat 50000 C) (ycol : IVec (⟨2, ![50000, 1]⟩ : Shape) 32) (lab : Fin 50000 → Fin C)
    (hy : ∀ r : Fin 50000, (ycol (ix2 r (0 : Fin 1))).toInt = ((lab r).val : Int)) :
    Host.negf (Host.divf (Host.reduceAdd (hostTakeAlong hb2 hsc hb3 hb1 hb111 hred hu d c cm1 (logpMat o) ycol)
        (constant (F := Ideal) ⟨0, ![]⟩ .f32 0x00000000#32) hredH hu)
      (constant (F := Ideal) ⟨0, ![]⟩ .f32 0x47435000#32)) = fun _ => Spec.headRef o lab :=
  head_ref_eq hredH hu o lab _ fun r =>
    take_along_logp_apply hC hb2 hsc hb3 hb1 hb111 hred hu d hoff hcoll hob hsb hsim hivd c cm1 hcm1 o ycol lab hy r

end HeadTake

end Cert.RefLayers

end
-- ==== Proof.RefSideA1a.lean ====
import proofs.«181152_j39822936769202_1_alg».proof.Proof.RefBase
import proofs.«181152_j39822936769202_1_alg».proof.Proof.RefLayers
import Idealize.ShloMosaic.Lib.StableHlo.Run
import Idealize.ShloMosaic.Lib.Pipeline.Frame

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx

variable [Cert.KernelIdeal.Facts]

section Chunks
variable {F : FTy → Type} [FloatOps F]

noncomputable def s0 : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v6 (broadcastInDim S50000 ![] bcast_S_S50000 : (⟨S_, .f32⟩ : BufTy).Contents (Elt F) → (⟨S50000, .f32⟩ : BufTy).Contents (Elt F)),
    binary main_v6 main_v5 main_v7 (Host.divf : (⟨S50000, .f32⟩ : BufTy).Contents (Elt F) → (⟨S50000, .f32⟩ : BufTy).Contents (Elt F) → (⟨S50000, .f32⟩ : BufTy).Contents (Elt F)),
    unary main_v7 main_v8 (broadcastInDim S50000x1 ![0] bcast_S50000_S50000x1_0 : (⟨S50000, .f32⟩ : BufTy).Contents (Elt F) → (⟨S50000x1, .f32⟩ : BufTy).Contents (Elt F)) ]

noncomputable def s0_w : List (Ref sig .tc) :=
  [main_cst, main_v0, main_cst_0, main_v1, main_v2, main_v3, main_cst_1, main_v4, main_v5, main_cst_2, main_v6, main_v7, main_v8]

noncomputable def s1a : List (HloOp τ sig (Elt F)) :=
  [ unary main_arg0 main_v9 ((extractStridedSlice S1x1x50000x128 ![0, 0, 0, 0] · slices_S2x2x50000x128_S1x1x50000x128_0_0_0_0) : (⟨S2x2x50000x128, .f32⟩ : BufTy).Contents (Elt F) → (⟨S1x1x50000x128, .f32⟩ : BufTy).Contents (Elt F)),
    reshape main_v9 main_v10 rfl shapeCasts_S1x1x50000x128_S50000x128,
    nullary main_c (constantI S_ 32 0#32),
    unary main_c main_v11 (broadcastInDim S800000 ![] bcast_S_S800000 : (⟨S_, .i32⟩ : BufTy).Contents (Elt F) → (⟨S800000, .i32⟩ : BufTy).Contents (Elt F)),
    binary main_arg1 main_v11 main_v12 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v13 (broadcastInDim S800000 ![] bcast_S_S800000 : (⟨S_, .i32⟩ : BufTy).Contents (Elt F) → (⟨S800000, .i32⟩ : BufTy).Contents (Elt F)),
    binary main_arg1 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_arg1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_v10 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_4 (constant S_ .f32 0x00000000#32),
    unary main_cst_4 main_v18 (broadcastInDim S50000x128 ![] bcast_S_S50000x128 : (⟨S_, .f32⟩ : BufTy).Contents (Elt F) → (⟨S50000x128, .f32⟩ : BufTy).Contents (Elt F)),
    unary main_arg2 main_v19 (broadcastInDim S800000x1 ![0] bcast_S800000_S800000x1_0 : (⟨S800000, .i32⟩ : BufTy).Contents (Elt F) → (⟨S800000x1, .i32⟩ : BufTy).Contents (Elt F)),
    ternary main_v18 main_v19 main_v17 main_v20 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v8 main_v21 (broadcastInDim S50000x128 ![0, 1] bcast_S50000x1_S50000x128_0_1 : (⟨S50000x1, .f32⟩ : BufTy).Contents (Elt F) → (⟨S50000x128, .f32⟩ : BufTy).Contents (Elt F)),
    binary main_v20 main_v21 main_v22 (mulf : (⟨S50000x128, .f32⟩ : BufTy).Contents (Elt F) → (⟨S50000x128, .f32⟩ : BufTy).Contents (Elt F) → (⟨S50000x128, .f32⟩ : BufTy).Contents (Elt F)),
    binary main_v22 main_arg4 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v24 (broadcastInDim S1x128 ![1] bcast_S128_S1x128_1 : (⟨S128, .f32⟩ : BufTy).Contents (Elt F) → (⟨S1x128, .f32⟩ : BufTy).Contents (Elt F)),
    unary main_v24 main_v25 (broadcastInDim S50000x128 ![0, 1] bcast_S1x128_S50000x128_0_1 : (⟨S1x128, .f32⟩ : BufTy).Contents (Elt F) → (⟨S50000x128, .f32⟩ : BufTy).Contents (Elt F)),
    binary main_v23 main_v25 main_v26 (addf : (⟨S50000x128, .f32⟩ : BufTy).Contents (Elt F) → (⟨S50000x128, .f32⟩ : BufTy).Contents (Elt F) → (⟨S50000x128, .f32⟩ : BufTy).Contents (Elt F)),
    binary main_v10 main_arg6 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v26 main_v27 main_v28 (addf : (⟨S50000x128, .f32⟩ : BufTy).Contents (Elt F) → (⟨S50000x128, .f32⟩ : BufTy).Contents (Elt F) → (⟨S50000x128, .f32⟩ : BufTy).Contents (Elt F)) ]

noncomputable def s1a_w : List (Ref sig .tc) :=
  [main_v9, main_v10, main_c, main_v11, main_v12, main_c_3, main_v13, main_v14, main_v15, main_v16, main_v17, main_cst_4, main_v18, main_v19, main_v20, main_v21, main_v22, main_v23, main_v24, main_v25, main_v26, main_v27, main_v28]

noncomputable def s1r : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v28) (TRef.of (T := ⟨S50000x128, .f32⟩) main_call0_v0) (TRef.of (T := ⟨S50000x128, .f32⟩) main_v29) maximumf ]

noncomputable def s1r_w : List (Ref sig .tc) :=
  [main_call0_cst, main_call0_v0, main_v29]

noncomputable def s2a : List (HloOp τ sig (Elt F)) :=
  [ unary main_arg0 main_v30 ((extractStridedSlice S1x1x50000x128 ![0, 1, 0, 0] · slices_S2x2x50000x128_S1x1x50000x128_0_1_0_0) : (⟨S2x2x50000x128, .f32⟩ : BufTy).Contents (Elt F) → (⟨S1x1x50000x128, .f32⟩ : BufTy).Contents (Elt F)),
    reshape main_v30 main_v31 rfl shapeCasts_S1x1x50000x128_S50000x128,
    nullary main_c_5 (constantI S_ 32 0#32),
    unary main_c_5 main_v32 (broadcastInDim S800000 ![] bcast_S_S800000 : (⟨S_, .i32⟩ : BufTy).Contents (Elt F) → (⟨S800000, .i32⟩ : BufTy).Contents (Elt F)),
    binary main_arg1 main_v32 main_v33 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v34 (broadcastInDim S800000 ![] bcast_S_S800000 : (⟨S_, .i32⟩ : BufTy).Contents (Elt F) → (⟨S800000, .i32⟩ : BufTy).Contents (Elt F)),
    binary main_arg1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_arg1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_7 (constant S_ .f32 0x00000000#32),
    unary main_cst_7 main_v39 (broadcastInDim S50000x128 ![] bcast_S_S50000x128 : (⟨S_, .f32⟩ : BufTy).Contents (Elt F) → (⟨S50000x128, .f32⟩ : BufTy).Contents (Elt F)),
    unary main_arg2 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v8 main_v42 (broadcastInDim S50000x128 ![0, 1] bcast_S50000x1_S50000x128_0_1 : (⟨S50000x1, .f32⟩ : BufTy).Contents (Elt F) → (⟨S50000x128, .f32⟩ : BufTy).Contents (Elt F)),
    binary main_v41 main_v42 main_v43 (mulf : (⟨S50000x128, .f32⟩ : BufTy).Contents (Elt F) → (⟨S50000x128, .f32⟩ : BufTy).Contents (Elt F) → (⟨S50000x128, .f32⟩ : BufTy).Contents (Elt F)),
    binary main_v43 main_arg7 main_v44 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    binary main_v31 main_arg9 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v47 main_v48 main_v49 (addf : (⟨S50000x128, .f32⟩ : BufTy).Contents (Elt F) → (⟨S50000x128, .f32⟩ : BufTy).Contents (Elt F) → (⟨S50000x128, .f32⟩ : BufTy).Contents (Elt F)) ]

noncomputable def s2a_w : List (Ref sig .tc) :=
  [main_v30, main_v31, main_c_5, main_v32, main_v33, main_c_6, main_v34, main_v35, main_v36, main_v37, main_v38, main_cst_7, main_v39, main_v40, main_v41, main_v42, main_v43, main_v44, main_v45, main_v46, main_v47, main_v48, main_v49]

noncomputable def s2r : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v49) (TRef.of (T := ⟨S50000x128, .f32⟩) main_call1_v0) (TRef.of (T := ⟨S50000x128, .f32⟩) main_v50) maximumf ]

noncomputable def s2r_w : List (Ref sig .tc) :=
  [main_call1_cst, main_call1_v0, main_v50]

noncomputable def opsA1a : List (HloOp τ sig (Elt F)) := s0 ++ (s1a ++ (s1r ++ (s2a ++ s2r)))

end Chunks

theorem s0_writes : (s0 (F := Ideal)).Forall fun op => op.writes ⊆ (s0_w.map (Proc.devRef (τ := τ) .tc)).toFinset := by
  simp only [s0, List.Forall, nullary_writes, unary_writes, binary_writes, ternary_writes, reshape_writes]
  (repeat' apply And.intro) <;> exact single_sub (by decide)

theorem s1a_writes : (s1a (F := Ideal)).Forall fun op => op.writes ⊆ (s1a_w.map (Proc.devRef (τ := τ) .tc)).toFinset := by
  simp only [s1a, List.Forall, nullary_writes, unary_writes, binary_writes, ternary_writes, reshape_writes]
  (repeat' apply And.intro) <;> exact single_sub (by decide)

theorem s1r_writes : (s1r (F := Ideal)).Forall fun op => op.writes ⊆ (s1r_w.map (Proc.devRef (τ := τ) .tc)).toFinset := by
  simp only [s1r, List.Forall, nullary_writes, unary_writes, binary_writes, ternary_writes, reshape_writes]
  (repeat' apply And.intro) <;> exact single_sub (by decide)

theorem s2a_writes : (s2a (F := Ideal)).Forall fun op => op.writes ⊆ (s2a_w.map (Proc.devRef (τ := τ) .tc)).toFinset := by
  simp only [s2a, List.Forall, nullary_writes, unary_writes, binary_writes, ternary_writes, reshape_writes]
  (repeat' apply And.intro) <;> exact single_sub (by decide)

theorem s2r_writes : (s2r (F := Ideal)).Forall fun op => op.writes ⊆ (s2r_w.map (Proc.devRef (τ := τ) .tc)).toFinset := by
  simp only [s2r, List.Forall, nullary_writes, unary_writes, binary_writes, ternary_writes, reshape_writes]
  (repeat' apply And.intro) <;> exact single_sub (by decide)

-- A one scattered along the edges' destinations counts each node's in-degree.
theorem s0_v8 (V : RVal) (a : KVals.Args) (hA : ArgsAt a V) :
    after (s0 (F := Ideal)) V (Proc.devRef .tc main_v8) = Vals.invdeg a.ed := by
  unfold s0
  after_results_simp
  rw [hA.h2]
  rfl

-- Rows gathered at the edges' sources, summed at their destinations and scaled are the mean aggregation of X[0, 0].
theorem s1a_val (V : RVal) (a : KVals.Args) (hA : ArgsAt a V) (h8 : V (Proc.devRef .tc main_v8) = Vals.invdeg a.ed) :
    after (s1a (F := Ideal)) V (Proc.devRef .tc main_v28)
      = (addf (addf (Host.dotGeneral dot_S50000x128_S128x128_S50000x128_1_0_0_1_n_n none (Vals.agg128 a.es a.ed (KVals.x00 a)) a.Wl_i0)
          (broadcastInDim S50000x128 ![0, 1] bcast_S1x128_S50000x128_0_1 (broadcastInDim S1x128 ![1] bcast_S128_S1x128_1 a.bl_i0)))
          (Host.dotGeneral dot_S50000x128_S128x128_S50000x128_1_0_0_1_n_n none (KVals.x00 a) a.Wr_i0) : FVec Ideal S50000x128 .f32) := by
  unfold s1a
  after_results_simp
  rw [hA.h0, hA.h1, hA.h2, hA.h4, hA.h5, hA.h6, h8]
  rfl

theorem s1r_val (V : RVal) (P : FVec Ideal S50000x128 .f32) (h : V (Proc.devRef .tc main_v28) = P) :
    after (s1r (F := Ideal)) V (Proc.devRef .tc main_v29)
      = maximumf P (broadcastInDim S50000x128 ![] bcast_S_S50000x128 (constant S_ .f32 0x00000000#32)) := by
  unfold s1r
  after_results_simp
  rw [h]
  rfl

theorem s2a_val (V : RVal) (a : KVals.Args) (hA : ArgsAt a V) (h8 : V (Proc.devRef .tc main_v8) = Vals.invdeg a.ed) :
    after (s2a (F := Ideal)) V (Proc.devRef .tc main_v49)
      = (addf (addf (Host.dotGeneral dot_S50000x128_S128x128_S50000x128_1_0_0_1_n_n none (Vals.agg128 a.es a.ed (KVals.x01 a)) a.Wl_i1)
          (broadcastInDim S50000x128 ![0, 1] bcast_S1x128_S50000x128_0_1 (broadcastInDim S1x128 ![1] bcast_S128_S1x128_1 a.bl_i1)))
          (Host.dotGeneral dot_S50000x128_S128x128_S50000x128_1_0_0_1_n_n none (KVals.x01 a) a.Wr_i1) : FVec Ideal S50000x128 .f32) := by
  unfold s2a
  after_results_simp
  rw [hA.h0, hA.h1, hA.h2, hA.h7, hA.h8, hA.h9, h8]
  rfl

theorem s2r_val (V : RVal) (P : FVec Ideal S50000x128 .f32) (h : V (Proc.devRef .tc main_v49) = P) :
    after (s2r (F := Ideal)) V (Proc.devRef .tc main_v50)
      = maximumf P (broadcastInDim S50000x128 ![] bcast_S_S50000x128 (constant S_ .f32 0x00000000#32)) := by
  unfold s2r
  after_results_simp
  rw [h]
  rfl

theorem taskA1a (V : RVal) (a : KVals.Args) (hA : ArgsAt a V) :
    after (opsA1a (F := Ideal)) V (Proc.devRef .tc main_v8) = Vals.invdeg a.ed
    ∧ after (opsA1a (F := Ideal)) V (Proc.devRef .tc main_v29) = (Spec.reluLayer (Vals.agg128 a.es a.ed (KVals.x00 a)) (KVals.x00 a) a.Wl_i0 a.Wr_i0 a.bl_i0)
    ∧ after (opsA1a (F := Ideal)) V (Proc.devRef .tc main_v50) = (Spec.reluLayer (Vals.agg128 a.es a.ed (KVals.x01 a)) (KVals.x01 a) a.Wl_i1 a.Wr_i1 a.bl_i1)
    ∧ ArgsAt a (after (opsA1a (F := Ideal)) V) := by
  unfold opsA1a
  rw [after_append, after_append, after_append, after_append]
  have hA0 := args_keep hA s0 s0_w s0_writes (by decide)
  have h8 := s0_v8 V a hA
  have hA2 := args_keep (args_keep hA0 s1a s1a_w s1a_writes (by decide)) s1r s1r_w s1r_writes (by decide)
  have h8' := (after_of_writes_sub s1r _ s1r_writes (by decide : main_v8 ∉ s1r_w)).trans
    ((after_of_writes_sub s1a _ s1a_writes (by decide : main_v8 ∉ s1a_w)).trans h8)
  have h29 := (s1r_val _ _ (s1a_val _ a hA0 h8)).trans (RefLayers.relu_layer_eq dot_S50000x128_S128x128_S50000x128_1_0_0_1_n_n rfl rfl rfl rfl rfl rfl none bcast_S128_S1x128_1 bcast_S1x128_S50000x128_0_1 bcast_S_S50000x128 _ _ _ _ _)
  exact ⟨(after_of_writes_sub s2r _ s2r_writes (by decide : main_v8 ∉ s2r_w)).trans
      ((after_of_writes_sub s2a _ s2a_writes (by decide : main_v8 ∉ s2a_w)).trans h8'),
    (after_of_writes_sub s2r _ s2r_writes (by decide : main_v29 ∉ s2r_w)).trans
      ((after_of_writes_sub s2a _ s2a_writes (by decide : main_v29 ∉ s2a_w)).trans h29),
    (s2r_val _ _ (s2a_val _ a hA2 h8')).trans (RefLayers.relu_layer_eq dot_S50000x128_S128x128_S50000x128_1_0_0_1_n_n rfl rfl rfl rfl rfl rfl none bcast_S128_S1x128_1 bcast_S1x128_S50000x128_0_1 bcast_S_S50000x128 _ _ _ _ _),
    args_keep (args_keep hA2 s2a s2a_w s2a_writes (by decide)) s2r s2r_w s2r_writes (by decide)⟩

end Cert.RefSide

end
-- ==== Proof.RefSideA1b.lean ====
import proofs.«181152_j39822936769202_1_alg».proof.Proof.RefBase
import proofs.«181152_j39822936769202_1_alg».proof.Proof.RefLayers
import Idealize.ShloMosaic.Lib.StableHlo.Run
import Idealize.ShloMosaic.Lib.Pipeline.Frame

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx

variable [Cert.KernelIdeal.Facts]

section Chunks
variable {F : FTy → Type} [FloatOps F]

noncomputable def A1b_pre : List (HloOp τ sig (Elt F)) :=
  [ binary main_v29 main_v50 main_v51 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    nullary main_c_8 (constantI S_ 32 0#32),
    unary main_c_8 main_v52 (broadcastInDim S800000 ![] bcast_S_S800000 : (⟨S_, .i32⟩ : BufTy).Contents (Elt F) → (⟨S800000, .i32⟩ : BufTy).Contents (Elt F)),
    binary main_arg1 main_v52 main_v53 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v54 (broadcastInDim S800000 ![] bcast_S_S800000 : (⟨S_, .i32⟩ : BufTy).Contents (Elt F) → (⟨S800000, .i32⟩ : BufTy).Contents (Elt F)),
    binary main_arg1 main_v54 main_v55 (addi : (⟨S800000, .i32⟩ : BufTy).Contents (Elt F) → (⟨S800000, .i32⟩ : BufTy).Contents (Elt F) → (⟨S800000, .i32⟩ : BufTy).Contents (Elt F)),
    ternary main_v53 main_v55 main_arg1 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v56 main_v57 (broadcastInDim S800000x1 ![0] bcast_S800000_S800000x1_0 : (⟨S800000, .i32⟩ : BufTy).Contents (Elt F) → (⟨S800000x1, .i32⟩ : BufTy).Contents (Elt F)),
    binary main_v51 main_v57 main_v58 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_10 (constant S_ .f32 0x00000000#32),
    unary main_cst_10 main_v59 (broadcastInDim S50000x256 ![] bcast_S_S50000x256 : (⟨S_, .f32⟩ : BufTy).Contents (Elt F) → (⟨S50000x256, .f32⟩ : BufTy).Contents (Elt F)),
    unary main_arg2 main_v60 (broadcastInDim S800000x1 ![0] bcast_S800000_S800000x1_0 : (⟨S800000, .i32⟩ : BufTy).Contents (Elt F) → (⟨S800000x1, .i32⟩ : BufTy).Contents (Elt F)),
    ternary main_v59 main_v60 main_v58 main_v61 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v8 main_v62 (broadcastInDim S50000x256 ![0, 1] bcast_S50000x1_S50000x256_0_1 : (⟨S50000x1, .f32⟩ : BufTy).Contents (Elt F) → (⟨S50000x256, .f32⟩ : BufTy).Contents (Elt F)),
    binary main_v61 main_v62 main_v63 (mulf : (⟨S50000x256, .f32⟩ : BufTy).Contents (Elt F) → (⟨S50000x256, .f32⟩ : BufTy).Contents (Elt F) → (⟨S50000x256, .f32⟩ : BufTy).Contents (Elt F)),
    binary main_v63 main_arg10 main_v64 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg11 main_v65 (broadcastInDim S1x256 ![1] bcast_S256_S1x256_1 : (⟨S256, .f32⟩ : BufTy).Contents (Elt F) → (⟨S1x256, .f32⟩ : BufTy).Contents (Elt F)),
    unary main_v65 main_v66 (broadcastInDim S50000x256 ![0, 1] bcast_S1x256_S50000x256_0_1 : (⟨S1x256, .f32⟩ : BufTy).Contents (Elt F) → (⟨S50000x256, .f32⟩ : BufTy).Contents (Elt F)),
    binary main_v64 main_v66 main_v67 (addf : (⟨S50000x256, .f32⟩ : BufTy).Contents (Elt F) → (⟨S50000x256, .f32⟩ : BufTy).Contents (Elt F) → (⟨S50000x256, .f32⟩ : BufTy).Contents (Elt F)),
    binary main_v51 main_arg12 main_v68 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v67 main_v68 main_v69 (addf : (⟨S50000x256, .f32⟩ : BufTy).Contents (Elt F) → (⟨S50000x256, .f32⟩ : BufTy).Contents (Elt F) → (⟨S50000x256, .f32⟩ : BufTy).Contents (Elt F)) ]

noncomputable def A1b_pre_w : List (Ref sig .tc) :=
  [main_v51, main_c_8, main_v52, main_v53, main_c_9, main_v54, main_v55, main_v56, main_v57, main_v58, main_cst_10, main_v59, main_v60, main_v61, main_v62, main_v63, main_v64, main_v65, main_v66, main_v67, main_v68, main_v69]

noncomputable def A1b_relu : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v69) (TRef.of (T := ⟨S50000x256, .f32⟩) main_call2_v0) (TRef.of (T := ⟨S50000x256, .f32⟩) main_v70) maximumf ]

noncomputable def A1b_relu_w : List (Ref sig .tc) :=
  [main_call2_cst, main_call2_v0, main_v70]

noncomputable def A1b_sig : List (HloOp τ sig (Elt F)) :=
  [ nullary main_c_11 (constantI S_ 32 0#32),
    unary main_c_11 main_v71 (broadcastInDim S800000 ![] bcast_S_S800000 : (⟨S_, .i32⟩ : BufTy).Contents (Elt F) → (⟨S800000, .i32⟩ : BufTy).Contents (Elt F)),
    binary main_arg1 main_v71 main_v72 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v73 (broadcastInDim S800000 ![] bcast_S_S800000 : (⟨S_, .i32⟩ : BufTy).Contents (Elt F) → (⟨S800000, .i32⟩ : BufTy).Contents (Elt F)),
    binary main_arg1 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_arg1 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v70 main_v76 main_v77 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_13 (constant S_ .f32 0x00000000#32),
    unary main_cst_13 main_v78 (broadcastInDim S50000x256 ![] bcast_S_S50000x256 : (⟨S_, .f32⟩ : BufTy).Contents (Elt F) → (⟨S50000x256, .f32⟩ : BufTy).Contents (Elt F)),
    unary main_arg2 main_v79 (broadcastInDim S800000x1 ![0] bcast_S800000_S800000x1_0 : (⟨S800000, .i32⟩ : BufTy).Contents (Elt F) → (⟨S800000x1, .i32⟩ : BufTy).Contents (Elt F)),
    ternary main_v78 main_v79 main_v77 main_v80 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v8 main_v81 (broadcastInDim S50000x256 ![0, 1] bcast_S50000x1_S50000x256_0_1 : (⟨S50000x1, .f32⟩ : BufTy).Contents (Elt F) → (⟨S50000x256, .f32⟩ : BufTy).Contents (Elt F)),
    binary main_v80 main_v81 main_v82 (mulf : (⟨S50000x256, .f32⟩ : BufTy).Contents (Elt F) → (⟨S50000x256, .f32⟩ : BufTy).Contents (Elt F) → (⟨S50000x256, .f32⟩ : BufTy).Contents (Elt F)),
    binary main_v82 main_arg13 main_v83 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg14 main_v84 (broadcastInDim S1x64 ![1] bcast_S64_S1x64_1 : (⟨S64, .f32⟩ : BufTy).Contents (Elt F) → (⟨S1x64, .f32⟩ : BufTy).Contents (Elt F)),
    unary main_v84 main_v85 (broadcastInDim S50000x64 ![0, 1] bcast_S1x64_S50000x64_0_1 : (⟨S1x64, .f32⟩ : BufTy).Contents (Elt F) → (⟨S50000x64, .f32⟩ : BufTy).Contents (Elt F)),
    binary main_v83 main_v85 main_v86 (addf : (⟨S50000x64, .f32⟩ : BufTy).Contents (Elt F) → (⟨S50000x64, .f32⟩ : BufTy).Contents (Elt F) → (⟨S50000x64, .f32⟩ : BufTy).Contents (Elt F)),
    binary main_v70 main_arg15 main_v87 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    binary main_v86 main_v87 main_v88 (addf : (⟨S50000x64, .f32⟩ : BufTy).Contents (Elt F) → (⟨S50000x64, .f32⟩ : BufTy).Contents (Elt F) → (⟨S50000x64, .f32⟩ : BufTy).Contents (Elt F)),
    unary main_v88 main_v89 (Host.negf : (⟨S50000x64, .f32⟩ : BufTy).Contents (Elt F) → (⟨S50000x64, .f32⟩ : BufTy).Contents (Elt F)),
    unary main_v89 main_v90 (Host.exp : (⟨S50000x64, .f32⟩ : BufTy).Contents (Elt F) → (⟨S50000x64, .f32⟩ : BufTy).Contents (Elt F)),
    nullary main_cst_14 (constant S_ .f32 0x3F800000#32),
    unary main_cst_14 main_v91 (broadcastInDim S50000x64 ![] bcast_S_S50000x64 : (⟨S_, .f32⟩ : BufTy).Contents (Elt F) → (⟨S50000x64, .f32⟩ : BufTy).Contents (Elt F)),
    binary main_v91 main_v90 main_v92 (addf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x3F800000#32),
    unary main_cst_15 main_v93 (broadcastInDim S50000x64 ![] bcast_S_S50000x64 : (⟨S_, .f32⟩ : BufTy).Contents (Elt F) → (⟨S50000x64, .f32⟩ : BufTy).Contents (Elt F)),
    binary main_v93 main_v92 main_v94 (Host.divf : (⟨S50000x64, .f32⟩ : BufTy).Contents (Elt F) → (⟨S50000x64, .f32⟩ : BufTy).Contents (Elt F) → (⟨S50000x64, .f32⟩ : BufTy).Contents (Elt F)) ]

noncomputable def A1b_sig_w : List (Ref sig .tc) :=
  [main_c_11, main_v71, main_v72, main_c_12, main_v73, main_v74, main_v75, main_v76, main_v77, main_cst_13, main_v78, main_v79, main_v80, main_v81, main_v82, main_v83, main_v84, main_v85, main_v86, main_v87, main_v88, main_v89, main_v90, main_cst_14, main_v91, main_v92, main_cst_15, main_v93, main_v94]

noncomputable def opsA1b : List (HloOp τ sig (Elt F)) := A1b_pre ++ (A1b_relu ++ A1b_sig)

end Chunks

theorem A1b_pre_writes : (A1b_pre (F := Ideal)).Forall fun op => op.writes ⊆ (A1b_pre_w.map (Proc.devRef (τ := τ) .tc)).toFinset := by
  simp only [A1b_pre, List.Forall, nullary_writes, unary_writes, binary_writes, ternary_writes, reshape_writes]
  (repeat' apply And.intro) <;> exact single_sub (by decide)

theorem A1b_relu_writes : (A1b_relu (F := Ideal)).Forall fun op => op.writes ⊆ (A1b_relu_w.map (Proc.devRef (τ := τ) .tc)).toFinset := by
  simp only [A1b_relu, List.Forall, nullary_writes, unary_writes, binary_writes, ternary_writes, reshape_writes]
  (repeat' apply And.intro) <;> exact single_sub (by decide)

theorem A1b_sig_writes : (A1b_sig (F := Ideal)).Forall fun op => op.writes ⊆ (A1b_sig_w.map (Proc.devRef (τ := τ) .tc)).toFinset := by
  simp only [A1b_sig, List.Forall, nullary_writes, unary_writes, binary_writes, ternary_writes, reshape_writes]
  (repeat' apply And.intro) <;> exact single_sub (by decide)

-- The two 128-wide outputs set side by side, aggregated over the edges, enter the 256-wide layer's two products.
theorem A1b_pre_val (V : RVal) (a : KVals.Args) (hA : ArgsAt a V) (h8 : V (Proc.devRef .tc main_v8) = Vals.invdeg a.ed) (H0 H1 : FVec Ideal S50000x128 .f32)
    (h29 : V (Proc.devRef .tc main_v29) = H0) (h50 : V (Proc.devRef .tc main_v50) = H1) :
    after (A1b_pre (F := Ideal)) V (Proc.devRef .tc main_v69)
      = (addf (addf (Host.dotGeneral dot_S50000x256_S256x256_S50000x256_1_0_0_1_n_n none (Vals.agg256 a.es a.ed (Vals.cat H0 H1)) a.Wl_m)
          (broadcastInDim S50000x256 ![0, 1] bcast_S1x256_S50000x256_0_1 (broadcastInDim S1x256 ![1] bcast_S256_S1x256_1 a.bl_m)))
          (Host.dotGeneral dot_S50000x256_S256x256_S50000x256_1_0_0_1_n_n none (Vals.cat H0 H1) a.Wr_m) : FVec Ideal S50000x256 .f32) := by
  unfold A1b_pre
  after_results_simp
  rw [hA.h1, hA.h2, hA.h10, hA.h11, hA.h12, h8, h29, h50]
  rfl

theorem A1b_relu_val (V : RVal) (P : FVec Ideal S50000x256 .f32) (h : V (Proc.devRef .tc main_v69) = P) :
    after (A1b_relu (F := Ideal)) V (Proc.devRef .tc main_v70)
      = maximumf P (broadcastInDim S50000x256 ![] bcast_S_S50000x256 (constant S_ .f32 0x00000000#32)) := by
  unfold A1b_relu
  after_results_simp
  rw [h]
  rfl

-- 1 / (1 + exp (−z)) of the output layer's pre-activation is the specification's sigmoid layer.
theorem A1b_sig_val (V : RVal) (a : KVals.Args) (X2 : FVec Ideal S50000x256 .f32) (hA : ArgsAt a V)
    (h8 : V (Proc.devRef .tc main_v8) = Vals.invdeg a.ed) (h70 : V (Proc.devRef .tc main_v70) = X2) :
    after (A1b_sig (F := Ideal)) V (Proc.devRef .tc main_v94)
      = Spec.sigLayer (Vals.agg256 a.es a.ed X2) X2 a.Wl_o a.Wr_o a.bl_o := by
  unfold A1b_sig
  after_results_simp
  rw [hA.h1, hA.h2, hA.h13, hA.h14, hA.h15, h8, h70]
  exact RefLayers.sig_layer_eq dot_S50000x256_S256x64_S50000x64_1_0_0_1_n_n rfl rfl rfl rfl rfl rfl none
    bcast_S64_S1x64_1 bcast_S1x64_S50000x64_0_1 bcast_S_S50000x64 (Vals.agg256 a.es a.ed X2) X2 a.Wl_o a.Wr_o a.bl_o

theorem taskA1b (V : RVal) (a : KVals.Args) (H0 H1 : FVec Ideal Cert.ReferenceIdeal.S50000x128 .f32) (hA : ArgsAt a V) (h8 : V (Proc.devRef .tc Cert.ReferenceIdeal.main_v8) = Vals.invdeg a.ed) (h29 : V (Proc.devRef .tc Cert.ReferenceIdeal.main_v29) = H0) (h50 : V (Proc.devRef .tc Cert.ReferenceIdeal.main_v50) = H1) : StableHlo.after (opsA1b (F := Ideal)) V (Proc.devRef .tc Cert.ReferenceIdeal.main_v94) = Spec.sigLayer (Vals.agg256 a.es a.ed (Spec.reluLayer (Vals.agg256 a.es a.ed (Vals.cat H0 H1)) (Vals.cat H0 H1) a.Wl_m a.Wr_m a.bl_m)) (Spec.reluLayer (Vals.agg256 a.es a.ed (Vals.cat H0 H1)) (Vals.cat H0 H1) a.Wl_m a.Wr_m a.bl_m) a.Wl_o a.Wr_o a.bl_o := by
  unfold opsA1b
  rw [after_append, after_append]
  exact A1b_sig_val _ a _
    (args_keep (args_keep hA A1b_pre A1b_pre_w A1b_pre_writes (by decide)) A1b_relu A1b_relu_w A1b_relu_writes (by decide))
    ((after_of_writes_sub A1b_relu _ A1b_relu_writes (by decide : main_v8 ∉ A1b_relu_w)).trans
      ((after_of_writes_sub A1b_pre _ A1b_pre_writes (by decide : main_v8 ∉ A1b_pre_w)).trans h8))
    ((A1b_relu_val _ _ (A1b_pre_val V a hA h8 H0 H1 h29 h50)).trans (RefLayers.relu_layer_eq dot_S50000x256_S256x256_S50000x256_1_0_0_1_n_n rfl rfl rfl rfl rfl rfl none bcast_S256_S1x256_1 bcast_S1x256_S50000x256_0_1 bcast_S_S50000x256 _ _ _ _ _))

theorem keptA1b_v8 (V : RVal) : StableHlo.after (opsA1b (F := Ideal)) V (Proc.devRef .tc Cert.ReferenceIdeal.main_v8) = V (Proc.devRef .tc Cert.ReferenceIdeal.main_v8) := by
  unfold opsA1b
  rw [after_append, after_append]
  exact (after_of_writes_sub A1b_sig _ A1b_sig_writes (by decide : main_v8 ∉ A1b_sig_w)).trans
    ((after_of_writes_sub A1b_relu _ A1b_relu_writes (by decide : main_v8 ∉ A1b_relu_w)).trans
      (after_of_writes_sub A1b_pre V A1b_pre_writes (by decide : main_v8 ∉ A1b_pre_w)))

theorem argsA1b (V : RVal) (a : KVals.Args) (hA : ArgsAt a V) : ArgsAt a (StableHlo.after (opsA1b (F := Ideal)) V) := by
  unfold opsA1b
  rw [after_append, after_append]
  exact args_keep (args_keep (args_keep hA A1b_pre A1b_pre_w A1b_pre_writes (by decide))
    A1b_relu A1b_relu_w A1b_relu_writes (by decide)) A1b_sig A1b_sig_w A1b_sig_writes (by decide)

end Cert.RefSide

end
-- ==== Proof.RefSideA2L.lean ====
/- Task 0's three head layers in the reference program (operations 119 to 223): each stretch of operations leaves the
   sigmoid layer of the task's node representation, read back at any contents holding the arguments. -/
import proofs.«181152_j39822936769202_1_alg».proof.Proof.RefBase
import proofs.«181152_j39822936769202_1_alg».proof.Proof.RefLayers
import proofs.«181152_j39822936769202_1_alg».proof.Proof.LibLabels
import Idealize.ShloMosaic.Lib.StableHlo.Run

set_option maxRecDepth 16384

noncomputable section

namespace Cert.RefSide.A2

open Cert.ReferenceIdeal Cert.ReferenceIdeal.Gen Idealize.ShloMosaic Idealize.ShloMosaic.TcCoe Idealize.SL.Sem Idealize.ShloMosaic.StableHlo
open Idealize.ShloMosaic.ValueIdx

variable [Cert.KernelIdeal.Facts]

section c1_defs
variable {F : FTy → Type} [FloatOps F]

noncomputable def c1 : List (HloOp τ sig (Elt F)) :=
  [
    unary main_arg16 main_v95 ((extractStridedSlice S1x64x12 ![0, 0, 0] · slices_S2x64x12_S1x64x12_0_0_0) : (⟨S2x64x12, .f32⟩ : BufTy).Contents (Elt F) → (⟨S1x64x12, .f32⟩ : BufTy).Contents (Elt F)),
    reshape main_v95 main_v96 rfl shapeCasts_S1x64x12_S64x12,
    unary main_arg17 main_v97 ((extractStridedSlice S1x12 ![0, 0] · slices_S2x12_S1x12_0_0) : (⟨S2x12, .f32⟩ : BufTy).Contents (Elt F) → (⟨S1x12, .f32⟩ : BufTy).Contents (Elt F)),
    reshape main_v97 main_v98 rfl shapeCasts_S1x12_S12,
    unary main_arg18 main_v99 ((extractStridedSlice S1x64x12 ![0, 0, 0] · slices_S2x64x12_S1x64x12_0_0_0) : (⟨S2x64x12, .f32⟩ : BufTy).Contents (Elt F) → (⟨S1x64x12, .f32⟩ : BufTy).Contents (Elt F)),
    reshape main_v99 main_v100 rfl shapeCasts_S1x64x12_S64x12,
    nullary main_c_16 (constantI S_ 32 0#32),
    unary main_c_16 main_v101 (broadcastInDim S800000 ![] bcast_S_S800000 : (⟨S_, .i32⟩ : BufTy).Contents (Elt F) → (⟨S800000, .i32⟩ : BufTy).Contents (Elt F)),
    binary main_arg1 main_v101 main_v102 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v103 (broadcastInDim S800000 ![] bcast_S_S800000 : (⟨S_, .i32⟩ : BufTy).Contents (Elt F) → (⟨S800000, .i32⟩ : BufTy).Contents (Elt F)),
    binary main_arg1 main_v103 main_v104 (addi : (⟨S800000, .i32⟩ : BufTy).Contents (Elt F) → (⟨S800000, .i32⟩ : BufTy).Contents (Elt F) → (⟨S800000, .i32⟩ : BufTy).Contents (Elt F)),
    ternary main_v102 main_v104 main_arg1 main_v105 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v105 main_v106 (broadcastInDim S800000x1 ![0] bcast_S800000_S800000x1_0 : (⟨S800000, .i32⟩ : BufTy).Contents (Elt F) → (⟨S800000x1, .i32⟩ : BufTy).Contents (Elt F)),
    binary main_v94 main_v106 main_v107 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_18 (constant S_ .f32 0x00000000#32),
    unary main_cst_18 main_v108 (broadcastInDim S50000x64 ![] bcast_S_S50000x64 : (⟨S_, .f32⟩ : BufTy).Contents (Elt F) → (⟨S50000x64, .f32⟩ : BufTy).Contents (Elt F)),
    unary main_arg2 main_v109 (broadcastInDim S800000x1 ![0] bcast_S800000_S800000x1_0 : (⟨S800000, .i32⟩ : BufTy).Contents (Elt F) → (⟨S800000x1, .i32⟩ : BufTy).Contents (Elt F)),
    ternary main_v108 main_v109 main_v107 main_v110 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v111 (broadcastInDim S50000x64 ![0, 1] bcast_S50000x1_S50000x64_0_1 : (⟨S50000x1, .f32⟩ : BufTy).Contents (Elt F) → (⟨S50000x64, .f32⟩ : BufTy).Contents (Elt F)),
    binary main_v110 main_v111 main_v112 (mulf : (⟨S50000x64, .f32⟩ : BufTy).Contents (Elt F) → (⟨S50000x64, .f32⟩ : BufTy).Contents (Elt F) → (⟨S50000x64, .f32⟩ : BufTy).Contents (Elt F)),
    binary main_v112 main_v96 main_v113 ((fun l r => Host.dotGeneral dot_S50000x64_S64x12_S50000x12_1_0_0_1_n_n none l r) : (⟨S50000x64, .f32⟩ : BufTy).Contents (Elt F) → (⟨S64x12, .f32⟩ : BufTy).Contents (Elt F) → (⟨S50000x12, .f32⟩ : BufTy).Contents (Elt F)),
    unary main_v98 main_v114 (broadcastInDim S1x12 ![1] bcast_S12_S1x12_1 : (⟨S12, .f32⟩ : BufTy).Contents (Elt F) → (⟨S1x12, .f32⟩ : BufTy).Contents (Elt F)),
    unary main_v114 main_v115 (broadcastInDim S50000x12 ![0, 1] bcast_S1x12_S50000x12_0_1 : (⟨S1x12, .f32⟩ : BufTy).Contents (Elt F) → (⟨S50000x12, .f32⟩ : BufTy).Contents (Elt F)),
    binary main_v113 main_v115 main_v116 (addf : (⟨S50000x12, .f32⟩ : BufTy).Contents (Elt F) → (⟨S50000x12, .f32⟩ : BufTy).Contents (Elt F) → (⟨S50000x12, .f32⟩ : BufTy).Contents (Elt F)),
    binary main_v94 main_v100 main_v117 ((fun l r => Host.dotGeneral dot_S50000x64_S64x12_S50000x12_1_0_0_1_n_n none l r) : (⟨S50000x64, .f32⟩ : BufTy).Contents (Elt F) → (⟨S64x12, .f32⟩ : BufTy).Contents (Elt F) → (⟨S50000x12, .f32⟩ : BufTy).Contents (Elt F)),
    binary main_v116 main_v117 main_v118 (addf : (⟨S50000x12, .f32⟩ : BufTy).Contents (Elt F) → (⟨S50000x12, .f32⟩ : BufTy).Contents (Elt F) → (⟨S50000x12, .f32⟩ : BufTy).Contents (Elt F)),
    unary main_v118 main_v119 (Host.negf : (⟨S50000x12, .f32⟩ : BufTy).Contents (Elt F) → (⟨S50000x12, .f32⟩ : BufTy).Contents (Elt F)),
    unary main_v119 main_v120 (Host.exp : (⟨S50000x12, .f32⟩ : BufTy).Contents (Elt F) → (⟨S50000x12, .f32⟩ : BufTy).Contents (Elt F)),
    nullary main_cst_19 (constant S_ .f32 0x3F800000#32),
    unary main_cst_19 main_v121 (broadcastInDim S50000x12 ![] bcast_S_S50000x12 : (⟨S_, .f32⟩ : BufTy).Contents (Elt F) → (⟨S50000x12, .f32⟩ : BufTy).Contents (Elt F)),
    binary main_v121 main_v120 main_v122 (addf : (⟨S50000x12, .f32⟩ : BufTy).Contents (Elt F) → (⟨S50000x12, .f32⟩ : BufTy).Contents (Elt F) → (⟨S50000x12, .f32⟩ : BufTy).Contents (Elt F)),
    nullary main_cst_20 (constant S_ .f32 0x3F800000#32),
    unary main_cst_20 main_v123 (broadcastInDim S50000x12 ![] bcast_S_S50000x12 : (⟨S_, .f32⟩ : BufTy).Contents (Elt F) → (⟨S50000x12, .f32⟩ : BufTy).Contents (Elt F)),
    binary main_v123 main_v122 main_v124 (Host.divf : (⟨S50000x12, .f32⟩ : BufTy).Contents (Elt F) → (⟨S50000x12, .f32⟩ : BufTy).Contents (Elt F) → (⟨S50000x12, .f32⟩ : BufTy).Contents (Elt F)) ]

noncomputable def c1_w : List (Ref sig .tc) :=
  [main_v95, main_v96, main_v97, main_v98, main_v99, main_v100, main_c_16, main_v101, main_v102, main_c_17, main_v103, main_v104, main_v105, main_v106, main_v107, main_cst_18, main_v108, main_v109, main_v110, main_v111, main_v112, main_v113, main_v114, main_v115, main_v116, main_v117, main_v118, main_v119, main_v120, main_cst_19, main_v121, main_v122, main_cst_20, main_v123, main_v124]

theorem c1_writes : (c1 (F := F)).Forall fun op => op.writes ⊆ (c1_w.map (Proc.devRef (τ := τ) .tc)).toFinset := by
  simp only [c1, List.Forall, nullary_writes, unary_writes, binary_writes, ternary_writes, reshape_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

end c1_defs

theorem c1_kept {r : Ref sig .tc} (V : RVal) (hr : r ∉ c1_w) :
    after (c1 (F := Ideal)) V (Proc.devRef .tc r) = V (Proc.devRef .tc r) :=
  after_of_writes_sub _ V c1_writes hr

theorem c1_args {a : KVals.Args} {V : RVal} (hA : ArgsAt a V) : ArgsAt a (after (c1 (F := Ideal)) V) :=
  args_keep hA _ _ c1_writes (by decide)

theorem c1_v124 (V : RVal) (a : KVals.Args) (hA : ArgsAt a V) (h8 : V (Proc.devRef .tc main_v8) = Vals.invdeg a.ed)
    (h94 : V (Proc.devRef .tc main_v94) = KVals.hk0 a) :
    after (c1 (F := Ideal)) V (Proc.devRef .tc main_v124) = KVals.o00 a := by
  unfold c1
  after_results_simp
  rw [hA.h1, hA.h2, hA.h16, hA.h17, hA.h18, h8, h94]
  unfold KVals.o00
  exact Cert.RefLayers.sig_layer_eq _ rfl rfl rfl rfl rfl rfl none _ _ _ _ _ _ _ _

section c2_defs
variable {F : FTy → Type} [FloatOps F]

noncomputable def c2 : List (HloOp τ sig (Elt F)) :=
  [
    unary main_arg19 main_v125 ((extractStridedSlice S1x64x8 ![0, 0, 0] · slices_S2x64x8_S1x64x8_0_0_0) : (⟨S2x64x8, .f32⟩ : BufTy).Contents (Elt F) → (⟨S1x64x8, .f32⟩ : BufTy).Contents (Elt F)),
    reshape main_v125 main_v126 rfl shapeCasts_S1x64x8_S64x8,
    unary main_arg20 main_v127 ((extractStridedSlice S1x8 ![0, 0] · slices_S2x8_S1x8_0_0) : (⟨S2x8, .f32⟩ : BufTy).Contents (Elt F) → (⟨S1x8, .f32⟩ : BufTy).Contents (Elt F)),
    reshape main_v127 main_v128 rfl shapeCasts_S1x8_S8,
    unary main_arg21 main_v129 ((extractStridedSlice S1x64x8 ![0, 0, 0] · slices_S2x64x8_S1x64x8_0_0_0) : (⟨S2x64x8, .f32⟩ : BufTy).Contents (Elt F) → (⟨S1x64x8, .f32⟩ : BufTy).Contents (Elt F)),
    reshape main_v129 main_v130 rfl shapeCasts_S1x64x8_S64x8,
    nullary main_c_21 (constantI S_ 32 0#32),
    unary main_c_21 main_v131 (broadcastInDim S800000 ![] bcast_S_S800000 : (⟨S_, .i32⟩ : BufTy).Contents (Elt F) → (⟨S800000, .i32⟩ : BufTy).Contents (Elt F)),
    binary main_arg1 main_v131 main_v132 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v133 (broadcastInDim S800000 ![] bcast_S_S800000 : (⟨S_, .i32⟩ : BufTy).Contents (Elt F) → (⟨S800000, .i32⟩ : BufTy).Contents (Elt F)),
    binary main_arg1 main_v133 main_v134 (addi : (⟨S800000, .i32⟩ : BufTy).Contents (Elt F) → (⟨S800000, .i32⟩ : BufTy).Contents (Elt F) → (⟨S800000, .i32⟩ : BufTy).Contents (Elt F)),
    ternary main_v132 main_v134 main_arg1 main_v135 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v135 main_v136 (broadcastInDim S800000x1 ![0] bcast_S800000_S800000x1_0 : (⟨S800000, .i32⟩ : BufTy).Contents (Elt F) → (⟨S800000x1, .i32⟩ : BufTy).Contents (Elt F)),
    binary main_v94 main_v136 main_v137 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_23 (constant S_ .f32 0x00000000#32),
    unary main_cst_23 main_v138 (broadcastInDim S50000x64 ![] bcast_S_S50000x64 : (⟨S_, .f32⟩ : BufTy).Contents (Elt F) → (⟨S50000x64, .f32⟩ : BufTy).Contents (Elt F)),
    unary main_arg2 main_v139 (broadcastInDim S800000x1 ![0] bcast_S800000_S800000x1_0 : (⟨S800000, .i32⟩ : BufTy).Contents (Elt F) → (⟨S800000x1, .i32⟩ : BufTy).Contents (Elt F)),
    ternary main_v138 main_v139 main_v137 main_v140 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v141 (broadcastInDim S50000x64 ![0, 1] bcast_S50000x1_S50000x64_0_1 : (⟨S50000x1, .f32⟩ : BufTy).Contents (Elt F) → (⟨S50000x64, .f32⟩ : BufTy).Contents (Elt F)),
    binary main_v140 main_v141 main_v142 (mulf : (⟨S50000x64, .f32⟩ : BufTy).Contents (Elt F) → (⟨S50000x64, .f32⟩ : BufTy).Contents (Elt F) → (⟨S50000x64, .f32⟩ : BufTy).Contents (Elt F)),
    binary main_v142 main_v126 main_v143 ((fun l r => Host.dotGeneral dot_S50000x64_S64x8_S50000x8_1_0_0_1_n_n none l r) : (⟨S50000x64, .f32⟩ : BufTy).Contents (Elt F) → (⟨S64x8, .f32⟩ : BufTy).Contents (Elt F) → (⟨S50000x8, .f32⟩ : BufTy).Contents (Elt F)),
    unary main_v128 main_v144 (broadcastInDim S1x8 ![1] bcast_S8_S1x8_1 : (⟨S8, .f32⟩ : BufTy).Contents (Elt F) → (⟨S1x8, .f32⟩ : BufTy).Contents (Elt F)),
    unary main_v144 main_v145 (broadcastInDim S50000x8 ![0, 1] bcast_S1x8_S50000x8_0_1 : (⟨S1x8, .f32⟩ : BufTy).Contents (Elt F) → (⟨S50000x8, .f32⟩ : BufTy).Contents (Elt F)),
    binary main_v143 main_v145 main_v146 (addf : (⟨S50000x8, .f32⟩ : BufTy).Contents (Elt F) → (⟨S50000x8, .f32⟩ : BufTy).Contents (Elt F) → (⟨S50000x8, .f32⟩ : BufTy).Contents (Elt F)),
    binary main_v94 main_v130 main_v147 ((fun l r => Host.dotGeneral dot_S50000x64_S64x8_S50000x8_1_0_0_1_n_n none l r) : (⟨S50000x64, .f32⟩ : BufTy).Contents (Elt F) → (⟨S64x8, .f32⟩ : BufTy).Contents (Elt F) → (⟨S50000x8, .f32⟩ : BufTy).Contents (Elt F)),
    binary main_v146 main_v147 main_v148 (addf : (⟨S50000x8, .f32⟩ : BufTy).Contents (Elt F) → (⟨S50000x8, .f32⟩ : BufTy).Contents (Elt F) → (⟨S50000x8, .f32⟩ : BufTy).Contents (Elt F)),
    unary main_v148 main_v149 (Host.negf : (⟨S50000x8, .f32⟩ : BufTy).Contents (Elt F) → (⟨S50000x8, .f32⟩ : BufTy).Contents (Elt F)),
    unary main_v149 main_v150 (Host.exp : (⟨S50000x8, .f32⟩ : BufTy).Contents (Elt F) → (⟨S50000x8, .f32⟩ : BufTy).Contents (Elt F)),
    nullary main_cst_24 (constant S_ .f32 0x3F800000#32),
    unary main_cst_24 main_v151 (broadcastInDim S50000x8 ![] bcast_S_S50000x8 : (⟨S_, .f32⟩ : BufTy).Contents (Elt F) → (⟨S50000x8, .f32⟩ : BufTy).Contents (Elt F)),
    binary main_v151 main_v150 main_v152 (addf : (⟨S50000x8, .f32⟩ : BufTy).Contents (Elt F) → (⟨S50000x8, .f32⟩ : BufTy).Contents (Elt F) → (⟨S50000x8, .f32⟩ : BufTy).Contents (Elt F)),
    nullary main_cst_25 (constant S_ .f32 0x3F800000#32),
    unary main_cst_25 main_v153 (broadcastInDim S50000x8 ![] bcast_S_S50000x8 : (⟨S_, .f32⟩ : BufTy).Contents (Elt F) → (⟨S50000x8, .f32⟩ : BufTy).Contents (Elt F)),
    binary main_v153 main_v152 main_v154 (Host.divf : (⟨S50000x8, .f32⟩ : BufTy).Contents (Elt F) → (⟨S50000x8, .f32⟩ : BufTy).Contents (Elt F) → (⟨S50000x8, .f32⟩ : BufTy).Contents (Elt F)) ]

noncomputable def c2_w : List (Ref sig .tc) :=
  [main_v125, main_v126, main_v127, main_v128, main_v129, main_v130, main_c_21, main_v131, main_v132, main_c_22, main_v133, main_v134, main_v135, main_v136, main_v137, main_cst_23, main_v138, main_v139, main_v140, main_v141, main_v142, main_v143, main_v144, main_v145, main_v146, main_v147, main_v148, main_v149, main_v150, main_cst_24, main_v151, main_v152, main_cst_25, main_v153, main_v154]

theorem c2_writes : (c2 (F := F)).Forall fun op => op.writes ⊆ (c2_w.map (Proc.devRef (τ := τ) .tc)).toFinset := by
  simp only [c2, List.Forall, nullary_writes, unary_writes, binary_writes, ternary_writes, reshape_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

end c2_defs

theorem c2_kept {r : Ref sig .tc} (V : RVal) (hr : r ∉ c2_w) :
    after (c2 (F := Ideal)) V (Proc.devRef .tc r) = V (Proc.devRef .tc r) :=
  after_of_writes_sub _ V c2_writes hr

theorem c2_args {a : KVals.Args} {V : RVal} (hA : ArgsAt a V) : ArgsAt a (after (c2 (F := Ideal)) V) :=
  args_keep hA _ _ c2_writes (by decide)

theorem c2_v154 (V : RVal) (a : KVals.Args) (hA : ArgsAt a V) (h8 : V (Proc.devRef .tc main_v8) = Vals.invdeg a.ed)
    (h94 : V (Proc.devRef .tc main_v94) = KVals.hk0 a) :
    after (c2 (F := Ideal)) V (Proc.devRef .tc main_v154) = KVals.o01 a := by
  unfold c2
  after_results_simp
  rw [hA.h1, hA.h2, hA.h19, hA.h20, hA.h21, h8, h94]
  unfold KVals.o01
  exact Cert.RefLayers.sig_layer_eq _ rfl rfl rfl rfl rfl rfl none _ _ _ _ _ _ _ _

section c3_defs
variable {F : FTy → Type} [FloatOps F]

noncomputable def c3 : List (HloOp τ sig (Elt F)) :=
  [
    unary main_arg22 main_v155 ((extractStridedSlice S1x64x5 ![0, 0, 0] · slices_S2x64x5_S1x64x5_0_0_0) : (⟨S2x64x5, .f32⟩ : BufTy).Contents (Elt F) → (⟨S1x64x5, .f32⟩ : BufTy).Contents (Elt F)),
    reshape main_v155 main_v156 rfl shapeCasts_S1x64x5_S64x5,
    unary main_arg23 main_v157 ((extractStridedSlice S1x5 ![0, 0] · slices_S2x5_S1x5_0_0) : (⟨S2x5, .f32⟩ : BufTy).Contents (Elt F) → (⟨S1x5, .f32⟩ : BufTy).Contents (Elt F)),
    reshape main_v157 main_v158 rfl shapeCasts_S1x5_S5,
    unary main_arg24 main_v159 ((extractStridedSlice S1x64x5 ![0, 0, 0] · slices_S2x64x5_S1x64x5_0_0_0) : (⟨S2x64x5, .f32⟩ : BufTy).Contents (Elt F) → (⟨S1x64x5, .f32⟩ : BufTy).Contents (Elt F)),
    reshape main_v159 main_v160 rfl shapeCasts_S1x64x5_S64x5,
    nullary main_c_26 (constantI S_ 32 0#32),
    unary main_c_26 main_v161 (broadcastInDim S800000 ![] bcast_S_S800000 : (⟨S_, .i32⟩ : BufTy).Contents (Elt F) → (⟨S800000, .i32⟩ : BufTy).Contents (Elt F)),
    binary main_arg1 main_v161 main_v162 (cmpi .slt : (⟨S800000, .i32⟩ : BufTy).Contents (Elt F) → (⟨S800000, .i32⟩ : BufTy).Contents (Elt F) → (⟨S800000, .i1⟩ : BufTy).Contents (Elt F)),
    nullary main_c_27 (constantI S_ 32 50000#32),
    unary main_c_27 main_v163 (broadcastInDim S800000 ![] bcast_S_S800000 : (⟨S_, .i32⟩ : BufTy).Contents (Elt F) → (⟨S800000, .i32⟩ : BufTy).Contents (Elt F)),
    binary main_arg1 main_v163 main_v164 (addi : (⟨S800000, .i32⟩ : BufTy).Contents (Elt F) → (⟨S800000, .i32⟩ : BufTy).Contents (Elt F) → (⟨S800000, .i32⟩ : BufTy).Contents (Elt F)),
    ternary main_v162 main_v164 main_arg1 main_v165 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v165 main_v166 (broadcastInDim S800000x1 ![0] bcast_S800000_S800000x1_0 : (⟨S800000, .i32⟩ : BufTy).Contents (Elt F) → (⟨S800000x1, .i32⟩ : BufTy).Contents (Elt F)),
    binary main_v94 main_v166 main_v167 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_28 (constant S_ .f32 0x00000000#32),
    unary main_cst_28 main_v168 (broadcastInDim S50000x64 ![] bcast_S_S50000x64 : (⟨S_, .f32⟩ : BufTy).Contents (Elt F) → (⟨S50000x64, .f32⟩ : BufTy).Contents (Elt F)),
    unary main_arg2 main_v169 (broadcastInDim S800000x1 ![0] bcast_S800000_S800000x1_0 : (⟨S800000, .i32⟩ : BufTy).Contents (Elt F) → (⟨S800000x1, .i32⟩ : BufTy).Contents (Elt F)),
    ternary main_v168 main_v169 main_v167 main_v170 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v171 (broadcastInDim S50000x64 ![0, 1] bcast_S50000x1_S50000x64_0_1 : (⟨S50000x1, .f32⟩ : BufTy).Contents (Elt F) → (⟨S50000x64, .f32⟩ : BufTy).Contents (Elt F)),
    binary main_v170 main_v171 main_v172 (mulf : (⟨S50000x64, .f32⟩ : BufTy).Contents (Elt F) → (⟨S50000x64, .f32⟩ : BufTy).Contents (Elt F) → (⟨S50000x64, .f32⟩ : BufTy).Contents (Elt F)),
    binary main_v172 main_v156 main_v173 ((fun l r => Host.dotGeneral dot_S50000x64_S64x5_S50000x5_1_0_0_1_n_n none l r) : (⟨S50000x64, .f32⟩ : BufTy).Contents (Elt F) → (⟨S64x5, .f32⟩ : BufTy).Contents (Elt F) → (⟨S50000x5, .f32⟩ : BufTy).Contents (Elt F)),
    unary main_v158 main_v174 (broadcastInDim S1x5 ![1] bcast_S5_S1x5_1 : (⟨S5, .f32⟩ : BufTy).Contents (Elt F) → (⟨S1x5, .f32⟩ : BufTy).Contents (Elt F)),
    unary main_v174 main_v175 (broadcastInDim S50000x5 ![0, 1] bcast_S1x5_S50000x5_0_1 : (⟨S1x5, .f32⟩ : BufTy).Contents (Elt F) → (⟨S50000x5, .f32⟩ : BufTy).Contents (Elt F)),
    binary main_v173 main_v175 main_v176 (addf : (⟨S50000x5, .f32⟩ : BufTy).Contents (Elt F) → (⟨S50000x5, .f32⟩ : BufTy).Contents (Elt F) → (⟨S50000x5, .f32⟩ : BufTy).Contents (Elt F)),
    binary main_v94 main_v160 main_v177 ((fun l r => Host.dotGeneral dot_S50000x64_S64x5_S50000x5_1_0_0_1_n_n none l r) : (⟨S50000x64, .f32⟩ : BufTy).Contents (Elt F) → (⟨S64x5, .f32⟩ : BufTy).Contents (Elt F) → (⟨S50000x5, .f32⟩ : BufTy).Contents (Elt F)),
    binary main_v176 main_v177 main_v178 (addf : (⟨S50000x5, .f32⟩ : BufTy).Contents (Elt F) → (⟨S50000x5, .f32⟩ : BufTy).Contents (Elt F) → (⟨S50000x5, .f32⟩ : BufTy).Contents (Elt F)),
    unary main_v178 main_v179 (Host.negf : (⟨S50000x5, .f32⟩ : BufTy).Contents (Elt F) → (⟨S50000x5, .f32⟩ : BufTy).Contents (Elt F)),
    unary main_v179 main_v180 (Host.exp : (⟨S50000x5, .f32⟩ : BufTy).Contents (Elt F) → (⟨S50000x5, .f32⟩ : BufTy).Contents (Elt F)),
    nullary main_cst_29 (constant S_ .f32 0x3F800000#32),
    unary main_cst_29 main_v181 (broadcastInDim S50000x5 ![] bcast_S_S50000x5 : (⟨S_, .f32⟩ : BufTy).Contents (Elt F) → (⟨S50000x5, .f32⟩ : BufTy).Contents (Elt F)),
    binary main_v181 main_v180 main_v182 (addf : (⟨S50000x5, .f32⟩ : BufTy).Contents (Elt F) → (⟨S50000x5, .f32⟩ : BufTy).Contents (Elt F) → (⟨S50000x5, .f32⟩ : BufTy).Contents (Elt F)),
    nullary main_cst_30 (constant S_ .f32 0x3F800000#32),
    unary main_cst_30 main_v183 (broadcastInDim S50000x5 ![] bcast_S_S50000x5 : (⟨S_, .f32⟩ : BufTy).Contents (Elt F) → (⟨S50000x5, .f32⟩ : BufTy).Contents (Elt F)),
    binary main_v183 main_v182 main_v184 (Host.divf : (⟨S50000x5, .f32⟩ : BufTy).Contents (Elt F) → (⟨S50000x5, .f32⟩ : BufTy).Contents (Elt F) → (⟨S50000x5, .f32⟩ : BufTy).Contents (Elt F)) ]

noncomputable def c3_w : List (Ref sig .tc) :=
  [main_v155, main_v156, main_v157, main_v158, main_v159, main_v160, main_c_26, main_v161, main_v162, main_c_27, main_v163, main_v164, main_v165, main_v166, main_v167, main_cst_28, main_v168, main_v169, main_v170, main_v171, main_v172, main_v173, main_v174, main_v175, main_v176, main_v177, main_v178, main_v179, main_v180, main_cst_29, main_v181, main_v182, main_cst_30, main_v183, main_v184]

theorem c3_writes : (c3 (F := F)).Forall fun op => op.writes ⊆ (c3_w.map (Proc.devRef (τ := τ) .tc)).toFinset := by
  simp only [c3, List.Forall, nullary_writes, unary_writes, binary_writes, ternary_writes, reshape_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

end c3_defs

theorem c3_kept {r : Ref sig .tc} (V : RVal) (hr : r ∉ c3_w) :
    after (c3 (F := Ideal)) V (Proc.devRef .tc r) = V (Proc.devRef .tc r) :=
  after_of_writes_sub _ V c3_writes hr

theorem c3_args {a : KVals.Args} {V : RVal} (hA : ArgsAt a V) : ArgsAt a (after (c3 (F := Ideal)) V) :=
  args_keep hA _ _ c3_writes (by decide)

theorem c3_v184 (V : RVal) (a : KVals.Args) (hA : ArgsAt a V) (h8 : V (Proc.devRef .tc main_v8) = Vals.invdeg a.ed)
    (h94 : V (Proc.devRef .tc main_v94) = KVals.hk0 a) :
    after (c3 (F := Ideal)) V (Proc.devRef .tc main_v184) = KVals.o02 a := by
  unfold c3
  after_results_simp
  rw [hA.h1, hA.h2, hA.h22, hA.h23, hA.h24, h8, h94]
  unfold KVals.o02
  exact Cert.RefLayers.sig_layer_eq _ rfl rfl rfl rfl rfl rfl none _ _ _ _ _ _ _ _

end Cert.RefSide.A2

end
-- ==== Proof.RefSideA2H.lean ====
/- Task 0's three loss heads in the reference program (operations 224 to 362): the row-wise log-softmax of a head's
   outputs, taken along the labels and averaged with a minus sign, is the head's negated mean once every label is in range. -/
import proofs.«181152_j39822936769202_1_alg».proof.Proof.RefBase
import proofs.«181152_j39822936769202_1_alg».proof.Proof.RefLayers
import proofs.«181152_j39822936769202_1_alg».proof.Proof.LibLabels
import Idealize.ShloMosaic.Lib.StableHlo.Run

set_option maxRecDepth 16384

noncomputable section

namespace Cert.RefSide.A2

open Cert.ReferenceIdeal Cert.ReferenceIdeal.Gen Idealize.ShloMosaic Idealize.ShloMosaic.TcCoe Idealize.SL.Sem Idealize.ShloMosaic.StableHlo
open Idealize.ShloMosaic.ValueIdx

variable [Cert.KernelIdeal.Facts]

theorem head_chain_eq {C : Nat} (hC : 0 < C)
    (h' : (⟨2, ![50000, C]⟩ : Shape).ReducesTo [1] (⟨1, ![50000]⟩ : Shape)) (hu : 0 < (⟨0, ![]⟩ : Shape).numel)
    (h0 : (⟨0, ![]⟩ : Shape).BroadcastsInDim (⟨1, ![50000]⟩ : Shape) ![])
    (h1 : (⟨1, ![50000]⟩ : Shape).BroadcastsInDim (⟨2, ![50000, 1]⟩ : Shape) ![0])
    (h2 : (⟨2, ![50000, 1]⟩ : Shape).BroadcastsInDim (⟨2, ![50000, C]⟩ : Shape) ![0, 1])
    (hb2 : (⟨0, ![]⟩ : Shape).BroadcastsInDim (⟨2, ![50000, 1]⟩ : Shape) ![])
    (hsc : (⟨2, ![50000, 1]⟩ : Shape).ShapeCasts (⟨3, ![50000, 1, 1]⟩ : Shape))
    (hb3 : (⟨0, ![]⟩ : Shape).BroadcastsInDim (⟨3, ![50000, 1, 1]⟩ : Shape) ![])
    (hb1 : (⟨1, ![1]⟩ : Shape).BroadcastsInDim (⟨3, ![1, 1, 1]⟩ : Shape) ![2])
    (hb111 : (⟨3, ![1, 1, 1]⟩ : Shape).BroadcastsInDim (⟨3, ![50000, 1, 1]⟩ : Shape) ![0, 1, 2])
    (hred : (⟨3, ![50000, 1, 1]⟩ : Shape).ReducesTo [2] (⟨2, ![50000, 1]⟩ : Shape))
    (d : GatherDims (⟨2, ![50000, C]⟩ : Shape) (⟨3, ![50000, 1, 1]⟩ : Shape) (⟨2, ![50000, 1]⟩ : Shape))
    (hoff : d.offsetDims = []) (hcoll : d.collapsedSliceDims = [1]) (hob : d.operandBatchingDims = [0])
    (hsb : d.startIndicesBatchingDims = [0]) (hsim : d.startIndexMap = [1]) (hivd : d.indexVectorDim = 2)
    (c cm1 : BitVec 32) (hcm1 : cm1.toInt = (C : Int) - 1)
    (hredH : (⟨2, ![50000, 1]⟩ : Shape).ReducesTo [0, 1] (⟨0, ![]⟩ : Shape))
    (o : FVec Ideal ⟨2, ![50000, C]⟩ .f32) (lab : IVec ⟨1, ![50000]⟩ 32)
    (hlab : ∀ r : Fin 50000, 0 ≤ (lab (ix1 r)).toInt ∧ (lab (ix1 r)).toInt < C) :
    Host.negf (Host.divf (Host.reduceAdd
        (Cert.RefLayers.hostTakeAlong hb2 hsc hb3 hb1 hb111 hred hu d c cm1 (Cert.RefLayers.hostLogSoftmax h' hu h0 h1 h2 o)
          (broadcastInDim ⟨2, ![50000, 1]⟩ ![0] h1 lab))
        (constant (F := Ideal) ⟨0, ![]⟩ .f32 0x00000000#32) hredH hu)
      (constant (F := Ideal) ⟨0, ![]⟩ .f32 0x47435000#32))
      = fun _ => Spec.headRef o (fun r => (⟨(lab (ix1 r)).toInt.toNat % C, Nat.mod_lt _ hC⟩ : Fin C)) := by
  rw [Cert.RefLayers.log_softmax_eq h' hu h0 h1 h2 o]
  refine Cert.RefLayers.head_take_along_eq hC hb2 hsc hb3 hb1 hb111 hred hu d hoff hcoll hob hsb hsim hivd c cm1 hcm1 hredH o _ _
    (fun r => ?_)
  rw [Cert.LibRowRead.bcast_column_apply h1 lab r 0]
  obtain ⟨hl0, hl1⟩ := hlab r
  show (lab (ix1 r)).toInt = (((lab (ix1 r)).toInt.toNat % C : ℕ) : ℤ)
  have hlt : (lab (ix1 r)).toInt.toNat < C := by omega
  rw [Nat.mod_eq_of_lt hlt]
  exact (Int.toNat_of_nonneg hl0).symm

section c4_defs
variable {F : FTy → Type} [FloatOps F]

noncomputable def c4 : List (HloOp τ sig (Elt F)) :=
  [
    unary main_arg3 main_v185 ((extractStridedSlice S1x50000x1 ![0, 0, 0] · slices_S2x50000x3_S1x50000x1_0_0_0) : (⟨S2x50000x3, .i32⟩ : BufTy).Contents (Elt F) → (⟨S1x50000x1, .i32⟩ : BufTy).Contents (Elt F)),
    reshape main_v185 main_v186 rfl shapeCasts_S1x50000x1_S50000,
    nullary main_call3_cst (constant S_ .f32 0xFF800000#32),
    binary main_v124 main_call3_cst main_call3_v0 ((fun x v => Host.reduce FloatOps.maximumf x v reducesTo_S50000x12_S50000_d1 h_S_) : (⟨S50000x12, .f32⟩ : BufTy).Contents (Elt F) → (⟨S_, .f32⟩ : BufTy).Contents (Elt F) → (⟨S50000, .f32⟩ : BufTy).Contents (Elt F)),
    nullary main_call3_cst_0 (constant S_ .f32 0xFF800000#32),
    unary main_call3_cst_0 main_call3_v1 ((broadcastInDim S50000 ![] bcast_S_S50000) : (⟨S_, .f32⟩ : BufTy).Contents (Elt F) → (⟨S50000, .f32⟩ : BufTy).Contents (Elt F)),
    binary main_call3_v1 main_call3_v0 main_call3_v2 ((maximumf) : (⟨S50000, .f32⟩ : BufTy).Contents (Elt F) → (⟨S50000, .f32⟩ : BufTy).Contents (Elt F) → (⟨S50000, .f32⟩ : BufTy).Contents (Elt F)),
    unary main_call3_v2 main_call3_v3 ((broadcastInDim S50000x1 ![0] bcast_S50000_S50000x1_0) : (⟨S50000, .f32⟩ : BufTy).Contents (Elt F) → (⟨S50000x1, .f32⟩ : BufTy).Contents (Elt F)),
    unary main_call3_v3 main_call3_v4 ((broadcastInDim S50000x12 ![0, 1] bcast_S50000x1_S50000x12_0_1) : (⟨S50000x1, .f32⟩ : BufTy).Contents (Elt F) → (⟨S50000x12, .f32⟩ : BufTy).Contents (Elt F)),
    binary main_v124 main_call3_v4 main_call3_v5 ((subf) : (⟨S50000x12, .f32⟩ : BufTy).Contents (Elt F) → (⟨S50000x12, .f32⟩ : BufTy).Contents (Elt F) → (⟨S50000x12, .f32⟩ : BufTy).Contents (Elt F)),
    unary main_call3_v5 main_call3_v6 ((Host.exp) : (⟨S50000x12, .f32⟩ : BufTy).Contents (Elt F) → (⟨S50000x12, .f32⟩ : BufTy).Contents (Elt F)),
    nullary main_call3_cst_1 (constant S_ .f32 0x00000000#32),
    binary main_call3_v6 main_call3_cst_1 main_call3_v7 ((fun x v => Host.reduceAdd x v reducesTo_S50000x12_S50000_d1 h_S_) : (⟨S50000x12, .f32⟩ : BufTy).Contents (Elt F) → (⟨S_, .f32⟩ : BufTy).Contents (Elt F) → (⟨S50000, .f32⟩ : BufTy).Contents (Elt F)),
    unary main_call3_v7 main_call3_v8 ((broadcastInDim S50000x1 ![0] bcast_S50000_S50000x1_0) : (⟨S50000, .f32⟩ : BufTy).Contents (Elt F) → (⟨S50000x1, .f32⟩ : BufTy).Contents (Elt F)),
    unary main_call3_v8 main_call3_v9 ((Host.log) : (⟨S50000x1, .f32⟩ : BufTy).Contents (Elt F) → (⟨S50000x1, .f32⟩ : BufTy).Contents (Elt F)),
    unary main_call3_v9 main_call3_v10 ((broadcastInDim S50000x12 ![0, 1] bcast_S50000x1_S50000x12_0_1) : (⟨S50000x1, .f32⟩ : BufTy).Contents (Elt F) → (⟨S50000x12, .f32⟩ : BufTy).Contents (Elt F)),
    binary main_call3_v5 main_call3_v10 main_v187 ((subf) : (⟨S50000x12, .f32⟩ : BufTy).Contents (Elt F) → (⟨S50000x12, .f32⟩ : BufTy).Contents (Elt F) → (⟨S50000x12, .f32⟩ : BufTy).Contents (Elt F)),
    unary main_v186 main_v188 (broadcastInDim S50000x1 ![0] bcast_S50000_S50000x1_0 : (⟨S50000, .i32⟩ : BufTy).Contents (Elt F) → (⟨S50000x1, .i32⟩ : BufTy).Contents (Elt F)),
    nullary main_call4_c (constantI S_ 32 0#32),
    unary main_call4_c main_call4_v0 ((broadcastInDim S50000x1 ![] bcast_S_S50000x1) : (⟨S_, .i32⟩ : BufTy).Contents (Elt F) → (⟨S50000x1, .i32⟩ : BufTy).Contents (Elt F)),
    binary main_v188 main_call4_v0 main_call4_v1 ((cmpi .slt) : (⟨S50000x1, .i32⟩ : BufTy).Contents (Elt F) → (⟨S50000x1, .i32⟩ : BufTy).Contents (Elt F) → (⟨S50000x1, .i1⟩ : BufTy).Contents (Elt F)),
    nullary main_call4_c_0 (constantI S_ 32 12#32),
    unary main_call4_c_0 main_call4_v2 ((broadcastInDim S50000x1 ![] bcast_S_S50000x1) : (⟨S_, .i32⟩ : BufTy).Contents (Elt F) → (⟨S50000x1, .i32⟩ : BufTy).Contents (Elt F)),
    binary main_v188 main_call4_v2 main_call4_v3 ((addi) : (⟨S50000x1, .i32⟩ : BufTy).Contents (Elt F) → (⟨S50000x1, .i32⟩ : BufTy).Contents (Elt F) → (⟨S50000x1, .i32⟩ : BufTy).Contents (Elt F)),
    ternary main_call4_v1 main_call4_v3 main_v188 main_call4_v4 ((select) : (⟨S50000x1, .i1⟩ : BufTy).Contents (Elt F) → (⟨S50000x1, .i32⟩ : BufTy).Contents (Elt F) → (⟨S50000x1, .i32⟩ : BufTy).Contents (Elt F) → (⟨S50000x1, .i32⟩ : BufTy).Contents (Elt F)),
    reshape main_call4_v4 main_call4_v5 rfl shapeCasts_S50000x1_S50000x1x1,
    nullary main_call4_c_1 (constantI S1 32 11#32),
    nullary main_call4_c_2 (constantI S_ 32 0#32),
    unary main_call4_c_2 main_call4_v6 ((broadcastInDim S50000x1x1 ![] bcast_S_S50000x1x1) : (⟨S_, .i32⟩ : BufTy).Contents (Elt F) → (⟨S50000x1x1, .i32⟩ : BufTy).Contents (Elt F)),
    binary main_call4_v5 main_call4_v6 main_call4_v7 ((cmpi .sge) : (⟨S50000x1x1, .i32⟩ : BufTy).Contents (Elt F) → (⟨S50000x1x1, .i32⟩ : BufTy).Contents (Elt F) → (⟨S50000x1x1, .i1⟩ : BufTy).Contents (Elt F)),
    unary main_call4_c_1 main_call4_v8 ((broadcastInDim S1x1x1 ![2] bcast_S1_S1x1x1_2) : (⟨S1, .i32⟩ : BufTy).Contents (Elt F) → (⟨S1x1x1, .i32⟩ : BufTy).Contents (Elt F)),
    unary main_call4_v8 main_call4_v9 ((broadcastInDim S50000x1x1 ![0, 1, 2] bcast_S1x1x1_S50000x1x1_0_1_2) : (⟨S1x1x1, .i32⟩ : BufTy).Contents (Elt F) → (⟨S50000x1x1, .i32⟩ : BufTy).Contents (Elt F)),
    binary main_call4_v5 main_call4_v9 main_call4_v10 ((cmpi .sle) : (⟨S50000x1x1, .i32⟩ : BufTy).Contents (Elt F) → (⟨S50000x1x1, .i32⟩ : BufTy).Contents (Elt F) → (⟨S50000x1x1, .i1⟩ : BufTy).Contents (Elt F)),
    binary main_call4_v7 main_call4_v10 main_call4_v11 ((andi) : (⟨S50000x1x1, .i1⟩ : BufTy).Contents (Elt F) → (⟨S50000x1x1, .i1⟩ : BufTy).Contents (Elt F) → (⟨S50000x1x1, .i1⟩ : BufTy).Contents (Elt F)),
    nullary main_call4_c_3 (constantI S_ 1 1#1),
    binary main_call4_v11 main_call4_c_3 main_call4_v12 ((fun x v => Host.reduce IntOp.andi x v reducesTo_S50000x1x1_S50000x1_d2 h_S_) : (⟨S50000x1x1, .i1⟩ : BufTy).Contents (Elt F) → (⟨S_, .i1⟩ : BufTy).Contents (Elt F) → (⟨S50000x1, .i1⟩ : BufTy).Contents (Elt F)),
    binary main_v187 main_call4_v5 main_call4_v13 ((fun x i => Host.gather gather_S50000x12_S50000x1x1_S50000x1_n_1_0_0_1_2_11 x i) : (⟨S50000x12, .f32⟩ : BufTy).Contents (Elt F) → (⟨S50000x1x1, .i32⟩ : BufTy).Contents (Elt F) → (⟨S50000x1, .f32⟩ : BufTy).Contents (Elt F)),
    nullary main_call4_cst (constant S_ .f32 0x7FC00000#32),
    unary main_call4_cst main_call4_v14 ((broadcastInDim S50000x1 ![] bcast_S_S50000x1) : (⟨S_, .f32⟩ : BufTy).Contents (Elt F) → (⟨S50000x1, .f32⟩ : BufTy).Contents (Elt F)),
    ternary main_call4_v12 main_call4_v13 main_call4_v14 main_v189 ((select) : (⟨S50000x1, .i1⟩ : BufTy).Contents (Elt F) → (⟨S50000x1, .f32⟩ : BufTy).Contents (Elt F) → (⟨S50000x1, .f32⟩ : BufTy).Contents (Elt F) → (⟨S50000x1, .f32⟩ : BufTy).Contents (Elt F)),
    nullary main_cst_31 (constant S_ .f32 0x00000000#32),
    binary main_v189 main_cst_31 main_v190 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    nullary main_cst_32 (constant S_ .f32 0x47435000#32),
    binary main_v190 main_cst_32 main_v191 (Host.divf : (⟨S_, .f32⟩ : BufTy).Contents (Elt F) → (⟨S_, .f32⟩ : BufTy).Contents (Elt F) → (⟨S_, .f32⟩ : BufTy).Contents (Elt F)),
    unary main_v191 main_v192 (Host.negf : (⟨S_, .f32⟩ : BufTy).Contents (Elt F) → (⟨S_, .f32⟩ : BufTy).Contents (Elt F)),
    nullary main_cst_33 (constant S_ .f32 0x00000000#32),
    binary main_cst_33 main_v192 main_v193 (addf : (⟨S_, .f32⟩ : BufTy).Contents (Elt F) → (⟨S_, .f32⟩ : BufTy).Contents (Elt F) → (⟨S_, .f32⟩ : BufTy).Contents (Elt F)) ]

noncomputable def c4_w : List (Ref sig .tc) :=
  [main_v185, main_v186, main_call3_cst, main_call3_v0, main_call3_cst_0, main_call3_v1, main_call3_v2, main_call3_v3, main_call3_v4, main_call3_v5, main_call3_v6, main_call3_cst_1, main_call3_v7, main_call3_v8, main_call3_v9, main_call3_v10, main_v187, main_v188, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v189, main_cst_31, main_v190, main_cst_32, main_v191, main_v192, main_cst_33, main_v193]

theorem c4_writes : (c4 (F := F)).Forall fun op => op.writes ⊆ (c4_w.map (Proc.devRef (τ := τ) .tc)).toFinset := by
  simp only [c4, List.Forall, nullary_writes, unary_writes, binary_writes, ternary_writes, reshape_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

end c4_defs

theorem c4_kept {r : Ref sig .tc} (V : RVal) (hr : r ∉ c4_w) :
    after (c4 (F := Ideal)) V (Proc.devRef .tc r) = V (Proc.devRef .tc r) :=
  after_of_writes_sub _ V c4_writes hr

theorem c4_args {a : KVals.Args} {V : RVal} (hA : ArgsAt a V) : ArgsAt a (after (c4 (F := Ideal)) V) :=
  args_keep hA _ _ c4_writes (by decide)

theorem c4_v193 (V : RVal) (a : KVals.Args) (hA : ArgsAt a V)
    (ho : V (Proc.devRef .tc main_v124) = KVals.o00 a)
    (hlab : ∀ r : Fin 50000, 0 ≤ (KVals.lab00 a (ix1 r)).toInt ∧ (KVals.lab00 a (ix1 r)).toInt < 12) :
    after (c4 (F := Ideal)) V (Proc.devRef .tc main_v193)
      = addf (constant (F := Ideal) S_ .f32 0x00000000#32) (KVals.HR00 a) := by
  unfold c4
  after_results_simp
  rw [hA.h3, ho]
  refine congrArg (addf _) ?_
  unfold KVals.HR00 KVals.labOf
  exact head_chain_eq (C := 12) (by decide) reducesTo_S50000x12_S50000_d1 h_S_ bcast_S_S50000 bcast_S50000_S50000x1_0
    bcast_S50000x1_S50000x12_0_1 bcast_S_S50000x1 shapeCasts_S50000x1_S50000x1x1 bcast_S_S50000x1x1 bcast_S1_S1x1x1_2
    bcast_S1x1x1_S50000x1x1_0_1_2 reducesTo_S50000x1x1_S50000x1_d2 gather_S50000x12_S50000x1x1_S50000x1_n_1_0_0_1_2_11
    rfl rfl rfl rfl rfl rfl 12#32 11#32 (by decide) reducesTo_S50000x1_S_d0_1 (KVals.o00 a) (KVals.lab00 a) hlab

section c5_defs
variable {F : FTy → Type} [FloatOps F]

noncomputable def c5 : List (HloOp τ sig (Elt F)) :=
  [
    unary main_arg3 main_v194 ((extractStridedSlice S1x50000x1 ![0, 0, 1] · slices_S2x50000x3_S1x50000x1_0_0_1) : (⟨S2x50000x3, .i32⟩ : BufTy).Contents (Elt F) → (⟨S1x50000x1, .i32⟩ : BufTy).Contents (Elt F)),
    reshape main_v194 main_v195 rfl shapeCasts_S1x50000x1_S50000,
    nullary main_call5_cst (constant S_ .f32 0xFF800000#32),
    binary main_v154 main_call5_cst main_call5_v0 ((fun x v => Host.reduce FloatOps.maximumf x v reducesTo_S50000x8_S50000_d1 h_S_) : (⟨S50000x8, .f32⟩ : BufTy).Contents (Elt F) → (⟨S_, .f32⟩ : BufTy).Contents (Elt F) → (⟨S50000, .f32⟩ : BufTy).Contents (Elt F)),
    nullary main_call5_cst_0 (constant S_ .f32 0xFF800000#32),
    unary main_call5_cst_0 main_call5_v1 ((broadcastInDim S50000 ![] bcast_S_S50000) : (⟨S_, .f32⟩ : BufTy).Contents (Elt F) → (⟨S50000, .f32⟩ : BufTy).Contents (Elt F)),
    binary main_call5_v1 main_call5_v0 main_call5_v2 ((maximumf) : (⟨S50000, .f32⟩ : BufTy).Contents (Elt F) → (⟨S50000, .f32⟩ : BufTy).Contents (Elt F) → (⟨S50000, .f32⟩ : BufTy).Contents (Elt F)),
    unary main_call5_v2 main_call5_v3 ((broadcastInDim S50000x1 ![0] bcast_S50000_S50000x1_0) : (⟨S50000, .f32⟩ : BufTy).Contents (Elt F) → (⟨S50000x1, .f32⟩ : BufTy).Contents (Elt F)),
    unary main_call5_v3 main_call5_v4 ((broadcastInDim S50000x8 ![0, 1] bcast_S50000x1_S50000x8_0_1) : (⟨S50000x1, .f32⟩ : BufTy).Contents (Elt F) → (⟨S50000x8, .f32⟩ : BufTy).Contents (Elt F)),
    binary main_v154 main_call5_v4 main_call5_v5 ((subf) : (⟨S50000x8, .f32⟩ : BufTy).Contents (Elt F) → (⟨S50000x8, .f32⟩ : BufTy).Contents (Elt F) → (⟨S50000x8, .f32⟩ : BufTy).Contents (Elt F)),
    unary main_call5_v5 main_call5_v6 ((Host.exp) : (⟨S50000x8, .f32⟩ : BufTy).Contents (Elt F) → (⟨S50000x8, .f32⟩ : BufTy).Contents (Elt F)),
    nullary main_call5_cst_1 (constant S_ .f32 0x00000000#32),
    binary main_call5_v6 main_call5_cst_1 main_call5_v7 ((fun x v => Host.reduceAdd x v reducesTo_S50000x8_S50000_d1 h_S_) : (⟨S50000x8, .f32⟩ : BufTy).Contents (Elt F) → (⟨S_, .f32⟩ : BufTy).Contents (Elt F) → (⟨S50000, .f32⟩ : BufTy).Contents (Elt F)),
    unary main_call5_v7 main_call5_v8 ((broadcastInDim S50000x1 ![0] bcast_S50000_S50000x1_0) : (⟨S50000, .f32⟩ : BufTy).Contents (Elt F) → (⟨S50000x1, .f32⟩ : BufTy).Contents (Elt F)),
    unary main_call5_v8 main_call5_v9 ((Host.log) : (⟨S50000x1, .f32⟩ : BufTy).Contents (Elt F) → (⟨S50000x1, .f32⟩ : BufTy).Contents (Elt F)),
    unary main_call5_v9 main_call5_v10 ((broadcastInDim S50000x8 ![0, 1] bcast_S50000x1_S50000x8_0_1) : (⟨S50000x1, .f32⟩ : BufTy).Contents (Elt F) → (⟨S50000x8, .f32⟩ : BufTy).Contents (Elt F)),
    binary main_call5_v5 main_call5_v10 main_v196 ((subf) : (⟨S50000x8, .f32⟩ : BufTy).Contents (Elt F) → (⟨S50000x8, .f32⟩ : BufTy).Contents (Elt F) → (⟨S50000x8, .f32⟩ : BufTy).Contents (Elt F)),
    unary main_v195 main_v197 (broadcastInDim S50000x1 ![0] bcast_S50000_S50000x1_0 : (⟨S50000, .i32⟩ : BufTy).Contents (Elt F) → (⟨S50000x1, .i32⟩ : BufTy).Contents (Elt F)),
    nullary main_call6_c (constantI S_ 32 0#32),
    unary main_call6_c main_call6_v0 ((broadcastInDim S50000x1 ![] bcast_S_S50000x1) : (⟨S_, .i32⟩ : BufTy).Contents (Elt F) → (⟨S50000x1, .i32⟩ : BufTy).Contents (Elt F)),
    binary main_v197 main_call6_v0 main_call6_v1 ((cmpi .slt) : (⟨S50000x1, .i32⟩ : BufTy).Contents (Elt F) → (⟨S50000x1, .i32⟩ : BufTy).Contents (Elt F) → (⟨S50000x1, .i1⟩ : BufTy).Contents (Elt F)),
    nullary main_call6_c_0 (constantI S_ 32 8#32),
    unary main_call6_c_0 main_call6_v2 ((broadcastInDim S50000x1 ![] bcast_S_S50000x1) : (⟨S_, .i32⟩ : BufTy).Contents (Elt F) → (⟨S50000x1, .i32⟩ : BufTy).Contents (Elt F)),
    binary main_v197 main_call6_v2 main_call6_v3 ((addi) : (⟨S50000x1, .i32⟩ : BufTy).Contents (Elt F) → (⟨S50000x1, .i32⟩ : BufTy).Contents (Elt F) → (⟨S50000x1, .i32⟩ : BufTy).Contents (Elt F)),
    ternary main_call6_v1 main_call6_v3 main_v197 main_call6_v4 ((select) : (⟨S50000x1, .i1⟩ : BufTy).Contents (Elt F) → (⟨S50000x1, .i32⟩ : BufTy).Contents (Elt F) → (⟨S50000x1, .i32⟩ : BufTy).Contents (Elt F) → (⟨S50000x1, .i32⟩ : BufTy).Contents (Elt F)),
    reshape main_call6_v4 main_call6_v5 rfl shapeCasts_S50000x1_S50000x1x1,
    nullary main_call6_c_1 (constantI S1 32 7#32),
    nullary main_call6_c_2 (constantI S_ 32 0#32),
    unary main_call6_c_2 main_call6_v6 ((broadcastInDim S50000x1x1 ![] bcast_S_S50000x1x1) : (⟨S_, .i32⟩ : BufTy).Contents (Elt F) → (⟨S50000x1x1, .i32⟩ : BufTy).Contents (Elt F)),
    binary main_call6_v5 main_call6_v6 main_call6_v7 ((cmpi .sge) : (⟨S50000x1x1, .i32⟩ : BufTy).Contents (Elt F) → (⟨S50000x1x1, .i32⟩ : BufTy).Contents (Elt F) → (⟨S50000x1x1, .i1⟩ : BufTy).Contents (Elt F)),
    unary main_call6_c_1 main_call6_v8 ((broadcastInDim S1x1x1 ![2] bcast_S1_S1x1x1_2) : (⟨S1, .i32⟩ : BufTy).Contents (Elt F) → (⟨S1x1x1, .i32⟩ : BufTy).Contents (Elt F)),
    unary main_call6_v8 main_call6_v9 ((broadcastInDim S50000x1x1 ![0, 1, 2] bcast_S1x1x1_S50000x1x1_0_1_2) : (⟨S1x1x1, .i32⟩ : BufTy).Contents (Elt F) → (⟨S50000x1x1, .i32⟩ : BufTy).Contents (Elt F)),
    binary main_call6_v5 main_call6_v9 main_call6_v10 ((cmpi .sle) : (⟨S50000x1x1, .i32⟩ : BufTy).Contents (Elt F) → (⟨S50000x1x1, .i32⟩ : BufTy).Contents (Elt F) → (⟨S50000x1x1, .i1⟩ : BufTy).Contents (Elt F)),
    binary main_call6_v7 main_call6_v10 main_call6_v11 ((andi) : (⟨S50000x1x1, .i1⟩ : BufTy).Contents (Elt F) → (⟨S50000x1x1, .i1⟩ : BufTy).Contents (Elt F) → (⟨S50000x1x1, .i1⟩ : BufTy).Contents (Elt F)),
    nullary main_call6_c_3 (constantI S_ 1 1#1),
    binary main_call6_v11 main_call6_c_3 main_call6_v12 ((fun x v => Host.reduce IntOp.andi x v reducesTo_S50000x1x1_S50000x1_d2 h_S_) : (⟨S50000x1x1, .i1⟩ : BufTy).Contents (Elt F) → (⟨S_, .i1⟩ : BufTy).Contents (Elt F) → (⟨S50000x1, .i1⟩ : BufTy).Contents (Elt F)),
    binary main_v196 main_call6_v5 main_call6_v13 ((fun x i => Host.gather gather_S50000x8_S50000x1x1_S50000x1_n_1_0_0_1_2_11 x i) : (⟨S50000x8, .f32⟩ : BufTy).Contents (Elt F) → (⟨S50000x1x1, .i32⟩ : BufTy).Contents (Elt F) → (⟨S50000x1, .f32⟩ : BufTy).Contents (Elt F)),
    nullary main_call6_cst (constant S_ .f32 0x7FC00000#32),
    unary main_call6_cst main_call6_v14 ((broadcastInDim S50000x1 ![] bcast_S_S50000x1) : (⟨S_, .f32⟩ : BufTy).Contents (Elt F) → (⟨S50000x1, .f32⟩ : BufTy).Contents (Elt F)),
    ternary main_call6_v12 main_call6_v13 main_call6_v14 main_v198 ((select) : (⟨S50000x1, .i1⟩ : BufTy).Contents (Elt F) → (⟨S50000x1, .f32⟩ : BufTy).Contents (Elt F) → (⟨S50000x1, .f32⟩ : BufTy).Contents (Elt F) → (⟨S50000x1, .f32⟩ : BufTy).Contents (Elt F)),
    nullary main_cst_34 (constant S_ .f32 0x00000000#32),
    binary main_v198 main_cst_34 main_v199 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    nullary main_cst_35 (constant S_ .f32 0x47435000#32),
    binary main_v199 main_cst_35 main_v200 (Host.divf : (⟨S_, .f32⟩ : BufTy).Contents (Elt F) → (⟨S_, .f32⟩ : BufTy).Contents (Elt F) → (⟨S_, .f32⟩ : BufTy).Contents (Elt F)),
    unary main_v200 main_v201 (Host.negf : (⟨S_, .f32⟩ : BufTy).Contents (Elt F) → (⟨S_, .f32⟩ : BufTy).Contents (Elt F)),
    binary main_v193 main_v201 main_v202 (addf : (⟨S_, .f32⟩ : BufTy).Contents (Elt F) → (⟨S_, .f32⟩ : BufTy).Contents (Elt F) → (⟨S_, .f32⟩ : BufTy).Contents (Elt F)) ]

noncomputable def c5_w : List (Ref sig .tc) :=
  [main_v194, main_v195, main_call5_cst, main_call5_v0, main_call5_cst_0, main_call5_v1, main_call5_v2, main_call5_v3, main_call5_v4, main_call5_v5, main_call5_v6, main_call5_cst_1, main_call5_v7, main_call5_v8, main_call5_v9, main_call5_v10, main_v196, main_v197, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v198, main_cst_34, main_v199, main_cst_35, main_v200, main_v201, main_v202]

theorem c5_writes : (c5 (F := F)).Forall fun op => op.writes ⊆ (c5_w.map (Proc.devRef (τ := τ) .tc)).toFinset := by
  simp only [c5, List.Forall, nullary_writes, unary_writes, binary_writes, ternary_writes, reshape_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

end c5_defs

theorem c5_kept {r : Ref sig .tc} (V : RVal) (hr : r ∉ c5_w) :
    after (c5 (F := Ideal)) V (Proc.devRef .tc r) = V (Proc.devRef .tc r) :=
  after_of_writes_sub _ V c5_writes hr

theorem c5_args {a : KVals.Args} {V : RVal} (hA : ArgsAt a V) : ArgsAt a (after (c5 (F := Ideal)) V) :=
  args_keep hA _ _ c5_writes (by decide)

theorem c5_v202 (V : RVal) (a : KVals.Args) (hA : ArgsAt a V)
    (ho : V (Proc.devRef .tc main_v154) = KVals.o01 a)
    (hlab : ∀ r : Fin 50000, 0 ≤ (KVals.lab01 a (ix1 r)).toInt ∧ (KVals.lab01 a (ix1 r)).toInt < 8) :
    after (c5 (F := Ideal)) V (Proc.devRef .tc main_v202)
      = addf (V (Proc.devRef .tc main_v193)) (KVals.HR01 a) := by
  unfold c5
  after_results_simp
  rw [hA.h3, ho]
  refine congrArg (addf _) ?_
  unfold KVals.HR01 KVals.labOf
  exact head_chain_eq (C := 8) (by decide) reducesTo_S50000x8_S50000_d1 h_S_ bcast_S_S50000 bcast_S50000_S50000x1_0
    bcast_S50000x1_S50000x8_0_1 bcast_S_S50000x1 shapeCasts_S50000x1_S50000x1x1 bcast_S_S50000x1x1 bcast_S1_S1x1x1_2
    bcast_S1x1x1_S50000x1x1_0_1_2 reducesTo_S50000x1x1_S50000x1_d2 gather_S50000x8_S50000x1x1_S50000x1_n_1_0_0_1_2_11
    rfl rfl rfl rfl rfl rfl 8#32 7#32 (by decide) reducesTo_S50000x1_S_d0_1 (KVals.o01 a) (KVals.lab01 a) hlab

section c6_defs
variable {F : FTy → Type} [FloatOps F]

noncomputable def c6 : List (HloOp τ sig (Elt F)) :=
  [
    unary main_arg3 main_v203 ((extractStridedSlice S1x50000x1 ![0, 0, 2] · slices_S2x50000x3_S1x50000x1_0_0_2) : (⟨S2x50000x3, .i32⟩ : BufTy).Contents (Elt F) → (⟨S1x50000x1, .i32⟩ : BufTy).Contents (Elt F)),
    reshape main_v203 main_v204 rfl shapeCasts_S1x50000x1_S50000,
    nullary main_call7_cst (constant S_ .f32 0xFF800000#32),
    binary main_v184 main_call7_cst main_call7_v0 ((fun x v => Host.reduce FloatOps.maximumf x v reducesTo_S50000x5_S50000_d1 h_S_) : (⟨S50000x5, .f32⟩ : BufTy).Contents (Elt F) → (⟨S_, .f32⟩ : BufTy).Contents (Elt F) → (⟨S50000, .f32⟩ : BufTy).Contents (Elt F)),
    nullary main_call7_cst_0 (constant S_ .f32 0xFF800000#32),
    unary main_call7_cst_0 main_call7_v1 ((broadcastInDim S50000 ![] bcast_S_S50000) : (⟨S_, .f32⟩ : BufTy).Contents (Elt F) → (⟨S50000, .f32⟩ : BufTy).Contents (Elt F)),
    binary main_call7_v1 main_call7_v0 main_call7_v2 ((maximumf) : (⟨S50000, .f32⟩ : BufTy).Contents (Elt F) → (⟨S50000, .f32⟩ : BufTy).Contents (Elt F) → (⟨S50000, .f32⟩ : BufTy).Contents (Elt F)),
    unary main_call7_v2 main_call7_v3 ((broadcastInDim S50000x1 ![0] bcast_S50000_S50000x1_0) : (⟨S50000, .f32⟩ : BufTy).Contents (Elt F) → (⟨S50000x1, .f32⟩ : BufTy).Contents (Elt F)),
    unary main_call7_v3 main_call7_v4 ((broadcastInDim S50000x5 ![0, 1] bcast_S50000x1_S50000x5_0_1) : (⟨S50000x1, .f32⟩ : BufTy).Contents (Elt F) → (⟨S50000x5, .f32⟩ : BufTy).Contents (Elt F)),
    binary main_v184 main_call7_v4 main_call7_v5 ((subf) : (⟨S50000x5, .f32⟩ : BufTy).Contents (Elt F) → (⟨S50000x5, .f32⟩ : BufTy).Contents (Elt F) → (⟨S50000x5, .f32⟩ : BufTy).Contents (Elt F)),
    unary main_call7_v5 main_call7_v6 ((Host.exp) : (⟨S50000x5, .f32⟩ : BufTy).Contents (Elt F) → (⟨S50000x5, .f32⟩ : BufTy).Contents (Elt F)),
    nullary main_call7_cst_1 (constant S_ .f32 0x00000000#32),
    binary main_call7_v6 main_call7_cst_1 main_call7_v7 ((fun x v => Host.reduceAdd x v reducesTo_S50000x5_S50000_d1 h_S_) : (⟨S50000x5, .f32⟩ : BufTy).Contents (Elt F) → (⟨S_, .f32⟩ : BufTy).Contents (Elt F) → (⟨S50000, .f32⟩ : BufTy).Contents (Elt F)),
    unary main_call7_v7 main_call7_v8 ((broadcastInDim S50000x1 ![0] bcast_S50000_S50000x1_0) : (⟨S50000, .f32⟩ : BufTy).Contents (Elt F) → (⟨S50000x1, .f32⟩ : BufTy).Contents (Elt F)),
    unary main_call7_v8 main_call7_v9 ((Host.log) : (⟨S50000x1, .f32⟩ : BufTy).Contents (Elt F) → (⟨S50000x1, .f32⟩ : BufTy).Contents (Elt F)),
    unary main_call7_v9 main_call7_v10 ((broadcastInDim S50000x5 ![0, 1] bcast_S50000x1_S50000x5_0_1) : (⟨S50000x1, .f32⟩ : BufTy).Contents (Elt F) → (⟨S50000x5, .f32⟩ : BufTy).Contents (Elt F)),
    binary main_call7_v5 main_call7_v10 main_v205 ((subf) : (⟨S50000x5, .f32⟩ : BufTy).Contents (Elt F) → (⟨S50000x5, .f32⟩ : BufTy).Contents (Elt F) → (⟨S50000x5, .f32⟩ : BufTy).Contents (Elt F)),
    unary main_v204 main_v206 (broadcastInDim S50000x1 ![0] bcast_S50000_S50000x1_0 : (⟨S50000, .i32⟩ : BufTy).Contents (Elt F) → (⟨S50000x1, .i32⟩ : BufTy).Contents (Elt F)),
    nullary main_call8_c (constantI S_ 32 0#32),
    unary main_call8_c main_call8_v0 ((broadcastInDim S50000x1 ![] bcast_S_S50000x1) : (⟨S_, .i32⟩ : BufTy).Contents (Elt F) → (⟨S50000x1, .i32⟩ : BufTy).Contents (Elt F)),
    binary main_v206 main_call8_v0 main_call8_v1 ((cmpi .slt) : (⟨S50000x1, .i32⟩ : BufTy).Contents (Elt F) → (⟨S50000x1, .i32⟩ : BufTy).Contents (Elt F) → (⟨S50000x1, .i1⟩ : BufTy).Contents (Elt F)),
    nullary main_call8_c_0 (constantI S_ 32 5#32),
    unary main_call8_c_0 main_call8_v2 ((broadcastInDim S50000x1 ![] bcast_S_S50000x1) : (⟨S_, .i32⟩ : BufTy).Contents (Elt F) → (⟨S50000x1, .i32⟩ : BufTy).Contents (Elt F)),
    binary main_v206 main_call8_v2 main_call8_v3 ((addi) : (⟨S50000x1, .i32⟩ : BufTy).Contents (Elt F) → (⟨S50000x1, .i32⟩ : BufTy).Contents (Elt F) → (⟨S50000x1, .i32⟩ : BufTy).Contents (Elt F)),
    ternary main_call8_v1 main_call8_v3 main_v206 main_call8_v4 ((select) : (⟨S50000x1, .i1⟩ : BufTy).Contents (Elt F) → (⟨S50000x1, .i32⟩ : BufTy).Contents (Elt F) → (⟨S50000x1, .i32⟩ : BufTy).Contents (Elt F) → (⟨S50000x1, .i32⟩ : BufTy).Contents (Elt F)),
    reshape main_call8_v4 main_call8_v5 rfl shapeCasts_S50000x1_S50000x1x1,
    nullary main_call8_c_1 (constantI S1 32 4#32),
    nullary main_call8_c_2 (constantI S_ 32 0#32),
    unary main_call8_c_2 main_call8_v6 ((broadcastInDim S50000x1x1 ![] bcast_S_S50000x1x1) : (⟨S_, .i32⟩ : BufTy).Contents (Elt F) → (⟨S50000x1x1, .i32⟩ : BufTy).Contents (Elt F)),
    binary main_call8_v5 main_call8_v6 main_call8_v7 ((cmpi .sge) : (⟨S50000x1x1, .i32⟩ : BufTy).Contents (Elt F) → (⟨S50000x1x1, .i32⟩ : BufTy).Contents (Elt F) → (⟨S50000x1x1, .i1⟩ : BufTy).Contents (Elt F)),
    unary main_call8_c_1 main_call8_v8 ((broadcastInDim S1x1x1 ![2] bcast_S1_S1x1x1_2) : (⟨S1, .i32⟩ : BufTy).Contents (Elt F) → (⟨S1x1x1, .i32⟩ : BufTy).Contents (Elt F)),
    unary main_call8_v8 main_call8_v9 ((broadcastInDim S50000x1x1 ![0, 1, 2] bcast_S1x1x1_S50000x1x1_0_1_2) : (⟨S1x1x1, .i32⟩ : BufTy).Contents (Elt F) → (⟨S50000x1x1, .i32⟩ : BufTy).Contents (Elt F)),
    binary main_call8_v5 main_call8_v9 main_call8_v10 ((cmpi .sle) : (⟨S50000x1x1, .i32⟩ : BufTy).Contents (Elt F) → (⟨S50000x1x1, .i32⟩ : BufTy).Contents (Elt F) → (⟨S50000x1x1, .i1⟩ : BufTy).Contents (Elt F)),
    binary main_call8_v7 main_call8_v10 main_call8_v11 ((andi) : (⟨S50000x1x1, .i1⟩ : BufTy).Contents (Elt F) → (⟨S50000x1x1, .i1⟩ : BufTy).Contents (Elt F) → (⟨S50000x1x1, .i1⟩ : BufTy).Contents (Elt F)),
    nullary main_call8_c_3 (constantI S_ 1 1#1),
    binary main_call8_v11 main_call8_c_3 main_call8_v12 ((fun x v => Host.reduce IntOp.andi x v reducesTo_S50000x1x1_S50000x1_d2 h_S_) : (⟨S50000x1x1, .i1⟩ : BufTy).Contents (Elt F) → (⟨S_, .i1⟩ : BufTy).Contents (Elt F) → (⟨S50000x1, .i1⟩ : BufTy).Contents (Elt F)),
    binary main_v205 main_call8_v5 main_call8_v13 ((fun x i => Host.gather gather_S50000x5_S50000x1x1_S50000x1_n_1_0_0_1_2_11 x i) : (⟨S50000x5, .f32⟩ : BufTy).Contents (Elt F) → (⟨S50000x1x1, .i32⟩ : BufTy).Contents (Elt F) → (⟨S50000x1, .f32⟩ : BufTy).Contents (Elt F)),
    nullary main_call8_cst (constant S_ .f32 0x7FC00000#32),
    unary main_call8_cst main_call8_v14 ((broadcastInDim S50000x1 ![] bcast_S_S50000x1) : (⟨S_, .f32⟩ : BufTy).Contents (Elt F) → (⟨S50000x1, .f32⟩ : BufTy).Contents (Elt F)),
    ternary main_call8_v12 main_call8_v13 main_call8_v14 main_v207 ((select) : (⟨S50000x1, .i1⟩ : BufTy).Contents (Elt F) → (⟨S50000x1, .f32⟩ : BufTy).Contents (Elt F) → (⟨S50000x1, .f32⟩ : BufTy).Contents (Elt F) → (⟨S50000x1, .f32⟩ : BufTy).Contents (Elt F)),
    nullary main_cst_36 (constant S_ .f32 0x00000000#32),
    binary main_v207 main_cst_36 main_v208 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    nullary main_cst_37 (constant S_ .f32 0x47435000#32),
    binary main_v208 main_cst_37 main_v209 (Host.divf : (⟨S_, .f32⟩ : BufTy).Contents (Elt F) → (⟨S_, .f32⟩ : BufTy).Contents (Elt F) → (⟨S_, .f32⟩ : BufTy).Contents (Elt F)),
    unary main_v209 main_v210 (Host.negf : (⟨S_, .f32⟩ : BufTy).Contents (Elt F) → (⟨S_, .f32⟩ : BufTy).Contents (Elt F)),
    binary main_v202 main_v210 main_v211 (addf : (⟨S_, .f32⟩ : BufTy).Contents (Elt F) → (⟨S_, .f32⟩ : BufTy).Contents (Elt F) → (⟨S_, .f32⟩ : BufTy).Contents (Elt F)) ]

noncomputable def c6_w : List (Ref sig .tc) :=
  [main_v203, main_v204, main_call7_cst, main_call7_v0, main_call7_cst_0, main_call7_v1, main_call7_v2, main_call7_v3, main_call7_v4, main_call7_v5, main_call7_v6, main_call7_cst_1, main_call7_v7, main_call7_v8, main_call7_v9, main_call7_v10, main_v205, main_v206, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v207, main_cst_36, main_v208, main_cst_37, main_v209, main_v210, main_v211]

theorem c6_writes : (c6 (F := F)).Forall fun op => op.writes ⊆ (c6_w.map (Proc.devRef (τ := τ) .tc)).toFinset := by
  simp only [c6, List.Forall, nullary_writes, unary_writes, binary_writes, ternary_writes, reshape_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

end c6_defs

theorem c6_kept {r : Ref sig .tc} (V : RVal) (hr : r ∉ c6_w) :
    after (c6 (F := Ideal)) V (Proc.devRef .tc r) = V (Proc.devRef .tc r) :=
  after_of_writes_sub _ V c6_writes hr

theorem c6_args {a : KVals.Args} {V : RVal} (hA : ArgsAt a V) : ArgsAt a (after (c6 (F := Ideal)) V) :=
  args_keep hA _ _ c6_writes (by decide)

theorem c6_v211 (V : RVal) (a : KVals.Args) (hA : ArgsAt a V)
    (ho : V (Proc.devRef .tc main_v184) = KVals.o02 a)
    (hlab : ∀ r : Fin 50000, 0 ≤ (KVals.lab02 a (ix1 r)).toInt ∧ (KVals.lab02 a (ix1 r)).toInt < 5) :
    after (c6 (F := Ideal)) V (Proc.devRef .tc main_v211)
      = addf (V (Proc.devRef .tc main_v202)) (KVals.HR02 a) := by
  unfold c6
  after_results_simp
  rw [hA.h3, ho]
  refine congrArg (addf _) ?_
  unfold KVals.HR02 KVals.labOf
  exact head_chain_eq (C := 5) (by decide) reducesTo_S50000x5_S50000_d1 h_S_ bcast_S_S50000 bcast_S50000_S50000x1_0
    bcast_S50000x1_S50000x5_0_1 bcast_S_S50000x1 shapeCasts_S50000x1_S50000x1x1 bcast_S_S50000x1x1 bcast_S1_S1x1x1_2
    bcast_S1x1x1_S50000x1x1_0_1_2 reducesTo_S50000x1x1_S50000x1_d2 gather_S50000x5_S50000x1x1_S50000x1_n_1_0_0_1_2_11
    rfl rfl rfl rfl rfl rfl 5#32 4#32 (by decide) reducesTo_S50000x1_S_d0_1 (KVals.o02 a) (KVals.lab02 a) hlab

end Cert.RefSide.A2

end
-- ==== Proof.RefSideA2.lean ====
/- Operations 119 to 362 as the six stretches in order: the running total ends at 0 plus task 0's three heads. -/
import proofs.«181152_j39822936769202_1_alg».proof.Proof.RefSideA2L
import proofs.«181152_j39822936769202_1_alg».proof.Proof.RefSideA2H
import Idealize.ShloMosaic.Lib.Pipeline.Frame

set_option maxRecDepth 16384

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx
open Cert.RefSide.A2

variable [Cert.KernelIdeal.Facts]

section opsA2_def
variable {F : FTy → Type} [FloatOps F]

noncomputable def opsA2 : List (HloOp τ sig (Elt F)) := c1 ++ c2 ++ c3 ++ c4 ++ c5 ++ c6

theorem opsA2_eq : (opsA2 (F := F)) = c1 ++ c2 ++ c3 ++ c4 ++ c5 ++ c6 := rfl

end opsA2_def

theorem taskA2 (V : RVal) (a : KVals.Args) (hA : ArgsAt a V)
    (h8 : V (Proc.devRef .tc Cert.ReferenceIdeal.main_v8) = Vals.invdeg a.ed)
    (h94 : V (Proc.devRef .tc Cert.ReferenceIdeal.main_v94) = KVals.hk0 a)
    (h00 : ∀ r : Fin 50000, 0 ≤ (KVals.lab00 a (ix1 r)).toInt ∧ (KVals.lab00 a (ix1 r)).toInt < 12)
    (h01 : ∀ r : Fin 50000, 0 ≤ (KVals.lab01 a (ix1 r)).toInt ∧ (KVals.lab01 a (ix1 r)).toInt < 8)
    (h02 : ∀ r : Fin 50000, 0 ≤ (KVals.lab02 a (ix1 r)).toInt ∧ (KVals.lab02 a (ix1 r)).toInt < 5) :
    StableHlo.after (opsA2 (F := Ideal)) V (Proc.devRef .tc Cert.ReferenceIdeal.main_v211)
      = addf (addf (addf (constant (F := Ideal) Cert.ReferenceIdeal.S_ .f32 0x00000000#32) (KVals.HR00 a)) (KVals.HR01 a)) (KVals.HR02 a) := by
  rw [opsA2_eq]
  simp only [after_append]
  have hA1 : ArgsAt a (after (c1 (F := Ideal)) V) := c1_args hA
  have h8_1 := (c1_kept V (r := main_v8) (by decide)).trans h8
  have h94_1 := (c1_kept V (r := main_v94) (by decide)).trans h94
  have o1 := c1_v124 V a hA h8 h94
  have hA2 := c2_args hA1
  have h8_2 := (c2_kept _ (r := main_v8) (by decide)).trans h8_1
  have h94_2 := (c2_kept _ (r := main_v94) (by decide)).trans h94_1
  have o1_2 := (c2_kept _ (r := main_v124) (by decide)).trans o1
  have o2 := c2_v154 _ a hA1 h8_1 h94_1
  have hA3 := c3_args hA2
  have o1_3 := (c3_kept _ (r := main_v124) (by decide)).trans o1_2
  have o2_3 := (c3_kept _ (r := main_v154) (by decide)).trans o2
  have o3 := c3_v184 _ a hA2 h8_2 h94_2
  have hA4 := c4_args hA3
  have o2_4 := (c4_kept _ (r := main_v154) (by decide)).trans o2_3
  have o3_4 := (c4_kept _ (r := main_v184) (by decide)).trans o3
  have t4 := c4_v193 _ a hA3 o1_3 h00
  have hA5 := c5_args hA4
  have o3_5 := (c5_kept _ (r := main_v184) (by decide)).trans o3_4
  have t5 := c5_v202 _ a hA4 o2_4 h01
  have t6 := c6_v211 _ a hA5 o3_5 h02
  rw [t6, t5, t4]

theorem keptA2_v8 (V : RVal) :
    StableHlo.after (opsA2 (F := Ideal)) V (Proc.devRef .tc Cert.ReferenceIdeal.main_v8) = V (Proc.devRef .tc Cert.ReferenceIdeal.main_v8) := by
  rw [opsA2_eq]
  simp only [after_append]
  exact (c6_kept _ (by decide)).trans ((c5_kept _ (by decide)).trans ((c4_kept _ (by decide)).trans
    ((c3_kept _ (by decide)).trans ((c2_kept _ (by decide)).trans (c1_kept V (by decide))))))

theorem argsA2 (V : RVal) (a : KVals.Args) (hA : ArgsAt a V) : ArgsAt a (StableHlo.after (opsA2 (F := Ideal)) V) := by
  rw [opsA2_eq]
  simp only [after_append]
  exact c6_args (c5_args (c4_args (c3_args (c2_args (c1_args hA)))))

end Cert.RefSide

end
-- ==== Proof.RefSideB1.lean ====
import proofs.«181152_j39822936769202_1_alg».proof.Proof.RefBase
import proofs.«181152_j39822936769202_1_alg».proof.Proof.RefLayers
import Idealize.ShloMosaic.Lib.StableHlo.Run
import Idealize.ShloMosaic.Lib.Pipeline.Frame

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx

variable [Cert.KernelIdeal.Facts]

structure BaseAt (a : KVals.Args) (T : FVec Ideal S_ .f32) (V : RVal) : Prop where
  args : ArgsAt a V
  v8 : V (Proc.devRef .tc main_v8) = Vals.invdeg a.ed
  v211 : V (Proc.devRef .tc main_v211) = T

-- Operations that write only later buffers than the arguments, and neither of the two named ones, keep all three facts.
theorem BaseAt.keep {a : KVals.Args} {T : FVec Ideal S_ .f32} {V : RVal} (h : BaseAt a T V)
    (s : List (HloOp τ sig (Elt Ideal))) (W : List (Ref sig .tc))
    (hW : s.Forall fun op => op.writes ⊆ (W.map (Proc.devRef (τ := τ) .tc)).toFinset)
    (hd : (W.all fun y => decide (25 ≤ y.idx.val)) = true) (h8 : main_v8 ∉ W) (h211 : main_v211 ∉ W) : BaseAt a T (after s V) :=
  ⟨args_keep h.args s W hW hd, (after_of_writes_sub s V hW h8).trans h.v8, (after_of_writes_sub s V hW h211).trans h.v211⟩

section Stretches
variable {F : FTy → Type} [FloatOps F]

noncomputable def tB1a : List (HloOp τ sig (Elt F)) :=
  [ unary main_arg0 main_v212 ((extractStridedSlice S1x1x50000x128 ![1, 0, 0, 0] · slices_S2x2x50000x128_S1x1x50000x128_1_0_0_0) : (⟨S2x2x50000x128, .f32⟩ : BufTy).Contents (Elt F) → (⟨S1x1x50000x128, .f32⟩ : BufTy).Contents (Elt F)),
    reshape main_v212 main_v213 rfl shapeCasts_S1x1x50000x128_S50000x128,
    nullary main_c_38 (constantI S_ 32 0#32),
    unary main_c_38 main_v214 (broadcastInDim S800000 ![] bcast_S_S800000 : (⟨S_, .i32⟩ : BufTy).Contents (Elt F) → (⟨S800000, .i32⟩ : BufTy).Contents (Elt F)),
    binary main_arg1 main_v214 main_v215 (cmpi .slt : (⟨S800000, .i32⟩ : BufTy).Contents (Elt F) → (⟨S800000, .i32⟩ : BufTy).Contents (Elt F) → (⟨S800000, .i1⟩ : BufTy).Contents (Elt F)),
    nullary main_c_39 (constantI S_ 32 50000#32),
    unary main_c_39 main_v216 (broadcastInDim S800000 ![] bcast_S_S800000 : (⟨S_, .i32⟩ : BufTy).Contents (Elt F) → (⟨S800000, .i32⟩ : BufTy).Contents (Elt F)),
    binary main_arg1 main_v216 main_v217 (addi : (⟨S800000, .i32⟩ : BufTy).Contents (Elt F) → (⟨S800000, .i32⟩ : BufTy).Contents (Elt F) → (⟨S800000, .i32⟩ : BufTy).Contents (Elt F)),
    ternary main_v215 main_v217 main_arg1 main_v218 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v218 main_v219 (broadcastInDim S800000x1 ![0] bcast_S800000_S800000x1_0 : (⟨S800000, .i32⟩ : BufTy).Contents (Elt F) → (⟨S800000x1, .i32⟩ : BufTy).Contents (Elt F)),
    binary main_v213 main_v219 main_v220 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_40 (constant S_ .f32 0x00000000#32),
    unary main_cst_40 main_v221 (broadcastInDim S50000x128 ![] bcast_S_S50000x128 : (⟨S_, .f32⟩ : BufTy).Contents (Elt F) → (⟨S50000x128, .f32⟩ : BufTy).Contents (Elt F)),
    unary main_arg2 main_v222 (broadcastInDim S800000x1 ![0] bcast_S800000_S800000x1_0 : (⟨S800000, .i32⟩ : BufTy).Contents (Elt F) → (⟨S800000x1, .i32⟩ : BufTy).Contents (Elt F)),
    ternary main_v221 main_v222 main_v220 main_v223 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v8 main_v224 (broadcastInDim S50000x128 ![0, 1] bcast_S50000x1_S50000x128_0_1 : (⟨S50000x1, .f32⟩ : BufTy).Contents (Elt F) → (⟨S50000x128, .f32⟩ : BufTy).Contents (Elt F)),
    binary main_v223 main_v224 main_v225 (mulf : (⟨S50000x128, .f32⟩ : BufTy).Contents (Elt F) → (⟨S50000x128, .f32⟩ : BufTy).Contents (Elt F) → (⟨S50000x128, .f32⟩ : BufTy).Contents (Elt F)),
    binary main_v225 main_arg4 main_v226 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v227 (broadcastInDim S1x128 ![1] bcast_S128_S1x128_1 : (⟨S128, .f32⟩ : BufTy).Contents (Elt F) → (⟨S1x128, .f32⟩ : BufTy).Contents (Elt F)),
    unary main_v227 main_v228 (broadcastInDim S50000x128 ![0, 1] bcast_S1x128_S50000x128_0_1 : (⟨S1x128, .f32⟩ : BufTy).Contents (Elt F) → (⟨S50000x128, .f32⟩ : BufTy).Contents (Elt F)),
    binary main_v226 main_v228 main_v229 (addf : (⟨S50000x128, .f32⟩ : BufTy).Contents (Elt F) → (⟨S50000x128, .f32⟩ : BufTy).Contents (Elt F) → (⟨S50000x128, .f32⟩ : BufTy).Contents (Elt F)),
    binary main_v213 main_arg6 main_v230 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v229 main_v230 main_v231 (addf : (⟨S50000x128, .f32⟩ : BufTy).Contents (Elt F) → (⟨S50000x128, .f32⟩ : BufTy).Contents (Elt F) → (⟨S50000x128, .f32⟩ : BufTy).Contents (Elt F)) ]

noncomputable def tB1a_w : List (Ref sig .tc) :=
  [main_v212, main_v213, main_c_38, main_v214, main_v215, main_c_39, main_v216, main_v217, main_v218, main_v219, main_v220, main_cst_40, main_v221, main_v222, main_v223, main_v224, main_v225, main_v226, main_v227, main_v228, main_v229, main_v230, main_v231]

noncomputable def tB1r : List (HloOp τ sig (Elt F)) :=
  [ TRef.nullary (TRef.of (T := ⟨S_, .f32⟩) main_call9_cst) (constant S_ .f32 0x00000000#32),
    TRef.unary (TRef.of (T := ⟨S_, .f32⟩) main_call9_cst) (TRef.of (T := ⟨S50000x128, .f32⟩) main_call9_v0) (broadcastInDim S50000x128 ![] bcast_S_S50000x128),
    TRef.binary (TRef.of (T := ⟨S50000x128, .f32⟩) main_v231) (TRef.of (T := ⟨S50000x128, .f32⟩) main_call9_v0) (TRef.of (T := ⟨S50000x128, .f32⟩) main_v232) maximumf ]

noncomputable def tB1r_w : List (Ref sig .tc) :=
  [main_call9_cst, main_call9_v0, main_v232]

noncomputable def tB2a : List (HloOp τ sig (Elt F)) :=
  [ unary main_arg0 main_v233 ((extractStridedSlice S1x1x50000x128 ![1, 1, 0, 0] · slices_S2x2x50000x128_S1x1x50000x128_1_1_0_0) : (⟨S2x2x50000x128, .f32⟩ : BufTy).Contents (Elt F) → (⟨S1x1x50000x128, .f32⟩ : BufTy).Contents (Elt F)),
    reshape main_v233 main_v234 rfl shapeCasts_S1x1x50000x128_S50000x128,
    nullary main_c_41 (constantI S_ 32 0#32),
    unary main_c_41 main_v235 (broadcastInDim S800000 ![] bcast_S_S800000 : (⟨S_, .i32⟩ : BufTy).Contents (Elt F) → (⟨S800000, .i32⟩ : BufTy).Contents (Elt F)),
    binary main_arg1 main_v235 main_v236 (cmpi .slt : (⟨S800000, .i32⟩ : BufTy).Contents (Elt F) → (⟨S800000, .i32⟩ : BufTy).Contents (Elt F) → (⟨S800000, .i1⟩ : BufTy).Contents (Elt F)),
    nullary main_c_42 (constantI S_ 32 50000#32),
    unary main_c_42 main_v237 (broadcastInDim S800000 ![] bcast_S_S800000 : (⟨S_, .i32⟩ : BufTy).Contents (Elt F) → (⟨S800000, .i32⟩ : BufTy).Contents (Elt F)),
    binary main_arg1 main_v237 main_v238 (addi : (⟨S800000, .i32⟩ : BufTy).Contents (Elt F) → (⟨S800000, .i32⟩ : BufTy).Contents (Elt F) → (⟨S800000, .i32⟩ : BufTy).Contents (Elt F)),
    ternary main_v236 main_v238 main_arg1 main_v239 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v239 main_v240 (broadcastInDim S800000x1 ![0] bcast_S800000_S800000x1_0 : (⟨S800000, .i32⟩ : BufTy).Contents (Elt F) → (⟨S800000x1, .i32⟩ : BufTy).Contents (Elt F)),
    binary main_v234 main_v240 main_v241 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_43 (constant S_ .f32 0x00000000#32),
    unary main_cst_43 main_v242 (broadcastInDim S50000x128 ![] bcast_S_S50000x128 : (⟨S_, .f32⟩ : BufTy).Contents (Elt F) → (⟨S50000x128, .f32⟩ : BufTy).Contents (Elt F)),
    unary main_arg2 main_v243 (broadcastInDim S800000x1 ![0] bcast_S800000_S800000x1_0 : (⟨S800000, .i32⟩ : BufTy).Contents (Elt F) → (⟨S800000x1, .i32⟩ : BufTy).Contents (Elt F)),
    ternary main_v242 main_v243 main_v241 main_v244 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v8 main_v245 (broadcastInDim S50000x128 ![0, 1] bcast_S50000x1_S50000x128_0_1 : (⟨S50000x1, .f32⟩ : BufTy).Contents (Elt F) → (⟨S50000x128, .f32⟩ : BufTy).Contents (Elt F)),
    binary main_v244 main_v245 main_v246 (mulf : (⟨S50000x128, .f32⟩ : BufTy).Contents (Elt F) → (⟨S50000x128, .f32⟩ : BufTy).Contents (Elt F) → (⟨S50000x128, .f32⟩ : BufTy).Contents (Elt F)),
    binary main_v246 main_arg7 main_v247 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v248 (broadcastInDim S1x128 ![1] bcast_S128_S1x128_1 : (⟨S128, .f32⟩ : BufTy).Contents (Elt F) → (⟨S1x128, .f32⟩ : BufTy).Contents (Elt F)),
    unary main_v248 main_v249 (broadcastInDim S50000x128 ![0, 1] bcast_S1x128_S50000x128_0_1 : (⟨S1x128, .f32⟩ : BufTy).Contents (Elt F) → (⟨S50000x128, .f32⟩ : BufTy).Contents (Elt F)),
    binary main_v247 main_v249 main_v250 (addf : (⟨S50000x128, .f32⟩ : BufTy).Contents (Elt F) → (⟨S50000x128, .f32⟩ : BufTy).Contents (Elt F) → (⟨S50000x128, .f32⟩ : BufTy).Contents (Elt F)),
    binary main_v234 main_arg9 main_v251 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v250 main_v251 main_v252 (addf : (⟨S50000x128, .f32⟩ : BufTy).Contents (Elt F) → (⟨S50000x128, .f32⟩ : BufTy).Contents (Elt F) → (⟨S50000x128, .f32⟩ : BufTy).Contents (Elt F)) ]

noncomputable def tB2a_w : List (Ref sig .tc) :=
  [main_v233, main_v234, main_c_41, main_v235, main_v236, main_c_42, main_v237, main_v238, main_v239, main_v240, main_v241, main_cst_43, main_v242, main_v243, main_v244, main_v245, main_v246, main_v247, main_v248, main_v249, main_v250, main_v251, main_v252]

noncomputable def tB2r : List (HloOp τ sig (Elt F)) :=
  [ TRef.nullary (TRef.of (T := ⟨S_, .f32⟩) main_call10_cst) (constant S_ .f32 0x00000000#32),
    TRef.unary (TRef.of (T := ⟨S_, .f32⟩) main_call10_cst) (TRef.of (T := ⟨S50000x128, .f32⟩) main_call10_v0) (broadcastInDim S50000x128 ![] bcast_S_S50000x128),
    TRef.binary (TRef.of (T := ⟨S50000x128, .f32⟩) main_v252) (TRef.of (T := ⟨S50000x128, .f32⟩) main_call10_v0) (TRef.of (T := ⟨S50000x128, .f32⟩) main_v253) maximumf ]

noncomputable def tB2r_w : List (Ref sig .tc) :=
  [main_call10_cst, main_call10_v0, main_v253]

noncomputable def tB3a : List (HloOp τ sig (Elt F)) :=
  [ binary main_v232 main_v253 main_v254 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    nullary main_c_44 (constantI S_ 32 0#32),
    unary main_c_44 main_v255 (broadcastInDim S800000 ![] bcast_S_S800000 : (⟨S_, .i32⟩ : BufTy).Contents (Elt F) → (⟨S800000, .i32⟩ : BufTy).Contents (Elt F)),
    binary main_arg1 main_v255 main_v256 (cmpi .slt : (⟨S800000, .i32⟩ : BufTy).Contents (Elt F) → (⟨S800000, .i32⟩ : BufTy).Contents (Elt F) → (⟨S800000, .i1⟩ : BufTy).Contents (Elt F)),
    nullary main_c_45 (constantI S_ 32 50000#32),
    unary main_c_45 main_v257 (broadcastInDim S800000 ![] bcast_S_S800000 : (⟨S_, .i32⟩ : BufTy).Contents (Elt F) → (⟨S800000, .i32⟩ : BufTy).Contents (Elt F)),
    binary main_arg1 main_v257 main_v258 (addi : (⟨S800000, .i32⟩ : BufTy).Contents (Elt F) → (⟨S800000, .i32⟩ : BufTy).Contents (Elt F) → (⟨S800000, .i32⟩ : BufTy).Contents (Elt F)),
    ternary main_v256 main_v258 main_arg1 main_v259 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v259 main_v260 (broadcastInDim S800000x1 ![0] bcast_S800000_S800000x1_0 : (⟨S800000, .i32⟩ : BufTy).Contents (Elt F) → (⟨S800000x1, .i32⟩ : BufTy).Contents (Elt F)),
    binary main_v254 main_v260 main_v261 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_46 (constant S_ .f32 0x00000000#32),
    unary main_cst_46 main_v262 (broadcastInDim S50000x256 ![] bcast_S_S50000x256 : (⟨S_, .f32⟩ : BufTy).Contents (Elt F) → (⟨S50000x256, .f32⟩ : BufTy).Contents (Elt F)),
    unary main_arg2 main_v263 (broadcastInDim S800000x1 ![0] bcast_S800000_S800000x1_0 : (⟨S800000, .i32⟩ : BufTy).Contents (Elt F) → (⟨S800000x1, .i32⟩ : BufTy).Contents (Elt F)),
    ternary main_v262 main_v263 main_v261 main_v264 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v8 main_v265 (broadcastInDim S50000x256 ![0, 1] bcast_S50000x1_S50000x256_0_1 : (⟨S50000x1, .f32⟩ : BufTy).Contents (Elt F) → (⟨S50000x256, .f32⟩ : BufTy).Contents (Elt F)),
    binary main_v264 main_v265 main_v266 (mulf : (⟨S50000x256, .f32⟩ : BufTy).Contents (Elt F) → (⟨S50000x256, .f32⟩ : BufTy).Contents (Elt F) → (⟨S50000x256, .f32⟩ : BufTy).Contents (Elt F)),
    binary main_v266 main_arg10 main_v267 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg11 main_v268 (broadcastInDim S1x256 ![1] bcast_S256_S1x256_1 : (⟨S256, .f32⟩ : BufTy).Contents (Elt F) → (⟨S1x256, .f32⟩ : BufTy).Contents (Elt F)),
    unary main_v268 main_v269 (broadcastInDim S50000x256 ![0, 1] bcast_S1x256_S50000x256_0_1 : (⟨S1x256, .f32⟩ : BufTy).Contents (Elt F) → (⟨S50000x256, .f32⟩ : BufTy).Contents (Elt F)),
    binary main_v267 main_v269 main_v270 (addf : (⟨S50000x256, .f32⟩ : BufTy).Contents (Elt F) → (⟨S50000x256, .f32⟩ : BufTy).Contents (Elt F) → (⟨S50000x256, .f32⟩ : BufTy).Contents (Elt F)),
    binary main_v254 main_arg12 main_v271 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v270 main_v271 main_v272 (addf : (⟨S50000x256, .f32⟩ : BufTy).Contents (Elt F) → (⟨S50000x256, .f32⟩ : BufTy).Contents (Elt F) → (⟨S50000x256, .f32⟩ : BufTy).Contents (Elt F)) ]

noncomputable def tB3a_w : List (Ref sig .tc) :=
  [main_v254, main_c_44, main_v255, main_v256, main_c_45, main_v257, main_v258, main_v259, main_v260, main_v261, main_cst_46, main_v262, main_v263, main_v264, main_v265, main_v266, main_v267, main_v268, main_v269, main_v270, main_v271, main_v272]

noncomputable def tB3r : List (HloOp τ sig (Elt F)) :=
  [ TRef.nullary (TRef.of (T := ⟨S_, .f32⟩) main_call11_cst) (constant S_ .f32 0x00000000#32),
    TRef.unary (TRef.of (T := ⟨S_, .f32⟩) main_call11_cst) (TRef.of (T := ⟨S50000x256, .f32⟩) main_call11_v0) (broadcastInDim S50000x256 ![] bcast_S_S50000x256),
    TRef.binary (TRef.of (T := ⟨S50000x256, .f32⟩) main_v272) (TRef.of (T := ⟨S50000x256, .f32⟩) main_call11_v0) (TRef.of (T := ⟨S50000x256, .f32⟩) main_v273) maximumf ]

noncomputable def tB3r_w : List (Ref sig .tc) :=
  [main_call11_cst, main_call11_v0, main_v273]

noncomputable def tB4 : List (HloOp τ sig (Elt F)) :=
  [ nullary main_c_47 (constantI S_ 32 0#32),
    unary main_c_47 main_v274 (broadcastInDim S800000 ![] bcast_S_S800000 : (⟨S_, .i32⟩ : BufTy).Contents (Elt F) → (⟨S800000, .i32⟩ : BufTy).Contents (Elt F)),
    binary main_arg1 main_v274 main_v275 (cmpi .slt : (⟨S800000, .i32⟩ : BufTy).Contents (Elt F) → (⟨S800000, .i32⟩ : BufTy).Contents (Elt F) → (⟨S800000, .i1⟩ : BufTy).Contents (Elt F)),
    nullary main_c_48 (constantI S_ 32 50000#32),
    unary main_c_48 main_v276 (broadcastInDim S800000 ![] bcast_S_S800000 : (⟨S_, .i32⟩ : BufTy).Contents (Elt F) → (⟨S800000, .i32⟩ : BufTy).Contents (Elt F)),
    binary main_arg1 main_v276 main_v277 (addi : (⟨S800000, .i32⟩ : BufTy).Contents (Elt F) → (⟨S800000, .i32⟩ : BufTy).Contents (Elt F) → (⟨S800000, .i32⟩ : BufTy).Contents (Elt F)),
    ternary main_v275 main_v277 main_arg1 main_v278 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v278 main_v279 (broadcastInDim S800000x1 ![0] bcast_S800000_S800000x1_0 : (⟨S800000, .i32⟩ : BufTy).Contents (Elt F) → (⟨S800000x1, .i32⟩ : BufTy).Contents (Elt F)),
    binary main_v273 main_v279 main_v280 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_49 (constant S_ .f32 0x00000000#32),
    unary main_cst_49 main_v281 (broadcastInDim S50000x256 ![] bcast_S_S50000x256 : (⟨S_, .f32⟩ : BufTy).Contents (Elt F) → (⟨S50000x256, .f32⟩ : BufTy).Contents (Elt F)),
    unary main_arg2 main_v282 (broadcastInDim S800000x1 ![0] bcast_S800000_S800000x1_0 : (⟨S800000, .i32⟩ : BufTy).Contents (Elt F) → (⟨S800000x1, .i32⟩ : BufTy).Contents (Elt F)),
    ternary main_v281 main_v282 main_v280 main_v283 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v8 main_v284 (broadcastInDim S50000x256 ![0, 1] bcast_S50000x1_S50000x256_0_1 : (⟨S50000x1, .f32⟩ : BufTy).Contents (Elt F) → (⟨S50000x256, .f32⟩ : BufTy).Contents (Elt F)),
    binary main_v283 main_v284 main_v285 (mulf : (⟨S50000x256, .f32⟩ : BufTy).Contents (Elt F) → (⟨S50000x256, .f32⟩ : BufTy).Contents (Elt F) → (⟨S50000x256, .f32⟩ : BufTy).Contents (Elt F)),
    binary main_v285 main_arg13 main_v286 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg14 main_v287 (broadcastInDim S1x64 ![1] bcast_S64_S1x64_1 : (⟨S64, .f32⟩ : BufTy).Contents (Elt F) → (⟨S1x64, .f32⟩ : BufTy).Contents (Elt F)),
    unary main_v287 main_v288 (broadcastInDim S50000x64 ![0, 1] bcast_S1x64_S50000x64_0_1 : (⟨S1x64, .f32⟩ : BufTy).Contents (Elt F) → (⟨S50000x64, .f32⟩ : BufTy).Contents (Elt F)),
    binary main_v286 main_v288 main_v289 (addf : (⟨S50000x64, .f32⟩ : BufTy).Contents (Elt F) → (⟨S50000x64, .f32⟩ : BufTy).Contents (Elt F) → (⟨S50000x64, .f32⟩ : BufTy).Contents (Elt F)),
    binary main_v273 main_arg15 main_v290 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    binary main_v289 main_v290 main_v291 (addf : (⟨S50000x64, .f32⟩ : BufTy).Contents (Elt F) → (⟨S50000x64, .f32⟩ : BufTy).Contents (Elt F) → (⟨S50000x64, .f32⟩ : BufTy).Contents (Elt F)),
    unary main_v291 main_v292 (Host.negf : (⟨S50000x64, .f32⟩ : BufTy).Contents (Elt F) → (⟨S50000x64, .f32⟩ : BufTy).Contents (Elt F)),
    unary main_v292 main_v293 (Host.exp : (⟨S50000x64, .f32⟩ : BufTy).Contents (Elt F) → (⟨S50000x64, .f32⟩ : BufTy).Contents (Elt F)),
    nullary main_cst_50 (constant S_ .f32 0x3F800000#32),
    unary main_cst_50 main_v294 (broadcastInDim S50000x64 ![] bcast_S_S50000x64 : (⟨S_, .f32⟩ : BufTy).Contents (Elt F) → (⟨S50000x64, .f32⟩ : BufTy).Contents (Elt F)),
    binary main_v294 main_v293 main_v295 (addf : (⟨S50000x64, .f32⟩ : BufTy).Contents (Elt F) → (⟨S50000x64, .f32⟩ : BufTy).Contents (Elt F) → (⟨S50000x64, .f32⟩ : BufTy).Contents (Elt F)),
    nullary main_cst_51 (constant S_ .f32 0x3F800000#32),
    unary main_cst_51 main_v296 (broadcastInDim S50000x64 ![] bcast_S_S50000x64 : (⟨S_, .f32⟩ : BufTy).Contents (Elt F) → (⟨S50000x64, .f32⟩ : BufTy).Contents (Elt F)),
    binary main_v296 main_v295 main_v297 (Host.divf : (⟨S50000x64, .f32⟩ : BufTy).Contents (Elt F) → (⟨S50000x64, .f32⟩ : BufTy).Contents (Elt F) → (⟨S50000x64, .f32⟩ : BufTy).Contents (Elt F)) ]

noncomputable def tB4_w : List (Ref sig .tc) :=
  [main_c_47, main_v274, main_v275, main_c_48, main_v276, main_v277, main_v278, main_v279, main_v280, main_cst_49, main_v281, main_v282, main_v283, main_v284, main_v285, main_v286, main_v287, main_v288, main_v289, main_v290, main_v291, main_v292, main_v293, main_cst_50, main_v294, main_v295, main_cst_51, main_v296, main_v297]

end Stretches

theorem tB1a_writes : (tB1a (F := Ideal)).Forall fun op => op.writes ⊆ (tB1a_w.map (Proc.devRef (τ := τ) .tc)).toFinset := by
  simp only [tB1a, List.Forall, nullary_writes, unary_writes, binary_writes, ternary_writes, reshape_writes]
  (repeat' apply And.intro) <;> exact single_sub (by decide)

theorem tB1r_writes : (tB1r (F := Ideal)).Forall fun op => op.writes ⊆ (tB1r_w.map (Proc.devRef (τ := τ) .tc)).toFinset := by
  simp only [tB1r, List.Forall, nullary_writes, unary_writes, binary_writes, ternary_writes, reshape_writes]
  (repeat' apply And.intro) <;> exact single_sub (by decide)

theorem tB2a_writes : (tB2a (F := Ideal)).Forall fun op => op.writes ⊆ (tB2a_w.map (Proc.devRef (τ := τ) .tc)).toFinset := by
  simp only [tB2a, List.Forall, nullary_writes, unary_writes, binary_writes, ternary_writes, reshape_writes]
  (repeat' apply And.intro) <;> exact single_sub (by decide)

theorem tB2r_writes : (tB2r (F := Ideal)).Forall fun op => op.writes ⊆ (tB2r_w.map (Proc.devRef (τ := τ) .tc)).toFinset := by
  simp only [tB2r, List.Forall, nullary_writes, unary_writes, binary_writes, ternary_writes, reshape_writes]
  (repeat' apply And.intro) <;> exact single_sub (by decide)

theorem tB3a_writes : (tB3a (F := Ideal)).Forall fun op => op.writes ⊆ (tB3a_w.map (Proc.devRef (τ := τ) .tc)).toFinset := by
  simp only [tB3a, List.Forall, nullary_writes, unary_writes, binary_writes, ternary_writes, reshape_writes]
  (repeat' apply And.intro) <;> exact single_sub (by decide)

theorem tB3r_writes : (tB3r (F := Ideal)).Forall fun op => op.writes ⊆ (tB3r_w.map (Proc.devRef (τ := τ) .tc)).toFinset := by
  simp only [tB3r, List.Forall, nullary_writes, unary_writes, binary_writes, ternary_writes, reshape_writes]
  (repeat' apply And.intro) <;> exact single_sub (by decide)

theorem tB4_writes : (tB4 (F := Ideal)).Forall fun op => op.writes ⊆ (tB4_w.map (Proc.devRef (τ := τ) .tc)).toFinset := by
  simp only [tB4, List.Forall, nullary_writes, unary_writes, binary_writes, ternary_writes, reshape_writes]
  (repeat' apply And.intro) <;> exact single_sub (by decide)

-- Rows gathered at the edges' sources, summed at their destinations and scaled are the mean aggregation of X[1, 0].
theorem tB1a_val (V : RVal) (a : KVals.Args) (hA : ArgsAt a V) (h8 : V (Proc.devRef .tc main_v8) = Vals.invdeg a.ed) :
    after (tB1a (F := Ideal)) V (Proc.devRef .tc main_v231)
      = (addf (addf (Host.dotGeneral dot_S50000x128_S128x128_S50000x128_1_0_0_1_n_n none (Vals.agg128 a.es a.ed (KVals.x10 a)) a.Wl_i0)
          (broadcastInDim S50000x128 ![0, 1] bcast_S1x128_S50000x128_0_1 (broadcastInDim S1x128 ![1] bcast_S128_S1x128_1 a.bl_i0)))
          (Host.dotGeneral dot_S50000x128_S128x128_S50000x128_1_0_0_1_n_n none (KVals.x10 a) a.Wr_i0) : FVec Ideal S50000x128 .f32) := by
  unfold tB1a
  after_results_simp
  rw [hA.h0, hA.h1, hA.h2, hA.h4, hA.h5, hA.h6, h8]
  rfl

theorem tB1r_val (V : RVal) (P : FVec Ideal S50000x128 .f32) (h : V (Proc.devRef .tc main_v231) = P) :
    after (tB1r (F := Ideal)) V (Proc.devRef .tc main_v232)
      = maximumf P (broadcastInDim S50000x128 ![] bcast_S_S50000x128 (constant S_ .f32 0x00000000#32)) := by
  unfold tB1r
  after_results_simp
  rw [h]
  rfl

theorem tB2a_val (V : RVal) (a : KVals.Args) (hA : ArgsAt a V) (h8 : V (Proc.devRef .tc main_v8) = Vals.invdeg a.ed) :
    after (tB2a (F := Ideal)) V (Proc.devRef .tc main_v252)
      = (addf (addf (Host.dotGeneral dot_S50000x128_S128x128_S50000x128_1_0_0_1_n_n none (Vals.agg128 a.es a.ed (KVals.x11 a)) a.Wl_i1)
          (broadcastInDim S50000x128 ![0, 1] bcast_S1x128_S50000x128_0_1 (broadcastInDim S1x128 ![1] bcast_S128_S1x128_1 a.bl_i1)))
          (Host.dotGeneral dot_S50000x128_S128x128_S50000x128_1_0_0_1_n_n none (KVals.x11 a) a.Wr_i1) : FVec Ideal S50000x128 .f32) := by
  unfold tB2a
  after_results_simp
  rw [hA.h0, hA.h1, hA.h2, hA.h7, hA.h8, hA.h9, h8]
  rfl

theorem tB2r_val (V : RVal) (P : FVec Ideal S50000x128 .f32) (h : V (Proc.devRef .tc main_v252) = P) :
    after (tB2r (F := Ideal)) V (Proc.devRef .tc main_v253)
      = maximumf P (broadcastInDim S50000x128 ![] bcast_S_S50000x128 (constant S_ .f32 0x00000000#32)) := by
  unfold tB2r
  after_results_simp
  rw [h]
  rfl

theorem tB3a_val (V : RVal) (a : KVals.Args) (hA : ArgsAt a V) (h8 : V (Proc.devRef .tc main_v8) = Vals.invdeg a.ed) (H0 H1 : FVec Ideal S50000x128 .f32)
    (h232 : V (Proc.devRef .tc main_v232) = H0) (h253 : V (Proc.devRef .tc main_v253) = H1) :
    after (tB3a (F := Ideal)) V (Proc.devRef .tc main_v272)
      = (addf (addf (Host.dotGeneral dot_S50000x256_S256x256_S50000x256_1_0_0_1_n_n none (Vals.agg256 a.es a.ed (Vals.cat H0 H1)) a.Wl_m)
          (broadcastInDim S50000x256 ![0, 1] bcast_S1x256_S50000x256_0_1 (broadcastInDim S1x256 ![1] bcast_S256_S1x256_1 a.bl_m)))
          (Host.dotGeneral dot_S50000x256_S256x256_S50000x256_1_0_0_1_n_n none (Vals.cat H0 H1) a.Wr_m) : FVec Ideal S50000x256 .f32) := by
  unfold tB3a
  after_results_simp
  rw [hA.h1, hA.h2, hA.h10, hA.h11, hA.h12, h8, h232, h253]
  rfl

theorem tB3r_val (V : RVal) (P : FVec Ideal S50000x256 .f32) (h : V (Proc.devRef .tc main_v272) = P) :
    after (tB3r (F := Ideal)) V (Proc.devRef .tc main_v273)
      = maximumf P (broadcastInDim S50000x256 ![] bcast_S_S50000x256 (constant S_ .f32 0x00000000#32)) := by
  unfold tB3r
  after_results_simp
  rw [h]
  rfl

-- 1 / (1 + exp (−z)) of the output layer's pre-activation is the specification's sigmoid layer.
theorem tB4_val (V : RVal) (a : KVals.Args) (hA : ArgsAt a V) (h8 : V (Proc.devRef .tc main_v8) = Vals.invdeg a.ed)
    (X2 : FVec Ideal S50000x256 .f32) (h273 : V (Proc.devRef .tc main_v273) = X2) :
    after (tB4 (F := Ideal)) V (Proc.devRef .tc main_v297)
      = Spec.sigLayer (Vals.agg256 a.es a.ed X2) X2 a.Wl_o a.Wr_o a.bl_o := by
  unfold tB4
  after_results_simp
  rw [hA.h1, hA.h2, hA.h13, hA.h14, hA.h15, h8, h273]
  exact RefLayers.sig_layer_eq dot_S50000x256_S256x64_S50000x64_1_0_0_1_n_n rfl rfl rfl rfl rfl rfl none
    bcast_S64_S1x64_1 bcast_S1x64_S50000x64_0_1 bcast_S_S50000x64 (Vals.agg256 a.es a.ed X2) X2 a.Wl_o a.Wr_o a.bl_o

noncomputable def opsB1 {F : FTy → Type} [FloatOps F] : List (HloOp τ sig (Elt F)) :=
  tB1a ++ tB1r ++ tB2a ++ tB2r ++ tB3a ++ tB3r ++ tB4

theorem taskB1 (V : RVal) (a : KVals.Args) (T : FVec Ideal S_ .f32) (hB : BaseAt a T V) :
    after (opsB1 (F := Ideal)) V (Proc.devRef .tc main_v297) = KVals.hk1 a
      ∧ BaseAt a T (after (opsB1 (F := Ideal)) V) := by
  unfold opsB1
  simp only [after_append]
  have b1 := (hB.keep tB1a tB1a_w tB1a_writes (by decide) (by decide) (by decide)).keep tB1r tB1r_w tB1r_writes (by decide) (by decide) (by decide)
  have b2a := b1.keep tB2a tB2a_w tB2a_writes (by decide) (by decide) (by decide)
  have b2 := b2a.keep tB2r tB2r_w tB2r_writes (by decide) (by decide) (by decide)
  have b3 := (b2.keep tB3a tB3a_w tB3a_writes (by decide) (by decide) (by decide)).keep tB3r tB3r_w tB3r_writes (by decide) (by decide) (by decide)
  have e1 := (after_of_writes_sub tB2r _ tB2r_writes (by decide : main_v232 ∉ tB2r_w)).trans
    ((after_of_writes_sub tB2a _ tB2a_writes (by decide : main_v232 ∉ tB2a_w)).trans
      ((tB1r_val _ _ (tB1a_val V a hB.args hB.v8)).trans (RefLayers.relu_layer_eq dot_S50000x128_S128x128_S50000x128_1_0_0_1_n_n rfl rfl rfl rfl rfl rfl none bcast_S128_S1x128_1 bcast_S1x128_S50000x128_0_1 bcast_S_S50000x128 _ _ _ _ _)))
  have e2 := (tB2r_val _ _ (tB2a_val _ a b1.args b1.v8)).trans (RefLayers.relu_layer_eq dot_S50000x128_S128x128_S50000x128_1_0_0_1_n_n rfl rfl rfl rfl rfl rfl none bcast_S128_S1x128_1 bcast_S1x128_S50000x128_0_1 bcast_S_S50000x128 _ _ _ _ _)
  have e3 := (tB3r_val _ _ (tB3a_val _ a b2.args b2.v8 _ _ e1 e2)).trans (RefLayers.relu_layer_eq dot_S50000x256_S256x256_S50000x256_1_0_0_1_n_n rfl rfl rfl rfl rfl rfl none bcast_S256_S1x256_1 bcast_S1x256_S50000x256_0_1 bcast_S_S50000x256 _ _ _ _ _)
  exact ⟨(tB4_val _ a b3.args b3.v8 _ e3).trans rfl, b3.keep tB4 tB4_w tB4_writes (by decide) (by decide) (by decide)⟩

theorem opsB1_args (V : RVal) (a : KVals.Args) (hA : ArgsAt a V) : ArgsAt a (after (opsB1 (F := Ideal)) V) := by
  unfold opsB1
  simp only [after_append]
  exact args_keep (args_keep (args_keep (args_keep (args_keep (args_keep (args_keep hA
    tB1a tB1a_w tB1a_writes (by decide)) tB1r tB1r_w tB1r_writes (by decide)) tB2a tB2a_w tB2a_writes (by decide))
    tB2r tB2r_w tB2r_writes (by decide)) tB3a tB3a_w tB3a_writes (by decide)) tB3r tB3r_w tB3r_writes (by decide))
    tB4 tB4_w tB4_writes (by decide)

end Cert.RefSide

end
-- ==== Proof.RefSideB2L.lean ====
/- Task 1's three head layers in the reference program (operations 469 to 573), as for task 0. -/
import proofs.«181152_j39822936769202_1_alg».proof.Proof.RefBase
import proofs.«181152_j39822936769202_1_alg».proof.Proof.RefLayers
import proofs.«181152_j39822936769202_1_alg».proof.Proof.LibLabels
import Idealize.ShloMosaic.Lib.StableHlo.Run

set_option maxRecDepth 16384

noncomputable section

namespace Cert.RefSide.B2

open Cert.ReferenceIdeal Cert.ReferenceIdeal.Gen Idealize.ShloMosaic Idealize.ShloMosaic.TcCoe Idealize.SL.Sem Idealize.ShloMosaic.StableHlo
open Idealize.ShloMosaic.ValueIdx

variable [Cert.KernelIdeal.Facts]

section d1_defs
variable {F : FTy → Type} [FloatOps F]

noncomputable def d1 : List (HloOp τ sig (Elt F)) :=
  [
    unary main_arg16 main_v298 ((extractStridedSlice S1x64x12 ![1, 0, 0] · slices_S2x64x12_S1x64x12_1_0_0) : (⟨S2x64x12, .f32⟩ : BufTy).Contents (Elt F) → (⟨S1x64x12, .f32⟩ : BufTy).Contents (Elt F)),
    reshape main_v298 main_v299 rfl shapeCasts_S1x64x12_S64x12,
    unary main_arg17 main_v300 ((extractStridedSlice S1x12 ![1, 0] · slices_S2x12_S1x12_1_0) : (⟨S2x12, .f32⟩ : BufTy).Contents (Elt F) → (⟨S1x12, .f32⟩ : BufTy).Contents (Elt F)),
    reshape main_v300 main_v301 rfl shapeCasts_S1x12_S12,
    unary main_arg18 main_v302 ((extractStridedSlice S1x64x12 ![1, 0, 0] · slices_S2x64x12_S1x64x12_1_0_0) : (⟨S2x64x12, .f32⟩ : BufTy).Contents (Elt F) → (⟨S1x64x12, .f32⟩ : BufTy).Contents (Elt F)),
    reshape main_v302 main_v303 rfl shapeCasts_S1x64x12_S64x12,
    nullary main_c_52 (constantI S_ 32 0#32),
    unary main_c_52 main_v304 (broadcastInDim S800000 ![] bcast_S_S800000 : (⟨S_, .i32⟩ : BufTy).Contents (Elt F) → (⟨S800000, .i32⟩ : BufTy).Contents (Elt F)),
    binary main_arg1 main_v304 main_v305 (cmpi .slt : (⟨S800000, .i32⟩ : BufTy).Contents (Elt F) → (⟨S800000, .i32⟩ : BufTy).Contents (Elt F) → (⟨S800000, .i1⟩ : BufTy).Contents (Elt F)),
    nullary main_c_53 (constantI S_ 32 50000#32),
    unary main_c_53 main_v306 (broadcastInDim S800000 ![] bcast_S_S800000 : (⟨S_, .i32⟩ : BufTy).Contents (Elt F) → (⟨S800000, .i32⟩ : BufTy).Contents (Elt F)),
    binary main_arg1 main_v306 main_v307 (addi : (⟨S800000, .i32⟩ : BufTy).Contents (Elt F) → (⟨S800000, .i32⟩ : BufTy).Contents (Elt F) → (⟨S800000, .i32⟩ : BufTy).Contents (Elt F)),
    ternary main_v305 main_v307 main_arg1 main_v308 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v308 main_v309 (broadcastInDim S800000x1 ![0] bcast_S800000_S800000x1_0 : (⟨S800000, .i32⟩ : BufTy).Contents (Elt F) → (⟨S800000x1, .i32⟩ : BufTy).Contents (Elt F)),
    binary main_v297 main_v309 main_v310 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_54 (constant S_ .f32 0x00000000#32),
    unary main_cst_54 main_v311 (broadcastInDim S50000x64 ![] bcast_S_S50000x64 : (⟨S_, .f32⟩ : BufTy).Contents (Elt F) → (⟨S50000x64, .f32⟩ : BufTy).Contents (Elt F)),
    unary main_arg2 main_v312 (broadcastInDim S800000x1 ![0] bcast_S800000_S800000x1_0 : (⟨S800000, .i32⟩ : BufTy).Contents (Elt F) → (⟨S800000x1, .i32⟩ : BufTy).Contents (Elt F)),
    ternary main_v311 main_v312 main_v310 main_v313 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v314 (broadcastInDim S50000x64 ![0, 1] bcast_S50000x1_S50000x64_0_1 : (⟨S50000x1, .f32⟩ : BufTy).Contents (Elt F) → (⟨S50000x64, .f32⟩ : BufTy).Contents (Elt F)),
    binary main_v313 main_v314 main_v315 (mulf : (⟨S50000x64, .f32⟩ : BufTy).Contents (Elt F) → (⟨S50000x64, .f32⟩ : BufTy).Contents (Elt F) → (⟨S50000x64, .f32⟩ : BufTy).Contents (Elt F)),
    binary main_v315 main_v299 main_v316 ((fun l r => Host.dotGeneral dot_S50000x64_S64x12_S50000x12_1_0_0_1_n_n none l r) : (⟨S50000x64, .f32⟩ : BufTy).Contents (Elt F) → (⟨S64x12, .f32⟩ : BufTy).Contents (Elt F) → (⟨S50000x12, .f32⟩ : BufTy).Contents (Elt F)),
    unary main_v301 main_v317 (broadcastInDim S1x12 ![1] bcast_S12_S1x12_1 : (⟨S12, .f32⟩ : BufTy).Contents (Elt F) → (⟨S1x12, .f32⟩ : BufTy).Contents (Elt F)),
    unary main_v317 main_v318 (broadcastInDim S50000x12 ![0, 1] bcast_S1x12_S50000x12_0_1 : (⟨S1x12, .f32⟩ : BufTy).Contents (Elt F) → (⟨S50000x12, .f32⟩ : BufTy).Contents (Elt F)),
    binary main_v316 main_v318 main_v319 (addf : (⟨S50000x12, .f32⟩ : BufTy).Contents (Elt F) → (⟨S50000x12, .f32⟩ : BufTy).Contents (Elt F) → (⟨S50000x12, .f32⟩ : BufTy).Contents (Elt F)),
    binary main_v297 main_v303 main_v320 ((fun l r => Host.dotGeneral dot_S50000x64_S64x12_S50000x12_1_0_0_1_n_n none l r) : (⟨S50000x64, .f32⟩ : BufTy).Contents (Elt F) → (⟨S64x12, .f32⟩ : BufTy).Contents (Elt F) → (⟨S50000x12, .f32⟩ : BufTy).Contents (Elt F)),
    binary main_v319 main_v320 main_v321 (addf : (⟨S50000x12, .f32⟩ : BufTy).Contents (Elt F) → (⟨S50000x12, .f32⟩ : BufTy).Contents (Elt F) → (⟨S50000x12, .f32⟩ : BufTy).Contents (Elt F)),
    unary main_v321 main_v322 (Host.negf : (⟨S50000x12, .f32⟩ : BufTy).Contents (Elt F) → (⟨S50000x12, .f32⟩ : BufTy).Contents (Elt F)),
    unary main_v322 main_v323 (Host.exp : (⟨S50000x12, .f32⟩ : BufTy).Contents (Elt F) → (⟨S50000x12, .f32⟩ : BufTy).Contents (Elt F)),
    nullary main_cst_55 (constant S_ .f32 0x3F800000#32),
    unary main_cst_55 main_v324 (broadcastInDim S50000x12 ![] bcast_S_S50000x12 : (⟨S_, .f32⟩ : BufTy).Contents (Elt F) → (⟨S50000x12, .f32⟩ : BufTy).Contents (Elt F)),
    binary main_v324 main_v323 main_v325 (addf : (⟨S50000x12, .f32⟩ : BufTy).Contents (Elt F) → (⟨S50000x12, .f32⟩ : BufTy).Contents (Elt F) → (⟨S50000x12, .f32⟩ : BufTy).Contents (Elt F)),
    nullary main_cst_56 (constant S_ .f32 0x3F800000#32),
    unary main_cst_56 main_v326 (broadcastInDim S50000x12 ![] bcast_S_S50000x12 : (⟨S_, .f32⟩ : BufTy).Contents (Elt F) → (⟨S50000x12, .f32⟩ : BufTy).Contents (Elt F)),
    binary main_v326 main_v325 main_v327 (Host.divf : (⟨S50000x12, .f32⟩ : BufTy).Contents (Elt F) → (⟨S50000x12, .f32⟩ : BufTy).Contents (Elt F) → (⟨S50000x12, .f32⟩ : BufTy).Contents (Elt F)) ]

noncomputable def d1_w : List (Ref sig .tc) :=
  [main_v298, main_v299, main_v300, main_v301, main_v302, main_v303, main_c_52, main_v304, main_v305, main_c_53, main_v306, main_v307, main_v308, main_v309, main_v310, main_cst_54, main_v311, main_v312, main_v313, main_v314, main_v315, main_v316, main_v317, main_v318, main_v319, main_v320, main_v321, main_v322, main_v323, main_cst_55, main_v324, main_v325, main_cst_56, main_v326, main_v327]

theorem d1_writes : (d1 (F := F)).Forall fun op => op.writes ⊆ (d1_w.map (Proc.devRef (τ := τ) .tc)).toFinset := by
  simp only [d1, List.Forall, nullary_writes, unary_writes, binary_writes, ternary_writes, reshape_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

end d1_defs

theorem d1_kept {r : Ref sig .tc} (V : RVal) (hr : r ∉ d1_w) :
    after (d1 (F := Ideal)) V (Proc.devRef .tc r) = V (Proc.devRef .tc r) :=
  after_of_writes_sub _ V d1_writes hr

theorem d1_args {a : KVals.Args} {V : RVal} (hA : ArgsAt a V) : ArgsAt a (after (d1 (F := Ideal)) V) :=
  args_keep hA _ _ d1_writes (by decide)

theorem d1_v327 (V : RVal) (a : KVals.Args) (hA : ArgsAt a V) (h8 : V (Proc.devRef .tc main_v8) = Vals.invdeg a.ed)
    (hk : V (Proc.devRef .tc main_v297) = KVals.hk1 a) :
    after (d1 (F := Ideal)) V (Proc.devRef .tc main_v327) = KVals.o10 a := by
  unfold d1
  after_results_simp
  rw [hA.h1, hA.h2, hA.h16, hA.h17, hA.h18, h8, hk]
  unfold KVals.o10
  exact Cert.RefLayers.sig_layer_eq _ rfl rfl rfl rfl rfl rfl none _ _ _ _ _ _ _ _

section d2_defs
variable {F : FTy → Type} [FloatOps F]

noncomputable def d2 : List (HloOp τ sig (Elt F)) :=
  [
    unary main_arg19 main_v328 ((extractStridedSlice S1x64x8 ![1, 0, 0] · slices_S2x64x8_S1x64x8_1_0_0) : (⟨S2x64x8, .f32⟩ : BufTy).Contents (Elt F) → (⟨S1x64x8, .f32⟩ : BufTy).Contents (Elt F)),
    reshape main_v328 main_v329 rfl shapeCasts_S1x64x8_S64x8,
    unary main_arg20 main_v330 ((extractStridedSlice S1x8 ![1, 0] · slices_S2x8_S1x8_1_0) : (⟨S2x8, .f32⟩ : BufTy).Contents (Elt F) → (⟨S1x8, .f32⟩ : BufTy).Contents (Elt F)),
    reshape main_v330 main_v331 rfl shapeCasts_S1x8_S8,
    unary main_arg21 main_v332 ((extractStridedSlice S1x64x8 ![1, 0, 0] · slices_S2x64x8_S1x64x8_1_0_0) : (⟨S2x64x8, .f32⟩ : BufTy).Contents (Elt F) → (⟨S1x64x8, .f32⟩ : BufTy).Contents (Elt F)),
    reshape main_v332 main_v333 rfl shapeCasts_S1x64x8_S64x8,
    nullary main_c_57 (constantI S_ 32 0#32),
    unary main_c_57 main_v334 (broadcastInDim S800000 ![] bcast_S_S800000 : (⟨S_, .i32⟩ : BufTy).Contents (Elt F) → (⟨S800000, .i32⟩ : BufTy).Contents (Elt F)),
    binary main_arg1 main_v334 main_v335 (cmpi .slt : (⟨S800000, .i32⟩ : BufTy).Contents (Elt F) → (⟨S800000, .i32⟩ : BufTy).Contents (Elt F) → (⟨S800000, .i1⟩ : BufTy).Contents (Elt F)),
    nullary main_c_58 (constantI S_ 32 50000#32),
    unary main_c_58 main_v336 (broadcastInDim S800000 ![] bcast_S_S800000 : (⟨S_, .i32⟩ : BufTy).Contents (Elt F) → (⟨S800000, .i32⟩ : BufTy).Contents (Elt F)),
    binary main_arg1 main_v336 main_v337 (addi : (⟨S800000, .i32⟩ : BufTy).Contents (Elt F) → (⟨S800000, .i32⟩ : BufTy).Contents (Elt F) → (⟨S800000, .i32⟩ : BufTy).Contents (Elt F)),
    ternary main_v335 main_v337 main_arg1 main_v338 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v338 main_v339 (broadcastInDim S800000x1 ![0] bcast_S800000_S800000x1_0 : (⟨S800000, .i32⟩ : BufTy).Contents (Elt F) → (⟨S800000x1, .i32⟩ : BufTy).Contents (Elt F)),
    binary main_v297 main_v339 main_v340 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_59 (constant S_ .f32 0x00000000#32),
    unary main_cst_59 main_v341 (broadcastInDim S50000x64 ![] bcast_S_S50000x64 : (⟨S_, .f32⟩ : BufTy).Contents (Elt F) → (⟨S50000x64, .f32⟩ : BufTy).Contents (Elt F)),
    unary main_arg2 main_v342 (broadcastInDim S800000x1 ![0] bcast_S800000_S800000x1_0 : (⟨S800000, .i32⟩ : BufTy).Contents (Elt F) → (⟨S800000x1, .i32⟩ : BufTy).Contents (Elt F)),
    ternary main_v341 main_v342 main_v340 main_v343 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v344 (broadcastInDim S50000x64 ![0, 1] bcast_S50000x1_S50000x64_0_1 : (⟨S50000x1, .f32⟩ : BufTy).Contents (Elt F) → (⟨S50000x64, .f32⟩ : BufTy).Contents (Elt F)),
    binary main_v343 main_v344 main_v345 (mulf : (⟨S50000x64, .f32⟩ : BufTy).Contents (Elt F) → (⟨S50000x64, .f32⟩ : BufTy).Contents (Elt F) → (⟨S50000x64, .f32⟩ : BufTy).Contents (Elt F)),
    binary main_v345 main_v329 main_v346 ((fun l r => Host.dotGeneral dot_S50000x64_S64x8_S50000x8_1_0_0_1_n_n none l r) : (⟨S50000x64, .f32⟩ : BufTy).Contents (Elt F) → (⟨S64x8, .f32⟩ : BufTy).Contents (Elt F) → (⟨S50000x8, .f32⟩ : BufTy).Contents (Elt F)),
    unary main_v331 main_v347 (broadcastInDim S1x8 ![1] bcast_S8_S1x8_1 : (⟨S8, .f32⟩ : BufTy).Contents (Elt F) → (⟨S1x8, .f32⟩ : BufTy).Contents (Elt F)),
    unary main_v347 main_v348 (broadcastInDim S50000x8 ![0, 1] bcast_S1x8_S50000x8_0_1 : (⟨S1x8, .f32⟩ : BufTy).Contents (Elt F) → (⟨S50000x8, .f32⟩ : BufTy).Contents (Elt F)),
    binary main_v346 main_v348 main_v349 (addf : (⟨S50000x8, .f32⟩ : BufTy).Contents (Elt F) → (⟨S50000x8, .f32⟩ : BufTy).Contents (Elt F) → (⟨S50000x8, .f32⟩ : BufTy).Contents (Elt F)),
    binary main_v297 main_v333 main_v350 ((fun l r => Host.dotGeneral dot_S50000x64_S64x8_S50000x8_1_0_0_1_n_n none l r) : (⟨S50000x64, .f32⟩ : BufTy).Contents (Elt F) → (⟨S64x8, .f32⟩ : BufTy).Contents (Elt F) → (⟨S50000x8, .f32⟩ : BufTy).Contents (Elt F)),
    binary main_v349 main_v350 main_v351 (addf : (⟨S50000x8, .f32⟩ : BufTy).Contents (Elt F) → (⟨S50000x8, .f32⟩ : BufTy).Contents (Elt F) → (⟨S50000x8, .f32⟩ : BufTy).Contents (Elt F)),
    unary main_v351 main_v352 (Host.negf : (⟨S50000x8, .f32⟩ : BufTy).Contents (Elt F) → (⟨S50000x8, .f32⟩ : BufTy).Contents (Elt F)),
    unary main_v352 main_v353 (Host.exp : (⟨S50000x8, .f32⟩ : BufTy).Contents (Elt F) → (⟨S50000x8, .f32⟩ : BufTy).Contents (Elt F)),
    nullary main_cst_60 (constant S_ .f32 0x3F800000#32),
    unary main_cst_60 main_v354 (broadcastInDim S50000x8 ![] bcast_S_S50000x8 : (⟨S_, .f32⟩ : BufTy).Contents (Elt F) → (⟨S50000x8, .f32⟩ : BufTy).Contents (Elt F)),
    binary main_v354 main_v353 main_v355 (addf : (⟨S50000x8, .f32⟩ : BufTy).Contents (Elt F) → (⟨S50000x8, .f32⟩ : BufTy).Contents (Elt F) → (⟨S50000x8, .f32⟩ : BufTy).Contents (Elt F)),
    nullary main_cst_61 (constant S_ .f32 0x3F800000#32),
    unary main_cst_61 main_v356 (broadcastInDim S50000x8 ![] bcast_S_S50000x8 : (⟨S_, .f32⟩ : BufTy).Contents (Elt F) → (⟨S50000x8, .f32⟩ : BufTy).Contents (Elt F)),
    binary main_v356 main_v355 main_v357 (Host.divf : (⟨S50000x8, .f32⟩ : BufTy).Contents (Elt F) → (⟨S50000x8, .f32⟩ : BufTy).Contents (Elt F) → (⟨S50000x8, .f32⟩ : BufTy).Contents (Elt F)) ]

noncomputable def d2_w : List (Ref sig .tc) :=
  [main_v328, main_v329, main_v330, main_v331, main_v332, main_v333, main_c_57, main_v334, main_v335, main_c_58, main_v336, main_v337, main_v338, main_v339, main_v340, main_cst_59, main_v341, main_v342, main_v343, main_v344, main_v345, main_v346, main_v347, main_v348, main_v349, main_v350, main_v351, main_v352, main_v353, main_cst_60, main_v354, main_v355, main_cst_61, main_v356, main_v357]

theorem d2_writes : (d2 (F := F)).Forall fun op => op.writes ⊆ (d2_w.map (Proc.devRef (τ := τ) .tc)).toFinset := by
  simp only [d2, List.Forall, nullary_writes, unary_writes, binary_writes, ternary_writes, reshape_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

end d2_defs

theorem d2_kept {r : Ref sig .tc} (V : RVal) (hr : r ∉ d2_w) :
    after (d2 (F := Ideal)) V (Proc.devRef .tc r) = V (Proc.devRef .tc r) :=
  after_of_writes_sub _ V d2_writes hr

theorem d2_args {a : KVals.Args} {V : RVal} (hA : ArgsAt a V) : ArgsAt a (after (d2 (F := Ideal)) V) :=
  args_keep hA _ _ d2_writes (by decide)

theorem d2_v357 (V : RVal) (a : KVals.Args) (hA : ArgsAt a V) (h8 : V (Proc.devRef .tc main_v8) = Vals.invdeg a.ed)
    (hk : V (Proc.devRef .tc main_v297) = KVals.hk1 a) :
    after (d2 (F := Ideal)) V (Proc.devRef .tc main_v357) = KVals.o11 a := by
  unfold d2
  after_results_simp
  rw [hA.h1, hA.h2, hA.h19, hA.h20, hA.h21, h8, hk]
  unfold KVals.o11
  exact Cert.RefLayers.sig_layer_eq _ rfl rfl rfl rfl rfl rfl none _ _ _ _ _ _ _ _

section d3_defs
variable {F : FTy → Type} [FloatOps F]

noncomputable def d3 : List (HloOp τ sig (Elt F)) :=
  [
    unary main_arg22 main_v358 ((extractStridedSlice S1x64x5 ![1, 0, 0] · slices_S2x64x5_S1x64x5_1_0_0) : (⟨S2x64x5, .f32⟩ : BufTy).Contents (Elt F) → (⟨S1x64x5, .f32⟩ : BufTy).Contents (Elt F)),
    reshape main_v358 main_v359 rfl shapeCasts_S1x64x5_S64x5,
    unary main_arg23 main_v360 ((extractStridedSlice S1x5 ![1, 0] · slices_S2x5_S1x5_1_0) : (⟨S2x5, .f32⟩ : BufTy).Contents (Elt F) → (⟨S1x5, .f32⟩ : BufTy).Contents (Elt F)),
    reshape main_v360 main_v361 rfl shapeCasts_S1x5_S5,
    unary main_arg24 main_v362 ((extractStridedSlice S1x64x5 ![1, 0, 0] · slices_S2x64x5_S1x64x5_1_0_0) : (⟨S2x64x5, .f32⟩ : BufTy).Contents (Elt F) → (⟨S1x64x5, .f32⟩ : BufTy).Contents (Elt F)),
    reshape main_v362 main_v363 rfl shapeCasts_S1x64x5_S64x5,
    nullary main_c_62 (constantI S_ 32 0#32),
    unary main_c_62 main_v364 (broadcastInDim S800000 ![] bcast_S_S800000 : (⟨S_, .i32⟩ : BufTy).Contents (Elt F) → (⟨S800000, .i32⟩ : BufTy).Contents (Elt F)),
    binary main_arg1 main_v364 main_v365 (cmpi .slt : (⟨S800000, .i32⟩ : BufTy).Contents (Elt F) → (⟨S800000, .i32⟩ : BufTy).Contents (Elt F) → (⟨S800000, .i1⟩ : BufTy).Contents (Elt F)),
    nullary main_c_63 (constantI S_ 32 50000#32),
    unary main_c_63 main_v366 (broadcastInDim S800000 ![] bcast_S_S800000 : (⟨S_, .i32⟩ : BufTy).Contents (Elt F) → (⟨S800000, .i32⟩ : BufTy).Contents (Elt F)),
    binary main_arg1 main_v366 main_v367 (addi : (⟨S800000, .i32⟩ : BufTy).Contents (Elt F) → (⟨S800000, .i32⟩ : BufTy).Contents (Elt F) → (⟨S800000, .i32⟩ : BufTy).Contents (Elt F)),
    ternary main_v365 main_v367 main_arg1 main_v368 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v368 main_v369 (broadcastInDim S800000x1 ![0] bcast_S800000_S800000x1_0 : (⟨S800000, .i32⟩ : BufTy).Contents (Elt F) → (⟨S800000x1, .i32⟩ : BufTy).Contents (Elt F)),
    binary main_v297 main_v369 main_v370 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_64 (constant S_ .f32 0x00000000#32),
    unary main_cst_64 main_v371 (broadcastInDim S50000x64 ![] bcast_S_S50000x64 : (⟨S_, .f32⟩ : BufTy).Contents (Elt F) → (⟨S50000x64, .f32⟩ : BufTy).Contents (Elt F)),
    unary main_arg2 main_v372 (broadcastInDim S800000x1 ![0] bcast_S800000_S800000x1_0 : (⟨S800000, .i32⟩ : BufTy).Contents (Elt F) → (⟨S800000x1, .i32⟩ : BufTy).Contents (Elt F)),
    ternary main_v371 main_v372 main_v370 main_v373 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v374 (broadcastInDim S50000x64 ![0, 1] bcast_S50000x1_S50000x64_0_1 : (⟨S50000x1, .f32⟩ : BufTy).Contents (Elt F) → (⟨S50000x64, .f32⟩ : BufTy).Contents (Elt F)),
    binary main_v373 main_v374 main_v375 (mulf : (⟨S50000x64, .f32⟩ : BufTy).Contents (Elt F) → (⟨S50000x64, .f32⟩ : BufTy).Contents (Elt F) → (⟨S50000x64, .f32⟩ : BufTy).Contents (Elt F)),
    binary main_v375 main_v359 main_v376 ((fun l r => Host.dotGeneral dot_S50000x64_S64x5_S50000x5_1_0_0_1_n_n none l r) : (⟨S50000x64, .f32⟩ : BufTy).Contents (Elt F) → (⟨S64x5, .f32⟩ : BufTy).Contents (Elt F) → (⟨S50000x5, .f32⟩ : BufTy).Contents (Elt F)),
    unary main_v361 main_v377 (broadcastInDim S1x5 ![1] bcast_S5_S1x5_1 : (⟨S5, .f32⟩ : BufTy).Contents (Elt F) → (⟨S1x5, .f32⟩ : BufTy).Contents (Elt F)),
    unary main_v377 main_v378 (broadcastInDim S50000x5 ![0, 1] bcast_S1x5_S50000x5_0_1 : (⟨S1x5, .f32⟩ : BufTy).Contents (Elt F) → (⟨S50000x5, .f32⟩ : BufTy).Contents (Elt F)),
    binary main_v376 main_v378 main_v379 (addf : (⟨S50000x5, .f32⟩ : BufTy).Contents (Elt F) → (⟨S50000x5, .f32⟩ : BufTy).Contents (Elt F) → (⟨S50000x5, .f32⟩ : BufTy).Contents (Elt F)),
    binary main_v297 main_v363 main_v380 ((fun l r => Host.dotGeneral dot_S50000x64_S64x5_S50000x5_1_0_0_1_n_n none l r) : (⟨S50000x64, .f32⟩ : BufTy).Contents (Elt F) → (⟨S64x5, .f32⟩ : BufTy).Contents (Elt F) → (⟨S50000x5, .f32⟩ : BufTy).Contents (Elt F)),
    binary main_v379 main_v380 main_v381 (addf : (⟨S50000x5, .f32⟩ : BufTy).Contents (Elt F) → (⟨S50000x5, .f32⟩ : BufTy).Contents (Elt F) → (⟨S50000x5, .f32⟩ : BufTy).Contents (Elt F)),
    unary main_v381 main_v382 (Host.negf : (⟨S50000x5, .f32⟩ : BufTy).Contents (Elt F) → (⟨S50000x5, .f32⟩ : BufTy).Contents (Elt F)),
    unary main_v382 main_v383 (Host.exp : (⟨S50000x5, .f32⟩ : BufTy).Contents (Elt F) → (⟨S50000x5, .f32⟩ : BufTy).Contents (Elt F)),
    nullary main_cst_65 (constant S_ .f32 0x3F800000#32),
    unary main_cst_65 main_v384 (broadcastInDim S50000x5 ![] bcast_S_S50000x5 : (⟨S_, .f32⟩ : BufTy).Contents (Elt F) → (⟨S50000x5, .f32⟩ : BufTy).Contents (Elt F)),
    binary main_v384 main_v383 main_v385 (addf : (⟨S50000x5, .f32⟩ : BufTy).Contents (Elt F) → (⟨S50000x5, .f32⟩ : BufTy).Contents (Elt F) → (⟨S50000x5, .f32⟩ : BufTy).Contents (Elt F)),
    nullary main_cst_66 (constant S_ .f32 0x3F800000#32),
    unary main_cst_66 main_v386 (broadcastInDim S50000x5 ![] bcast_S_S50000x5 : (⟨S_, .f32⟩ : BufTy).Contents (Elt F) → (⟨S50000x5, .f32⟩ : BufTy).Contents (Elt F)),
    binary main_v386 main_v385 main_v387 (Host.divf : (⟨S50000x5, .f32⟩ : BufTy).Contents (Elt F) → (⟨S50000x5, .f32⟩ : BufTy).Contents (Elt F) → (⟨S50000x5, .f32⟩ : BufTy).Contents (Elt F)) ]

noncomputable def d3_w : List (Ref sig .tc) :=
  [main_v358, main_v359, main_v360, main_v361, main_v362, main_v363, main_c_62, main_v364, main_v365, main_c_63, main_v366, main_v367, main_v368, main_v369, main_v370, main_cst_64, main_v371, main_v372, main_v373, main_v374, main_v375, main_v376, main_v377, main_v378, main_v379, main_v380, main_v381, main_v382, main_v383, main_cst_65, main_v384, main_v385, main_cst_66, main_v386, main_v387]

theorem d3_writes : (d3 (F := F)).Forall fun op => op.writes ⊆ (d3_w.map (Proc.devRef (τ := τ) .tc)).toFinset := by
  simp only [d3, List.Forall, nullary_writes, unary_writes, binary_writes, ternary_writes, reshape_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

end d3_defs

theorem d3_kept {r : Ref sig .tc} (V : RVal) (hr : r ∉ d3_w) :
    after (d3 (F := Ideal)) V (Proc.devRef .tc r) = V (Proc.devRef .tc r) :=
  after_of_writes_sub _ V d3_writes hr

theorem d3_args {a : KVals.Args} {V : RVal} (hA : ArgsAt a V) : ArgsAt a (after (d3 (F := Ideal)) V) :=
  args_keep hA _ _ d3_writes (by decide)

theorem d3_v387 (V : RVal) (a : KVals.Args) (hA : ArgsAt a V) (h8 : V (Proc.devRef .tc main_v8) = Vals.invdeg a.ed)
    (hk : V (Proc.devRef .tc main_v297) = KVals.hk1 a) :
    after (d3 (F := Ideal)) V (Proc.devRef .tc main_v387) = KVals.o12 a := by
  unfold d3
  after_results_simp
  rw [hA.h1, hA.h2, hA.h22, hA.h23, hA.h24, h8, hk]
  unfold KVals.o12
  exact Cert.RefLayers.sig_layer_eq _ rfl rfl rfl rfl rfl rfl none _ _ _ _ _ _ _ _

end Cert.RefSide.B2

end
-- ==== Proof.RefSideB2H.lean ====
/- Task 1's three loss heads in the reference program (operations 574 to 711), by the same chain as task 0's. -/
import proofs.«181152_j39822936769202_1_alg».proof.Proof.RefBase
import proofs.«181152_j39822936769202_1_alg».proof.Proof.RefLayers
import proofs.«181152_j39822936769202_1_alg».proof.Proof.LibLabels
import proofs.«181152_j39822936769202_1_alg».proof.Proof.RefSideA2H
import Idealize.ShloMosaic.Lib.StableHlo.Run

set_option maxRecDepth 16384

noncomputable section

namespace Cert.RefSide.B2

open Cert.ReferenceIdeal Cert.ReferenceIdeal.Gen Idealize.ShloMosaic Idealize.ShloMosaic.TcCoe Idealize.SL.Sem Idealize.ShloMosaic.StableHlo
open Idealize.ShloMosaic.ValueIdx
open Cert.RefSide.A2 (head_chain_eq)

variable [Cert.KernelIdeal.Facts]

section d4_defs
variable {F : FTy → Type} [FloatOps F]

noncomputable def d4 : List (HloOp τ sig (Elt F)) :=
  [
    unary main_arg3 main_v388 ((extractStridedSlice S1x50000x1 ![1, 0, 0] · slices_S2x50000x3_S1x50000x1_1_0_0) : (⟨S2x50000x3, .i32⟩ : BufTy).Contents (Elt F) → (⟨S1x50000x1, .i32⟩ : BufTy).Contents (Elt F)),
    reshape main_v388 main_v389 rfl shapeCasts_S1x50000x1_S50000,
    nullary main_call12_cst (constant S_ .f32 0xFF800000#32),
    binary main_v327 main_call12_cst main_call12_v0 ((fun x v => Host.reduce FloatOps.maximumf x v reducesTo_S50000x12_S50000_d1 h_S_) : (⟨S50000x12, .f32⟩ : BufTy).Contents (Elt F) → (⟨S_, .f32⟩ : BufTy).Contents (Elt F) → (⟨S50000, .f32⟩ : BufTy).Contents (Elt F)),
    nullary main_call12_cst_0 (constant S_ .f32 0xFF800000#32),
    unary main_call12_cst_0 main_call12_v1 ((broadcastInDim S50000 ![] bcast_S_S50000) : (⟨S_, .f32⟩ : BufTy).Contents (Elt F) → (⟨S50000, .f32⟩ : BufTy).Contents (Elt F)),
    binary main_call12_v1 main_call12_v0 main_call12_v2 ((maximumf) : (⟨S50000, .f32⟩ : BufTy).Contents (Elt F) → (⟨S50000, .f32⟩ : BufTy).Contents (Elt F) → (⟨S50000, .f32⟩ : BufTy).Contents (Elt F)),
    unary main_call12_v2 main_call12_v3 ((broadcastInDim S50000x1 ![0] bcast_S50000_S50000x1_0) : (⟨S50000, .f32⟩ : BufTy).Contents (Elt F) → (⟨S50000x1, .f32⟩ : BufTy).Contents (Elt F)),
    unary main_call12_v3 main_call12_v4 ((broadcastInDim S50000x12 ![0, 1] bcast_S50000x1_S50000x12_0_1) : (⟨S50000x1, .f32⟩ : BufTy).Contents (Elt F) → (⟨S50000x12, .f32⟩ : BufTy).Contents (Elt F)),
    binary main_v327 main_call12_v4 main_call12_v5 ((subf) : (⟨S50000x12, .f32⟩ : BufTy).Contents (Elt F) → (⟨S50000x12, .f32⟩ : BufTy).Contents (Elt F) → (⟨S50000x12, .f32⟩ : BufTy).Contents (Elt F)),
    unary main_call12_v5 main_call12_v6 ((Host.exp) : (⟨S50000x12, .f32⟩ : BufTy).Contents (Elt F) → (⟨S50000x12, .f32⟩ : BufTy).Contents (Elt F)),
    nullary main_call12_cst_1 (constant S_ .f32 0x00000000#32),
    binary main_call12_v6 main_call12_cst_1 main_call12_v7 ((fun x v => Host.reduceAdd x v reducesTo_S50000x12_S50000_d1 h_S_) : (⟨S50000x12, .f32⟩ : BufTy).Contents (Elt F) → (⟨S_, .f32⟩ : BufTy).Contents (Elt F) → (⟨S50000, .f32⟩ : BufTy).Contents (Elt F)),
    unary main_call12_v7 main_call12_v8 ((broadcastInDim S50000x1 ![0] bcast_S50000_S50000x1_0) : (⟨S50000, .f32⟩ : BufTy).Contents (Elt F) → (⟨S50000x1, .f32⟩ : BufTy).Contents (Elt F)),
    unary main_call12_v8 main_call12_v9 ((Host.log) : (⟨S50000x1, .f32⟩ : BufTy).Contents (Elt F) → (⟨S50000x1, .f32⟩ : BufTy).Contents (Elt F)),
    unary main_call12_v9 main_call12_v10 ((broadcastInDim S50000x12 ![0, 1] bcast_S50000x1_S50000x12_0_1) : (⟨S50000x1, .f32⟩ : BufTy).Contents (Elt F) → (⟨S50000x12, .f32⟩ : BufTy).Contents (Elt F)),
    binary main_call12_v5 main_call12_v10 main_v390 ((subf) : (⟨S50000x12, .f32⟩ : BufTy).Contents (Elt F) → (⟨S50000x12, .f32⟩ : BufTy).Contents (Elt F) → (⟨S50000x12, .f32⟩ : BufTy).Contents (Elt F)),
    unary main_v389 main_v391 (broadcastInDim S50000x1 ![0] bcast_S50000_S50000x1_0 : (⟨S50000, .i32⟩ : BufTy).Contents (Elt F) → (⟨S50000x1, .i32⟩ : BufTy).Contents (Elt F)),
    nullary main_call13_c (constantI S_ 32 0#32),
    unary main_call13_c main_call13_v0 ((broadcastInDim S50000x1 ![] bcast_S_S50000x1) : (⟨S_, .i32⟩ : BufTy).Contents (Elt F) → (⟨S50000x1, .i32⟩ : BufTy).Contents (Elt F)),
    binary main_v391 main_call13_v0 main_call13_v1 ((cmpi .slt) : (⟨S50000x1, .i32⟩ : BufTy).Contents (Elt F) → (⟨S50000x1, .i32⟩ : BufTy).Contents (Elt F) → (⟨S50000x1, .i1⟩ : BufTy).Contents (Elt F)),
    nullary main_call13_c_0 (constantI S_ 32 12#32),
    unary main_call13_c_0 main_call13_v2 ((broadcastInDim S50000x1 ![] bcast_S_S50000x1) : (⟨S_, .i32⟩ : BufTy).Contents (Elt F) → (⟨S50000x1, .i32⟩ : BufTy).Contents (Elt F)),
    binary main_v391 main_call13_v2 main_call13_v3 ((addi) : (⟨S50000x1, .i32⟩ : BufTy).Contents (Elt F) → (⟨S50000x1, .i32⟩ : BufTy).Contents (Elt F) → (⟨S50000x1, .i32⟩ : BufTy).Contents (Elt F)),
    ternary main_call13_v1 main_call13_v3 main_v391 main_call13_v4 ((select) : (⟨S50000x1, .i1⟩ : BufTy).Contents (Elt F) → (⟨S50000x1, .i32⟩ : BufTy).Contents (Elt F) → (⟨S50000x1, .i32⟩ : BufTy).Contents (Elt F) → (⟨S50000x1, .i32⟩ : BufTy).Contents (Elt F)),
    reshape main_call13_v4 main_call13_v5 rfl shapeCasts_S50000x1_S50000x1x1,
    nullary main_call13_c_1 (constantI S1 32 11#32),
    nullary main_call13_c_2 (constantI S_ 32 0#32),
    unary main_call13_c_2 main_call13_v6 ((broadcastInDim S50000x1x1 ![] bcast_S_S50000x1x1) : (⟨S_, .i32⟩ : BufTy).Contents (Elt F) → (⟨S50000x1x1, .i32⟩ : BufTy).Contents (Elt F)),
    binary main_call13_v5 main_call13_v6 main_call13_v7 ((cmpi .sge) : (⟨S50000x1x1, .i32⟩ : BufTy).Contents (Elt F) → (⟨S50000x1x1, .i32⟩ : BufTy).Contents (Elt F) → (⟨S50000x1x1, .i1⟩ : BufTy).Contents (Elt F)),
    unary main_call13_c_1 main_call13_v8 ((broadcastInDim S1x1x1 ![2] bcast_S1_S1x1x1_2) : (⟨S1, .i32⟩ : BufTy).Contents (Elt F) → (⟨S1x1x1, .i32⟩ : BufTy).Contents (Elt F)),
    unary main_call13_v8 main_call13_v9 ((broadcastInDim S50000x1x1 ![0, 1, 2] bcast_S1x1x1_S50000x1x1_0_1_2) : (⟨S1x1x1, .i32⟩ : BufTy).Contents (Elt F) → (⟨S50000x1x1, .i32⟩ : BufTy).Contents (Elt F)),
    binary main_call13_v5 main_call13_v9 main_call13_v10 ((cmpi .sle) : (⟨S50000x1x1, .i32⟩ : BufTy).Contents (Elt F) → (⟨S50000x1x1, .i32⟩ : BufTy).Contents (Elt F) → (⟨S50000x1x1, .i1⟩ : BufTy).Contents (Elt F)),
    binary main_call13_v7 main_call13_v10 main_call13_v11 ((andi) : (⟨S50000x1x1, .i1⟩ : BufTy).Contents (Elt F) → (⟨S50000x1x1, .i1⟩ : BufTy).Contents (Elt F) → (⟨S50000x1x1, .i1⟩ : BufTy).Contents (Elt F)),
    nullary main_call13_c_3 (constantI S_ 1 1#1),
    binary main_call13_v11 main_call13_c_3 main_call13_v12 ((fun x v => Host.reduce IntOp.andi x v reducesTo_S50000x1x1_S50000x1_d2 h_S_) : (⟨S50000x1x1, .i1⟩ : BufTy).Contents (Elt F) → (⟨S_, .i1⟩ : BufTy).Contents (Elt F) → (⟨S50000x1, .i1⟩ : BufTy).Contents (Elt F)),
    binary main_v390 main_call13_v5 main_call13_v13 ((fun x i => Host.gather gather_S50000x12_S50000x1x1_S50000x1_n_1_0_0_1_2_11 x i) : (⟨S50000x12, .f32⟩ : BufTy).Contents (Elt F) → (⟨S50000x1x1, .i32⟩ : BufTy).Contents (Elt F) → (⟨S50000x1, .f32⟩ : BufTy).Contents (Elt F)),
    nullary main_call13_cst (constant S_ .f32 0x7FC00000#32),
    unary main_call13_cst main_call13_v14 ((broadcastInDim S50000x1 ![] bcast_S_S50000x1) : (⟨S_, .f32⟩ : BufTy).Contents (Elt F) → (⟨S50000x1, .f32⟩ : BufTy).Contents (Elt F)),
    ternary main_call13_v12 main_call13_v13 main_call13_v14 main_v392 ((select) : (⟨S50000x1, .i1⟩ : BufTy).Contents (Elt F) → (⟨S50000x1, .f32⟩ : BufTy).Contents (Elt F) → (⟨S50000x1, .f32⟩ : BufTy).Contents (Elt F) → (⟨S50000x1, .f32⟩ : BufTy).Contents (Elt F)),
    nullary main_cst_67 (constant S_ .f32 0x00000000#32),
    binary main_v392 main_cst_67 main_v393 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    nullary main_cst_68 (constant S_ .f32 0x47435000#32),
    binary main_v393 main_cst_68 main_v394 (Host.divf : (⟨S_, .f32⟩ : BufTy).Contents (Elt F) → (⟨S_, .f32⟩ : BufTy).Contents (Elt F) → (⟨S_, .f32⟩ : BufTy).Contents (Elt F)),
    unary main_v394 main_v395 (Host.negf : (⟨S_, .f32⟩ : BufTy).Contents (Elt F) → (⟨S_, .f32⟩ : BufTy).Contents (Elt F)),
    binary main_v211 main_v395 main_v396 (addf : (⟨S_, .f32⟩ : BufTy).Contents (Elt F) → (⟨S_, .f32⟩ : BufTy).Contents (Elt F) → (⟨S_, .f32⟩ : BufTy).Contents (Elt F)) ]

noncomputable def d4_w : List (Ref sig .tc) :=
  [main_v388, main_v389, main_call12_cst, main_call12_v0, main_call12_cst_0, main_call12_v1, main_call12_v2, main_call12_v3, main_call12_v4, main_call12_v5, main_call12_v6, main_call12_cst_1, main_call12_v7, main_call12_v8, main_call12_v9, main_call12_v10, main_v390, main_v391, main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_cst, main_call13_v14, main_v392, main_cst_67, main_v393, main_cst_68, main_v394, main_v395, main_v396]

theorem d4_writes : (d4 (F := F)).Forall fun op => op.writes ⊆ (d4_w.map (Proc.devRef (τ := τ) .tc)).toFinset := by
  simp only [d4, List.Forall, nullary_writes, unary_writes, binary_writes, ternary_writes, reshape_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

end d4_defs

theorem d4_kept {r : Ref sig .tc} (V : RVal) (hr : r ∉ d4_w) :
    after (d4 (F := Ideal)) V (Proc.devRef .tc r) = V (Proc.devRef .tc r) :=
  after_of_writes_sub _ V d4_writes hr

theorem d4_args {a : KVals.Args} {V : RVal} (hA : ArgsAt a V) : ArgsAt a (after (d4 (F := Ideal)) V) :=
  args_keep hA _ _ d4_writes (by decide)

theorem d4_v396 (V : RVal) (a : KVals.Args) (hA : ArgsAt a V)
    (ho : V (Proc.devRef .tc main_v327) = KVals.o10 a)
    (hlab : ∀ r : Fin 50000, 0 ≤ (KVals.lab10 a (ix1 r)).toInt ∧ (KVals.lab10 a (ix1 r)).toInt < 12) :
    after (d4 (F := Ideal)) V (Proc.devRef .tc main_v396)
      = addf (V (Proc.devRef .tc main_v211)) (KVals.HR10 a) := by
  unfold d4
  after_results_simp
  rw [hA.h3, ho]
  refine congrArg (addf _) ?_
  unfold KVals.HR10 KVals.labOf
  exact head_chain_eq (C := 12) (by decide) reducesTo_S50000x12_S50000_d1 h_S_ bcast_S_S50000 bcast_S50000_S50000x1_0
    bcast_S50000x1_S50000x12_0_1 bcast_S_S50000x1 shapeCasts_S50000x1_S50000x1x1 bcast_S_S50000x1x1 bcast_S1_S1x1x1_2
    bcast_S1x1x1_S50000x1x1_0_1_2 reducesTo_S50000x1x1_S50000x1_d2 gather_S50000x12_S50000x1x1_S50000x1_n_1_0_0_1_2_11
    rfl rfl rfl rfl rfl rfl 12#32 11#32 (by decide) reducesTo_S50000x1_S_d0_1 (KVals.o10 a) (KVals.lab10 a) hlab

section d5_defs
variable {F : FTy → Type} [FloatOps F]

noncomputable def d5 : List (HloOp τ sig (Elt F)) :=
  [
    unary main_arg3 main_v397 ((extractStridedSlice S1x50000x1 ![1, 0, 1] · slices_S2x50000x3_S1x50000x1_1_0_1) : (⟨S2x50000x3, .i32⟩ : BufTy).Contents (Elt F) → (⟨S1x50000x1, .i32⟩ : BufTy).Contents (Elt F)),
    reshape main_v397 main_v398 rfl shapeCasts_S1x50000x1_S50000,
    nullary main_call14_cst (constant S_ .f32 0xFF800000#32),
    binary main_v357 main_call14_cst main_call14_v0 ((fun x v => Host.reduce FloatOps.maximumf x v reducesTo_S50000x8_S50000_d1 h_S_) : (⟨S50000x8, .f32⟩ : BufTy).Contents (Elt F) → (⟨S_, .f32⟩ : BufTy).Contents (Elt F) → (⟨S50000, .f32⟩ : BufTy).Contents (Elt F)),
    nullary main_call14_cst_0 (constant S_ .f32 0xFF800000#32),
    unary main_call14_cst_0 main_call14_v1 ((broadcastInDim S50000 ![] bcast_S_S50000) : (⟨S_, .f32⟩ : BufTy).Contents (Elt F) → (⟨S50000, .f32⟩ : BufTy).Contents (Elt F)),
    binary main_call14_v1 main_call14_v0 main_call14_v2 ((maximumf) : (⟨S50000, .f32⟩ : BufTy).Contents (Elt F) → (⟨S50000, .f32⟩ : BufTy).Contents (Elt F) → (⟨S50000, .f32⟩ : BufTy).Contents (Elt F)),
    unary main_call14_v2 main_call14_v3 ((broadcastInDim S50000x1 ![0] bcast_S50000_S50000x1_0) : (⟨S50000, .f32⟩ : BufTy).Contents (Elt F) → (⟨S50000x1, .f32⟩ : BufTy).Contents (Elt F)),
    unary main_call14_v3 main_call14_v4 ((broadcastInDim S50000x8 ![0, 1] bcast_S50000x1_S50000x8_0_1) : (⟨S50000x1, .f32⟩ : BufTy).Contents (Elt F) → (⟨S50000x8, .f32⟩ : BufTy).Contents (Elt F)),
    binary main_v357 main_call14_v4 main_call14_v5 ((subf) : (⟨S50000x8, .f32⟩ : BufTy).Contents (Elt F) → (⟨S50000x8, .f32⟩ : BufTy).Contents (Elt F) → (⟨S50000x8, .f32⟩ : BufTy).Contents (Elt F)),
    unary main_call14_v5 main_call14_v6 ((Host.exp) : (⟨S50000x8, .f32⟩ : BufTy).Contents (Elt F) → (⟨S50000x8, .f32⟩ : BufTy).Contents (Elt F)),
    nullary main_call14_cst_1 (constant S_ .f32 0x00000000#32),
    binary main_call14_v6 main_call14_cst_1 main_call14_v7 ((fun x v => Host.reduceAdd x v reducesTo_S50000x8_S50000_d1 h_S_) : (⟨S50000x8, .f32⟩ : BufTy).Contents (Elt F) → (⟨S_, .f32⟩ : BufTy).Contents (Elt F) → (⟨S50000, .f32⟩ : BufTy).Contents (Elt F)),
    unary main_call14_v7 main_call14_v8 ((broadcastInDim S50000x1 ![0] bcast_S50000_S50000x1_0) : (⟨S50000, .f32⟩ : BufTy).Contents (Elt F) → (⟨S50000x1, .f32⟩ : BufTy).Contents (Elt F)),
    unary main_call14_v8 main_call14_v9 ((Host.log) : (⟨S50000x1, .f32⟩ : BufTy).Contents (Elt F) → (⟨S50000x1, .f32⟩ : BufTy).Contents (Elt F)),
    unary main_call14_v9 main_call14_v10 ((broadcastInDim S50000x8 ![0, 1] bcast_S50000x1_S50000x8_0_1) : (⟨S50000x1, .f32⟩ : BufTy).Contents (Elt F) → (⟨S50000x8, .f32⟩ : BufTy).Contents (Elt F)),
    binary main_call14_v5 main_call14_v10 main_v399 ((subf) : (⟨S50000x8, .f32⟩ : BufTy).Contents (Elt F) → (⟨S50000x8, .f32⟩ : BufTy).Contents (Elt F) → (⟨S50000x8, .f32⟩ : BufTy).Contents (Elt F)),
    unary main_v398 main_v400 (broadcastInDim S50000x1 ![0] bcast_S50000_S50000x1_0 : (⟨S50000, .i32⟩ : BufTy).Contents (Elt F) → (⟨S50000x1, .i32⟩ : BufTy).Contents (Elt F)),
    nullary main_call15_c (constantI S_ 32 0#32),
    unary main_call15_c main_call15_v0 ((broadcastInDim S50000x1 ![] bcast_S_S50000x1) : (⟨S_, .i32⟩ : BufTy).Contents (Elt F) → (⟨S50000x1, .i32⟩ : BufTy).Contents (Elt F)),
    binary main_v400 main_call15_v0 main_call15_v1 ((cmpi .slt) : (⟨S50000x1, .i32⟩ : BufTy).Contents (Elt F) → (⟨S50000x1, .i32⟩ : BufTy).Contents (Elt F) → (⟨S50000x1, .i1⟩ : BufTy).Contents (Elt F)),
    nullary main_call15_c_0 (constantI S_ 32 8#32),
    unary main_call15_c_0 main_call15_v2 ((broadcastInDim S50000x1 ![] bcast_S_S50000x1) : (⟨S_, .i32⟩ : BufTy).Contents (Elt F) → (⟨S50000x1, .i32⟩ : BufTy).Contents (Elt F)),
    binary main_v400 main_call15_v2 main_call15_v3 ((addi) : (⟨S50000x1, .i32⟩ : BufTy).Contents (Elt F) → (⟨S50000x1, .i32⟩ : BufTy).Contents (Elt F) → (⟨S50000x1, .i32⟩ : BufTy).Contents (Elt F)),
    ternary main_call15_v1 main_call15_v3 main_v400 main_call15_v4 ((select) : (⟨S50000x1, .i1⟩ : BufTy).Contents (Elt F) → (⟨S50000x1, .i32⟩ : BufTy).Contents (Elt F) → (⟨S50000x1, .i32⟩ : BufTy).Contents (Elt F) → (⟨S50000x1, .i32⟩ : BufTy).Contents (Elt F)),
    reshape main_call15_v4 main_call15_v5 rfl shapeCasts_S50000x1_S50000x1x1,
    nullary main_call15_c_1 (constantI S1 32 7#32),
    nullary main_call15_c_2 (constantI S_ 32 0#32),
    unary main_call15_c_2 main_call15_v6 ((broadcastInDim S50000x1x1 ![] bcast_S_S50000x1x1) : (⟨S_, .i32⟩ : BufTy).Contents (Elt F) → (⟨S50000x1x1, .i32⟩ : BufTy).Contents (Elt F)),
    binary main_call15_v5 main_call15_v6 main_call15_v7 ((cmpi .sge) : (⟨S50000x1x1, .i32⟩ : BufTy).Contents (Elt F) → (⟨S50000x1x1, .i32⟩ : BufTy).Contents (Elt F) → (⟨S50000x1x1, .i1⟩ : BufTy).Contents (Elt F)),
    unary main_call15_c_1 main_call15_v8 ((broadcastInDim S1x1x1 ![2] bcast_S1_S1x1x1_2) : (⟨S1, .i32⟩ : BufTy).Contents (Elt F) → (⟨S1x1x1, .i32⟩ : BufTy).Contents (Elt F)),
    unary main_call15_v8 main_call15_v9 ((broadcastInDim S50000x1x1 ![0, 1, 2] bcast_S1x1x1_S50000x1x1_0_1_2) : (⟨S1x1x1, .i32⟩ : BufTy).Contents (Elt F) → (⟨S50000x1x1, .i32⟩ : BufTy).Contents (Elt F)),
    binary main_call15_v5 main_call15_v9 main_call15_v10 ((cmpi .sle) : (⟨S50000x1x1, .i32⟩ : BufTy).Contents (Elt F) → (⟨S50000x1x1, .i32⟩ : BufTy).Contents (Elt F) → (⟨S50000x1x1, .i1⟩ : BufTy).Contents (Elt F)),
    binary main_call15_v7 main_call15_v10 main_call15_v11 ((andi) : (⟨S50000x1x1, .i1⟩ : BufTy).Contents (Elt F) → (⟨S50000x1x1, .i1⟩ : BufTy).Contents (Elt F) → (⟨S50000x1x1, .i1⟩ : BufTy).Contents (Elt F)),
    nullary main_call15_c_3 (constantI S_ 1 1#1),
    binary main_call15_v11 main_call15_c_3 main_call15_v12 ((fun x v => Host.reduce IntOp.andi x v reducesTo_S50000x1x1_S50000x1_d2 h_S_) : (⟨S50000x1x1, .i1⟩ : BufTy).Contents (Elt F) → (⟨S_, .i1⟩ : BufTy).Contents (Elt F) → (⟨S50000x1, .i1⟩ : BufTy).Contents (Elt F)),
    binary main_v399 main_call15_v5 main_call15_v13 ((fun x i => Host.gather gather_S50000x8_S50000x1x1_S50000x1_n_1_0_0_1_2_11 x i) : (⟨S50000x8, .f32⟩ : BufTy).Contents (Elt F) → (⟨S50000x1x1, .i32⟩ : BufTy).Contents (Elt F) → (⟨S50000x1, .f32⟩ : BufTy).Contents (Elt F)),
    nullary main_call15_cst (constant S_ .f32 0x7FC00000#32),
    unary main_call15_cst main_call15_v14 ((broadcastInDim S50000x1 ![] bcast_S_S50000x1) : (⟨S_, .f32⟩ : BufTy).Contents (Elt F) → (⟨S50000x1, .f32⟩ : BufTy).Contents (Elt F)),
    ternary main_call15_v12 main_call15_v13 main_call15_v14 main_v401 ((select) : (⟨S50000x1, .i1⟩ : BufTy).Contents (Elt F) → (⟨S50000x1, .f32⟩ : BufTy).Contents (Elt F) → (⟨S50000x1, .f32⟩ : BufTy).Contents (Elt F) → (⟨S50000x1, .f32⟩ : BufTy).Contents (Elt F)),
    nullary main_cst_69 (constant S_ .f32 0x00000000#32),
    binary main_v401 main_cst_69 main_v402 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    nullary main_cst_70 (constant S_ .f32 0x47435000#32),
    binary main_v402 main_cst_70 main_v403 (Host.divf : (⟨S_, .f32⟩ : BufTy).Contents (Elt F) → (⟨S_, .f32⟩ : BufTy).Contents (Elt F) → (⟨S_, .f32⟩ : BufTy).Contents (Elt F)),
    unary main_v403 main_v404 (Host.negf : (⟨S_, .f32⟩ : BufTy).Contents (Elt F) → (⟨S_, .f32⟩ : BufTy).Contents (Elt F)),
    binary main_v396 main_v404 main_v405 (addf : (⟨S_, .f32⟩ : BufTy).Contents (Elt F) → (⟨S_, .f32⟩ : BufTy).Contents (Elt F) → (⟨S_, .f32⟩ : BufTy).Contents (Elt F)) ]

noncomputable def d5_w : List (Ref sig .tc) :=
  [main_v397, main_v398, main_call14_cst, main_call14_v0, main_call14_cst_0, main_call14_v1, main_call14_v2, main_call14_v3, main_call14_v4, main_call14_v5, main_call14_v6, main_call14_cst_1, main_call14_v7, main_call14_v8, main_call14_v9, main_call14_v10, main_v399, main_v400, main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_cst, main_call15_v14, main_v401, main_cst_69, main_v402, main_cst_70, main_v403, main_v404, main_v405]

theorem d5_writes : (d5 (F := F)).Forall fun op => op.writes ⊆ (d5_w.map (Proc.devRef (τ := τ) .tc)).toFinset := by
  simp only [d5, List.Forall, nullary_writes, unary_writes, binary_writes, ternary_writes, reshape_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

end d5_defs

theorem d5_kept {r : Ref sig .tc} (V : RVal) (hr : r ∉ d5_w) :
    after (d5 (F := Ideal)) V (Proc.devRef .tc r) = V (Proc.devRef .tc r) :=
  after_of_writes_sub _ V d5_writes hr

theorem d5_args {a : KVals.Args} {V : RVal} (hA : ArgsAt a V) : ArgsAt a (after (d5 (F := Ideal)) V) :=
  args_keep hA _ _ d5_writes (by decide)

theorem d5_v405 (V : RVal) (a : KVals.Args) (hA : ArgsAt a V)
    (ho : V (Proc.devRef .tc main_v357) = KVals.o11 a)
    (hlab : ∀ r : Fin 50000, 0 ≤ (KVals.lab11 a (ix1 r)).toInt ∧ (KVals.lab11 a (ix1 r)).toInt < 8) :
    after (d5 (F := Ideal)) V (Proc.devRef .tc main_v405)
      = addf (V (Proc.devRef .tc main_v396)) (KVals.HR11 a) := by
  unfold d5
  after_results_simp
  rw [hA.h3, ho]
  refine congrArg (addf _) ?_
  unfold KVals.HR11 KVals.labOf
  exact head_chain_eq (C := 8) (by decide) reducesTo_S50000x8_S50000_d1 h_S_ bcast_S_S50000 bcast_S50000_S50000x1_0
    bcast_S50000x1_S50000x8_0_1 bcast_S_S50000x1 shapeCasts_S50000x1_S50000x1x1 bcast_S_S50000x1x1 bcast_S1_S1x1x1_2
    bcast_S1x1x1_S50000x1x1_0_1_2 reducesTo_S50000x1x1_S50000x1_d2 gather_S50000x8_S50000x1x1_S50000x1_n_1_0_0_1_2_11
    rfl rfl rfl rfl rfl rfl 8#32 7#32 (by decide) reducesTo_S50000x1_S_d0_1 (KVals.o11 a) (KVals.lab11 a) hlab

section d6_defs
variable {F : FTy → Type} [FloatOps F]

noncomputable def d6 : List (HloOp τ sig (Elt F)) :=
  [
    unary main_arg3 main_v406 ((extractStridedSlice S1x50000x1 ![1, 0, 2] · slices_S2x50000x3_S1x50000x1_1_0_2) : (⟨S2x50000x3, .i32⟩ : BufTy).Contents (Elt F) → (⟨S1x50000x1, .i32⟩ : BufTy).Contents (Elt F)),
    reshape main_v406 main_v407 rfl shapeCasts_S1x50000x1_S50000,
    nullary main_call16_cst (constant S_ .f32 0xFF800000#32),
    binary main_v387 main_call16_cst main_call16_v0 ((fun x v => Host.reduce FloatOps.maximumf x v reducesTo_S50000x5_S50000_d1 h_S_) : (⟨S50000x5, .f32⟩ : BufTy).Contents (Elt F) → (⟨S_, .f32⟩ : BufTy).Contents (Elt F) → (⟨S50000, .f32⟩ : BufTy).Contents (Elt F)),
    nullary main_call16_cst_0 (constant S_ .f32 0xFF800000#32),
    unary main_call16_cst_0 main_call16_v1 ((broadcastInDim S50000 ![] bcast_S_S50000) : (⟨S_, .f32⟩ : BufTy).Contents (Elt F) → (⟨S50000, .f32⟩ : BufTy).Contents (Elt F)),
    binary main_call16_v1 main_call16_v0 main_call16_v2 ((maximumf) : (⟨S50000, .f32⟩ : BufTy).Contents (Elt F) → (⟨S50000, .f32⟩ : BufTy).Contents (Elt F) → (⟨S50000, .f32⟩ : BufTy).Contents (Elt F)),
    unary main_call16_v2 main_call16_v3 ((broadcastInDim S50000x1 ![0] bcast_S50000_S50000x1_0) : (⟨S50000, .f32⟩ : BufTy).Contents (Elt F) → (⟨S50000x1, .f32⟩ : BufTy).Contents (Elt F)),
    unary main_call16_v3 main_call16_v4 ((broadcastInDim S50000x5 ![0, 1] bcast_S50000x1_S50000x5_0_1) : (⟨S50000x1, .f32⟩ : BufTy).Contents (Elt F) → (⟨S50000x5, .f32⟩ : BufTy).Contents (Elt F)),
    binary main_v387 main_call16_v4 main_call16_v5 ((subf) : (⟨S50000x5, .f32⟩ : BufTy).Contents (Elt F) → (⟨S50000x5, .f32⟩ : BufTy).Contents (Elt F) → (⟨S50000x5, .f32⟩ : BufTy).Contents (Elt F)),
    unary main_call16_v5 main_call16_v6 ((Host.exp) : (⟨S50000x5, .f32⟩ : BufTy).Contents (Elt F) → (⟨S50000x5, .f32⟩ : BufTy).Contents (Elt F)),
    nullary main_call16_cst_1 (constant S_ .f32 0x00000000#32),
    binary main_call16_v6 main_call16_cst_1 main_call16_v7 ((fun x v => Host.reduceAdd x v reducesTo_S50000x5_S50000_d1 h_S_) : (⟨S50000x5, .f32⟩ : BufTy).Contents (Elt F) → (⟨S_, .f32⟩ : BufTy).Contents (Elt F) → (⟨S50000, .f32⟩ : BufTy).Contents (Elt F)),
    unary main_call16_v7 main_call16_v8 ((broadcastInDim S50000x1 ![0] bcast_S50000_S50000x1_0) : (⟨S50000, .f32⟩ : BufTy).Contents (Elt F) → (⟨S50000x1, .f32⟩ : BufTy).Contents (Elt F)),
    unary main_call16_v8 main_call16_v9 ((Host.log) : (⟨S50000x1, .f32⟩ : BufTy).Contents (Elt F) → (⟨S50000x1, .f32⟩ : BufTy).Contents (Elt F)),
    unary main_call16_v9 main_call16_v10 ((broadcastInDim S50000x5 ![0, 1] bcast_S50000x1_S50000x5_0_1) : (⟨S50000x1, .f32⟩ : BufTy).Contents (Elt F) → (⟨S50000x5, .f32⟩ : BufTy).Contents (Elt F)),
    binary main_call16_v5 main_call16_v10 main_v408 ((subf) : (⟨S50000x5, .f32⟩ : BufTy).Contents (Elt F) → (⟨S50000x5, .f32⟩ : BufTy).Contents (Elt F) → (⟨S50000x5, .f32⟩ : BufTy).Contents (Elt F)),
    unary main_v407 main_v409 (broadcastInDim S50000x1 ![0] bcast_S50000_S50000x1_0 : (⟨S50000, .i32⟩ : BufTy).Contents (Elt F) → (⟨S50000x1, .i32⟩ : BufTy).Contents (Elt F)),
    nullary main_call17_c (constantI S_ 32 0#32),
    unary main_call17_c main_call17_v0 ((broadcastInDim S50000x1 ![] bcast_S_S50000x1) : (⟨S_, .i32⟩ : BufTy).Contents (Elt F) → (⟨S50000x1, .i32⟩ : BufTy).Contents (Elt F)),
    binary main_v409 main_call17_v0 main_call17_v1 ((cmpi .slt) : (⟨S50000x1, .i32⟩ : BufTy).Contents (Elt F) → (⟨S50000x1, .i32⟩ : BufTy).Contents (Elt F) → (⟨S50000x1, .i1⟩ : BufTy).Contents (Elt F)),
    nullary main_call17_c_0 (constantI S_ 32 5#32),
    unary main_call17_c_0 main_call17_v2 ((broadcastInDim S50000x1 ![] bcast_S_S50000x1) : (⟨S_, .i32⟩ : BufTy).Contents (Elt F) → (⟨S50000x1, .i32⟩ : BufTy).Contents (Elt F)),
    binary main_v409 main_call17_v2 main_call17_v3 ((addi) : (⟨S50000x1, .i32⟩ : BufTy).Contents (Elt F) → (⟨S50000x1, .i32⟩ : BufTy).Contents (Elt F) → (⟨S50000x1, .i32⟩ : BufTy).Contents (Elt F)),
    ternary main_call17_v1 main_call17_v3 main_v409 main_call17_v4 ((select) : (⟨S50000x1, .i1⟩ : BufTy).Contents (Elt F) → (⟨S50000x1, .i32⟩ : BufTy).Contents (Elt F) → (⟨S50000x1, .i32⟩ : BufTy).Contents (Elt F) → (⟨S50000x1, .i32⟩ : BufTy).Contents (Elt F)),
    reshape main_call17_v4 main_call17_v5 rfl shapeCasts_S50000x1_S50000x1x1,
    nullary main_call17_c_1 (constantI S1 32 4#32),
    nullary main_call17_c_2 (constantI S_ 32 0#32),
    unary main_call17_c_2 main_call17_v6 ((broadcastInDim S50000x1x1 ![] bcast_S_S50000x1x1) : (⟨S_, .i32⟩ : BufTy).Contents (Elt F) → (⟨S50000x1x1, .i32⟩ : BufTy).Contents (Elt F)),
    binary main_call17_v5 main_call17_v6 main_call17_v7 ((cmpi .sge) : (⟨S50000x1x1, .i32⟩ : BufTy).Contents (Elt F) → (⟨S50000x1x1, .i32⟩ : BufTy).Contents (Elt F) → (⟨S50000x1x1, .i1⟩ : BufTy).Contents (Elt F)),
    unary main_call17_c_1 main_call17_v8 ((broadcastInDim S1x1x1 ![2] bcast_S1_S1x1x1_2) : (⟨S1, .i32⟩ : BufTy).Contents (Elt F) → (⟨S1x1x1, .i32⟩ : BufTy).Contents (Elt F)),
    unary main_call17_v8 main_call17_v9 ((broadcastInDim S50000x1x1 ![0, 1, 2] bcast_S1x1x1_S50000x1x1_0_1_2) : (⟨S1x1x1, .i32⟩ : BufTy).Contents (Elt F) → (⟨S50000x1x1, .i32⟩ : BufTy).Contents (Elt F)),
    binary main_call17_v5 main_call17_v9 main_call17_v10 ((cmpi .sle) : (⟨S50000x1x1, .i32⟩ : BufTy).Contents (Elt F) → (⟨S50000x1x1, .i32⟩ : BufTy).Contents (Elt F) → (⟨S50000x1x1, .i1⟩ : BufTy).Contents (Elt F)),
    binary main_call17_v7 main_call17_v10 main_call17_v11 ((andi) : (⟨S50000x1x1, .i1⟩ : BufTy).Contents (Elt F) → (⟨S50000x1x1, .i1⟩ : BufTy).Contents (Elt F) → (⟨S50000x1x1, .i1⟩ : BufTy).Contents (Elt F)),
    nullary main_call17_c_3 (constantI S_ 1 1#1),
    binary main_call17_v11 main_call17_c_3 main_call17_v12 ((fun x v => Host.reduce IntOp.andi x v reducesTo_S50000x1x1_S50000x1_d2 h_S_) : (⟨S50000x1x1, .i1⟩ : BufTy).Contents (Elt F) → (⟨S_, .i1⟩ : BufTy).Contents (Elt F) → (⟨S50000x1, .i1⟩ : BufTy).Contents (Elt F)),
    binary main_v408 main_call17_v5 main_call17_v13 ((fun x i => Host.gather gather_S50000x5_S50000x1x1_S50000x1_n_1_0_0_1_2_11 x i) : (⟨S50000x5, .f32⟩ : BufTy).Contents (Elt F) → (⟨S50000x1x1, .i32⟩ : BufTy).Contents (Elt F) → (⟨S50000x1, .f32⟩ : BufTy).Contents (Elt F)),
    nullary main_call17_cst (constant S_ .f32 0x7FC00000#32),
    unary main_call17_cst main_call17_v14 ((broadcastInDim S50000x1 ![] bcast_S_S50000x1) : (⟨S_, .f32⟩ : BufTy).Contents (Elt F) → (⟨S50000x1, .f32⟩ : BufTy).Contents (Elt F)),
    ternary main_call17_v12 main_call17_v13 main_call17_v14 main_v410 ((select) : (⟨S50000x1, .i1⟩ : BufTy).Contents (Elt F) → (⟨S50000x1, .f32⟩ : BufTy).Contents (Elt F) → (⟨S50000x1, .f32⟩ : BufTy).Contents (Elt F) → (⟨S50000x1, .f32⟩ : BufTy).Contents (Elt F)),
    nullary main_cst_71 (constant S_ .f32 0x00000000#32),
    binary main_v410 main_cst_71 main_v411 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    nullary main_cst_72 (constant S_ .f32 0x47435000#32),
    binary main_v411 main_cst_72 main_v412 (Host.divf : (⟨S_, .f32⟩ : BufTy).Contents (Elt F) → (⟨S_, .f32⟩ : BufTy).Contents (Elt F) → (⟨S_, .f32⟩ : BufTy).Contents (Elt F)),
    unary main_v412 main_v413 (Host.negf : (⟨S_, .f32⟩ : BufTy).Contents (Elt F) → (⟨S_, .f32⟩ : BufTy).Contents (Elt F)),
    binary main_v405 main_v413 main_v414 (addf : (⟨S_, .f32⟩ : BufTy).Contents (Elt F) → (⟨S_, .f32⟩ : BufTy).Contents (Elt F) → (⟨S_, .f32⟩ : BufTy).Contents (Elt F)) ]

noncomputable def d6_w : List (Ref sig .tc) :=
  [main_v406, main_v407, main_call16_cst, main_call16_v0, main_call16_cst_0, main_call16_v1, main_call16_v2, main_call16_v3, main_call16_v4, main_call16_v5, main_call16_v6, main_call16_cst_1, main_call16_v7, main_call16_v8, main_call16_v9, main_call16_v10, main_v408, main_v409, main_call17_c, main_call17_v0, main_call17_v1, main_call17_c_0, main_call17_v2, main_call17_v3, main_call17_v4, main_call17_v5, main_call17_c_1, main_call17_c_2, main_call17_v6, main_call17_v7, main_call17_v8, main_call17_v9, main_call17_v10, main_call17_v11, main_call17_c_3, main_call17_v12, main_call17_v13, main_call17_cst, main_call17_v14, main_v410, main_cst_71, main_v411, main_cst_72, main_v412, main_v413, main_v414]

theorem d6_writes : (d6 (F := F)).Forall fun op => op.writes ⊆ (d6_w.map (Proc.devRef (τ := τ) .tc)).toFinset := by
  simp only [d6, List.Forall, nullary_writes, unary_writes, binary_writes, ternary_writes, reshape_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

end d6_defs

theorem d6_kept {r : Ref sig .tc} (V : RVal) (hr : r ∉ d6_w) :
    after (d6 (F := Ideal)) V (Proc.devRef .tc r) = V (Proc.devRef .tc r) :=
  after_of_writes_sub _ V d6_writes hr

theorem d6_args {a : KVals.Args} {V : RVal} (hA : ArgsAt a V) : ArgsAt a (after (d6 (F := Ideal)) V) :=
  args_keep hA _ _ d6_writes (by decide)

theorem d6_v414 (V : RVal) (a : KVals.Args) (hA : ArgsAt a V)
    (ho : V (Proc.devRef .tc main_v387) = KVals.o12 a)
    (hlab : ∀ r : Fin 50000, 0 ≤ (KVals.lab12 a (ix1 r)).toInt ∧ (KVals.lab12 a (ix1 r)).toInt < 5) :
    after (d6 (F := Ideal)) V (Proc.devRef .tc main_v414)
      = addf (V (Proc.devRef .tc main_v405)) (KVals.HR12 a) := by
  unfold d6
  after_results_simp
  rw [hA.h3, ho]
  refine congrArg (addf _) ?_
  unfold KVals.HR12 KVals.labOf
  exact head_chain_eq (C := 5) (by decide) reducesTo_S50000x5_S50000_d1 h_S_ bcast_S_S50000 bcast_S50000_S50000x1_0
    bcast_S50000x1_S50000x5_0_1 bcast_S_S50000x1 shapeCasts_S50000x1_S50000x1x1 bcast_S_S50000x1x1 bcast_S1_S1x1x1_2
    bcast_S1x1x1_S50000x1x1_0_1_2 reducesTo_S50000x1x1_S50000x1_d2 gather_S50000x5_S50000x1x1_S50000x1_n_1_0_0_1_2_11
    rfl rfl rfl rfl rfl rfl 5#32 4#32 (by decide) reducesTo_S50000x1_S_d0_1 (KVals.o12 a) (KVals.lab12 a) hlab

end Cert.RefSide.B2

end
-- ==== Proof.RefSideB2.lean ====
/- Operations 469 to 711 as the six stretches in order: the running total gains task 1's three heads. -/
import proofs.«181152_j39822936769202_1_alg».proof.Proof.RefSideB2L
import proofs.«181152_j39822936769202_1_alg».proof.Proof.RefSideB2H
import Idealize.ShloMosaic.Lib.Pipeline.Frame

set_option maxRecDepth 16384

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx
open Cert.RefSide.B2

variable [Cert.KernelIdeal.Facts]

section opsB2_def
variable {F : FTy → Type} [FloatOps F]

noncomputable def opsB2 : List (HloOp τ sig (Elt F)) := d1 ++ d2 ++ d3 ++ d4 ++ d5 ++ d6

theorem opsB2_eq : (opsB2 (F := F)) = d1 ++ d2 ++ d3 ++ d4 ++ d5 ++ d6 := rfl

end opsB2_def

theorem taskB2 (V : RVal) (a : KVals.Args) (T : FVec Ideal Cert.ReferenceIdeal.S_ .f32) (hA : ArgsAt a V)
    (h8 : V (Proc.devRef .tc Cert.ReferenceIdeal.main_v8) = Vals.invdeg a.ed)
    (hT : V (Proc.devRef .tc Cert.ReferenceIdeal.main_v211) = T)
    (h297 : V (Proc.devRef .tc Cert.ReferenceIdeal.main_v297) = KVals.hk1 a)
    (h10 : ∀ r : Fin 50000, 0 ≤ (KVals.lab10 a (ix1 r)).toInt ∧ (KVals.lab10 a (ix1 r)).toInt < 12)
    (h11 : ∀ r : Fin 50000, 0 ≤ (KVals.lab11 a (ix1 r)).toInt ∧ (KVals.lab11 a (ix1 r)).toInt < 8)
    (h12 : ∀ r : Fin 50000, 0 ≤ (KVals.lab12 a (ix1 r)).toInt ∧ (KVals.lab12 a (ix1 r)).toInt < 5) :
    StableHlo.after (opsB2 (F := Ideal)) V (Proc.devRef .tc Cert.ReferenceIdeal.main_v414)
      = addf (addf (addf T (KVals.HR10 a)) (KVals.HR11 a)) (KVals.HR12 a) := by
  rw [opsB2_eq]
  simp only [after_append]
  have hA1 : ArgsAt a (after (d1 (F := Ideal)) V) := d1_args hA
  have h8_1 := (d1_kept V (r := main_v8) (by decide)).trans h8
  have hk_1 := (d1_kept V (r := main_v297) (by decide)).trans h297
  have hT_1 := (d1_kept V (r := main_v211) (by decide)).trans hT
  have o1 := d1_v327 V a hA h8 h297
  have hA2 := d2_args hA1
  have h8_2 := (d2_kept _ (r := main_v8) (by decide)).trans h8_1
  have hk_2 := (d2_kept _ (r := main_v297) (by decide)).trans hk_1
  have hT_2 := (d2_kept _ (r := main_v211) (by decide)).trans hT_1
  have o1_2 := (d2_kept _ (r := main_v327) (by decide)).trans o1
  have o2 := d2_v357 _ a hA1 h8_1 hk_1
  have hA3 := d3_args hA2
  have hT_3 := (d3_kept _ (r := main_v211) (by decide)).trans hT_2
  have o1_3 := (d3_kept _ (r := main_v327) (by decide)).trans o1_2
  have o2_3 := (d3_kept _ (r := main_v357) (by decide)).trans o2
  have o3 := d3_v387 _ a hA2 h8_2 hk_2
  have hA4 := d4_args hA3
  have o2_4 := (d4_kept _ (r := main_v357) (by decide)).trans o2_3
  have o3_4 := (d4_kept _ (r := main_v387) (by decide)).trans o3
  have t4 := d4_v396 _ a hA3 o1_3 h10
  have hA5 := d5_args hA4
  have o3_5 := (d5_kept _ (r := main_v387) (by decide)).trans o3_4
  have t5 := d5_v405 _ a hA4 o2_4 h11
  have t6 := d6_v414 _ a hA5 o3_5 h12
  rw [t6, t5, t4, hT_3]

theorem argsB2 (V : RVal) (a : KVals.Args) (hA : ArgsAt a V) : ArgsAt a (StableHlo.after (opsB2 (F := Ideal)) V) := by
  rw [opsB2_eq]
  simp only [after_append]
  exact d6_args (d5_args (d4_args (d3_args (d2_args (d1_args hA)))))

end Cert.RefSide

end
-- ==== Proof.RefSideB.lean ====
import proofs.«181152_j39822936769202_1_alg».proof.Proof.RefSideB1
import proofs.«181152_j39822936769202_1_alg».proof.Proof.RefSideB2
import Idealize.ShloMosaic.Lib.Pipeline.Frame

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx

variable [Cert.KernelIdeal.Facts]

noncomputable def opsB {F : FTy → Type} [FloatOps F] : List (HloOp τ sig (Elt F)) := opsB1 ++ opsB2

theorem taskB (V : RVal) (a : KVals.Args) (T : FVec Ideal Cert.ReferenceIdeal.S_ .f32) (hA : ArgsAt a V)
    (h8 : V (Proc.devRef .tc Cert.ReferenceIdeal.main_v8) = Vals.invdeg a.ed)
    (hT : V (Proc.devRef .tc Cert.ReferenceIdeal.main_v211) = T)
    (h10 : ∀ r : Fin 50000, 0 ≤ (KVals.lab10 a (ix1 r)).toInt ∧ (KVals.lab10 a (ix1 r)).toInt < 12)
    (h11 : ∀ r : Fin 50000, 0 ≤ (KVals.lab11 a (ix1 r)).toInt ∧ (KVals.lab11 a (ix1 r)).toInt < 8)
    (h12 : ∀ r : Fin 50000, 0 ≤ (KVals.lab12 a (ix1 r)).toInt ∧ (KVals.lab12 a (ix1 r)).toInt < 5) :
    StableHlo.after (opsB (F := Ideal)) V (Proc.devRef .tc Cert.ReferenceIdeal.main_v414)
      = addf (addf (addf T (KVals.HR10 a)) (KVals.HR11 a)) (KVals.HR12 a) := by
  unfold opsB
  rw [StableHlo.after_append]
  obtain ⟨e, b⟩ := taskB1 V a T ⟨hA, h8, hT⟩
  exact taskB2 _ a T b.args b.v8 b.v211 e h10 h11 h12

theorem argsB (V : RVal) (a : KVals.Args) (hA : ArgsAt a V) : ArgsAt a (StableHlo.after (opsB (F := Ideal)) V) := by
  unfold opsB
  rw [StableHlo.after_append]
  exact argsB2 _ a (opsB1_args V a hA)

end Cert.RefSide

end
-- ==== Proof.RefSide.lean ====
/- The reference program's run: its operation list is four stretches in order; the result buffer ends at the total of
   six negated means and no argument buffer is written. -/
import proofs.«181152_j39822936769202_1_alg».proof.Proof.RefBase
import proofs.«181152_j39822936769202_1_alg».proof.Proof.RefOps
import proofs.«181152_j39822936769202_1_alg».proof.Proof.RefSideA1a
import proofs.«181152_j39822936769202_1_alg».proof.Proof.RefSideA1b
import proofs.«181152_j39822936769202_1_alg».proof.Proof.RefSideA2
import proofs.«181152_j39822936769202_1_alg».proof.Proof.RefSideB
import Idealize.ShloMosaic.Lib.StableHlo.Run

set_option maxRecDepth 16384

noncomputable section

namespace Cert.RefSide

variable [Cert.KernelIdeal.Facts]

open Cert.ReferenceIdeal Cert.ReferenceIdeal.Gen Idealize.ShloMosaic Idealize.ShloMosaic.TcCoe Idealize.SL.Sem Idealize.ShloMosaic.StableHlo
open Idealize.ShloMosaic.ValueIdx

open Cert.ReferenceIdeal.Ops (p0 p1 p2 p3 p4 p5 p6 p7 p8) in
attribute [local irreducible] Host.reduce in
/-- Task 0's operations are the program's first 363, entry by entry the same operation. -/
theorem splitA {F : FTy → Type} [FloatOps F] :
    (p0 ++ (p1 ++ (p2 ++ (p3 ++ p4.take 47))) : List (HloOp τ sig (Elt F))) = opsA1a ++ (opsA1b ++ opsA2) := rfl

open Cert.ReferenceIdeal.Ops (p4 p5 p6 p7 p8) in
attribute [local irreducible] Host.reduce in
/-- Task 1's operations are the rest. -/
theorem splitB {F : FTy → Type} [FloatOps F] :
    (p4.drop 47 ++ (p5 ++ (p6 ++ (p7 ++ p8))) : List (HloOp τ sig (Elt F))) = opsB := rfl

open Cert.ReferenceIdeal.Ops (p4) in
theorem ops_split {F : FTy → Type} [FloatOps F] :
    (Cert.ReferenceIdeal.Ops.ops : List (HloOp τ sig (Elt F))) = opsA1a ++ (opsA1b ++ (opsA2 ++ opsB)) := by
  rw [← splitB, ← List.append_assoc opsA1b, ← List.append_assoc opsA1a, ← splitA]
  simp only [List.append_assoc]
  rw [← List.append_assoc (p4.take 47), List.take_append_drop]

theorem args_all (V : RVal) (a : KVals.Args) (hA : ArgsAt a V) :
    ArgsAt a (after (Cert.ReferenceIdeal.Ops.ops : List (HloOp τ sig (Elt Ideal))) V) := by
  rw [ops_split, StableHlo.after_append, StableHlo.after_append, StableHlo.after_append]
  exact argsB _ a (argsA2 _ a (argsA1b _ a (taskA1a V a hA).2.2.2))

theorem res_all (V : RVal) (a : KVals.Args) (hA : ArgsAt a V)
    (h00 : ∀ r : Fin 50000, 0 ≤ (KVals.lab00 a (ix1 r)).toInt ∧ (KVals.lab00 a (ix1 r)).toInt < 12)
    (h01 : ∀ r : Fin 50000, 0 ≤ (KVals.lab01 a (ix1 r)).toInt ∧ (KVals.lab01 a (ix1 r)).toInt < 8)
    (h02 : ∀ r : Fin 50000, 0 ≤ (KVals.lab02 a (ix1 r)).toInt ∧ (KVals.lab02 a (ix1 r)).toInt < 5)
    (h10 : ∀ r : Fin 50000, 0 ≤ (KVals.lab10 a (ix1 r)).toInt ∧ (KVals.lab10 a (ix1 r)).toInt < 12)
    (h11 : ∀ r : Fin 50000, 0 ≤ (KVals.lab11 a (ix1 r)).toInt ∧ (KVals.lab11 a (ix1 r)).toInt < 8)
    (h12 : ∀ r : Fin 50000, 0 ≤ (KVals.lab12 a (ix1 r)).toInt ∧ (KVals.lab12 a (ix1 r)).toInt < 5) :
    after (Cert.ReferenceIdeal.Ops.ops : List (HloOp τ sig (Elt Ideal))) V (Proc.devRef .tc main_v414) = KVals.lossR a := by
  rw [ops_split, StableHlo.after_append, StableHlo.after_append, StableHlo.after_append]
  obtain ⟨h8, h29, h50, hA1⟩ := taskA1a V a hA
  have hk : KVals.hk0 a = (Spec.sigLayer (Vals.agg256 a.es a.ed (Spec.reluLayer (Vals.agg256 a.es a.ed (Vals.cat (Spec.reluLayer (Vals.agg128 a.es a.ed (KVals.x00 a)) (KVals.x00 a) a.Wl_i0 a.Wr_i0 a.bl_i0) (Spec.reluLayer (Vals.agg128 a.es a.ed (KVals.x01 a)) (KVals.x01 a) a.Wl_i1 a.Wr_i1 a.bl_i1))) (Vals.cat (Spec.reluLayer (Vals.agg128 a.es a.ed (KVals.x00 a)) (KVals.x00 a) a.Wl_i0 a.Wr_i0 a.bl_i0) (Spec.reluLayer (Vals.agg128 a.es a.ed (KVals.x01 a)) (KVals.x01 a) a.Wl_i1 a.Wr_i1 a.bl_i1)) a.Wl_m a.Wr_m a.bl_m)) (Spec.reluLayer (Vals.agg256 a.es a.ed (Vals.cat (Spec.reluLayer (Vals.agg128 a.es a.ed (KVals.x00 a)) (KVals.x00 a) a.Wl_i0 a.Wr_i0 a.bl_i0) (Spec.reluLayer (Vals.agg128 a.es a.ed (KVals.x01 a)) (KVals.x01 a) a.Wl_i1 a.Wr_i1 a.bl_i1))) (Vals.cat (Spec.reluLayer (Vals.agg128 a.es a.ed (KVals.x00 a)) (KVals.x00 a) a.Wl_i0 a.Wr_i0 a.bl_i0) (Spec.reluLayer (Vals.agg128 a.es a.ed (KVals.x01 a)) (KVals.x01 a) a.Wl_i1 a.Wr_i1 a.bl_i1)) a.Wl_m a.Wr_m a.bl_m) a.Wl_o a.Wr_o a.bl_o) := by
    unfold KVals.hk0 KVals.hkOf
    rfl
  have h94 : after (opsA1b (F := Ideal)) (after (opsA1a (F := Ideal)) V) (Proc.devRef .tc main_v94) = KVals.hk0 a :=
    (taskA1b _ a (Spec.reluLayer (Vals.agg128 a.es a.ed (KVals.x00 a)) (KVals.x00 a) a.Wl_i0 a.Wr_i0 a.bl_i0) (Spec.reluLayer (Vals.agg128 a.es a.ed (KVals.x01 a)) (KVals.x01 a) a.Wl_i1 a.Wr_i1 a.bl_i1) hA1 h8 h29 h50).trans hk.symm
  have h8b := (keptA1b_v8 _).trans h8
  have hA2 := argsA1b _ a hA1
  have h211 := taskA2 _ a hA2 h8b h94 h00 h01 h02
  have h8c := (keptA2_v8 _).trans h8b
  have hA3 := argsA2 _ a hA2
  have hl : KVals.lossR a = addf (addf (addf (addf (addf (addf (constant (F := Ideal) Cert.ReferenceIdeal.S_ .f32 0x00000000#32) (KVals.HR00 a)) (KVals.HR01 a)) (KVals.HR02 a)) (KVals.HR10 a)) (KVals.HR11 a)) (KVals.HR12 a) := rfl
  exact (taskB _ a (addf (addf (addf (constant (F := Ideal) Cert.ReferenceIdeal.S_ .f32 0x00000000#32) (KVals.HR00 a)) (KVals.HR01 a)) (KVals.HR02 a)) hA3 h8c h211 h10 h11 h12).trans hl.symm

theorem ref_run (m : (ℓ : Loc Cert.ReferenceIdeal.nD Cert.ReferenceIdeal.τ Cert.ReferenceIdeal.sig) → Buf (Elt Ideal) ℓ) (ρ : Dev Cert.ReferenceIdeal.nD → PrngReg)
    (hlab : ∀ c : Dev Cert.ReferenceIdeal.nD,
      (∀ r : Fin 50000, 0 ≤ (KVals.lab00 (argsR m c) (ix1 r)).toInt ∧ (KVals.lab00 (argsR m c) (ix1 r)).toInt < 12)
      ∧ (∀ r : Fin 50000, 0 ≤ (KVals.lab01 (argsR m c) (ix1 r)).toInt ∧ (KVals.lab01 (argsR m c) (ix1 r)).toInt < 8)
      ∧ (∀ r : Fin 50000, 0 ≤ (KVals.lab02 (argsR m c) (ix1 r)).toInt ∧ (KVals.lab02 (argsR m c) (ix1 r)).toInt < 5)
      ∧ (∀ r : Fin 50000, 0 ≤ (KVals.lab10 (argsR m c) (ix1 r)).toInt ∧ (KVals.lab10 (argsR m c) (ix1 r)).toInt < 12)
      ∧ (∀ r : Fin 50000, 0 ≤ (KVals.lab11 (argsR m c) (ix1 r)).toInt ∧ (KVals.lab11 (argsR m c) (ix1 r)).toInt < 8)
      ∧ (∀ r : Fin 50000, 0 ≤ (KVals.lab12 (argsR m c) (ix1 r)).toInt ∧ (KVals.lab12 (argsR m c) (ix1 r)).toInt < 5)) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v414) = KVals.lossR (argsR m c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
        ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
        ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
        ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
        ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
        ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)) :=
  (θ_run (Cert.ReferenceIdeal.defs (F := Ideal)) _ _).mono (fun _ h c =>
      ⟨(h c main_v414).trans (res_all _ _ (argsAt_launch m c) (hlab c).1 (hlab c).2.1 (hlab c).2.2.1 (hlab c).2.2.2.1 (hlab c).2.2.2.2.1 (hlab c).2.2.2.2.2),
       (h c main_arg0).trans (args_all _ _ (argsAt_launch m c)).h0,
       (h c main_arg1).trans (args_all _ _ (argsAt_launch m c)).h1,
       (h c main_arg2).trans (args_all _ _ (argsAt_launch m c)).h2,
       (h c main_arg3).trans (args_all _ _ (argsAt_launch m c)).h3,
       (h c main_arg4).trans (args_all _ _ (argsAt_launch m c)).h4,
       (h c main_arg5).trans (args_all _ _ (argsAt_launch m c)).h5,
       (h c main_arg6).trans (args_all _ _ (argsAt_launch m c)).h6,
       (h c main_arg7).trans (args_all _ _ (argsAt_launch m c)).h7,
       (h c main_arg8).trans (args_all _ _ (argsAt_launch m c)).h8,
       (h c main_arg9).trans (args_all _ _ (argsAt_launch m c)).h9,
       (h c main_arg10).trans (args_all _ _ (argsAt_launch m c)).h10,
       (h c main_arg11).trans (args_all _ _ (argsAt_launch m c)).h11,
       (h c main_arg12).trans (args_all _ _ (argsAt_launch m c)).h12,
       (h c main_arg13).trans (args_all _ _ (argsAt_launch m c)).h13,
       (h c main_arg14).trans (args_all _ _ (argsAt_launch m c)).h14,
       (h c main_arg15).trans (args_all _ _ (argsAt_launch m c)).h15,
       (h c main_arg16).trans (args_all _ _ (argsAt_launch m c)).h16,
       (h c main_arg17).trans (args_all _ _ (argsAt_launch m c)).h17,
       (h c main_arg18).trans (args_all _ _ (argsAt_launch m c)).h18,
       (h c main_arg19).trans (args_all _ _ (argsAt_launch m c)).h19,
       (h c main_arg20).trans (args_all _ _ (argsAt_launch m c)).h20,
       (h c main_arg21).trans (args_all _ _ (argsAt_launch m c)).h21,
       (h c main_arg22).trans (args_all _ _ (argsAt_launch m c)).h22,
       (h c main_arg23).trans (args_all _ _ (argsAt_launch m c)).h23,
       (h c main_arg24).trans (args_all _ _ (argsAt_launch m c)).h24⟩)
    (run_seq Cert.ReferenceIdeal.Ops.scopedRefs_eq Cert.ReferenceIdeal.Ops.scopedSems_eq defs main (fun _ => Cert.ReferenceIdeal.Ops.ops)
      Cert.ReferenceIdeal.Ops.main_eq (fun _ => Cert.ReferenceIdeal.Ops.ops_sub) m ρ (fun _ => Cert.ReferenceIdeal.Ops.ops_fresh))

theorem ref_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
        ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
        ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
        ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
        ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
        ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)) :=
  (θ_run (Cert.ReferenceIdeal.defs (F := Ideal)) _ _).mono (fun _ h c =>
      ⟨(h c main_arg0).trans (args_all _ _ (argsAt_launch m c)).h0,
       (h c main_arg1).trans (args_all _ _ (argsAt_launch m c)).h1,
       (h c main_arg2).trans (args_all _ _ (argsAt_launch m c)).h2,
       (h c main_arg3).trans (args_all _ _ (argsAt_launch m c)).h3,
       (h c main_arg4).trans (args_all _ _ (argsAt_launch m c)).h4,
       (h c main_arg5).trans (args_all _ _ (argsAt_launch m c)).h5,
       (h c main_arg6).trans (args_all _ _ (argsAt_launch m c)).h6,
       (h c main_arg7).trans (args_all _ _ (argsAt_launch m c)).h7,
       (h c main_arg8).trans (args_all _ _ (argsAt_launch m c)).h8,
       (h c main_arg9).trans (args_all _ _ (argsAt_launch m c)).h9,
       (h c main_arg10).trans (args_all _ _ (argsAt_launch m c)).h10,
       (h c main_arg11).trans (args_all _ _ (argsAt_launch m c)).h11,
       (h c main_arg12).trans (args_all _ _ (argsAt_launch m c)).h12,
       (h c main_arg13).trans (args_all _ _ (argsAt_launch m c)).h13,
       (h c main_arg14).trans (args_all _ _ (argsAt_launch m c)).h14,
       (h c main_arg15).trans (args_all _ _ (argsAt_launch m c)).h15,
       (h c main_arg16).trans (args_all _ _ (argsAt_launch m c)).h16,
       (h c main_arg17).trans (args_all _ _ (argsAt_launch m c)).h17,
       (h c main_arg18).trans (args_all _ _ (argsAt_launch m c)).h18,
       (h c main_arg19).trans (args_all _ _ (argsAt_launch m c)).h19,
       (h c main_arg20).trans (args_all _ _ (argsAt_launch m c)).h20,
       (h c main_arg21).trans (args_all _ _ (argsAt_launch m c)).h21,
       (h c main_arg22).trans (args_all _ _ (argsAt_launch m c)).h22,
       (h c main_arg23).trans (args_all _ _ (argsAt_launch m c)).h23,
       (h c main_arg24).trans (args_all _ _ (argsAt_launch m c)).h24⟩)
    (run_seq Cert.ReferenceIdeal.Ops.scopedRefs_eq Cert.ReferenceIdeal.Ops.scopedSems_eq defs main (fun _ => Cert.ReferenceIdeal.Ops.ops)
      Cert.ReferenceIdeal.Ops.main_eq (fun _ => Cert.ReferenceIdeal.Ops.ops_sub) m ρ (fun _ => Cert.ReferenceIdeal.Ops.ops_fresh))

end Cert.RefSide

end
-- ==== Proof.Carry.lean ====
import proofs.«181152_j39822936769202_1_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

namespace Carry

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

theorem W12_in (c : Dev nD) (w : Fin cfg4.W) (hin : (cfg4.win w).isOut = false) :
    W12 m ρ c (Proc.devRef .tc (Pipeline.arrRef spec4 w)) = W11 m ρ c (Proc.devRef .tc (Pipeline.arrRef spec4 w)) :=
  (W12_arr m ρ c w).trans (((dat4 (V11 m ρ) c).arrAt_in w hin _).trans (A_eq4 (V11 m ρ) c w))

theorem W16_in (c : Dev nD) (w : Fin cfg5.W) (hin : (cfg5.win w).isOut = false) :
    W16 m ρ c (Proc.devRef .tc (Pipeline.arrRef spec5 w)) = W15 m ρ c (Proc.devRef .tc (Pipeline.arrRef spec5 w)) :=
  (W16_arr m ρ c w).trans (((dat5 (V15 m ρ) c).arrAt_in w hin _).trans (A_eq5 (V15 m ρ) c w))

theorem W20_in (c : Dev nD) (w : Fin cfg6.W) (hin : (cfg6.win w).isOut = false) :
    W20 m ρ c (Proc.devRef .tc (Pipeline.arrRef spec6 w)) = W19 m ρ c (Proc.devRef .tc (Pipeline.arrRef spec6 w)) :=
  (W20_arr m ρ c w).trans (((dat6 (V19 m ρ) c).arrAt_in w hin _).trans (A_eq6 (V19 m ρ) c w))

theorem W22_in (c : Dev nD) (w : Fin cfg7.W) (hin : (cfg7.win w).isOut = false) :
    W22 m ρ c (Proc.devRef .tc (Pipeline.arrRef spec7 w)) = W21 m ρ c (Proc.devRef .tc (Pipeline.arrRef spec7 w)) :=
  (W22_arr m ρ c w).trans (((dat7 (V21 m ρ) c).arrAt_in w hin _).trans (A_eq7 (V21 m ρ) c w))

theorem W24_in (c : Dev nD) (w : Fin cfg8.W) (hin : (cfg8.win w).isOut = false) :
    W24 m ρ c (Proc.devRef .tc (Pipeline.arrRef spec8 w)) = W23 m ρ c (Proc.devRef .tc (Pipeline.arrRef spec8 w)) :=
  (W24_arr m ρ c w).trans (((dat8 (V23 m ρ) c).arrAt_in w hin _).trans (A_eq8 (V23 m ρ) c w))

theorem W26_in (c : Dev nD) (w : Fin cfg9.W) (hin : (cfg9.win w).isOut = false) :
    W26 m ρ c (Proc.devRef .tc (Pipeline.arrRef spec9 w)) = W25 m ρ c (Proc.devRef .tc (Pipeline.arrRef spec9 w)) :=
  (W26_arr m ρ c w).trans (((dat9 (V25 m ρ) c).arrAt_in w hin _).trans (A_eq9 (V25 m ρ) c w))

theorem W28_in (c : Dev nD) (w : Fin cfg10.W) (hin : (cfg10.win w).isOut = false) :
    W28 m ρ c (Proc.devRef .tc (Pipeline.arrRef spec10 w)) = W27 m ρ c (Proc.devRef .tc (Pipeline.arrRef spec10 w)) :=
  (W28_arr m ρ c w).trans (((dat10 (V27 m ρ) c).arrAt_in w hin _).trans (A_eq10 (V27 m ρ) c w))

theorem W32_in (c : Dev nD) (w : Fin cfg11.W) (hin : (cfg11.win w).isOut = false) :
    W32 m ρ c (Proc.devRef .tc (Pipeline.arrRef spec11 w)) = W31 m ρ c (Proc.devRef .tc (Pipeline.arrRef spec11 w)) :=
  (W32_arr m ρ c w).trans (((dat11 (V31 m ρ) c).arrAt_in w hin _).trans (A_eq11 (V31 m ρ) c w))

theorem W36_in (c : Dev nD) (w : Fin cfg12.W) (hin : (cfg12.win w).isOut = false) :
    W36 m ρ c (Proc.devRef .tc (Pipeline.arrRef spec12 w)) = W35 m ρ c (Proc.devRef .tc (Pipeline.arrRef spec12 w)) :=
  (W36_arr m ρ c w).trans (((dat12 (V35 m ρ) c).arrAt_in w hin _).trans (A_eq12 (V35 m ρ) c w))

theorem W40_in (c : Dev nD) (w : Fin cfg13.W) (hin : (cfg13.win w).isOut = false) :
    W40 m ρ c (Proc.devRef .tc (Pipeline.arrRef spec13 w)) = W39 m ρ c (Proc.devRef .tc (Pipeline.arrRef spec13 w)) :=
  (W40_arr m ρ c w).trans (((dat13 (V39 m ρ) c).arrAt_in w hin _).trans (A_eq13 (V39 m ρ) c w))

theorem W2_main_arg4 (c : Dev nD) : W2 m ρ c (Proc.devRef .tc main_arg4) = W1 m ρ c (Proc.devRef .tc main_arg4) := W2_in m ρ c 2 rfl
theorem W2_main_arg6 (c : Dev nD) : W2 m ρ c (Proc.devRef .tc main_arg6) = W1 m ρ c (Proc.devRef .tc main_arg6) := W2_in m ρ c 3 rfl
theorem W2_main_arg5 (c : Dev nD) : W2 m ρ c (Proc.devRef .tc main_arg5) = W1 m ρ c (Proc.devRef .tc main_arg5) := W2_in m ρ c 4 rfl
theorem W4_main_arg7 (c : Dev nD) : W4 m ρ c (Proc.devRef .tc main_arg7) = W3 m ρ c (Proc.devRef .tc main_arg7) := W4_in m ρ c 2 rfl
theorem W4_main_arg9 (c : Dev nD) : W4 m ρ c (Proc.devRef .tc main_arg9) = W3 m ρ c (Proc.devRef .tc main_arg9) := W4_in m ρ c 3 rfl
theorem W4_main_arg8 (c : Dev nD) : W4 m ρ c (Proc.devRef .tc main_arg8) = W3 m ρ c (Proc.devRef .tc main_arg8) := W4_in m ρ c 4 rfl
theorem W6_main_arg10 (c : Dev nD) : W6 m ρ c (Proc.devRef .tc main_arg10) = W5 m ρ c (Proc.devRef .tc main_arg10) := W6_in m ρ c 2 rfl
theorem W6_main_arg12 (c : Dev nD) : W6 m ρ c (Proc.devRef .tc main_arg12) = W5 m ρ c (Proc.devRef .tc main_arg12) := W6_in m ρ c 3 rfl
theorem W6_main_arg11 (c : Dev nD) : W6 m ρ c (Proc.devRef .tc main_arg11) = W5 m ρ c (Proc.devRef .tc main_arg11) := W6_in m ρ c 4 rfl
theorem W8_main_arg13 (c : Dev nD) : W8 m ρ c (Proc.devRef .tc main_arg13) = W7 m ρ c (Proc.devRef .tc main_arg13) := W8_in m ρ c 2 rfl
theorem W8_main_arg15 (c : Dev nD) : W8 m ρ c (Proc.devRef .tc main_arg15) = W7 m ρ c (Proc.devRef .tc main_arg15) := W8_in m ρ c 3 rfl
theorem W8_main_arg14 (c : Dev nD) : W8 m ρ c (Proc.devRef .tc main_arg14) = W7 m ρ c (Proc.devRef .tc main_arg14) := W8_in m ρ c 4 rfl
theorem W12_main_v77 (c : Dev nD) : W12 m ρ c (Proc.devRef .tc main_v77) = W11 m ρ c (Proc.devRef .tc main_v77) := W12_in m ρ c 0 rfl
theorem W12_main_v65 (c : Dev nD) : W12 m ρ c (Proc.devRef .tc main_v65) = W11 m ρ c (Proc.devRef .tc main_v65) := W12_in m ρ c 1 rfl
theorem W16_main_v77 (c : Dev nD) : W16 m ρ c (Proc.devRef .tc main_v77) = W15 m ρ c (Proc.devRef .tc main_v77) := W16_in m ρ c 0 rfl
theorem W16_main_v65 (c : Dev nD) : W16 m ρ c (Proc.devRef .tc main_v65) = W15 m ρ c (Proc.devRef .tc main_v65) := W16_in m ρ c 1 rfl
theorem W22_main_arg4 (c : Dev nD) : W22 m ρ c (Proc.devRef .tc main_arg4) = W21 m ρ c (Proc.devRef .tc main_arg4) := W22_in m ρ c 2 rfl
theorem W22_main_arg6 (c : Dev nD) : W22 m ρ c (Proc.devRef .tc main_arg6) = W21 m ρ c (Proc.devRef .tc main_arg6) := W22_in m ρ c 3 rfl
theorem W22_main_arg5 (c : Dev nD) : W22 m ρ c (Proc.devRef .tc main_arg5) = W21 m ρ c (Proc.devRef .tc main_arg5) := W22_in m ρ c 4 rfl
theorem W24_main_arg7 (c : Dev nD) : W24 m ρ c (Proc.devRef .tc main_arg7) = W23 m ρ c (Proc.devRef .tc main_arg7) := W24_in m ρ c 2 rfl
theorem W24_main_arg9 (c : Dev nD) : W24 m ρ c (Proc.devRef .tc main_arg9) = W23 m ρ c (Proc.devRef .tc main_arg9) := W24_in m ρ c 3 rfl
theorem W24_main_arg8 (c : Dev nD) : W24 m ρ c (Proc.devRef .tc main_arg8) = W23 m ρ c (Proc.devRef .tc main_arg8) := W24_in m ρ c 4 rfl
theorem W26_main_arg10 (c : Dev nD) : W26 m ρ c (Proc.devRef .tc main_arg10) = W25 m ρ c (Proc.devRef .tc main_arg10) := W26_in m ρ c 2 rfl
theorem W26_main_arg12 (c : Dev nD) : W26 m ρ c (Proc.devRef .tc main_arg12) = W25 m ρ c (Proc.devRef .tc main_arg12) := W26_in m ρ c 3 rfl
theorem W26_main_arg11 (c : Dev nD) : W26 m ρ c (Proc.devRef .tc main_arg11) = W25 m ρ c (Proc.devRef .tc main_arg11) := W26_in m ρ c 4 rfl
theorem W28_main_arg13 (c : Dev nD) : W28 m ρ c (Proc.devRef .tc main_arg13) = W27 m ρ c (Proc.devRef .tc main_arg13) := W28_in m ρ c 2 rfl
theorem W28_main_arg15 (c : Dev nD) : W28 m ρ c (Proc.devRef .tc main_arg15) = W27 m ρ c (Proc.devRef .tc main_arg15) := W28_in m ρ c 3 rfl
theorem W28_main_arg14 (c : Dev nD) : W28 m ρ c (Proc.devRef .tc main_arg14) = W27 m ρ c (Proc.devRef .tc main_arg14) := W28_in m ρ c 4 rfl
theorem W32_main_v182 (c : Dev nD) : W32 m ρ c (Proc.devRef .tc main_v182) = W31 m ρ c (Proc.devRef .tc main_v182) := W32_in m ρ c 0 rfl
theorem W32_main_v170 (c : Dev nD) : W32 m ρ c (Proc.devRef .tc main_v170) = W31 m ρ c (Proc.devRef .tc main_v170) := W32_in m ρ c 1 rfl
theorem W36_main_v182 (c : Dev nD) : W36 m ρ c (Proc.devRef .tc main_v182) = W35 m ρ c (Proc.devRef .tc main_v182) := W36_in m ρ c 0 rfl
theorem W36_main_v170 (c : Dev nD) : W36 m ρ c (Proc.devRef .tc main_v170) = W35 m ρ c (Proc.devRef .tc main_v170) := W36_in m ρ c 1 rfl

macro "carryB_keep" ops:ident hb:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (fun e => by subst e; exact $hb (by decide)))))

theorem W1_keep (c : Dev nD) (b : Ref sig .tc)
    (hb : b ∉ [main_cst, main_v0, main_cst_0, main_v1, main_v2, main_v3, main_cst_1, main_v4, main_v5, main_cst_2,
      main_v6, main_v7, main_v8, main_v9, main_v10, main_v11, main_v12, main_c, main_v13, main_v14,
      main_c_3, main_v15, main_v16, main_v17, main_v18, main_v19, main_cst_4, main_v20, main_v21, main_v22,
      main_v23, main_v24]) :
    W1 m ρ c (Proc.devRef .tc b) = W0 m ρ c (Proc.devRef .tc b) := by
  carryB_keep hostOps0 hb

theorem W3_keep (c : Dev nD) (b : Ref sig .tc)
    (hb : b ∉ [main_c_5, main_v26, main_v27, main_c_6, main_v28, main_v29, main_v30, main_v31, main_v32, main_cst_7,
      main_v33, main_v34, main_v35, main_v36, main_v37]) :
    W3 m ρ c (Proc.devRef .tc b) = W2 m ρ c (Proc.devRef .tc b) := by
  carryB_keep hostOps1 hb

theorem W5_keep (c : Dev nD) (b : Ref sig .tc)
    (hb : b ∉ [main_v39, main_c_8, main_v40, main_v41, main_c_9, main_v42, main_v43, main_v44, main_v45, main_v46,
      main_cst_10, main_v47, main_v48, main_v49, main_v50, main_v51]) :
    W5 m ρ c (Proc.devRef .tc b) = W4 m ρ c (Proc.devRef .tc b) := by
  carryB_keep hostOps2 hb

theorem W7_keep (c : Dev nD) (b : Ref sig .tc)
    (hb : b ∉ [main_c_11, main_v53, main_v54, main_c_12, main_v55, main_v56, main_v57, main_v58, main_v59,
      main_cst_13, main_v60, main_v61, main_v62, main_v63, main_v64]) :
    W7 m ρ c (Proc.devRef .tc b) = W6 m ρ c (Proc.devRef .tc b) := by
  carryB_keep hostOps3 hb

theorem W9_keep (c : Dev nD) (b : Ref sig .tc)
    (hb : b ∉ [main_c_14, main_v66, main_v67, main_c_15, main_v68, main_v69, main_v70, main_v71, main_v72,
      main_cst_16, main_v73, main_v74, main_v75, main_v76, main_v77, main_v78, main_v79]) :
    W9 m ρ c (Proc.devRef .tc b) = W8 m ρ c (Proc.devRef .tc b) := by
  carryB_keep hostOps4 hb

theorem W10_keep (c : Dev nD) (b : Ref sig .tc)
    (hb : b ∉ [main_call0_v0, main_call0_v1, main_call0_v2, main_call0_v3, main_call0_v4, main_v80]) :
    W10 m ρ c (Proc.devRef .tc b) = W9 m ρ c (Proc.devRef .tc b) := by
  carryB_keep hostOps4_1 hb

theorem W11_keep (c : Dev nD) (b : Ref sig .tc)
    (hb : b ∉ [main_v81, main_v82, main_v83, main_v84, main_v85, main_v86]) :
    W11 m ρ c (Proc.devRef .tc b) = W10 m ρ c (Proc.devRef .tc b) := by
  carryB_keep hostOps4_2 hb

theorem W13_keep (c : Dev nD) (b : Ref sig .tc)
    (hb : b ∉ [main_v88, main_cst_17, main_v89, main_v90, main_v91]) :
    W13 m ρ c (Proc.devRef .tc b) = W12 m ρ c (Proc.devRef .tc b) := by
  carryB_keep hostOps5 hb

theorem W14_keep (c : Dev nD) (b : Ref sig .tc)
    (hb : b ∉ [main_call1_v0, main_call1_v1, main_call1_v2, main_call1_v3, main_call1_v4, main_v92]) :
    W14 m ρ c (Proc.devRef .tc b) = W13 m ρ c (Proc.devRef .tc b) := by
  carryB_keep hostOps5_1 hb

theorem W15_keep (c : Dev nD) (b : Ref sig .tc)
    (hb : b ∉ [main_v93, main_v94, main_v95, main_v96, main_v97, main_v98]) :
    W15 m ρ c (Proc.devRef .tc b) = W14 m ρ c (Proc.devRef .tc b) := by
  carryB_keep hostOps5_2 hb

theorem W17_keep (c : Dev nD) (b : Ref sig .tc)
    (hb : b ∉ [main_v100, main_v101, main_v102, main_v103]) :
    W17 m ρ c (Proc.devRef .tc b) = W16 m ρ c (Proc.devRef .tc b) := by
  carryB_keep hostOps6 hb

theorem W18_keep (c : Dev nD) (b : Ref sig .tc)
    (hb : b ∉ [main_call2_v0, main_call2_v1, main_call2_v2, main_call2_v3, main_call2_v4, main_v104]) :
    W18 m ρ c (Proc.devRef .tc b) = W17 m ρ c (Proc.devRef .tc b) := by
  carryB_keep hostOps6_1 hb

theorem W19_keep (c : Dev nD) (b : Ref sig .tc)
    (hb : b ∉ [main_v105, main_v106, main_v107, main_v108, main_v109, main_v110]) :
    W19 m ρ c (Proc.devRef .tc b) = W18 m ρ c (Proc.devRef .tc b) := by
  carryB_keep hostOps6_2 hb

theorem W21_keep (c : Dev nD) (b : Ref sig .tc)
    (hb : b ∉ [main_v112, main_v113, main_v114, main_v115, main_v116, main_v117, main_c_18, main_v118, main_v119,
      main_c_19, main_v120, main_v121, main_v122, main_v123, main_v124, main_cst_20, main_v125, main_v126,
      main_v127, main_v128, main_v129]) :
    W21 m ρ c (Proc.devRef .tc b) = W20 m ρ c (Proc.devRef .tc b) := by
  carryB_keep hostOps7 hb

theorem W23_keep (c : Dev nD) (b : Ref sig .tc)
    (hb : b ∉ [main_c_21, main_v131, main_v132, main_c_22, main_v133, main_v134, main_v135, main_v136, main_v137,
      main_cst_23, main_v138, main_v139, main_v140, main_v141, main_v142]) :
    W23 m ρ c (Proc.devRef .tc b) = W22 m ρ c (Proc.devRef .tc b) := by
  carryB_keep hostOps8 hb

theorem W25_keep (c : Dev nD) (b : Ref sig .tc)
    (hb : b ∉ [main_v144, main_c_24, main_v145, main_v146, main_c_25, main_v147, main_v148, main_v149, main_v150,
      main_v151, main_cst_26, main_v152, main_v153, main_v154, main_v155, main_v156]) :
    W25 m ρ c (Proc.devRef .tc b) = W24 m ρ c (Proc.devRef .tc b) := by
  carryB_keep hostOps9 hb

theorem W27_keep (c : Dev nD) (b : Ref sig .tc)
    (hb : b ∉ [main_c_27, main_v158, main_v159, main_c_28, main_v160, main_v161, main_v162, main_v163, main_v164,
      main_cst_29, main_v165, main_v166, main_v167, main_v168, main_v169]) :
    W27 m ρ c (Proc.devRef .tc b) = W26 m ρ c (Proc.devRef .tc b) := by
  carryB_keep hostOps10 hb

theorem W29_keep (c : Dev nD) (b : Ref sig .tc)
    (hb : b ∉ [main_c_30, main_v171, main_v172, main_c_31, main_v173, main_v174, main_v175, main_v176, main_v177,
      main_cst_32, main_v178, main_v179, main_v180, main_v181, main_v182, main_v183, main_v184]) :
    W29 m ρ c (Proc.devRef .tc b) = W28 m ρ c (Proc.devRef .tc b) := by
  carryB_keep hostOps11 hb

theorem W30_keep (c : Dev nD) (b : Ref sig .tc)
    (hb : b ∉ [main_call3_v0, main_call3_v1, main_call3_v2, main_call3_v3, main_call3_v4, main_v185]) :
    W30 m ρ c (Proc.devRef .tc b) = W29 m ρ c (Proc.devRef .tc b) := by
  carryB_keep hostOps11_1 hb

theorem W31_keep (c : Dev nD) (b : Ref sig .tc)
    (hb : b ∉ [main_v186, main_v187, main_v188, main_v189, main_v190, main_v191]) :
    W31 m ρ c (Proc.devRef .tc b) = W30 m ρ c (Proc.devRef .tc b) := by
  carryB_keep hostOps11_2 hb

theorem W33_keep (c : Dev nD) (b : Ref sig .tc)
    (hb : b ∉ [main_v193, main_v194, main_v195, main_v196]) :
    W33 m ρ c (Proc.devRef .tc b) = W32 m ρ c (Proc.devRef .tc b) := by
  carryB_keep hostOps12 hb

theorem W34_keep (c : Dev nD) (b : Ref sig .tc)
    (hb : b ∉ [main_call4_v0, main_call4_v1, main_call4_v2, main_call4_v3, main_call4_v4, main_v197]) :
    W34 m ρ c (Proc.devRef .tc b) = W33 m ρ c (Proc.devRef .tc b) := by
  carryB_keep hostOps12_1 hb

theorem W35_keep (c : Dev nD) (b : Ref sig .tc)
    (hb : b ∉ [main_v198, main_v199, main_v200, main_v201, main_v202, main_v203]) :
    W35 m ρ c (Proc.devRef .tc b) = W34 m ρ c (Proc.devRef .tc b) := by
  carryB_keep hostOps12_2 hb

theorem W37_keep (c : Dev nD) (b : Ref sig .tc)
    (hb : b ∉ [main_v205, main_v206, main_v207, main_v208]) :
    W37 m ρ c (Proc.devRef .tc b) = W36 m ρ c (Proc.devRef .tc b) := by
  carryB_keep hostOps13 hb

theorem W38_keep (c : Dev nD) (b : Ref sig .tc)
    (hb : b ∉ [main_call5_v0, main_call5_v1, main_call5_v2, main_call5_v3, main_call5_v4, main_v209]) :
    W38 m ρ c (Proc.devRef .tc b) = W37 m ρ c (Proc.devRef .tc b) := by
  carryB_keep hostOps13_1 hb

theorem W39_keep (c : Dev nD) (b : Ref sig .tc)
    (hb : b ∉ [main_v210, main_v211, main_v212, main_v213, main_v214, main_v215]) :
    W39 m ρ c (Proc.devRef .tc b) = W38 m ρ c (Proc.devRef .tc b) := by
  carryB_keep hostOps13_2 hb

theorem W41_keep (c : Dev nD) (b : Ref sig .tc)
    (hb : b ∉ [main_v217, main_v218]) :
    W41 m ρ c (Proc.devRef .tc b) = W40 m ρ c (Proc.devRef .tc b) := by
  carryB_keep hostOps14 hb

macro "carryB1" : tactic => `(tactic| first
  | (rw [W41_keep]; rotate_left; decide)
  | (rw [W40_of_ne]; rotate_left; decide)
  | (rw [W39_keep]; rotate_left; decide)
  | (rw [W38_keep]; rotate_left; decide)
  | (rw [W37_keep]; rotate_left; decide)
  | (rw [W36_of_ne]; rotate_left; decide)
  | (rw [W35_keep]; rotate_left; decide)
  | (rw [W34_keep]; rotate_left; decide)
  | (rw [W33_keep]; rotate_left; decide)
  | (rw [W32_of_ne]; rotate_left; decide)
  | (rw [W31_keep]; rotate_left; decide)
  | (rw [W30_keep]; rotate_left; decide)
  | (rw [W29_keep]; rotate_left; decide)
  | (rw [W28_of_ne]; rotate_left; decide)
  | (rw [W27_keep]; rotate_left; decide)
  | (rw [W26_of_ne]; rotate_left; decide)
  | (rw [W25_keep]; rotate_left; decide)
  | (rw [W24_of_ne]; rotate_left; decide)
  | (rw [W23_keep]; rotate_left; decide)
  | (rw [W22_of_ne]; rotate_left; decide)
  | (rw [W21_keep]; rotate_left; decide)
  | (rw [W20_of_ne]; rotate_left; decide)
  | (rw [W19_keep]; rotate_left; decide)
  | (rw [W18_keep]; rotate_left; decide)
  | (rw [W17_keep]; rotate_left; decide)
  | (rw [W16_of_ne]; rotate_left; decide)
  | (rw [W15_keep]; rotate_left; decide)
  | (rw [W14_keep]; rotate_left; decide)
  | (rw [W13_keep]; rotate_left; decide)
  | (rw [W12_of_ne]; rotate_left; decide)
  | (rw [W11_keep]; rotate_left; decide)
  | (rw [W10_keep]; rotate_left; decide)
  | (rw [W9_keep]; rotate_left; decide)
  | (rw [W8_of_ne]; rotate_left; decide)
  | (rw [W7_keep]; rotate_left; decide)
  | (rw [W6_of_ne]; rotate_left; decide)
  | (rw [W5_keep]; rotate_left; decide)
  | (rw [W4_of_ne]; rotate_left; decide)
  | (rw [W3_keep]; rotate_left; decide)
  | (rw [W2_of_ne]; rotate_left; decide)
  | (rw [W1_keep]; rotate_left; decide)
  | rw [W2_main_arg4]
  | rw [W2_main_arg6]
  | rw [W2_main_arg5]
  | rw [W4_main_arg7]
  | rw [W4_main_arg9]
  | rw [W4_main_arg8]
  | rw [W6_main_arg10]
  | rw [W6_main_arg12]
  | rw [W6_main_arg11]
  | rw [W8_main_arg13]
  | rw [W8_main_arg15]
  | rw [W8_main_arg14]
  | rw [W12_main_v77]
  | rw [W12_main_v65]
  | rw [W16_main_v77]
  | rw [W16_main_v65]
  | rw [W22_main_arg4]
  | rw [W22_main_arg6]
  | rw [W22_main_arg5]
  | rw [W24_main_arg7]
  | rw [W24_main_arg9]
  | rw [W24_main_arg8]
  | rw [W26_main_arg10]
  | rw [W26_main_arg12]
  | rw [W26_main_arg11]
  | rw [W28_main_arg13]
  | rw [W28_main_arg15]
  | rw [W28_main_arg14]
  | rw [W32_main_v182]
  | rw [W32_main_v170]
  | rw [W36_main_v182]
  | rw [W36_main_v170])

macro "carryB" : tactic => `(tactic| repeat carryB1)

end Carry

end Cert.KernelIdeal.Gen

end
-- ==== Proof.RegDense.lean ====
import proofs.«181152_j39822936769202_1_alg».proof.Proof.Gen.KernelIdeal.Frame
import proofs.«181152_j39822936769202_1_alg».proof.Proof.Spec
import proofs.«181152_j39822936769202_1_alg».proof.Proof.LibDot
import Idealize.ShloMosaic.Lib.Pipeline.Value
import Idealize.ShloMosaic.Lib.ValueLayout

noncomputable section

namespace Cert.KernelIdeal.Gen.Dense

open Idealize.ShloMosaic Idealize.ShloMosaic.ValueIdx
open scoped BigOperators

theorem hz2 : (![0, 0] : Fin 2 → Nat) = fun _ => 0 := funext fun a => by fin_cases a <;> rfl
theorem hz1 : (![0] : Fin 1 → Nat) = fun _ => 0 := funext fun a => by fin_cases a <;> rfl

/-- A product into the zero accumulator is the sum over the shared axis; narrowing is the identity on the extended reals. -/
theorem prod_at {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (hc : (⟨2, ![R, K]⟩ : Shape).ShapeCasts ⟨2, ![R, K]⟩) (hb : FTy.bits .bf16 < FTy.bits .f32)
    (x : FVec Ideal ⟨2, ![R, K]⟩ .f32) (w : FVec Ideal ⟨2, ![K, C]⟩ .f32) (p : Fin R) (q : Fin C) :
    matmul (F := Ideal) d none (truncf .bf16 (shapeCast ⟨2, ![R, K]⟩ x hc) hb) (truncf .bf16 w hb)
        (constant ⟨2, ![R, C]⟩ .f32 0#32) (ix2 p q)
      = ∑ k : Fin K, x (ix2 p k) * w (ix2 k q) := by
  refine (LibDot.matmul_zero_at d hl hr hln hrn hlb hrb none _ _ p q).trans ?_
  rw [shapeCast_self]; rfl

/-- The two products plus the bias row spread down the rows: the layer's pre-activation of the five blocks. -/
theorem pre_at {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (hc : (⟨2, ![R, K]⟩ : Shape).ShapeCasts ⟨2, ![R, K]⟩) (hb : FTy.bits .bf16 < FTy.bits .f32)
    (h1 : (⟨1, ![C]⟩ : Shape).ShapeCasts ⟨2, ![1, C]⟩) (h2 : (⟨2, ![1, C]⟩ : Shape).Broadcasts ⟨2, ![R, C]⟩)
    (x0 x1 : FVec Ideal ⟨2, ![R, K]⟩ .f32) (x2 x3 : FVec Ideal ⟨2, ![K, C]⟩ .f32) (x4 : FVec Ideal ⟨1, ![C]⟩ .f32)
    (p : Fin R) (q : Fin C) :
    addf (F := Ideal) (addf
        (matmul d none (truncf .bf16 (shapeCast ⟨2, ![R, K]⟩ x0 hc) hb) (truncf .bf16 x2 hb) (constant ⟨2, ![R, C]⟩ .f32 0#32))
        (matmul d none (truncf .bf16 (shapeCast ⟨2, ![R, K]⟩ x1 hc) hb) (truncf .bf16 x3 hb) (constant ⟨2, ![R, C]⟩ .f32 0#32)))
        (broadcastTo ⟨2, ![R, C]⟩ (shapeCast ⟨2, ![1, C]⟩ x4 h1) h2) (ix2 p q)
      = Spec.dense x0 x1 x2 x3 x4 p q :=
  congrArg₂ (· + ·) (congrArg₂ (· + ·) (prod_at d hl hr hln hrn hlb hrb hc hb x0 x2 p q) (prod_at d hl hr hln hrn hlb hrb hc hb x1 x3 p q))
    ((broadcastTo_1b_ab_apply _ h2 p q).trans (shapeCast_a_1a_apply x4 h1 0 q))

theorem relu128_at (x0 x1 : Vec Ideal S2000x128 .f32) (x2 x3 : Vec Ideal S128x128 .f32) (x4 : Vec Ideal S128 .f32)
    (p : Fin 2000) (q : Fin 128) :
    k0_pay1 (F := Ideal) x0 x1 x2 x3 x4 (ix2 p q) = max (Spec.dense x0 x1 x2 x3 x4 p q) 0 := by
  unfold k0_pay1
  exact congrArg₂ max (pre_at dot_S2000x128_S128x128_S2000x128_1_0_0_1_n_n rfl rfl rfl rfl rfl rfl _ _ _ _ x0 x1 x2 x3 x4 p q)
    Ideal.ofBits_zero_f32

theorem relu256_at (x0 x1 : Vec Ideal S2000x256 .f32) (x2 x3 : Vec Ideal S256x256 .f32) (x4 : Vec Ideal S256 .f32)
    (p : Fin 2000) (q : Fin 256) :
    k2_pay1 (F := Ideal) x0 x1 x2 x3 x4 (ix2 p q) = max (Spec.dense x0 x1 x2 x3 x4 p q) 0 := by
  unfold k2_pay1
  exact congrArg₂ max (pre_at dot_S2000x256_S256x256_S2000x256_1_0_0_1_n_n rfl rfl rfl rfl rfl rfl _ _ _ _ x0 x1 x2 x3 x4 p q)
    Ideal.ofBits_zero_f32

theorem sig_at (x0 x1 : Vec Ideal S2000x256 .f32) (x2 x3 : Vec Ideal S256x64 .f32) (x4 : Vec Ideal S64 .f32)
    (p : Fin 2000) (q : Fin 64) :
    k3_pay1 (F := Ideal) x0 x1 x2 x3 x4 (ix2 p q) = Ideal.logistic (Spec.dense x0 x1 x2 x3 x4 p q) := by
  unfold k3_pay1
  exact congrArg Ideal.logistic (pre_at dot_S2000x256_S256x64_S2000x64_1_0_0_1_n_n rfl rfl rfl rfl rfl rfl _ _ _ _ x0 x1 x2 x3 x4 p q)

/-- A tile whose feature blocks are row `i 0` of two arrays and whose weights and bias are three whole arrays has, at
    column `i 1`, the arrays' pre-activation at `i`. -/
theorem blk {B R K C : Nat} (A0 A1 : Spec.Mat R K) (A2 A3 : Spec.Mat K C) (A4 : Spec.Vc C)
    (x0 x1 : Spec.Mat B K) (x2 x3 : Spec.Mat K C) (x4 : Spec.Vc C) (p : Fin B) (q : Fin C)
    (i : (⟨2, ![R, C]⟩ : Shape).Idx) (hq : (i 1).val = q.val)
    (h0 : ∀ k, x0 (ix2 p k) = A0 (ix2 ⟨(i 0).val, (i 0).isLt⟩ k))
    (h1 : ∀ k, x1 (ix2 p k) = A1 (ix2 ⟨(i 0).val, (i 0).isLt⟩ k)) (h2 : x2 = A2) (h3 : x3 = A3) (h4 : x4 = A4) :
    Spec.dense x0 x1 x2 x3 x4 p q = Spec.dense A0 A1 A2 A3 A4 ⟨(i 0).val, (i 0).isLt⟩ ⟨(i 1).val, (i 1).isLt⟩ := by
  obtain rfl : q = ⟨(i 1).val, (i 1).isLt⟩ := Fin.ext hq.symm
  subst h2 h3 h4
  unfold Spec.dense
  simp only [h0, h1]

/-- The feature windows and the output window take row block t at point t; the weights and the bias are one block. -/
abbrev IdxFacts {N : ℕ} (i0 i1 i2 i3 i5 : Fin N → Fin 2 → ℕ) (i4 : Fin N → Fin 1 → ℕ) : Prop :=
  ∀ t : Fin N, i0 t 0 = t.val ∧ i0 t 1 = 0 ∧ i1 t 0 = t.val ∧ i1 t 1 = 0 ∧ i2 t 0 = 0 ∧ i2 t 1 = 0
    ∧ i3 t 0 = 0 ∧ i3 t 1 = 0 ∧ i4 t 0 = 0 ∧ i5 t 0 = t.val ∧ i5 t 1 = 0

theorem row_eq {a b n s p : ℕ} (ha : a = n) (hb : b = n) : a * s + 1 * p = b * s + 1 * p := by rw [ha, hb]

theorem col_eq {a s k : ℕ} (ha : a = 0) : a * s + 1 * k = k := by rw [ha, Nat.zero_mul, Nat.zero_add, Nat.one_mul]

/-- Row r lies in the block r / B of B rows. -/
theorem row_mem {a B r : ℕ} (hB : 0 < B) (ha : a = r / B) : a * B ≤ r ∧ r < a * B + B := by
  rw [ha]; exact ⟨Nat.div_mul_le_self r B, Nat.lt_div_mul_add hB⟩

theorem col_mem {a C r : ℕ} (ha : a = 0) (hr : r < C) : a * C ≤ r ∧ r < a * C + C := by
  rw [ha, Nat.zero_mul, Nat.zero_add]; exact ⟨Nat.zero_le r, hr⟩

end Cert.KernelIdeal.Gen.Dense

end
-- ==== Proof.Reg0.lean ====
import proofs.«181152_j39822936769202_1_alg».proof.Proof.RegDense

noncomputable section

namespace Cert.KernelIdeal.Gen

open Idealize.ShloMosaic Idealize.ShloMosaic.TcCoe Idealize.ShloMosaic.ValueIdx Dense

variable (V : (c : Dev nD) → (b : Ref sig .tc) → Buf (Elt Ideal) ((c : Thread nD τ).loc b))

theorem reg0_idx : IdxFacts (N := grid0.N) win0_0.index win0_1.index win0_2.index win0_3.index
    win0_5.index win0_4.index := by decide +kernel

abbrev reg0_lay (c : Dev nD) : S50000x128.Idx → EReal :=
  Spec.reluLayer (V c (Pipeline.arrRef spec0 0)) (V c (Pipeline.arrRef spec0 1)) (V c (Pipeline.arrRef spec0 2))
    (V c (Pipeline.arrRef spec0 3)) (V c (Pipeline.arrRef spec0 4))

/-- Each window's block sits in its array where its index says, so what a point writes back is its block of the layer. -/
theorem reg0_flushed (c : Dev nD) (t : Fin cfg0.N) :
    (dat0 (F := Ideal) V c).flushed 5 t = ((cfg0.win 5).blk t).view.read (Elt Ideal) (reg0_lay V c) := by
  obtain ⟨a0, a1, b0, b1, c0, c1, d0, d1, e0, f0, f1⟩ := reg0_idx t
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  refine (relu128_at _ _ _ _ _ p q).trans (congrArg (max · 0) (blk _ _ _ _ _ _ _ _ _ _ p q
    (((cfg0.win 5).blk t).view.emb (ix2 p q)) (col_eq f1) (fun k => ?_) (fun k => ?_) ?_ ?_ ?_))
  · exact congrArg (V c (Pipeline.arrRef spec0 0)) (Shape.idx_ext₂ (row_eq a0 f0) (col_eq a1))
  · exact congrArg (V c (Pipeline.arrRef spec0 1)) (Shape.idx_ext₂ (row_eq b0 f0) (col_eq b1))
  · exact funext fun j => congrArg (V c (Pipeline.arrRef spec0 2)) (Shape.idx_ext₂ (col_eq c0) (col_eq c1))
  · exact funext fun j => congrArg (V c (Pipeline.arrRef spec0 3)) (Shape.idx_ext₂ (col_eq d0) (col_eq d1))
  · exact funext fun j => congrArg (V c (Pipeline.arrRef spec0 4)) (funext fun a => Fin.ext (match a with | ⟨0, _⟩ => col_eq e0))

/-- Row r of the output lies in the block of point r / 2000. -/
theorem reg0_cover (i : S50000x128.Idx) :
    ∃ t : Fin cfg0.N, (cfg0.win 5).flush t = true ∧ i ∈ ((cfg0.win 5).blk t).view.set := by
  have hi : (i 0).val < 50000 := (i 0).isLt
  have ht : (i 0).val / 2000 < cfg0.N := lt_of_lt_of_eq (by omega) N_0.symm
  obtain ⟨-, -, -, -, -, -, -, -, -, f0, f1⟩ := reg0_idx ⟨_, ht⟩
  refine ⟨⟨_, ht⟩, flush0_5 _, ?_⟩
  show i ∈ ((View.whole (Pipeline.arrRef spec0 5)).slice (win0_5.rect ⟨_, ht⟩)).set
  rw [View.set_slice_whole, Rect.mem_set_unit]
  intro a
  match a with
  | ⟨0, _⟩ => exact row_mem (B := 2000) (by omega) f0
  | ⟨1, _⟩ => exact col_mem (C := 128) f1 (i 1).isLt

theorem reg0_at (c : Dev nD) (r : Fin 50000) (q : Fin 128) :
    (dat0 (F := Ideal) V c).arrAt 5 cfg0.N (ix2 r q)
      = max (Spec.dense (V c (Pipeline.arrRef spec0 0)) (V c (Pipeline.arrRef spec0 1)) (V c (Pipeline.arrRef spec0 2))
          (V c (Pipeline.arrRef spec0 3)) (V c (Pipeline.arrRef spec0 4)) r q) 0 :=
  (congrFun ((dat0 V c).arrAt_eq_of_cover 5 (reg0_lay V c) (fun t _ => reg0_flushed V c t) reg0_cover) (ix2 r q)).trans
    (Spec.reluLayer_apply _ _ _ _ _ r q)

end Cert.KernelIdeal.Gen

end
-- ==== Proof.Reg1.lean ====
import proofs.«181152_j39822936769202_1_alg».proof.Proof.RegDense

noncomputable section

namespace Cert.KernelIdeal.Gen

open Idealize.ShloMosaic Idealize.ShloMosaic.TcCoe Idealize.ShloMosaic.ValueIdx Dense

variable (V : (c : Dev nD) → (b : Ref sig .tc) → Buf (Elt Ideal) ((c : Thread nD τ).loc b))

theorem reg1_idx : IdxFacts (N := grid1.N) win1_0.index win1_1.index win1_2.index win1_3.index
    win1_5.index win1_4.index := by decide +kernel

abbrev reg1_lay (c : Dev nD) : S50000x128.Idx → EReal :=
  Spec.reluLayer (V c (Pipeline.arrRef spec1 0)) (V c (Pipeline.arrRef spec1 1)) (V c (Pipeline.arrRef spec1 2))
    (V c (Pipeline.arrRef spec1 3)) (V c (Pipeline.arrRef spec1 4))

/-- Each window's block sits in its array where its index says, so what a point writes back is its block of the layer. -/
theorem reg1_flushed (c : Dev nD) (t : Fin cfg1.N) :
    (dat1 (F := Ideal) V c).flushed 5 t = ((cfg1.win 5).blk t).view.read (Elt Ideal) (reg1_lay V c) := by
  obtain ⟨a0, a1, b0, b1, c0, c1, d0, d1, e0, f0, f1⟩ := reg1_idx t
  show (cfg1.win 5).cut (grid1.coords t) ((dat1 V c).after 5 t) = _
  rw [after1_5]
  unfold out1_5
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  refine (relu128_at _ _ _ _ _ p q).trans (congrArg (max · 0) (blk _ _ _ _ _ _ _ _ _ _ p q
    (((cfg1.win 5).blk t).view.emb (ix2 p q)) (col_eq f1) (fun k => ?_) (fun k => ?_) ?_ ?_ ?_))
  · exact congrArg (V c (Pipeline.arrRef spec1 0)) (Shape.idx_ext₂ (row_eq a0 f0) (col_eq a1))
  · exact congrArg (V c (Pipeline.arrRef spec1 1)) (Shape.idx_ext₂ (row_eq b0 f0) (col_eq b1))
  · exact funext fun j => congrArg (V c (Pipeline.arrRef spec1 2)) (Shape.idx_ext₂ (col_eq c0) (col_eq c1))
  · exact funext fun j => congrArg (V c (Pipeline.arrRef spec1 3)) (Shape.idx_ext₂ (col_eq d0) (col_eq d1))
  · exact funext fun j => congrArg (V c (Pipeline.arrRef spec1 4)) (funext fun a => Fin.ext (match a with | ⟨0, _⟩ => col_eq e0))

/-- Row r of the output lies in the block of point r / 2000. -/
theorem reg1_cover (i : S50000x128.Idx) :
    ∃ t : Fin cfg1.N, (cfg1.win 5).flush t = true ∧ i ∈ ((cfg1.win 5).blk t).view.set := by
  have hi : (i 0).val < 50000 := (i 0).isLt
  have ht : (i 0).val / 2000 < cfg1.N := lt_of_lt_of_eq (by omega) N_1.symm
  obtain ⟨-, -, -, -, -, -, -, -, -, f0, f1⟩ := reg1_idx ⟨_, ht⟩
  refine ⟨⟨_, ht⟩, flush1_5 _, ?_⟩
  show i ∈ ((View.whole (Pipeline.arrRef spec1 5)).slice (win1_5.rect ⟨_, ht⟩)).set
  rw [View.set_slice_whole, Rect.mem_set_unit]
  intro a
  match a with
  | ⟨0, _⟩ => exact row_mem (B := 2000) (by omega) f0
  | ⟨1, _⟩ => exact col_mem (C := 128) f1 (i 1).isLt

theorem reg1_at (c : Dev nD) (r : Fin 50000) (q : Fin 128) :
    (dat1 (F := Ideal) V c).arrAt 5 cfg1.N (ix2 r q)
      = max (Spec.dense (V c (Pipeline.arrRef spec1 0)) (V c (Pipeline.arrRef spec1 1)) (V c (Pipeline.arrRef spec1 2))
          (V c (Pipeline.arrRef spec1 3)) (V c (Pipeline.arrRef spec1 4)) r q) 0 :=
  (congrFun ((dat1 V c).arrAt_eq_of_cover 5 (reg1_lay V c) (fun t _ => reg1_flushed V c t) reg1_cover) (ix2 r q)).trans
    (Spec.reluLayer_apply _ _ _ _ _ r q)

end Cert.KernelIdeal.Gen

end
-- ==== Proof.Reg2.lean ====
import proofs.«181152_j39822936769202_1_alg».proof.Proof.RegDense

noncomputable section

namespace Cert.KernelIdeal.Gen

open Idealize.ShloMosaic Idealize.ShloMosaic.TcCoe Idealize.ShloMosaic.ValueIdx Dense

variable (V : (c : Dev nD) → (b : Ref sig .tc) → Buf (Elt Ideal) ((c : Thread nD τ).loc b))

theorem reg2_idx : IdxFacts (N := grid2.N) win2_0.index win2_1.index win2_2.index win2_3.index
    win2_5.index win2_4.index := by decide +kernel

abbrev reg2_lay (c : Dev nD) : S50000x256.Idx → EReal :=
  Spec.reluLayer (V c (Pipeline.arrRef spec2 0)) (V c (Pipeline.arrRef spec2 1)) (V c (Pipeline.arrRef spec2 2))
    (V c (Pipeline.arrRef spec2 3)) (V c (Pipeline.arrRef spec2 4))

/-- Each window's block sits in its array where its index says, so what a point writes back is its block of the layer. -/
theorem reg2_flushed (c : Dev nD) (t : Fin cfg2.N) :
    (dat2 (F := Ideal) V c).flushed 5 t = ((cfg2.win 5).blk t).view.read (Elt Ideal) (reg2_lay V c) := by
  obtain ⟨a0, a1, b0, b1, c0, c1, d0, d1, e0, f0, f1⟩ := reg2_idx t
  show (cfg2.win 5).cut (grid2.coords t) ((dat2 V c).after 5 t) = _
  rw [after2_5]
  unfold out2_5
  rw [View.canon_unit_zero hz2]
  simp only [View.ld_unit_zero (S := S2000x256) hz2, View.ld_unit_zero (S := S256x256) hz2, View.ld_unit_zero (S := S256) hz1]
  funext j
  obtain ⟨p, q, rfl⟩ : ∃ (p : Fin 2000) (q : Fin 256), j = ix2 p q := ⟨j 0, j 1, eq_ix2 j⟩
  refine (relu256_at _ _ _ _ _ p q).trans (congrArg (max · 0) (blk _ _ _ _ _ _ _ _ _ _ p q
    (((cfg2.win 5).blk t).view.emb (ix2 p q)) (col_eq f1) (fun k => ?_) (fun k => ?_) ?_ ?_ ?_))
  · exact congrArg (V c (Pipeline.arrRef spec2 0)) (Shape.idx_ext₂ (row_eq a0 f0) (col_eq a1))
  · exact congrArg (V c (Pipeline.arrRef spec2 1)) (Shape.idx_ext₂ (row_eq b0 f0) (col_eq b1))
  · exact funext fun j => congrArg (V c (Pipeline.arrRef spec2 2)) (Shape.idx_ext₂ (col_eq c0) (col_eq c1))
  · exact funext fun j => congrArg (V c (Pipeline.arrRef spec2 3)) (Shape.idx_ext₂ (col_eq d0) (col_eq d1))
  · exact funext fun j => congrArg (V c (Pipeline.arrRef spec2 4)) (funext fun a => Fin.ext (match a with | ⟨0, _⟩ => col_eq e0))

/-- Row r of the output lies in the block of point r / 2000. -/
theorem reg2_cover (i : S50000x256.Idx) :
    ∃ t : Fin cfg2.N, (cfg2.win 5).flush t = true ∧ i ∈ ((cfg2.win 5).blk t).view.set := by
  have hi : (i 0).val < 50000 := (i 0).isLt
  have ht : (i 0).val / 2000 < cfg2.N := lt_of_lt_of_eq (by omega) N_2.symm
  obtain ⟨-, -, -, -, -, -, -, -, -, f0, f1⟩ := reg2_idx ⟨_, ht⟩
  refine ⟨⟨_, ht⟩, flush2_5 _, ?_⟩
  show i ∈ ((View.whole (Pipeline.arrRef spec2 5)).slice (win2_5.rect ⟨_, ht⟩)).set
  rw [View.set_slice_whole, Rect.mem_set_unit]
  intro a
  match a with
  | ⟨0, _⟩ => exact row_mem (B := 2000) (by omega) f0
  | ⟨1, _⟩ => exact col_mem (C := 256) f1 (i 1).isLt

theorem reg2_at (c : Dev nD) (r : Fin 50000) (q : Fin 256) :
    (dat2 (F := Ideal) V c).arrAt 5 cfg2.N (ix2 r q)
      = max (Spec.dense (V c (Pipeline.arrRef spec2 0)) (V c (Pipeline.arrRef spec2 1)) (V c (Pipeline.arrRef spec2 2))
          (V c (Pipeline.arrRef spec2 3)) (V c (Pipeline.arrRef spec2 4)) r q) 0 :=
  (congrFun ((dat2 V c).arrAt_eq_of_cover 5 (reg2_lay V c) (fun t _ => reg2_flushed V c t) reg2_cover) (ix2 r q)).trans
    (Spec.reluLayer_apply _ _ _ _ _ r q)

end Cert.KernelIdeal.Gen

end
-- ==== Proof.Reg3.lean ====
import proofs.«181152_j39822936769202_1_alg».proof.Proof.RegDense

noncomputable section

namespace Cert.KernelIdeal.Gen

open Idealize.ShloMosaic Idealize.ShloMosaic.TcCoe Idealize.ShloMosaic.ValueIdx Dense

variable (V : (c : Dev nD) → (b : Ref sig .tc) → Buf (Elt Ideal) ((c : Thread nD τ).loc b))

theorem reg3_idx : IdxFacts (N := grid3.N) win3_0.index win3_1.index win3_2.index win3_3.index
    win3_5.index win3_4.index := by decide +kernel

abbrev reg3_lay (c : Dev nD) : S50000x64.Idx → EReal :=
  Spec.sigLayer (V c (Pipeline.arrRef spec3 0)) (V c (Pipeline.arrRef spec3 1)) (V c (Pipeline.arrRef spec3 2))
    (V c (Pipeline.arrRef spec3 3)) (V c (Pipeline.arrRef spec3 4))

/-- Each window's block sits in its array where its index says, so what a point writes back is its block of the layer. -/
theorem reg3_flushed (c : Dev nD) (t : Fin cfg3.N) :
    (dat3 (F := Ideal) V c).flushed 5 t = ((cfg3.win 5).blk t).view.read (Elt Ideal) (reg3_lay V c) := by
  obtain ⟨a0, a1, b0, b1, c0, c1, d0, d1, e0, f0, f1⟩ := reg3_idx t
  show (cfg3.win 5).cut (grid3.coords t) ((dat3 V c).after 5 t) = _
  rw [after3_5]
  unfold out3_5
  rw [View.canon_unit_zero hz2]
  simp only [View.ld_unit_zero (S := S2000x256) hz2, View.ld_unit_zero (S := S256x64) hz2, View.ld_unit_zero (S := S64) hz1]
  funext j
  obtain ⟨p, q, rfl⟩ : ∃ (p : Fin 2000) (q : Fin 64), j = ix2 p q := ⟨j 0, j 1, eq_ix2 j⟩
  refine (sig_at _ _ _ _ _ p q).trans (congrArg Ideal.logistic (blk _ _ _ _ _ _ _ _ _ _ p q
    (((cfg3.win 5).blk t).view.emb (ix2 p q)) (col_eq f1) (fun k => ?_) (fun k => ?_) ?_ ?_ ?_))
  · exact congrArg (V c (Pipeline.arrRef spec3 0)) (Shape.idx_ext₂ (row_eq a0 f0) (col_eq a1))
  · exact congrArg (V c (Pipeline.arrRef spec3 1)) (Shape.idx_ext₂ (row_eq b0 f0) (col_eq b1))
  · exact funext fun j => congrArg (V c (Pipeline.arrRef spec3 2)) (Shape.idx_ext₂ (col_eq c0) (col_eq c1))
  · exact funext fun j => congrArg (V c (Pipeline.arrRef spec3 3)) (Shape.idx_ext₂ (col_eq d0) (col_eq d1))
  · exact funext fun j => congrArg (V c (Pipeline.arrRef spec3 4)) (funext fun a => Fin.ext (match a with | ⟨0, _⟩ => col_eq e0))

/-- Row r of the output lies in the block of point r / 2000. -/
theorem reg3_cover (i : S50000x64.Idx) :
    ∃ t : Fin cfg3.N, (cfg3.win 5).flush t = true ∧ i ∈ ((cfg3.win 5).blk t).view.set := by
  have hi : (i 0).val < 50000 := (i 0).isLt
  have ht : (i 0).val / 2000 < cfg3.N := lt_of_lt_of_eq (by omega) N_3.symm
  obtain ⟨-, -, -, -, -, -, -, -, -, f0, f1⟩ := reg3_idx ⟨_, ht⟩
  refine ⟨⟨_, ht⟩, flush3_5 _, ?_⟩
  show i ∈ ((View.whole (Pipeline.arrRef spec3 5)).slice (win3_5.rect ⟨_, ht⟩)).set
  rw [View.set_slice_whole, Rect.mem_set_unit]
  intro a
  match a with
  | ⟨0, _⟩ => exact row_mem (B := 2000) (by omega) f0
  | ⟨1, _⟩ => exact col_mem (C := 64) f1 (i 1).isLt

theorem reg3_at (c : Dev nD) (r : Fin 50000) (q : Fin 64) :
    (dat3 (F := Ideal) V c).arrAt 5 cfg3.N (ix2 r q)
      = Ideal.logistic (Spec.dense (V c (Pipeline.arrRef spec3 0)) (V c (Pipeline.arrRef spec3 1))
          (V c (Pipeline.arrRef spec3 2)) (V c (Pipeline.arrRef spec3 3)) (V c (Pipeline.arrRef spec3 4)) r q) :=
  (congrFun ((dat3 V c).arrAt_eq_of_cover 5 (reg3_lay V c) (fun t _ => reg3_flushed V c t) reg3_cover) (ix2 r q)).trans
    (Spec.sigLayer_apply _ _ _ _ _ r q)

end Cert.KernelIdeal.Gen

end
-- ==== Proof.ChainA.lean ====
import proofs.«181152_j39822936769202_1_alg».proof.Proof.Gen.KernelIdeal.Frame
import proofs.«181152_j39822936769202_1_alg».proof.Proof.Spec
import proofs.«181152_j39822936769202_1_alg».proof.Proof.HeadMath
import proofs.«181152_j39822936769202_1_alg».proof.Proof.Vals
import proofs.«181152_j39822936769202_1_alg».proof.Proof.KVals
import proofs.«181152_j39822936769202_1_alg».proof.Proof.Carry
import proofs.«181152_j39822936769202_1_alg».proof.Proof.Reg0
import proofs.«181152_j39822936769202_1_alg».proof.Proof.Reg1
import proofs.«181152_j39822936769202_1_alg».proof.Proof.Reg2
import proofs.«181152_j39822936769202_1_alg».proof.Proof.Reg3
import Idealize.ShloMosaic.Lib.ValueIdx
import Idealize.ShloMosaic.Lib.StableHlo.Run

noncomputable section

namespace Cert.KernelIdeal.Gen

open Idealize.ShloMosaic Idealize.ShloMosaic.TcCoe Idealize.ShloMosaic.Tactic Idealize.ShloMosaic.ValueIdx Idealize.SL.Sem

variable (m : (ℓ : Loc nD τ sig) → Buf (Elt Ideal) ℓ) (ρ : Dev nD → PrngReg)

def lay0 (a : KVals.Args) (x : FVec Ideal S50000x128 .f32) : FVec Ideal S50000x128 .f32 :=
  Spec.reluLayer (Vals.agg128 a.es a.ed x) x a.Wl_i0 a.Wr_i0 a.bl_i0

def lay1 (a : KVals.Args) (x : FVec Ideal S50000x128 .f32) : FVec Ideal S50000x128 .f32 :=
  Spec.reluLayer (Vals.agg128 a.es a.ed x) x a.Wl_i1 a.Wr_i1 a.bl_i1

def layM (a : KVals.Args) (x : FVec Ideal S50000x256 .f32) : FVec Ideal S50000x256 .f32 :=
  Spec.reluLayer (Vals.agg256 a.es a.ed x) x a.Wl_m a.Wr_m a.bl_m

def layO (a : KVals.Args) (x : FVec Ideal S50000x256 .f32) : FVec Ideal S50000x64 .f32 :=
  Spec.sigLayer (Vals.agg256 a.es a.ed x) x a.Wl_o a.Wr_o a.bl_o

theorem hkOf_eq (a : KVals.Args) (x0 x1 : FVec Ideal S50000x128 .f32) :
    KVals.hkOf a x0 x1 = layO a (layM a (Vals.cat (lay0 a x0) (lay1 a x1))) := rfl

theorem relu_lift {R K C : Nat} {f : Spec.Mat R C} {agg x agg' x' : Spec.Mat R K} {wl wr wl' wr' : Spec.Mat K C}
    {bl bl' : Spec.Vc C}
    (h : ∀ (r : Fin R) (q : Fin C), f (ix2 r q) = max (Spec.dense agg x wl wr bl r q) 0)
    (e0 : agg = agg') (e1 : x = x') (e2 : wl = wl') (e3 : wr = wr') (e4 : bl = bl') :
    f = Spec.reluLayer agg' x' wl' wr' bl' := by
  subst e0 e1 e2 e3 e4
  funext j
  rw [eq_ix2 j]
  exact h (j 0) (j 1)

theorem sig_lift {R K C : Nat} {f : Spec.Mat R C} {agg x agg' x' : Spec.Mat R K} {wl wr wl' wr' : Spec.Mat K C}
    {bl bl' : Spec.Vc C}
    (h : ∀ (r : Fin R) (q : Fin C), f (ix2 r q) = Ideal.logistic (Spec.dense agg x wl wr bl r q))
    (e0 : agg = agg') (e1 : x = x') (e2 : wl = wl') (e3 : wr = wr') (e4 : bl = bl') :
    f = Spec.sigLayer agg' x' wl' wr' bl' := by
  subst e0 e1 e2 e3 e4
  funext j
  rw [eq_ix2 j]
  exact h (j 0) (j 1)

theorem chainA_invdeg (c : Dev nD) :
    W1 m ρ c (Proc.devRef .tc main_v8) = Vals.invdeg (m ((c.tc : Thread nD τ).loc main_arg2)) := by
  show StableHlo.after hostOps0 (W0 m ρ c) (Proc.devRef .tc main_v8) = _
  after_results_simp
  rfl

theorem W1_v10 (c : Dev nD) : W1 m ρ c (Proc.devRef .tc main_v10) = KVals.x00 (KVals.argsK m c) := by
  show StableHlo.after hostOps0 (W0 m ρ c) (Proc.devRef .tc main_v10) = _
  after_results_simp
  rfl

theorem W1_v12 (c : Dev nD) : W1 m ρ c (Proc.devRef .tc main_v12) = KVals.x01 (KVals.argsK m c) := by
  show StableHlo.after hostOps0 (W0 m ρ c) (Proc.devRef .tc main_v12) = _
  after_results_simp
  rfl

theorem W1_v24 (c : Dev nD) : W1 m ρ c (Proc.devRef .tc main_v24)
    = Vals.agg128 (KVals.argsK m c).es (KVals.argsK m c).ed (KVals.x00 (KVals.argsK m c)) := by
  show StableHlo.after hostOps0 (W0 m ρ c) (Proc.devRef .tc main_v24) = _
  after_results_simp
  rfl

theorem W2_v25 (c : Dev nD) : W2 m ρ c (Proc.devRef .tc main_v25) = lay0 (KVals.argsK m c) (KVals.x00 (KVals.argsK m c)) :=
  (W2_arr m ρ c 5).trans (relu_lift (reg0_at (V1 m ρ) c) (W1_v24 m ρ c) (W1_v10 m ρ c)
    (show W1 m ρ c (Proc.devRef .tc main_arg4) = (KVals.argsK m c).Wl_i0 by carryB; rfl)
    (show W1 m ρ c (Proc.devRef .tc main_arg6) = (KVals.argsK m c).Wr_i0 by carryB; rfl)
    (show W1 m ρ c (Proc.devRef .tc main_arg5) = (KVals.argsK m c).bl_i0 by carryB; rfl))

theorem iv2 (c : Dev nD) : W2 m ρ c (Proc.devRef .tc main_v8) = Vals.invdeg (KVals.argsK m c).ed := by carryB; exact chainA_invdeg m ρ c
theorem iv4 (c : Dev nD) : W4 m ρ c (Proc.devRef .tc main_v8) = Vals.invdeg (KVals.argsK m c).ed := by carryB; exact chainA_invdeg m ρ c
theorem iv6 (c : Dev nD) : W6 m ρ c (Proc.devRef .tc main_v8) = Vals.invdeg (KVals.argsK m c).ed := by carryB; exact chainA_invdeg m ρ c

theorem W3_v37 (c : Dev nD) : W3 m ρ c (Proc.devRef .tc main_v37)
    = Vals.agg128 (KVals.argsK m c).es (KVals.argsK m c).ed (KVals.x01 (KVals.argsK m c)) := by
  show StableHlo.after hostOps1 (W2 m ρ c) (Proc.devRef .tc main_v37) = _
  after_results_simp
  rw [iv2, show W2 m ρ c (Proc.devRef .tc main_v12) = KVals.x01 (KVals.argsK m c) by carryB; exact W1_v12 m ρ c]
  carryB
  rfl

theorem W4_v38 (c : Dev nD) : W4 m ρ c (Proc.devRef .tc main_v38) = lay1 (KVals.argsK m c) (KVals.x01 (KVals.argsK m c)) :=
  (W4_arr m ρ c 5).trans (relu_lift (reg1_at (V3 m ρ) c) (W3_v37 m ρ c)
    ((show W3 m ρ c (Proc.devRef .tc main_v12) = W1 m ρ c (Proc.devRef .tc main_v12) by carryB).trans (W1_v12 m ρ c))
    (show W3 m ρ c (Proc.devRef .tc main_arg7) = (KVals.argsK m c).Wl_i1 by carryB; rfl)
    (show W3 m ρ c (Proc.devRef .tc main_arg9) = (KVals.argsK m c).Wr_i1 by carryB; rfl)
    (show W3 m ρ c (Proc.devRef .tc main_arg8) = (KVals.argsK m c).bl_i1 by carryB; rfl))

theorem W4_v25 (c : Dev nD) : W4 m ρ c (Proc.devRef .tc main_v25) = lay0 (KVals.argsK m c) (KVals.x00 (KVals.argsK m c)) := by carryB; exact W2_v25 m ρ c

theorem W5_v39 (c : Dev nD) : W5 m ρ c (Proc.devRef .tc main_v39)
    = Vals.cat (lay0 (KVals.argsK m c) (KVals.x00 (KVals.argsK m c))) (lay1 (KVals.argsK m c) (KVals.x01 (KVals.argsK m c))) := by
  show StableHlo.after hostOps2 (W4 m ρ c) (Proc.devRef .tc main_v39) = _
  after_results_simp
  rw [W4_v25, W4_v38]
  rfl

theorem W5_v51 (c : Dev nD) : W5 m ρ c (Proc.devRef .tc main_v51)
    = Vals.agg256 (KVals.argsK m c).es (KVals.argsK m c).ed
        (Vals.cat (lay0 (KVals.argsK m c) (KVals.x00 (KVals.argsK m c))) (lay1 (KVals.argsK m c) (KVals.x01 (KVals.argsK m c)))) := by
  show StableHlo.after hostOps2 (W4 m ρ c) (Proc.devRef .tc main_v51) = _
  after_results_simp
  rw [W4_v25, W4_v38, iv4]
  carryB
  rfl

theorem W6_v52 (c : Dev nD) : W6 m ρ c (Proc.devRef .tc main_v52)
    = layM (KVals.argsK m c)
        (Vals.cat (lay0 (KVals.argsK m c) (KVals.x00 (KVals.argsK m c))) (lay1 (KVals.argsK m c) (KVals.x01 (KVals.argsK m c)))) :=
  (W6_arr m ρ c 5).trans (relu_lift (reg2_at (V5 m ρ) c) (W5_v51 m ρ c) (W5_v39 m ρ c)
    (show W5 m ρ c (Proc.devRef .tc main_arg10) = (KVals.argsK m c).Wl_m by carryB; rfl)
    (show W5 m ρ c (Proc.devRef .tc main_arg12) = (KVals.argsK m c).Wr_m by carryB; rfl)
    (show W5 m ρ c (Proc.devRef .tc main_arg11) = (KVals.argsK m c).bl_m by carryB; rfl))

theorem W7_v64 (c : Dev nD) : W7 m ρ c (Proc.devRef .tc main_v64)
    = Vals.agg256 (KVals.argsK m c).es (KVals.argsK m c).ed
        (layM (KVals.argsK m c)
          (Vals.cat (lay0 (KVals.argsK m c) (KVals.x00 (KVals.argsK m c))) (lay1 (KVals.argsK m c) (KVals.x01 (KVals.argsK m c))))) := by
  show StableHlo.after hostOps3 (W6 m ρ c) (Proc.devRef .tc main_v64) = _
  after_results_simp
  rw [W6_v52, iv6]
  carryB
  rfl

theorem W8_v65 (c : Dev nD) : W8 m ρ c (Proc.devRef .tc main_v65)
    = layO (KVals.argsK m c) (layM (KVals.argsK m c)
        (Vals.cat (lay0 (KVals.argsK m c) (KVals.x00 (KVals.argsK m c))) (lay1 (KVals.argsK m c) (KVals.x01 (KVals.argsK m c))))) :=
  (W8_arr m ρ c 5).trans (sig_lift (reg3_at (V7 m ρ) c) (W7_v64 m ρ c)
    ((show W7 m ρ c (Proc.devRef .tc main_v52) = W6 m ρ c (Proc.devRef .tc main_v52) by carryB).trans (W6_v52 m ρ c))
    (show W7 m ρ c (Proc.devRef .tc main_arg13) = (KVals.argsK m c).Wl_o by carryB; rfl)
    (show W7 m ρ c (Proc.devRef .tc main_arg15) = (KVals.argsK m c).Wr_o by carryB; rfl)
    (show W7 m ρ c (Proc.devRef .tc main_arg14) = (KVals.argsK m c).bl_o by carryB; rfl))

theorem chainA_hk0 (c : Dev nD) :
    W8 m ρ c (Proc.devRef .tc main_v65) = KVals.hk0 (KVals.argsK m c) :=
  (W8_v65 m ρ c).trans (hkOf_eq (KVals.argsK m c) (KVals.x00 (KVals.argsK m c)) (KVals.x01 (KVals.argsK m c))).symm

end Cert.KernelIdeal.Gen

end
-- ==== Proof.LibKeepdims.lean ====
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

theorem exp_apply {s : Shape} {φ : FTy} (x : FVec Ideal s φ) (i : s.Idx) : exp x i = Ideal.exp (x i) := rfl

theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.KernelLayers.lean ====
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import proofs.«181152_j39822936769202_1_alg».proof.Proof.Spec
import proofs.«181152_j39822936769202_1_alg».proof.Proof.LibDot
import proofs.«181152_j39822936769202_1_alg».proof.Proof.LibKeepdims

noncomputable section

open scoped BigOperators

namespace Cert.KernelLayers

open Idealize.ShloMosaic Idealize.ShloMosaic.ValueIdx

theorem bias_row_at {α : Type} {T C : Nat} (v : (⟨1, ![C]⟩ : Shape).Idx → α)
    (h1 : (⟨1, ![C]⟩ : Shape).ShapeCasts ⟨2, ![1, C]⟩) (h2 : (⟨2, ![1, C]⟩ : Shape).Broadcasts ⟨2, ![T, C]⟩)
    (p : Fin T) (q : Fin C) :
    broadcastTo ⟨2, ![T, C]⟩ (shapeCast ⟨2, ![1, C]⟩ v h1) h2 (ix2 p q) = v (ix1 q) := by
  refine (broadcastTo_apply _ h2 (ix2 p q) (ix2 (0 : Fin 1) q) fun a => ?_).trans
    (shapeCast_apply v h1 _ (ix1 q) ?_)
  · match a with
    | ⟨0, _⟩ => rfl
    | ⟨1, _⟩ =>
      show q.val = if C = 1 then 0 else q.val
      split
      · have := q.isLt; omega
      · rfl
  · rw [Shape.rowMajor_val_two, Shape.rowMajor_val_one]
    show q.val = 0 * C + q.val
    omega

theorem dense_tile_at {T K C : Nat} (d : DotDims ⟨2, ![T, K]⟩ ⟨2, ![K, C]⟩ ⟨2, ![T, C]⟩)
    (hl : d.lhsContracting = [1]) (hr : d.rhsContracting = [0]) (hln : d.lhsNonContracting = [0])
    (hrn : d.rhsNonContracting = [1]) (hlb : d.lhsBatch = []) (hrb : d.rhsBatch = [])
    (hTK : (⟨2, ![T, K]⟩ : Shape).ShapeCasts ⟨2, ![T, K]⟩) (hbits : FTy.bits .bf16 < FTy.bits .f32)
    (hC1 : (⟨1, ![C]⟩ : Shape).ShapeCasts ⟨2, ![1, C]⟩) (hbc : (⟨2, ![1, C]⟩ : Shape).Broadcasts ⟨2, ![T, C]⟩)
    (v0 v3 : FVec Ideal ⟨2, ![T, K]⟩ .f32) (v6 v8 : FVec Ideal ⟨2, ![K, C]⟩ .f32) (v13 : FVec Ideal ⟨1, ![C]⟩ .f32)
    (p : Fin T) (q : Fin C) :
    addf
        (addf
          (matmul d none (truncf .bf16 (shapeCast ⟨2, ![T, K]⟩ v0 hTK) hbits) (truncf .bf16 v6 hbits)
            (constant ⟨2, ![T, C]⟩ .f32 0x00000000#32))
          (matmul d none (truncf .bf16 (shapeCast ⟨2, ![T, K]⟩ v3 hTK) hbits) (truncf .bf16 v8 hbits)
            (constant ⟨2, ![T, C]⟩ .f32 0x00000000#32)))
        (broadcastTo ⟨2, ![T, C]⟩ (shapeCast ⟨2, ![1, C]⟩ v13 hC1) hbc) (ix2 p q)
      = Spec.dense v0 v3 v6 v8 v13 p q := by
  rw [shapeCast_self v0 hTK, shapeCast_self v3 hTK, addf_apply, addf_apply, bias_row_at v13 hC1 hbc p q]
  show FloatOps.matmul d none _ _ _ (ix2 p q) + FloatOps.matmul d none _ _ _ (ix2 p q) + _ = _
  rw [LibDot.matmul_zero_at d hl hr hln hrn hlb hrb, LibDot.matmul_zero_at d hl hr hln hrn hlb hrb]
  rfl

theorem relu_tile_at {T K C : Nat} (d : DotDims ⟨2, ![T, K]⟩ ⟨2, ![K, C]⟩ ⟨2, ![T, C]⟩)
    (hl : d.lhsContracting = [1]) (hr : d.rhsContracting = [0]) (hln : d.lhsNonContracting = [0])
    (hrn : d.rhsNonContracting = [1]) (hlb : d.lhsBatch = []) (hrb : d.rhsBatch = [])
    (hTK : (⟨2, ![T, K]⟩ : Shape).ShapeCasts ⟨2, ![T, K]⟩) (hbits : FTy.bits .bf16 < FTy.bits .f32)
    (hC1 : (⟨1, ![C]⟩ : Shape).ShapeCasts ⟨2, ![1, C]⟩) (hbc : (⟨2, ![1, C]⟩ : Shape).Broadcasts ⟨2, ![T, C]⟩)
    (v0 v3 : FVec Ideal ⟨2, ![T, K]⟩ .f32) (v6 v8 : FVec Ideal ⟨2, ![K, C]⟩ .f32) (v13 : FVec Ideal ⟨1, ![C]⟩ .f32)
    (p : Fin T) (q : Fin C) :
    maximumf
        (addf
          (addf
            (matmul d none (truncf .bf16 (shapeCast ⟨2, ![T, K]⟩ v0 hTK) hbits) (truncf .bf16 v6 hbits)
              (constant ⟨2, ![T, C]⟩ .f32 0x00000000#32))
            (matmul d none (truncf .bf16 (shapeCast ⟨2, ![T, K]⟩ v3 hTK) hbits) (truncf .bf16 v8 hbits)
              (constant ⟨2, ![T, C]⟩ .f32 0x00000000#32)))
          (broadcastTo ⟨2, ![T, C]⟩ (shapeCast ⟨2, ![1, C]⟩ v13 hC1) hbc))
        (broadcast ⟨2, ![T, C]⟩ (Scalar.ofBits .f32 0x00000000#32)) (ix2 p q)
      = max (Spec.dense v0 v3 v6 v8 v13 p q) 0 := by
  rw [maximumf_apply, dense_tile_at d hl hr hln hrn hlb hrb hTK hbits hC1 hbc v0 v3 v6 v8 v13 p q, broadcast_apply]
  show max _ (Ideal.ofBits .f32 0x00000000#32) = _
  rw [Ideal.ofBits_zero_f32]

theorem sig_tile_at {T K C : Nat} (d : DotDims ⟨2, ![T, K]⟩ ⟨2, ![K, C]⟩ ⟨2, ![T, C]⟩)
    (hl : d.lhsContracting = [1]) (hr : d.rhsContracting = [0]) (hln : d.lhsNonContracting = [0])
    (hrn : d.rhsNonContracting = [1]) (hlb : d.lhsBatch = []) (hrb : d.rhsBatch = [])
    (hTK : (⟨2, ![T, K]⟩ : Shape).ShapeCasts ⟨2, ![T, K]⟩) (hbits : FTy.bits .bf16 < FTy.bits .f32)
    (hC1 : (⟨1, ![C]⟩ : Shape).ShapeCasts ⟨2, ![1, C]⟩) (hbc : (⟨2, ![1, C]⟩ : Shape).Broadcasts ⟨2, ![T, C]⟩)
    (v0 v3 : FVec Ideal ⟨2, ![T, K]⟩ .f32) (v6 v8 : FVec Ideal ⟨2, ![K, C]⟩ .f32) (v13 : FVec Ideal ⟨1, ![C]⟩ .f32)
    (p : Fin T) (q : Fin C) :
    logistic
        (addf
          (addf
            (matmul d none (truncf .bf16 (shapeCast ⟨2, ![T, K]⟩ v0 hTK) hbits) (truncf .bf16 v6 hbits)
              (constant ⟨2, ![T, C]⟩ .f32 0x00000000#32))
            (matmul d none (truncf .bf16 (shapeCast ⟨2, ![T, K]⟩ v3 hTK) hbits) (truncf .bf16 v8 hbits)
              (constant ⟨2, ![T, C]⟩ .f32 0x00000000#32)))
          (broadcastTo ⟨2, ![T, C]⟩ (shapeCast ⟨2, ![1, C]⟩ v13 hC1) hbc)) (ix2 p q)
      = Ideal.logistic (Spec.dense v0 v3 v6 v8 v13 p q) :=
  congrArg Ideal.logistic (dense_tile_at d hl hr hln hrn hlb hrb hTK hbits hC1 hbc v0 v3 v6 v8 v13 p q)

theorem rowMax_read {T C : Nat} (o : FVec Ideal ⟨2, ![T, C]⟩ .f32)
    (hred : (⟨2, ![T, C]⟩ : Shape).Reduces [1] ⟨1, ![T]⟩) (hφ : FKind.Formats FTy.f32)
    (hacc : (0xFF800000#32 : BitVec 32) = FKind.maximumf.neutral .f32 hφ) (p : Fin T) :
    multiReduction .maximumf [1] ⟨1, ![T]⟩ o 0xFF800000#32 hred hφ hacc (ix1 p) = Spec.rowMax o p := by
  refine (Ideal.multiReduction_maximumf_single o _ hred hφ hacc (ix1 p)).trans ?_
  have hb : Ideal.ofBits .f32 0xFF800000#32 = (⊥ : EReal) := by simp [Ideal.ofBits, Ideal.ieee]
  have hf : (o ∘ hred.lift (ix1 p)) = fun k : Fin C => o (ix2 p k) :=
    funext fun k => congrArg o (funext fun ax => Fin.ext (by
      match ax with
      | ⟨0, _⟩ => rfl
      | ⟨1, _⟩ => rfl))
  show Finset.fold max (Ideal.ofBits .f32 0xFF800000#32) (o ∘ hred.lift (ix1 p)) (Finset.univ : Finset (Fin C))
    = Finset.fold max ⊥ (fun q => o (ix2 p q)) Finset.univ
  rw [hb, hf]
  rfl

theorem col_spread_at {α : Type} {T C : Nat} (v : (⟨1, ![T]⟩ : Shape).Idx → α)
    (hT1 : (⟨1, ![T]⟩ : Shape).ShapeCasts ⟨2, ![T, 1]⟩) (hcol : (⟨2, ![T, 1]⟩ : Shape).Broadcasts ⟨2, ![T, C]⟩)
    (p : Fin T) (q : Fin C) :
    broadcastTo ⟨2, ![T, C]⟩ (shapeCast ⟨2, ![T, 1]⟩ v hT1) hcol (ix2 p q) = v (ix1 p) :=
  (broadcastTo_a1_ab_apply _ hcol p q).trans (shapeCast_a_a1_apply v hT1 p 0)

theorem head_row_at {T C : Nat} (o v36 : FVec Ideal ⟨2, ![T, C]⟩ .f32)
    (hred : (⟨2, ![T, C]⟩ : Shape).Reduces [1] ⟨1, ![T]⟩) (hφ : FKind.Formats FTy.f32)
    (haccM : (0xFF800000#32 : BitVec 32) = FKind.maximumf.neutral .f32 hφ)
    (haccA : (0x00000000#32 : BitVec 32) = FKind.add.neutral .f32 hφ)
    (hT1 : (⟨1, ![T]⟩ : Shape).ShapeCasts ⟨2, ![T, 1]⟩) (hcol : (⟨2, ![T, 1]⟩ : Shape).Broadcasts ⟨2, ![T, C]⟩)
    (hTC : (⟨2, ![T, C]⟩ : Shape).ShapeCasts ⟨2, ![T, C]⟩) (p : Fin T) :
    multiReduction .add [1] ⟨1, ![T]⟩
        (mulf (shapeCast ⟨2, ![T, C]⟩ v36 hTC)
          (subf
            (subf o (broadcastTo ⟨2, ![T, C]⟩
              (shapeCast ⟨2, ![T, 1]⟩ (multiReduction .maximumf [1] ⟨1, ![T]⟩ o 0xFF800000#32 hred hφ haccM) hT1) hcol))
            (broadcastTo ⟨2, ![T, C]⟩
              (log (shapeCast ⟨2, ![T, 1]⟩
                (multiReduction .add [1] ⟨1, ![T]⟩
                  (exp (subf o (broadcastTo ⟨2, ![T, C]⟩
                    (shapeCast ⟨2, ![T, 1]⟩ (multiReduction .maximumf [1] ⟨1, ![T]⟩ o 0xFF800000#32 hred hφ haccM) hT1) hcol)))
                  0x00000000#32 hred hφ haccA) hT1)) hcol)))
        0x00000000#32 hred hφ haccA (ix1 p)
      = ∑ q : Fin C, v36 (ix2 p q) * Spec.logp o p q := by
  have hshift : ∀ q : Fin C,
      subf o (broadcastTo ⟨2, ![T, C]⟩
        (shapeCast ⟨2, ![T, 1]⟩ (multiReduction .maximumf [1] ⟨1, ![T]⟩ o 0xFF800000#32 hred hφ haccM) hT1) hcol) (ix2 p q)
        = o (ix2 p q) - Spec.rowMax o p := fun q => by
    rw [subf_apply, col_spread_at _ hT1 hcol p q, rowMax_read o hred hφ haccM p]
  rw [multiReduction_add_rows_apply]
  refine Finset.sum_congr rfl fun q _ => ?_
  rw [mulf_apply, shapeCast_self v36 hTC, subf_apply, hshift q, broadcastTo_a1_ab_apply _ hcol p q]
  show v36 (ix2 p q) * (o (ix2 p q) - Spec.rowMax o p - Ideal.log (shapeCast ⟨2, ![T, 1]⟩ _ hT1 (ix2 p (0 : Fin 1)))) = _
  rw [shapeCast_a_a1_apply _ hT1 p 0, multiReduction_add_rows_apply]
  unfold Spec.logp
  refine congrArg (fun s => v36 (ix2 p q) * (o (ix2 p q) - Spec.rowMax o p - Ideal.log s)) ?_
  refine Finset.sum_congr rfl fun q' _ => ?_
  rw [exp_apply, hshift q']

abbrev headSig {T K C : Nat} (d : DotDims ⟨2, ![T, K]⟩ ⟨2, ![K, C]⟩ ⟨2, ![T, C]⟩)
    (hTK : (⟨2, ![T, K]⟩ : Shape).ShapeCasts ⟨2, ![T, K]⟩) (hKC : (⟨2, ![K, C]⟩ : Shape).ShapeCasts ⟨2, ![K, C]⟩)
    (hbits : FTy.bits .bf16 < FTy.bits .f32) (hCC : (⟨1, ![C]⟩ : Shape).ShapeCasts ⟨1, ![C]⟩)
    (hC1 : (⟨1, ![C]⟩ : Shape).ShapeCasts ⟨2, ![1, C]⟩) (hbc : (⟨2, ![1, C]⟩ : Shape).Broadcasts ⟨2, ![T, C]⟩)
    (v3 v6 : FVec Ideal ⟨2, ![T, K]⟩ .f32) (v9 v12 : FVec Ideal ⟨2, ![K, C]⟩ .f32) (v18 : FVec Ideal ⟨1, ![C]⟩ .f32) :
    FVec Ideal ⟨2, ![T, C]⟩ .f32 :=
  logistic
    (addf
      (addf
        (matmul d none (truncf .bf16 (shapeCast ⟨2, ![T, K]⟩ v3 hTK) hbits) (truncf .bf16 (shapeCast ⟨2, ![K, C]⟩ v9 hKC) hbits)
          (constant ⟨2, ![T, C]⟩ .f32 0x00000000#32))
        (matmul d none (truncf .bf16 (shapeCast ⟨2, ![T, K]⟩ v6 hTK) hbits) (truncf .bf16 (shapeCast ⟨2, ![K, C]⟩ v12 hKC) hbits)
          (constant ⟨2, ![T, C]⟩ .f32 0x00000000#32)))
      (broadcastTo ⟨2, ![T, C]⟩ (shapeCast ⟨2, ![1, C]⟩ (shapeCast ⟨1, ![C]⟩ v18 hCC) hC1) hbc))

theorem headSig_eq {T K C : Nat} (d : DotDims ⟨2, ![T, K]⟩ ⟨2, ![K, C]⟩ ⟨2, ![T, C]⟩)
    (hl : d.lhsContracting = [1]) (hr : d.rhsContracting = [0]) (hln : d.lhsNonContracting = [0])
    (hrn : d.rhsNonContracting = [1]) (hlb : d.lhsBatch = []) (hrb : d.rhsBatch = [])
    (hTK : (⟨2, ![T, K]⟩ : Shape).ShapeCasts ⟨2, ![T, K]⟩) (hKC : (⟨2, ![K, C]⟩ : Shape).ShapeCasts ⟨2, ![K, C]⟩)
    (hbits : FTy.bits .bf16 < FTy.bits .f32) (hCC : (⟨1, ![C]⟩ : Shape).ShapeCasts ⟨1, ![C]⟩)
    (hC1 : (⟨1, ![C]⟩ : Shape).ShapeCasts ⟨2, ![1, C]⟩) (hbc : (⟨2, ![1, C]⟩ : Shape).Broadcasts ⟨2, ![T, C]⟩)
    (v3 v6 : FVec Ideal ⟨2, ![T, K]⟩ .f32) (v9 v12 : FVec Ideal ⟨2, ![K, C]⟩ .f32) (v18 : FVec Ideal ⟨1, ![C]⟩ .f32) :
    headSig d hTK hKC hbits hCC hC1 hbc v3 v6 v9 v12 v18 = Spec.sigLayer v3 v6 v9 v12 v18 := by
  funext i
  obtain ⟨p, q, rfl⟩ : ∃ p q, i = ix2 p q := ⟨i 0, i 1, eq_ix2 i⟩
  unfold headSig
  rw [shapeCast_self v9 hKC, shapeCast_self v12 hKC, shapeCast_self v18 hCC]
  exact sig_tile_at d hl hr hln hrn hlb hrb hTK hbits hC1 hbc v3 v6 v9 v12 v18 p q

theorem head_tile_at {T K C : Nat} (d : DotDims ⟨2, ![T, K]⟩ ⟨2, ![K, C]⟩ ⟨2, ![T, C]⟩)
    (hl : d.lhsContracting = [1]) (hr : d.rhsContracting = [0]) (hln : d.lhsNonContracting = [0])
    (hrn : d.rhsNonContracting = [1]) (hlb : d.lhsBatch = []) (hrb : d.rhsBatch = [])
    (hTK : (⟨2, ![T, K]⟩ : Shape).ShapeCasts ⟨2, ![T, K]⟩) (hKC : (⟨2, ![K, C]⟩ : Shape).ShapeCasts ⟨2, ![K, C]⟩)
    (hbits : FTy.bits .bf16 < FTy.bits .f32) (hCC : (⟨1, ![C]⟩ : Shape).ShapeCasts ⟨1, ![C]⟩)
    (hC1 : (⟨1, ![C]⟩ : Shape).ShapeCasts ⟨2, ![1, C]⟩) (hbc : (⟨2, ![1, C]⟩ : Shape).Broadcasts ⟨2, ![T, C]⟩)
    (hred : (⟨2, ![T, C]⟩ : Shape).Reduces [1] ⟨1, ![T]⟩) (hφ : FKind.Formats FTy.f32)
    (haccM : (0xFF800000#32 : BitVec 32) = FKind.maximumf.neutral .f32 hφ)
    (haccA : (0x00000000#32 : BitVec 32) = FKind.add.neutral .f32 hφ)
    (hT1 : (⟨1, ![T]⟩ : Shape).ShapeCasts ⟨2, ![T, 1]⟩) (hcol : (⟨2, ![T, 1]⟩ : Shape).Broadcasts ⟨2, ![T, C]⟩)
    (hTC : (⟨2, ![T, C]⟩ : Shape).ShapeCasts ⟨2, ![T, C]⟩)
    (v3 v6 : FVec Ideal ⟨2, ![T, K]⟩ .f32) (v9 v12 : FVec Ideal ⟨2, ![K, C]⟩ .f32) (v18 : FVec Ideal ⟨1, ![C]⟩ .f32)
    (v36 : FVec Ideal ⟨2, ![T, C]⟩ .f32) (p : Fin T) :
    multiReduction .add [1] ⟨1, ![T]⟩
        (mulf (shapeCast ⟨2, ![T, C]⟩ v36 hTC)
          (subf
            (subf (headSig d hTK hKC hbits hCC hC1 hbc v3 v6 v9 v12 v18) (broadcastTo ⟨2, ![T, C]⟩
              (shapeCast ⟨2, ![T, 1]⟩ (multiReduction .maximumf [1] ⟨1, ![T]⟩ (headSig d hTK hKC hbits hCC hC1 hbc v3 v6 v9 v12 v18)
                0xFF800000#32 hred hφ haccM) hT1) hcol))
            (broadcastTo ⟨2, ![T, C]⟩
              (log (shapeCast ⟨2, ![T, 1]⟩
                (multiReduction .add [1] ⟨1, ![T]⟩
                  (exp (subf (headSig d hTK hKC hbits hCC hC1 hbc v3 v6 v9 v12 v18) (broadcastTo ⟨2, ![T, C]⟩
                    (shapeCast ⟨2, ![T, 1]⟩ (multiReduction .maximumf [1] ⟨1, ![T]⟩ (headSig d hTK hKC hbits hCC hC1 hbc v3 v6 v9 v12 v18)
                      0xFF800000#32 hred hφ haccM) hT1) hcol)))
                  0x00000000#32 hred hφ haccA) hT1)) hcol)))
        0x00000000#32 hred hφ haccA (ix1 p)
      = ∑ q : Fin C, v36 (ix2 p q) * Spec.logp (Spec.sigLayer v3 v6 v9 v12 v18) p q := by
  refine (head_row_at _ v36 hred hφ haccM haccA hT1 hcol hTC p).trans ?_
  rw [headSig_eq d hl hr hln hrn hlb hrb hTK hKC hbits hCC hC1 hbc v3 v6 v9 v12 v18]

theorem acc_update_at {T : Nat} (hT1 : (⟨1, ![T]⟩ : Shape).ShapeCasts ⟨2, ![T, 1]⟩)
    (hred0 : (⟨2, ![T, 1]⟩ : Shape).Reduces [0] ⟨1, ![1]⟩) (hφ : FKind.Formats FTy.f32)
    (haccA : (0x00000000#32 : BitVec 32) = FKind.add.neutral .f32 hφ)
    (h11 : (⟨1, ![1]⟩ : Shape).ShapeCasts ⟨2, ![1, 1]⟩) (hself : (⟨2, ![1, 1]⟩ : Shape).ShapeCasts ⟨2, ![1, 1]⟩)
    (v39 : FVec Ideal ⟨1, ![T]⟩ .f32) (v45 : FVec Ideal ⟨2, ![1, 1]⟩ .f32) (c : Ideal .f32) :
    addf (shapeCast ⟨2, ![1, 1]⟩ v45 hself)
        (mulf
          (shapeCast ⟨2, ![1, 1]⟩
            (multiReduction .add [0] ⟨1, ![1]⟩
              (subf (broadcast ⟨2, ![T, 1]⟩ (Scalar.ofBits .f32 0x00000000#32)) (shapeCast ⟨2, ![T, 1]⟩ v39 hT1))
              0x00000000#32 hred0 hφ haccA) h11)
          (broadcast ⟨2, ![1, 1]⟩ c)) (ix2 (0 : Fin 1) (0 : Fin 1))
      = v45 (ix2 (0 : Fin 1) (0 : Fin 1)) + (∑ p : Fin T, (0 - v39 (ix1 p))) * c := by
  rw [addf_apply, shapeCast_self v45 hself, mulf_apply, broadcast_apply, shapeCast_a_a1_apply _ h11 (0 : Fin 1) (0 : Fin 1)]
  refine congrArg (fun s => v45 (ix2 (0 : Fin 1) (0 : Fin 1)) + s * c) ?_
  refine (Ideal.multiReduction_add_single _ _ hred0 hφ haccA (ix1 (0 : Fin 1))).trans ?_
  show ∑ k : Fin T, _ = _
  refine Finset.sum_congr rfl fun k _ => ?_
  have hk : hred0.lift (ix1 (0 : Fin 1)) k = ix2 k (0 : Fin 1) := funext fun ax => Fin.ext (by
    match ax with
    | ⟨0, _⟩ => rfl
    | ⟨1, _⟩ => rfl)
  rw [hk, subf_apply, broadcast_apply, shapeCast_a_a1_apply v39 hT1 k 0]
  show Ideal.ofBits .f32 0x00000000#32 - _ = _
  rw [Ideal.ofBits_zero_f32]

theorem zero_splat_at :
    (broadcast ⟨2, ![1, 1]⟩ (Scalar.ofBits .f32 0x00000000#32 : Ideal .f32) : FVec Ideal ⟨2, ![1, 1]⟩ .f32)
      (ix2 (0 : Fin 1) (0 : Fin 1)) = 0 := by
  rw [broadcast_apply]
  exact Ideal.ofBits_zero_f32

theorem dense_row_congr {R R' K C : Nat} (agg x : Spec.Mat R K) (agg' x' : Spec.Mat R' K) (wl wr : Spec.Mat K C)
    (bl : Spec.Vc C) (r : Fin R) (r' : Fin R') (ha : ∀ k, agg (ix2 r k) = agg' (ix2 r' k))
    (hx : ∀ k, x (ix2 r k) = x' (ix2 r' k)) (q : Fin C) :
    Spec.dense agg x wl wr bl r q = Spec.dense agg' x' wl wr bl r' q := by
  have h1 : (∑ k : Fin K, agg (ix2 r k) * wl (ix2 k q)) = ∑ k : Fin K, agg' (ix2 r' k) * wl (ix2 k q) :=
    Finset.sum_congr rfl fun k _ => by rw [ha k]
  have h2 : (∑ k : Fin K, x (ix2 r k) * wr (ix2 k q)) = ∑ k : Fin K, x' (ix2 r' k) * wr (ix2 k q) :=
    Finset.sum_congr rfl fun k _ => by rw [hx k]
  unfold Spec.dense
  rw [h1, h2]

theorem rowMax_row_congr {R R' C : Nat} (o : Spec.Mat R C) (o' : Spec.Mat R' C) (r : Fin R) (r' : Fin R')
    (h : ∀ q, o (ix2 r q) = o' (ix2 r' q)) : Spec.rowMax o r = Spec.rowMax o' r' := by
  unfold Spec.rowMax
  exact congrArg (fun f => Finset.fold max ⊥ f Finset.univ) (funext h)

theorem logp_row_congr {R R' C : Nat} (o : Spec.Mat R C) (o' : Spec.Mat R' C) (r : Fin R) (r' : Fin R')
    (h : ∀ q, o (ix2 r q) = o' (ix2 r' q)) (q : Fin C) : Spec.logp o r q = Spec.logp o' r' q := by
  have hm := rowMax_row_congr o o' r r' h
  have hs : (∑ q' : Fin C, Ideal.exp (o (ix2 r q') - Spec.rowMax o r))
      = ∑ q' : Fin C, Ideal.exp (o' (ix2 r' q') - Spec.rowMax o' r') :=
    Finset.sum_congr rfl fun q' _ => by rw [h q', hm]
  unfold Spec.logp
  rw [hs, h q, hm]

end Cert.KernelLayers

end
-- ==== Proof.RegHead.lean ====
import Idealize.ShloMosaic.Lib.Pipeline.Value
import Idealize.ShloMosaic.Lib.ValueIdx
import Idealize.ShloMosaic.PureOps.Ideal.Laws
import Idealize.ShloMosaic.PureOps.IdealRules
import proofs.«181152_j39822936769202_1_alg».proof.Proof.Gen.KernelIdeal.Skeleton
import proofs.«181152_j39822936769202_1_alg».proof.Proof.Spec
import proofs.«181152_j39822936769202_1_alg».proof.Proof.HeadMath
import proofs.«181152_j39822936769202_1_alg».proof.Proof.KernelLayers

noncomputable section

namespace Cert.KernelIdeal.Gen.RegHead

open Idealize.ShloMosaic Idealize.ShloMosaic.ValueIdx
open scoped BigOperators

theorem hz : (![0, 0] : Fin 2 → Nat) = fun _ => 0 := funext fun a => by fin_cases a <;> rfl
theorem hz1 : (![0] : Fin 1 → Nat) = fun _ => 0 := funext fun a => by fin_cases a; rfl

theorem idx_ext₁ {n : Fin 1 → ℕ} {x y : (a : Fin 1) → Fin (n a)} (h : (x 0 : ℕ) = y 0) : x = y :=
  funext fun a => Fin.ext <| match a with | ⟨0, _⟩ => h

-- a 1 × 1 array has one index
theorem idx11_eq (x y : (⟨2, ![1, 1]⟩ : Shape).Idx) : x = y :=
  Shape.idx_ext₂ ((Nat.lt_one_iff.mp (x 0).isLt).trans (Nat.lt_one_iff.mp (y 0).isLt).symm)
    ((Nat.lt_one_iff.mp (x 1).isLt).trans (Nat.lt_one_iff.mp (y 1).isLt).symm)

-- block row n of T-row blocks, block column 0: local (p, k) sits at row T·n + p, column k
theorem idx_row {R K T : Nat} {x : (⟨2, ![R, K]⟩ : Shape).Idx} {i0 i1 : Nat} (n : Nat) (p : Fin T) (k : Fin K) (r : Fin R)
    (h0 : (x 0 : ℕ) = i0 * T + p) (h1 : (x 1 : ℕ) = i1 * K + k) (e0 : i0 = n) (e1 : i1 = 0)
    (hr : r.val = T * n + p.val) : x = ix2 r k :=
  Shape.idx_ext₂ (h0.trans (show i0 * T + p.val = r.val by rw [e0, hr, Nat.mul_comm n T]))
    (h1.trans (show i1 * K + k.val = k.val by rw [e1, Nat.zero_mul, Nat.zero_add]))

theorem inv_rows : Named.named (F := Ideal) κ "inv_50000" (φ := .f32) 0x37A7C5AC#32 = (((1 : ℝ) / 50000 : ℝ) : EReal) :=
  IdealRules.named_const.ideal_named_scalar _ _ _ _ rfl

-- the accumulator's update at its one entry: the old value plus the sum of the negated row values, times 1/50000
theorem pay1_at (v : FVec Ideal S2000 .f32) (a : Vec Ideal S1x1 .f32) :
    k4_pay1 v a (ix2 (0 : Fin 1) (0 : Fin 1))
      = a (ix2 0 0) + (∑ p : Fin 2000, (0 - v (ix1 p))) * (((1 : ℝ) / 50000 : ℝ) : EReal) := by
  unfold k4_pay1
  exact (Cert.KernelLayers.acc_update_at _ _ _ _ _ _ v a _).trans (by rw [inv_rows])

theorem pay2_at : k4_pay2 (F := Ideal) (ix2 (0 : Fin 1) (0 : Fin 1)) = 0 := by
  unfold k4_pay2
  exact Cert.KernelLayers.zero_splat_at

variable {C : Nat}

-- a row's pick reads only that row of the representations and of the labels
theorem tile_blocks (t : ℕ) (ht : t < 25) (b0 b1 : Spec.Mat 2000 64) (wl wr : Spec.Mat 64 C) (bl : Spec.Vc C)
    (b5 : Spec.Mat 2000 C) (A0 A1 : Spec.Mat 50000 64) (A5 : Spec.Mat 50000 C)
    (h0 : ∀ (p : Fin 2000) (k : Fin 64) (r : Fin 50000), r.val = 2000 * t + p.val → b0 (ix2 p k) = A0 (ix2 r k))
    (h1 : ∀ (p : Fin 2000) (k : Fin 64) (r : Fin 50000), r.val = 2000 * t + p.val → b1 (ix2 p k) = A1 (ix2 r k))
    (h5 : ∀ (p : Fin 2000) (q : Fin C) (r : Fin 50000), r.val = 2000 * t + p.val → b5 (ix2 p q) = A5 (ix2 r q)) :
    (∑ p : Fin 2000, (0 - ∑ q : Fin C, b5 (ix2 p q) * Spec.logp (Spec.sigLayer b0 b1 wl wr bl) p q))
        * (((1 : ℝ) / 50000 : ℝ) : EReal)
      = Spec.tile A5 (Spec.sigLayer A0 A1 wl wr bl) t := by
  unfold Spec.tile Spec.rowPick
  refine congrArg (· * _) (Finset.sum_congr rfl fun p _ => congrArg (0 - ·) (Finset.sum_congr rfl fun q _ => ?_))
  have hr : (Spec.rowOf t p).val = 2000 * t + p.val := Nat.mod_eq_of_lt (by have := p.isLt; omega)
  exact congrArg₂ (· * ·) (h5 p q _ hr) (Cert.KernelLayers.logp_row_congr _ (Spec.sigLayer A0 A1 wl wr bl) p (Spec.rowOf t p)
    (fun q' => congrArg Ideal.logistic (Cert.KernelLayers.dense_row_congr b0 b1 A0 A1 wl wr bl p (Spec.rowOf t p)
      (fun k => h0 p k _ hr) (fun k => h1 p k _ hr) q')) q)

-- by induction on the point: the reset's zero plus the first tile's term, then one term a point
theorem head_run {N : Nat} (hN : N = 25) (pay1 : Spec.Vc 2000 → Spec.Mat 1 1 → Spec.Mat 1 1) (pay2 : Spec.Mat 1 1)
    (pay3 : Spec.Mat 2000 64 → Spec.Mat 2000 64 → Spec.Mat 64 C → Spec.Mat 64 C → Spec.Vc C → Spec.Mat 2000 C → Spec.Vc 2000)
    (hp1 : ∀ v a, pay1 v a (ix2 (0 : Fin 1) (0 : Fin 1))
      = a (ix2 0 0) + (∑ p : Fin 2000, (0 - v (ix1 p))) * (((1 : ℝ) / 50000 : ℝ) : EReal))
    (hp2 : pay2 (ix2 (0 : Fin 1) (0 : Fin 1)) = 0)
    (hp3 : ∀ x0 x1 x2 x3 x4 x5 (p : Fin 2000), pay3 x0 x1 x2 x3 x4 x5 (ix1 p)
      = ∑ q : Fin C, x5 (ix2 p q) * Spec.logp (Spec.sigLayer x0 x1 x2 x3 x4) p q)
    (outs : (n : ℕ) → n < N → Spec.Mat 1 1)
    (b0 b1 : Fin N → Spec.Mat 2000 64) (b2 b3 : Fin N → Spec.Mat 64 C) (b4 : Fin N → Spec.Vc C) (b5 : Fin N → Spec.Mat 2000 C)
    (A0 A1 : Spec.Mat 50000 64) (A2 A3 : Spec.Mat 64 C) (A4 : Spec.Vc C) (A5 : Spec.Mat 50000 C)
    (hA : ∀ t : Fin N, t.val % 25 = 0 → outs t.val t.isLt = pay1 (pay3 (b0 t) (b1 t) (b2 t) (b3 t) (b4 t) (b5 t)) pay2)
    (hB : ∀ t : Fin N, ¬t.val % 25 = 0 → outs t.val t.isLt
      = pay1 (pay3 (b0 t) (b1 t) (b2 t) (b3 t) (b4 t) (b5 t)) (outs (t.val - 1) (Nat.lt_of_le_of_lt (Nat.sub_le _ _) t.isLt)))
    (h0 : ∀ (t : Fin N) (p : Fin 2000) (k : Fin 64) (r : Fin 50000), r.val = 2000 * t.val + p.val → b0 t (ix2 p k) = A0 (ix2 r k))
    (h1 : ∀ (t : Fin N) (p : Fin 2000) (k : Fin 64) (r : Fin 50000), r.val = 2000 * t.val + p.val → b1 t (ix2 p k) = A1 (ix2 r k))
    (h2 : ∀ t, b2 t = A2) (h3 : ∀ t, b3 t = A3) (h4 : ∀ t, b4 t = A4)
    (h5 : ∀ (t : Fin N) (p : Fin 2000) (q : Fin C) (r : Fin 50000), r.val = 2000 * t.val + p.val → b5 t (ix2 p q) = A5 (ix2 r q)) :
    ∀ (n : ℕ) (h : n < N), outs n h (ix2 (0 : Fin 1) (0 : Fin 1)) = Spec.acc (Spec.tile A5 (Spec.sigLayer A0 A1 A2 A3 A4)) n := by
  subst hN
  have upd : ∀ (t : Fin 25) (xo : Spec.Mat 1 1), pay1 (pay3 (b0 t) (b1 t) (b2 t) (b3 t) (b4 t) (b5 t)) xo (ix2 (0 : Fin 1) (0 : Fin 1))
      = xo (ix2 0 0) + Spec.tile A5 (Spec.sigLayer A0 A1 A2 A3 A4) t.val := fun t xo => by
    rw [hp1]
    simp only [hp3]
    rw [h2 t, h3 t, h4 t, tile_blocks t.val t.isLt (b0 t) (b1 t) A2 A3 A4 (b5 t) A0 A1 A5 (h0 t) (h1 t) (h5 t)]
  intro n
  induction n with
  | zero =>
    intro h
    refine (congrFun (hA ⟨0, h⟩ (Nat.zero_mod _)) _).trans ((upd ⟨0, h⟩ pay2).trans ?_)
    rw [hp2]
    rfl
  | succ n ih =>
    intro h
    refine (congrFun (hB ⟨n + 1, h⟩ fun e => Nat.succ_ne_zero n ((Nat.mod_eq_of_lt h).symm.trans e)) _).trans ((upd ⟨n + 1, h⟩ _).trans ?_)
    show outs n (Nat.lt_of_succ_lt h) (ix2 (0 : Fin 1) (0 : Fin 1)) + _ = _
    rw [ih]
    rfl

end Cert.KernelIdeal.Gen.RegHead

end
-- ==== Proof.Reg4.lean ====
import proofs.«181152_j39822936769202_1_alg».proof.Proof.Gen.KernelIdeal.Frame
import proofs.«181152_j39822936769202_1_alg».proof.Proof.RegHead

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat)
open scoped BigOperators

namespace Reg4

open RegHead (hz hz1)

section Pieces
variable {F : FTy → Type} [FloatOps F] [Named F] (c : Dev nD) (i : grid4.Coords)
  (a1 : Memref sig .tc .vmem S2000x64 .f32) (h1 : a1.IsWhole) (a2 : Memref sig .tc .vmem S2000x64 .f32) (h2 : a2.IsWhole)
  (a3 : Memref sig .tc .vmem S64x12 .f32) (h3 : a3.IsWhole) (a4 : Memref sig .tc .vmem S64x12 .f32) (h4 : a4.IsWhole)
  (a5 : Memref sig .tc .vmem S12 .f32) (h5 : a5.IsWhole) (a6 : Memref sig .tc .vmem S2000x12 .f32) (h6 : a6.IsWhole)
  (a7 : Memref sig .tc .vmem S1x1 .f32) (h7 : a7.IsWhole)
  (x0 x1 : Vec F S2000x64 .f32) (x2 x3 : Vec F S64x12 .f32) (x4 : Vec F S12 .f32) (x5 : Vec F S2000x12 .f32)

-- at a later point the body leaves the update of what the accumulator held
theorem piece_B (hc : ¬cond4_0 i) (xo : Vec F S1x1 .f32) :
    out4_B_6 c i a1 h1 a2 h2 a3 h3 a4 h4 a5 h5 a6 h6 a7 h7 hc x0 x1 x2 x3 x4 x5 xo = k4_pay1 (k4_pay3 x0 x1 x2 x3 x4 x5) xo := by
  unfold out4_B_6
  rw [View.read_writes_eq_canon _ _ _ (cover4_B_6 c i a1 h1 a2 h2 a3 h3 a4 h4 a5 h5 a6 h6 a7 h7 hc x0 x1 x2 x3 x4 x5 xo)]
  unfold kernelRun4_B
  dsimp only
  sl_unfold_words
  rw [View.canon_unit_zero (S := S1x1) hz]
  simp only [View.readAt_eq_ld, h1.read_unread, h2.read_unread, h3.read_unread, h4.read_unread, h5.read_unread,
    h6.read_unread, h7.read_unread, View.ld_unit_zero (S := S2000x64) hz, View.ld_unit_zero (S := S64x12) hz,
    View.ld_unit_zero (S := S12) hz1, View.ld_unit_zero (S := S2000x12) hz, View.ld_unit_zero (S := S1x1) hz]

-- at the first point the body leaves the update of the zero block
theorem piece_A (hc : cond4_0 i) :
    out4_A_6 c i a1 h1 a2 h2 a3 h3 a4 h4 a5 h5 a6 h6 a7 h7 hc x0 x1 x2 x3 x4 x5 = k4_pay1 (k4_pay3 x0 x1 x2 x3 x4 x5) (k4_pay2 (F := F)) := by
  unfold out4_A_6
  rw [View.read_writes_eq_canon _ _ _ (cover4_A_6 c i a1 h1 a2 h2 a3 h3 a4 h4 a5 h5 a6 h6 a7 h7 hc x0 x1 x2 x3 x4 x5)]
  unfold kernelRun4_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h6.read_unread, View.ld_unit_zero (S := S2000x64) hz, View.ld_unit_zero (S := S64x12) hz,
    View.ld_unit_zero (S := S12) hz1, View.ld_unit_zero (S := S2000x12) hz]

end Pieces

-- the printed index maps of the six input windows, decided over the grid
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ win4_4.index t (0 : Fin 1) = 0
    ∧ win4_5.index t (0 : Fin 2) = t.val ∧ win4_5.index t (1 : Fin 2) = 0 :=
  (by decide +kernel : ∀ t : Fin grid4.N, _)

theorem pay3_at (x0 x1 : Vec Ideal S2000x64 .f32) (x2 x3 : Vec Ideal S64x12 .f32) (x4 : Vec Ideal S12 .f32)
    (x5 : Vec Ideal S2000x12 .f32) (p : Fin 2000) :
    k4_pay3 x0 x1 x2 x3 x4 x5 (ix1 p) = ∑ q : Fin 12, x5 (ix2 p q) * Spec.logp (Spec.sigLayer x0 x1 x2 x3 x4) p q := by
  unfold k4_pay3
  exact Cert.KernelLayers.head_tile_at _ rfl rfl rfl rfl rfl rfl _ _ _ _ _ _ _ _ _ _ _ _ _ x0 x1 x2 x3 x4 x5 p

variable (V : (c : Dev nD) → (b : Ref sig .tc) → Buf (Elt Ideal) ((c : Thread nD τ).loc b)) (c : Dev nD)

-- an element of a block sits in the array at block index times block size plus its own coordinate
theorem blk0_at (t : Fin cfg4.N) (p : Fin 2000) (k : Fin 64) (r : Fin 50000) (hr : r.val = 2000 * t.val + p.val) :
    iblk4 V c 0 t (ix2 p k) = V c (Pipeline.arrRef spec4 0) (ix2 r k) := by
  show (V c (Pipeline.arrRef spec4 0) : Vec Ideal S50000x64 .f32) (((cfg4.win 0).blk t).view.emb (ix2 p k)) = _
  exact congrArg _ (RegHead.idx_row t.val p k r (win4_0.rect_emb_val t (ix2 p k) 0) (win4_0.rect_emb_val t (ix2 p k) 1)
    (idx_facts t).1.1 (idx_facts t).1.2 hr)

theorem blk1_at (t : Fin cfg4.N) (p : Fin 2000) (k : Fin 64) (r : Fin 50000) (hr : r.val = 2000 * t.val + p.val) :
    iblk4 V c 1 t (ix2 p k) = V c (Pipeline.arrRef spec4 1) (ix2 r k) := by
  show (V c (Pipeline.arrRef spec4 1) : Vec Ideal S50000x64 .f32) (((cfg4.win 1).blk t).view.emb (ix2 p k)) = _
  exact congrArg _ (RegHead.idx_row t.val p k r (win4_1.rect_emb_val t (ix2 p k) 0) (win4_1.rect_emb_val t (ix2 p k) 1)
    (idx_facts t).2.1.1 (idx_facts t).2.1.2 hr)

theorem blk5_at (t : Fin cfg4.N) (p : Fin 2000) (q : Fin 12) (r : Fin 50000) (hr : r.val = 2000 * t.val + p.val) :
    iblk4 V c 5 t (ix2 p q) = V c (Pipeline.arrRef spec4 5) (ix2 r q) := by
  show (V c (Pipeline.arrRef spec4 5) : Vec Ideal S50000x12 .f32) (((cfg4.win 5).blk t).view.emb (ix2 p q)) = _
  exact congrArg _ (RegHead.idx_row t.val p q r (win4_5.rect_emb_val t (ix2 p q) 0) (win4_5.rect_emb_val t (ix2 p q) 1)
    (idx_facts t).2.2.2.2.2.1 (idx_facts t).2.2.2.2.2.2 hr)

theorem blk2_eq (t : Fin cfg4.N) : iblk4 V c 2 t = V c (Pipeline.arrRef spec4 2) := by
  funext j
  show (V c (Pipeline.arrRef spec4 2) : Vec Ideal S64x12 .f32) (((cfg4.win 2).blk t).view.emb j) = _
  exact congrArg _ (Shape.idx_ext₂ (win4_2.rect_emb_val_of_index_zero t 0 (idx_facts t).2.2.1.1 j)
    (win4_2.rect_emb_val_of_index_zero t 1 (idx_facts t).2.2.1.2 j))

theorem blk3_eq (t : Fin cfg4.N) : iblk4 V c 3 t = V c (Pipeline.arrRef spec4 3) := by
  funext j
  show (V c (Pipeline.arrRef spec4 3) : Vec Ideal S64x12 .f32) (((cfg4.win 3).blk t).view.emb j) = _
  exact congrArg _ (Shape.idx_ext₂ (win4_3.rect_emb_val_of_index_zero t 0 (idx_facts t).2.2.2.1.1 j)
    (win4_3.rect_emb_val_of_index_zero t 1 (idx_facts t).2.2.2.1.2 j))

theorem blk4_eq (t : Fin cfg4.N) : iblk4 V c 4 t = V c (Pipeline.arrRef spec4 4) := by
  funext j
  show (V c (Pipeline.arrRef spec4 4) : Vec Ideal S12 .f32) (((cfg4.win 4).blk t).view.emb j) = _
  exact congrArg _ (RegHead.idx_ext₁ (win4_4.rect_emb_val_of_index_zero t 0 (idx_facts t).2.2.2.2.1 j))

theorem outsAt_eq (n : ℕ) (h : n < cfg4.N) :
    (outsAt4 V c n h : Vec Ideal S1x1 .f32) (ix2 (0 : Fin 1) (0 : Fin 1))
      = Spec.acc (Spec.tile (V c (Pipeline.arrRef spec4 5)) (Spec.sigLayer (V c (Pipeline.arrRef spec4 0)) (V c (Pipeline.arrRef spec4 1)) (V c (Pipeline.arrRef spec4 2)) (V c (Pipeline.arrRef spec4 3)) (V c (Pipeline.arrRef spec4 4)))) n :=
  RegHead.head_run N_4 (k4_pay1 (F := Ideal)) (k4_pay2 (F := Ideal)) (k4_pay3 (F := Ideal)) RegHead.pay1_at RegHead.pay2_at pay3_at
    (outsAt4 V c) (iblk4 V c 0) (iblk4 V c 1) (iblk4 V c 2) (iblk4 V c 3) (iblk4 V c 4) (iblk4 V c 5) _ _ _ _ _ _
    (fun t h0 => (outsAt4_A V c t h0).trans
      (piece_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (iblk4 V c 0 t) (iblk4 V c 1 t) (iblk4 V c 2 t) (iblk4 V c 3 t) (iblk4 V c 4 t) (iblk4 V c 5 t) ((hcond4_0 t).mpr h0)))
    (fun t h0 => (outsAt4_B V c t h0).trans
      (piece_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (iblk4 V c 0 t) (iblk4 V c 1 t) (iblk4 V c 2 t) (iblk4 V c 3 t) (iblk4 V c 4 t) (iblk4 V c 5 t) (fun hh => h0 ((hcond4_0 t).mp hh)) _))
    (blk0_at V c) (blk1_at V c) (blk2_eq V c) (blk3_eq V c) (blk4_eq V c) (blk5_at V c) n h

abbrev tLast : Fin cfg4.N := ⟨24, lt_of_lt_of_eq (by decide : 24 < 25) N_4.symm⟩

-- only the last point writes back, and the 1 × 1 array has one index
theorem final : (dat4 V c).arrAt 6 cfg4.N = outsAt4 V c 24 tLast.isLt :=
  (dat4 V c).arrAt_eq_of_cover 6 (outsAt4 V c 24 tLast.isLt)
    (fun t hf => by
      obtain rfl : t = tLast :=
        Fin.ext ((Nat.mod_eq_of_lt (lt_of_lt_of_eq t.isLt (show cfg4.N = 25 from N_4))).symm.trans ((flush4_6 t).mp hf))
      show (cfg4.win 6).cut (grid4.coords tLast) ((dat4 V c).after 6 tLast) = _
      rw [after4_6]
      funext j
      exact congrArg (outsAt4 V c 24 tLast.isLt : Vec Ideal S1x1 .f32) (RegHead.idx11_eq _ _))
    (fun i => ⟨tLast, (flush4_6 tLast).mpr rfl, by
      have h := ((cfg4.win 6).blk tLast).view.emb_mem_set i
      rwa [RegHead.idx11_eq (((cfg4.win 6).blk tLast).view.emb i) i] at h⟩)

end Reg4

theorem reg4_at (V : (c : Dev nD) → (b : Ref sig .tc) → Buf (Elt Ideal) ((c : Thread nD τ).loc b)) (c : Dev nD) :
    (dat4 (F := Ideal) V c).arrAt 6 cfg4.N (ix2 (0 : Fin 1) (0 : Fin 1))
      = Spec.headKernel (V c (Pipeline.arrRef spec4 5))
          (Spec.sigLayer (V c (Pipeline.arrRef spec4 0)) (V c (Pipeline.arrRef spec4 1)) (V c (Pipeline.arrRef spec4 2)) (V c (Pipeline.arrRef spec4 3)) (V c (Pipeline.arrRef spec4 4))) :=
  (congrFun (Reg4.final V c) (ix2 (0 : Fin 1) (0 : Fin 1))).trans (Reg4.outsAt_eq V c 24 (Reg4.tLast).isLt)

end Cert.KernelIdeal.Gen

end
-- ==== Proof.Reg5.lean ====
import proofs.«181152_j39822936769202_1_alg».proof.Proof.Gen.KernelIdeal.Frame
import proofs.«181152_j39822936769202_1_alg».proof.Proof.RegHead

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat)
open scoped BigOperators

namespace Reg5

open RegHead (hz hz1)

section Pieces
variable {F : FTy → Type} [FloatOps F] [Named F] (c : Dev nD) (i : grid5.Coords)
  (a1 : Memref sig .tc .vmem S2000x64 .f32) (h1 : a1.IsWhole) (a2 : Memref sig .tc .vmem S2000x64 .f32) (h2 : a2.IsWhole)
  (a3 : Memref sig .tc .vmem S64x8 .f32) (h3 : a3.IsWhole) (a4 : Memref sig .tc .vmem S64x8 .f32) (h4 : a4.IsWhole)
  (a5 : Memref sig .tc .vmem S8 .f32) (h5 : a5.IsWhole) (a6 : Memref sig .tc .vmem S2000x8 .f32) (h6 : a6.IsWhole)
  (a7 : Memref sig .tc .vmem S1x1 .f32) (h7 : a7.IsWhole)
  (x0 x1 : Vec F S2000x64 .f32) (x2 x3 : Vec F S64x8 .f32) (x4 : Vec F S8 .f32) (x5 : Vec F S2000x8 .f32)

-- at a later point the body leaves the update of what the accumulator held
theorem piece_B (hc : ¬cond5_0 i) (xo : Vec F S1x1 .f32) :
    out5_B_6 c i a1 h1 a2 h2 a3 h3 a4 h4 a5 h5 a6 h6 a7 h7 hc x0 x1 x2 x3 x4 x5 xo = k5_pay1 (k5_pay3 x0 x1 x2 x3 x4 x5) xo := by
  unfold out5_B_6
  rw [View.read_writes_eq_canon _ _ _ (cover5_B_6 c i a1 h1 a2 h2 a3 h3 a4 h4 a5 h5 a6 h6 a7 h7 hc x0 x1 x2 x3 x4 x5 xo)]
  unfold kernelRun5_B
  dsimp only
  sl_unfold_words
  rw [View.canon_unit_zero (S := S1x1) hz]
  simp only [View.readAt_eq_ld, h1.read_unread, h2.read_unread, h3.read_unread, h4.read_unread, h5.read_unread,
    h6.read_unread, h7.read_unread, View.ld_unit_zero (S := S2000x64) hz, View.ld_unit_zero (S := S64x8) hz,
    View.ld_unit_zero (S := S8) hz1, View.ld_unit_zero (S := S2000x8) hz, View.ld_unit_zero (S := S1x1) hz]

-- at the first point the body leaves the update of the zero block
theorem piece_A (hc : cond5_0 i) :
    out5_A_6 c i a1 h1 a2 h2 a3 h3 a4 h4 a5 h5 a6 h6 a7 h7 hc x0 x1 x2 x3 x4 x5 = k5_pay1 (k5_pay3 x0 x1 x2 x3 x4 x5) (k5_pay2 (F := F)) := by
  unfold out5_A_6
  rw [View.read_writes_eq_canon _ _ _ (cover5_A_6 c i a1 h1 a2 h2 a3 h3 a4 h4 a5 h5 a6 h6 a7 h7 hc x0 x1 x2 x3 x4 x5)]
  unfold kernelRun5_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h6.read_unread, View.ld_unit_zero (S := S2000x64) hz, View.ld_unit_zero (S := S64x8) hz,
    View.ld_unit_zero (S := S8) hz1, View.ld_unit_zero (S := S2000x8) hz]

end Pieces

-- the printed index maps of the six input windows, decided over the grid
theorem idx_facts : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ win5_4.index t (0 : Fin 1) = 0
    ∧ win5_5.index t (0 : Fin 2) = t.val ∧ win5_5.index t (1 : Fin 2) = 0 :=
  (by decide +kernel : ∀ t : Fin grid5.N, _)

theorem pay3_at (x0 x1 : Vec Ideal S2000x64 .f32) (x2 x3 : Vec Ideal S64x8 .f32) (x4 : Vec Ideal S8 .f32)
    (x5 : Vec Ideal S2000x8 .f32) (p : Fin 2000) :
    k5_pay3 x0 x1 x2 x3 x4 x5 (ix1 p) = ∑ q : Fin 8, x5 (ix2 p q) * Spec.logp (Spec.sigLayer x0 x1 x2 x3 x4) p q := by
  unfold k5_pay3
  exact Cert.KernelLayers.head_tile_at _ rfl rfl rfl rfl rfl rfl _ _ _ _ _ _ _ _ _ _ _ _ _ x0 x1 x2 x3 x4 x5 p

variable (V : (c : Dev nD) → (b : Ref sig .tc) → Buf (Elt Ideal) ((c : Thread nD τ).loc b)) (c : Dev nD)

-- an element of a block sits in the array at block index times block size plus its own coordinate
theorem blk0_at (t : Fin cfg5.N) (p : Fin 2000) (k : Fin 64) (r : Fin 50000) (hr : r.val = 2000 * t.val + p.val) :
    iblk5 V c 0 t (ix2 p k) = V c (Pipeline.arrRef spec5 0) (ix2 r k) := by
  show (V c (Pipeline.arrRef spec5 0) : Vec Ideal S50000x64 .f32) (((cfg5.win 0).blk t).view.emb (ix2 p k)) = _
  exact congrArg _ (RegHead.idx_row t.val p k r (win5_0.rect_emb_val t (ix2 p k) 0) (win5_0.rect_emb_val t (ix2 p k) 1)
    (idx_facts t).1.1 (idx_facts t).1.2 hr)

theorem blk1_at (t : Fin cfg5.N) (p : Fin 2000) (k : Fin 64) (r : Fin 50000) (hr : r.val = 2000 * t.val + p.val) :
    iblk5 V c 1 t (ix2 p k) = V c (Pipeline.arrRef spec5 1) (ix2 r k) := by
  show (V c (Pipeline.arrRef spec5 1) : Vec Ideal S50000x64 .f32) (((cfg5.win 1).blk t).view.emb (ix2 p k)) = _
  exact congrArg _ (RegHead.idx_row t.val p k r (win5_1.rect_emb_val t (ix2 p k) 0) (win5_1.rect_emb_val t (ix2 p k) 1)
    (idx_facts t).2.1.1 (idx_facts t).2.1.2 hr)

theorem blk5_at (t : Fin cfg5.N) (p : Fin 2000) (q : Fin 8) (r : Fin 50000) (hr : r.val = 2000 * t.val + p.val) :
    iblk5 V c 5 t (ix2 p q) = V c (Pipeline.arrRef spec5 5) (ix2 r q) := by
  show (V c (Pipeline.arrRef spec5 5) : Vec Ideal S50000x8 .f32) (((cfg5.win 5).blk t).view.emb (ix2 p q)) = _
  exact congrArg _ (RegHead.idx_row t.val p q r (win5_5.rect_emb_val t (ix2 p q) 0) (win5_5.rect_emb_val t (ix2 p q) 1)
    (idx_facts t).2.2.2.2.2.1 (idx_facts t).2.2.2.2.2.2 hr)

theorem blk2_eq (t : Fin cfg5.N) : iblk5 V c 2 t = V c (Pipeline.arrRef spec5 2) := by
  funext j
  show (V c (Pipeline.arrRef spec5 2) : Vec Ideal S64x8 .f32) (((cfg5.win 2).blk t).view.emb j) = _
  exact congrArg _ (Shape.idx_ext₂ (win5_2.rect_emb_val_of_index_zero t 0 (idx_facts t).2.2.1.1 j)
    (win5_2.rect_emb_val_of_index_zero t 1 (idx_facts t).2.2.1.2 j))

theorem blk3_eq (t : Fin cfg5.N) : iblk5 V c 3 t = V c (Pipeline.arrRef spec5 3) := by
  funext j
  show (V c (Pipeline.arrRef spec5 3) : Vec Ideal S64x8 .f32) (((cfg5.win 3).blk t).view.emb j) = _
  exact congrArg _ (Shape.idx_ext₂ (win5_3.rect_emb_val_of_index_zero t 0 (idx_facts t).2.2.2.1.1 j)
    (win5_3.rect_emb_val_of_index_zero t 1 (idx_facts t).2.2.2.1.2 j))

theorem blk4_eq (t : Fin cfg5.N) : iblk5 V c 4 t = V c (Pipeline.arrRef spec5 4) := by
  funext j
  show (V c (Pipeline.arrRef spec5 4) : Vec Ideal S8 .f32) (((cfg5.win 4).blk t).view.emb j) = _
  exact congrArg _ (RegHead.idx_ext₁ (win5_4.rect_emb_val_of_index_zero t 0 (idx_facts t).2.2.2.2.1 j))

theorem outsAt_eq (n : ℕ) (h : n < cfg5.N) :
    (outsAt5 V c n h : Vec Ideal S1x1 .f32) (ix2 (0 : Fin 1) (0 : Fin 1))
      = Spec.acc (Spec.tile (V c (Pipeline.arrRef spec5 5)) (Spec.sigLayer (V c (Pipeline.arrRef spec5 0)) (V c (Pipeline.arrRef spec5 1)) (V c (Pipeline.arrRef spec5 2)) (V c (Pipeline.arrRef spec5 3)) (V c (Pipeline.arrRef spec5 4)))) n :=
  RegHead.head_run N_5 (k5_pay1 (F := Ideal)) (k5_pay2 (F := Ideal)) (k5_pay3 (F := Ideal)) RegHead.pay1_at RegHead.pay2_at pay3_at
    (outsAt5 V c) (iblk5 V c 0) (iblk5 V c 1) (iblk5 V c 2) (iblk5 V c 3) (iblk5 V c 4) (iblk5 V c 5) _ _ _ _ _ _
    (fun t h0 => (outsAt5_A V c t h0).trans
      (piece_A c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (iblk5 V c 0 t) (iblk5 V c 1 t) (iblk5 V c 2 t) (iblk5 V c 3 t) (iblk5 V c 4 t) (iblk5 V c 5 t) ((hcond5_0 t).mpr h0)))
    (fun t h0 => (outsAt5_B V c t h0).trans
      (piece_B c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (iblk5 V c 0 t) (iblk5 V c 1 t) (iblk5 V c 2 t) (iblk5 V c 3 t) (iblk5 V c 4 t) (iblk5 V c 5 t) (fun hh => h0 ((hcond5_0 t).mp hh)) _))
    (blk0_at V c) (blk1_at V c) (blk2_eq V c) (blk3_eq V c) (blk4_eq V c) (blk5_at V c) n h

abbrev tLast : Fin cfg5.N := ⟨24, lt_of_lt_of_eq (by decide : 24 < 25) N_5.symm⟩

-- only the last point writes back, and the 1 × 1 array has one index
theorem final : (dat5 V c).arrAt 6 cfg5.N = outsAt5 V c 24 tLast.isLt :=
  (dat5 V c).arrAt_eq_of_cover 6 (outsAt5 V c 24 tLast.isLt)
    (fun t hf => by
      obtain rfl : t = tLast :=
        Fin.ext ((Nat.mod_eq_of_lt (lt_of_lt_of_eq t.isLt (show cfg5.N = 25 from N_5))).symm.trans ((flush5_6 t).mp hf))
      show (cfg5.win 6).cut (grid5.coords tLast) ((dat5 V c).after 6 tLast) = _
      rw [after5_6]
      funext j
      exact congrArg (outsAt5 V c 24 tLast.isLt : Vec Ideal S1x1 .f32) (RegHead.idx11_eq _ _))
    (fun i => ⟨tLast, (flush5_6 tLast).mpr rfl, by
      have h := ((cfg5.win 6).blk tLast).view.emb_mem_set i
      rwa [RegHead.idx11_eq (((cfg5.win 6).blk tLast).view.emb i) i] at h⟩)

end Reg5

theorem reg5_at (V : (c : Dev nD) → (b : Ref sig .tc) → Buf (Elt Ideal) ((c : Thread nD τ).loc b)) (c : Dev nD) :
    (dat5 (F := Ideal) V c).arrAt 6 cfg5.N (ix2 (0 : Fin 1) (0 : Fin 1))
      = Spec.headKernel (V c (Pipeline.arrRef spec5 5))
          (Spec.sigLayer (V c (Pipeline.arrRef spec5 0)) (V c (Pipeline.arrRef spec5 1)) (V c (Pipeline.arrRef spec5 2)) (V c (Pipeline.arrRef spec5 3)) (V c (Pipeline.arrRef spec5 4))) :=
  (congrFun (Reg5.final V c) (ix2 (0 : Fin 1) (0 : Fin 1))).trans (Reg5.outsAt_eq V c 24 (Reg5.tLast).isLt)

end Cert.KernelIdeal.Gen

end
-- ==== Proof.Reg6.lean ====
import proofs.«181152_j39822936769202_1_alg».proof.Proof.Gen.KernelIdeal.Frame
import proofs.«181152_j39822936769202_1_alg».proof.Proof.RegHead

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat)
open scoped BigOperators

namespace Reg6

open RegHead (hz hz1)

section Pieces
variable {F : FTy → Type} [FloatOps F] [Named F] (c : Dev nD) (i : grid6.Coords)
  (a1 : Memref sig .tc .vmem S2000x64 .f32) (h1 : a1.IsWhole) (a2 : Memref sig .tc .vmem S2000x64 .f32) (h2 : a2.IsWhole)
  (a3 : Memref sig .tc .vmem S64x5 .f32) (h3 : a3.IsWhole) (a4 : Memref sig .tc .vmem S64x5 .f32) (h4 : a4.IsWhole)
  (a5 : Memref sig .tc .vmem S5 .f32) (h5 : a5.IsWhole) (a6 : Memref sig .tc .vmem S2000x5 .f32) (h6 : a6.IsWhole)
  (a7 : Memref sig .tc .vmem S1x1 .f32) (h7 : a7.IsWhole)
  (x0 x1 : Vec F S2000x64 .f32) (x2 x3 : Vec F S64x5 .f32) (x4 : Vec F S5 .f32) (x5 : Vec F S2000x5 .f32)

-- at a later point the body leaves the update of what the accumulator held
theorem piece_B (hc : ¬cond6_0 i) (xo : Vec F S1x1 .f32) :
    out6_B_6 c i a1 h1 a2 h2 a3 h3 a4 h4 a5 h5 a6 h6 a7 h7 hc x0 x1 x2 x3 x4 x5 xo = k6_pay1 (k6_pay3 x0 x1 x2 x3 x4 x5) xo := by
  unfold out6_B_6
  rw [View.read_writes_eq_canon _ _ _ (cover6_B_6 c i a1 h1 a2 h2 a3 h3 a4 h4 a5 h5 a6 h6 a7 h7 hc x0 x1 x2 x3 x4 x5 xo)]
  unfold kernelRun6_B
  dsimp only
  sl_unfold_words
  rw [View.canon_unit_zero (S := S1x1) hz]
  simp only [View.readAt_eq_ld, h1.read_unread, h2.read_unread, h3.read_unread, h4.read_unread, h5.read_unread,
    h6.read_unread, h7.read_unread, View.ld_unit_zero (S := S2000x64) hz, View.ld_unit_zero (S := S64x5) hz,
    View.ld_unit_zero (S := S5) hz1, View.ld_unit_zero (S := S2000x5) hz, View.ld_unit_zero (S := S1x1) hz]

-- at the first point the body leaves the update of the zero block
theorem piece_A (hc : cond6_0 i) :
    out6_A_6 c i a1 h1 a2 h2 a3 h3 a4 h4 a5 h5 a6 h6 a7 h7 hc x0 x1 x2 x3 x4 x5 = k6_pay1 (k6_pay3 x0 x1 x2 x3 x4 x5) (k6_pay2 (F := F)) := by
  unfold out6_A_6
  rw [View.read_writes_eq_canon _ _ _ (cover6_A_6 c i a1 h1 a2 h2 a3 h3 a4 h4 a5 h5 a6 h6 a7 h7 hc x0 x1 x2 x3 x4 x5)]
  unfold kernelRun6_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h6.read_unread, View.ld_unit_zero (S := S2000x64) hz, View.ld_unit_zero (S := S64x5) hz,
    View.ld_unit_zero (S := S5) hz1, View.ld_unit_zero (S := S2000x5) hz]

end Pieces

-- the printed index maps of the six input windows, decided over the grid
theorem idx_facts : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ win6_4.index t (0 : Fin 1) = 0
    ∧ win6_5.index t (0 : Fin 2) = t.val ∧ win6_5.index t (1 : Fin 2) = 0 :=
  (by decide +kernel : ∀ t : Fin grid6.N, _)

theorem pay3_at (x0 x1 : Vec Ideal S2000x64 .f32) (x2 x3 : Vec Ideal S64x5 .f32) (x4 : Vec Ideal S5 .f32)
    (x5 : Vec Ideal S2000x5 .f32) (p : Fin 2000) :
    k6_pay3 x0 x1 x2 x3 x4 x5 (ix1 p) = ∑ q : Fin 5, x5 (ix2 p q) * Spec.logp (Spec.sigLayer x0 x1 x2 x3 x4) p q := by
  unfold k6_pay3
  exact Cert.KernelLayers.head_tile_at _ rfl rfl rfl rfl rfl rfl _ _ _ _ _ _ _ _ _ _ _ _ _ x0 x1 x2 x3 x4 x5 p

variable (V : (c : Dev nD) → (b : Ref sig .tc) → Buf (Elt Ideal) ((c : Thread nD τ).loc b)) (c : Dev nD)

-- an element of a block sits in the array at block index times block size plus its own coordinate
theorem blk0_at (t : Fin cfg6.N) (p : Fin 2000) (k : Fin 64) (r : Fin 50000) (hr : r.val = 2000 * t.val + p.val) :
    iblk6 V c 0 t (ix2 p k) = V c (Pipeline.arrRef spec6 0) (ix2 r k) := by
  show (V c (Pipeline.arrRef spec6 0) : Vec Ideal S50000x64 .f32) (((cfg6.win 0).blk t).view.emb (ix2 p k)) = _
  exact congrArg _ (RegHead.idx_row t.val p k r (win6_0.rect_emb_val t (ix2 p k) 0) (win6_0.rect_emb_val t (ix2 p k) 1)
    (idx_facts t).1.1 (idx_facts t).1.2 hr)

theorem blk1_at (t : Fin cfg6.N) (p : Fin 2000) (k : Fin 64) (r : Fin 50000) (hr : r.val = 2000 * t.val + p.val) :
    iblk6 V c 1 t (ix2 p k) = V c (Pipeline.arrRef spec6 1) (ix2 r k) := by
  show (V c (Pipeline.arrRef spec6 1) : Vec Ideal S50000x64 .f32) (((cfg6.win 1).blk t).view.emb (ix2 p k)) = _
  exact congrArg _ (RegHead.idx_row t.val p k r (win6_1.rect_emb_val t (ix2 p k) 0) (win6_1.rect_emb_val t (ix2 p k) 1)
    (idx_facts t).2.1.1 (idx_facts t).2.1.2 hr)

theorem blk5_at (t : Fin cfg6.N) (p : Fin 2000) (q : Fin 5) (r : Fin 50000) (hr : r.val = 2000 * t.val + p.val) :
    iblk6 V c 5 t (ix2 p q) = V c (Pipeline.arrRef spec6 5) (ix2 r q) := by
  show (V c (Pipeline.arrRef spec6 5) : Vec Ideal S50000x5 .f32) (((cfg6.win 5).blk t).view.emb (ix2 p q)) = _
  exact congrArg _ (RegHead.idx_row t.val p q r (win6_5.rect_emb_val t (ix2 p q) 0) (win6_5.rect_emb_val t (ix2 p q) 1)
    (idx_facts t).2.2.2.2.2.1 (idx_facts t).2.2.2.2.2.2 hr)

theorem blk2_eq (t : Fin cfg6.N) : iblk6 V c 2 t = V c (Pipeline.arrRef spec6 2) := by
  funext j
  show (V c (Pipeline.arrRef spec6 2) : Vec Ideal S64x5 .f32) (((cfg6.win 2).blk t).view.emb j) = _
  exact congrArg _ (Shape.idx_ext₂ (win6_2.rect_emb_val_of_index_zero t 0 (idx_facts t).2.2.1.1 j)
    (win6_2.rect_emb_val_of_index_zero t 1 (idx_facts t).2.2.1.2 j))

theorem blk3_eq (t : Fin cfg6.N) : iblk6 V c 3 t = V c (Pipeline.arrRef spec6 3) := by
  funext j
  show (V c (Pipeline.arrRef spec6 3) : Vec Ideal S64x5 .f32) (((cfg6.win 3).blk t).view.emb j) = _
  exact congrArg _ (Shape.idx_ext₂ (win6_3.rect_emb_val_of_index_zero t 0 (idx_facts t).2.2.2.1.1 j)
    (win6_3.rect_emb_val_of_index_zero t 1 (idx_facts t).2.2.2.1.2 j))

theorem blk4_eq (t : Fin cfg6.N) : iblk6 V c 4 t = V c (Pipeline.arrRef spec6 4) := by
  funext j
  show (V c (Pipeline.arrRef spec6 4) : Vec Ideal S5 .f32) (((cfg6.win 4).blk t).view.emb j) = _
  exact congrArg _ (RegHead.idx_ext₁ (win6_4.rect_emb_val_of_index_zero t 0 (idx_facts t).2.2.2.2.1 j))

theorem outsAt_eq (n : ℕ) (h : n < cfg6.N) :
    (outsAt6 V c n h : Vec Ideal S1x1 .f32) (ix2 (0 : Fin 1) (0 : Fin 1))
      = Spec.acc (Spec.tile (V c (Pipeline.arrRef spec6 5)) (Spec.sigLayer (V c (Pipeline.arrRef spec6 0)) (V c (Pipeline.arrRef spec6 1)) (V c (Pipeline.arrRef spec6 2)) (V c (Pipeline.arrRef spec6 3)) (V c (Pipeline.arrRef spec6 4)))) n :=
  RegHead.head_run N_6 (k6_pay1 (F := Ideal)) (k6_pay2 (F := Ideal)) (k6_pay3 (F := Ideal)) RegHead.pay1_at RegHead.pay2_at pay3_at
    (outsAt6 V c) (iblk6 V c 0) (iblk6 V c 1) (iblk6 V c 2) (iblk6 V c 3) (iblk6 V c 4) (iblk6 V c 5) _ _ _ _ _ _
    (fun t h0 => (outsAt6_A V c t h0).trans
      (piece_A c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (iblk6 V c 0 t) (iblk6 V c 1 t) (iblk6 V c 2 t) (iblk6 V c 3 t) (iblk6 V c 4 t) (iblk6 V c 5 t) ((hcond6_0 t).mpr h0)))
    (fun t h0 => (outsAt6_B V c t h0).trans
      (piece_B c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (iblk6 V c 0 t) (iblk6 V c 1 t) (iblk6 V c 2 t) (iblk6 V c 3 t) (iblk6 V c 4 t) (iblk6 V c 5 t) (fun hh => h0 ((hcond6_0 t).mp hh)) _))
    (blk0_at V c) (blk1_at V c) (blk2_eq V c) (blk3_eq V c) (blk4_eq V c) (blk5_at V c) n h

abbrev tLast : Fin cfg6.N := ⟨24, lt_of_lt_of_eq (by decide : 24 < 25) N_6.symm⟩

-- only the last point writes back, and the 1 × 1 array has one index
theorem final : (dat6 V c).arrAt 6 cfg6.N = outsAt6 V c 24 tLast.isLt :=
  (dat6 V c).arrAt_eq_of_cover 6 (outsAt6 V c 24 tLast.isLt)
    (fun t hf => by
      obtain rfl : t = tLast :=
        Fin.ext ((Nat.mod_eq_of_lt (lt_of_lt_of_eq t.isLt (show cfg6.N = 25 from N_6))).symm.trans ((flush6_6 t).mp hf))
      show (cfg6.win 6).cut (grid6.coords tLast) ((dat6 V c).after 6 tLast) = _
      rw [after6_6]
      funext j
      exact congrArg (outsAt6 V c 24 tLast.isLt : Vec Ideal S1x1 .f32) (RegHead.idx11_eq _ _))
    (fun i => ⟨tLast, (flush6_6 tLast).mpr rfl, by
      have h := ((cfg6.win 6).blk tLast).view.emb_mem_set i
      rwa [RegHead.idx11_eq (((cfg6.win 6).blk tLast).view.emb i) i] at h⟩)

end Reg6

theorem reg6_at (V : (c : Dev nD) → (b : Ref sig .tc) → Buf (Elt Ideal) ((c : Thread nD τ).loc b)) (c : Dev nD) :
    (dat6 (F := Ideal) V c).arrAt 6 cfg6.N (ix2 (0 : Fin 1) (0 : Fin 1))
      = Spec.headKernel (V c (Pipeline.arrRef spec6 5))
          (Spec.sigLayer (V c (Pipeline.arrRef spec6 0)) (V c (Pipeline.arrRef spec6 1)) (V c (Pipeline.arrRef spec6 2)) (V c (Pipeline.arrRef spec6 3)) (V c (Pipeline.arrRef spec6 4))) :=
  (congrFun (Reg6.final V c) (ix2 (0 : Fin 1) (0 : Fin 1))).trans (Reg6.outsAt_eq V c 24 (Reg6.tLast).isLt)

end Cert.KernelIdeal.Gen

end
-- ==== Proof.ChainA2.lean ====
import proofs.«181152_j39822936769202_1_alg».proof.Proof.ChainA
import proofs.«181152_j39822936769202_1_alg».proof.Proof.Reg4
import proofs.«181152_j39822936769202_1_alg».proof.Proof.Reg5
import proofs.«181152_j39822936769202_1_alg».proof.Proof.Reg6

noncomputable section

namespace Cert.KernelIdeal.Gen

open Idealize.ShloMosaic Idealize.ShloMosaic.TcCoe Idealize.ShloMosaic.Tactic Idealize.ShloMosaic.ValueIdx Idealize.SL.Sem

variable (m : (ℓ : Loc nD τ sig) → Buf (Elt Ideal) ℓ) (ρ : Dev nD → PrngReg)

theorem W8_v8 (c : Dev nD) : W8 m ρ c (Proc.devRef .tc main_v8) = Vals.invdeg (KVals.argsK m c).ed := by carryB; exact chainA_invdeg m ρ c

theorem W9_v77 (c : Dev nD) : W9 m ρ c (Proc.devRef .tc main_v77)
    = Vals.agg64 (KVals.argsK m c).es (KVals.argsK m c).ed (KVals.hk0 (KVals.argsK m c)) := by
  show StableHlo.after hostOps4 (W8 m ρ c) (Proc.devRef .tc main_v77) = _
  after_results_simp
  rw [W8_v8 m ρ c, chainA_hk0 m ρ c]
  carryB
  rfl

theorem W9_v79 (c : Dev nD) : W9 m ρ c (Proc.devRef .tc main_v79) = KVals.lab00 (KVals.argsK m c) := by
  show StableHlo.after hostOps4 (W8 m ρ c) (Proc.devRef .tc main_v79) = _
  after_results_simp
  carryB
  rfl

theorem headA_lift {C : Nat} {f : FVec Ideal S1x1 .f32} {oh oh' : Spec.Mat 50000 C} {agg x agg' x' : Spec.Mat 50000 64}
    {wl wr wl' wr' : Spec.Mat 64 C} {bl bl' : Spec.Vc C}
    (h : f (ix2 (0 : Fin 1) (0 : Fin 1)) = Spec.headKernel oh (Spec.sigLayer agg x wl wr bl))
    (e5 : oh = oh') (e0 : agg = agg') (e1 : x = x') (e2 : wl = wl') (e3 : wr = wr') (e4 : bl = bl') :
    f = fun _ => Spec.headKernel oh' (Spec.sigLayer agg' x' wl' wr' bl') := by
  subst e5 e0 e1 e2 e3 e4
  funext j
  have hj : j = ix2 (0 : Fin 1) (0 : Fin 1) := by
    funext a
    match a with
    | ⟨0, _⟩ => exact Fin.ext (Nat.lt_one_iff.mp (j 0).isLt)
    | ⟨1, _⟩ => exact Fin.ext (Nat.lt_one_iff.mp (j 1).isLt)
  rw [hj]; exact h

theorem W10_v80 (c : Dev nD) : W10 m ρ c (Proc.devRef .tc main_v80) = KVals.oh00 (KVals.argsK m c) := by
  show StableHlo.after hostOps4_1 (W9 m ρ c) (Proc.devRef .tc main_v80) = _
  after_results_simp
  carryB
  rfl

theorem W11_v82 (c : Dev nD) : W11 m ρ c (Proc.devRef .tc main_v82) = KVals.wl00 (KVals.argsK m c) := by
  show StableHlo.after hostOps4_2 (W10 m ρ c) (Proc.devRef .tc main_v82) = _
  after_results_simp
  carryB
  rfl
theorem W11_v84 (c : Dev nD) : W11 m ρ c (Proc.devRef .tc main_v84) = KVals.wr00 (KVals.argsK m c) := by
  show StableHlo.after hostOps4_2 (W10 m ρ c) (Proc.devRef .tc main_v84) = _
  after_results_simp
  carryB
  rfl
theorem W11_v86 (c : Dev nD) : W11 m ρ c (Proc.devRef .tc main_v86) = KVals.bl00 (KVals.argsK m c) := by
  show StableHlo.after hostOps4_2 (W10 m ρ c) (Proc.devRef .tc main_v86) = _
  after_results_simp
  carryB
  rfl

theorem W12_v87 (c : Dev nD) : W12 m ρ c (Proc.devRef .tc main_v87) = KVals.HK00 (KVals.argsK m c) :=
  (W12_arr m ρ c 6).trans (headA_lift (reg4_at (V11 m ρ) c)
    ((show W11 m ρ c (Proc.devRef .tc main_v80) = W10 m ρ c (Proc.devRef .tc main_v80) by carryB).trans (W10_v80 m ρ c))
    ((show W11 m ρ c (Proc.devRef .tc main_v77) = W9 m ρ c (Proc.devRef .tc main_v77) by carryB).trans (W9_v77 m ρ c))
    ((show W11 m ρ c (Proc.devRef .tc main_v65) = W8 m ρ c (Proc.devRef .tc main_v65) by carryB).trans (chainA_hk0 m ρ c))
    (W11_v82 m ρ c) (W11_v84 m ρ c) (W11_v86 m ρ c))

theorem W13_v89 (c : Dev nD) : W13 m ρ c (Proc.devRef .tc main_v89)
    = addf (constant (F := Ideal) S_ .f32 0x00000000#32) (shapeCast S_ (KVals.HK00 (KVals.argsK m c)) shapeCasts_S1x1_S_) := by
  show StableHlo.after hostOps5 (W12 m ρ c) (Proc.devRef .tc main_v89) = _
  after_results_simp
  rw [W12_v87 m ρ c]
  rfl

theorem W13_v91 (c : Dev nD) : W13 m ρ c (Proc.devRef .tc main_v91) = KVals.lab01 (KVals.argsK m c) := by
  show StableHlo.after hostOps5 (W12 m ρ c) (Proc.devRef .tc main_v91) = _
  after_results_simp
  carryB
  rfl

theorem W14_v92 (c : Dev nD) : W14 m ρ c (Proc.devRef .tc main_v92) = KVals.oh01 (KVals.argsK m c) := by
  show StableHlo.after hostOps5_1 (W13 m ρ c) (Proc.devRef .tc main_v92) = _
  after_results_simp
  carryB
  rfl

theorem W15_v94 (c : Dev nD) : W15 m ρ c (Proc.devRef .tc main_v94) = KVals.wl01 (KVals.argsK m c) := by
  show StableHlo.after hostOps5_2 (W14 m ρ c) (Proc.devRef .tc main_v94) = _
  after_results_simp
  carryB
  rfl
theorem W15_v96 (c : Dev nD) : W15 m ρ c (Proc.devRef .tc main_v96) = KVals.wr01 (KVals.argsK m c) := by
  show StableHlo.after hostOps5_2 (W14 m ρ c) (Proc.devRef .tc main_v96) = _
  after_results_simp
  carryB
  rfl
theorem W15_v98 (c : Dev nD) : W15 m ρ c (Proc.devRef .tc main_v98) = KVals.bl01 (KVals.argsK m c) := by
  show StableHlo.after hostOps5_2 (W14 m ρ c) (Proc.devRef .tc main_v98) = _
  after_results_simp
  carryB
  rfl

theorem W16_v99 (c : Dev nD) : W16 m ρ c (Proc.devRef .tc main_v99) = KVals.HK01 (KVals.argsK m c) :=
  (W16_arr m ρ c 6).trans (headA_lift (reg5_at (V15 m ρ) c)
    ((show W15 m ρ c (Proc.devRef .tc main_v92) = W14 m ρ c (Proc.devRef .tc main_v92) by carryB).trans (W14_v92 m ρ c))
    ((show W15 m ρ c (Proc.devRef .tc main_v77) = W9 m ρ c (Proc.devRef .tc main_v77) by carryB).trans (W9_v77 m ρ c))
    ((show W15 m ρ c (Proc.devRef .tc main_v65) = W8 m ρ c (Proc.devRef .tc main_v65) by carryB).trans (chainA_hk0 m ρ c))
    (W15_v94 m ρ c) (W15_v96 m ρ c) (W15_v98 m ρ c))

theorem W17_v101 (c : Dev nD) : W17 m ρ c (Proc.devRef .tc main_v101)
    = addf (addf (constant (F := Ideal) S_ .f32 0x00000000#32) (shapeCast S_ (KVals.HK00 (KVals.argsK m c)) shapeCasts_S1x1_S_))
        (shapeCast S_ (KVals.HK01 (KVals.argsK m c)) shapeCasts_S1x1_S_) := by
  show StableHlo.after hostOps6 (W16 m ρ c) (Proc.devRef .tc main_v101) = _
  after_results_simp
  rw [W16_v99 m ρ c,
    (show W16 m ρ c (Proc.devRef .tc main_v89) = W13 m ρ c (Proc.devRef .tc main_v89) by carryB).trans (W13_v89 m ρ c)]
  rfl

theorem W17_v103 (c : Dev nD) : W17 m ρ c (Proc.devRef .tc main_v103) = KVals.lab02 (KVals.argsK m c) := by
  show StableHlo.after hostOps6 (W16 m ρ c) (Proc.devRef .tc main_v103) = _
  after_results_simp
  carryB
  rfl

theorem W18_v104 (c : Dev nD) : W18 m ρ c (Proc.devRef .tc main_v104) = KVals.oh02 (KVals.argsK m c) := by
  show StableHlo.after hostOps6_1 (W17 m ρ c) (Proc.devRef .tc main_v104) = _
  after_results_simp
  carryB
  rfl

theorem W19_v106 (c : Dev nD) : W19 m ρ c (Proc.devRef .tc main_v106) = KVals.wl02 (KVals.argsK m c) := by
  show StableHlo.after hostOps6_2 (W18 m ρ c) (Proc.devRef .tc main_v106) = _
  after_results_simp
  carryB
  rfl
theorem W19_v108 (c : Dev nD) : W19 m ρ c (Proc.devRef .tc main_v108) = KVals.wr02 (KVals.argsK m c) := by
  show StableHlo.after hostOps6_2 (W18 m ρ c) (Proc.devRef .tc main_v108) = _
  after_results_simp
  carryB
  rfl
theorem W19_v110 (c : Dev nD) : W19 m ρ c (Proc.devRef .tc main_v110) = KVals.bl02 (KVals.argsK m c) := by
  show StableHlo.after hostOps6_2 (W18 m ρ c) (Proc.devRef .tc main_v110) = _
  after_results_simp
  carryB
  rfl

theorem chainA_head2 (c : Dev nD) : W20 m ρ c (Proc.devRef .tc main_v111) = KVals.HK02 (KVals.argsK m c) :=
  (W20_arr m ρ c 6).trans (headA_lift (reg6_at (V19 m ρ) c)
    ((show W19 m ρ c (Proc.devRef .tc main_v104) = W18 m ρ c (Proc.devRef .tc main_v104) by carryB).trans (W18_v104 m ρ c))
    ((show W19 m ρ c (Proc.devRef .tc main_v77) = W9 m ρ c (Proc.devRef .tc main_v77) by carryB).trans (W9_v77 m ρ c))
    ((show W19 m ρ c (Proc.devRef .tc main_v65) = W8 m ρ c (Proc.devRef .tc main_v65) by carryB).trans (chainA_hk0 m ρ c))
    (W19_v106 m ρ c) (W19_v108 m ρ c) (W19_v110 m ρ c))

theorem chainA_loss2 (c : Dev nD) : W20 m ρ c (Proc.devRef .tc main_v101)
    = addf (addf (constant (F := Ideal) S_ .f32 0x00000000#32) (shapeCast S_ (KVals.HK00 (KVals.argsK m c)) shapeCasts_S1x1_S_))
        (shapeCast S_ (KVals.HK01 (KVals.argsK m c)) shapeCasts_S1x1_S_) := by carryB; exact W17_v101 m ρ c

end Cert.KernelIdeal.Gen

end
-- ==== Proof.Reg7.lean ====
import proofs.«181152_j39822936769202_1_alg».proof.Proof.RegDense

noncomputable section

namespace Cert.KernelIdeal.Gen

open Idealize.ShloMosaic Idealize.ShloMosaic.TcCoe Idealize.ShloMosaic.ValueIdx Dense

variable (V : (c : Dev nD) → (b : Ref sig .tc) → Buf (Elt Ideal) ((c : Thread nD τ).loc b))

theorem reg7_idx : IdxFacts (N := grid7.N) win7_0.index win7_1.index win7_2.index win7_3.index
    win7_5.index win7_4.index := by decide +kernel

abbrev reg7_lay (c : Dev nD) : S50000x128.Idx → EReal :=
  Spec.reluLayer (V c (Pipeline.arrRef spec7 0)) (V c (Pipeline.arrRef spec7 1)) (V c (Pipeline.arrRef spec7 2))
    (V c (Pipeline.arrRef spec7 3)) (V c (Pipeline.arrRef spec7 4))

/-- Each window's block sits in its array where its index says, so what a point writes back is its block of the layer. -/
theorem reg7_flushed (c : Dev nD) (t : Fin cfg7.N) :
    (dat7 (F := Ideal) V c).flushed 5 t = ((cfg7.win 5).blk t).view.read (Elt Ideal) (reg7_lay V c) := by
  obtain ⟨a0, a1, b0, b1, c0, c1, d0, d1, e0, f0, f1⟩ := reg7_idx t
  show (cfg7.win 5).cut (grid7.coords t) ((dat7 V c).after 5 t) = _
  rw [after7_5]
  unfold out7_5
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  refine (relu128_at _ _ _ _ _ p q).trans (congrArg (max · 0) (blk _ _ _ _ _ _ _ _ _ _ p q
    (((cfg7.win 5).blk t).view.emb (ix2 p q)) (col_eq f1) (fun k => ?_) (fun k => ?_) ?_ ?_ ?_))
  · exact congrArg (V c (Pipeline.arrRef spec7 0)) (Shape.idx_ext₂ (row_eq a0 f0) (col_eq a1))
  · exact congrArg (V c (Pipeline.arrRef spec7 1)) (Shape.idx_ext₂ (row_eq b0 f0) (col_eq b1))
  · exact funext fun j => congrArg (V c (Pipeline.arrRef spec7 2)) (Shape.idx_ext₂ (col_eq c0) (col_eq c1))
  · exact funext fun j => congrArg (V c (Pipeline.arrRef spec7 3)) (Shape.idx_ext₂ (col_eq d0) (col_eq d1))
  · exact funext fun j => congrArg (V c (Pipeline.arrRef spec7 4)) (funext fun a => Fin.ext (match a with | ⟨0, _⟩ => col_eq e0))

/-- Row r of the output lies in the block of point r / 2000. -/
theorem reg7_cover (i : S50000x128.Idx) :
    ∃ t : Fin cfg7.N, (cfg7.win 5).flush t = true ∧ i ∈ ((cfg7.win 5).blk t).view.set := by
  have hi : (i 0).val < 50000 := (i 0).isLt
  have ht : (i 0).val / 2000 < cfg7.N := lt_of_lt_of_eq (by omega) N_7.symm
  obtain ⟨-, -, -, -, -, -, -, -, -, f0, f1⟩ := reg7_idx ⟨_, ht⟩
  refine ⟨⟨_, ht⟩, flush7_5 _, ?_⟩
  show i ∈ ((View.whole (Pipeline.arrRef spec7 5)).slice (win7_5.rect ⟨_, ht⟩)).set
  rw [View.set_slice_whole, Rect.mem_set_unit]
  intro a
  match a with
  | ⟨0, _⟩ => exact row_mem (B := 2000) (by omega) f0
  | ⟨1, _⟩ => exact col_mem (C := 128) f1 (i 1).isLt

theorem reg7_at (c : Dev nD) (r : Fin 50000) (q : Fin 128) :
    (dat7 (F := Ideal) V c).arrAt 5 cfg7.N (ix2 r q)
      = max (Spec.dense (V c (Pipeline.arrRef spec7 0)) (V c (Pipeline.arrRef spec7 1)) (V c (Pipeline.arrRef spec7 2))
          (V c (Pipeline.arrRef spec7 3)) (V c (Pipeline.arrRef spec7 4)) r q) 0 :=
  (congrFun ((dat7 V c).arrAt_eq_of_cover 5 (reg7_lay V c) (fun t _ => reg7_flushed V c t) reg7_cover) (ix2 r q)).trans
    (Spec.reluLayer_apply _ _ _ _ _ r q)

end Cert.KernelIdeal.Gen

end
-- ==== Proof.Reg8.lean ====
import proofs.«181152_j39822936769202_1_alg».proof.Proof.RegDense

noncomputable section

namespace Cert.KernelIdeal.Gen

open Idealize.ShloMosaic Idealize.ShloMosaic.TcCoe Idealize.ShloMosaic.ValueIdx Dense

variable (V : (c : Dev nD) → (b : Ref sig .tc) → Buf (Elt Ideal) ((c : Thread nD τ).loc b))

theorem reg8_idx : IdxFacts (N := grid8.N) win8_0.index win8_1.index win8_2.index win8_3.index
    win8_5.index win8_4.index := by decide +kernel

abbrev reg8_lay (c : Dev nD) : S50000x128.Idx → EReal :=
  Spec.reluLayer (V c (Pipeline.arrRef spec8 0)) (V c (Pipeline.arrRef spec8 1)) (V c (Pipeline.arrRef spec8 2))
    (V c (Pipeline.arrRef spec8 3)) (V c (Pipeline.arrRef spec8 4))

/-- Each window's block sits in its array where its index says, so what a point writes back is its block of the layer. -/
theorem reg8_flushed (c : Dev nD) (t : Fin cfg8.N) :
    (dat8 (F := Ideal) V c).flushed 5 t = ((cfg8.win 5).blk t).view.read (Elt Ideal) (reg8_lay V c) := by
  obtain ⟨a0, a1, b0, b1, c0, c1, d0, d1, e0, f0, f1⟩ := reg8_idx t
  show (cfg8.win 5).cut (grid8.coords t) ((dat8 V c).after 5 t) = _
  rw [after8_5]
  unfold out8_5
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  refine (relu128_at _ _ _ _ _ p q).trans (congrArg (max · 0) (blk _ _ _ _ _ _ _ _ _ _ p q
    (((cfg8.win 5).blk t).view.emb (ix2 p q)) (col_eq f1) (fun k => ?_) (fun k => ?_) ?_ ?_ ?_))
  · exact congrArg (V c (Pipeline.arrRef spec8 0)) (Shape.idx_ext₂ (row_eq a0 f0) (col_eq a1))
  · exact congrArg (V c (Pipeline.arrRef spec8 1)) (Shape.idx_ext₂ (row_eq b0 f0) (col_eq b1))
  · exact funext fun j => congrArg (V c (Pipeline.arrRef spec8 2)) (Shape.idx_ext₂ (col_eq c0) (col_eq c1))
  · exact funext fun j => congrArg (V c (Pipeline.arrRef spec8 3)) (Shape.idx_ext₂ (col_eq d0) (col_eq d1))
  · exact funext fun j => congrArg (V c (Pipeline.arrRef spec8 4)) (funext fun a => Fin.ext (match a with | ⟨0, _⟩ => col_eq e0))

/-- Row r of the output lies in the block of point r / 2000. -/
theorem reg8_cover (i : S50000x128.Idx) :
    ∃ t : Fin cfg8.N, (cfg8.win 5).flush t = true ∧ i ∈ ((cfg8.win 5).blk t).view.set := by
  have hi : (i 0).val < 50000 := (i 0).isLt
  have ht : (i 0).val / 2000 < cfg8.N := lt_of_lt_of_eq (by omega) N_8.symm
  obtain ⟨-, -, -, -, -, -, -, -, -, f0, f1⟩ := reg8_idx ⟨_, ht⟩
  refine ⟨⟨_, ht⟩, flush8_5 _, ?_⟩
  show i ∈ ((View.whole (Pipeline.arrRef spec8 5)).slice (win8_5.rect ⟨_, ht⟩)).set
  rw [View.set_slice_whole, Rect.mem_set_unit]
  intro a
  match a with
  | ⟨0, _⟩ => exact row_mem (B := 2000) (by omega) f0
  | ⟨1, _⟩ => exact col_mem (C := 128) f1 (i 1).isLt

theorem reg8_at (c : Dev nD) (r : Fin 50000) (q : Fin 128) :
    (dat8 (F := Ideal) V c).arrAt 5 cfg8.N (ix2 r q)
      = max (Spec.dense (V c (Pipeline.arrRef spec8 0)) (V c (Pipeline.arrRef spec8 1)) (V c (Pipeline.arrRef spec8 2))
          (V c (Pipeline.arrRef spec8 3)) (V c (Pipeline.arrRef spec8 4)) r q) 0 :=
  (congrFun ((dat8 V c).arrAt_eq_of_cover 5 (reg8_lay V c) (fun t _ => reg8_flushed V c t) reg8_cover) (ix2 r q)).trans
    (Spec.reluLayer_apply _ _ _ _ _ r q)

end Cert.KernelIdeal.Gen

end
-- ==== Proof.Reg9.lean ====
import proofs.«181152_j39822936769202_1_alg».proof.Proof.RegDense

noncomputable section

namespace Cert.KernelIdeal.Gen

open Idealize.ShloMosaic Idealize.ShloMosaic.TcCoe Idealize.ShloMosaic.ValueIdx Dense

variable (V : (c : Dev nD) → (b : Ref sig .tc) → Buf (Elt Ideal) ((c : Thread nD τ).loc b))

theorem reg9_idx : IdxFacts (N := grid9.N) win9_0.index win9_1.index win9_2.index win9_3.index
    win9_5.index win9_4.index := by decide +kernel

abbrev reg9_lay (c : Dev nD) : S50000x256.Idx → EReal :=
  Spec.reluLayer (V c (Pipeline.arrRef spec9 0)) (V c (Pipeline.arrRef spec9 1)) (V c (Pipeline.arrRef spec9 2))
    (V c (Pipeline.arrRef spec9 3)) (V c (Pipeline.arrRef spec9 4))

/-- Each window's block sits in its array where its index says, so what a point writes back is its block of the layer. -/
theorem reg9_flushed (c : Dev nD) (t : Fin cfg9.N) :
    (dat9 (F := Ideal) V c).flushed 5 t = ((cfg9.win 5).blk t).view.read (Elt Ideal) (reg9_lay V c) := by
  obtain ⟨a0, a1, b0, b1, c0, c1, d0, d1, e0, f0, f1⟩ := reg9_idx t
  show (cfg9.win 5).cut (grid9.coords t) ((dat9 V c).after 5 t) = _
  rw [after9_5]
  unfold out9_5
  rw [View.canon_unit_zero hz2]
  simp only [View.ld_unit_zero (S := S2000x256) hz2, View.ld_unit_zero (S := S256x256) hz2, View.ld_unit_zero (S := S256) hz1]
  funext j
  obtain ⟨p, q, rfl⟩ : ∃ (p : Fin 2000) (q : Fin 256), j = ix2 p q := ⟨j 0, j 1, eq_ix2 j⟩
  refine (relu256_at _ _ _ _ _ p q).trans (congrArg (max · 0) (blk _ _ _ _ _ _ _ _ _ _ p q
    (((cfg9.win 5).blk t).view.emb (ix2 p q)) (col_eq f1) (fun k => ?_) (fun k => ?_) ?_ ?_ ?_))
  · exact congrArg (V c (Pipeline.arrRef spec9 0)) (Shape.idx_ext₂ (row_eq a0 f0) (col_eq a1))
  · exact congrArg (V c (Pipeline.arrRef spec9 1)) (Shape.idx_ext₂ (row_eq b0 f0) (col_eq b1))
  · exact funext fun j => congrArg (V c (Pipeline.arrRef spec9 2)) (Shape.idx_ext₂ (col_eq c0) (col_eq c1))
  · exact funext fun j => congrArg (V c (Pipeline.arrRef spec9 3)) (Shape.idx_ext₂ (col_eq d0) (col_eq d1))
  · exact funext fun j => congrArg (V c (Pipeline.arrRef spec9 4)) (funext fun a => Fin.ext (match a with | ⟨0, _⟩ => col_eq e0))

/-- Row r of the output lies in the block of point r / 2000. -/
theorem reg9_cover (i : S50000x256.Idx) :
    ∃ t : Fin cfg9.N, (cfg9.win 5).flush t = true ∧ i ∈ ((cfg9.win 5).blk t).view.set := by
  have hi : (i 0).val < 50000 := (i 0).isLt
  have ht : (i 0).val / 2000 < cfg9.N := lt_of_lt_of_eq (by omega) N_9.symm
  obtain ⟨-, -, -, -, -, -, -, -, -, f0, f1⟩ := reg9_idx ⟨_, ht⟩
  refine ⟨⟨_, ht⟩, flush9_5 _, ?_⟩
  show i ∈ ((View.whole (Pipeline.arrRef spec9 5)).slice (win9_5.rect ⟨_, ht⟩)).set
  rw [View.set_slice_whole, Rect.mem_set_unit]
  intro a
  match a with
  | ⟨0, _⟩ => exact row_mem (B := 2000) (by omega) f0
  | ⟨1, _⟩ => exact col_mem (C := 256) f1 (i 1).isLt

theorem reg9_at (c : Dev nD) (r : Fin 50000) (q : Fin 256) :
    (dat9 (F := Ideal) V c).arrAt 5 cfg9.N (ix2 r q)
      = max (Spec.dense (V c (Pipeline.arrRef spec9 0)) (V c (Pipeline.arrRef spec9 1)) (V c (Pipeline.arrRef spec9 2))
          (V c (Pipeline.arrRef spec9 3)) (V c (Pipeline.arrRef spec9 4)) r q) 0 :=
  (congrFun ((dat9 V c).arrAt_eq_of_cover 5 (reg9_lay V c) (fun t _ => reg9_flushed V c t) reg9_cover) (ix2 r q)).trans
    (Spec.reluLayer_apply _ _ _ _ _ r q)

end Cert.KernelIdeal.Gen

end
-- ==== Proof.Reg10.lean ====
import proofs.«181152_j39822936769202_1_alg».proof.Proof.RegDense

noncomputable section

namespace Cert.KernelIdeal.Gen

open Idealize.ShloMosaic Idealize.ShloMosaic.TcCoe Idealize.ShloMosaic.ValueIdx Dense

variable (V : (c : Dev nD) → (b : Ref sig .tc) → Buf (Elt Ideal) ((c : Thread nD τ).loc b))

theorem reg10_idx : IdxFacts (N := grid10.N) win10_0.index win10_1.index win10_2.index win10_3.index
    win10_5.index win10_4.index := by decide +kernel

abbrev reg10_lay (c : Dev nD) : S50000x64.Idx → EReal :=
  Spec.sigLayer (V c (Pipeline.arrRef spec10 0)) (V c (Pipeline.arrRef spec10 1)) (V c (Pipeline.arrRef spec10 2))
    (V c (Pipeline.arrRef spec10 3)) (V c (Pipeline.arrRef spec10 4))

/-- Each window's block sits in its array where its index says, so what a point writes back is its block of the layer. -/
theorem reg10_flushed (c : Dev nD) (t : Fin cfg10.N) :
    (dat10 (F := Ideal) V c).flushed 5 t = ((cfg10.win 5).blk t).view.read (Elt Ideal) (reg10_lay V c) := by
  obtain ⟨a0, a1, b0, b1, c0, c1, d0, d1, e0, f0, f1⟩ := reg10_idx t
  show (cfg10.win 5).cut (grid10.coords t) ((dat10 V c).after 5 t) = _
  rw [after10_5]
  unfold out10_5
  rw [View.canon_unit_zero hz2]
  simp only [View.ld_unit_zero (S := S2000x256) hz2, View.ld_unit_zero (S := S256x64) hz2, View.ld_unit_zero (S := S64) hz1]
  funext j
  obtain ⟨p, q, rfl⟩ : ∃ (p : Fin 2000) (q : Fin 64), j = ix2 p q := ⟨j 0, j 1, eq_ix2 j⟩
  refine (sig_at _ _ _ _ _ p q).trans (congrArg Ideal.logistic (blk _ _ _ _ _ _ _ _ _ _ p q
    (((cfg10.win 5).blk t).view.emb (ix2 p q)) (col_eq f1) (fun k => ?_) (fun k => ?_) ?_ ?_ ?_))
  · exact congrArg (V c (Pipeline.arrRef spec10 0)) (Shape.idx_ext₂ (row_eq a0 f0) (col_eq a1))
  · exact congrArg (V c (Pipeline.arrRef spec10 1)) (Shape.idx_ext₂ (row_eq b0 f0) (col_eq b1))
  · exact funext fun j => congrArg (V c (Pipeline.arrRef spec10 2)) (Shape.idx_ext₂ (col_eq c0) (col_eq c1))
  · exact funext fun j => congrArg (V c (Pipeline.arrRef spec10 3)) (Shape.idx_ext₂ (col_eq d0) (col_eq d1))
  · exact funext fun j => congrArg (V c (Pipeline.arrRef spec10 4)) (funext fun a => Fin.ext (match a with | ⟨0, _⟩ => col_eq e0))

/-- Row r of the output lies in the block of point r / 2000. -/
theorem reg10_cover (i : S50000x64.Idx) :
    ∃ t : Fin cfg10.N, (cfg10.win 5).flush t = true ∧ i ∈ ((cfg10.win 5).blk t).view.set := by
  have hi : (i 0).val < 50000 := (i 0).isLt
  have ht : (i 0).val / 2000 < cfg10.N := lt_of_lt_of_eq (by omega) N_10.symm
  obtain ⟨-, -, -, -, -, -, -, -, -, f0, f1⟩ := reg10_idx ⟨_, ht⟩
  refine ⟨⟨_, ht⟩, flush10_5 _, ?_⟩
  show i ∈ ((View.whole (Pipeline.arrRef spec10 5)).slice (win10_5.rect ⟨_, ht⟩)).set
  rw [View.set_slice_whole, Rect.mem_set_unit]
  intro a
  match a with
  | ⟨0, _⟩ => exact row_mem (B := 2000) (by omega) f0
  | ⟨1, _⟩ => exact col_mem (C := 64) f1 (i 1).isLt

theorem reg10_at (c : Dev nD) (r : Fin 50000) (q : Fin 64) :
    (dat10 (F := Ideal) V c).arrAt 5 cfg10.N (ix2 r q)
      = Ideal.logistic (Spec.dense (V c (Pipeline.arrRef spec10 0)) (V c (Pipeline.arrRef spec10 1))
          (V c (Pipeline.arrRef spec10 2)) (V c (Pipeline.arrRef spec10 3)) (V c (Pipeline.arrRef spec10 4)) r q) :=
  (congrFun ((dat10 V c).arrAt_eq_of_cover 5 (reg10_lay V c) (fun t _ => reg10_flushed V c t) reg10_cover) (ix2 r q)).trans
    (Spec.sigLayer_apply _ _ _ _ _ r q)

end Cert.KernelIdeal.Gen

end
-- ==== Proof.ChainB.lean ====
import proofs.«181152_j39822936769202_1_alg».proof.Proof.Gen.KernelIdeal.Frame
import proofs.«181152_j39822936769202_1_alg».proof.Proof.KVals
import proofs.«181152_j39822936769202_1_alg».proof.Proof.Carry
import proofs.«181152_j39822936769202_1_alg».proof.Proof.Reg7
import proofs.«181152_j39822936769202_1_alg».proof.Proof.Reg8
import proofs.«181152_j39822936769202_1_alg».proof.Proof.Reg9
import proofs.«181152_j39822936769202_1_alg».proof.Proof.Reg10
import Idealize.ShloMosaic.Lib.StableHlo.Run
import Idealize.ShloMosaic.Lib.ValueIdx

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable (m : (ℓ : Loc nD τ sig) → Buf (Elt Ideal) ℓ) (ρ : Dev nD → PrngReg)

namespace ChainB

abbrev A (c : Dev nD) : KVals.Args := KVals.argsK m c

def h0 (a : KVals.Args) : FVec Ideal S50000x128 .f32 :=
  Spec.reluLayer (Vals.agg128 a.es a.ed (KVals.x10 a)) (KVals.x10 a) a.Wl_i0 a.Wr_i0 a.bl_i0

def h1 (a : KVals.Args) : FVec Ideal S50000x128 .f32 :=
  Spec.reluLayer (Vals.agg128 a.es a.ed (KVals.x11 a)) (KVals.x11 a) a.Wl_i1 a.Wr_i1 a.bl_i1

def xk (a : KVals.Args) : FVec Ideal S50000x256 .f32 := Vals.cat (h0 a) (h1 a)

def xk2 (a : KVals.Args) : FVec Ideal S50000x256 .f32 :=
  Spec.reluLayer (Vals.agg256 a.es a.ed (xk a)) (xk a) a.Wl_m a.Wr_m a.bl_m

theorem hk1_eq (a : KVals.Args) :
    KVals.hk1 a = Spec.sigLayer (Vals.agg256 a.es a.ed (xk2 a)) (xk2 a) a.Wl_o a.Wr_o a.bl_o := rfl

macro "carryB_rfl" : tactic => `(tactic| (carryB; all_goals rfl))

theorem B1_v8 (c : Dev nD) :
    @Eq (FVec Ideal S50000x1 .f32) (W1 m ρ c (Proc.devRef .tc main_v8)) (Vals.invdeg (A m c).ed) := by
  show StableHlo.after hostOps0 (W0 m ρ c) (Proc.devRef .tc main_v8) = _
  after_results_simp
  rfl

theorem B21_v113 (c : Dev nD) :
    @Eq (FVec Ideal S_ .f32) (W21 m ρ c (Proc.devRef .tc main_v113))
      (addf (W20 m ρ c (Proc.devRef .tc main_v101)) (shapeCast S_ (W20 m ρ c (Proc.devRef .tc main_v111)) shapeCasts_S1x1_S_)) := by
  show StableHlo.after hostOps7 (W20 m ρ c) (Proc.devRef .tc main_v113) = _
  after_results_simp
  rfl

theorem B20_arg0 (c : Dev nD) : @Eq (FVec Ideal S2x2x50000x128 .f32) (W20 m ρ c (Proc.devRef .tc main_arg0)) (A m c).X := by carryB_rfl
theorem B20_arg1 (c : Dev nD) : @Eq (IVec S800000 32) (W20 m ρ c (Proc.devRef .tc main_arg1)) (A m c).es := by carryB_rfl
theorem B20_arg2 (c : Dev nD) : @Eq (IVec S800000 32) (W20 m ρ c (Proc.devRef .tc main_arg2)) (A m c).ed := by carryB_rfl
theorem B20_v8 (c : Dev nD) : @Eq (FVec Ideal S50000x1 .f32) (W20 m ρ c (Proc.devRef .tc main_v8)) (Vals.invdeg (A m c).ed) := by
  carryB; exact B1_v8 m ρ c

theorem B21_v115 (c : Dev nD) : @Eq (FVec Ideal S50000x128 .f32) (W21 m ρ c (Proc.devRef .tc main_v115)) (KVals.x10 (A m c)) := by
  show StableHlo.after hostOps7 (W20 m ρ c) (Proc.devRef .tc main_v115) = _
  after_results_simp
  rw [B20_arg0]
  rfl

theorem B21_v117 (c : Dev nD) : @Eq (FVec Ideal S50000x128 .f32) (W21 m ρ c (Proc.devRef .tc main_v117)) (KVals.x11 (A m c)) := by
  show StableHlo.after hostOps7 (W20 m ρ c) (Proc.devRef .tc main_v117) = _
  after_results_simp
  rw [B20_arg0]
  rfl

theorem B21_v129 (c : Dev nD) :
    @Eq (FVec Ideal S50000x128 .f32) (W21 m ρ c (Proc.devRef .tc main_v129)) (Vals.agg128 (A m c).es (A m c).ed (KVals.x10 (A m c))) := by
  show StableHlo.after hostOps7 (W20 m ρ c) (Proc.devRef .tc main_v129) = _
  after_results_simp
  rw [B20_arg0, B20_arg1, B20_arg2, B20_v8]
  rfl

theorem B21_arg4 (c : Dev nD) : @Eq (FVec Ideal S128x128 .f32) (W21 m ρ c (Proc.devRef .tc main_arg4)) (A m c).Wl_i0 := by carryB_rfl
theorem B21_arg6 (c : Dev nD) : @Eq (FVec Ideal S128x128 .f32) (W21 m ρ c (Proc.devRef .tc main_arg6)) (A m c).Wr_i0 := by carryB_rfl
theorem B21_arg5 (c : Dev nD) : @Eq (FVec Ideal S128 .f32) (W21 m ρ c (Proc.devRef .tc main_arg5)) (A m c).bl_i0 := by carryB_rfl

theorem B22_v130 (c : Dev nD) : @Eq (FVec Ideal S50000x128 .f32) (W22 m ρ c (Proc.devRef .tc main_v130)) (h0 (A m c)) := by
  refine (W22_arr m ρ c 5).trans ?_
  funext j
  obtain ⟨r, q, rfl⟩ : ∃ r q, j = ix2 r q := ⟨j 0, j 1, eq_ix2 j⟩
  refine (reg7_at (V21 m ρ) c r q).trans ?_
  rw [show V21 m ρ c (Pipeline.arrRef spec7 0) = _ from B21_v129 m ρ c,
    show V21 m ρ c (Pipeline.arrRef spec7 1) = _ from B21_v115 m ρ c,
    show V21 m ρ c (Pipeline.arrRef spec7 2) = _ from B21_arg4 m ρ c,
    show V21 m ρ c (Pipeline.arrRef spec7 3) = _ from B21_arg6 m ρ c,
    show V21 m ρ c (Pipeline.arrRef spec7 4) = _ from B21_arg5 m ρ c]
  rfl

theorem B22_arg1 (c : Dev nD) : @Eq (IVec S800000 32) (W22 m ρ c (Proc.devRef .tc main_arg1)) (A m c).es := by carryB_rfl
theorem B22_arg2 (c : Dev nD) : @Eq (IVec S800000 32) (W22 m ρ c (Proc.devRef .tc main_arg2)) (A m c).ed := by carryB_rfl
theorem B22_v8 (c : Dev nD) : @Eq (FVec Ideal S50000x1 .f32) (W22 m ρ c (Proc.devRef .tc main_v8)) (Vals.invdeg (A m c).ed) := by
  carryB; exact B1_v8 m ρ c
theorem B22_v117 (c : Dev nD) : @Eq (FVec Ideal S50000x128 .f32) (W22 m ρ c (Proc.devRef .tc main_v117)) (KVals.x11 (A m c)) := by
  carryB; exact B21_v117 m ρ c

theorem B23_v142 (c : Dev nD) :
    @Eq (FVec Ideal S50000x128 .f32) (W23 m ρ c (Proc.devRef .tc main_v142)) (Vals.agg128 (A m c).es (A m c).ed (KVals.x11 (A m c))) := by
  show StableHlo.after hostOps8 (W22 m ρ c) (Proc.devRef .tc main_v142) = _
  after_results_simp
  rw [B22_arg1, B22_arg2, B22_v8, B22_v117]
  rfl

theorem B23_arg7 (c : Dev nD) : @Eq (FVec Ideal S128x128 .f32) (W23 m ρ c (Proc.devRef .tc main_arg7)) (A m c).Wl_i1 := by carryB_rfl
theorem B23_arg9 (c : Dev nD) : @Eq (FVec Ideal S128x128 .f32) (W23 m ρ c (Proc.devRef .tc main_arg9)) (A m c).Wr_i1 := by carryB_rfl
theorem B23_arg8 (c : Dev nD) : @Eq (FVec Ideal S128 .f32) (W23 m ρ c (Proc.devRef .tc main_arg8)) (A m c).bl_i1 := by carryB_rfl
theorem B23_v117 (c : Dev nD) : @Eq (FVec Ideal S50000x128 .f32) (W23 m ρ c (Proc.devRef .tc main_v117)) (KVals.x11 (A m c)) := by
  carryB; exact B21_v117 m ρ c

theorem B24_v143 (c : Dev nD) : @Eq (FVec Ideal S50000x128 .f32) (W24 m ρ c (Proc.devRef .tc main_v143)) (h1 (A m c)) := by
  refine (W24_arr m ρ c 5).trans ?_
  funext j
  obtain ⟨r, q, rfl⟩ : ∃ r q, j = ix2 r q := ⟨j 0, j 1, eq_ix2 j⟩
  refine (reg8_at (V23 m ρ) c r q).trans ?_
  rw [show V23 m ρ c (Pipeline.arrRef spec8 0) = _ from B23_v142 m ρ c,
    show V23 m ρ c (Pipeline.arrRef spec8 1) = _ from B23_v117 m ρ c,
    show V23 m ρ c (Pipeline.arrRef spec8 2) = _ from B23_arg7 m ρ c,
    show V23 m ρ c (Pipeline.arrRef spec8 3) = _ from B23_arg9 m ρ c,
    show V23 m ρ c (Pipeline.arrRef spec8 4) = _ from B23_arg8 m ρ c]
  rfl

theorem B24_arg1 (c : Dev nD) : @Eq (IVec S800000 32) (W24 m ρ c (Proc.devRef .tc main_arg1)) (A m c).es := by carryB_rfl
theorem B24_arg2 (c : Dev nD) : @Eq (IVec S800000 32) (W24 m ρ c (Proc.devRef .tc main_arg2)) (A m c).ed := by carryB_rfl
theorem B24_v8 (c : Dev nD) : @Eq (FVec Ideal S50000x1 .f32) (W24 m ρ c (Proc.devRef .tc main_v8)) (Vals.invdeg (A m c).ed) := by
  carryB; exact B1_v8 m ρ c
theorem B24_v130 (c : Dev nD) : @Eq (FVec Ideal S50000x128 .f32) (W24 m ρ c (Proc.devRef .tc main_v130)) (h0 (A m c)) := by
  carryB; exact B22_v130 m ρ c

theorem B25_v144 (c : Dev nD) : @Eq (FVec Ideal S50000x256 .f32) (W25 m ρ c (Proc.devRef .tc main_v144)) (xk (A m c)) := by
  show StableHlo.after hostOps9 (W24 m ρ c) (Proc.devRef .tc main_v144) = _
  after_results_simp
  rw [B24_v130, B24_v143]
  rfl

theorem B25_v156 (c : Dev nD) :
    @Eq (FVec Ideal S50000x256 .f32) (W25 m ρ c (Proc.devRef .tc main_v156)) (Vals.agg256 (A m c).es (A m c).ed (xk (A m c))) := by
  show StableHlo.after hostOps9 (W24 m ρ c) (Proc.devRef .tc main_v156) = _
  after_results_simp
  rw [B24_arg1, B24_arg2, B24_v8, B24_v130, B24_v143]
  rfl

theorem B25_arg10 (c : Dev nD) : @Eq (FVec Ideal S256x256 .f32) (W25 m ρ c (Proc.devRef .tc main_arg10)) (A m c).Wl_m := by carryB_rfl
theorem B25_arg12 (c : Dev nD) : @Eq (FVec Ideal S256x256 .f32) (W25 m ρ c (Proc.devRef .tc main_arg12)) (A m c).Wr_m := by carryB_rfl
theorem B25_arg11 (c : Dev nD) : @Eq (FVec Ideal S256 .f32) (W25 m ρ c (Proc.devRef .tc main_arg11)) (A m c).bl_m := by carryB_rfl

theorem B26_v157 (c : Dev nD) : @Eq (FVec Ideal S50000x256 .f32) (W26 m ρ c (Proc.devRef .tc main_v157)) (xk2 (A m c)) := by
  refine (W26_arr m ρ c 5).trans ?_
  funext j
  obtain ⟨r, q, rfl⟩ : ∃ r q, j = ix2 r q := ⟨j 0, j 1, eq_ix2 j⟩
  refine (reg9_at (V25 m ρ) c r q).trans ?_
  rw [show V25 m ρ c (Pipeline.arrRef spec9 0) = _ from B25_v156 m ρ c,
    show V25 m ρ c (Pipeline.arrRef spec9 1) = _ from B25_v144 m ρ c,
    show V25 m ρ c (Pipeline.arrRef spec9 2) = _ from B25_arg10 m ρ c,
    show V25 m ρ c (Pipeline.arrRef spec9 3) = _ from B25_arg12 m ρ c,
    show V25 m ρ c (Pipeline.arrRef spec9 4) = _ from B25_arg11 m ρ c]
  rfl

theorem B26_arg1 (c : Dev nD) : @Eq (IVec S800000 32) (W26 m ρ c (Proc.devRef .tc main_arg1)) (A m c).es := by carryB_rfl
theorem B26_arg2 (c : Dev nD) : @Eq (IVec S800000 32) (W26 m ρ c (Proc.devRef .tc main_arg2)) (A m c).ed := by carryB_rfl
theorem B26_v8 (c : Dev nD) : @Eq (FVec Ideal S50000x1 .f32) (W26 m ρ c (Proc.devRef .tc main_v8)) (Vals.invdeg (A m c).ed) := by
  carryB; exact B1_v8 m ρ c

theorem B27_v169 (c : Dev nD) :
    @Eq (FVec Ideal S50000x256 .f32) (W27 m ρ c (Proc.devRef .tc main_v169)) (Vals.agg256 (A m c).es (A m c).ed (xk2 (A m c))) := by
  show StableHlo.after hostOps10 (W26 m ρ c) (Proc.devRef .tc main_v169) = _
  after_results_simp
  rw [B26_arg1, B26_arg2, B26_v8, B26_v157]
  rfl

theorem B27_arg13 (c : Dev nD) : @Eq (FVec Ideal S256x64 .f32) (W27 m ρ c (Proc.devRef .tc main_arg13)) (A m c).Wl_o := by carryB_rfl
theorem B27_arg15 (c : Dev nD) : @Eq (FVec Ideal S256x64 .f32) (W27 m ρ c (Proc.devRef .tc main_arg15)) (A m c).Wr_o := by carryB_rfl
theorem B27_arg14 (c : Dev nD) : @Eq (FVec Ideal S64 .f32) (W27 m ρ c (Proc.devRef .tc main_arg14)) (A m c).bl_o := by carryB_rfl
theorem B27_v157 (c : Dev nD) : @Eq (FVec Ideal S50000x256 .f32) (W27 m ρ c (Proc.devRef .tc main_v157)) (xk2 (A m c)) := by
  carryB; exact B26_v157 m ρ c

theorem B28_v170 (c : Dev nD) : @Eq (FVec Ideal S50000x64 .f32) (W28 m ρ c (Proc.devRef .tc main_v170)) (KVals.hk1 (A m c)) := by
  refine (W28_arr m ρ c 5).trans ?_
  funext j
  obtain ⟨r, q, rfl⟩ : ∃ r q, j = ix2 r q := ⟨j 0, j 1, eq_ix2 j⟩
  refine (reg10_at (V27 m ρ) c r q).trans ?_
  rw [show V27 m ρ c (Pipeline.arrRef spec10 0) = _ from B27_v169 m ρ c,
    show V27 m ρ c (Pipeline.arrRef spec10 1) = _ from B27_v157 m ρ c,
    show V27 m ρ c (Pipeline.arrRef spec10 2) = _ from B27_arg13 m ρ c,
    show V27 m ρ c (Pipeline.arrRef spec10 3) = _ from B27_arg15 m ρ c,
    show V27 m ρ c (Pipeline.arrRef spec10 4) = _ from B27_arg14 m ρ c,
    hk1_eq]
  rfl

end ChainB

end Cert.KernelIdeal.Gen

end
-- ==== Proof.Reg11.lean ====
import proofs.«181152_j39822936769202_1_alg».proof.Proof.Gen.KernelIdeal.Frame
import proofs.«181152_j39822936769202_1_alg».proof.Proof.RegHead

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat)
open scoped BigOperators

namespace Reg11

open RegHead (hz hz1)

section Pieces
variable {F : FTy → Type} [FloatOps F] [Named F] (c : Dev nD) (i : grid11.Coords)
  (a1 : Memref sig .tc .vmem S2000x64 .f32) (h1 : a1.IsWhole) (a2 : Memref sig .tc .vmem S2000x64 .f32) (h2 : a2.IsWhole)
  (a3 : Memref sig .tc .vmem S64x12 .f32) (h3 : a3.IsWhole) (a4 : Memref sig .tc .vmem S64x12 .f32) (h4 : a4.IsWhole)
  (a5 : Memref sig .tc .vmem S12 .f32) (h5 : a5.IsWhole) (a6 : Memref sig .tc .vmem S2000x12 .f32) (h6 : a6.IsWhole)
  (a7 : Memref sig .tc .vmem S1x1 .f32) (h7 : a7.IsWhole)
  (x0 x1 : Vec F S2000x64 .f32) (x2 x3 : Vec F S64x12 .f32) (x4 : Vec F S12 .f32) (x5 : Vec F S2000x12 .f32)

-- at a later point the body leaves the update of what the accumulator held
theorem piece_B (hc : ¬cond11_0 i) (xo : Vec F S1x1 .f32) :
    out11_B_6 c i a1 h1 a2 h2 a3 h3 a4 h4 a5 h5 a6 h6 a7 h7 hc x0 x1 x2 x3 x4 x5 xo = k11_pay1 (k11_pay3 x0 x1 x2 x3 x4 x5) xo := by
  unfold out11_B_6
  rw [View.read_writes_eq_canon _ _ _ (cover11_B_6 c i a1 h1 a2 h2 a3 h3 a4 h4 a5 h5 a6 h6 a7 h7 hc x0 x1 x2 x3 x4 x5 xo)]
  unfold kernelRun11_B
  dsimp only
  sl_unfold_words
  rw [View.canon_unit_zero (S := S1x1) hz]
  simp only [View.readAt_eq_ld, h1.read_unread, h2.read_unread, h3.read_unread, h4.read_unread, h5.read_unread,
    h6.read_unread, h7.read_unread, View.ld_unit_zero (S := S2000x64) hz, View.ld_unit_zero (S := S64x12) hz,
    View.ld_unit_zero (S := S12) hz1, View.ld_unit_zero (S := S2000x12) hz, View.ld_unit_zero (S := S1x1) hz]

-- at the first point the body leaves the update of the zero block
theorem piece_A (hc : cond11_0 i) :
    out11_A_6 c i a1 h1 a2 h2 a3 h3 a4 h4 a5 h5 a6 h6 a7 h7 hc x0 x1 x2 x3 x4 x5 = k11_pay1 (k11_pay3 x0 x1 x2 x3 x4 x5) (k11_pay2 (F := F)) := by
  unfold out11_A_6
  rw [View.read_writes_eq_canon _ _ _ (cover11_A_6 c i a1 h1 a2 h2 a3 h3 a4 h4 a5 h5 a6 h6 a7 h7 hc x0 x1 x2 x3 x4 x5)]
  unfold kernelRun11_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h6.read_unread, View.ld_unit_zero (S := S2000x64) hz, View.ld_unit_zero (S := S64x12) hz,
    View.ld_unit_zero (S := S12) hz1, View.ld_unit_zero (S := S2000x12) hz]

end Pieces

-- the printed index maps of the six input windows, decided over the grid
theorem idx_facts : ∀ t : Fin cfg11.N,
    (win11_0.index t (0 : Fin 2) = t.val ∧ win11_0.index t (1 : Fin 2) = 0)
    ∧ (win11_1.index t (0 : Fin 2) = t.val ∧ win11_1.index t (1 : Fin 2) = 0)
    ∧ (win11_2.index t (0 : Fin 2) = 0 ∧ win11_2.index t (1 : Fin 2) = 0)
    ∧ (win11_3.index t (0 : Fin 2) = 0 ∧ win11_3.index t (1 : Fin 2) = 0)
    ∧ win11_4.index t (0 : Fin 1) = 0
    ∧ win11_5.index t (0 : Fin 2) = t.val ∧ win11_5.index t (1 : Fin 2) = 0 :=
  (by decide +kernel : ∀ t : Fin grid11.N, _)

theorem pay3_at (x0 x1 : Vec Ideal S2000x64 .f32) (x2 x3 : Vec Ideal S64x12 .f32) (x4 : Vec Ideal S12 .f32)
    (x5 : Vec Ideal S2000x12 .f32) (p : Fin 2000) :
    k11_pay3 x0 x1 x2 x3 x4 x5 (ix1 p) = ∑ q : Fin 12, x5 (ix2 p q) * Spec.logp (Spec.sigLayer x0 x1 x2 x3 x4) p q := by
  unfold k11_pay3
  exact Cert.KernelLayers.head_tile_at _ rfl rfl rfl rfl rfl rfl _ _ _ _ _ _ _ _ _ _ _ _ _ x0 x1 x2 x3 x4 x5 p

variable (V : (c : Dev nD) → (b : Ref sig .tc) → Buf (Elt Ideal) ((c : Thread nD τ).loc b)) (c : Dev nD)

-- an element of a block sits in the array at block index times block size plus its own coordinate
theorem blk0_at (t : Fin cfg11.N) (p : Fin 2000) (k : Fin 64) (r : Fin 50000) (hr : r.val = 2000 * t.val + p.val) :
    iblk11 V c 0 t (ix2 p k) = V c (Pipeline.arrRef spec11 0) (ix2 r k) := by
  show (V c (Pipeline.arrRef spec11 0) : Vec Ideal S50000x64 .f32) (((cfg11.win 0).blk t).view.emb (ix2 p k)) = _
  exact congrArg _ (RegHead.idx_row t.val p k r (win11_0.rect_emb_val t (ix2 p k) 0) (win11_0.rect_emb_val t (ix2 p k) 1)
    (idx_facts t).1.1 (idx_facts t).1.2 hr)

theorem blk1_at (t : Fin cfg11.N) (p : Fin 2000) (k : Fin 64) (r : Fin 50000) (hr : r.val = 2000 * t.val + p.val) :
    iblk11 V c 1 t (ix2 p k) = V c (Pipeline.arrRef spec11 1) (ix2 r k) := by
  show (V c (Pipeline.arrRef spec11 1) : Vec Ideal S50000x64 .f32) (((cfg11.win 1).blk t).view.emb (ix2 p k)) = _
  exact congrArg _ (RegHead.idx_row t.val p k r (win11_1.rect_emb_val t (ix2 p k) 0) (win11_1.rect_emb_val t (ix2 p k) 1)
    (idx_facts t).2.1.1 (idx_facts t).2.1.2 hr)

theorem blk5_at (t : Fin cfg11.N) (p : Fin 2000) (q : Fin 12) (r : Fin 50000) (hr : r.val = 2000 * t.val + p.val) :
    iblk11 V c 5 t (ix2 p q) = V c (Pipeline.arrRef spec11 5) (ix2 r q) := by
  show (V c (Pipeline.arrRef spec11 5) : Vec Ideal S50000x12 .f32) (((cfg11.win 5).blk t).view.emb (ix2 p q)) = _
  exact congrArg _ (RegHead.idx_row t.val p q r (win11_5.rect_emb_val t (ix2 p q) 0) (win11_5.rect_emb_val t (ix2 p q) 1)
    (idx_facts t).2.2.2.2.2.1 (idx_facts t).2.2.2.2.2.2 hr)

theorem blk2_eq (t : Fin cfg11.N) : iblk11 V c 2 t = V c (Pipeline.arrRef spec11 2) := by
  funext j
  show (V c (Pipeline.arrRef spec11 2) : Vec Ideal S64x12 .f32) (((cfg11.win 2).blk t).view.emb j) = _
  exact congrArg _ (Shape.idx_ext₂ (win11_2.rect_emb_val_of_index_zero t 0 (idx_facts t).2.2.1.1 j)
    (win11_2.rect_emb_val_of_index_zero t 1 (idx_facts t).2.2.1.2 j))

theorem blk3_eq (t : Fin cfg11.N) : iblk11 V c 3 t = V c (Pipeline.arrRef spec11 3) := by
  funext j
  show (V c (Pipeline.arrRef spec11 3) : Vec Ideal S64x12 .f32) (((cfg11.win 3).blk t).view.emb j) = _
  exact congrArg _ (Shape.idx_ext₂ (win11_3.rect_emb_val_of_index_zero t 0 (idx_facts t).2.2.2.1.1 j)
    (win11_3.rect_emb_val_of_index_zero t 1 (idx_facts t).2.2.2.1.2 j))

theorem blk4_eq (t : Fin cfg11.N) : iblk11 V c 4 t = V c (Pipeline.arrRef spec11 4) := by
  funext j
  show (V c (Pipeline.arrRef spec11 4) : Vec Ideal S12 .f32) (((cfg11.win 4).blk t).view.emb j) = _
  exact congrArg _ (RegHead.idx_ext₁ (win11_4.rect_emb_val_of_index_zero t 0 (idx_facts t).2.2.2.2.1 j))

theorem outsAt_eq (n : ℕ) (h : n < cfg11.N) :
    (outsAt11 V c n h : Vec Ideal S1x1 .f32) (ix2 (0 : Fin 1) (0 : Fin 1))
      = Spec.acc (Spec.tile (V c (Pipeline.arrRef spec11 5)) (Spec.sigLayer (V c (Pipeline.arrRef spec11 0)) (V c (Pipeline.arrRef spec11 1)) (V c (Pipeline.arrRef spec11 2)) (V c (Pipeline.arrRef spec11 3)) (V c (Pipeline.arrRef spec11 4)))) n :=
  RegHead.head_run N_11 (k11_pay1 (F := Ideal)) (k11_pay2 (F := Ideal)) (k11_pay3 (F := Ideal)) RegHead.pay1_at RegHead.pay2_at pay3_at
    (outsAt11 V c) (iblk11 V c 0) (iblk11 V c 1) (iblk11 V c 2) (iblk11 V c 3) (iblk11 V c 4) (iblk11 V c 5) _ _ _ _ _ _
    (fun t h0 => (outsAt11_A V c t h0).trans
      (piece_A c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (iblk11 V c 0 t) (iblk11 V c 1 t) (iblk11 V c 2 t) (iblk11 V c 3 t) (iblk11 V c 4 t) (iblk11 V c 5 t) ((hcond11_0 t).mpr h0)))
    (fun t h0 => (outsAt11_B V c t h0).trans
      (piece_B c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (iblk11 V c 0 t) (iblk11 V c 1 t) (iblk11 V c 2 t) (iblk11 V c 3 t) (iblk11 V c 4 t) (iblk11 V c 5 t) (fun hh => h0 ((hcond11_0 t).mp hh)) _))
    (blk0_at V c) (blk1_at V c) (blk2_eq V c) (blk3_eq V c) (blk4_eq V c) (blk5_at V c) n h

abbrev tLast : Fin cfg11.N := ⟨24, lt_of_lt_of_eq (by decide : 24 < 25) N_11.symm⟩

-- only the last point writes back, and the 1 × 1 array has one index
theorem final : (dat11 V c).arrAt 6 cfg11.N = outsAt11 V c 24 tLast.isLt :=
  (dat11 V c).arrAt_eq_of_cover 6 (outsAt11 V c 24 tLast.isLt)
    (fun t hf => by
      obtain rfl : t = tLast :=
        Fin.ext ((Nat.mod_eq_of_lt (lt_of_lt_of_eq t.isLt (show cfg11.N = 25 from N_11))).symm.trans ((flush11_6 t).mp hf))
      show (cfg11.win 6).cut (grid11.coords tLast) ((dat11 V c).after 6 tLast) = _
      rw [after11_6]
      funext j
      exact congrArg (outsAt11 V c 24 tLast.isLt : Vec Ideal S1x1 .f32) (RegHead.idx11_eq _ _))
    (fun i => ⟨tLast, (flush11_6 tLast).mpr rfl, by
      have h := ((cfg11.win 6).blk tLast).view.emb_mem_set i
      rwa [RegHead.idx11_eq (((cfg11.win 6).blk tLast).view.emb i) i] at h⟩)

end Reg11

theorem reg11_at (V : (c : Dev nD) → (b : Ref sig .tc) → Buf (Elt Ideal) ((c : Thread nD τ).loc b)) (c : Dev nD) :
    (dat11 (F := Ideal) V c).arrAt 6 cfg11.N (ix2 (0 : Fin 1) (0 : Fin 1))
      = Spec.headKernel (V c (Pipeline.arrRef spec11 5))
          (Spec.sigLayer (V c (Pipeline.arrRef spec11 0)) (V c (Pipeline.arrRef spec11 1)) (V c (Pipeline.arrRef spec11 2)) (V c (Pipeline.arrRef spec11 3)) (V c (Pipeline.arrRef spec11 4))) :=
  (congrFun (Reg11.final V c) (ix2 (0 : Fin 1) (0 : Fin 1))).trans (Reg11.outsAt_eq V c 24 (Reg11.tLast).isLt)

end Cert.KernelIdeal.Gen

end
-- ==== Proof.ChainB2.lean ====
import proofs.«181152_j39822936769202_1_alg».proof.Proof.Gen.KernelIdeal.Frame
import proofs.«181152_j39822936769202_1_alg».proof.Proof.KVals
import proofs.«181152_j39822936769202_1_alg».proof.Proof.Carry
import proofs.«181152_j39822936769202_1_alg».proof.Proof.ChainB
import proofs.«181152_j39822936769202_1_alg».proof.Proof.Reg11
import Idealize.ShloMosaic.Lib.StableHlo.Run
import Idealize.ShloMosaic.Lib.ValueIdx

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable (m : (ℓ : Loc nD τ sig) → Buf (Elt Ideal) ℓ) (ρ : Dev nD → PrngReg)

namespace ChainB2

open ChainB

theorem C28_arg1 (c : Dev nD) : @Eq (IVec S800000 32) (W28 m ρ c (Proc.devRef .tc main_arg1)) (A m c).es := by carryB_rfl
theorem C28_arg2 (c : Dev nD) : @Eq (IVec S800000 32) (W28 m ρ c (Proc.devRef .tc main_arg2)) (A m c).ed := by carryB_rfl
theorem C28_arg3 (c : Dev nD) : @Eq (IVec S2x50000x3 32) (W28 m ρ c (Proc.devRef .tc main_arg3)) (A m c).y := by carryB_rfl
theorem C28_arg16 (c : Dev nD) : @Eq (FVec Ideal S2x64x12 .f32) (W28 m ρ c (Proc.devRef .tc main_arg16)) (A m c).Wl_mt := by carryB_rfl
theorem C28_arg17 (c : Dev nD) : @Eq (FVec Ideal S2x12 .f32) (W28 m ρ c (Proc.devRef .tc main_arg17)) (A m c).bl_mt := by carryB_rfl
theorem C28_arg18 (c : Dev nD) : @Eq (FVec Ideal S2x64x12 .f32) (W28 m ρ c (Proc.devRef .tc main_arg18)) (A m c).Wr_mt := by carryB_rfl
theorem C28_v8 (c : Dev nD) : @Eq (FVec Ideal S50000x1 .f32) (W28 m ρ c (Proc.devRef .tc main_v8)) (Vals.invdeg (A m c).ed) := by
  carryB; exact B1_v8 m ρ c

theorem E29_v182 (c : Dev nD) :
    @Eq (FVec Ideal S50000x64 .f32) (W29 m ρ c (Proc.devRef .tc main_v182))
      (Vals.agg64 (ChainB.A m c).es (ChainB.A m c).ed (KVals.hk1 (ChainB.A m c))) := by
  show StableHlo.after hostOps11 (W28 m ρ c) (Proc.devRef .tc main_v182) = _
  after_results_simp
  rw [C28_arg1, C28_arg2, C28_v8, B28_v170]
  rfl

theorem C30_v185 (c : Dev nD) : @Eq (FVec Ideal S50000x12 .f32) (W30 m ρ c (Proc.devRef .tc main_v185)) (KVals.oh10 (A m c)) := by
  show StableHlo.after hostOps11_1 (W29 m ρ c) (Proc.devRef .tc main_v185) = _
  after_results_simp
  rw [C28_arg3]
  rfl

theorem C31_v187 (c : Dev nD) : @Eq (FVec Ideal S64x12 .f32) (W31 m ρ c (Proc.devRef .tc main_v187)) (KVals.wl10 (A m c)) := by
  show StableHlo.after hostOps11_2 (W30 m ρ c) (Proc.devRef .tc main_v187) = _
  after_results_simp
  rw [C28_arg16]
  rfl
theorem C31_v189 (c : Dev nD) : @Eq (FVec Ideal S64x12 .f32) (W31 m ρ c (Proc.devRef .tc main_v189)) (KVals.wr10 (A m c)) := by
  show StableHlo.after hostOps11_2 (W30 m ρ c) (Proc.devRef .tc main_v189) = _
  after_results_simp
  rw [C28_arg18]
  rfl
theorem C31_v191 (c : Dev nD) : @Eq (FVec Ideal S12 .f32) (W31 m ρ c (Proc.devRef .tc main_v191)) (KVals.bl10 (A m c)) := by
  show StableHlo.after hostOps11_2 (W30 m ρ c) (Proc.devRef .tc main_v191) = _
  after_results_simp
  rw [C28_arg17]
  rfl

theorem C31_v182 (c : Dev nD) :
    @Eq (FVec Ideal S50000x64 .f32) (W31 m ρ c (Proc.devRef .tc main_v182)) (Vals.agg64 (A m c).es (A m c).ed (KVals.hk1 (A m c))) := by
  carryB; exact E29_v182 m ρ c
theorem C31_v170 (c : Dev nD) : @Eq (FVec Ideal S50000x64 .f32) (W31 m ρ c (Proc.devRef .tc main_v170)) (KVals.hk1 (A m c)) := by
  carryB; exact B28_v170 m ρ c
theorem C31_v185 (c : Dev nD) : @Eq (FVec Ideal S50000x12 .f32) (W31 m ρ c (Proc.devRef .tc main_v185)) (KVals.oh10 (A m c)) := by
  carryB; exact C30_v185 m ρ c

theorem E32_v192 (c : Dev nD) :
    @Eq (FVec Ideal S1x1 .f32) (W32 m ρ c (Proc.devRef .tc main_v192)) (KVals.HK10 (ChainB.A m c)) := by
  refine (W32_arr m ρ c 6).trans ?_
  funext j
  obtain rfl : j = ix2 (0 : Fin 1) (0 : Fin 1) := by
    funext a; apply Fin.ext
    match a with
    | ⟨0, _⟩ => have h : (j 0).val < 1 := (j 0).isLt; show (j 0).val = 0; omega
    | ⟨1, _⟩ => have h : (j 1).val < 1 := (j 1).isLt; show (j 1).val = 0; omega
  refine (reg11_at (V31 m ρ) c).trans ?_
  rw [show V31 m ρ c (Pipeline.arrRef spec11 0) = _ from C31_v182 m ρ c,
    show V31 m ρ c (Pipeline.arrRef spec11 1) = _ from C31_v170 m ρ c,
    show V31 m ρ c (Pipeline.arrRef spec11 2) = _ from C31_v187 m ρ c,
    show V31 m ρ c (Pipeline.arrRef spec11 3) = _ from C31_v189 m ρ c,
    show V31 m ρ c (Pipeline.arrRef spec11 4) = _ from C31_v191 m ρ c,
    show V31 m ρ c (Pipeline.arrRef spec11 5) = _ from C31_v185 m ρ c]
  rfl

end ChainB2

end Cert.KernelIdeal.Gen

end
-- ==== Proof.Reg12.lean ====
import proofs.«181152_j39822936769202_1_alg».proof.Proof.Gen.KernelIdeal.Frame
import proofs.«181152_j39822936769202_1_alg».proof.Proof.RegHead

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat)
open scoped BigOperators

namespace Reg12

open RegHead (hz hz1)

section Pieces
variable {F : FTy → Type} [FloatOps F] [Named F] (c : Dev nD) (i : grid12.Coords)
  (a1 : Memref sig .tc .vmem S2000x64 .f32) (h1 : a1.IsWhole) (a2 : Memref sig .tc .vmem S2000x64 .f32) (h2 : a2.IsWhole)
  (a3 : Memref sig .tc .vmem S64x8 .f32) (h3 : a3.IsWhole) (a4 : Memref sig .tc .vmem S64x8 .f32) (h4 : a4.IsWhole)
  (a5 : Memref sig .tc .vmem S8 .f32) (h5 : a5.IsWhole) (a6 : Memref sig .tc .vmem S2000x8 .f32) (h6 : a6.IsWhole)
  (a7 : Memref sig .tc .vmem S1x1 .f32) (h7 : a7.IsWhole)
  (x0 x1 : Vec F S2000x64 .f32) (x2 x3 : Vec F S64x8 .f32) (x4 : Vec F S8 .f32) (x5 : Vec F S2000x8 .f32)

-- at a later point the body leaves the update of what the accumulator held
theorem piece_B (hc : ¬cond12_0 i) (xo : Vec F S1x1 .f32) :
    out12_B_6 c i a1 h1 a2 h2 a3 h3 a4 h4 a5 h5 a6 h6 a7 h7 hc x0 x1 x2 x3 x4 x5 xo = k12_pay1 (k12_pay3 x0 x1 x2 x3 x4 x5) xo := by
  unfold out12_B_6
  rw [View.read_writes_eq_canon _ _ _ (cover12_B_6 c i a1 h1 a2 h2 a3 h3 a4 h4 a5 h5 a6 h6 a7 h7 hc x0 x1 x2 x3 x4 x5 xo)]
  unfold kernelRun12_B
  dsimp only
  sl_unfold_words
  rw [View.canon_unit_zero (S := S1x1) hz]
  simp only [View.readAt_eq_ld, h1.read_unread, h2.read_unread, h3.read_unread, h4.read_unread, h5.read_unread,
    h6.read_unread, h7.read_unread, View.ld_unit_zero (S := S2000x64) hz, View.ld_unit_zero (S := S64x8) hz,
    View.ld_unit_zero (S := S8) hz1, View.ld_unit_zero (S := S2000x8) hz, View.ld_unit_zero (S := S1x1) hz]

-- at the first point the body leaves the update of the zero block
theorem piece_A (hc : cond12_0 i) :
    out12_A_6 c i a1 h1 a2 h2 a3 h3 a4 h4 a5 h5 a6 h6 a7 h7 hc x0 x1 x2 x3 x4 x5 = k12_pay1 (k12_pay3 x0 x1 x2 x3 x4 x5) (k12_pay2 (F := F)) := by
  unfold out12_A_6
  rw [View.read_writes_eq_canon _ _ _ (cover12_A_6 c i a1 h1 a2 h2 a3 h3 a4 h4 a5 h5 a6 h6 a7 h7 hc x0 x1 x2 x3 x4 x5)]
  unfold kernelRun12_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h6.read_unread, View.ld_unit_zero (S := S2000x64) hz, View.ld_unit_zero (S := S64x8) hz,
    View.ld_unit_zero (S := S8) hz1, View.ld_unit_zero (S := S2000x8) hz]

end Pieces

-- the printed index maps of the six input windows, decided over the grid
theorem idx_facts : ∀ t : Fin cfg12.N,
    (win12_0.index t (0 : Fin 2) = t.val ∧ win12_0.index t (1 : Fin 2) = 0)
    ∧ (win12_1.index t (0 : Fin 2) = t.val ∧ win12_1.index t (1 : Fin 2) = 0)
    ∧ (win12_2.index t (0 : Fin 2) = 0 ∧ win12_2.index t (1 : Fin 2) = 0)
    ∧ (win12_3.index t (0 : Fin 2) = 0 ∧ win12_3.index t (1 : Fin 2) = 0)
    ∧ win12_4.index t (0 : Fin 1) = 0
    ∧ win12_5.index t (0 : Fin 2) = t.val ∧ win12_5.index t (1 : Fin 2) = 0 :=
  (by decide +kernel : ∀ t : Fin grid12.N, _)

theorem pay3_at (x0 x1 : Vec Ideal S2000x64 .f32) (x2 x3 : Vec Ideal S64x8 .f32) (x4 : Vec Ideal S8 .f32)
    (x5 : Vec Ideal S2000x8 .f32) (p : Fin 2000) :
    k12_pay3 x0 x1 x2 x3 x4 x5 (ix1 p) = ∑ q : Fin 8, x5 (ix2 p q) * Spec.logp (Spec.sigLayer x0 x1 x2 x3 x4) p q := by
  unfold k12_pay3
  exact Cert.KernelLayers.head_tile_at _ rfl rfl rfl rfl rfl rfl _ _ _ _ _ _ _ _ _ _ _ _ _ x0 x1 x2 x3 x4 x5 p

variable (V : (c : Dev nD) → (b : Ref sig .tc) → Buf (Elt Ideal) ((c : Thread nD τ).loc b)) (c : Dev nD)

-- an element of a block sits in the array at block index times block size plus its own coordinate
theorem blk0_at (t : Fin cfg12.N) (p : Fin 2000) (k : Fin 64) (r : Fin 50000) (hr : r.val = 2000 * t.val + p.val) :
    iblk12 V c 0 t (ix2 p k) = V c (Pipeline.arrRef spec12 0) (ix2 r k) := by
  show (V c (Pipeline.arrRef spec12 0) : Vec Ideal S50000x64 .f32) (((cfg12.win 0).blk t).view.emb (ix2 p k)) = _
  exact congrArg _ (RegHead.idx_row t.val p k r (win12_0.rect_emb_val t (ix2 p k) 0) (win12_0.rect_emb_val t (ix2 p k) 1)
    (idx_facts t).1.1 (idx_facts t).1.2 hr)

theorem blk1_at (t : Fin cfg12.N) (p : Fin 2000) (k : Fin 64) (r : Fin 50000) (hr : r.val = 2000 * t.val + p.val) :
    iblk12 V c 1 t (ix2 p k) = V c (Pipeline.arrRef spec12 1) (ix2 r k) := by
  show (V c (Pipeline.arrRef spec12 1) : Vec Ideal S50000x64 .f32) (((cfg12.win 1).blk t).view.emb (ix2 p k)) = _
  exact congrArg _ (RegHead.idx_row t.val p k r (win12_1.rect_emb_val t (ix2 p k) 0) (win12_1.rect_emb_val t (ix2 p k) 1)
    (idx_facts t).2.1.1 (idx_facts t).2.1.2 hr)

theorem blk5_at (t : Fin cfg12.N) (p : Fin 2000) (q : Fin 8) (r : Fin 50000) (hr : r.val = 2000 * t.val + p.val) :
    iblk12 V c 5 t (ix2 p q) = V c (Pipeline.arrRef spec12 5) (ix2 r q) := by
  show (V c (Pipeline.arrRef spec12 5) : Vec Ideal S50000x8 .f32) (((cfg12.win 5).blk t).view.emb (ix2 p q)) = _
  exact congrArg _ (RegHead.idx_row t.val p q r (win12_5.rect_emb_val t (ix2 p q) 0) (win12_5.rect_emb_val t (ix2 p q) 1)
    (idx_facts t).2.2.2.2.2.1 (idx_facts t).2.2.2.2.2.2 hr)

theorem blk2_eq (t : Fin cfg12.N) : iblk12 V c 2 t = V c (Pipeline.arrRef spec12 2) := by
  funext j
  show (V c (Pipeline.arrRef spec12 2) : Vec Ideal S64x8 .f32) (((cfg12.win 2).blk t).view.emb j) = _
  exact congrArg _ (Shape.idx_ext₂ (win12_2.rect_emb_val_of_index_zero t 0 (idx_facts t).2.2.1.1 j)
    (win12_2.rect_emb_val_of_index_zero t 1 (idx_facts t).2.2.1.2 j))

theorem blk3_eq (t : Fin cfg12.N) : iblk12 V c 3 t = V c (Pipeline.arrRef spec12 3) := by
  funext j
  show (V c (Pipeline.arrRef spec12 3) : Vec Ideal S64x8 .f32) (((cfg12.win 3).blk t).view.emb j) = _
  exact congrArg _ (Shape.idx_ext₂ (win12_3.rect_emb_val_of_index_zero t 0 (idx_facts t).2.2.2.1.1 j)
    (win12_3.rect_emb_val_of_index_zero t 1 (idx_facts t).2.2.2.1.2 j))

theorem blk4_eq (t : Fin cfg12.N) : iblk12 V c 4 t = V c (Pipeline.arrRef spec12 4) := by
  funext j
  show (V c (Pipeline.arrRef spec12 4) : Vec Ideal S8 .f32) (((cfg12.win 4).blk t).view.emb j) = _
  exact congrArg _ (RegHead.idx_ext₁ (win12_4.rect_emb_val_of_index_zero t 0 (idx_facts t).2.2.2.2.1 j))

theorem outsAt_eq (n : ℕ) (h : n < cfg12.N) :
    (outsAt12 V c n h : Vec Ideal S1x1 .f32) (ix2 (0 : Fin 1) (0 : Fin 1))
      = Spec.acc (Spec.tile (V c (Pipeline.arrRef spec12 5)) (Spec.sigLayer (V c (Pipeline.arrRef spec12 0)) (V c (Pipeline.arrRef spec12 1)) (V c (Pipeline.arrRef spec12 2)) (V c (Pipeline.arrRef spec12 3)) (V c (Pipeline.arrRef spec12 4)))) n :=
  RegHead.head_run N_12 (k12_pay1 (F := Ideal)) (k12_pay2 (F := Ideal)) (k12_pay3 (F := Ideal)) RegHead.pay1_at RegHead.pay2_at pay3_at
    (outsAt12 V c) (iblk12 V c 0) (iblk12 V c 1) (iblk12 V c 2) (iblk12 V c 3) (iblk12 V c 4) (iblk12 V c 5) _ _ _ _ _ _
    (fun t h0 => (outsAt12_A V c t h0).trans
      (piece_A c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (iblk12 V c 0 t) (iblk12 V c 1 t) (iblk12 V c 2 t) (iblk12 V c 3 t) (iblk12 V c 4 t) (iblk12 V c 5 t) ((hcond12_0 t).mpr h0)))
    (fun t h0 => (outsAt12_B V c t h0).trans
      (piece_B c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (iblk12 V c 0 t) (iblk12 V c 1 t) (iblk12 V c 2 t) (iblk12 V c 3 t) (iblk12 V c 4 t) (iblk12 V c 5 t) (fun hh => h0 ((hcond12_0 t).mp hh)) _))
    (blk0_at V c) (blk1_at V c) (blk2_eq V c) (blk3_eq V c) (blk4_eq V c) (blk5_at V c) n h

abbrev tLast : Fin cfg12.N := ⟨24, lt_of_lt_of_eq (by decide : 24 < 25) N_12.symm⟩

-- only the last point writes back, and the 1 × 1 array has one index
theorem final : (dat12 V c).arrAt 6 cfg12.N = outsAt12 V c 24 tLast.isLt :=
  (dat12 V c).arrAt_eq_of_cover 6 (outsAt12 V c 24 tLast.isLt)
    (fun t hf => by
      obtain rfl : t = tLast :=
        Fin.ext ((Nat.mod_eq_of_lt (lt_of_lt_of_eq t.isLt (show cfg12.N = 25 from N_12))).symm.trans ((flush12_6 t).mp hf))
      show (cfg12.win 6).cut (grid12.coords tLast) ((dat12 V c).after 6 tLast) = _
      rw [after12_6]
      funext j
      exact congrArg (outsAt12 V c 24 tLast.isLt : Vec Ideal S1x1 .f32) (RegHead.idx11_eq _ _))
    (fun i => ⟨tLast, (flush12_6 tLast).mpr rfl, by
      have h := ((cfg12.win 6).blk tLast).view.emb_mem_set i
      rwa [RegHead.idx11_eq (((cfg12.win 6).blk tLast).view.emb i) i] at h⟩)

end Reg12

theorem reg12_at (V : (c : Dev nD) → (b : Ref sig .tc) → Buf (Elt Ideal) ((c : Thread nD τ).loc b)) (c : Dev nD) :
    (dat12 (F := Ideal) V c).arrAt 6 cfg12.N (ix2 (0 : Fin 1) (0 : Fin 1))
      = Spec.headKernel (V c (Pipeline.arrRef spec12 5))
          (Spec.sigLayer (V c (Pipeline.arrRef spec12 0)) (V c (Pipeline.arrRef spec12 1)) (V c (Pipeline.arrRef spec12 2)) (V c (Pipeline.arrRef spec12 3)) (V c (Pipeline.arrRef spec12 4))) :=
  (congrFun (Reg12.final V c) (ix2 (0 : Fin 1) (0 : Fin 1))).trans (Reg12.outsAt_eq V c 24 (Reg12.tLast).isLt)

end Cert.KernelIdeal.Gen

end
-- ==== Proof.Reg13.lean ====
import proofs.«181152_j39822936769202_1_alg».proof.Proof.Gen.KernelIdeal.Frame
import proofs.«181152_j39822936769202_1_alg».proof.Proof.RegHead

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat)
open scoped BigOperators

namespace Reg13

open RegHead (hz hz1)

section Pieces
variable {F : FTy → Type} [FloatOps F] [Named F] (c : Dev nD) (i : grid13.Coords)
  (a1 : Memref sig .tc .vmem S2000x64 .f32) (h1 : a1.IsWhole) (a2 : Memref sig .tc .vmem S2000x64 .f32) (h2 : a2.IsWhole)
  (a3 : Memref sig .tc .vmem S64x5 .f32) (h3 : a3.IsWhole) (a4 : Memref sig .tc .vmem S64x5 .f32) (h4 : a4.IsWhole)
  (a5 : Memref sig .tc .vmem S5 .f32) (h5 : a5.IsWhole) (a6 : Memref sig .tc .vmem S2000x5 .f32) (h6 : a6.IsWhole)
  (a7 : Memref sig .tc .vmem S1x1 .f32) (h7 : a7.IsWhole)
  (x0 x1 : Vec F S2000x64 .f32) (x2 x3 : Vec F S64x5 .f32) (x4 : Vec F S5 .f32) (x5 : Vec F S2000x5 .f32)

-- at a later point the body leaves the update of what the accumulator held
theorem piece_B (hc : ¬cond13_0 i) (xo : Vec F S1x1 .f32) :
    out13_B_6 c i a1 h1 a2 h2 a3 h3 a4 h4 a5 h5 a6 h6 a7 h7 hc x0 x1 x2 x3 x4 x5 xo = k13_pay1 (k13_pay3 x0 x1 x2 x3 x4 x5) xo := by
  unfold out13_B_6
  rw [View.read_writes_eq_canon _ _ _ (cover13_B_6 c i a1 h1 a2 h2 a3 h3 a4 h4 a5 h5 a6 h6 a7 h7 hc x0 x1 x2 x3 x4 x5 xo)]
  unfold kernelRun13_B
  dsimp only
  sl_unfold_words
  rw [View.canon_unit_zero (S := S1x1) hz]
  simp only [View.readAt_eq_ld, h1.read_unread, h2.read_unread, h3.read_unread, h4.read_unread, h5.read_unread,
    h6.read_unread, h7.read_unread, View.ld_unit_zero (S := S2000x64) hz, View.ld_unit_zero (S := S64x5) hz,
    View.ld_unit_zero (S := S5) hz1, View.ld_unit_zero (S := S2000x5) hz, View.ld_unit_zero (S := S1x1) hz]

-- at the first point the body leaves the update of the zero block
theorem piece_A (hc : cond13_0 i) :
    out13_A_6 c i a1 h1 a2 h2 a3 h3 a4 h4 a5 h5 a6 h6 a7 h7 hc x0 x1 x2 x3 x4 x5 = k13_pay1 (k13_pay3 x0 x1 x2 x3 x4 x5) (k13_pay2 (F := F)) := by
  unfold out13_A_6
  rw [View.read_writes_eq_canon _ _ _ (cover13_A_6 c i a1 h1 a2 h2 a3 h3 a4 h4 a5 h5 a6 h6 a7 h7 hc x0 x1 x2 x3 x4 x5)]
  unfold kernelRun13_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h6.read_unread, View.ld_unit_zero (S := S2000x64) hz, View.ld_unit_zero (S := S64x5) hz,
    View.ld_unit_zero (S := S5) hz1, View.ld_unit_zero (S := S2000x5) hz]

end Pieces

-- the printed index maps of the six input windows, decided over the grid
theorem idx_facts : ∀ t : Fin cfg13.N,
    (win13_0.index t (0 : Fin 2) = t.val ∧ win13_0.index t (1 : Fin 2) = 0)
    ∧ (win13_1.index t (0 : Fin 2) = t.val ∧ win13_1.index t (1 : Fin 2) = 0)
    ∧ (win13_2.index t (0 : Fin 2) = 0 ∧ win13_2.index t (1 : Fin 2) = 0)
    ∧ (win13_3.index t (0 : Fin 2) = 0 ∧ win13_3.index t (1 : Fin 2) = 0)
    ∧ win13_4.index t (0 : Fin 1) = 0
    ∧ win13_5.index t (0 : Fin 2) = t.val ∧ win13_5.index t (1 : Fin 2) = 0 :=
  (by decide +kernel : ∀ t : Fin grid13.N, _)

theorem pay3_at (x0 x1 : Vec Ideal S2000x64 .f32) (x2 x3 : Vec Ideal S64x5 .f32) (x4 : Vec Ideal S5 .f32)
    (x5 : Vec Ideal S2000x5 .f32) (p : Fin 2000) :
    k13_pay3 x0 x1 x2 x3 x4 x5 (ix1 p) = ∑ q : Fin 5, x5 (ix2 p q) * Spec.logp (Spec.sigLayer x0 x1 x2 x3 x4) p q := by
  unfold k13_pay3
  exact Cert.KernelLayers.head_tile_at _ rfl rfl rfl rfl rfl rfl _ _ _ _ _ _ _ _ _ _ _ _ _ x0 x1 x2 x3 x4 x5 p

variable (V : (c : Dev nD) → (b : Ref sig .tc) → Buf (Elt Ideal) ((c : Thread nD τ).loc b)) (c : Dev nD)

-- an element of a block sits in the array at block index times block size plus its own coordinate
theorem blk0_at (t : Fin cfg13.N) (p : Fin 2000) (k : Fin 64) (r : Fin 50000) (hr : r.val = 2000 * t.val + p.val) :
    iblk13 V c 0 t (ix2 p k) = V c (Pipeline.arrRef spec13 0) (ix2 r k) := by
  show (V c (Pipeline.arrRef spec13 0) : Vec Ideal S50000x64 .f32) (((cfg13.win 0).blk t).view.emb (ix2 p k)) = _
  exact congrArg _ (RegHead.idx_row t.val p k r (win13_0.rect_emb_val t (ix2 p k) 0) (win13_0.rect_emb_val t (ix2 p k) 1)
    (idx_facts t).1.1 (idx_facts t).1.2 hr)

theorem blk1_at (t : Fin cfg13.N) (p : Fin 2000) (k : Fin 64) (r : Fin 50000) (hr : r.val = 2000 * t.val + p.val) :
    iblk13 V c 1 t (ix2 p k) = V c (Pipeline.arrRef spec13 1) (ix2 r k) := by
  show (V c (Pipeline.arrRef spec13 1) : Vec Ideal S50000x64 .f32) (((cfg13.win 1).blk t).view.emb (ix2 p k)) = _
  exact congrArg _ (RegHead.idx_row t.val p k r (win13_1.rect_emb_val t (ix2 p k) 0) (win13_1.rect_emb_val t (ix2 p k) 1)
    (idx_facts t).2.1.1 (idx_facts t).2.1.2 hr)

theorem blk5_at (t : Fin cfg13.N) (p : Fin 2000) (q : Fin 5) (r : Fin 50000) (hr : r.val = 2000 * t.val + p.val) :
    iblk13 V c 5 t (ix2 p q) = V c (Pipeline.arrRef spec13 5) (ix2 r q) := by
  show (V c (Pipeline.arrRef spec13 5) : Vec Ideal S50000x5 .f32) (((cfg13.win 5).blk t).view.emb (ix2 p q)) = _
  exact congrArg _ (RegHead.idx_row t.val p q r (win13_5.rect_emb_val t (ix2 p q) 0) (win13_5.rect_emb_val t (ix2 p q) 1)
    (idx_facts t).2.2.2.2.2.1 (idx_facts t).2.2.2.2.2.2 hr)

theorem blk2_eq (t : Fin cfg13.N) : iblk13 V c 2 t = V c (Pipeline.arrRef spec13 2) := by
  funext j
  show (V c (Pipeline.arrRef spec13 2) : Vec Ideal S64x5 .f32) (((cfg13.win 2).blk t).view.emb j) = _
  exact congrArg _ (Shape.idx_ext₂ (win13_2.rect_emb_val_of_index_zero t 0 (idx_facts t).2.2.1.1 j)
    (win13_2.rect_emb_val_of_index_zero t 1 (idx_facts t).2.2.1.2 j))

theorem blk3_eq (t : Fin cfg13.N) : iblk13 V c 3 t = V c (Pipeline.arrRef spec13 3) := by
  funext j
  show (V c (Pipeline.arrRef spec13 3) : Vec Ideal S64x5 .f32) (((cfg13.win 3).blk t).view.emb j) = _
  exact congrArg _ (Shape.idx_ext₂ (win13_3.rect_emb_val_of_index_zero t 0 (idx_facts t).2.2.2.1.1 j)
    (win13_3.rect_emb_val_of_index_zero t 1 (idx_facts t).2.2.2.1.2 j))

theorem blk4_eq (t : Fin cfg13.N) : iblk13 V c 4 t = V c (Pipeline.arrRef spec13 4) := by
  funext j
  show (V c (Pipeline.arrRef spec13 4) : Vec Ideal S5 .f32) (((cfg13.win 4).blk t).view.emb j) = _
  exact congrArg _ (RegHead.idx_ext₁ (win13_4.rect_emb_val_of_index_zero t 0 (idx_facts t).2.2.2.2.1 j))

theorem outsAt_eq (n : ℕ) (h : n < cfg13.N) :
    (outsAt13 V c n h : Vec Ideal S1x1 .f32) (ix2 (0 : Fin 1) (0 : Fin 1))
      = Spec.acc (Spec.tile (V c (Pipeline.arrRef spec13 5)) (Spec.sigLayer (V c (Pipeline.arrRef spec13 0)) (V c (Pipeline.arrRef spec13 1)) (V c (Pipeline.arrRef spec13 2)) (V c (Pipeline.arrRef spec13 3)) (V c (Pipeline.arrRef spec13 4)))) n :=
  RegHead.head_run N_13 (k13_pay1 (F := Ideal)) (k13_pay2 (F := Ideal)) (k13_pay3 (F := Ideal)) RegHead.pay1_at RegHead.pay2_at pay3_at
    (outsAt13 V c) (iblk13 V c 0) (iblk13 V c 1) (iblk13 V c 2) (iblk13 V c 3) (iblk13 V c 4) (iblk13 V c 5) _ _ _ _ _ _
    (fun t h0 => (outsAt13_A V c t h0).trans
      (piece_A c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (iblk13 V c 0 t) (iblk13 V c 1 t) (iblk13 V c 2 t) (iblk13 V c 3 t) (iblk13 V c 4 t) (iblk13 V c 5 t) ((hcond13_0 t).mpr h0)))
    (fun t h0 => (outsAt13_B V c t h0).trans
      (piece_B c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (iblk13 V c 0 t) (iblk13 V c 1 t) (iblk13 V c 2 t) (iblk13 V c 3 t) (iblk13 V c 4 t) (iblk13 V c 5 t) (fun hh => h0 ((hcond13_0 t).mp hh)) _))
    (blk0_at V c) (blk1_at V c) (blk2_eq V c) (blk3_eq V c) (blk4_eq V c) (blk5_at V c) n h

abbrev tLast : Fin cfg13.N := ⟨24, lt_of_lt_of_eq (by decide : 24 < 25) N_13.symm⟩

-- only the last point writes back, and the 1 × 1 array has one index
theorem final : (dat13 V c).arrAt 6 cfg13.N = outsAt13 V c 24 tLast.isLt :=
  (dat13 V c).arrAt_eq_of_cover 6 (outsAt13 V c 24 tLast.isLt)
    (fun t hf => by
      obtain rfl : t = tLast :=
        Fin.ext ((Nat.mod_eq_of_lt (lt_of_lt_of_eq t.isLt (show cfg13.N = 25 from N_13))).symm.trans ((flush13_6 t).mp hf))
      show (cfg13.win 6).cut (grid13.coords tLast) ((dat13 V c).after 6 tLast) = _
      rw [after13_6]
      funext j
      exact congrArg (outsAt13 V c 24 tLast.isLt : Vec Ideal S1x1 .f32) (RegHead.idx11_eq _ _))
    (fun i => ⟨tLast, (flush13_6 tLast).mpr rfl, by
      have h := ((cfg13.win 6).blk tLast).view.emb_mem_set i
      rwa [RegHead.idx11_eq (((cfg13.win 6).blk tLast).view.emb i) i] at h⟩)

end Reg13

theorem reg13_at (V : (c : Dev nD) → (b : Ref sig .tc) → Buf (Elt Ideal) ((c : Thread nD τ).loc b)) (c : Dev nD) :
    (dat13 (F := Ideal) V c).arrAt 6 cfg13.N (ix2 (0 : Fin 1) (0 : Fin 1))
      = Spec.headKernel (V c (Pipeline.arrRef spec13 5))
          (Spec.sigLayer (V c (Pipeline.arrRef spec13 0)) (V c (Pipeline.arrRef spec13 1)) (V c (Pipeline.arrRef spec13 2)) (V c (Pipeline.arrRef spec13 3)) (V c (Pipeline.arrRef spec13 4))) :=
  (congrFun (Reg13.final V c) (ix2 (0 : Fin 1) (0 : Fin 1))).trans (Reg13.outsAt_eq V c 24 (Reg13.tLast).isLt)

end Cert.KernelIdeal.Gen

end
-- ==== Proof.ChainB3.lean ====
import proofs.«181152_j39822936769202_1_alg».proof.Proof.Gen.KernelIdeal.Frame
import proofs.«181152_j39822936769202_1_alg».proof.Proof.KVals
import proofs.«181152_j39822936769202_1_alg».proof.Proof.Carry
import proofs.«181152_j39822936769202_1_alg».proof.Proof.ChainB
import proofs.«181152_j39822936769202_1_alg».proof.Proof.ChainB2
import proofs.«181152_j39822936769202_1_alg».proof.Proof.Reg12
import proofs.«181152_j39822936769202_1_alg».proof.Proof.Reg13
import Idealize.ShloMosaic.Lib.StableHlo.Run
import Idealize.ShloMosaic.Lib.ValueIdx

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable (m : (ℓ : Loc nD τ sig) → Buf (Elt Ideal) ℓ) (ρ : Dev nD → PrngReg)

namespace ChainB3

open ChainB

theorem C32_v113 (c : Dev nD) :
    @Eq (FVec Ideal S_ .f32) (W32 m ρ c (Proc.devRef .tc main_v113))
      (addf (W20 m ρ c (Proc.devRef .tc main_v101)) (shapeCast S_ (W20 m ρ c (Proc.devRef .tc main_v111)) shapeCasts_S1x1_S_)) := by
  carryB; exact ChainB.B21_v113 m ρ c
theorem C32_arg3 (c : Dev nD) : @Eq (IVec S2x50000x3 32) (W32 m ρ c (Proc.devRef .tc main_arg3)) (A m c).y := by carryB_rfl

theorem C33_v194 (c : Dev nD) :
    @Eq (FVec Ideal S_ .f32) (W33 m ρ c (Proc.devRef .tc main_v194))
      (addf (addf (W20 m ρ c (Proc.devRef .tc main_v101)) (shapeCast S_ (W20 m ρ c (Proc.devRef .tc main_v111)) shapeCasts_S1x1_S_))
        (shapeCast S_ (KVals.HK10 (A m c)) shapeCasts_S1x1_S_)) := by
  show StableHlo.after hostOps12 (W32 m ρ c) (Proc.devRef .tc main_v194) = _
  after_results_simp
  rw [C32_v113, ChainB2.E32_v192]
  rfl

theorem C34_v197 (c : Dev nD) : @Eq (FVec Ideal S50000x8 .f32) (W34 m ρ c (Proc.devRef .tc main_v197)) (KVals.oh11 (A m c)) := by
  show StableHlo.after hostOps12_1 (W33 m ρ c) (Proc.devRef .tc main_v197) = _
  after_results_simp
  rw [C32_arg3]
  rfl

theorem C32_arg19 (c : Dev nD) : @Eq (FVec Ideal S2x64x8 .f32) (W32 m ρ c (Proc.devRef .tc main_arg19)) (A m c).Wl_mt2 := by carryB_rfl
theorem C32_arg21 (c : Dev nD) : @Eq (FVec Ideal S2x64x8 .f32) (W32 m ρ c (Proc.devRef .tc main_arg21)) (A m c).Wr_mt2 := by carryB_rfl
theorem C32_arg20 (c : Dev nD) : @Eq (FVec Ideal S2x8 .f32) (W32 m ρ c (Proc.devRef .tc main_arg20)) (A m c).bl_mt2 := by carryB_rfl

theorem C35_v199 (c : Dev nD) : @Eq (FVec Ideal S64x8 .f32) (W35 m ρ c (Proc.devRef .tc main_v199)) (KVals.wl11 (A m c)) := by
  show StableHlo.after hostOps12_2 (W34 m ρ c) (Proc.devRef .tc main_v199) = _
  after_results_simp
  rw [C32_arg19]
  rfl
theorem C35_v201 (c : Dev nD) : @Eq (FVec Ideal S64x8 .f32) (W35 m ρ c (Proc.devRef .tc main_v201)) (KVals.wr11 (A m c)) := by
  show StableHlo.after hostOps12_2 (W34 m ρ c) (Proc.devRef .tc main_v201) = _
  after_results_simp
  rw [C32_arg21]
  rfl
theorem C35_v203 (c : Dev nD) : @Eq (FVec Ideal S8 .f32) (W35 m ρ c (Proc.devRef .tc main_v203)) (KVals.bl11 (A m c)) := by
  show StableHlo.after hostOps12_2 (W34 m ρ c) (Proc.devRef .tc main_v203) = _
  after_results_simp
  rw [C32_arg20]
  rfl

theorem C35_v182 (c : Dev nD) :
    @Eq (FVec Ideal S50000x64 .f32) (W35 m ρ c (Proc.devRef .tc main_v182)) (Vals.agg64 (A m c).es (A m c).ed (KVals.hk1 (A m c))) := by
  carryB; exact ChainB2.E29_v182 m ρ c
theorem C35_v170 (c : Dev nD) : @Eq (FVec Ideal S50000x64 .f32) (W35 m ρ c (Proc.devRef .tc main_v170)) (KVals.hk1 (A m c)) := by
  carryB; exact ChainB.B28_v170 m ρ c
theorem C35_v197 (c : Dev nD) : @Eq (FVec Ideal S50000x8 .f32) (W35 m ρ c (Proc.devRef .tc main_v197)) (KVals.oh11 (A m c)) := by
  carryB; exact C34_v197 m ρ c

theorem C36_v204 (c : Dev nD) : @Eq (FVec Ideal S1x1 .f32) (W36 m ρ c (Proc.devRef .tc main_v204)) (KVals.HK11 (A m c)) := by
  refine (W36_arr m ρ c 6).trans ?_
  funext j
  obtain ⟨r, q, rfl⟩ : ∃ r q, j = ix2 r q := ⟨j 0, j 1, eq_ix2 j⟩
  obtain rfl : r = 0 := Subsingleton.elim _ _
  obtain rfl : q = 0 := Subsingleton.elim _ _
  refine (reg12_at (V35 m ρ) c).trans ?_
  rw [show V35 m ρ c (Pipeline.arrRef spec12 0) = _ from C35_v182 m ρ c,
    show V35 m ρ c (Pipeline.arrRef spec12 1) = _ from C35_v170 m ρ c,
    show V35 m ρ c (Pipeline.arrRef spec12 2) = _ from C35_v199 m ρ c,
    show V35 m ρ c (Pipeline.arrRef spec12 3) = _ from C35_v201 m ρ c,
    show V35 m ρ c (Pipeline.arrRef spec12 4) = _ from C35_v203 m ρ c,
    show V35 m ρ c (Pipeline.arrRef spec12 5) = _ from C35_v197 m ρ c]
  rfl

theorem C36_v194 (c : Dev nD) :
    @Eq (FVec Ideal S_ .f32) (W36 m ρ c (Proc.devRef .tc main_v194))
      (addf (addf (W20 m ρ c (Proc.devRef .tc main_v101)) (shapeCast S_ (W20 m ρ c (Proc.devRef .tc main_v111)) shapeCasts_S1x1_S_))
        (shapeCast S_ (KVals.HK10 (A m c)) shapeCasts_S1x1_S_)) := by
  carryB; exact C33_v194 m ρ c
theorem C36_arg3 (c : Dev nD) : @Eq (IVec S2x50000x3 32) (W36 m ρ c (Proc.devRef .tc main_arg3)) (A m c).y := by carryB_rfl

theorem C37_v206 (c : Dev nD) :
    @Eq (FVec Ideal S_ .f32) (W37 m ρ c (Proc.devRef .tc main_v206))
      (addf (addf (addf (W20 m ρ c (Proc.devRef .tc main_v101)) (shapeCast S_ (W20 m ρ c (Proc.devRef .tc main_v111)) shapeCasts_S1x1_S_))
        (shapeCast S_ (KVals.HK10 (A m c)) shapeCasts_S1x1_S_)) (shapeCast S_ (KVals.HK11 (A m c)) shapeCasts_S1x1_S_)) := by
  show StableHlo.after hostOps13 (W36 m ρ c) (Proc.devRef .tc main_v206) = _
  after_results_simp
  rw [C36_v194, C36_v204]
  rfl

theorem C38_v209 (c : Dev nD) : @Eq (FVec Ideal S50000x5 .f32) (W38 m ρ c (Proc.devRef .tc main_v209)) (KVals.oh12 (A m c)) := by
  show StableHlo.after hostOps13_1 (W37 m ρ c) (Proc.devRef .tc main_v209) = _
  after_results_simp
  rw [C36_arg3]
  rfl

theorem C36_arg22 (c : Dev nD) : @Eq (FVec Ideal S2x64x5 .f32) (W36 m ρ c (Proc.devRef .tc main_arg22)) (A m c).Wl_mt3 := by carryB_rfl
theorem C36_arg24 (c : Dev nD) : @Eq (FVec Ideal S2x64x5 .f32) (W36 m ρ c (Proc.devRef .tc main_arg24)) (A m c).Wr_mt3 := by carryB_rfl
theorem C36_arg23 (c : Dev nD) : @Eq (FVec Ideal S2x5 .f32) (W36 m ρ c (Proc.devRef .tc main_arg23)) (A m c).bl_mt3 := by carryB_rfl

theorem C39_v211 (c : Dev nD) : @Eq (FVec Ideal S64x5 .f32) (W39 m ρ c (Proc.devRef .tc main_v211)) (KVals.wl12 (A m c)) := by
  show StableHlo.after hostOps13_2 (W38 m ρ c) (Proc.devRef .tc main_v211) = _
  after_results_simp
  rw [C36_arg22]
  rfl
theorem C39_v213 (c : Dev nD) : @Eq (FVec Ideal S64x5 .f32) (W39 m ρ c (Proc.devRef .tc main_v213)) (KVals.wr12 (A m c)) := by
  show StableHlo.after hostOps13_2 (W38 m ρ c) (Proc.devRef .tc main_v213) = _
  after_results_simp
  rw [C36_arg24]
  rfl
theorem C39_v215 (c : Dev nD) : @Eq (FVec Ideal S5 .f32) (W39 m ρ c (Proc.devRef .tc main_v215)) (KVals.bl12 (A m c)) := by
  show StableHlo.after hostOps13_2 (W38 m ρ c) (Proc.devRef .tc main_v215) = _
  after_results_simp
  rw [C36_arg23]
  rfl

theorem C39_v182 (c : Dev nD) :
    @Eq (FVec Ideal S50000x64 .f32) (W39 m ρ c (Proc.devRef .tc main_v182)) (Vals.agg64 (A m c).es (A m c).ed (KVals.hk1 (A m c))) := by
  carryB; exact ChainB2.E29_v182 m ρ c
theorem C39_v170 (c : Dev nD) : @Eq (FVec Ideal S50000x64 .f32) (W39 m ρ c (Proc.devRef .tc main_v170)) (KVals.hk1 (A m c)) := by
  carryB; exact ChainB.B28_v170 m ρ c
theorem C39_v209 (c : Dev nD) : @Eq (FVec Ideal S50000x5 .f32) (W39 m ρ c (Proc.devRef .tc main_v209)) (KVals.oh12 (A m c)) := by
  carryB; exact C38_v209 m ρ c

theorem C40_v216 (c : Dev nD) : @Eq (FVec Ideal S1x1 .f32) (W40 m ρ c (Proc.devRef .tc main_v216)) (KVals.HK12 (A m c)) := by
  refine (W40_arr m ρ c 6).trans ?_
  funext j
  obtain ⟨r, q, rfl⟩ : ∃ r q, j = ix2 r q := ⟨j 0, j 1, eq_ix2 j⟩
  obtain rfl : r = 0 := Subsingleton.elim _ _
  obtain rfl : q = 0 := Subsingleton.elim _ _
  refine (reg13_at (V39 m ρ) c).trans ?_
  rw [show V39 m ρ c (Pipeline.arrRef spec13 0) = _ from C39_v182 m ρ c,
    show V39 m ρ c (Pipeline.arrRef spec13 1) = _ from C39_v170 m ρ c,
    show V39 m ρ c (Pipeline.arrRef spec13 2) = _ from C39_v211 m ρ c,
    show V39 m ρ c (Pipeline.arrRef spec13 3) = _ from C39_v213 m ρ c,
    show V39 m ρ c (Pipeline.arrRef spec13 4) = _ from C39_v215 m ρ c,
    show V39 m ρ c (Pipeline.arrRef spec13 5) = _ from C39_v209 m ρ c]
  rfl

theorem C40_v206 (c : Dev nD) :
    @Eq (FVec Ideal S_ .f32) (W40 m ρ c (Proc.devRef .tc main_v206))
      (addf (addf (addf (W20 m ρ c (Proc.devRef .tc main_v101)) (shapeCast S_ (W20 m ρ c (Proc.devRef .tc main_v111)) shapeCasts_S1x1_S_))
        (shapeCast S_ (KVals.HK10 (A m c)) shapeCasts_S1x1_S_)) (shapeCast S_ (KVals.HK11 (A m c)) shapeCasts_S1x1_S_)) := by
  carryB; exact C37_v206 m ρ c

end ChainB3

theorem chainB (c : Dev nD) :
    @Eq (FVec Ideal S_ .f32) (W41 m ρ c (Proc.devRef .tc main_v218))
      (addf (addf (addf (addf (W20 m ρ c (Proc.devRef .tc main_v101)) (shapeCast S_ (W20 m ρ c (Proc.devRef .tc main_v111)) shapeCasts_S1x1_S_))
        (shapeCast S_ (KVals.HK10 (KVals.argsK m c)) shapeCasts_S1x1_S_)) (shapeCast S_ (KVals.HK11 (KVals.argsK m c)) shapeCasts_S1x1_S_))
        (shapeCast S_ (KVals.HK12 (KVals.argsK m c)) shapeCasts_S1x1_S_)) := by
  show StableHlo.after hostOps14 (W40 m ρ c) (Proc.devRef .tc main_v218) = _
  after_results_simp
  rw [ChainB3.C40_v206, ChainB3.C40_v216]
  rfl

end Cert.KernelIdeal.Gen

end
-- ==== Proof.lean ====
/-
  The kernel adds up six loss heads, each accumulated tile by tile against a one-hot matrix of its labels; the
  reference adds up six negated means of log-softmax entries picked at the labels. Where every label lies in its head's
  class range the one-hot sum IS the picked entry, so both programs end at the same total of the same argument arrays.
-/
import proofs.«181152_j39822936769202_1_alg».proof.Defs
import proofs.«181152_j39822936769202_1_alg».proof.Proof.Gen.Kernel
import proofs.«181152_j39822936769202_1_alg».proof.Proof.Gen.Kernel.Skeleton
import proofs.«181152_j39822936769202_1_alg».proof.Proof.Gen.Kernel.Launch
import proofs.«181152_j39822936769202_1_alg».proof.Proof.Gen.Kernel.Points
import proofs.«181152_j39822936769202_1_alg».proof.Proof.Gen.Kernel.Frame
import proofs.«181152_j39822936769202_1_alg».proof.Proof.Gen.KernelIdeal
import proofs.«181152_j39822936769202_1_alg».proof.Proof.Gen.KernelIdeal.Skeleton
import proofs.«181152_j39822936769202_1_alg».proof.Proof.Gen.KernelIdeal.Launch
import proofs.«181152_j39822936769202_1_alg».proof.Proof.Gen.KernelIdeal.Points
import proofs.«181152_j39822936769202_1_alg».proof.Proof.Gen.KernelIdeal.Frame
import proofs.«181152_j39822936769202_1_alg».proof.Proof.Gen.ReferenceIdeal
import proofs.«181152_j39822936769202_1_alg».proof.Proof.Gen.Pre_finite_inputs
import Idealize.ShloMosaic.Adequacy
import Idealize.ShloMosaic.Init
import proofs.«181152_j39822936769202_1_alg».proof.Proof.KVals
import proofs.«181152_j39822936769202_1_alg».proof.Proof.KRun
import proofs.«181152_j39822936769202_1_alg».proof.Proof.PreDecode
import proofs.«181152_j39822936769202_1_alg».proof.Proof.Bridge
import proofs.«181152_j39822936769202_1_alg».proof.Proof.RefSide
import proofs.«181152_j39822936769202_1_alg».proof.Proof.ChainA2
import proofs.«181152_j39822936769202_1_alg».proof.Proof.ChainB3
import Idealize.ShloMosaic.Lib.ValueIdx

noncomputable section

namespace Cert.Proof

open Idealize.ShloMosaic Idealize.ShloMosaic.ValueIdx Idealize.SL.Sem

/-- The six ledger entries are one named constant, 1/50000, at its six occurrences. -/
theorem preserves : Cert.preserves_Kernel_KernelIdeal :=
  ⟨IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl⟩

/-- The precondition bounds each of the six label vectors by its head's class count. -/
theorem lab_all (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ r : Fin 50000, 0 ≤ (KVals.lab00 (KVals.argsK m c) (ix1 r)).toInt ∧ (KVals.lab00 (KVals.argsK m c) (ix1 r)).toInt < 12)
    ∧ (∀ r : Fin 50000, 0 ≤ (KVals.lab01 (KVals.argsK m c) (ix1 r)).toInt ∧ (KVals.lab01 (KVals.argsK m c) (ix1 r)).toInt < 8)
    ∧ (∀ r : Fin 50000, 0 ≤ (KVals.lab02 (KVals.argsK m c) (ix1 r)).toInt ∧ (KVals.lab02 (KVals.argsK m c) (ix1 r)).toInt < 5)
    ∧ (∀ r : Fin 50000, 0 ≤ (KVals.lab10 (KVals.argsK m c) (ix1 r)).toInt ∧ (KVals.lab10 (KVals.argsK m c) (ix1 r)).toInt < 12)
    ∧ (∀ r : Fin 50000, 0 ≤ (KVals.lab11 (KVals.argsK m c) (ix1 r)).toInt ∧ (KVals.lab11 (KVals.argsK m c) (ix1 r)).toInt < 8)
    ∧ (∀ r : Fin 50000, 0 ≤ (KVals.lab12 (KVals.argsK m c) (ix1 r)).toInt ∧ (KVals.lab12 (KVals.argsK m c) (ix1 r)).toInt < 5) :=
  ⟨fun r => (Cert.PreDecode.lab_range m hpre c r).1,
   fun r => (Cert.PreDecode.lab_range m hpre c r).2.1,
   fun r => (Cert.PreDecode.lab_range m hpre c r).2.2.1,
   fun r => (Cert.PreDecode.lab_range m hpre c r).2.2.2.1,
   fun r => (Cert.PreDecode.lab_range m hpre c r).2.2.2.2.1,
   fun r => (Cert.PreDecode.lab_range m hpre c r).2.2.2.2.2⟩

theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (Cert.KernelIdeal.Gen.W41 m ρ c (Proc.devRef .tc Cert.KernelIdeal.main_v218) : FVec Ideal Cert.KernelIdeal.S_ .f32) = KVals.lossK (KVals.argsK m c) := by
  rw [Cert.KernelIdeal.Gen.chainB m ρ c, Cert.KernelIdeal.Gen.chainA_loss2 m ρ c, Cert.KernelIdeal.Gen.chainA_head2 m ρ c]
  rfl

/-- Both runs end at a total of the same arrays; the totals agree because the labels are in range. -/
theorem algebraic : Cert.algebraic_KernelIdeal_ReferenceIdeal := by
  intro m ρ m' ρ' hpre hagree

  have hA : ∀ c : Dev Cert.KernelIdeal.nD, Cert.RefSide.argsR m' c = KVals.argsK m c := fun c => by
    unfold Cert.RefSide.argsR Cert.KVals.argsK
    rw [Cert.KVals.Args.mk.injEq]
    exact hagree c
  have hL := lab_all m hpre
  refine ⟨fun c => KVals.lossK (KVals.argsK m c), ?_, ?_⟩
  · refine (θ_run Cert.KernelIdeal.defs _ _).mono (fun s h c => ?_) (Cert.KernelIdeal.Gen.run_all (F := Ideal) m ρ)
    exact ⟨(h c _ (Cert.KernelIdeal.Gen.mem_uc Cert.KernelIdeal.main_v218 (by decide))).trans (kernel_value m ρ c),
      (h c _ (Cert.KernelIdeal.Gen.mem_uc Cert.KernelIdeal.main_arg0 (by decide))).trans (Cert.KernelIdeal.Gen.W41_main_arg0 m ρ c),
      (h c _ (Cert.KernelIdeal.Gen.mem_uc Cert.KernelIdeal.main_arg1 (by decide))).trans (Cert.KernelIdeal.Gen.W41_main_arg1 m ρ c),
      (h c _ (Cert.KernelIdeal.Gen.mem_uc Cert.KernelIdeal.main_arg2 (by decide))).trans (Cert.KernelIdeal.Gen.W41_main_arg2 m ρ c),
      (h c _ (Cert.KernelIdeal.Gen.mem_uc Cert.KernelIdeal.main_arg3 (by decide))).trans (Cert.KernelIdeal.Gen.W41_main_arg3 m ρ c),
      (h c _ (Cert.KernelIdeal.Gen.mem_uc Cert.KernelIdeal.main_arg4 (by decide))).trans (Cert.KernelIdeal.Gen.W41_main_arg4 m ρ c),
      (h c _ (Cert.KernelIdeal.Gen.mem_uc Cert.KernelIdeal.main_arg5 (by decide))).trans (Cert.KernelIdeal.Gen.W41_main_arg5 m ρ c),
      (h c _ (Cert.KernelIdeal.Gen.mem_uc Cert.KernelIdeal.main_arg6 (by decide))).trans (Cert.KernelIdeal.Gen.W41_main_arg6 m ρ c),
      (h c _ (Cert.KernelIdeal.Gen.mem_uc Cert.KernelIdeal.main_arg7 (by decide))).trans (Cert.KernelIdeal.Gen.W41_main_arg7 m ρ c),
      (h c _ (Cert.KernelIdeal.Gen.mem_uc Cert.KernelIdeal.main_arg8 (by decide))).trans (Cert.KernelIdeal.Gen.W41_main_arg8 m ρ c),
      (h c _ (Cert.KernelIdeal.Gen.mem_uc Cert.KernelIdeal.main_arg9 (by decide))).trans (Cert.KernelIdeal.Gen.W41_main_arg9 m ρ c),
      (h c _ (Cert.KernelIdeal.Gen.mem_uc Cert.KernelIdeal.main_arg10 (by decide))).trans (Cert.KernelIdeal.Gen.W41_main_arg10 m ρ c),
      (h c _ (Cert.KernelIdeal.Gen.mem_uc Cert.KernelIdeal.main_arg11 (by decide))).trans (Cert.KernelIdeal.Gen.W41_main_arg11 m ρ c),
      (h c _ (Cert.KernelIdeal.Gen.mem_uc Cert.KernelIdeal.main_arg12 (by decide))).trans (Cert.KernelIdeal.Gen.W41_main_arg12 m ρ c),
      (h c _ (Cert.KernelIdeal.Gen.mem_uc Cert.KernelIdeal.main_arg13 (by decide))).trans (Cert.KernelIdeal.Gen.W41_main_arg13 m ρ c),
      (h c _ (Cert.KernelIdeal.Gen.mem_uc Cert.KernelIdeal.main_arg14 (by decide))).trans (Cert.KernelIdeal.Gen.W41_main_arg14 m ρ c),
      (h c _ (Cert.KernelIdeal.Gen.mem_uc Cert.KernelIdeal.main_arg15 (by decide))).trans (Cert.KernelIdeal.Gen.W41_main_arg15 m ρ c),
      (h c _ (Cert.KernelIdeal.Gen.mem_uc Cert.KernelIdeal.main_arg16 (by decide))).trans (Cert.KernelIdeal.Gen.W41_main_arg16 m ρ c),
      (h c _ (Cert.KernelIdeal.Gen.mem_uc Cert.KernelIdeal.main_arg17 (by decide))).trans (Cert.KernelIdeal.Gen.W41_main_arg17 m ρ c),
      (h c _ (Cert.KernelIdeal.Gen.mem_uc Cert.KernelIdeal.main_arg18 (by decide))).trans (Cert.KernelIdeal.Gen.W41_main_arg18 m ρ c),
      (h c _ (Cert.KernelIdeal.Gen.mem_uc Cert.KernelIdeal.main_arg19 (by decide))).trans (Cert.KernelIdeal.Gen.W41_main_arg19 m ρ c),
      (h c _ (Cert.KernelIdeal.Gen.mem_uc Cert.KernelIdeal.main_arg20 (by decide))).trans (Cert.KernelIdeal.Gen.W41_main_arg20 m ρ c),
      (h c _ (Cert.KernelIdeal.Gen.mem_uc Cert.KernelIdeal.main_arg21 (by decide))).trans (Cert.KernelIdeal.Gen.W41_main_arg21 m ρ c),
      (h c _ (Cert.KernelIdeal.Gen.mem_uc Cert.KernelIdeal.main_arg22 (by decide))).trans (Cert.KernelIdeal.Gen.W41_main_arg22 m ρ c),
      (h c _ (Cert.KernelIdeal.Gen.mem_uc Cert.KernelIdeal.main_arg23 (by decide))).trans (Cert.KernelIdeal.Gen.W41_main_arg23 m ρ c),
      (h c _ (Cert.KernelIdeal.Gen.mem_uc Cert.KernelIdeal.main_arg24 (by decide))).trans (Cert.KernelIdeal.Gen.W41_main_arg24 m ρ c)⟩
  · refine (θ_run Cert.ReferenceIdeal.defs _ _).mono (fun s h c => ⟨(h c).1.trans ?_, (h c).2⟩)
      (Cert.RefSide.ref_run m' ρ' (fun c => by rw [hA c]; exact hL c))
    rw [hA c]
    exact (Cert.Bridge.loss_eq _ (hL c).1 (hL c).2.1 (hL c).2.2.1 (hL c).2.2.2.1 (hL c).2.2.2.2.1 (hL c).2.2.2.2.2).symm

theorem claim : Cert.Claim := ⟨Cert.Kernel.Gen.facts, Cert.KernelIdeal.Gen.facts, Cert.ReferenceIdeal.Gen.facts, Cert.Pre_finite_inputs.Gen.facts, by
  exact ⟨fun m ρ _ => Cert.Kernel.Gen.frame m ρ, fun m ρ _ => Cert.KernelIdeal.Gen.frame m ρ,
    fun m ρ _ => Cert.RefSide.ref_frame m ρ, preserves, algebraic⟩⟩

end Cert.Proof

end
